-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S10000x128 : Shape := ⟨2, ![10000, 128]⟩
abbrev S10000x32 : Shape := ⟨2, ![10000, 32]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x32 : S_.BroadcastsInDim S10000x32 (![] : Fin 0 → Fin S10000x32.rank)
  reducesTo_S10000x32_S_d0_1 : S10000x32.ReducesTo [0, 1] S_

variable [Facts]

def fn {F : FTy → Type} [FloatOps F] (main_arg0 : FVec F S10000x128 .f32) (main_arg1 : IVec S10000x32 32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_c_0 : IVec S_ 32 := constantI S_ 32 0#32
  let main_v4 : IVec S10000x32 32 := broadcastInDim S10000x32 ![] bcast_S_S10000x32 main_c_0
  let main_v5 : IVec S10000x32 1 := cmpi .sge main_arg1 main_v4
  let main_c_1 : IVec S_ 32 := constantI S_ 32 9999#32
  let main_v6 : IVec S10000x32 32 := broadcastInDim S10000x32 ![] bcast_S_S10000x32 main_c_1
  let main_v7 : IVec S10000x32 1 := cmpi .sle main_arg1 main_v6
  let main_v8 : IVec S10000x32 1 := andi main_v5 main_v7
  let main_c_2 : IVec S_ 1 := constantI S_ 1 1#1
  let main_v9 : IVec S_ 1 := (fun x v => Host.reduce IntOp.andi x v reducesTo_S10000x32_S_d0_1 h_S_) main_v8 main_c_2
  let main_v10 : IVec S_ 1 := andi main_v3 main_v9
  main_v10
-- ==== Kernel.lean ====
abbrev S10000x128 : Shape := ⟨2, ![10000, 128]⟩
abbrev S10000x32 : Shape := ⟨2, ![10000, 32]⟩
abbrev S_ : Shape := ⟨0, ![]⟩
abbrev S2000x32 : Shape := ⟨2, ![2000, 32]⟩
abbrev S32x25x80 : Shape := ⟨3, ![32, 25, 80]⟩
abbrev S64000x128 : Shape := ⟨2, ![64000, 128]⟩
abbrev S25x80 : Shape := ⟨2, ![25, 80]⟩
abbrev S5x80x128 : Shape := ⟨3, ![5, 80, 128]⟩
abbrev S5 : Shape := ⟨1, ![5]⟩
abbrev S1x25x80 : Shape := ⟨3, ![1, 25, 80]⟩
abbrev S1x80x128 : Shape := ⟨3, ![1, 80, 128]⟩
abbrev S80x128 : Shape := ⟨2, ![80, 128]⟩
abbrev S1x80 : Shape := ⟨2, ![1, 80]⟩
abbrev S80 : Shape := ⟨1, ![80]⟩
abbrev S1 : Shape := ⟨1, ![1]⟩
abbrev S2000x128 : Shape := ⟨2, ![2000, 128]⟩
abbrev S12800x128 : Shape := ⟨2, ![12800, 128]⟩
abbrev S400x128 : Shape := ⟨2, ![400, 128]⟩
abbrev S128x128 : Shape := ⟨2, ![128, 128]⟩
abbrev S400x32x128 : Shape := ⟨3, ![400, 32, 128]⟩
abbrev S400x1x128 : Shape := ⟨3, ![400, 1, 128]⟩

abbrev nBuf : Table → Nat
  | .hbm => 38
  | .local .tc .vmem => 30
  | .local .scVector .vmem => 10
  | _ => 0

abbrev bufTy : (tb : Table) → Fin (nBuf tb) → BufTy
  | .hbm, ⟨0, _⟩ => ⟨S10000x128, .f32⟩
  | .hbm, ⟨1, _⟩ => ⟨S10000x32, .i32⟩
  | .hbm, ⟨2, _⟩ => ⟨S_, .i32⟩
  | .hbm, ⟨3, _⟩ => ⟨S10000x32, .i32⟩
  | .hbm, ⟨4, _⟩ => ⟨S10000x32, .i1⟩
  | .hbm, ⟨5, _⟩ => ⟨S_, .i32⟩
  | .hbm, ⟨6, _⟩ => ⟨S10000x32, .i32⟩
  | .hbm, ⟨7, _⟩ => ⟨S10000x32, .i32⟩
  | .hbm, ⟨8, _⟩ => ⟨S_, .i32⟩
  | .hbm, ⟨9, _⟩ => ⟨S_, .i32⟩
  | .hbm, ⟨10, _⟩ => ⟨S10000x32, .i32⟩
  | .hbm, ⟨11, _⟩ => ⟨S10000x32, .i32⟩
  | .hbm, ⟨12, _⟩ => ⟨S2000x32, .i32⟩
  | .hbm, ⟨13, _⟩ => ⟨S32x25x80, .i32⟩
  | .hbm, ⟨14, _⟩ => ⟨S64000x128, .f32⟩
  | .hbm, ⟨15, _⟩ => ⟨S2000x128, .f32⟩
  | .hbm, ⟨16, _⟩ => ⟨S2000x128, .f32⟩
  | .hbm, ⟨17, _⟩ => ⟨S2000x32, .i32⟩
  | .hbm, ⟨18, _⟩ => ⟨S32x25x80, .i32⟩
  | .hbm, ⟨19, _⟩ => ⟨S64000x128, .f32⟩
  | .hbm, ⟨20, _⟩ => ⟨S2000x128, .f32⟩
  | .hbm, ⟨21, _⟩ => ⟨S2000x128, .f32⟩
  | .hbm, ⟨22, _⟩ => ⟨S2000x32, .i32⟩
  | .hbm, ⟨23, _⟩ => ⟨S32x25x80, .i32⟩
  | .hbm, ⟨24, _⟩ => ⟨S64000x128, .f32⟩
  | .hbm, ⟨25, _⟩ => ⟨S2000x128, .f32⟩
  | .hbm, ⟨26, _⟩ => ⟨S2000x128, .f32⟩
  | .hbm, ⟨27, _⟩ => ⟨S2000x32, .i32⟩
  | .hbm, ⟨28, _⟩ => ⟨S32x25x80, .i32⟩
  | .hbm, ⟨29, _⟩ => ⟨S64000x128, .f32⟩
  | .hbm, ⟨30, _⟩ => ⟨S2000x128, .f32⟩
  | .hbm, ⟨31, _⟩ => ⟨S2000x128, .f32⟩
  | .hbm, ⟨32, _⟩ => ⟨S2000x32, .i32⟩
  | .hbm, ⟨33, _⟩ => ⟨S32x25x80, .i32⟩
  | .hbm, ⟨34, _⟩ => ⟨S64000x128, .f32⟩
  | .hbm, ⟨35, _⟩ => ⟨S2000x128, .f32⟩
  | .hbm, ⟨36, _⟩ => ⟨S2000x128, .f32⟩
  | .hbm, ⟨37, _⟩ => ⟨S10000x128, .f32⟩
  | .local .tc .vmem, ⟨0, _⟩ => ⟨S12800x128, .f32⟩
  | .local .tc .vmem, ⟨1, _⟩ => ⟨S12800x128, .f32⟩
  | .local .tc .vmem, ⟨2, _⟩ => ⟨S400x128, .f32⟩
  | .local .tc .vmem, ⟨3, _⟩ => ⟨S400x128, .f32⟩
  | .local .tc .vmem, ⟨4, _⟩ => ⟨S400x128, .f32⟩
  | .local .tc .vmem, ⟨5, _⟩ => ⟨S400x128, .f32⟩
  | .local .tc .vmem, ⟨6, _⟩ => ⟨S12800x128, .f32⟩
  | .local .tc .vmem, ⟨7, _⟩ => ⟨S12800x128, .f32⟩
  | .local .tc .vmem, ⟨8, _⟩ => ⟨S400x128, .f32⟩
  | .local .tc .vmem, ⟨9, _⟩ => ⟨S400x128, .f32⟩
  | .local .tc .vmem, ⟨10, _⟩ => ⟨S400x128, .f32⟩
  | .local .tc .vmem, ⟨11, _⟩ => ⟨S400x128, .f32⟩
  | .local .tc .vmem, ⟨12, _⟩ => ⟨S12800x128, .f32⟩
  | .local .tc .vmem, ⟨13, _⟩ => ⟨S12800x128, .f32⟩
  | .local .tc .vmem, ⟨14, _⟩ => ⟨S400x128, .f32⟩
  | .local .tc .vmem, ⟨15, _⟩ => ⟨S400x128, .f32⟩
  | .local .tc .vmem, ⟨16, _⟩ => ⟨S400x128, .f32⟩
  | .local .tc .vmem, ⟨17, _⟩ => ⟨S400x128, .f32⟩
  | .local .tc .vmem, ⟨18, _⟩ => ⟨S12800x128, .f32⟩
  | .local .tc .vmem, ⟨19, _⟩ => ⟨S12800x128, .f32⟩
  | .local .tc .vmem, ⟨20, _⟩ => ⟨S400x128, .f32⟩
  | .local .tc .vmem, ⟨21, _⟩ => ⟨S400x128, .f32⟩
  | .local .tc .vmem, ⟨22, _⟩ => ⟨S400x128, .f32⟩
  | .local .tc .vmem, ⟨23, _⟩ => ⟨S400x128, .f32⟩
  | .local .tc .vmem, ⟨24, _⟩ => ⟨S12800x128, .f32⟩
  | .local .tc .vmem, ⟨25, _⟩ => ⟨S12800x128, .f32⟩
  | .local .tc .vmem, ⟨26, _⟩ => ⟨S400x128, .f32⟩
  | .local .tc .vmem, ⟨27, _⟩ => ⟨S400x128, .f32⟩
  | .local .tc .vmem, ⟨28, _⟩ => ⟨S400x128, .f32⟩
  | .local .tc .vmem, ⟨29, _⟩ => ⟨S400x128, .f32⟩
  | .local .scVector .vmem, ⟨0, _⟩ => ⟨S25x80, .i32⟩
  | .local .scVector .vmem, ⟨1, _⟩ => ⟨S5x80x128, .f32⟩
  | .local .scVector .vmem, ⟨2, _⟩ => ⟨S25x80, .i32⟩
  | .local .scVector .vmem, ⟨3, _⟩ => ⟨S5x80x128, .f32⟩
  | .local .scVector .vmem, ⟨4, _⟩ => ⟨S25x80, .i32⟩
  | .local .scVector .vmem, ⟨5, _⟩ => ⟨S5x80x128, .f32⟩
  | .local .scVector .vmem, ⟨6, _⟩ => ⟨S25x80, .i32⟩
  | .local .scVector .vmem, ⟨7, _⟩ => ⟨S5x80x128, .f32⟩
  | .local .scVector .vmem, ⟨8, _⟩ => ⟨S25x80, .i32⟩
  | .local .scVector .vmem, ⟨9, _⟩ => ⟨S5x80x128, .f32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 85 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => true
  | ⟨12, _⟩ => true
  | ⟨13, _⟩ => true
  | ⟨14, _⟩ => true
  | ⟨15, _⟩ => true
  | ⟨16, _⟩ => true
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => true
  | ⟨29, _⟩ => true
  | ⟨30, _⟩ => true
  | ⟨31, _⟩ => true
  | ⟨32, _⟩ => true
  | ⟨33, _⟩ => true
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => true
  | ⟨46, _⟩ => true
  | ⟨47, _⟩ => true
  | ⟨48, _⟩ => true
  | ⟨49, _⟩ => true
  | ⟨50, _⟩ => true
  | ⟨51, _⟩ => false
  | ⟨52, _⟩ => false
  | ⟨53, _⟩ => false
  | ⟨54, _⟩ => false
  | ⟨55, _⟩ => false
  | ⟨56, _⟩ => false
  | ⟨57, _⟩ => false
  | ⟨58, _⟩ => false
  | ⟨59, _⟩ => false
  | ⟨60, _⟩ => false
  | ⟨61, _⟩ => false
  | ⟨62, _⟩ => true
  | ⟨63, _⟩ => true
  | ⟨64, _⟩ => true
  | ⟨65, _⟩ => true
  | ⟨66, _⟩ => true
  | ⟨67, _⟩ => true
  | ⟨68, _⟩ => false
  | ⟨69, _⟩ => false
  | ⟨70, _⟩ => false
  | ⟨71, _⟩ => false
  | ⟨72, _⟩ => false
  | ⟨73, _⟩ => false
  | ⟨74, _⟩ => false
  | ⟨75, _⟩ => false
  | ⟨76, _⟩ => false
  | ⟨77, _⟩ => false
  | ⟨78, _⟩ => false
  | ⟨79, _⟩ => true
  | ⟨80, _⟩ => true
  | ⟨81, _⟩ => true
  | ⟨82, _⟩ => true
  | ⟨83, _⟩ => true
  | ⟨84, _⟩ => true
  | _ => false

abbrev sig : RefSig :=
  ofTables nBuf rfl bufTy 4 85 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_c_1 : Ref sig .tc := ⟨.hbm, 8, rfl⟩
abbrev main_call0_v0 : Ref sig .tc := ⟨.hbm, 9, rfl⟩
abbrev main_call0_v1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_arg0_scv : Ref sig .scVector := ⟨.hbm, 0, rfl⟩
abbrev main_v6_scv : Ref sig .scVector := ⟨.hbm, 13, rfl⟩
abbrev main_v7_scv : Ref sig .scVector := ⟨.hbm, 14, rfl⟩
abbrev main_v11_scv : Ref sig .scVector := ⟨.hbm, 18, rfl⟩
abbrev main_v12_scv : Ref sig .scVector := ⟨.hbm, 19, rfl⟩
abbrev main_v16_scv : Ref sig .scVector := ⟨.hbm, 23, rfl⟩
abbrev main_v17_scv : Ref sig .scVector := ⟨.hbm, 24, rfl⟩
abbrev main_v21_scv : Ref sig .scVector := ⟨.hbm, 28, rfl⟩
abbrev main_v22_scv : Ref sig .scVector := ⟨.hbm, 29, rfl⟩
abbrev main_v26_scv : Ref sig .scVector := ⟨.hbm, 33, rfl⟩
abbrev main_v27_scv : Ref sig .scVector := ⟨.hbm, 34, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc3_stg0_0 : Ref sig .tc := ⟨.vmem, 6, rfl⟩
abbrev cc3_stg0_1 : Ref sig .tc := ⟨.vmem, 7, rfl⟩
abbrev cc3_stg1_0 : Ref sig .tc := ⟨.vmem, 8, rfl⟩
abbrev cc3_stg1_1 : Ref sig .tc := ⟨.vmem, 9, rfl⟩
abbrev cc3_stg2_0 : Ref sig .tc := ⟨.vmem, 10, rfl⟩
abbrev cc3_stg2_1 : Ref sig .tc := ⟨.vmem, 11, rfl⟩
abbrev cc5_stg0_0 : Ref sig .tc := ⟨.vmem, 12, rfl⟩
abbrev cc5_stg0_1 : Ref sig .tc := ⟨.vmem, 13, rfl⟩
abbrev cc5_stg1_0 : Ref sig .tc := ⟨.vmem, 14, rfl⟩
abbrev cc5_stg1_1 : Ref sig .tc := ⟨.vmem, 15, rfl⟩
abbrev cc5_stg2_0 : Ref sig .tc := ⟨.vmem, 16, rfl⟩
abbrev cc5_stg2_1 : Ref sig .tc := ⟨.vmem, 17, rfl⟩
abbrev cc7_stg0_0 : Ref sig .tc := ⟨.vmem, 18, rfl⟩
abbrev cc7_stg0_1 : Ref sig .tc := ⟨.vmem, 19, rfl⟩
abbrev cc7_stg1_0 : Ref sig .tc := ⟨.vmem, 20, rfl⟩
abbrev cc7_stg1_1 : Ref sig .tc := ⟨.vmem, 21, rfl⟩
abbrev cc7_stg2_0 : Ref sig .tc := ⟨.vmem, 22, rfl⟩
abbrev cc7_stg2_1 : Ref sig .tc := ⟨.vmem, 23, rfl⟩
abbrev cc9_stg0_0 : Ref sig .tc := ⟨.vmem, 24, rfl⟩
abbrev cc9_stg0_1 : Ref sig .tc := ⟨.vmem, 25, rfl⟩
abbrev cc9_stg1_0 : Ref sig .tc := ⟨.vmem, 26, rfl⟩
abbrev cc9_stg1_1 : Ref sig .tc := ⟨.vmem, 27, rfl⟩
abbrev cc9_stg2_0 : Ref sig .tc := ⟨.vmem, 28, rfl⟩
abbrev cc9_stg2_1 : Ref sig .tc := ⟨.vmem, 29, rfl⟩
abbrev cc0_scratch0 : Ref sig .scVector := ⟨.vmem, 0, rfl⟩
abbrev cc0_scratch1 : Ref sig .scVector := ⟨.vmem, 1, rfl⟩
abbrev cc2_scratch0 : Ref sig .scVector := ⟨.vmem, 2, rfl⟩
abbrev cc2_scratch1 : Ref sig .scVector := ⟨.vmem, 3, rfl⟩
abbrev cc4_scratch0 : Ref sig .scVector := ⟨.vmem, 4, rfl⟩
abbrev cc4_scratch1 : Ref sig .scVector := ⟨.vmem, 5, rfl⟩
abbrev cc6_scratch0 : Ref sig .scVector := ⟨.vmem, 6, rfl⟩
abbrev cc6_scratch1 : Ref sig .scVector := ⟨.vmem, 7, rfl⟩
abbrev cc8_scratch0 : Ref sig .scVector := ⟨.vmem, 8, rfl⟩
abbrev cc8_scratch1 : Ref sig .scVector := ⟨.vmem, 9, rfl⟩
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem2_1 : DmaSem sig := 50
abbrev cc7_sem0_0 : DmaSem sig := 62
abbrev cc7_sem0_1 : DmaSem sig := 63
abbrev cc7_sem1_0 : DmaSem sig := 64
abbrev cc7_sem1_1 : DmaSem sig := 65
abbrev cc7_sem2_0 : DmaSem sig := 66
abbrev cc7_sem2_1 : DmaSem sig := 67
abbrev cc9_sem0_0 : DmaSem sig := 79
abbrev cc9_sem0_1 : DmaSem sig := 80
abbrev cc9_sem1_0 : DmaSem sig := 81
abbrev cc9_sem1_1 : DmaSem sig := 82
abbrev cc9_sem2_0 : DmaSem sig := 83
abbrev cc9_sem2_1 : DmaSem sig := 84
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_76_r0 : BitVec 32 := 0#32
  let c0_i32_77_r0 : BitVec 32 := 0#32
  ![v1.toNat, 0, 0]
@[reducible] def k0_t1_loop : Scf.Loop 32 :=
  let c0_i32_30 : BitVec 32 := 0#32
  let c5_i32 : BitVec 32 := 5#32
  let v31 : BitVec 32 := Scalar.addi c0_i32_30 c5_i32
  let c1_i32_31 : BitVec 32 := 1#32
  ⟨c0_i32_30, v31, c1_i32_31⟩
def k0_cond1 (k0_t1 : Fin k0_t1_loop.trips) : BitVec 1 :=
  let c0_i32_30 : BitVec 32 := 0#32
  let c1_i32_31 : BitVec 32 := 1#32
  let arg9 : BitVec 32 := Scf.iv c0_i32_30 c1_i32_31 k0_t1
  let c5_i32_76 : BitVec 32 := 5#32
  let v82 : BitVec 32 := Scalar.muli arg9 c5_i32_76
  let c0_i32_77 : BitVec 32 := 0#32
  let v83 : BitVec 32 := Scalar.addi v82 c0_i32_77
  let c5_i32_78 : BitVec 32 := 5#32
  let v84 : BitVec 32 := Scalar.addi v83 c5_i32_78
  let c1_i32_79 : BitVec 32 := 1#32
  let v85 : BitVec 32 := Scalar.subi v84 c1_i32_79
  let c25_i32_80 : BitVec 32 := 25#32
  let v86 : BitVec 1 := Scalar.cmpi .slt v85 c25_i32_80
  let v87 : BitVec 32 := Scalar.extui v86
  let c0_i32_81 : BitVec 32 := 0#32
  let v88 : BitVec 1 := Scalar.cmpi .ne v87 c0_i32_81
  v88

def k0_cond2 (k0_t1 : Fin k0_t1_loop.trips) : BitVec 1 :=
  let c0_i32_30 : BitVec 32 := 0#32
  let c1_i32_31 : BitVec 32 := 1#32
  let arg9 : BitVec 32 := Scf.iv c0_i32_30 c1_i32_31 k0_t1
  let c5_i32_76 : BitVec 32 := 5#32
  let v82 : BitVec 32 := Scalar.muli arg9 c5_i32_76
  let c0_i32_77 : BitVec 32 := 0#32
  let v83 : BitVec 32 := Scalar.addi v82 c0_i32_77
  let c0_i32_186 : BitVec 32 := 0#32
  let v202 : BitVec 1 := Scalar.cmpi .sgt v83 c0_i32_186
  let v203 : BitVec 32 := Scalar.extui v202
  let c0_i32_187 : BitVec 32 := 0#32
  let v204 : BitVec 1 := Scalar.cmpi .ne v203 c0_i32_187
  v204

def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c0_i32_30 : BitVec 32 := 0#32
  let c1_i32_31 : BitVec 32 := 1#32
  let arg9 : BitVec 32 := Scf.iv c0_i32_30 c1_i32_31 k0_t1
  let c5_i32_76 : BitVec 32 := 5#32
  let v82 : BitVec 32 := Scalar.muli arg9 c5_i32_76
  let c0_i32_77 : BitVec 32 := 0#32
  let v83 : BitVec 32 := Scalar.addi v82 c0_i32_77
  let c1_i32_195 : BitVec 32 := 1#32
  let v212 : BitVec 32 := Scalar.subi v83 c1_i32_195
  let v213 : BitVec 32 := Scalar.addi v2 v212
  let c80_i32_196 : BitVec 32 := 80#32
  let v214 : BitVec 32 := Scalar.muli v213 c80_i32_196
  let c0_i32_201 : BitVec 32 := 0#32
  ![v214.toNat, 0]
def k0_off3 (k0_t1 : Fin k0_t1_loop.trips) : Fin 2 → Nat :=
  let c0_i32_30 : BitVec 32 := 0#32
  let c1_i32_31 : BitVec 32 := 1#32
  let arg9 : BitVec 32 := Scf.iv c0_i32_30 c1_i32_31 k0_t1
  let c5_i32_76 : BitVec 32 := 5#32
  let v82 : BitVec 32 := Scalar.muli arg9 c5_i32_76
  let c0_i32_77 : BitVec 32 := 0#32
  let v83 : BitVec 32 := Scalar.addi v82 c0_i32_77
  let c5_i32_78 : BitVec 32 := 5#32
  let v84 : BitVec 32 := Scalar.addi v83 c5_i32_78
  let c1_i32_79 : BitVec 32 := 1#32
  let v85 : BitVec 32 := Scalar.subi v84 c1_i32_79
  let c0_i32_192 : BitVec 32 := 0#32
  ![v85.toNat, 0]
def k0_off4 (k0_t1 : Fin k0_t1_loop.trips) (c0_i32_77 : BitVec 32) : Fin 2 → Nat :=
  let c0_i32_30 : BitVec 32 := 0#32
  let c1_i32_31 : BitVec 32 := 1#32
  let arg9 : BitVec 32 := Scf.iv c0_i32_30 c1_i32_31 k0_t1
  let c5_i32_76 : BitVec 32 := 5#32
  let v82 : BitVec 32 := Scalar.muli arg9 c5_i32_76
  let v83 : BitVec 32 := Scalar.addi v82 c0_i32_77
  let c0_i32_86 : BitVec 32 := 0#32
  ![v83.toNat, 0]
def k0_off5 (i : grid0.Coords) (k0_t1 : Fin k0_t1_loop.trips) (c0_i32_77 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c0_i32_30 : BitVec 32 := 0#32
  let c1_i32_31 : BitVec 32 := 1#32
  let arg9 : BitVec 32 := Scf.iv c0_i32_30 c1_i32_31 k0_t1
  let c5_i32_76 : BitVec 32 := 5#32
  let v82 : BitVec 32 := Scalar.muli arg9 c5_i32_76
  let v83 : BitVec 32 := Scalar.addi v82 c0_i32_77
  let v96 : BitVec 32 := Scalar.addi v2 v83
  let c80_i32_89 : BitVec 32 := 80#32
  let v97 : BitVec 32 := Scalar.muli v96 c80_i32_89
  let c0_i32_94 : BitVec 32 := 0#32
  ![v97.toNat, 0]
def k0_cond3 (k0_t1 : Fin k0_t1_loop.trips) : BitVec 1 :=
  let c0_i32_30 : BitVec 32 := 0#32
  let c1_i32_31 : BitVec 32 := 1#32
  let arg9 : BitVec 32 := Scf.iv c0_i32_30 c1_i32_31 k0_t1
  let c5_i32_98 : BitVec 32 := 5#32
  let v106 : BitVec 32 := Scalar.muli arg9 c5_i32_98
  let c1_i32_99 : BitVec 32 := 1#32
  let v107 : BitVec 32 := Scalar.addi v106 c1_i32_99
  let c5_i32_100 : BitVec 32 := 5#32
  let v108 : BitVec 32 := Scalar.addi v107 c5_i32_100
  let c1_i32_101 : BitVec 32 := 1#32
  let v109 : BitVec 32 := Scalar.subi v108 c1_i32_101
  let c25_i32_102 : BitVec 32 := 25#32
  let v110 : BitVec 1 := Scalar.cmpi .slt v109 c25_i32_102
  let v111 : BitVec 32 := Scalar.extui v110
  let c0_i32_103 : BitVec 32 := 0#32
  let v112 : BitVec 1 := Scalar.cmpi .ne v111 c0_i32_103
  v112

def k0_cond4 (k0_t1 : Fin k0_t1_loop.trips) : BitVec 1 :=
  let c0_i32_30 : BitVec 32 := 0#32
  let c1_i32_31 : BitVec 32 := 1#32
  let arg9 : BitVec 32 := Scf.iv c0_i32_30 c1_i32_31 k0_t1
  let c5_i32_98 : BitVec 32 := 5#32
  let v106 : BitVec 32 := Scalar.muli arg9 c5_i32_98
  let c1_i32_99 : BitVec 32 := 1#32
  let v107 : BitVec 32 := Scalar.addi v106 c1_i32_99
  let c0_i32_186 : BitVec 32 := 0#32
  let v202 : BitVec 1 := Scalar.cmpi .sgt v107 c0_i32_186
  let v203 : BitVec 32 := Scalar.extui v202
  let c0_i32_187 : BitVec 32 := 0#32
  let v204 : BitVec 1 := Scalar.cmpi .ne v203 c0_i32_187
  v204

def k0_off6 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c0_i32_30 : BitVec 32 := 0#32
  let c1_i32_31 : BitVec 32 := 1#32
  let arg9 : BitVec 32 := Scf.iv c0_i32_30 c1_i32_31 k0_t1
  let c5_i32_98 : BitVec 32 := 5#32
  let v106 : BitVec 32 := Scalar.muli arg9 c5_i32_98
  let c1_i32_99 : BitVec 32 := 1#32
  let v107 : BitVec 32 := Scalar.addi v106 c1_i32_99
  let c1_i32_195 : BitVec 32 := 1#32
  let v212 : BitVec 32 := Scalar.subi v107 c1_i32_195
  let v213 : BitVec 32 := Scalar.addi v2 v212
  let c80_i32_196 : BitVec 32 := 80#32
  let v214 : BitVec 32 := Scalar.muli v213 c80_i32_196
  let c0_i32_201 : BitVec 32 := 0#32
  ![v214.toNat, 0]
def k0_off7 (k0_t1 : Fin k0_t1_loop.trips) : Fin 2 → Nat :=
  let c0_i32_30 : BitVec 32 := 0#32
  let c1_i32_31 : BitVec 32 := 1#32
  let arg9 : BitVec 32 := Scf.iv c0_i32_30 c1_i32_31 k0_t1
  let c5_i32_98 : BitVec 32 := 5#32
  let v106 : BitVec 32 := Scalar.muli arg9 c5_i32_98
  let c1_i32_99 : BitVec 32 := 1#32
  let v107 : BitVec 32 := Scalar.addi v106 c1_i32_99
  let c5_i32_100 : BitVec 32 := 5#32
  let v108 : BitVec 32 := Scalar.addi v107 c5_i32_100
  let c1_i32_101 : BitVec 32 := 1#32
  let v109 : BitVec 32 := Scalar.subi v108 c1_i32_101
  let c0_i32_192 : BitVec 32 := 0#32
  ![v109.toNat, 0]
def k0_cond5 (k0_t1 : Fin k0_t1_loop.trips) : BitVec 1 :=
  let c0_i32_30 : BitVec 32 := 0#32
  let c1_i32_31 : BitVec 32 := 1#32
  let arg9 : BitVec 32 := Scf.iv c0_i32_30 c1_i32_31 k0_t1
  let c5_i32_120 : BitVec 32 := 5#32
  let v130 : BitVec 32 := Scalar.muli arg9 c5_i32_120
  let c2_i32_121 : BitVec 32 := 2#32
  let v131 : BitVec 32 := Scalar.addi v130 c2_i32_121
  let c5_i32_122 : BitVec 32 := 5#32
  let v132 : BitVec 32 := Scalar.addi v131 c5_i32_122
  let c1_i32_123 : BitVec 32 := 1#32
  let v133 : BitVec 32 := Scalar.subi v132 c1_i32_123
  let c25_i32_124 : BitVec 32 := 25#32
  let v134 : BitVec 1 := Scalar.cmpi .slt v133 c25_i32_124
  let v135 : BitVec 32 := Scalar.extui v134
  let c0_i32_125 : BitVec 32 := 0#32
  let v136 : BitVec 1 := Scalar.cmpi .ne v135 c0_i32_125
  v136

def k0_cond6 (k0_t1 : Fin k0_t1_loop.trips) : BitVec 1 :=
  let c0_i32_30 : BitVec 32 := 0#32
  let c1_i32_31 : BitVec 32 := 1#32
  let arg9 : BitVec 32 := Scf.iv c0_i32_30 c1_i32_31 k0_t1
  let c5_i32_120 : BitVec 32 := 5#32
  let v130 : BitVec 32 := Scalar.muli arg9 c5_i32_120
  let c2_i32_121 : BitVec 32 := 2#32
  let v131 : BitVec 32 := Scalar.addi v130 c2_i32_121
  let c0_i32_186 : BitVec 32 := 0#32
  let v202 : BitVec 1 := Scalar.cmpi .sgt v131 c0_i32_186
  let v203 : BitVec 32 := Scalar.extui v202
  let c0_i32_187 : BitVec 32 := 0#32
  let v204 : BitVec 1 := Scalar.cmpi .ne v203 c0_i32_187
  v204

def k0_off8 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c0_i32_30 : BitVec 32 := 0#32
  let c1_i32_31 : BitVec 32 := 1#32
  let arg9 : BitVec 32 := Scf.iv c0_i32_30 c1_i32_31 k0_t1
  let c5_i32_120 : BitVec 32 := 5#32
  let v130 : BitVec 32 := Scalar.muli arg9 c5_i32_120
  let c2_i32_121 : BitVec 32 := 2#32
  let v131 : BitVec 32 := Scalar.addi v130 c2_i32_121
  let c1_i32_195 : BitVec 32 := 1#32
  let v212 : BitVec 32 := Scalar.subi v131 c1_i32_195
  let v213 : BitVec 32 := Scalar.addi v2 v212
  let c80_i32_196 : BitVec 32 := 80#32
  let v214 : BitVec 32 := Scalar.muli v213 c80_i32_196
  let c0_i32_201 : BitVec 32 := 0#32
  ![v214.toNat, 0]
def k0_off9 (k0_t1 : Fin k0_t1_loop.trips) : Fin 2 → Nat :=
  let c0_i32_30 : BitVec 32 := 0#32
  let c1_i32_31 : BitVec 32 := 1#32
  let arg9 : BitVec 32 := Scf.iv c0_i32_30 c1_i32_31 k0_t1
  let c5_i32_120 : BitVec 32 := 5#32
  let v130 : BitVec 32 := Scalar.muli arg9 c5_i32_120
  let c2_i32_121 : BitVec 32 := 2#32
  let v131 : BitVec 32 := Scalar.addi v130 c2_i32_121
  let c5_i32_122 : BitVec 32 := 5#32
  let v132 : BitVec 32 := Scalar.addi v131 c5_i32_122
  let c1_i32_123 : BitVec 32 := 1#32
  let v133 : BitVec 32 := Scalar.subi v132 c1_i32_123
  let c0_i32_192 : BitVec 32 := 0#32
  ![v133.toNat, 0]
def k0_cond7 (k0_t1 : Fin k0_t1_loop.trips) : BitVec 1 :=
  let c0_i32_30 : BitVec 32 := 0#32
  let c1_i32_31 : BitVec 32 := 1#32
  let arg9 : BitVec 32 := Scf.iv c0_i32_30 c1_i32_31 k0_t1
  let c5_i32_142 : BitVec 32 := 5#32
  let v154 : BitVec 32 := Scalar.muli arg9 c5_i32_142
  let c3_i32_143 : BitVec 32 := 3#32
  let v155 : BitVec 32 := Scalar.addi v154 c3_i32_143
  let c5_i32_144 : BitVec 32 := 5#32
  let v156 : BitVec 32 := Scalar.addi v155 c5_i32_144
  let c1_i32_145 : BitVec 32 := 1#32
  let v157 : BitVec 32 := Scalar.subi v156 c1_i32_145
  let c25_i32_146 : BitVec 32 := 25#32
  let v158 : BitVec 1 := Scalar.cmpi .slt v157 c25_i32_146
  let v159 : BitVec 32 := Scalar.extui v158
  let c0_i32_147 : BitVec 32 := 0#32
  let v160 : BitVec 1 := Scalar.cmpi .ne v159 c0_i32_147
  v160

def k0_cond8 (k0_t1 : Fin k0_t1_loop.trips) : BitVec 1 :=
  let c0_i32_30 : BitVec 32 := 0#32
  let c1_i32_31 : BitVec 32 := 1#32
  let arg9 : BitVec 32 := Scf.iv c0_i32_30 c1_i32_31 k0_t1
  let c5_i32_142 : BitVec 32 := 5#32
  let v154 : BitVec 32 := Scalar.muli arg9 c5_i32_142
  let c3_i32_143 : BitVec 32 := 3#32
  let v155 : BitVec 32 := Scalar.addi v154 c3_i32_143
  let c0_i32_186 : BitVec 32 := 0#32
  let v202 : BitVec 1 := Scalar.cmpi .sgt v155 c0_i32_186
  let v203 : BitVec 32 := Scalar.extui v202
  let c0_i32_187 : BitVec 32 := 0#32
  let v204 : BitVec 1 := Scalar.cmpi .ne v203 c0_i32_187
  v204

def k0_off10 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c0_i32_30 : BitVec 32 := 0#32
  let c1_i32_31 : BitVec 32 := 1#32
  let arg9 : BitVec 32 := Scf.iv c0_i32_30 c1_i32_31 k0_t1
  let c5_i32_142 : BitVec 32 := 5#32
  let v154 : BitVec 32 := Scalar.muli arg9 c5_i32_142
  let c3_i32_143 : BitVec 32 := 3#32
  let v155 : BitVec 32 := Scalar.addi v154 c3_i32_143
  let c1_i32_195 : BitVec 32 := 1#32
  let v212 : BitVec 32 := Scalar.subi v155 c1_i32_195
  let v213 : BitVec 32 := Scalar.addi v2 v212
  let c80_i32_196 : BitVec 32 := 80#32
  let v214 : BitVec 32 := Scalar.muli v213 c80_i32_196
  let c0_i32_201 : BitVec 32 := 0#32
  ![v214.toNat, 0]
def k0_off11 (k0_t1 : Fin k0_t1_loop.trips) : Fin 2 → Nat :=
  let c0_i32_30 : BitVec 32 := 0#32
  let c1_i32_31 : BitVec 32 := 1#32
  let arg9 : BitVec 32 := Scf.iv c0_i32_30 c1_i32_31 k0_t1
  let c5_i32_142 : BitVec 32 := 5#32
  let v154 : BitVec 32 := Scalar.muli arg9 c5_i32_142
  let c3_i32_143 : BitVec 32 := 3#32
  let v155 : BitVec 32 := Scalar.addi v154 c3_i32_143
  let c5_i32_144 : BitVec 32 := 5#32
  let v156 : BitVec 32 := Scalar.addi v155 c5_i32_144
  let c1_i32_145 : BitVec 32 := 1#32
  let v157 : BitVec 32 := Scalar.subi v156 c1_i32_145
  let c0_i32_192 : BitVec 32 := 0#32
  ![v157.toNat, 0]
def k0_cond9 (k0_t1 : Fin k0_t1_loop.trips) : BitVec 1 :=
  let c0_i32_30 : BitVec 32 := 0#32
  let c1_i32_31 : BitVec 32 := 1#32
  let arg9 : BitVec 32 := Scf.iv c0_i32_30 c1_i32_31 k0_t1
  let c5_i32_164 : BitVec 32 := 5#32
  let v178 : BitVec 32 := Scalar.muli arg9 c5_i32_164
  let c4_i32_165 : BitVec 32 := 4#32
  let v179 : BitVec 32 := Scalar.addi v178 c4_i32_165
  let c5_i32_166 : BitVec 32 := 5#32
  let v180 : BitVec 32 := Scalar.addi v179 c5_i32_166
  let c1_i32_167 : BitVec 32 := 1#32
  let v181 : BitVec 32 := Scalar.subi v180 c1_i32_167
  let c25_i32_168 : BitVec 32 := 25#32
  let v182 : BitVec 1 := Scalar.cmpi .slt v181 c25_i32_168
  let v183 : BitVec 32 := Scalar.extui v182
  let c0_i32_169 : BitVec 32 := 0#32
  let v184 : BitVec 1 := Scalar.cmpi .ne v183 c0_i32_169
  v184

def k0_cond10 (k0_t1 : Fin k0_t1_loop.trips) : BitVec 1 :=
  let c0_i32_30 : BitVec 32 := 0#32
  let c1_i32_31 : BitVec 32 := 1#32
  let arg9 : BitVec 32 := Scf.iv c0_i32_30 c1_i32_31 k0_t1
  let c5_i32_164 : BitVec 32 := 5#32
  let v178 : BitVec 32 := Scalar.muli arg9 c5_i32_164
  let c4_i32_165 : BitVec 32 := 4#32
  let v179 : BitVec 32 := Scalar.addi v178 c4_i32_165
  let c0_i32_186 : BitVec 32 := 0#32
  let v202 : BitVec 1 := Scalar.cmpi .sgt v179 c0_i32_186
  let v203 : BitVec 32 := Scalar.extui v202
  let c0_i32_187 : BitVec 32 := 0#32
  let v204 : BitVec 1 := Scalar.cmpi .ne v203 c0_i32_187
  v204

def k0_off12 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c0_i32_30 : BitVec 32 := 0#32
  let c1_i32_31 : BitVec 32 := 1#32
  let arg9 : BitVec 32 := Scf.iv c0_i32_30 c1_i32_31 k0_t1
  let c5_i32_164 : BitVec 32 := 5#32
  let v178 : BitVec 32 := Scalar.muli arg9 c5_i32_164
  let c4_i32_165 : BitVec 32 := 4#32
  let v179 : BitVec 32 := Scalar.addi v178 c4_i32_165
  let c1_i32_195 : BitVec 32 := 1#32
  let v212 : BitVec 32 := Scalar.subi v179 c1_i32_195
  let v213 : BitVec 32 := Scalar.addi v2 v212
  let c80_i32_196 : BitVec 32 := 80#32
  let v214 : BitVec 32 := Scalar.muli v213 c80_i32_196
  let c0_i32_201 : BitVec 32 := 0#32
  ![v214.toNat, 0]
def k0_off13 (k0_t1 : Fin k0_t1_loop.trips) : Fin 2 → Nat :=
  let c0_i32_30 : BitVec 32 := 0#32
  let c1_i32_31 : BitVec 32 := 1#32
  let arg9 : BitVec 32 := Scf.iv c0_i32_30 c1_i32_31 k0_t1
  let c5_i32_164 : BitVec 32 := 5#32
  let v178 : BitVec 32 := Scalar.muli arg9 c5_i32_164
  let c4_i32_165 : BitVec 32 := 4#32
  let v179 : BitVec 32 := Scalar.addi v178 c4_i32_165
  let c5_i32_166 : BitVec 32 := 5#32
  let v180 : BitVec 32 := Scalar.addi v179 c5_i32_166
  let c1_i32_167 : BitVec 32 := 1#32
  let v181 : BitVec 32 := Scalar.subi v180 c1_i32_167
  let c0_i32_192 : BitVec 32 := 0#32
  ![v181.toNat, 0]
def k0_off14 (i : grid0.Coords) (c20_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let v32 : BitVec 32 := Scalar.addi v2 c20_i32
  let c80_i32 : BitVec 32 := 80#32
  let v33 : BitVec 32 := Scalar.muli v32 c80_i32
  let c0_i32_37 : BitVec 32 := 0#32
  ![v33.toNat, 0]
abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S12800x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S400x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![2, 16], ![false, false]⟩

def k2_off1 (i : grid2.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_76_r0 : BitVec 32 := 0#32
  let c0_i32_77_r0 : BitVec 32 := 0#32
  ![v1.toNat, 0, 0]
@[reducible] def k2_t1_loop : Scf.Loop 32 :=
  let c0_i32_30 : BitVec 32 := 0#32
  let c5_i32 : BitVec 32 := 5#32
  let v31 : BitVec 32 := Scalar.addi c0_i32_30 c5_i32
  let c1_i32_31 : BitVec 32 := 1#32
  ⟨c0_i32_30, v31, c1_i32_31⟩
def k2_cond1 (k2_t1 : Fin k2_t1_loop.trips) : BitVec 1 :=
  let c0_i32_30 : BitVec 32 := 0#32
  let c1_i32_31 : BitVec 32 := 1#32
  let arg9 : BitVec 32 := Scf.iv c0_i32_30 c1_i32_31 k2_t1
  let c5_i32_76 : BitVec 32 := 5#32
  let v82 : BitVec 32 := Scalar.muli arg9 c5_i32_76
  let c0_i32_77 : BitVec 32 := 0#32
  let v83 : BitVec 32 := Scalar.addi v82 c0_i32_77
  let c5_i32_78 : BitVec 32 := 5#32
  let v84 : BitVec 32 := Scalar.addi v83 c5_i32_78
  let c1_i32_79 : BitVec 32 := 1#32
  let v85 : BitVec 32 := Scalar.subi v84 c1_i32_79
  let c25_i32_80 : BitVec 32 := 25#32
  let v86 : BitVec 1 := Scalar.cmpi .slt v85 c25_i32_80
  let v87 : BitVec 32 := Scalar.extui v86
  let c0_i32_81 : BitVec 32 := 0#32
  let v88 : BitVec 1 := Scalar.cmpi .ne v87 c0_i32_81
  v88

def k2_cond2 (k2_t1 : Fin k2_t1_loop.trips) : BitVec 1 :=
  let c0_i32_30 : BitVec 32 := 0#32
  let c1_i32_31 : BitVec 32 := 1#32
  let arg9 : BitVec 32 := Scf.iv c0_i32_30 c1_i32_31 k2_t1
  let c5_i32_76 : BitVec 32 := 5#32
  let v82 : BitVec 32 := Scalar.muli arg9 c5_i32_76
  let c0_i32_77 : BitVec 32 := 0#32
  let v83 : BitVec 32 := Scalar.addi v82 c0_i32_77
  let c0_i32_186 : BitVec 32 := 0#32
  let v202 : BitVec 1 := Scalar.cmpi .sgt v83 c0_i32_186
  let v203 : BitVec 32 := Scalar.extui v202
  let c0_i32_187 : BitVec 32 := 0#32
  let v204 : BitVec 1 := Scalar.cmpi .ne v203 c0_i32_187
  v204

def k2_off2 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c0_i32_30 : BitVec 32 := 0#32
  let c1_i32_31 : BitVec 32 := 1#32
  let arg9 : BitVec 32 := Scf.iv c0_i32_30 c1_i32_31 k2_t1
  let c5_i32_76 : BitVec 32 := 5#32
  let v82 : BitVec 32 := Scalar.muli arg9 c5_i32_76
  let c0_i32_77 : BitVec 32 := 0#32
  let v83 : BitVec 32 := Scalar.addi v82 c0_i32_77
  let c1_i32_195 : BitVec 32 := 1#32
  let v212 : BitVec 32 := Scalar.subi v83 c1_i32_195
  let v213 : BitVec 32 := Scalar.addi v2 v212
  let c80_i32_196 : BitVec 32 := 80#32
  let v214 : BitVec 32 := Scalar.muli v213 c80_i32_196
  let c0_i32_201 : BitVec 32 := 0#32
  ![v214.toNat, 0]
def k2_off3 (k2_t1 : Fin k2_t1_loop.trips) : Fin 2 → Nat :=
  let c0_i32_30 : BitVec 32 := 0#32
  let c1_i32_31 : BitVec 32 := 1#32
  let arg9 : BitVec 32 := Scf.iv c0_i32_30 c1_i32_31 k2_t1
  let c5_i32_76 : BitVec 32 := 5#32
  let v82 : BitVec 32 := Scalar.muli arg9 c5_i32_76
  let c0_i32_77 : BitVec 32 := 0#32
  let v83 : BitVec 32 := Scalar.addi v82 c0_i32_77
  let c5_i32_78 : BitVec 32 := 5#32
  let v84 : BitVec 32 := Scalar.addi v83 c5_i32_78
  let c1_i32_79 : BitVec 32 := 1#32
  let v85 : BitVec 32 := Scalar.subi v84 c1_i32_79
  let c0_i32_192 : BitVec 32 := 0#32
  ![v85.toNat, 0]
def k2_off4 (k2_t1 : Fin k2_t1_loop.trips) (c0_i32_77 : BitVec 32) : Fin 2 → Nat :=
  let c0_i32_30 : BitVec 32 := 0#32
  let c1_i32_31 : BitVec 32 := 1#32
  let arg9 : BitVec 32 := Scf.iv c0_i32_30 c1_i32_31 k2_t1
  let c5_i32_76 : BitVec 32 := 5#32
  let v82 : BitVec 32 := Scalar.muli arg9 c5_i32_76
  let v83 : BitVec 32 := Scalar.addi v82 c0_i32_77
  let c0_i32_86 : BitVec 32 := 0#32
  ![v83.toNat, 0]
def k2_off5 (i : grid2.Coords) (k2_t1 : Fin k2_t1_loop.trips) (c0_i32_77 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c0_i32_30 : BitVec 32 := 0#32
  let c1_i32_31 : BitVec 32 := 1#32
  let arg9 : BitVec 32 := Scf.iv c0_i32_30 c1_i32_31 k2_t1
  let c5_i32_76 : BitVec 32 := 5#32
  let v82 : BitVec 32 := Scalar.muli arg9 c5_i32_76
  let v83 : BitVec 32 := Scalar.addi v82 c0_i32_77
  let v96 : BitVec 32 := Scalar.addi v2 v83
  let c80_i32_89 : BitVec 32 := 80#32
  let v97 : BitVec 32 := Scalar.muli v96 c80_i32_89
  let c0_i32_94 : BitVec 32 := 0#32
  ![v97.toNat, 0]
def k2_cond3 (k2_t1 : Fin k2_t1_loop.trips) : BitVec 1 :=
  let c0_i32_30 : BitVec 32 := 0#32
  let c1_i32_31 : BitVec 32 := 1#32
  let arg9 : BitVec 32 := Scf.iv c0_i32_30 c1_i32_31 k2_t1
  let c5_i32_98 : BitVec 32 := 5#32
  let v106 : BitVec 32 := Scalar.muli arg9 c5_i32_98
  let c1_i32_99 : BitVec 32 := 1#32
  let v107 : BitVec 32 := Scalar.addi v106 c1_i32_99
  let c5_i32_100 : BitVec 32 := 5#32
  let v108 : BitVec 32 := Scalar.addi v107 c5_i32_100
  let c1_i32_101 : BitVec 32 := 1#32
  let v109 : BitVec 32 := Scalar.subi v108 c1_i32_101
  let c25_i32_102 : BitVec 32 := 25#32
  let v110 : BitVec 1 := Scalar.cmpi .slt v109 c25_i32_102
  let v111 : BitVec 32 := Scalar.extui v110
  let c0_i32_103 : BitVec 32 := 0#32
  let v112 : BitVec 1 := Scalar.cmpi .ne v111 c0_i32_103
  v112

def k2_cond4 (k2_t1 : Fin k2_t1_loop.trips) : BitVec 1 :=
  let c0_i32_30 : BitVec 32 := 0#32
  let c1_i32_31 : BitVec 32 := 1#32
  let arg9 : BitVec 32 := Scf.iv c0_i32_30 c1_i32_31 k2_t1
  let c5_i32_98 : BitVec 32 := 5#32
  let v106 : BitVec 32 := Scalar.muli arg9 c5_i32_98
  let c1_i32_99 : BitVec 32 := 1#32
  let v107 : BitVec 32 := Scalar.addi v106 c1_i32_99
  let c0_i32_186 : BitVec 32 := 0#32
  let v202 : BitVec 1 := Scalar.cmpi .sgt v107 c0_i32_186
  let v203 : BitVec 32 := Scalar.extui v202
  let c0_i32_187 : BitVec 32 := 0#32
  let v204 : BitVec 1 := Scalar.cmpi .ne v203 c0_i32_187
  v204

def k2_off6 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c0_i32_30 : BitVec 32 := 0#32
  let c1_i32_31 : BitVec 32 := 1#32
  let arg9 : BitVec 32 := Scf.iv c0_i32_30 c1_i32_31 k2_t1
  let c5_i32_98 : BitVec 32 := 5#32
  let v106 : BitVec 32 := Scalar.muli arg9 c5_i32_98
  let c1_i32_99 : BitVec 32 := 1#32
  let v107 : BitVec 32 := Scalar.addi v106 c1_i32_99
  let c1_i32_195 : BitVec 32 := 1#32
  let v212 : BitVec 32 := Scalar.subi v107 c1_i32_195
  let v213 : BitVec 32 := Scalar.addi v2 v212
  let c80_i32_196 : BitVec 32 := 80#32
  let v214 : BitVec 32 := Scalar.muli v213 c80_i32_196
  let c0_i32_201 : BitVec 32 := 0#32
  ![v214.toNat, 0]
def k2_off7 (k2_t1 : Fin k2_t1_loop.trips) : Fin 2 → Nat :=
  let c0_i32_30 : BitVec 32 := 0#32
  let c1_i32_31 : BitVec 32 := 1#32
  let arg9 : BitVec 32 := Scf.iv c0_i32_30 c1_i32_31 k2_t1
  let c5_i32_98 : BitVec 32 := 5#32
  let v106 : BitVec 32 := Scalar.muli arg9 c5_i32_98
  let c1_i32_99 : BitVec 32 := 1#32
  let v107 : BitVec 32 := Scalar.addi v106 c1_i32_99
  let c5_i32_100 : BitVec 32 := 5#32
  let v108 : BitVec 32 := Scalar.addi v107 c5_i32_100
  let c1_i32_101 : BitVec 32 := 1#32
  let v109 : BitVec 32 := Scalar.subi v108 c1_i32_101
  let c0_i32_192 : BitVec 32 := 0#32
  ![v109.toNat, 0]
def k2_cond5 (k2_t1 : Fin k2_t1_loop.trips) : BitVec 1 :=
  let c0_i32_30 : BitVec 32 := 0#32
  let c1_i32_31 : BitVec 32 := 1#32
  let arg9 : BitVec 32 := Scf.iv c0_i32_30 c1_i32_31 k2_t1
  let c5_i32_120 : BitVec 32 := 5#32
  let v130 : BitVec 32 := Scalar.muli arg9 c5_i32_120
  let c2_i32_121 : BitVec 32 := 2#32
  let v131 : BitVec 32 := Scalar.addi v130 c2_i32_121
  let c5_i32_122 : BitVec 32 := 5#32
  let v132 : BitVec 32 := Scalar.addi v131 c5_i32_122
  let c1_i32_123 : BitVec 32 := 1#32
  let v133 : BitVec 32 := Scalar.subi v132 c1_i32_123
  let c25_i32_124 : BitVec 32 := 25#32
  let v134 : BitVec 1 := Scalar.cmpi .slt v133 c25_i32_124
  let v135 : BitVec 32 := Scalar.extui v134
  let c0_i32_125 : BitVec 32 := 0#32
  let v136 : BitVec 1 := Scalar.cmpi .ne v135 c0_i32_125
  v136

def k2_cond6 (k2_t1 : Fin k2_t1_loop.trips) : BitVec 1 :=
  let c0_i32_30 : BitVec 32 := 0#32
  let c1_i32_31 : BitVec 32 := 1#32
  let arg9 : BitVec 32 := Scf.iv c0_i32_30 c1_i32_31 k2_t1
  let c5_i32_120 : BitVec 32 := 5#32
  let v130 : BitVec 32 := Scalar.muli arg9 c5_i32_120
  let c2_i32_121 : BitVec 32 := 2#32
  let v131 : BitVec 32 := Scalar.addi v130 c2_i32_121
  let c0_i32_186 : BitVec 32 := 0#32
  let v202 : BitVec 1 := Scalar.cmpi .sgt v131 c0_i32_186
  let v203 : BitVec 32 := Scalar.extui v202
  let c0_i32_187 : BitVec 32 := 0#32
  let v204 : BitVec 1 := Scalar.cmpi .ne v203 c0_i32_187
  v204

def k2_off8 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c0_i32_30 : BitVec 32 := 0#32
  let c1_i32_31 : BitVec 32 := 1#32
  let arg9 : BitVec 32 := Scf.iv c0_i32_30 c1_i32_31 k2_t1
  let c5_i32_120 : BitVec 32 := 5#32
  let v130 : BitVec 32 := Scalar.muli arg9 c5_i32_120
  let c2_i32_121 : BitVec 32 := 2#32
  let v131 : BitVec 32 := Scalar.addi v130 c2_i32_121
  let c1_i32_195 : BitVec 32 := 1#32
  let v212 : BitVec 32 := Scalar.subi v131 c1_i32_195
  let v213 : BitVec 32 := Scalar.addi v2 v212
  let c80_i32_196 : BitVec 32 := 80#32
  let v214 : BitVec 32 := Scalar.muli v213 c80_i32_196
  let c0_i32_201 : BitVec 32 := 0#32
  ![v214.toNat, 0]
def k2_off9 (k2_t1 : Fin k2_t1_loop.trips) : Fin 2 → Nat :=
  let c0_i32_30 : BitVec 32 := 0#32
  let c1_i32_31 : BitVec 32 := 1#32
  let arg9 : BitVec 32 := Scf.iv c0_i32_30 c1_i32_31 k2_t1
  let c5_i32_120 : BitVec 32 := 5#32
  let v130 : BitVec 32 := Scalar.muli arg9 c5_i32_120
  let c2_i32_121 : BitVec 32 := 2#32
  let v131 : BitVec 32 := Scalar.addi v130 c2_i32_121
  let c5_i32_122 : BitVec 32 := 5#32
  let v132 : BitVec 32 := Scalar.addi v131 c5_i32_122
  let c1_i32_123 : BitVec 32 := 1#32
  let v133 : BitVec 32 := Scalar.subi v132 c1_i32_123
  let c0_i32_192 : BitVec 32 := 0#32
  ![v133.toNat, 0]
def k2_cond7 (k2_t1 : Fin k2_t1_loop.trips) : BitVec 1 :=
  let c0_i32_30 : BitVec 32 := 0#32
  let c1_i32_31 : BitVec 32 := 1#32
  let arg9 : BitVec 32 := Scf.iv c0_i32_30 c1_i32_31 k2_t1
  let c5_i32_142 : BitVec 32 := 5#32
  let v154 : BitVec 32 := Scalar.muli arg9 c5_i32_142
  let c3_i32_143 : BitVec 32 := 3#32
  let v155 : BitVec 32 := Scalar.addi v154 c3_i32_143
  let c5_i32_144 : BitVec 32 := 5#32
  let v156 : BitVec 32 := Scalar.addi v155 c5_i32_144
  let c1_i32_145 : BitVec 32 := 1#32
  let v157 : BitVec 32 := Scalar.subi v156 c1_i32_145
  let c25_i32_146 : BitVec 32 := 25#32
  let v158 : BitVec 1 := Scalar.cmpi .slt v157 c25_i32_146
  let v159 : BitVec 32 := Scalar.extui v158
  let c0_i32_147 : BitVec 32 := 0#32
  let v160 : BitVec 1 := Scalar.cmpi .ne v159 c0_i32_147
  v160

def k2_cond8 (k2_t1 : Fin k2_t1_loop.trips) : BitVec 1 :=
  let c0_i32_30 : BitVec 32 := 0#32
  let c1_i32_31 : BitVec 32 := 1#32
  let arg9 : BitVec 32 := Scf.iv c0_i32_30 c1_i32_31 k2_t1
  let c5_i32_142 : BitVec 32 := 5#32
  let v154 : BitVec 32 := Scalar.muli arg9 c5_i32_142
  let c3_i32_143 : BitVec 32 := 3#32
  let v155 : BitVec 32 := Scalar.addi v154 c3_i32_143
  let c0_i32_186 : BitVec 32 := 0#32
  let v202 : BitVec 1 := Scalar.cmpi .sgt v155 c0_i32_186
  let v203 : BitVec 32 := Scalar.extui v202
  let c0_i32_187 : BitVec 32 := 0#32
  let v204 : BitVec 1 := Scalar.cmpi .ne v203 c0_i32_187
  v204

def k2_off10 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c0_i32_30 : BitVec 32 := 0#32
  let c1_i32_31 : BitVec 32 := 1#32
  let arg9 : BitVec 32 := Scf.iv c0_i32_30 c1_i32_31 k2_t1
  let c5_i32_142 : BitVec 32 := 5#32
  let v154 : BitVec 32 := Scalar.muli arg9 c5_i32_142
  let c3_i32_143 : BitVec 32 := 3#32
  let v155 : BitVec 32 := Scalar.addi v154 c3_i32_143
  let c1_i32_195 : BitVec 32 := 1#32
  let v212 : BitVec 32 := Scalar.subi v155 c1_i32_195
  let v213 : BitVec 32 := Scalar.addi v2 v212
  let c80_i32_196 : BitVec 32 := 80#32
  let v214 : BitVec 32 := Scalar.muli v213 c80_i32_196
  let c0_i32_201 : BitVec 32 := 0#32
  ![v214.toNat, 0]
def k2_off11 (k2_t1 : Fin k2_t1_loop.trips) : Fin 2 → Nat :=
  let c0_i32_30 : BitVec 32 := 0#32
  let c1_i32_31 : BitVec 32 := 1#32
  let arg9 : BitVec 32 := Scf.iv c0_i32_30 c1_i32_31 k2_t1
  let c5_i32_142 : BitVec 32 := 5#32
  let v154 : BitVec 32 := Scalar.muli arg9 c5_i32_142
  let c3_i32_143 : BitVec 32 := 3#32
  let v155 : BitVec 32 := Scalar.addi v154 c3_i32_143
  let c5_i32_144 : BitVec 32 := 5#32
  let v156 : BitVec 32 := Scalar.addi v155 c5_i32_144
  let c1_i32_145 : BitVec 32 := 1#32
  let v157 : BitVec 32 := Scalar.subi v156 c1_i32_145
  let c0_i32_192 : BitVec 32 := 0#32
  ![v157.toNat, 0]
def k2_cond9 (k2_t1 : Fin k2_t1_loop.trips) : BitVec 1 :=
  let c0_i32_30 : BitVec 32 := 0#32
  let c1_i32_31 : BitVec 32 := 1#32
  let arg9 : BitVec 32 := Scf.iv c0_i32_30 c1_i32_31 k2_t1
  let c5_i32_164 : BitVec 32 := 5#32
  let v178 : BitVec 32 := Scalar.muli arg9 c5_i32_164
  let c4_i32_165 : BitVec 32 := 4#32
  let v179 : BitVec 32 := Scalar.addi v178 c4_i32_165
  let c5_i32_166 : BitVec 32 := 5#32
  let v180 : BitVec 32 := Scalar.addi v179 c5_i32_166
  let c1_i32_167 : BitVec 32 := 1#32
  let v181 : BitVec 32 := Scalar.subi v180 c1_i32_167
  let c25_i32_168 : BitVec 32 := 25#32
  let v182 : BitVec 1 := Scalar.cmpi .slt v181 c25_i32_168
  let v183 : BitVec 32 := Scalar.extui v182
  let c0_i32_169 : BitVec 32 := 0#32
  let v184 : BitVec 1 := Scalar.cmpi .ne v183 c0_i32_169
  v184

def k2_cond10 (k2_t1 : Fin k2_t1_loop.trips) : BitVec 1 :=
  let c0_i32_30 : BitVec 32 := 0#32
  let c1_i32_31 : BitVec 32 := 1#32
  let arg9 : BitVec 32 := Scf.iv c0_i32_30 c1_i32_31 k2_t1
  let c5_i32_164 : BitVec 32 := 5#32
  let v178 : BitVec 32 := Scalar.muli arg9 c5_i32_164
  let c4_i32_165 : BitVec 32 := 4#32
  let v179 : BitVec 32 := Scalar.addi v178 c4_i32_165
  let c0_i32_186 : BitVec 32 := 0#32
  let v202 : BitVec 1 := Scalar.cmpi .sgt v179 c0_i32_186
  let v203 : BitVec 32 := Scalar.extui v202
  let c0_i32_187 : BitVec 32 := 0#32
  let v204 : BitVec 1 := Scalar.cmpi .ne v203 c0_i32_187
  v204

def k2_off12 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c0_i32_30 : BitVec 32 := 0#32
  let c1_i32_31 : BitVec 32 := 1#32
  let arg9 : BitVec 32 := Scf.iv c0_i32_30 c1_i32_31 k2_t1
  let c5_i32_164 : BitVec 32 := 5#32
  let v178 : BitVec 32 := Scalar.muli arg9 c5_i32_164
  let c4_i32_165 : BitVec 32 := 4#32
  let v179 : BitVec 32 := Scalar.addi v178 c4_i32_165
  let c1_i32_195 : BitVec 32 := 1#32
  let v212 : BitVec 32 := Scalar.subi v179 c1_i32_195
  let v213 : BitVec 32 := Scalar.addi v2 v212
  let c80_i32_196 : BitVec 32 := 80#32
  let v214 : BitVec 32 := Scalar.muli v213 c80_i32_196
  let c0_i32_201 : BitVec 32 := 0#32
  ![v214.toNat, 0]
def k2_off13 (k2_t1 : Fin k2_t1_loop.trips) : Fin 2 → Nat :=
  let c0_i32_30 : BitVec 32 := 0#32
  let c1_i32_31 : BitVec 32 := 1#32
  let arg9 : BitVec 32 := Scf.iv c0_i32_30 c1_i32_31 k2_t1
  let c5_i32_164 : BitVec 32 := 5#32
  let v178 : BitVec 32 := Scalar.muli arg9 c5_i32_164
  let c4_i32_165 : BitVec 32 := 4#32
  let v179 : BitVec 32 := Scalar.addi v178 c4_i32_165
  let c5_i32_166 : BitVec 32 := 5#32
  let v180 : BitVec 32 := Scalar.addi v179 c5_i32_166
  let c1_i32_167 : BitVec 32 := 1#32
  let v181 : BitVec 32 := Scalar.subi v180 c1_i32_167
  let c0_i32_192 : BitVec 32 := 0#32
  ![v181.toNat, 0]
def k2_off14 (i : grid2.Coords) (c20_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let v32 : BitVec 32 := Scalar.addi v2 c20_i32
  let c80_i32 : BitVec 32 := 80#32
  let v33 : BitVec 32 := Scalar.muli v32 c80_i32
  let c0_i32_37 : BitVec 32 := 0#32
  ![v33.toNat, 0]
abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S12800x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S400x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S400x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![2, 16], ![false, false]⟩

def k4_off1 (i : grid4.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_76_r0 : BitVec 32 := 0#32
  let c0_i32_77_r0 : BitVec 32 := 0#32
  ![v1.toNat, 0, 0]
@[reducible] def k4_t1_loop : Scf.Loop 32 :=
  let c0_i32_30 : BitVec 32 := 0#32
  let c5_i32 : BitVec 32 := 5#32
  let v31 : BitVec 32 := Scalar.addi c0_i32_30 c5_i32
  let c1_i32_31 : BitVec 32 := 1#32
  ⟨c0_i32_30, v31, c1_i32_31⟩
def k4_cond1 (k4_t1 : Fin k4_t1_loop.trips) : BitVec 1 :=
  let c0_i32_30 : BitVec 32 := 0#32
  let c1_i32_31 : BitVec 32 := 1#32
  let arg9 : BitVec 32 := Scf.iv c0_i32_30 c1_i32_31 k4_t1
  let c5_i32_76 : BitVec 32 := 5#32
  let v82 : BitVec 32 := Scalar.muli arg9 c5_i32_76
  let c0_i32_77 : BitVec 32 := 0#32
  let v83 : BitVec 32 := Scalar.addi v82 c0_i32_77
  let c5_i32_78 : BitVec 32 := 5#32
  let v84 : BitVec 32 := Scalar.addi v83 c5_i32_78
  let c1_i32_79 : BitVec 32 := 1#32
  let v85 : BitVec 32 := Scalar.subi v84 c1_i32_79
  let c25_i32_80 : BitVec 32 := 25#32
  let v86 : BitVec 1 := Scalar.cmpi .slt v85 c25_i32_80
  let v87 : BitVec 32 := Scalar.extui v86
  let c0_i32_81 : BitVec 32 := 0#32
  let v88 : BitVec 1 := Scalar.cmpi .ne v87 c0_i32_81
  v88

def k4_cond2 (k4_t1 : Fin k4_t1_loop.trips) : BitVec 1 :=
  let c0_i32_30 : BitVec 32 := 0#32
  let c1_i32_31 : BitVec 32 := 1#32
  let arg9 : BitVec 32 := Scf.iv c0_i32_30 c1_i32_31 k4_t1
  let c5_i32_76 : BitVec 32 := 5#32
  let v82 : BitVec 32 := Scalar.muli arg9 c5_i32_76
  let c0_i32_77 : BitVec 32 := 0#32
  let v83 : BitVec 32 := Scalar.addi v82 c0_i32_77
  let c0_i32_186 : BitVec 32 := 0#32
  let v202 : BitVec 1 := Scalar.cmpi .sgt v83 c0_i32_186
  let v203 : BitVec 32 := Scalar.extui v202
  let c0_i32_187 : BitVec 32 := 0#32
  let v204 : BitVec 1 := Scalar.cmpi .ne v203 c0_i32_187
  v204

def k4_off2 (i : grid4.Coords) (k4_t1 : Fin k4_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c0_i32_30 : BitVec 32 := 0#32
  let c1_i32_31 : BitVec 32 := 1#32
  let arg9 : BitVec 32 := Scf.iv c0_i32_30 c1_i32_31 k4_t1
  let c5_i32_76 : BitVec 32 := 5#32
  let v82 : BitVec 32 := Scalar.muli arg9 c5_i32_76
  let c0_i32_77 : BitVec 32 := 0#32
  let v83 : BitVec 32 := Scalar.addi v82 c0_i32_77
  let c1_i32_195 : BitVec 32 := 1#32
  let v212 : BitVec 32 := Scalar.subi v83 c1_i32_195
  let v213 : BitVec 32 := Scalar.addi v2 v212
  let c80_i32_196 : BitVec 32 := 80#32
  let v214 : BitVec 32 := Scalar.muli v213 c80_i32_196
  let c0_i32_201 : BitVec 32 := 0#32
  ![v214.toNat, 0]
def k4_off3 (k4_t1 : Fin k4_t1_loop.trips) : Fin 2 → Nat :=
  let c0_i32_30 : BitVec 32 := 0#32
  let c1_i32_31 : BitVec 32 := 1#32
  let arg9 : BitVec 32 := Scf.iv c0_i32_30 c1_i32_31 k4_t1
  let c5_i32_76 : BitVec 32 := 5#32
  let v82 : BitVec 32 := Scalar.muli arg9 c5_i32_76
  let c0_i32_77 : BitVec 32 := 0#32
  let v83 : BitVec 32 := Scalar.addi v82 c0_i32_77
  let c5_i32_78 : BitVec 32 := 5#32
  let v84 : BitVec 32 := Scalar.addi v83 c5_i32_78
  let c1_i32_79 : BitVec 32 := 1#32
  let v85 : BitVec 32 := Scalar.subi v84 c1_i32_79
  let c0_i32_192 : BitVec 32 := 0#32
  ![v85.toNat, 0]
def k4_off4 (k4_t1 : Fin k4_t1_loop.trips) (c0_i32_77 : BitVec 32) : Fin 2 → Nat :=
  let c0_i32_30 : BitVec 32 := 0#32
  let c1_i32_31 : BitVec 32 := 1#32
  let arg9 : BitVec 32 := Scf.iv c0_i32_30 c1_i32_31 k4_t1
  let c5_i32_76 : BitVec 32 := 5#32
  let v82 : BitVec 32 := Scalar.muli arg9 c5_i32_76
  let v83 : BitVec 32 := Scalar.addi v82 c0_i32_77
  let c0_i32_86 : BitVec 32 := 0#32
  ![v83.toNat, 0]
def k4_off5 (i : grid4.Coords) (k4_t1 : Fin k4_t1_loop.trips) (c0_i32_77 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c0_i32_30 : BitVec 32 := 0#32
  let c1_i32_31 : BitVec 32 := 1#32
  let arg9 : BitVec 32 := Scf.iv c0_i32_30 c1_i32_31 k4_t1
  let c5_i32_76 : BitVec 32 := 5#32
  let v82 : BitVec 32 := Scalar.muli arg9 c5_i32_76
  let v83 : BitVec 32 := Scalar.addi v82 c0_i32_77
  let v96 : BitVec 32 := Scalar.addi v2 v83
  let c80_i32_89 : BitVec 32 := 80#32
  let v97 : BitVec 32 := Scalar.muli v96 c80_i32_89
  let c0_i32_94 : BitVec 32 := 0#32
  ![v97.toNat, 0]
def k4_cond3 (k4_t1 : Fin k4_t1_loop.trips) : BitVec 1 :=
  let c0_i32_30 : BitVec 32 := 0#32
  let c1_i32_31 : BitVec 32 := 1#32
  let arg9 : BitVec 32 := Scf.iv c0_i32_30 c1_i32_31 k4_t1
  let c5_i32_98 : BitVec 32 := 5#32
  let v106 : BitVec 32 := Scalar.muli arg9 c5_i32_98
  let c1_i32_99 : BitVec 32 := 1#32
  let v107 : BitVec 32 := Scalar.addi v106 c1_i32_99
  let c5_i32_100 : BitVec 32 := 5#32
  let v108 : BitVec 32 := Scalar.addi v107 c5_i32_100
  let c1_i32_101 : BitVec 32 := 1#32
  let v109 : BitVec 32 := Scalar.subi v108 c1_i32_101
  let c25_i32_102 : BitVec 32 := 25#32
  let v110 : BitVec 1 := Scalar.cmpi .slt v109 c25_i32_102
  let v111 : BitVec 32 := Scalar.extui v110
  let c0_i32_103 : BitVec 32 := 0#32
  let v112 : BitVec 1 := Scalar.cmpi .ne v111 c0_i32_103
  v112

def k4_cond4 (k4_t1 : Fin k4_t1_loop.trips) : BitVec 1 :=
  let c0_i32_30 : BitVec 32 := 0#32
  let c1_i32_31 : BitVec 32 := 1#32
  let arg9 : BitVec 32 := Scf.iv c0_i32_30 c1_i32_31 k4_t1
  let c5_i32_98 : BitVec 32 := 5#32
  let v106 : BitVec 32 := Scalar.muli arg9 c5_i32_98
  let c1_i32_99 : BitVec 32 := 1#32
  let v107 : BitVec 32 := Scalar.addi v106 c1_i32_99
  let c0_i32_186 : BitVec 32 := 0#32
  let v202 : BitVec 1 := Scalar.cmpi .sgt v107 c0_i32_186
  let v203 : BitVec 32 := Scalar.extui v202
  let c0_i32_187 : BitVec 32 := 0#32
  let v204 : BitVec 1 := Scalar.cmpi .ne v203 c0_i32_187
  v204

def k4_off6 (i : grid4.Coords) (k4_t1 : Fin k4_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c0_i32_30 : BitVec 32 := 0#32
  let c1_i32_31 : BitVec 32 := 1#32
  let arg9 : BitVec 32 := Scf.iv c0_i32_30 c1_i32_31 k4_t1
  let c5_i32_98 : BitVec 32 := 5#32
  let v106 : BitVec 32 := Scalar.muli arg9 c5_i32_98
  let c1_i32_99 : BitVec 32 := 1#32
  let v107 : BitVec 32 := Scalar.addi v106 c1_i32_99
  let c1_i32_195 : BitVec 32 := 1#32
  let v212 : BitVec 32 := Scalar.subi v107 c1_i32_195
  let v213 : BitVec 32 := Scalar.addi v2 v212
  let c80_i32_196 : BitVec 32 := 80#32
  let v214 : BitVec 32 := Scalar.muli v213 c80_i32_196
  let c0_i32_201 : BitVec 32 := 0#32
  ![v214.toNat, 0]
def k4_off7 (k4_t1 : Fin k4_t1_loop.trips) : Fin 2 → Nat :=
  let c0_i32_30 : BitVec 32 := 0#32
  let c1_i32_31 : BitVec 32 := 1#32
  let arg9 : BitVec 32 := Scf.iv c0_i32_30 c1_i32_31 k4_t1
  let c5_i32_98 : BitVec 32 := 5#32
  let v106 : BitVec 32 := Scalar.muli arg9 c5_i32_98
  let c1_i32_99 : BitVec 32 := 1#32
  let v107 : BitVec 32 := Scalar.addi v106 c1_i32_99
  let c5_i32_100 : BitVec 32 := 5#32
  let v108 : BitVec 32 := Scalar.addi v107 c5_i32_100
  let c1_i32_101 : BitVec 32 := 1#32
  let v109 : BitVec 32 := Scalar.subi v108 c1_i32_101
  let c0_i32_192 : BitVec 32 := 0#32
  ![v109.toNat, 0]
def k4_cond5 (k4_t1 : Fin k4_t1_loop.trips) : BitVec 1 :=
  let c0_i32_30 : BitVec 32 := 0#32
  let c1_i32_31 : BitVec 32 := 1#32
  let arg9 : BitVec 32 := Scf.iv c0_i32_30 c1_i32_31 k4_t1
  let c5_i32_120 : BitVec 32 := 5#32
  let v130 : BitVec 32 := Scalar.muli arg9 c5_i32_120
  let c2_i32_121 : BitVec 32 := 2#32
  let v131 : BitVec 32 := Scalar.addi v130 c2_i32_121
  let c5_i32_122 : BitVec 32 := 5#32
  let v132 : BitVec 32 := Scalar.addi v131 c5_i32_122
  let c1_i32_123 : BitVec 32 := 1#32
  let v133 : BitVec 32 := Scalar.subi v132 c1_i32_123
  let c25_i32_124 : BitVec 32 := 25#32
  let v134 : BitVec 1 := Scalar.cmpi .slt v133 c25_i32_124
  let v135 : BitVec 32 := Scalar.extui v134
  let c0_i32_125 : BitVec 32 := 0#32
  let v136 : BitVec 1 := Scalar.cmpi .ne v135 c0_i32_125
  v136

def k4_cond6 (k4_t1 : Fin k4_t1_loop.trips) : BitVec 1 :=
  let c0_i32_30 : BitVec 32 := 0#32
  let c1_i32_31 : BitVec 32 := 1#32
  let arg9 : BitVec 32 := Scf.iv c0_i32_30 c1_i32_31 k4_t1
  let c5_i32_120 : BitVec 32 := 5#32
  let v130 : BitVec 32 := Scalar.muli arg9 c5_i32_120
  let c2_i32_121 : BitVec 32 := 2#32
  let v131 : BitVec 32 := Scalar.addi v130 c2_i32_121
  let c0_i32_186 : BitVec 32 := 0#32
  let v202 : BitVec 1 := Scalar.cmpi .sgt v131 c0_i32_186
  let v203 : BitVec 32 := Scalar.extui v202
  let c0_i32_187 : BitVec 32 := 0#32
  let v204 : BitVec 1 := Scalar.cmpi .ne v203 c0_i32_187
  v204

def k4_off8 (i : grid4.Coords) (k4_t1 : Fin k4_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c0_i32_30 : BitVec 32 := 0#32
  let c1_i32_31 : BitVec 32 := 1#32
  let arg9 : BitVec 32 := Scf.iv c0_i32_30 c1_i32_31 k4_t1
  let c5_i32_120 : BitVec 32 := 5#32
  let v130 : BitVec 32 := Scalar.muli arg9 c5_i32_120
  let c2_i32_121 : BitVec 32 := 2#32
  let v131 : BitVec 32 := Scalar.addi v130 c2_i32_121
  let c1_i32_195 : BitVec 32 := 1#32
  let v212 : BitVec 32 := Scalar.subi v131 c1_i32_195
  let v213 : BitVec 32 := Scalar.addi v2 v212
  let c80_i32_196 : BitVec 32 := 80#32
  let v214 : BitVec 32 := Scalar.muli v213 c80_i32_196
  let c0_i32_201 : BitVec 32 := 0#32
  ![v214.toNat, 0]
def k4_off9 (k4_t1 : Fin k4_t1_loop.trips) : Fin 2 → Nat :=
  let c0_i32_30 : BitVec 32 := 0#32
  let c1_i32_31 : BitVec 32 := 1#32
  let arg9 : BitVec 32 := Scf.iv c0_i32_30 c1_i32_31 k4_t1
  let c5_i32_120 : BitVec 32 := 5#32
  let v130 : BitVec 32 := Scalar.muli arg9 c5_i32_120
  let c2_i32_121 : BitVec 32 := 2#32
  let v131 : BitVec 32 := Scalar.addi v130 c2_i32_121
  let c5_i32_122 : BitVec 32 := 5#32
  let v132 : BitVec 32 := Scalar.addi v131 c5_i32_122
  let c1_i32_123 : BitVec 32 := 1#32
  let v133 : BitVec 32 := Scalar.subi v132 c1_i32_123
  let c0_i32_192 : BitVec 32 := 0#32
  ![v133.toNat, 0]
def k4_cond7 (k4_t1 : Fin k4_t1_loop.trips) : BitVec 1 :=
  let c0_i32_30 : BitVec 32 := 0#32
  let c1_i32_31 : BitVec 32 := 1#32
  let arg9 : BitVec 32 := Scf.iv c0_i32_30 c1_i32_31 k4_t1
  let c5_i32_142 : BitVec 32 := 5#32
  let v154 : BitVec 32 := Scalar.muli arg9 c5_i32_142
  let c3_i32_143 : BitVec 32 := 3#32
  let v155 : BitVec 32 := Scalar.addi v154 c3_i32_143
  let c5_i32_144 : BitVec 32 := 5#32
  let v156 : BitVec 32 := Scalar.addi v155 c5_i32_144
  let c1_i32_145 : BitVec 32 := 1#32
  let v157 : BitVec 32 := Scalar.subi v156 c1_i32_145
  let c25_i32_146 : BitVec 32 := 25#32
  let v158 : BitVec 1 := Scalar.cmpi .slt v157 c25_i32_146
  let v159 : BitVec 32 := Scalar.extui v158
  let c0_i32_147 : BitVec 32 := 0#32
  let v160 : BitVec 1 := Scalar.cmpi .ne v159 c0_i32_147
  v160

def k4_cond8 (k4_t1 : Fin k4_t1_loop.trips) : BitVec 1 :=
  let c0_i32_30 : BitVec 32 := 0#32
  let c1_i32_31 : BitVec 32 := 1#32
  let arg9 : BitVec 32 := Scf.iv c0_i32_30 c1_i32_31 k4_t1
  let c5_i32_142 : BitVec 32 := 5#32
  let v154 : BitVec 32 := Scalar.muli arg9 c5_i32_142
  let c3_i32_143 : BitVec 32 := 3#32
  let v155 : BitVec 32 := Scalar.addi v154 c3_i32_143
  let c0_i32_186 : BitVec 32 := 0#32
  let v202 : BitVec 1 := Scalar.cmpi .sgt v155 c0_i32_186
  let v203 : BitVec 32 := Scalar.extui v202
  let c0_i32_187 : BitVec 32 := 0#32
  let v204 : BitVec 1 := Scalar.cmpi .ne v203 c0_i32_187
  v204

def k4_off10 (i : grid4.Coords) (k4_t1 : Fin k4_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c0_i32_30 : BitVec 32 := 0#32
  let c1_i32_31 : BitVec 32 := 1#32
  let arg9 : BitVec 32 := Scf.iv c0_i32_30 c1_i32_31 k4_t1
  let c5_i32_142 : BitVec 32 := 5#32
  let v154 : BitVec 32 := Scalar.muli arg9 c5_i32_142
  let c3_i32_143 : BitVec 32 := 3#32
  let v155 : BitVec 32 := Scalar.addi v154 c3_i32_143
  let c1_i32_195 : BitVec 32 := 1#32
  let v212 : BitVec 32 := Scalar.subi v155 c1_i32_195
  let v213 : BitVec 32 := Scalar.addi v2 v212
  let c80_i32_196 : BitVec 32 := 80#32
  let v214 : BitVec 32 := Scalar.muli v213 c80_i32_196
  let c0_i32_201 : BitVec 32 := 0#32
  ![v214.toNat, 0]
def k4_off11 (k4_t1 : Fin k4_t1_loop.trips) : Fin 2 → Nat :=
  let c0_i32_30 : BitVec 32 := 0#32
  let c1_i32_31 : BitVec 32 := 1#32
  let arg9 : BitVec 32 := Scf.iv c0_i32_30 c1_i32_31 k4_t1
  let c5_i32_142 : BitVec 32 := 5#32
  let v154 : BitVec 32 := Scalar.muli arg9 c5_i32_142
  let c3_i32_143 : BitVec 32 := 3#32
  let v155 : BitVec 32 := Scalar.addi v154 c3_i32_143
  let c5_i32_144 : BitVec 32 := 5#32
  let v156 : BitVec 32 := Scalar.addi v155 c5_i32_144
  let c1_i32_145 : BitVec 32 := 1#32
  let v157 : BitVec 32 := Scalar.subi v156 c1_i32_145
  let c0_i32_192 : BitVec 32 := 0#32
  ![v157.toNat, 0]
def k4_cond9 (k4_t1 : Fin k4_t1_loop.trips) : BitVec 1 :=
  let c0_i32_30 : BitVec 32 := 0#32
  let c1_i32_31 : BitVec 32 := 1#32
  let arg9 : BitVec 32 := Scf.iv c0_i32_30 c1_i32_31 k4_t1
  let c5_i32_164 : BitVec 32 := 5#32
  let v178 : BitVec 32 := Scalar.muli arg9 c5_i32_164
  let c4_i32_165 : BitVec 32 := 4#32
  let v179 : BitVec 32 := Scalar.addi v178 c4_i32_165
  let c5_i32_166 : BitVec 32 := 5#32
  let v180 : BitVec 32 := Scalar.addi v179 c5_i32_166
  let c1_i32_167 : BitVec 32 := 1#32
  let v181 : BitVec 32 := Scalar.subi v180 c1_i32_167
  let c25_i32_168 : BitVec 32 := 25#32
  let v182 : BitVec 1 := Scalar.cmpi .slt v181 c25_i32_168
  let v183 : BitVec 32 := Scalar.extui v182
  let c0_i32_169 : BitVec 32 := 0#32
  let v184 : BitVec 1 := Scalar.cmpi .ne v183 c0_i32_169
  v184

def k4_cond10 (k4_t1 : Fin k4_t1_loop.trips) : BitVec 1 :=
  let c0_i32_30 : BitVec 32 := 0#32
  let c1_i32_31 : BitVec 32 := 1#32
  let arg9 : BitVec 32 := Scf.iv c0_i32_30 c1_i32_31 k4_t1
  let c5_i32_164 : BitVec 32 := 5#32
  let v178 : BitVec 32 := Scalar.muli arg9 c5_i32_164
  let c4_i32_165 : BitVec 32 := 4#32
  let v179 : BitVec 32 := Scalar.addi v178 c4_i32_165
  let c0_i32_186 : BitVec 32 := 0#32
  let v202 : BitVec 1 := Scalar.cmpi .sgt v179 c0_i32_186
  let v203 : BitVec 32 := Scalar.extui v202
  let c0_i32_187 : BitVec 32 := 0#32
  let v204 : BitVec 1 := Scalar.cmpi .ne v203 c0_i32_187
  v204

def k4_off12 (i : grid4.Coords) (k4_t1 : Fin k4_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c0_i32_30 : BitVec 32 := 0#32
  let c1_i32_31 : BitVec 32 := 1#32
  let arg9 : BitVec 32 := Scf.iv c0_i32_30 c1_i32_31 k4_t1
  let c5_i32_164 : BitVec 32 := 5#32
  let v178 : BitVec 32 := Scalar.muli arg9 c5_i32_164
  let c4_i32_165 : BitVec 32 := 4#32
  let v179 : BitVec 32 := Scalar.addi v178 c4_i32_165
  let c1_i32_195 : BitVec 32 := 1#32
  let v212 : BitVec 32 := Scalar.subi v179 c1_i32_195
  let v213 : BitVec 32 := Scalar.addi v2 v212
  let c80_i32_196 : BitVec 32 := 80#32
  let v214 : BitVec 32 := Scalar.muli v213 c80_i32_196
  let c0_i32_201 : BitVec 32 := 0#32
  ![v214.toNat, 0]
def k4_off13 (k4_t1 : Fin k4_t1_loop.trips) : Fin 2 → Nat :=
  let c0_i32_30 : BitVec 32 := 0#32
  let c1_i32_31 : BitVec 32 := 1#32
  let arg9 : BitVec 32 := Scf.iv c0_i32_30 c1_i32_31 k4_t1
  let c5_i32_164 : BitVec 32 := 5#32
  let v178 : BitVec 32 := Scalar.muli arg9 c5_i32_164
  let c4_i32_165 : BitVec 32 := 4#32
  let v179 : BitVec 32 := Scalar.addi v178 c4_i32_165
  let c5_i32_166 : BitVec 32 := 5#32
  let v180 : BitVec 32 := Scalar.addi v179 c5_i32_166
  let c1_i32_167 : BitVec 32 := 1#32
  let v181 : BitVec 32 := Scalar.subi v180 c1_i32_167
  let c0_i32_192 : BitVec 32 := 0#32
  ![v181.toNat, 0]
def k4_off14 (i : grid4.Coords) (c20_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let v32 : BitVec 32 := Scalar.addi v2 c20_i32
  let c80_i32 : BitVec 32 := 80#32
  let v33 : BitVec 32 := Scalar.muli v32 c80_i32
  let c0_i32_37 : BitVec 32 := 0#32
  ![v33.toNat, 0]
abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S12800x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S400x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S400x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨2, ![2, 16], ![false, false]⟩

def k6_off1 (i : grid6.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_76_r0 : BitVec 32 := 0#32
  let c0_i32_77_r0 : BitVec 32 := 0#32
  ![v1.toNat, 0, 0]
@[reducible] def k6_t1_loop : Scf.Loop 32 :=
  let c0_i32_30 : BitVec 32 := 0#32
  let c5_i32 : BitVec 32 := 5#32
  let v31 : BitVec 32 := Scalar.addi c0_i32_30 c5_i32
  let c1_i32_31 : BitVec 32 := 1#32
  ⟨c0_i32_30, v31, c1_i32_31⟩
def k6_cond1 (k6_t1 : Fin k6_t1_loop.trips) : BitVec 1 :=
  let c0_i32_30 : BitVec 32 := 0#32
  let c1_i32_31 : BitVec 32 := 1#32
  let arg9 : BitVec 32 := Scf.iv c0_i32_30 c1_i32_31 k6_t1
  let c5_i32_76 : BitVec 32 := 5#32
  let v82 : BitVec 32 := Scalar.muli arg9 c5_i32_76
  let c0_i32_77 : BitVec 32 := 0#32
  let v83 : BitVec 32 := Scalar.addi v82 c0_i32_77
  let c5_i32_78 : BitVec 32 := 5#32
  let v84 : BitVec 32 := Scalar.addi v83 c5_i32_78
  let c1_i32_79 : BitVec 32 := 1#32
  let v85 : BitVec 32 := Scalar.subi v84 c1_i32_79
  let c25_i32_80 : BitVec 32 := 25#32
  let v86 : BitVec 1 := Scalar.cmpi .slt v85 c25_i32_80
  let v87 : BitVec 32 := Scalar.extui v86
  let c0_i32_81 : BitVec 32 := 0#32
  let v88 : BitVec 1 := Scalar.cmpi .ne v87 c0_i32_81
  v88

def k6_cond2 (k6_t1 : Fin k6_t1_loop.trips) : BitVec 1 :=
  let c0_i32_30 : BitVec 32 := 0#32
  let c1_i32_31 : BitVec 32 := 1#32
  let arg9 : BitVec 32 := Scf.iv c0_i32_30 c1_i32_31 k6_t1
  let c5_i32_76 : BitVec 32 := 5#32
  let v82 : BitVec 32 := Scalar.muli arg9 c5_i32_76
  let c0_i32_77 : BitVec 32 := 0#32
  let v83 : BitVec 32 := Scalar.addi v82 c0_i32_77
  let c0_i32_186 : BitVec 32 := 0#32
  let v202 : BitVec 1 := Scalar.cmpi .sgt v83 c0_i32_186
  let v203 : BitVec 32 := Scalar.extui v202
  let c0_i32_187 : BitVec 32 := 0#32
  let v204 : BitVec 1 := Scalar.cmpi .ne v203 c0_i32_187
  v204

def k6_off2 (i : grid6.Coords) (k6_t1 : Fin k6_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c0_i32_30 : BitVec 32 := 0#32
  let c1_i32_31 : BitVec 32 := 1#32
  let arg9 : BitVec 32 := Scf.iv c0_i32_30 c1_i32_31 k6_t1
  let c5_i32_76 : BitVec 32 := 5#32
  let v82 : BitVec 32 := Scalar.muli arg9 c5_i32_76
  let c0_i32_77 : BitVec 32 := 0#32
  let v83 : BitVec 32 := Scalar.addi v82 c0_i32_77
  let c1_i32_195 : BitVec 32 := 1#32
  let v212 : BitVec 32 := Scalar.subi v83 c1_i32_195
  let v213 : BitVec 32 := Scalar.addi v2 v212
  let c80_i32_196 : BitVec 32 := 80#32
  let v214 : BitVec 32 := Scalar.muli v213 c80_i32_196
  let c0_i32_201 : BitVec 32 := 0#32
  ![v214.toNat, 0]
def k6_off3 (k6_t1 : Fin k6_t1_loop.trips) : Fin 2 → Nat :=
  let c0_i32_30 : BitVec 32 := 0#32
  let c1_i32_31 : BitVec 32 := 1#32
  let arg9 : BitVec 32 := Scf.iv c0_i32_30 c1_i32_31 k6_t1
  let c5_i32_76 : BitVec 32 := 5#32
  let v82 : BitVec 32 := Scalar.muli arg9 c5_i32_76
  let c0_i32_77 : BitVec 32 := 0#32
  let v83 : BitVec 32 := Scalar.addi v82 c0_i32_77
  let c5_i32_78 : BitVec 32 := 5#32
  let v84 : BitVec 32 := Scalar.addi v83 c5_i32_78
  let c1_i32_79 : BitVec 32 := 1#32
  let v85 : BitVec 32 := Scalar.subi v84 c1_i32_79
  let c0_i32_192 : BitVec 32 := 0#32
  ![v85.toNat, 0]
def k6_off4 (k6_t1 : Fin k6_t1_loop.trips) (c0_i32_77 : BitVec 32) : Fin 2 → Nat :=
  let c0_i32_30 : BitVec 32 := 0#32
  let c1_i32_31 : BitVec 32 := 1#32
  let arg9 : BitVec 32 := Scf.iv c0_i32_30 c1_i32_31 k6_t1
  let c5_i32_76 : BitVec 32 := 5#32
  let v82 : BitVec 32 := Scalar.muli arg9 c5_i32_76
  let v83 : BitVec 32 := Scalar.addi v82 c0_i32_77
  let c0_i32_86 : BitVec 32 := 0#32
  ![v83.toNat, 0]
def k6_off5 (i : grid6.Coords) (k6_t1 : Fin k6_t1_loop.trips) (c0_i32_77 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c0_i32_30 : BitVec 32 := 0#32
  let c1_i32_31 : BitVec 32 := 1#32
  let arg9 : BitVec 32 := Scf.iv c0_i32_30 c1_i32_31 k6_t1
  let c5_i32_76 : BitVec 32 := 5#32
  let v82 : BitVec 32 := Scalar.muli arg9 c5_i32_76
  let v83 : BitVec 32 := Scalar.addi v82 c0_i32_77
  let v96 : BitVec 32 := Scalar.addi v2 v83
  let c80_i32_89 : BitVec 32 := 80#32
  let v97 : BitVec 32 := Scalar.muli v96 c80_i32_89
  let c0_i32_94 : BitVec 32 := 0#32
  ![v97.toNat, 0]
def k6_cond3 (k6_t1 : Fin k6_t1_loop.trips) : BitVec 1 :=
  let c0_i32_30 : BitVec 32 := 0#32
  let c1_i32_31 : BitVec 32 := 1#32
  let arg9 : BitVec 32 := Scf.iv c0_i32_30 c1_i32_31 k6_t1
  let c5_i32_98 : BitVec 32 := 5#32
  let v106 : BitVec 32 := Scalar.muli arg9 c5_i32_98
  let c1_i32_99 : BitVec 32 := 1#32
  let v107 : BitVec 32 := Scalar.addi v106 c1_i32_99
  let c5_i32_100 : BitVec 32 := 5#32
  let v108 : BitVec 32 := Scalar.addi v107 c5_i32_100
  let c1_i32_101 : BitVec 32 := 1#32
  let v109 : BitVec 32 := Scalar.subi v108 c1_i32_101
  let c25_i32_102 : BitVec 32 := 25#32
  let v110 : BitVec 1 := Scalar.cmpi .slt v109 c25_i32_102
  let v111 : BitVec 32 := Scalar.extui v110
  let c0_i32_103 : BitVec 32 := 0#32
  let v112 : BitVec 1 := Scalar.cmpi .ne v111 c0_i32_103
  v112

def k6_cond4 (k6_t1 : Fin k6_t1_loop.trips) : BitVec 1 :=
  let c0_i32_30 : BitVec 32 := 0#32
  let c1_i32_31 : BitVec 32 := 1#32
  let arg9 : BitVec 32 := Scf.iv c0_i32_30 c1_i32_31 k6_t1
  let c5_i32_98 : BitVec 32 := 5#32
  let v106 : BitVec 32 := Scalar.muli arg9 c5_i32_98
  let c1_i32_99 : BitVec 32 := 1#32
  let v107 : BitVec 32 := Scalar.addi v106 c1_i32_99
  let c0_i32_186 : BitVec 32 := 0#32
  let v202 : BitVec 1 := Scalar.cmpi .sgt v107 c0_i32_186
  let v203 : BitVec 32 := Scalar.extui v202
  let c0_i32_187 : BitVec 32 := 0#32
  let v204 : BitVec 1 := Scalar.cmpi .ne v203 c0_i32_187
  v204

def k6_off6 (i : grid6.Coords) (k6_t1 : Fin k6_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c0_i32_30 : BitVec 32 := 0#32
  let c1_i32_31 : BitVec 32 := 1#32
  let arg9 : BitVec 32 := Scf.iv c0_i32_30 c1_i32_31 k6_t1
  let c5_i32_98 : BitVec 32 := 5#32
  let v106 : BitVec 32 := Scalar.muli arg9 c5_i32_98
  let c1_i32_99 : BitVec 32 := 1#32
  let v107 : BitVec 32 := Scalar.addi v106 c1_i32_99
  let c1_i32_195 : BitVec 32 := 1#32
  let v212 : BitVec 32 := Scalar.subi v107 c1_i32_195
  let v213 : BitVec 32 := Scalar.addi v2 v212
  let c80_i32_196 : BitVec 32 := 80#32
  let v214 : BitVec 32 := Scalar.muli v213 c80_i32_196
  let c0_i32_201 : BitVec 32 := 0#32
  ![v214.toNat, 0]
def k6_off7 (k6_t1 : Fin k6_t1_loop.trips) : Fin 2 → Nat :=
  let c0_i32_30 : BitVec 32 := 0#32
  let c1_i32_31 : BitVec 32 := 1#32
  let arg9 : BitVec 32 := Scf.iv c0_i32_30 c1_i32_31 k6_t1
  let c5_i32_98 : BitVec 32 := 5#32
  let v106 : BitVec 32 := Scalar.muli arg9 c5_i32_98
  let c1_i32_99 : BitVec 32 := 1#32
  let v107 : BitVec 32 := Scalar.addi v106 c1_i32_99
  let c5_i32_100 : BitVec 32 := 5#32
  let v108 : BitVec 32 := Scalar.addi v107 c5_i32_100
  let c1_i32_101 : BitVec 32 := 1#32
  let v109 : BitVec 32 := Scalar.subi v108 c1_i32_101
  let c0_i32_192 : BitVec 32 := 0#32
  ![v109.toNat, 0]
def k6_cond5 (k6_t1 : Fin k6_t1_loop.trips) : BitVec 1 :=
  let c0_i32_30 : BitVec 32 := 0#32
  let c1_i32_31 : BitVec 32 := 1#32
  let arg9 : BitVec 32 := Scf.iv c0_i32_30 c1_i32_31 k6_t1
  let c5_i32_120 : BitVec 32 := 5#32
  let v130 : BitVec 32 := Scalar.muli arg9 c5_i32_120
  let c2_i32_121 : BitVec 32 := 2#32
  let v131 : BitVec 32 := Scalar.addi v130 c2_i32_121
  let c5_i32_122 : BitVec 32 := 5#32
  let v132 : BitVec 32 := Scalar.addi v131 c5_i32_122
  let c1_i32_123 : BitVec 32 := 1#32
  let v133 : BitVec 32 := Scalar.subi v132 c1_i32_123
  let c25_i32_124 : BitVec 32 := 25#32
  let v134 : BitVec 1 := Scalar.cmpi .slt v133 c25_i32_124
  let v135 : BitVec 32 := Scalar.extui v134
  let c0_i32_125 : BitVec 32 := 0#32
  let v136 : BitVec 1 := Scalar.cmpi .ne v135 c0_i32_125
  v136

def k6_cond6 (k6_t1 : Fin k6_t1_loop.trips) : BitVec 1 :=
  let c0_i32_30 : BitVec 32 := 0#32
  let c1_i32_31 : BitVec 32 := 1#32
  let arg9 : BitVec 32 := Scf.iv c0_i32_30 c1_i32_31 k6_t1
  let c5_i32_120 : BitVec 32 := 5#32
  let v130 : BitVec 32 := Scalar.muli arg9 c5_i32_120
  let c2_i32_121 : BitVec 32 := 2#32
  let v131 : BitVec 32 := Scalar.addi v130 c2_i32_121
  let c0_i32_186 : BitVec 32 := 0#32
  let v202 : BitVec 1 := Scalar.cmpi .sgt v131 c0_i32_186
  let v203 : BitVec 32 := Scalar.extui v202
  let c0_i32_187 : BitVec 32 := 0#32
  let v204 : BitVec 1 := Scalar.cmpi .ne v203 c0_i32_187
  v204

def k6_off8 (i : grid6.Coords) (k6_t1 : Fin k6_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c0_i32_30 : BitVec 32 := 0#32
  let c1_i32_31 : BitVec 32 := 1#32
  let arg9 : BitVec 32 := Scf.iv c0_i32_30 c1_i32_31 k6_t1
  let c5_i32_120 : BitVec 32 := 5#32
  let v130 : BitVec 32 := Scalar.muli arg9 c5_i32_120
  let c2_i32_121 : BitVec 32 := 2#32
  let v131 : BitVec 32 := Scalar.addi v130 c2_i32_121
  let c1_i32_195 : BitVec 32 := 1#32
  let v212 : BitVec 32 := Scalar.subi v131 c1_i32_195
  let v213 : BitVec 32 := Scalar.addi v2 v212
  let c80_i32_196 : BitVec 32 := 80#32
  let v214 : BitVec 32 := Scalar.muli v213 c80_i32_196
  let c0_i32_201 : BitVec 32 := 0#32
  ![v214.toNat, 0]
def k6_off9 (k6_t1 : Fin k6_t1_loop.trips) : Fin 2 → Nat :=
  let c0_i32_30 : BitVec 32 := 0#32
  let c1_i32_31 : BitVec 32 := 1#32
  let arg9 : BitVec 32 := Scf.iv c0_i32_30 c1_i32_31 k6_t1
  let c5_i32_120 : BitVec 32 := 5#32
  let v130 : BitVec 32 := Scalar.muli arg9 c5_i32_120
  let c2_i32_121 : BitVec 32 := 2#32
  let v131 : BitVec 32 := Scalar.addi v130 c2_i32_121
  let c5_i32_122 : BitVec 32 := 5#32
  let v132 : BitVec 32 := Scalar.addi v131 c5_i32_122
  let c1_i32_123 : BitVec 32 := 1#32
  let v133 : BitVec 32 := Scalar.subi v132 c1_i32_123
  let c0_i32_192 : BitVec 32 := 0#32
  ![v133.toNat, 0]
def k6_cond7 (k6_t1 : Fin k6_t1_loop.trips) : BitVec 1 :=
  let c0_i32_30 : BitVec 32 := 0#32
  let c1_i32_31 : BitVec 32 := 1#32
  let arg9 : BitVec 32 := Scf.iv c0_i32_30 c1_i32_31 k6_t1
  let c5_i32_142 : BitVec 32 := 5#32
  let v154 : BitVec 32 := Scalar.muli arg9 c5_i32_142
  let c3_i32_143 : BitVec 32 := 3#32
  let v155 : BitVec 32 := Scalar.addi v154 c3_i32_143
  let c5_i32_144 : BitVec 32 := 5#32
  let v156 : BitVec 32 := Scalar.addi v155 c5_i32_144
  let c1_i32_145 : BitVec 32 := 1#32
  let v157 : BitVec 32 := Scalar.subi v156 c1_i32_145
  let c25_i32_146 : BitVec 32 := 25#32
  let v158 : BitVec 1 := Scalar.cmpi .slt v157 c25_i32_146
  let v159 : BitVec 32 := Scalar.extui v158
  let c0_i32_147 : BitVec 32 := 0#32
  let v160 : BitVec 1 := Scalar.cmpi .ne v159 c0_i32_147
  v160

def k6_cond8 (k6_t1 : Fin k6_t1_loop.trips) : BitVec 1 :=
  let c0_i32_30 : BitVec 32 := 0#32
  let c1_i32_31 : BitVec 32 := 1#32
  let arg9 : BitVec 32 := Scf.iv c0_i32_30 c1_i32_31 k6_t1
  let c5_i32_142 : BitVec 32 := 5#32
  let v154 : BitVec 32 := Scalar.muli arg9 c5_i32_142
  let c3_i32_143 : BitVec 32 := 3#32
  let v155 : BitVec 32 := Scalar.addi v154 c3_i32_143
  let c0_i32_186 : BitVec 32 := 0#32
  let v202 : BitVec 1 := Scalar.cmpi .sgt v155 c0_i32_186
  let v203 : BitVec 32 := Scalar.extui v202
  let c0_i32_187 : BitVec 32 := 0#32
  let v204 : BitVec 1 := Scalar.cmpi .ne v203 c0_i32_187
  v204

def k6_off10 (i : grid6.Coords) (k6_t1 : Fin k6_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c0_i32_30 : BitVec 32 := 0#32
  let c1_i32_31 : BitVec 32 := 1#32
  let arg9 : BitVec 32 := Scf.iv c0_i32_30 c1_i32_31 k6_t1
  let c5_i32_142 : BitVec 32 := 5#32
  let v154 : BitVec 32 := Scalar.muli arg9 c5_i32_142
  let c3_i32_143 : BitVec 32 := 3#32
  let v155 : BitVec 32 := Scalar.addi v154 c3_i32_143
  let c1_i32_195 : BitVec 32 := 1#32
  let v212 : BitVec 32 := Scalar.subi v155 c1_i32_195
  let v213 : BitVec 32 := Scalar.addi v2 v212
  let c80_i32_196 : BitVec 32 := 80#32
  let v214 : BitVec 32 := Scalar.muli v213 c80_i32_196
  let c0_i32_201 : BitVec 32 := 0#32
  ![v214.toNat, 0]
def k6_off11 (k6_t1 : Fin k6_t1_loop.trips) : Fin 2 → Nat :=
  let c0_i32_30 : BitVec 32 := 0#32
  let c1_i32_31 : BitVec 32 := 1#32
  let arg9 : BitVec 32 := Scf.iv c0_i32_30 c1_i32_31 k6_t1
  let c5_i32_142 : BitVec 32 := 5#32
  let v154 : BitVec 32 := Scalar.muli arg9 c5_i32_142
  let c3_i32_143 : BitVec 32 := 3#32
  let v155 : BitVec 32 := Scalar.addi v154 c3_i32_143
  let c5_i32_144 : BitVec 32 := 5#32
  let v156 : BitVec 32 := Scalar.addi v155 c5_i32_144
  let c1_i32_145 : BitVec 32 := 1#32
  let v157 : BitVec 32 := Scalar.subi v156 c1_i32_145
  let c0_i32_192 : BitVec 32 := 0#32
  ![v157.toNat, 0]
def k6_cond9 (k6_t1 : Fin k6_t1_loop.trips) : BitVec 1 :=
  let c0_i32_30 : BitVec 32 := 0#32
  let c1_i32_31 : BitVec 32 := 1#32
  let arg9 : BitVec 32 := Scf.iv c0_i32_30 c1_i32_31 k6_t1
  let c5_i32_164 : BitVec 32 := 5#32
  let v178 : BitVec 32 := Scalar.muli arg9 c5_i32_164
  let c4_i32_165 : BitVec 32 := 4#32
  let v179 : BitVec 32 := Scalar.addi v178 c4_i32_165
  let c5_i32_166 : BitVec 32 := 5#32
  let v180 : BitVec 32 := Scalar.addi v179 c5_i32_166
  let c1_i32_167 : BitVec 32 := 1#32
  let v181 : BitVec 32 := Scalar.subi v180 c1_i32_167
  let c25_i32_168 : BitVec 32 := 25#32
  let v182 : BitVec 1 := Scalar.cmpi .slt v181 c25_i32_168
  let v183 : BitVec 32 := Scalar.extui v182
  let c0_i32_169 : BitVec 32 := 0#32
  let v184 : BitVec 1 := Scalar.cmpi .ne v183 c0_i32_169
  v184

def k6_cond10 (k6_t1 : Fin k6_t1_loop.trips) : BitVec 1 :=
  let c0_i32_30 : BitVec 32 := 0#32
  let c1_i32_31 : BitVec 32 := 1#32
  let arg9 : BitVec 32 := Scf.iv c0_i32_30 c1_i32_31 k6_t1
  let c5_i32_164 : BitVec 32 := 5#32
  let v178 : BitVec 32 := Scalar.muli arg9 c5_i32_164
  let c4_i32_165 : BitVec 32 := 4#32
  let v179 : BitVec 32 := Scalar.addi v178 c4_i32_165
  let c0_i32_186 : BitVec 32 := 0#32
  let v202 : BitVec 1 := Scalar.cmpi .sgt v179 c0_i32_186
  let v203 : BitVec 32 := Scalar.extui v202
  let c0_i32_187 : BitVec 32 := 0#32
  let v204 : BitVec 1 := Scalar.cmpi .ne v203 c0_i32_187
  v204

def k6_off12 (i : grid6.Coords) (k6_t1 : Fin k6_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c0_i32_30 : BitVec 32 := 0#32
  let c1_i32_31 : BitVec 32 := 1#32
  let arg9 : BitVec 32 := Scf.iv c0_i32_30 c1_i32_31 k6_t1
  let c5_i32_164 : BitVec 32 := 5#32
  let v178 : BitVec 32 := Scalar.muli arg9 c5_i32_164
  let c4_i32_165 : BitVec 32 := 4#32
  let v179 : BitVec 32 := Scalar.addi v178 c4_i32_165
  let c1_i32_195 : BitVec 32 := 1#32
  let v212 : BitVec 32 := Scalar.subi v179 c1_i32_195
  let v213 : BitVec 32 := Scalar.addi v2 v212
  let c80_i32_196 : BitVec 32 := 80#32
  let v214 : BitVec 32 := Scalar.muli v213 c80_i32_196
  let c0_i32_201 : BitVec 32 := 0#32
  ![v214.toNat, 0]
def k6_off13 (k6_t1 : Fin k6_t1_loop.trips) : Fin 2 → Nat :=
  let c0_i32_30 : BitVec 32 := 0#32
  let c1_i32_31 : BitVec 32 := 1#32
  let arg9 : BitVec 32 := Scf.iv c0_i32_30 c1_i32_31 k6_t1
  let c5_i32_164 : BitVec 32 := 5#32
  let v178 : BitVec 32 := Scalar.muli arg9 c5_i32_164
  let c4_i32_165 : BitVec 32 := 4#32
  let v179 : BitVec 32 := Scalar.addi v178 c4_i32_165
  let c5_i32_166 : BitVec 32 := 5#32
  let v180 : BitVec 32 := Scalar.addi v179 c5_i32_166
  let c1_i32_167 : BitVec 32 := 1#32
  let v181 : BitVec 32 := Scalar.subi v180 c1_i32_167
  let c0_i32_192 : BitVec 32 := 0#32
  ![v181.toNat, 0]
def k6_off14 (i : grid6.Coords) (c20_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let v32 : BitVec 32 := Scalar.addi v2 c20_i32
  let c80_i32 : BitVec 32 := 80#32
  let v33 : BitVec 32 := Scalar.muli v32 c80_i32
  let c0_i32_37 : BitVec 32 := 0#32
  ![v33.toNat, 0]
abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S12800x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S400x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S400x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨2, ![2, 16], ![false, false]⟩

def k8_off1 (i : grid8.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_76_r0 : BitVec 32 := 0#32
  let c0_i32_77_r0 : BitVec 32 := 0#32
  ![v1.toNat, 0, 0]
@[reducible] def k8_t1_loop : Scf.Loop 32 :=
  let c0_i32_30 : BitVec 32 := 0#32
  let c5_i32 : BitVec 32 := 5#32
  let v31 : BitVec 32 := Scalar.addi c0_i32_30 c5_i32
  let c1_i32_31 : BitVec 32 := 1#32
  ⟨c0_i32_30, v31, c1_i32_31⟩
def k8_cond1 (k8_t1 : Fin k8_t1_loop.trips) : BitVec 1 :=
  let c0_i32_30 : BitVec 32 := 0#32
  let c1_i32_31 : BitVec 32 := 1#32
  let arg9 : BitVec 32 := Scf.iv c0_i32_30 c1_i32_31 k8_t1
  let c5_i32_76 : BitVec 32 := 5#32
  let v82 : BitVec 32 := Scalar.muli arg9 c5_i32_76
  let c0_i32_77 : BitVec 32 := 0#32
  let v83 : BitVec 32 := Scalar.addi v82 c0_i32_77
  let c5_i32_78 : BitVec 32 := 5#32
  let v84 : BitVec 32 := Scalar.addi v83 c5_i32_78
  let c1_i32_79 : BitVec 32 := 1#32
  let v85 : BitVec 32 := Scalar.subi v84 c1_i32_79
  let c25_i32_80 : BitVec 32 := 25#32
  let v86 : BitVec 1 := Scalar.cmpi .slt v85 c25_i32_80
  let v87 : BitVec 32 := Scalar.extui v86
  let c0_i32_81 : BitVec 32 := 0#32
  let v88 : BitVec 1 := Scalar.cmpi .ne v87 c0_i32_81
  v88

def k8_cond2 (k8_t1 : Fin k8_t1_loop.trips) : BitVec 1 :=
  let c0_i32_30 : BitVec 32 := 0#32
  let c1_i32_31 : BitVec 32 := 1#32
  let arg9 : BitVec 32 := Scf.iv c0_i32_30 c1_i32_31 k8_t1
  let c5_i32_76 : BitVec 32 := 5#32
  let v82 : BitVec 32 := Scalar.muli arg9 c5_i32_76
  let c0_i32_77 : BitVec 32 := 0#32
  let v83 : BitVec 32 := Scalar.addi v82 c0_i32_77
  let c0_i32_186 : BitVec 32 := 0#32
  let v202 : BitVec 1 := Scalar.cmpi .sgt v83 c0_i32_186
  let v203 : BitVec 32 := Scalar.extui v202
  let c0_i32_187 : BitVec 32 := 0#32
  let v204 : BitVec 1 := Scalar.cmpi .ne v203 c0_i32_187
  v204

def k8_off2 (i : grid8.Coords) (k8_t1 : Fin k8_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c0_i32_30 : BitVec 32 := 0#32
  let c1_i32_31 : BitVec 32 := 1#32
  let arg9 : BitVec 32 := Scf.iv c0_i32_30 c1_i32_31 k8_t1
  let c5_i32_76 : BitVec 32 := 5#32
  let v82 : BitVec 32 := Scalar.muli arg9 c5_i32_76
  let c0_i32_77 : BitVec 32 := 0#32
  let v83 : BitVec 32 := Scalar.addi v82 c0_i32_77
  let c1_i32_195 : BitVec 32 := 1#32
  let v212 : BitVec 32 := Scalar.subi v83 c1_i32_195
  let v213 : BitVec 32 := Scalar.addi v2 v212
  let c80_i32_196 : BitVec 32 := 80#32
  let v214 : BitVec 32 := Scalar.muli v213 c80_i32_196
  let c0_i32_201 : BitVec 32 := 0#32
  ![v214.toNat, 0]
def k8_off3 (k8_t1 : Fin k8_t1_loop.trips) : Fin 2 → Nat :=
  let c0_i32_30 : BitVec 32 := 0#32
  let c1_i32_31 : BitVec 32 := 1#32
  let arg9 : BitVec 32 := Scf.iv c0_i32_30 c1_i32_31 k8_t1
  let c5_i32_76 : BitVec 32 := 5#32
  let v82 : BitVec 32 := Scalar.muli arg9 c5_i32_76
  let c0_i32_77 : BitVec 32 := 0#32
  let v83 : BitVec 32 := Scalar.addi v82 c0_i32_77
  let c5_i32_78 : BitVec 32 := 5#32
  let v84 : BitVec 32 := Scalar.addi v83 c5_i32_78
  let c1_i32_79 : BitVec 32 := 1#32
  let v85 : BitVec 32 := Scalar.subi v84 c1_i32_79
  let c0_i32_192 : BitVec 32 := 0#32
  ![v85.toNat, 0]
def k8_off4 (k8_t1 : Fin k8_t1_loop.trips) (c0_i32_77 : BitVec 32) : Fin 2 → Nat :=
  let c0_i32_30 : BitVec 32 := 0#32
  let c1_i32_31 : BitVec 32 := 1#32
  let arg9 : BitVec 32 := Scf.iv c0_i32_30 c1_i32_31 k8_t1
  let c5_i32_76 : BitVec 32 := 5#32
  let v82 : BitVec 32 := Scalar.muli arg9 c5_i32_76
  let v83 : BitVec 32 := Scalar.addi v82 c0_i32_77
  let c0_i32_86 : BitVec 32 := 0#32
  ![v83.toNat, 0]
def k8_off5 (i : grid8.Coords) (k8_t1 : Fin k8_t1_loop.trips) (c0_i32_77 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c0_i32_30 : BitVec 32 := 0#32
  let c1_i32_31 : BitVec 32 := 1#32
  let arg9 : BitVec 32 := Scf.iv c0_i32_30 c1_i32_31 k8_t1
  let c5_i32_76 : BitVec 32 := 5#32
  let v82 : BitVec 32 := Scalar.muli arg9 c5_i32_76
  let v83 : BitVec 32 := Scalar.addi v82 c0_i32_77
  let v96 : BitVec 32 := Scalar.addi v2 v83
  let c80_i32_89 : BitVec 32 := 80#32
  let v97 : BitVec 32 := Scalar.muli v96 c80_i32_89
  let c0_i32_94 : BitVec 32 := 0#32
  ![v97.toNat, 0]
def k8_cond3 (k8_t1 : Fin k8_t1_loop.trips) : BitVec 1 :=
  let c0_i32_30 : BitVec 32 := 0#32
  let c1_i32_31 : BitVec 32 := 1#32
  let arg9 : BitVec 32 := Scf.iv c0_i32_30 c1_i32_31 k8_t1
  let c5_i32_98 : BitVec 32 := 5#32
  let v106 : BitVec 32 := Scalar.muli arg9 c5_i32_98
  let c1_i32_99 : BitVec 32 := 1#32
  let v107 : BitVec 32 := Scalar.addi v106 c1_i32_99
  let c5_i32_100 : BitVec 32 := 5#32
  let v108 : BitVec 32 := Scalar.addi v107 c5_i32_100
  let c1_i32_101 : BitVec 32 := 1#32
  let v109 : BitVec 32 := Scalar.subi v108 c1_i32_101
  let c25_i32_102 : BitVec 32 := 25#32
  let v110 : BitVec 1 := Scalar.cmpi .slt v109 c25_i32_102
  let v111 : BitVec 32 := Scalar.extui v110
  let c0_i32_103 : BitVec 32 := 0#32
  let v112 : BitVec 1 := Scalar.cmpi .ne v111 c0_i32_103
  v112

def k8_cond4 (k8_t1 : Fin k8_t1_loop.trips) : BitVec 1 :=
  let c0_i32_30 : BitVec 32 := 0#32
  let c1_i32_31 : BitVec 32 := 1#32
  let arg9 : BitVec 32 := Scf.iv c0_i32_30 c1_i32_31 k8_t1
  let c5_i32_98 : BitVec 32 := 5#32
  let v106 : BitVec 32 := Scalar.muli arg9 c5_i32_98
  let c1_i32_99 : BitVec 32 := 1#32
  let v107 : BitVec 32 := Scalar.addi v106 c1_i32_99
  let c0_i32_186 : BitVec 32 := 0#32
  let v202 : BitVec 1 := Scalar.cmpi .sgt v107 c0_i32_186
  let v203 : BitVec 32 := Scalar.extui v202
  let c0_i32_187 : BitVec 32 := 0#32
  let v204 : BitVec 1 := Scalar.cmpi .ne v203 c0_i32_187
  v204

def k8_off6 (i : grid8.Coords) (k8_t1 : Fin k8_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c0_i32_30 : BitVec 32 := 0#32
  let c1_i32_31 : BitVec 32 := 1#32
  let arg9 : BitVec 32 := Scf.iv c0_i32_30 c1_i32_31 k8_t1
  let c5_i32_98 : BitVec 32 := 5#32
  let v106 : BitVec 32 := Scalar.muli arg9 c5_i32_98
  let c1_i32_99 : BitVec 32 := 1#32
  let v107 : BitVec 32 := Scalar.addi v106 c1_i32_99
  let c1_i32_195 : BitVec 32 := 1#32
  let v212 : BitVec 32 := Scalar.subi v107 c1_i32_195
  let v213 : BitVec 32 := Scalar.addi v2 v212
  let c80_i32_196 : BitVec 32 := 80#32
  let v214 : BitVec 32 := Scalar.muli v213 c80_i32_196
  let c0_i32_201 : BitVec 32 := 0#32
  ![v214.toNat, 0]
def k8_off7 (k8_t1 : Fin k8_t1_loop.trips) : Fin 2 → Nat :=
  let c0_i32_30 : BitVec 32 := 0#32
  let c1_i32_31 : BitVec 32 := 1#32
  let arg9 : BitVec 32 := Scf.iv c0_i32_30 c1_i32_31 k8_t1
  let c5_i32_98 : BitVec 32 := 5#32
  let v106 : BitVec 32 := Scalar.muli arg9 c5_i32_98
  let c1_i32_99 : BitVec 32 := 1#32
  let v107 : BitVec 32 := Scalar.addi v106 c1_i32_99
  let c5_i32_100 : BitVec 32 := 5#32
  let v108 : BitVec 32 := Scalar.addi v107 c5_i32_100
  let c1_i32_101 : BitVec 32 := 1#32
  let v109 : BitVec 32 := Scalar.subi v108 c1_i32_101
  let c0_i32_192 : BitVec 32 := 0#32
  ![v109.toNat, 0]
def k8_cond5 (k8_t1 : Fin k8_t1_loop.trips) : BitVec 1 :=
  let c0_i32_30 : BitVec 32 := 0#32
  let c1_i32_31 : BitVec 32 := 1#32
  let arg9 : BitVec 32 := Scf.iv c0_i32_30 c1_i32_31 k8_t1
  let c5_i32_120 : BitVec 32 := 5#32
  let v130 : BitVec 32 := Scalar.muli arg9 c5_i32_120
  let c2_i32_121 : BitVec 32 := 2#32
  let v131 : BitVec 32 := Scalar.addi v130 c2_i32_121
  let c5_i32_122 : BitVec 32 := 5#32
  let v132 : BitVec 32 := Scalar.addi v131 c5_i32_122
  let c1_i32_123 : BitVec 32 := 1#32
  let v133 : BitVec 32 := Scalar.subi v132 c1_i32_123
  let c25_i32_124 : BitVec 32 := 25#32
  let v134 : BitVec 1 := Scalar.cmpi .slt v133 c25_i32_124
  let v135 : BitVec 32 := Scalar.extui v134
  let c0_i32_125 : BitVec 32 := 0#32
  let v136 : BitVec 1 := Scalar.cmpi .ne v135 c0_i32_125
  v136

def k8_cond6 (k8_t1 : Fin k8_t1_loop.trips) : BitVec 1 :=
  let c0_i32_30 : BitVec 32 := 0#32
  let c1_i32_31 : BitVec 32 := 1#32
  let arg9 : BitVec 32 := Scf.iv c0_i32_30 c1_i32_31 k8_t1
  let c5_i32_120 : BitVec 32 := 5#32
  let v130 : BitVec 32 := Scalar.muli arg9 c5_i32_120
  let c2_i32_121 : BitVec 32 := 2#32
  let v131 : BitVec 32 := Scalar.addi v130 c2_i32_121
  let c0_i32_186 : BitVec 32 := 0#32
  let v202 : BitVec 1 := Scalar.cmpi .sgt v131 c0_i32_186
  let v203 : BitVec 32 := Scalar.extui v202
  let c0_i32_187 : BitVec 32 := 0#32
  let v204 : BitVec 1 := Scalar.cmpi .ne v203 c0_i32_187
  v204

def k8_off8 (i : grid8.Coords) (k8_t1 : Fin k8_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c0_i32_30 : BitVec 32 := 0#32
  let c1_i32_31 : BitVec 32 := 1#32
  let arg9 : BitVec 32 := Scf.iv c0_i32_30 c1_i32_31 k8_t1
  let c5_i32_120 : BitVec 32 := 5#32
  let v130 : BitVec 32 := Scalar.muli arg9 c5_i32_120
  let c2_i32_121 : BitVec 32 := 2#32
  let v131 : BitVec 32 := Scalar.addi v130 c2_i32_121
  let c1_i32_195 : BitVec 32 := 1#32
  let v212 : BitVec 32 := Scalar.subi v131 c1_i32_195
  let v213 : BitVec 32 := Scalar.addi v2 v212
  let c80_i32_196 : BitVec 32 := 80#32
  let v214 : BitVec 32 := Scalar.muli v213 c80_i32_196
  let c0_i32_201 : BitVec 32 := 0#32
  ![v214.toNat, 0]
def k8_off9 (k8_t1 : Fin k8_t1_loop.trips) : Fin 2 → Nat :=
  let c0_i32_30 : BitVec 32 := 0#32
  let c1_i32_31 : BitVec 32 := 1#32
  let arg9 : BitVec 32 := Scf.iv c0_i32_30 c1_i32_31 k8_t1
  let c5_i32_120 : BitVec 32 := 5#32
  let v130 : BitVec 32 := Scalar.muli arg9 c5_i32_120
  let c2_i32_121 : BitVec 32 := 2#32
  let v131 : BitVec 32 := Scalar.addi v130 c2_i32_121
  let c5_i32_122 : BitVec 32 := 5#32
  let v132 : BitVec 32 := Scalar.addi v131 c5_i32_122
  let c1_i32_123 : BitVec 32 := 1#32
  let v133 : BitVec 32 := Scalar.subi v132 c1_i32_123
  let c0_i32_192 : BitVec 32 := 0#32
  ![v133.toNat, 0]
def k8_cond7 (k8_t1 : Fin k8_t1_loop.trips) : BitVec 1 :=
  let c0_i32_30 : BitVec 32 := 0#32
  let c1_i32_31 : BitVec 32 := 1#32
  let arg9 : BitVec 32 := Scf.iv c0_i32_30 c1_i32_31 k8_t1
  let c5_i32_142 : BitVec 32 := 5#32
  let v154 : BitVec 32 := Scalar.muli arg9 c5_i32_142
  let c3_i32_143 : BitVec 32 := 3#32
  let v155 : BitVec 32 := Scalar.addi v154 c3_i32_143
  let c5_i32_144 : BitVec 32 := 5#32
  let v156 : BitVec 32 := Scalar.addi v155 c5_i32_144
  let c1_i32_145 : BitVec 32 := 1#32
  let v157 : BitVec 32 := Scalar.subi v156 c1_i32_145
  let c25_i32_146 : BitVec 32 := 25#32
  let v158 : BitVec 1 := Scalar.cmpi .slt v157 c25_i32_146
  let v159 : BitVec 32 := Scalar.extui v158
  let c0_i32_147 : BitVec 32 := 0#32
  let v160 : BitVec 1 := Scalar.cmpi .ne v159 c0_i32_147
  v160

def k8_cond8 (k8_t1 : Fin k8_t1_loop.trips) : BitVec 1 :=
  let c0_i32_30 : BitVec 32 := 0#32
  let c1_i32_31 : BitVec 32 := 1#32
  let arg9 : BitVec 32 := Scf.iv c0_i32_30 c1_i32_31 k8_t1
  let c5_i32_142 : BitVec 32 := 5#32
  let v154 : BitVec 32 := Scalar.muli arg9 c5_i32_142
  let c3_i32_143 : BitVec 32 := 3#32
  let v155 : BitVec 32 := Scalar.addi v154 c3_i32_143
  let c0_i32_186 : BitVec 32 := 0#32
  let v202 : BitVec 1 := Scalar.cmpi .sgt v155 c0_i32_186
  let v203 : BitVec 32 := Scalar.extui v202
  let c0_i32_187 : BitVec 32 := 0#32
  let v204 : BitVec 1 := Scalar.cmpi .ne v203 c0_i32_187
  v204

def k8_off10 (i : grid8.Coords) (k8_t1 : Fin k8_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c0_i32_30 : BitVec 32 := 0#32
  let c1_i32_31 : BitVec 32 := 1#32
  let arg9 : BitVec 32 := Scf.iv c0_i32_30 c1_i32_31 k8_t1
  let c5_i32_142 : BitVec 32 := 5#32
  let v154 : BitVec 32 := Scalar.muli arg9 c5_i32_142
  let c3_i32_143 : BitVec 32 := 3#32
  let v155 : BitVec 32 := Scalar.addi v154 c3_i32_143
  let c1_i32_195 : BitVec 32 := 1#32
  let v212 : BitVec 32 := Scalar.subi v155 c1_i32_195
  let v213 : BitVec 32 := Scalar.addi v2 v212
  let c80_i32_196 : BitVec 32 := 80#32
  let v214 : BitVec 32 := Scalar.muli v213 c80_i32_196
  let c0_i32_201 : BitVec 32 := 0#32
  ![v214.toNat, 0]
def k8_off11 (k8_t1 : Fin k8_t1_loop.trips) : Fin 2 → Nat :=
  let c0_i32_30 : BitVec 32 := 0#32
  let c1_i32_31 : BitVec 32 := 1#32
  let arg9 : BitVec 32 := Scf.iv c0_i32_30 c1_i32_31 k8_t1
  let c5_i32_142 : BitVec 32 := 5#32
  let v154 : BitVec 32 := Scalar.muli arg9 c5_i32_142
  let c3_i32_143 : BitVec 32 := 3#32
  let v155 : BitVec 32 := Scalar.addi v154 c3_i32_143
  let c5_i32_144 : BitVec 32 := 5#32
  let v156 : BitVec 32 := Scalar.addi v155 c5_i32_144
  let c1_i32_145 : BitVec 32 := 1#32
  let v157 : BitVec 32 := Scalar.subi v156 c1_i32_145
  let c0_i32_192 : BitVec 32 := 0#32
  ![v157.toNat, 0]
def k8_cond9 (k8_t1 : Fin k8_t1_loop.trips) : BitVec 1 :=
  let c0_i32_30 : BitVec 32 := 0#32
  let c1_i32_31 : BitVec 32 := 1#32
  let arg9 : BitVec 32 := Scf.iv c0_i32_30 c1_i32_31 k8_t1
  let c5_i32_164 : BitVec 32 := 5#32
  let v178 : BitVec 32 := Scalar.muli arg9 c5_i32_164
  let c4_i32_165 : BitVec 32 := 4#32
  let v179 : BitVec 32 := Scalar.addi v178 c4_i32_165
  let c5_i32_166 : BitVec 32 := 5#32
  let v180 : BitVec 32 := Scalar.addi v179 c5_i32_166
  let c1_i32_167 : BitVec 32 := 1#32
  let v181 : BitVec 32 := Scalar.subi v180 c1_i32_167
  let c25_i32_168 : BitVec 32 := 25#32
  let v182 : BitVec 1 := Scalar.cmpi .slt v181 c25_i32_168
  let v183 : BitVec 32 := Scalar.extui v182
  let c0_i32_169 : BitVec 32 := 0#32
  let v184 : BitVec 1 := Scalar.cmpi .ne v183 c0_i32_169
  v184

def k8_cond10 (k8_t1 : Fin k8_t1_loop.trips) : BitVec 1 :=
  let c0_i32_30 : BitVec 32 := 0#32
  let c1_i32_31 : BitVec 32 := 1#32
  let arg9 : BitVec 32 := Scf.iv c0_i32_30 c1_i32_31 k8_t1
  let c5_i32_164 : BitVec 32 := 5#32
  let v178 : BitVec 32 := Scalar.muli arg9 c5_i32_164
  let c4_i32_165 : BitVec 32 := 4#32
  let v179 : BitVec 32 := Scalar.addi v178 c4_i32_165
  let c0_i32_186 : BitVec 32 := 0#32
  let v202 : BitVec 1 := Scalar.cmpi .sgt v179 c0_i32_186
  let v203 : BitVec 32 := Scalar.extui v202
  let c0_i32_187 : BitVec 32 := 0#32
  let v204 : BitVec 1 := Scalar.cmpi .ne v203 c0_i32_187
  v204

def k8_off12 (i : grid8.Coords) (k8_t1 : Fin k8_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let c0_i32_30 : BitVec 32 := 0#32
  let c1_i32_31 : BitVec 32 := 1#32
  let arg9 : BitVec 32 := Scf.iv c0_i32_30 c1_i32_31 k8_t1
  let c5_i32_164 : BitVec 32 := 5#32
  let v178 : BitVec 32 := Scalar.muli arg9 c5_i32_164
  let c4_i32_165 : BitVec 32 := 4#32
  let v179 : BitVec 32 := Scalar.addi v178 c4_i32_165
  let c1_i32_195 : BitVec 32 := 1#32
  let v212 : BitVec 32 := Scalar.subi v179 c1_i32_195
  let v213 : BitVec 32 := Scalar.addi v2 v212
  let c80_i32_196 : BitVec 32 := 80#32
  let v214 : BitVec 32 := Scalar.muli v213 c80_i32_196
  let c0_i32_201 : BitVec 32 := 0#32
  ![v214.toNat, 0]
def k8_off13 (k8_t1 : Fin k8_t1_loop.trips) : Fin 2 → Nat :=
  let c0_i32_30 : BitVec 32 := 0#32
  let c1_i32_31 : BitVec 32 := 1#32
  let arg9 : BitVec 32 := Scf.iv c0_i32_30 c1_i32_31 k8_t1
  let c5_i32_164 : BitVec 32 := 5#32
  let v178 : BitVec 32 := Scalar.muli arg9 c5_i32_164
  let c4_i32_165 : BitVec 32 := 4#32
  let v179 : BitVec 32 := Scalar.addi v178 c4_i32_165
  let c5_i32_166 : BitVec 32 := 5#32
  let v180 : BitVec 32 := Scalar.addi v179 c5_i32_166
  let c1_i32_167 : BitVec 32 := 1#32
  let v181 : BitVec 32 := Scalar.subi v180 c1_i32_167
  let c0_i32_192 : BitVec 32 := 0#32
  ![v181.toNat, 0]
def k8_off14 (i : grid8.Coords) (c20_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 32 := Scalar.muli v1 c25_i32
  let v32 : BitVec 32 := Scalar.addi v2 c20_i32
  let c80_i32 : BitVec 32 := 80#32
  let v33 : BitVec 32 := Scalar.muli v32 c80_i32
  let c0_i32_37 : BitVec 32 := 0#32
  ![v33.toNat, 0]
abbrev grid9 : Pipeline.Grid := ⟨1, ![5], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S12800x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S400x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S400x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev scKind : Fin 5 → Kind := fun | 0 => .scVector | 1 => .scVector | 2 => .scVector | 3 => .scVector | 4 => .scVector | ⟨_ + 5, h⟩ => absurd h (Nat.not_lt.2 (Nat.le_add_left _ _))
abbrev scNCore : Fin 5 → Nat := fun | 0 => 2 | 1 => 2 | 2 => 2 | 3 => 2 | 4 => 2 | ⟨_ + 5, h⟩ => absurd h (Nat.not_lt.2 (Nat.le_add_left _ _))
abbrev scNSub : Fin 5 → Nat := fun | 0 => 16 | 1 => 16 | 2 => 16 | 3 => 16 | 4 => 16 | ⟨_ + 5, h⟩ => absurd h (Nat.not_lt.2 (Nat.le_add_left _ _))

class Facts₀ : Prop where
  bcast_S_S10000x32 : S_.BroadcastsInDim S10000x32 (![] : Fin 0 → Fin S10000x32.rank)
  slices_S10000x32_S2000x32_0_0 : S10000x32.Slices ![0, 0] S2000x32
  shapeCasts_S2000x32_S32x25x80 : S2000x32.ShapeCasts S32x25x80
  squeezes_S1x25x80_S25x80 : S1x25x80.Squeezes S25x80
  inb_S5x80x128_S1x80x128_0_0_0 : ∀ a, (![0, 0, 0] : Fin 3 → Nat) a + S1x80x128.size a ≤ S5x80x128.size a
  squeezes_S1x80x128_S80x128 : S1x80x128.Squeezes S80x128
  inb_S25x80_S1x80_0_0 : ∀ a, (![0, 0] : Fin 2 → Nat) a + S1x80.size a ≤ S25x80.size a
  squeezes_S1x80_S80 : S1x80.Squeezes S80
  inb_S10000x128_S10000x128_0_0 : ∀ a, (![0, 0] : Fin 2 → Nat) a + S10000x128.size a ≤ S10000x128.size a
  inb_S5_S1_0 : ∀ a, (![0] : Fin 1 → Nat) a + S1.size a ≤ S5.size a
  squeezes_S1_S_ : S1.Squeezes S_
  gathers_S10000x128_S80x128 : S10000x128.Gathers 0 S80x128
  inb_S5x80x128_S1x80x128_1_0_0 : ∀ a, (![1, 0, 0] : Fin 3 → Nat) a + S1x80x128.size a ≤ S5x80x128.size a
  inb_S25x80_S1x80_1_0 : ∀ a, (![1, 0] : Fin 2 → Nat) a + S1x80.size a ≤ S25x80.size a
  inb_S5_S1_1 : ∀ a, (![1] : Fin 1 → Nat) a + S1.size a ≤ S5.size a
  inb_S5x80x128_S1x80x128_2_0_0 : ∀ a, (![2, 0, 0] : Fin 3 → Nat) a + S1x80x128.size a ≤ S5x80x128.size a
  inb_S25x80_S1x80_2_0 : ∀ a, (![2, 0] : Fin 2 → Nat) a + S1x80.size a ≤ S25x80.size a
  inb_S5_S1_2 : ∀ a, (![2] : Fin 1 → Nat) a + S1.size a ≤ S5.size a
  inb_S5x80x128_S1x80x128_3_0_0 : ∀ a, (![3, 0, 0] : Fin 3 → Nat) a + S1x80x128.size a ≤ S5x80x128.size a
  inb_S25x80_S1x80_3_0 : ∀ a, (![3, 0] : Fin 2 → Nat) a + S1x80.size a ≤ S25x80.size a
  inb_S5_S1_3 : ∀ a, (![3] : Fin 1 → Nat) a + S1.size a ≤ S5.size a
  inb_S5x80x128_S1x80x128_4_0_0 : ∀ a, (![4, 0, 0] : Fin 3 → Nat) a + S1x80x128.size a ≤ S5x80x128.size a
  inb_S5_S1_4 : ∀ a, (![4] : Fin 1 → Nat) a + S1.size a ≤ S5.size a
  slices_S10000x128_S2000x128_0_0 : S10000x128.Slices ![0, 0] S2000x128
  inb_S12800x128_S12800x128_0_0 : ∀ a, (![0, 0] : Fin 2 → Nat) a + S12800x128.size a ≤ S12800x128.size a
  h_S12800x128 : 0 < S12800x128.numel
  shapeCasts_S12800x128_S12800x128 : S12800x128.ShapeCasts S12800x128
  inb_S400x128_S400x128_0_0 : ∀ a, (![0, 0] : Fin 2 → Nat) a + S400x128.size a ≤ S400x128.size a
  h_S400x128 : 0 < S400x128.numel
  shapeCasts_S400x128_S400x128 : S400x128.ShapeCasts S400x128
  shapeCasts_S12800x128_S400x32x128 : S12800x128.ShapeCasts S400x32x128
  reduces_S400x32x128_S400x128 : S400x32x128.Reduces [1] S400x128
  shapeCasts_S400x128_S400x1x128 : S400x128.ShapeCasts S400x1x128
  broadcasts_S400x1x128_S400x32x128 : S400x1x128.Broadcasts S400x32x128
  shapeCasts_S400x32x128_S12800x128 : S400x32x128.ShapeCasts S12800x128
  slices_S10000x32_S2000x32_2000_0 : S10000x32.Slices ![2000, 0] S2000x32
  slices_S10000x128_S2000x128_2000_0 : S10000x128.Slices ![2000, 0] S2000x128
  slices_S10000x32_S2000x32_4000_0 : S10000x32.Slices ![4000, 0] S2000x32
  slices_S10000x128_S2000x128_4000_0 : S10000x128.Slices ![4000, 0] S2000x128
  slices_S10000x32_S2000x32_6000_0 : S10000x32.Slices ![6000, 0] S2000x32
  slices_S10000x128_S2000x128_6000_0 : S10000x128.Slices ![6000, 0] S2000x128
  slices_S10000x32_S2000x32_8000_0 : S10000x32.Slices ![8000, 0] S2000x32
  slices_S10000x128_S2000x128_8000_0 : S10000x128.Slices ![8000, 0] S2000x128
  concatenates_S2000x128_S2000x128_S2000x128_S2000x128_S2000x128_S10000x128_d0 : Shape.Concatenates [S2000x128, S2000x128, S2000x128, S2000x128, S2000x128] S10000x128 0
  dot_S12800x128_S128x128_S12800x128_1_0_0_1_n_n_wf : DotDims.WF S12800x128 S128x128 S12800x128 [1] [0] [0] [1] [] []
  dot_S400x128_S128x128_S400x128_1_0_0_1_n_n_wf : DotDims.WF S400x128 S128x128 S400x128 [1] [0] [0] [1] [] []
  hcc0_scratch2 : 0 + S5.numel ≤ 85
  hcc0_scratch3 : 5 + S5.numel ≤ 85
  hcc0_scoped0 : 10 + S_.numel ≤ 85
  hcc2_scratch2 : 17 + S5.numel ≤ 85
  hcc2_scratch3 : 22 + S5.numel ≤ 85
  hcc2_scoped0 : 27 + S_.numel ≤ 85
  hcc4_scratch2 : 34 + S5.numel ≤ 85
  hcc4_scratch3 : 39 + S5.numel ≤ 85
  hcc4_scoped0 : 44 + S_.numel ≤ 85
  hcc6_scratch2 : 51 + S5.numel ≤ 85
  hcc6_scratch3 : 56 + S5.numel ≤ 85
  hcc6_scoped0 : 61 + S_.numel ≤ 85
  hcc8_scratch2 : 68 + S5.numel ≤ 85
  hcc8_scratch3 : 73 + S5.numel ≤ 85
  hcc8_scoped0 : 78 + S_.numel ≤ 85
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x25x80.size a ≤ S32x25x80.size a
  k0_t1_ok : k0_t1_loop.OK
  k0_off2_inb : ∀ (i : grid0.Coords) (k0_t1 : Fin k0_t1_loop.trips), ∀ (k0_h1 : k0_cond1 k0_t1 = 1#1), ∀ (k0_h2 : k0_cond2 k0_t1 = 1#1), ∀ a, (k0_off2 i k0_t1) a + S80x128.size a ≤ S64000x128.size a
  k0_off3_inb : ∀ k0_t1 : Fin k0_t1_loop.trips, ∀ (k0_h1 : k0_cond1 k0_t1 = 1#1), ∀ a, (k0_off3 k0_t1) a + S1x80.size a ≤ S25x80.size a
  k0_off4_inb : ∀ k0_t1 : Fin k0_t1_loop.trips, ∀ (r : Fin 5), ∀ a, (k0_off4 k0_t1 (BitVec.ofNat 32 r.val)) a + S1x80.size a ≤ S25x80.size a
  k0_off5_inb : ∀ (i : grid0.Coords) (k0_t1 : Fin k0_t1_loop.trips), ∀ (r : Fin 5), ∀ a, (k0_off5 i k0_t1 (BitVec.ofNat 32 r.val)) a + S80x128.size a ≤ S64000x128.size a
  k0_off6_inb : ∀ (i : grid0.Coords) (k0_t1 : Fin k0_t1_loop.trips), ∀ (k0_h3 : k0_cond3 k0_t1 = 1#1), ∀ (k0_h4 : k0_cond4 k0_t1 = 1#1), ∀ a, (k0_off6 i k0_t1) a + S80x128.size a ≤ S64000x128.size a
  k0_off7_inb : ∀ k0_t1 : Fin k0_t1_loop.trips, ∀ (k0_h3 : k0_cond3 k0_t1 = 1#1), ∀ a, (k0_off7 k0_t1) a + S1x80.size a ≤ S25x80.size a
  k0_off8_inb : ∀ (i : grid0.Coords) (k0_t1 : Fin k0_t1_loop.trips), ∀ (k0_h5 : k0_cond5 k0_t1 = 1#1), ∀ (k0_h6 : k0_cond6 k0_t1 = 1#1), ∀ a, (k0_off8 i k0_t1) a + S80x128.size a ≤ S64000x128.size a
  k0_off9_inb : ∀ k0_t1 : Fin k0_t1_loop.trips, ∀ (k0_h5 : k0_cond5 k0_t1 = 1#1), ∀ a, (k0_off9 k0_t1) a + S1x80.size a ≤ S25x80.size a
  k0_off10_inb : ∀ (i : grid0.Coords) (k0_t1 : Fin k0_t1_loop.trips), ∀ (k0_h7 : k0_cond7 k0_t1 = 1#1), ∀ (k0_h8 : k0_cond8 k0_t1 = 1#1), ∀ a, (k0_off10 i k0_t1) a + S80x128.size a ≤ S64000x128.size a
  k0_off11_inb : ∀ k0_t1 : Fin k0_t1_loop.trips, ∀ (k0_h7 : k0_cond7 k0_t1 = 1#1), ∀ a, (k0_off11 k0_t1) a + S1x80.size a ≤ S25x80.size a
  k0_off12_inb : ∀ (i : grid0.Coords) (k0_t1 : Fin k0_t1_loop.trips), ∀ (k0_h9 : k0_cond9 k0_t1 = 1#1), ∀ (k0_h10 : k0_cond10 k0_t1 = 1#1), ∀ a, (k0_off12 i k0_t1) a + S80x128.size a ≤ S64000x128.size a
  k0_off13_inb : ∀ k0_t1 : Fin k0_t1_loop.trips, ∀ (k0_h9 : k0_cond9 k0_t1 = 1#1), ∀ a, (k0_off13 k0_t1) a + S1x80.size a ≤ S25x80.size a
  k0_off14_inb : ∀ i : grid0.Coords, ∀ (r : Fin 5), ∀ a, (k0_off14 i (BitVec.ofNat 32 (20 + r.val))) a + S80x128.size a ≤ S64000x128.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S12800x128.size a ≤ S64000x128.size a
  hwx1_0 : ∀ i : grid1.Coords, EltTy.bits .f32 = 32 ∨ (Rect.block (s := S64000x128) S12800x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S400x128.size a ≤ S2000x128.size a
  hwx1_1 : ∀ i : grid1.Coords, EltTy.bits .f32 = 32 ∨ (Rect.block (s := S2000x128) S400x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x128.size a ≤ S2000x128.size a
  hwx1_2 : ∀ i : grid1.Coords, EltTy.bits .f32 = 32 ∨ (Rect.block (s := S2000x128) S400x128.size (cc1_transform_2 i) (hinb1_2 i)).WholeWords (EltTy.packing .f32)
  hcore2 : grid2.bound 0 ≤ τ.nSC
  hsub2 : grid2.bound 1 ≤ τ.nSub
  k2_off1_inb : ∀ i : grid2.Coords, ∀ a, (k2_off1 i) a + S1x25x80.size a ≤ S32x25x80.size a
  k2_t1_ok : k2_t1_loop.OK
  k2_off2_inb : ∀ (i : grid2.Coords) (k2_t1 : Fin k2_t1_loop.trips), ∀ (k2_h1 : k2_cond1 k2_t1 = 1#1), ∀ (k2_h2 : k2_cond2 k2_t1 = 1#1), ∀ a, (k2_off2 i k2_t1) a + S80x128.size a ≤ S64000x128.size a
  k2_off3_inb : ∀ k2_t1 : Fin k2_t1_loop.trips, ∀ (k2_h1 : k2_cond1 k2_t1 = 1#1), ∀ a, (k2_off3 k2_t1) a + S1x80.size a ≤ S25x80.size a
  k2_off4_inb : ∀ k2_t1 : Fin k2_t1_loop.trips, ∀ (r : Fin 5), ∀ a, (k2_off4 k2_t1 (BitVec.ofNat 32 r.val)) a + S1x80.size a ≤ S25x80.size a
  k2_off5_inb : ∀ (i : grid2.Coords) (k2_t1 : Fin k2_t1_loop.trips), ∀ (r : Fin 5), ∀ a, (k2_off5 i k2_t1 (BitVec.ofNat 32 r.val)) a + S80x128.size a ≤ S64000x128.size a
  k2_off6_inb : ∀ (i : grid2.Coords) (k2_t1 : Fin k2_t1_loop.trips), ∀ (k2_h3 : k2_cond3 k2_t1 = 1#1), ∀ (k2_h4 : k2_cond4 k2_t1 = 1#1), ∀ a, (k2_off6 i k2_t1) a + S80x128.size a ≤ S64000x128.size a
  k2_off7_inb : ∀ k2_t1 : Fin k2_t1_loop.trips, ∀ (k2_h3 : k2_cond3 k2_t1 = 1#1), ∀ a, (k2_off7 k2_t1) a + S1x80.size a ≤ S25x80.size a
  k2_off8_inb : ∀ (i : grid2.Coords) (k2_t1 : Fin k2_t1_loop.trips), ∀ (k2_h5 : k2_cond5 k2_t1 = 1#1), ∀ (k2_h6 : k2_cond6 k2_t1 = 1#1), ∀ a, (k2_off8 i k2_t1) a + S80x128.size a ≤ S64000x128.size a
  k2_off9_inb : ∀ k2_t1 : Fin k2_t1_loop.trips, ∀ (k2_h5 : k2_cond5 k2_t1 = 1#1), ∀ a, (k2_off9 k2_t1) a + S1x80.size a ≤ S25x80.size a
  k2_off10_inb : ∀ (i : grid2.Coords) (k2_t1 : Fin k2_t1_loop.trips), ∀ (k2_h7 : k2_cond7 k2_t1 = 1#1), ∀ (k2_h8 : k2_cond8 k2_t1 = 1#1), ∀ a, (k2_off10 i k2_t1) a + S80x128.size a ≤ S64000x128.size a
  k2_off11_inb : ∀ k2_t1 : Fin k2_t1_loop.trips, ∀ (k2_h7 : k2_cond7 k2_t1 = 1#1), ∀ a, (k2_off11 k2_t1) a + S1x80.size a ≤ S25x80.size a
  k2_off12_inb : ∀ (i : grid2.Coords) (k2_t1 : Fin k2_t1_loop.trips), ∀ (k2_h9 : k2_cond9 k2_t1 = 1#1), ∀ (k2_h10 : k2_cond10 k2_t1 = 1#1), ∀ a, (k2_off12 i k2_t1) a + S80x128.size a ≤ S64000x128.size a
  k2_off13_inb : ∀ k2_t1 : Fin k2_t1_loop.trips, ∀ (k2_h9 : k2_cond9 k2_t1 = 1#1), ∀ a, (k2_off13 k2_t1) a + S1x80.size a ≤ S25x80.size a
  k2_off14_inb : ∀ i : grid2.Coords, ∀ (r : Fin 5), ∀ a, (k2_off14 i (BitVec.ofNat 32 (20 + r.val))) a + S80x128.size a ≤ S64000x128.size a
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S12800x128.size a ≤ S64000x128.size a
  hwx3_0 : ∀ i : grid3.Coords, EltTy.bits .f32 = 32 ∨ (Rect.block (s := S64000x128) S12800x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S400x128.size a ≤ S2000x128.size a
  hwx3_1 : ∀ i : grid3.Coords, EltTy.bits .f32 = 32 ∨ (Rect.block (s := S2000x128) S400x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S400x128.size a ≤ S2000x128.size a
  hwx3_2 : ∀ i : grid3.Coords, EltTy.bits .f32 = 32 ∨ (Rect.block (s := S2000x128) S400x128.size (cc3_transform_2 i) (hinb3_2 i)).WholeWords (EltTy.packing .f32)
  hcore4 : grid4.bound 0 ≤ τ.nSC
  hsub4 : grid4.bound 1 ≤ τ.nSub
  k4_off1_inb : ∀ i : grid4.Coords, ∀ a, (k4_off1 i) a + S1x25x80.size a ≤ S32x25x80.size a
  k4_t1_ok : k4_t1_loop.OK
  k4_off2_inb : ∀ (i : grid4.Coords) (k4_t1 : Fin k4_t1_loop.trips), ∀ (k4_h1 : k4_cond1 k4_t1 = 1#1), ∀ (k4_h2 : k4_cond2 k4_t1 = 1#1), ∀ a, (k4_off2 i k4_t1) a + S80x128.size a ≤ S64000x128.size a
  k4_off3_inb : ∀ k4_t1 : Fin k4_t1_loop.trips, ∀ (k4_h1 : k4_cond1 k4_t1 = 1#1), ∀ a, (k4_off3 k4_t1) a + S1x80.size a ≤ S25x80.size a
  k4_off4_inb : ∀ k4_t1 : Fin k4_t1_loop.trips, ∀ (r : Fin 5), ∀ a, (k4_off4 k4_t1 (BitVec.ofNat 32 r.val)) a + S1x80.size a ≤ S25x80.size a
  k4_off5_inb : ∀ (i : grid4.Coords) (k4_t1 : Fin k4_t1_loop.trips), ∀ (r : Fin 5), ∀ a, (k4_off5 i k4_t1 (BitVec.ofNat 32 r.val)) a + S80x128.size a ≤ S64000x128.size a
  k4_off6_inb : ∀ (i : grid4.Coords) (k4_t1 : Fin k4_t1_loop.trips), ∀ (k4_h3 : k4_cond3 k4_t1 = 1#1), ∀ (k4_h4 : k4_cond4 k4_t1 = 1#1), ∀ a, (k4_off6 i k4_t1) a + S80x128.size a ≤ S64000x128.size a
  k4_off7_inb : ∀ k4_t1 : Fin k4_t1_loop.trips, ∀ (k4_h3 : k4_cond3 k4_t1 = 1#1), ∀ a, (k4_off7 k4_t1) a + S1x80.size a ≤ S25x80.size a
  k4_off8_inb : ∀ (i : grid4.Coords) (k4_t1 : Fin k4_t1_loop.trips), ∀ (k4_h5 : k4_cond5 k4_t1 = 1#1), ∀ (k4_h6 : k4_cond6 k4_t1 = 1#1), ∀ a, (k4_off8 i k4_t1) a + S80x128.size a ≤ S64000x128.size a
  k4_off9_inb : ∀ k4_t1 : Fin k4_t1_loop.trips, ∀ (k4_h5 : k4_cond5 k4_t1 = 1#1), ∀ a, (k4_off9 k4_t1) a + S1x80.size a ≤ S25x80.size a
  k4_off10_inb : ∀ (i : grid4.Coords) (k4_t1 : Fin k4_t1_loop.trips), ∀ (k4_h7 : k4_cond7 k4_t1 = 1#1), ∀ (k4_h8 : k4_cond8 k4_t1 = 1#1), ∀ a, (k4_off10 i k4_t1) a + S80x128.size a ≤ S64000x128.size a
  k4_off11_inb : ∀ k4_t1 : Fin k4_t1_loop.trips, ∀ (k4_h7 : k4_cond7 k4_t1 = 1#1), ∀ a, (k4_off11 k4_t1) a + S1x80.size a ≤ S25x80.size a
  k4_off12_inb : ∀ (i : grid4.Coords) (k4_t1 : Fin k4_t1_loop.trips), ∀ (k4_h9 : k4_cond9 k4_t1 = 1#1), ∀ (k4_h10 : k4_cond10 k4_t1 = 1#1), ∀ a, (k4_off12 i k4_t1) a + S80x128.size a ≤ S64000x128.size a
  k4_off13_inb : ∀ k4_t1 : Fin k4_t1_loop.trips, ∀ (k4_h9 : k4_cond9 k4_t1 = 1#1), ∀ a, (k4_off13 k4_t1) a + S1x80.size a ≤ S25x80.size a
  k4_off14_inb : ∀ i : grid4.Coords, ∀ (r : Fin 5), ∀ a, (k4_off14 i (BitVec.ofNat 32 (20 + r.val))) a + S80x128.size a ≤ S64000x128.size a
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S12800x128.size a ≤ S64000x128.size a
  hwx5_0 : ∀ i : grid5.Coords, EltTy.bits .f32 = 32 ∨ (Rect.block (s := S64000x128) S12800x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S400x128.size a ≤ S2000x128.size a
  hwx5_1 : ∀ i : grid5.Coords, EltTy.bits .f32 = 32 ∨ (Rect.block (s := S2000x128) S400x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S400x128.size a ≤ S2000x128.size a
  hwx5_2 : ∀ i : grid5.Coords, EltTy.bits .f32 = 32 ∨ (Rect.block (s := S2000x128) S400x128.size (cc5_transform_2 i) (hinb5_2 i)).WholeWords (EltTy.packing .f32)
  hcore6 : grid6.bound 0 ≤ τ.nSC
  hsub6 : grid6.bound 1 ≤ τ.nSub
  k6_off1_inb : ∀ i : grid6.Coords, ∀ a, (k6_off1 i) a + S1x25x80.size a ≤ S32x25x80.size a
  k6_t1_ok : k6_t1_loop.OK
  k6_off2_inb : ∀ (i : grid6.Coords) (k6_t1 : Fin k6_t1_loop.trips), ∀ (k6_h1 : k6_cond1 k6_t1 = 1#1), ∀ (k6_h2 : k6_cond2 k6_t1 = 1#1), ∀ a, (k6_off2 i k6_t1) a + S80x128.size a ≤ S64000x128.size a
  k6_off3_inb : ∀ k6_t1 : Fin k6_t1_loop.trips, ∀ (k6_h1 : k6_cond1 k6_t1 = 1#1), ∀ a, (k6_off3 k6_t1) a + S1x80.size a ≤ S25x80.size a
  k6_off4_inb : ∀ k6_t1 : Fin k6_t1_loop.trips, ∀ (r : Fin 5), ∀ a, (k6_off4 k6_t1 (BitVec.ofNat 32 r.val)) a + S1x80.size a ≤ S25x80.size a
  k6_off5_inb : ∀ (i : grid6.Coords) (k6_t1 : Fin k6_t1_loop.trips), ∀ (r : Fin 5), ∀ a, (k6_off5 i k6_t1 (BitVec.ofNat 32 r.val)) a + S80x128.size a ≤ S64000x128.size a
  k6_off6_inb : ∀ (i : grid6.Coords) (k6_t1 : Fin k6_t1_loop.trips), ∀ (k6_h3 : k6_cond3 k6_t1 = 1#1), ∀ (k6_h4 : k6_cond4 k6_t1 = 1#1), ∀ a, (k6_off6 i k6_t1) a + S80x128.size a ≤ S64000x128.size a
  k6_off7_inb : ∀ k6_t1 : Fin k6_t1_loop.trips, ∀ (k6_h3 : k6_cond3 k6_t1 = 1#1), ∀ a, (k6_off7 k6_t1) a + S1x80.size a ≤ S25x80.size a
  k6_off8_inb : ∀ (i : grid6.Coords) (k6_t1 : Fin k6_t1_loop.trips), ∀ (k6_h5 : k6_cond5 k6_t1 = 1#1), ∀ (k6_h6 : k6_cond6 k6_t1 = 1#1), ∀ a, (k6_off8 i k6_t1) a + S80x128.size a ≤ S64000x128.size a
  k6_off9_inb : ∀ k6_t1 : Fin k6_t1_loop.trips, ∀ (k6_h5 : k6_cond5 k6_t1 = 1#1), ∀ a, (k6_off9 k6_t1) a + S1x80.size a ≤ S25x80.size a
  k6_off10_inb : ∀ (i : grid6.Coords) (k6_t1 : Fin k6_t1_loop.trips), ∀ (k6_h7 : k6_cond7 k6_t1 = 1#1), ∀ (k6_h8 : k6_cond8 k6_t1 = 1#1), ∀ a, (k6_off10 i k6_t1) a + S80x128.size a ≤ S64000x128.size a
  k6_off11_inb : ∀ k6_t1 : Fin k6_t1_loop.trips, ∀ (k6_h7 : k6_cond7 k6_t1 = 1#1), ∀ a, (k6_off11 k6_t1) a + S1x80.size a ≤ S25x80.size a
  k6_off12_inb : ∀ (i : grid6.Coords) (k6_t1 : Fin k6_t1_loop.trips), ∀ (k6_h9 : k6_cond9 k6_t1 = 1#1), ∀ (k6_h10 : k6_cond10 k6_t1 = 1#1), ∀ a, (k6_off12 i k6_t1) a + S80x128.size a ≤ S64000x128.size a
  k6_off13_inb : ∀ k6_t1 : Fin k6_t1_loop.trips, ∀ (k6_h9 : k6_cond9 k6_t1 = 1#1), ∀ a, (k6_off13 k6_t1) a + S1x80.size a ≤ S25x80.size a
  k6_off14_inb : ∀ i : grid6.Coords, ∀ (r : Fin 5), ∀ a, (k6_off14 i (BitVec.ofNat 32 (20 + r.val))) a + S80x128.size a ≤ S64000x128.size a
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S12800x128.size a ≤ S64000x128.size a
  hwx7_0 : ∀ i : grid7.Coords, EltTy.bits .f32 = 32 ∨ (Rect.block (s := S64000x128) S12800x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S400x128.size a ≤ S2000x128.size a
  hwx7_1 : ∀ i : grid7.Coords, EltTy.bits .f32 = 32 ∨ (Rect.block (s := S2000x128) S400x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S400x128.size a ≤ S2000x128.size a
  hwx7_2 : ∀ i : grid7.Coords, EltTy.bits .f32 = 32 ∨ (Rect.block (s := S2000x128) S400x128.size (cc7_transform_2 i) (hinb7_2 i)).WholeWords (EltTy.packing .f32)
  hcore8 : grid8.bound 0 ≤ τ.nSC
  hsub8 : grid8.bound 1 ≤ τ.nSub
  k8_off1_inb : ∀ i : grid8.Coords, ∀ a, (k8_off1 i) a + S1x25x80.size a ≤ S32x25x80.size a
  k8_t1_ok : k8_t1_loop.OK
  k8_off2_inb : ∀ (i : grid8.Coords) (k8_t1 : Fin k8_t1_loop.trips), ∀ (k8_h1 : k8_cond1 k8_t1 = 1#1), ∀ (k8_h2 : k8_cond2 k8_t1 = 1#1), ∀ a, (k8_off2 i k8_t1) a + S80x128.size a ≤ S64000x128.size a
  k8_off3_inb : ∀ k8_t1 : Fin k8_t1_loop.trips, ∀ (k8_h1 : k8_cond1 k8_t1 = 1#1), ∀ a, (k8_off3 k8_t1) a + S1x80.size a ≤ S25x80.size a
  k8_off4_inb : ∀ k8_t1 : Fin k8_t1_loop.trips, ∀ (r : Fin 5), ∀ a, (k8_off4 k8_t1 (BitVec.ofNat 32 r.val)) a + S1x80.size a ≤ S25x80.size a
  k8_off5_inb : ∀ (i : grid8.Coords) (k8_t1 : Fin k8_t1_loop.trips), ∀ (r : Fin 5), ∀ a, (k8_off5 i k8_t1 (BitVec.ofNat 32 r.val)) a + S80x128.size a ≤ S64000x128.size a
  k8_off6_inb : ∀ (i : grid8.Coords) (k8_t1 : Fin k8_t1_loop.trips), ∀ (k8_h3 : k8_cond3 k8_t1 = 1#1), ∀ (k8_h4 : k8_cond4 k8_t1 = 1#1), ∀ a, (k8_off6 i k8_t1) a + S80x128.size a ≤ S64000x128.size a
  k8_off7_inb : ∀ k8_t1 : Fin k8_t1_loop.trips, ∀ (k8_h3 : k8_cond3 k8_t1 = 1#1), ∀ a, (k8_off7 k8_t1) a + S1x80.size a ≤ S25x80.size a
  k8_off8_inb : ∀ (i : grid8.Coords) (k8_t1 : Fin k8_t1_loop.trips), ∀ (k8_h5 : k8_cond5 k8_t1 = 1#1), ∀ (k8_h6 : k8_cond6 k8_t1 = 1#1), ∀ a, (k8_off8 i k8_t1) a + S80x128.size a ≤ S64000x128.size a
  k8_off9_inb : ∀ k8_t1 : Fin k8_t1_loop.trips, ∀ (k8_h5 : k8_cond5 k8_t1 = 1#1), ∀ a, (k8_off9 k8_t1) a + S1x80.size a ≤ S25x80.size a
  k8_off10_inb : ∀ (i : grid8.Coords) (k8_t1 : Fin k8_t1_loop.trips), ∀ (k8_h7 : k8_cond7 k8_t1 = 1#1), ∀ (k8_h8 : k8_cond8 k8_t1 = 1#1), ∀ a, (k8_off10 i k8_t1) a + S80x128.size a ≤ S64000x128.size a
  k8_off11_inb : ∀ k8_t1 : Fin k8_t1_loop.trips, ∀ (k8_h7 : k8_cond7 k8_t1 = 1#1), ∀ a, (k8_off11 k8_t1) a + S1x80.size a ≤ S25x80.size a
  k8_off12_inb : ∀ (i : grid8.Coords) (k8_t1 : Fin k8_t1_loop.trips), ∀ (k8_h9 : k8_cond9 k8_t1 = 1#1), ∀ (k8_h10 : k8_cond10 k8_t1 = 1#1), ∀ a, (k8_off12 i k8_t1) a + S80x128.size a ≤ S64000x128.size a
  k8_off13_inb : ∀ k8_t1 : Fin k8_t1_loop.trips, ∀ (k8_h9 : k8_cond9 k8_t1 = 1#1), ∀ a, (k8_off13 k8_t1) a + S1x80.size a ≤ S25x80.size a
  k8_off14_inb : ∀ i : grid8.Coords, ∀ (r : Fin 5), ∀ a, (k8_off14 i (BitVec.ofNat 32 (20 + r.val))) a + S80x128.size a ≤ S64000x128.size a
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S12800x128.size a ≤ S64000x128.size a
  hwx9_0 : ∀ i : grid9.Coords, EltTy.bits .f32 = 32 ∨ (Rect.block (s := S64000x128) S12800x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S400x128.size a ≤ S2000x128.size a
  hwx9_1 : ∀ i : grid9.Coords, EltTy.bits .f32 = 32 ∨ (Rect.block (s := S2000x128) S400x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S400x128.size a ≤ S2000x128.size a
  hwx9_2 : ∀ i : grid9.Coords, EltTy.bits .f32 = 32 ∨ (Rect.block (s := S2000x128) S400x128.size (cc9_transform_2 i) (hinb9_2 i)).WholeWords (EltTy.packing .f32)

variable [Facts₀]

abbrev cc0_scratch2 : DmaSems sig S5 := SemArray.consecutive 0 S5 hcc0_scratch2
abbrev cc0_scratch3 : DmaSems sig S5 := SemArray.consecutive 5 S5 hcc0_scratch3
abbrev cc0_scoped0 : DmaSems sig S_ := SemArray.consecutive 10 S_ hcc0_scoped0
abbrev cc2_scratch2 : DmaSems sig S5 := SemArray.consecutive 17 S5 hcc2_scratch2
abbrev cc2_scratch3 : DmaSems sig S5 := SemArray.consecutive 22 S5 hcc2_scratch3
abbrev cc2_scoped0 : DmaSems sig S_ := SemArray.consecutive 27 S_ hcc2_scoped0
abbrev cc4_scratch2 : DmaSems sig S5 := SemArray.consecutive 34 S5 hcc4_scratch2
abbrev cc4_scratch3 : DmaSems sig S5 := SemArray.consecutive 39 S5 hcc4_scratch3
abbrev cc4_scoped0 : DmaSems sig S_ := SemArray.consecutive 44 S_ hcc4_scoped0
abbrev cc6_scratch2 : DmaSems sig S5 := SemArray.consecutive 51 S5 hcc6_scratch2
abbrev cc6_scratch3 : DmaSems sig S5 := SemArray.consecutive 56 S5 hcc6_scratch3
abbrev cc6_scoped0 : DmaSems sig S_ := SemArray.consecutive 61 S_ hcc6_scoped0
abbrev cc8_scratch2 : DmaSems sig S5 := SemArray.consecutive 68 S5 hcc8_scratch2
abbrev cc8_scratch3 : DmaSems sig S5 := SemArray.consecutive 73 S5 hcc8_scratch3
abbrev cc8_scoped0 : DmaSems sig S_ := SemArray.consecutive 78 S_ hcc8_scoped0
def dot_S12800x128_S128x128_S12800x128_1_0_0_1_n_n : DotDims S12800x128 S128x128 S12800x128 where
  lhsContracting := [1]
  rhsContracting := [0]
  lhsNonContracting := [0]
  rhsNonContracting := [1]
  lhsBatch := []
  rhsBatch := []
  wf := dot_S12800x128_S128x128_S12800x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win1_0 : Pipeline.Window sig grid1 :=
  Pipeline.Window.ofSpec (Memref.whole main_v7) S12800x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S400x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S400x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win3_0 : Pipeline.Window sig grid3 :=
  Pipeline.Window.ofSpec (Memref.whole main_v12) S12800x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v13) S400x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v14) S400x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win5_0 : Pipeline.Window sig grid5 :=
  Pipeline.Window.ofSpec (Memref.whole main_v17) S12800x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v18) S400x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v19) S400x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win7_0 : Pipeline.Window sig grid7 :=
  Pipeline.Window.ofSpec (Memref.whole main_v22) S12800x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v23) S400x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v24) S400x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win9_0 : Pipeline.Window sig grid9 :=
  Pipeline.Window.ofSpec (Memref.whole main_v27) S12800x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v28) S400x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v29) S400x128.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

class Facts : Prop extends Facts₀ where

variable [Facts]
-- ==== ReferenceIdeal.lean ====
abbrev S10000x128 : Shape := ⟨2, ![10000, 128]⟩
abbrev S10000x32 : Shape := ⟨2, ![10000, 32]⟩
abbrev S_ : Shape := ⟨0, ![]⟩
abbrev S10000 : Shape := ⟨1, ![10000]⟩
abbrev S10000x1 : Shape := ⟨2, ![10000, 1]⟩
abbrev S10000x32x1 : Shape := ⟨3, ![10000, 32, 1]⟩
abbrev S10000x32x128 : Shape := ⟨3, ![10000, 32, 128]⟩
abbrev S10000x1x128 : Shape := ⟨3, ![10000, 1, 128]⟩

abbrev nBuf : Space → Nat
  | .hbm => 142
  | .vmem => 0
  | .smem => 0
  | _ => 0

abbrev hbmTy0_0 (i : Nat) : BufTy := match i % 128 with
  | 0 => ⟨S10000x128, .f32⟩
  | 1 => ⟨S10000x32, .i32⟩
  | 2 => ⟨S10000x128, .f32⟩
  | 3 => ⟨S_, .f32⟩
  | 4 => ⟨S10000, .f32⟩
  | 5 => ⟨S10000x1, .f32⟩
  | 6 => ⟨S10000x1, .f32⟩
  | 7 => ⟨S_, .f32⟩
  | 8 => ⟨S10000x1, .f32⟩
  | 9 => ⟨S10000x1, .f32⟩
  | 10 => ⟨S10000x128, .f32⟩
  | 11 => ⟨S10000x128, .f32⟩
  | 12 => ⟨S_, .i32⟩
  | 13 => ⟨S10000x32, .i32⟩
  | 14 => ⟨S10000x32, .i32⟩
  | 15 => ⟨S_, .i32⟩
  | 16 => ⟨S10000x32, .i32⟩
  | 17 => ⟨S10000x32, .i1⟩
  | 18 => ⟨S_, .i32⟩
  | 19 => ⟨S10000x32, .i32⟩
  | 20 => ⟨S10000x32, .i32⟩
  | 21 => ⟨S10000x32, .i32⟩
  | 22 => ⟨S10000x32x1, .i32⟩
  | 23 => ⟨S10000x32x128, .f32⟩
  | 24 => ⟨S_, .f32⟩
  | 25 => ⟨S10000x32, .f32⟩
  | 26 => ⟨S_, .f32⟩
  | 27 => ⟨S10000, .f32⟩
  | 28 => ⟨S_, .f32⟩
  | 29 => ⟨S10000, .f32⟩
  | 30 => ⟨S10000, .f32⟩
  | 31 => ⟨S10000x1, .f32⟩
  | 32 => ⟨S10000x32, .f32⟩
  | 33 => ⟨S10000x32, .f32⟩
  | 34 => ⟨S10000x32, .f32⟩
  | 35 => ⟨S_, .f32⟩
  | 36 => ⟨S10000, .f32⟩
  | 37 => ⟨S10000x1, .f32⟩
  | 38 => ⟨S10000x32, .f32⟩
  | 39 => ⟨S10000x32, .f32⟩
  | 40 => ⟨S10000x32x1, .f32⟩
  | 41 => ⟨S10000x32x128, .f32⟩
  | 42 => ⟨S10000x32x128, .f32⟩
  | 43 => ⟨S_, .f32⟩
  | 44 => ⟨S10000x128, .f32⟩
  | 45 => ⟨S10000x128, .f32⟩
  | 46 => ⟨S10000x128, .f32⟩
  | 47 => ⟨S_, .f32⟩
  | 48 => ⟨S10000, .f32⟩
  | 49 => ⟨S10000, .f32⟩
  | 50 => ⟨S10000, .f32⟩
  | 51 => ⟨S10000, .f32⟩
  | 52 => ⟨S_, .f32⟩
  | 53 => ⟨S10000, .f32⟩
  | 54 => ⟨S10000, .f32⟩
  | 55 => ⟨S10000, .f32⟩
  | 56 => ⟨S10000x1, .f32⟩
  | 57 => ⟨S10000x128, .f32⟩
  | 58 => ⟨S_, .f32⟩
  | 59 => ⟨S10000, .f32⟩
  | 60 => ⟨S10000x1, .f32⟩
  | 61 => ⟨S10000x1, .f32⟩
  | 62 => ⟨S_, .f32⟩
  | 63 => ⟨S10000x1, .f32⟩
  | 64 => ⟨S10000x1, .f32⟩
  | 65 => ⟨S10000x128, .f32⟩
  | 66 => ⟨S10000x128, .f32⟩
  | 67 => ⟨S10000x128, .f32⟩
  | 68 => ⟨S10000x128, .f32⟩
  | 69 => ⟨S10000x1x128, .f32⟩
  | 70 => ⟨S10000x32x128, .f32⟩
  | 71 => ⟨S10000x32x128, .f32⟩
  | 72 => ⟨S_, .f32⟩
  | 73 => ⟨S10000x32, .f32⟩
  | 74 => ⟨S_, .f32⟩
  | 75 => ⟨S10000, .f32⟩
  | 76 => ⟨S_, .f32⟩
  | 77 => ⟨S10000, .f32⟩
  | 78 => ⟨S10000, .f32⟩
  | 79 => ⟨S10000x1, .f32⟩
  | 80 => ⟨S10000x32, .f32⟩
  | 81 => ⟨S10000x32, .f32⟩
  | 82 => ⟨S10000x32, .f32⟩
  | 83 => ⟨S_, .f32⟩
  | 84 => ⟨S10000, .f32⟩
  | 85 => ⟨S10000x1, .f32⟩
  | 86 => ⟨S10000x32, .f32⟩
  | 87 => ⟨S10000x32, .f32⟩
  | 88 => ⟨S10000x32x1, .f32⟩
  | 89 => ⟨S10000x32x128, .f32⟩
  | 90 => ⟨S10000x32x128, .f32⟩
  | 91 => ⟨S_, .f32⟩
  | 92 => ⟨S10000x128, .f32⟩
  | 93 => ⟨S10000x128, .f32⟩
  | 94 => ⟨S10000x128, .f32⟩
  | 95 => ⟨S_, .f32⟩
  | 96 => ⟨S10000, .f32⟩
  | 97 => ⟨S10000, .f32⟩
  | 98 => ⟨S10000, .f32⟩
  | 99 => ⟨S10000, .f32⟩
  | 100 => ⟨S_, .f32⟩
  | 101 => ⟨S10000, .f32⟩
  | 102 => ⟨S10000, .f32⟩
  | 103 => ⟨S10000, .f32⟩
  | 104 => ⟨S10000x1, .f32⟩
  | 105 => ⟨S10000x128, .f32⟩
  | 106 => ⟨S_, .f32⟩
  | 107 => ⟨S10000, .f32⟩
  | 108 => ⟨S10000x1, .f32⟩
  | 109 => ⟨S10000x1, .f32⟩
  | 110 => ⟨S_, .f32⟩
  | 111 => ⟨S10000x1, .f32⟩
  | 112 => ⟨S10000x1, .f32⟩
  | 113 => ⟨S10000x128, .f32⟩
  | 114 => ⟨S10000x128, .f32⟩
  | 115 => ⟨S10000x128, .f32⟩
  | 116 => ⟨S10000x128, .f32⟩
  | 117 => ⟨S10000x1x128, .f32⟩
  | 118 => ⟨S10000x32x128, .f32⟩
  | 119 => ⟨S10000x32x128, .f32⟩
  | 120 => ⟨S_, .f32⟩
  | 121 => ⟨S10000x32, .f32⟩
  | 122 => ⟨S_, .f32⟩
  | 123 => ⟨S10000, .f32⟩
  | 124 => ⟨S_, .f32⟩
  | 125 => ⟨S10000, .f32⟩
  | 126 => ⟨S10000, .f32⟩
  | 127 => ⟨S10000x1, .f32⟩
  | _ => ⟨S10000x128, .f32⟩

abbrev hbmTy0_1 (i : Nat) : BufTy := match i % 128 with
  | 0 => ⟨S10000x32, .f32⟩
  | 1 => ⟨S10000x32, .f32⟩
  | 2 => ⟨S10000x32, .f32⟩
  | 3 => ⟨S_, .f32⟩
  | 4 => ⟨S10000, .f32⟩
  | 5 => ⟨S10000x1, .f32⟩
  | 6 => ⟨S10000x32, .f32⟩
  | 7 => ⟨S10000x32, .f32⟩
  | 8 => ⟨S10000x32x1, .f32⟩
  | 9 => ⟨S10000x32x128, .f32⟩
  | 10 => ⟨S10000x32x128, .f32⟩
  | 11 => ⟨S_, .f32⟩
  | 12 => ⟨S10000x128, .f32⟩
  | 13 => ⟨S10000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_call1_v0 : Ref sig .tc := ⟨.hbm, 46, rfl⟩
abbrev main_call1_cst : Ref sig .tc := ⟨.hbm, 47, rfl⟩
abbrev main_call1_v1 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_call2_v0 : Ref sig .tc := ⟨.hbm, 57, rfl⟩
abbrev main_call2_cst : Ref sig .tc := ⟨.hbm, 58, rfl⟩
abbrev main_call2_v1 : Ref sig .tc := ⟨.hbm, 59, rfl⟩
abbrev main_call2_v2 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_cst_10 : Ref sig .tc := ⟨.hbm, 74, rfl⟩
abbrev main_v49 : Ref sig .tc := ⟨.hbm, 75, rfl⟩
abbrev main_cst_11 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_12 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_13 : Ref sig .tc := ⟨.hbm, 91, rfl⟩
abbrev main_v63 : Ref sig .tc := ⟨.hbm, 92, rfl⟩
abbrev main_v64 : Ref sig .tc := ⟨.hbm, 93, rfl⟩
abbrev main_call3_v0 : Ref sig .tc := ⟨.hbm, 94, rfl⟩
abbrev main_call3_cst : Ref sig .tc := ⟨.hbm, 95, rfl⟩
abbrev main_call3_v1 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_14 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_call4_v0 : Ref sig .tc := ⟨.hbm, 105, rfl⟩
abbrev main_call4_cst : Ref sig .tc := ⟨.hbm, 106, rfl⟩
abbrev main_call4_v1 : Ref sig .tc := ⟨.hbm, 107, rfl⟩
abbrev main_call4_v2 : Ref sig .tc := ⟨.hbm, 108, rfl⟩
abbrev main_v72 : Ref sig .tc := ⟨.hbm, 109, rfl⟩
abbrev main_cst_15 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_16 : Ref sig .tc := ⟨.hbm, 120, rfl⟩
abbrev main_v82 : Ref sig .tc := ⟨.hbm, 121, rfl⟩
abbrev main_cst_17 : Ref sig .tc := ⟨.hbm, 122, rfl⟩
abbrev main_v83 : Ref sig .tc := ⟨.hbm, 123, rfl⟩
abbrev main_cst_18 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_19 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_cst_20 : Ref sig .tc := ⟨.hbm, 139, rfl⟩
abbrev main_v97 : Ref sig .tc := ⟨.hbm, 140, rfl⟩
abbrev main_v98 : Ref sig .tc := ⟨.hbm, 141, rfl⟩

abbrev nD : Nat := 1
abbrev τ : Topo := Topo.v7x

variable {F : FTy → Type} [FloatOps F]

class Facts₀ : Prop where
  reducesTo_S10000x128_S10000_d1 : S10000x128.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  bcast_S_S10000x32 : S_.BroadcastsInDim S10000x32 (![] : Fin 0 → Fin S10000x32.rank)
  bcast_S10000x32_S10000x32x1_0_1 : S10000x32.BroadcastsInDim S10000x32x1 (![0, 1] : Fin 2 → Fin S10000x32x1.rank)
  reducesTo_S10000x32_S10000_d1 : S10000x32.ReducesTo [1] S10000
  bcast_S_S10000 : S_.BroadcastsInDim S10000 (![] : Fin 0 → Fin S10000.rank)
  bcast_S10000x1_S10000x32_0_1 : S10000x1.BroadcastsInDim S10000x32 (![0, 1] : Fin 2 → Fin S10000x32.rank)
  shapeCasts_S10000x32_S10000x32x1 : S10000x32.ShapeCasts S10000x32x1
  bcast_S10000x32x1_S10000x32x128_0_1_2 : S10000x32x1.BroadcastsInDim S10000x32x128 (![0, 1, 2] : Fin 3 → Fin S10000x32x128.rank)
  reducesTo_S10000x32x128_S10000x128_d1 : S10000x32x128.ReducesTo [1] S10000x128
  shapeCasts_S10000x128_S10000x1x128 : S10000x128.ShapeCasts S10000x1x128
  bcast_S10000x1x128_S10000x32x128_0_1_2 : S10000x1x128.BroadcastsInDim S10000x32x128 (![0, 1, 2] : Fin 3 → Fin S10000x32x128.rank)
  reducesTo_S10000x32x128_S10000x32_d2 : S10000x32x128.ReducesTo [2] S10000x32
  gather_S10000x128_S10000x32x1_S10000x32x128_2_0_n_n_0_2_1128_wf : GatherDims.WF S10000x128 S10000x32x1 S10000x32x128 [2] [0] [] [0] [] 2 ![1, 128]

variable [Facts₀]

def gather_S10000x128_S10000x32x1_S10000x32x128_2_0_n_n_0_2_1128 : GatherDims S10000x128 S10000x32x1 S10000x32x128 where
  offsetDims := [2]
  collapsedSliceDims := [0]
  operandBatchingDims := []
  startIndicesBatchingDims := []
  startIndexMap := [0]
  indexVectorDim := 2
  sliceSizes := ![1, 128]
  wf := gather_S10000x128_S10000x32x1_S10000x32x128_2_0_n_n_0_2_1128_wf

class Facts : Prop extends Facts₀ where

variable [Facts]
-- ==== Proof.Setup.lean ====
import proofs.«212107_g53927609368716_cont_9to1_m_409_29_alg».proof.Defs
import Idealize.ShloMosaic.Lib.SparseCore.Launch
import Idealize.ShloMosaic.Lib.Pipeline.Kit
import proofs.«212107_g53927609368716_cont_9to1_m_409_29_alg».proof.Proof.Gen.KernelIdeal

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open Idealize.SL.Sem
open Idealize.ShloMosaic.Rounds

variable {F : FTy → Type} [FloatOps F] [Named F] [Cert.KernelIdeal.Facts]

abbrev ΛP : Labels := Pipeline.Sig Λ₀ (Fin 5) fun p => (pcfgs (F := F) p).Adm

abbrev K : SparseCore.Cfg τ sig (ΛP (F := F)) 5 := sc (F := F)

abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ

abbrev UP : Type := UR sig nD τ

abbrev UU : Type := UH × (UP × Counters)

abbrev MM : Type := MT nD τ sig (HIx 5) (Elt F) ℕ UU ℕ

abbrev EH : Emb UH (MM (F := F)) := embL

abbrev EP : Emb UP (MM (F := F)) := (Emb.inl : Emb UP (UP × Counters)).trans embR

variable (d : Dev nD)

abbrev xLoc : Loc nD τ sig := (SparseCore.T d).loc main_arg0

abbrev nbLoc : Loc nD τ sig := (SparseCore.T d).loc main_arg1

abbrev outLoc : Loc nD τ sig := (SparseCore.T d).loc main_v30

end Cert.Proof.KI

end
-- ==== Proof.ScCall0Defs.lean ====
import proofs.«212107_g53927609368716_cont_9to1_m_409_29_alg».proof.Proof.Setup
import Idealize.ShloMosaic.Lib.Transfers
import Idealize.ShloMosaic.Lib.ValueIdx

noncomputable section

namespace Cert.Proof.KI.Sc0

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F] [Cert.KernelIdeal.Facts]

local notation "𝕄" => MT nD τ sig (HIx 5) (Elt F) ℕ (UU) ℕ

variable (d : Dev nD)

abbrev iLoc : Loc nD τ sig := (SparseCore.T d).loc main_v6

abbrev zLoc : Loc nD τ sig := (SparseCore.T d).loc main_v7

abbrev xW : Memref sig .scVector .hbm S10000x128 .f32 := Memref.whole main_arg0_scv
abbrev iW : Memref sig .scVector .hbm S32x25x80 .i32 := Memref.whole main_v6_scv
abbrev zW : Memref sig .scVector .hbm S64000x128 .f32 := Memref.whole main_v7_scv

def gath (X : Buf (Elt F) (xLoc d)) (I : Buf (Elt F) (iLoc d)) : Buf (Elt F) (zLoc d) :=
  fun e : S64000x128.Idx =>
    X (ix2 (n0 := 10000) (n1 := 128)
      ⟨(I (ix3 (n0 := 32) (n1 := 25) (n2 := 80) ⟨(e 0).val / 2000, by have := (e 0).isLt; simp at this; omega⟩
          ⟨(e 0).val / 80 % 25, Nat.mod_lt _ (by decide)⟩ ⟨(e 0).val % 80, Nat.mod_lt _ (by decide)⟩)).toNat % 10000,
        Nat.mod_lt _ (by decide)⟩ (e 1))

def IdxOK (I : Buf (Elt F) (iLoc d)) : Prop := ∀ e, (I e).toNat < 10000

def wid (c : Fin 2) (i : Fin 16) : Fin 32 := ⟨2 * i.val + c.val, by omega⟩

theorem hdivI : 32 ∣ S32x25x80.size 0 := ⟨1, rfl⟩
theorem hdivZ : 32 ∣ S64000x128.size 0 := ⟨2000, rfl⟩

abbrev iPart (w : Fin 32) : Rect S32x25x80 := Rect.part (s := S32x25x80) (a₀ := 0) hdivI w

abbrev zPart (w : Fin 32) : Rect S64000x128 := Rect.part (s := S64000x128) (a₀ := 0) hdivZ w
abbrev iRows (w : Fin 32) : Finset S32x25x80.Idx := ((iW : Memref sig .scVector .hbm S32x25x80 .i32).view.slice (iPart w)).set
abbrev zRows (w : Fin 32) : Finset S64000x128.Idx := ((zW : Memref sig .scVector .hbm S64000x128 .f32).view.slice (zPart w)).set

def qCore (q : PosShare TreeShare) (c : Fin 2) : PosShare TreeShare := if c.val = 0 then q.left else q.right

abbrev qTile (q : PosShare TreeShare) (c : Fin 2) (i : Fin 16) : PosShare TreeShare := Transfers.shareTok (qCore q c) 16 i

variable (q : PosShare TreeShare) (X : Buf (Elt F) (xLoc d)) (I : Buf (Elt F) (iLoc d))

def st (c : Fin 2) : sProp 𝕄 :=
  iprop((xLoc d ↦{qCore q c} X) ∗ (bigSep Finset.univ fun i : Fin 16 => iLoc d ↦[iRows (wid c i)]{fullShare} I)
    ∗ bigSep Finset.univ fun i : Fin 16 => iprop(∃ f, zLoc d ↦[zRows (wid c i)]{fullShare} f))

def dn (c : Fin 2) : sProp 𝕄 :=
  iprop((xLoc d ↦{qCore q c} X) ∗ (bigSep Finset.univ fun i : Fin 16 => iLoc d ↦[iRows (wid c i)]{fullShare} I)
    ∗ bigSep Finset.univ fun i : Fin 16 => zLoc d ↦[zRows (wid c i)]{fullShare} gath d X I)

def go (c : Fin 2) (i : Fin 16) : sProp 𝕄 :=
  iprop((xLoc d ↦{qTile q c i} X) ∗ (iLoc d ↦[iRows (wid c i)]{fullShare} I) ∗ ∃ f, zLoc d ↦[zRows (wid c i)]{fullShare} f)

def td (c : Fin 2) (i : Fin 16) : sProp 𝕄 :=
  iprop((xLoc d ↦{qTile q c i} X) ∗ (iLoc d ↦[iRows (wid c i)]{fullShare} I) ∗ zLoc d ↦[zRows (wid c i)]{fullShare} gath d X I)

instance st_storable (c : Fin 2) : BI.Storable (upEmb : UEmb _ 𝕄) (st d q X I c) := by unfold st; infer_instance
instance dn_storable (c : Fin 2) : BI.Storable (upEmb : UEmb _ 𝕄) (dn d q X I c) := by unfold dn; infer_instance
instance go_storable (c : Fin 2) (i : Fin 16) : BI.Storable (upEmb : UEmb _ 𝕄) (go d q X I c i) := by unfold go; infer_instance
instance td_storable (c : Fin 2) (i : Fin 16) : BI.Storable (upEmb : UEmb _ 𝕄) (td d q X I c i) := by unfold td; infer_instance

def CallIn : Prop :=
  iprop((xLoc d ↦{q} X) ∗ (iLoc d ↦{fullShare} I) ∗ ∃ f, zLoc d ↦{fullShare} f)
    ⊢ (|={Set.univ}=> bigSep Finset.univ fun c : Fin 2 => st d q X I c : sProp 𝕄)

def CallOut : Prop :=
  (bigSep Finset.univ fun c : Fin 2 => dn d q X I c : sProp 𝕄)
    ⊢ iprop((xLoc d ↦{q} X) ∗ (iLoc d ↦{fullShare} I) ∗ zLoc d ↦{fullShare} gath d X I)

def VecSplit0 (c : Fin 2) : Prop :=
  st d q X I c ⊢ (|={Set.univ}=> iprop((bigSep Finset.univ fun i : Fin 16 => go d q X I c i)
      ∗ ((bigSep Finset.univ fun i : Fin 16 => td d q X I c i) -∗ dn d q X I c)) : sProp 𝕄)

end Cert.Proof.KI.Sc0

end
-- ==== Proof.ScWorkers.lean ====
import Idealize.ShloMosaic.Lib.Transfers

noncomputable section

namespace Cert.Proof.ScWorkers

open Idealize.ShloMosaic
open Idealize.SL Idealize.SL.RA Idealize.SL.BI
open scoped Idealize.SL.BI
open Idealize.SL.BI.BIBase Idealize.SL.BI.Laws Idealize.SL.ProofMode

variable (wd : Fin 2 → Fin 16 → Fin 32) (hwd : ∀ c i, (wd c i).val = 2 * i.val + c.val)

-- Division with remainder by two: worker `2 i + c` is tile `i` of core `c`.
def widEquiv : Fin 2 × Fin 16 ≃ Fin 32 where
  toFun p := wd p.1 p.2
  invFun w := (⟨w.val % 2, by omega⟩, ⟨w.val / 2, by omega⟩)
  left_inv := fun ⟨c, i⟩ => Prod.ext (Fin.ext (by show (wd c i).val % 2 = c.val; rw [hwd]; omega))
    (Fin.ext (by show (wd c i).val / 2 = i.val; rw [hwd]; omega))
  right_inv w := Fin.ext (by rw [hwd]; show 2 * (w.val / 2) + w.val % 2 = w.val; omega)

universe u

include hwd

theorem bigSep_workers {M : Type u} [URA M] (Φ : Fin 32 → sProp M) :
    bigSep Finset.univ Φ = bigSep Finset.univ fun c : Fin 2 => bigSep Finset.univ fun i : Fin 16 => Φ (wd c i) := by
  rw [bigSep_univ_equiv (widEquiv wd hwd) Φ, bigSep_univ_prod]; rfl

variable {nD : Nat} {τ : Topo} {sig : RefSig} {Ix : Type} [DecidableEq Ix] {Val : EltTy → Type} {Name : Type} [DecidableEq Name]
  {U : Type} [URA U] {Lvl : Type}

local notation "𝕄" => MT nD τ sig Ix Val Name U Lvl

-- The thirty-two parts of an array along one axis are pairwise disjoint and cover it.
theorem pts_rows {ℓ : Loc nD τ sig} {a : Fin ℓ.ty.shape.rank} (hn : 32 ∣ ℓ.ty.shape.size a) (K : Fin 32 → Finset (Idx ℓ))
    (hK : ∀ w, K w = (Rect.part hn w).set) (q : PosShare TreeShare) (f : Buf Val ℓ) :
    (ℓ ↦{q} f : sProp 𝕄) = bigSep Finset.univ fun c : Fin 2 => bigSep Finset.univ fun i : Fin 16 => ℓ ↦[K (wd c i)]{q} f := by
  rw [← bigSep_workers wd hwd fun w => (ℓ ↦[K w]{q} f : sProp 𝕄),
    ← pointsTo_biUnion Finset.univ (ℓ := ℓ) K fun w _ w' _ h => by rw [hK, hK]; exact Rect.part_disjoint hn h,
    (Finset.biUnion_congr rfl fun w _ => hK w).trans (Rect.biUnion_part hn)]

omit hwd in
-- A wait that ends nowhere ends, a fortiori, nowhere or at call `q`.
theorem obl_post {Q : ℕ} {thr : Thread nD τ} {A B C : sProp (MT nD τ sig (Option (Fin Q)) Val Name U Lvl)} {O : CellTallies nD τ sig (Option (Fin Q))}
    {W : Waits sig (Option (Fin Q))} {q : Fin Q} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right .inl
  iexact HO

end Cert.Proof.ScWorkers

end
-- ==== Proof.ScSplit0.lean ====
import proofs.«212107_g53927609368716_cont_9to1_m_409_29_alg».proof.Proof.ScCall0Defs
import proofs.«212107_g53927609368716_cont_9to1_m_409_29_alg».proof.Proof.ScWorkers

noncomputable section

namespace Cert.Proof.KI.Sc0

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode

variable {F : FTy → Type} [FloatOps F] [Named F] [Cert.KernelIdeal.Facts]

local notation "𝕄" => MT nD τ sig (HIx 5) (Elt F) ℕ (UU) ℕ

variable (d : Dev nD)

variable (q : PosShare TreeShare) (X : Buf (Elt F) (xLoc d)) (I : Buf (Elt F) (iLoc d))

-- The table is dealt by halves, the index words by the workers' rows; the third factor rides along.
theorem deal (Z : Fin 2 → sProp 𝕄) :
    (bigSep Finset.univ fun c : Fin 2 => iprop((xLoc d ↦{qCore q c} X)
        ∗ (bigSep Finset.univ fun i : Fin 16 => iLoc d ↦[iRows (wid c i)]{fullShare} I) ∗ Z c) : sProp 𝕄)
      = iprop((xLoc d ↦{q} X) ∗ (iLoc d ↦{fullShare} I) ∗ bigSep Finset.univ Z) := by
  have h : (xLoc d ↦{q} X : sProp 𝕄) ⊣⊢ _ := pointsTo_share (PosShare.mem_left_op_right q)
  rw [bigSep_sep', bigSep_sep', ← ScWorkers.pts_rows wid (fun _ _ => rfl) (ℓ := iLoc d) hdivI iRows (fun _ => View.set_slice_whole _ _), bigSep_univ_two,
    BI.Entails.antisymm h.1 h.2] <;> rfl

theorem call_in : CallIn d q X I := by
  unfold CallIn st
  rw [deal]
  iintro ⟨Hx, Hi, ⟨%f, Hz⟩⟩
  imodintro
  isplitl [Hx]; · iexact Hx
  isplitl [Hi]; · iexact Hi
  iapply ((Entails.of_eq (ScWorkers.pts_rows wid (fun _ _ => rfl) (ℓ := zLoc d) hdivZ zRows (fun _ => View.set_slice_whole _ _) fullShare f)).trans
    (bigSep_mono fun c _ => bigSep_mono fun i _ => BIClass.exists_intro (PROP := sProp 𝕄) f))
  iexact Hz

theorem call_out : CallOut d q X I := by
  unfold CallOut dn
  exact Entails.of_eq ((deal d q X I _).trans
    (by rw [← ScWorkers.pts_rows wid (fun _ _ => rfl) (ℓ := zLoc d) hdivZ zRows fun _ => View.set_slice_whole _ _]))

-- A SparseCore's half of the table is sixteen read tokens and a remainder, which it keeps until the tokens are back.
theorem vecSplit0 (c : Fin 2) : VecSplit0 d q X I c := by
  unfold VecSplit0 st dn go td
  have h : (xLoc d ↦{qCore q c} X : sProp 𝕄) ⊣⊢ _ := Transfers.pointsTo_toks (qCore q c) 16
  rw [bigSep_sep', bigSep_sep', bigSep_sep', bigSep_sep', BI.Entails.antisymm h.1 h.2]
  iintro ⟨⟨Hr, Ht⟩, H⟩
  imodintro
  isplitl [Ht H]
  · isplitl [Ht] <;> iassumption
  iintro ⟨Ht, H⟩
  isplitr [H]
  · isplitl [Hr] <;> iassumption
  iexact H

end Cert.Proof.KI.Sc0

end
-- ==== Proof.ScCall1Defs.lean ====
import proofs.«212107_g53927609368716_cont_9to1_m_409_29_alg».proof.Proof.Setup
import Idealize.ShloMosaic.Lib.Transfers
import Idealize.ShloMosaic.Lib.ValueIdx

noncomputable section

namespace Cert.Proof.KI.Sc1

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F] [Cert.KernelIdeal.Facts]

local notation "𝕄" => MT nD τ sig (HIx 5) (Elt F) ℕ (UU) ℕ

variable (d : Dev nD)

abbrev iLoc : Loc nD τ sig := (SparseCore.T d).loc main_v11

abbrev zLoc : Loc nD τ sig := (SparseCore.T d).loc main_v12

abbrev xW : Memref sig .scVector .hbm S10000x128 .f32 := Memref.whole main_arg0_scv
abbrev iW : Memref sig .scVector .hbm S32x25x80 .i32 := Memref.whole main_v11_scv
abbrev zW : Memref sig .scVector .hbm S64000x128 .f32 := Memref.whole main_v12_scv

def gath (X : Buf (Elt F) (xLoc d)) (I : Buf (Elt F) (iLoc d)) : Buf (Elt F) (zLoc d) :=
  fun e : S64000x128.Idx =>
    X (ix2 (n0 := 10000) (n1 := 128)
      ⟨(I (ix3 (n0 := 32) (n1 := 25) (n2 := 80) ⟨(e 0).val / 2000, by have := (e 0).isLt; simp at this; omega⟩
          ⟨(e 0).val / 80 % 25, Nat.mod_lt _ (by decide)⟩ ⟨(e 0).val % 80, Nat.mod_lt _ (by decide)⟩)).toNat % 10000,
        Nat.mod_lt _ (by decide)⟩ (e 1))

def IdxOK (I : Buf (Elt F) (iLoc d)) : Prop := ∀ e, (I e).toNat < 10000

def wid (c : Fin 2) (i : Fin 16) : Fin 32 := ⟨2 * i.val + c.val, by omega⟩

theorem hdivI : 32 ∣ S32x25x80.size 0 := ⟨1, rfl⟩
theorem hdivZ : 32 ∣ S64000x128.size 0 := ⟨2000, rfl⟩

abbrev iPart (w : Fin 32) : Rect S32x25x80 := Rect.part (s := S32x25x80) (a₀ := 0) hdivI w

abbrev zPart (w : Fin 32) : Rect S64000x128 := Rect.part (s := S64000x128) (a₀ := 0) hdivZ w
abbrev iRows (w : Fin 32) : Finset S32x25x80.Idx := ((iW : Memref sig .scVector .hbm S32x25x80 .i32).view.slice (iPart w)).set
abbrev zRows (w : Fin 32) : Finset S64000x128.Idx := ((zW : Memref sig .scVector .hbm S64000x128 .f32).view.slice (zPart w)).set

def qCore (q : PosShare TreeShare) (c : Fin 2) : PosShare TreeShare := if c.val = 0 then q.left else q.right

abbrev qTile (q : PosShare TreeShare) (c : Fin 2) (i : Fin 16) : PosShare TreeShare := Transfers.shareTok (qCore q c) 16 i

variable (q : PosShare TreeShare) (X : Buf (Elt F) (xLoc d)) (I : Buf (Elt F) (iLoc d))

def st (c : Fin 2) : sProp 𝕄 :=
  iprop((xLoc d ↦{qCore q c} X) ∗ (bigSep Finset.univ fun i : Fin 16 => iLoc d ↦[iRows (wid c i)]{fullShare} I)
    ∗ bigSep Finset.univ fun i : Fin 16 => iprop(∃ f, zLoc d ↦[zRows (wid c i)]{fullShare} f))

def dn (c : Fin 2) : sProp 𝕄 :=
  iprop((xLoc d ↦{qCore q c} X) ∗ (bigSep Finset.univ fun i : Fin 16 => iLoc d ↦[iRows (wid c i)]{fullShare} I)
    ∗ bigSep Finset.univ fun i : Fin 16 => zLoc d ↦[zRows (wid c i)]{fullShare} gath d X I)

def go (c : Fin 2) (i : Fin 16) : sProp 𝕄 :=
  iprop((xLoc d ↦{qTile q c i} X) ∗ (iLoc d ↦[iRows (wid c i)]{fullShare} I) ∗ ∃ f, zLoc d ↦[zRows (wid c i)]{fullShare} f)

def td (c : Fin 2) (i : Fin 16) : sProp 𝕄 :=
  iprop((xLoc d ↦{qTile q c i} X) ∗ (iLoc d ↦[iRows (wid c i)]{fullShare} I) ∗ zLoc d ↦[zRows (wid c i)]{fullShare} gath d X I)

instance st_storable (c : Fin 2) : BI.Storable (upEmb : UEmb _ 𝕄) (st d q X I c) := by unfold st; infer_instance
instance dn_storable (c : Fin 2) : BI.Storable (upEmb : UEmb _ 𝕄) (dn d q X I c) := by unfold dn; infer_instance
instance go_storable (c : Fin 2) (i : Fin 16) : BI.Storable (upEmb : UEmb _ 𝕄) (go d q X I c i) := by unfold go; infer_instance
instance td_storable (c : Fin 2) (i : Fin 16) : BI.Storable (upEmb : UEmb _ 𝕄) (td d q X I c i) := by unfold td; infer_instance

def CallIn : Prop :=
  iprop((xLoc d ↦{q} X) ∗ (iLoc d ↦{fullShare} I) ∗ ∃ f, zLoc d ↦{fullShare} f)
    ⊢ (|={Set.univ}=> bigSep Finset.univ fun c : Fin 2 => st d q X I c : sProp 𝕄)

def CallOut : Prop :=
  (bigSep Finset.univ fun c : Fin 2 => dn d q X I c : sProp 𝕄)
    ⊢ iprop((xLoc d ↦{q} X) ∗ (iLoc d ↦{fullShare} I) ∗ zLoc d ↦{fullShare} gath d X I)

def VecSplit0 (c : Fin 2) : Prop :=
  st d q X I c ⊢ (|={Set.univ}=> iprop((bigSep Finset.univ fun i : Fin 16 => go d q X I c i)
      ∗ ((bigSep Finset.univ fun i : Fin 16 => td d q X I c i) -∗ dn d q X I c)) : sProp 𝕄)

end Cert.Proof.KI.Sc1

end
-- ==== Proof.ScSplit1.lean ====
import proofs.«212107_g53927609368716_cont_9to1_m_409_29_alg».proof.Proof.ScCall1Defs
import proofs.«212107_g53927609368716_cont_9to1_m_409_29_alg».proof.Proof.ScWorkers

noncomputable section

namespace Cert.Proof.KI.Sc1

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode

variable {F : FTy → Type} [FloatOps F] [Named F] [Cert.KernelIdeal.Facts]

local notation "𝕄" => MT nD τ sig (HIx 5) (Elt F) ℕ (UU) ℕ

variable (d : Dev nD)

variable (q : PosShare TreeShare) (X : Buf (Elt F) (xLoc d)) (I : Buf (Elt F) (iLoc d))

-- The table is dealt by halves, the index words by the workers' rows; the third factor rides along.
theorem deal (Z : Fin 2 → sProp 𝕄) :
    (bigSep Finset.univ fun c : Fin 2 => iprop((xLoc d ↦{qCore q c} X)
        ∗ (bigSep Finset.univ fun i : Fin 16 => iLoc d ↦[iRows (wid c i)]{fullShare} I) ∗ Z c) : sProp 𝕄)
      = iprop((xLoc d ↦{q} X) ∗ (iLoc d ↦{fullShare} I) ∗ bigSep Finset.univ Z) := by
  have h : (xLoc d ↦{q} X : sProp 𝕄) ⊣⊢ _ := pointsTo_share (PosShare.mem_left_op_right q)
  rw [bigSep_sep', bigSep_sep', ← ScWorkers.pts_rows wid (fun _ _ => rfl) (ℓ := iLoc d) hdivI iRows (fun _ => View.set_slice_whole _ _), bigSep_univ_two,
    BI.Entails.antisymm h.1 h.2] <;> rfl

theorem call_in : CallIn d q X I := by
  unfold CallIn st
  rw [deal]
  iintro ⟨Hx, Hi, ⟨%f, Hz⟩⟩
  imodintro
  isplitl [Hx]; · iexact Hx
  isplitl [Hi]; · iexact Hi
  iapply ((Entails.of_eq (ScWorkers.pts_rows wid (fun _ _ => rfl) (ℓ := zLoc d) hdivZ zRows (fun _ => View.set_slice_whole _ _) fullShare f)).trans
    (bigSep_mono fun c _ => bigSep_mono fun i _ => BIClass.exists_intro (PROP := sProp 𝕄) f))
  iexact Hz

theorem call_out : CallOut d q X I := by
  unfold CallOut dn
  exact Entails.of_eq ((deal d q X I _).trans
    (by rw [← ScWorkers.pts_rows wid (fun _ _ => rfl) (ℓ := zLoc d) hdivZ zRows fun _ => View.set_slice_whole _ _]))

-- A SparseCore's half of the table is sixteen read tokens and a remainder, which it keeps until the tokens are back.
theorem vecSplit0 (c : Fin 2) : VecSplit0 d q X I c := by
  unfold VecSplit0 st dn go td
  have h : (xLoc d ↦{qCore q c} X : sProp 𝕄) ⊣⊢ _ := Transfers.pointsTo_toks (qCore q c) 16
  rw [bigSep_sep', bigSep_sep', bigSep_sep', bigSep_sep', BI.Entails.antisymm h.1 h.2]
  iintro ⟨⟨Hr, Ht⟩, H⟩
  imodintro
  isplitl [Ht H]
  · isplitl [Ht] <;> iassumption
  iintro ⟨Ht, H⟩
  isplitr [H]
  · isplitl [Hr] <;> iassumption
  iexact H

end Cert.Proof.KI.Sc1

end
-- ==== Proof.ScCall2Defs.lean ====
import proofs.«212107_g53927609368716_cont_9to1_m_409_29_alg».proof.Proof.Setup
import Idealize.ShloMosaic.Lib.Transfers
import Idealize.ShloMosaic.Lib.ValueIdx

noncomputable section

namespace Cert.Proof.KI.Sc2

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F] [Cert.KernelIdeal.Facts]

local notation "𝕄" => MT nD τ sig (HIx 5) (Elt F) ℕ (UU) ℕ

variable (d : Dev nD)

abbrev iLoc : Loc nD τ sig := (SparseCore.T d).loc main_v16

abbrev zLoc : Loc nD τ sig := (SparseCore.T d).loc main_v17

abbrev xW : Memref sig .scVector .hbm S10000x128 .f32 := Memref.whole main_arg0_scv
abbrev iW : Memref sig .scVector .hbm S32x25x80 .i32 := Memref.whole main_v16_scv
abbrev zW : Memref sig .scVector .hbm S64000x128 .f32 := Memref.whole main_v17_scv

def gath (X : Buf (Elt F) (xLoc d)) (I : Buf (Elt F) (iLoc d)) : Buf (Elt F) (zLoc d) :=
  fun e : S64000x128.Idx =>
    X (ix2 (n0 := 10000) (n1 := 128)
      ⟨(I (ix3 (n0 := 32) (n1 := 25) (n2 := 80) ⟨(e 0).val / 2000, by have := (e 0).isLt; simp at this; omega⟩
          ⟨(e 0).val / 80 % 25, Nat.mod_lt _ (by decide)⟩ ⟨(e 0).val % 80, Nat.mod_lt _ (by decide)⟩)).toNat % 10000,
        Nat.mod_lt _ (by decide)⟩ (e 1))

def IdxOK (I : Buf (Elt F) (iLoc d)) : Prop := ∀ e, (I e).toNat < 10000

def wid (c : Fin 2) (i : Fin 16) : Fin 32 := ⟨2 * i.val + c.val, by omega⟩

theorem hdivI : 32 ∣ S32x25x80.size 0 := ⟨1, rfl⟩
theorem hdivZ : 32 ∣ S64000x128.size 0 := ⟨2000, rfl⟩

abbrev iPart (w : Fin 32) : Rect S32x25x80 := Rect.part (s := S32x25x80) (a₀ := 0) hdivI w

abbrev zPart (w : Fin 32) : Rect S64000x128 := Rect.part (s := S64000x128) (a₀ := 0) hdivZ w
abbrev iRows (w : Fin 32) : Finset S32x25x80.Idx := ((iW : Memref sig .scVector .hbm S32x25x80 .i32).view.slice (iPart w)).set
abbrev zRows (w : Fin 32) : Finset S64000x128.Idx := ((zW : Memref sig .scVector .hbm S64000x128 .f32).view.slice (zPart w)).set

def qCore (q : PosShare TreeShare) (c : Fin 2) : PosShare TreeShare := if c.val = 0 then q.left else q.right

abbrev qTile (q : PosShare TreeShare) (c : Fin 2) (i : Fin 16) : PosShare TreeShare := Transfers.shareTok (qCore q c) 16 i

variable (q : PosShare TreeShare) (X : Buf (Elt F) (xLoc d)) (I : Buf (Elt F) (iLoc d))

def st (c : Fin 2) : sProp 𝕄 :=
  iprop((xLoc d ↦{qCore q c} X) ∗ (bigSep Finset.univ fun i : Fin 16 => iLoc d ↦[iRows (wid c i)]{fullShare} I)
    ∗ bigSep Finset.univ fun i : Fin 16 => iprop(∃ f, zLoc d ↦[zRows (wid c i)]{fullShare} f))

def dn (c : Fin 2) : sProp 𝕄 :=
  iprop((xLoc d ↦{qCore q c} X) ∗ (bigSep Finset.univ fun i : Fin 16 => iLoc d ↦[iRows (wid c i)]{fullShare} I)
    ∗ bigSep Finset.univ fun i : Fin 16 => zLoc d ↦[zRows (wid c i)]{fullShare} gath d X I)

def go (c : Fin 2) (i : Fin 16) : sProp 𝕄 :=
  iprop((xLoc d ↦{qTile q c i} X) ∗ (iLoc d ↦[iRows (wid c i)]{fullShare} I) ∗ ∃ f, zLoc d ↦[zRows (wid c i)]{fullShare} f)

def td (c : Fin 2) (i : Fin 16) : sProp 𝕄 :=
  iprop((xLoc d ↦{qTile q c i} X) ∗ (iLoc d ↦[iRows (wid c i)]{fullShare} I) ∗ zLoc d ↦[zRows (wid c i)]{fullShare} gath d X I)

instance st_storable (c : Fin 2) : BI.Storable (upEmb : UEmb _ 𝕄) (st d q X I c) := by unfold st; infer_instance
instance dn_storable (c : Fin 2) : BI.Storable (upEmb : UEmb _ 𝕄) (dn d q X I c) := by unfold dn; infer_instance
instance go_storable (c : Fin 2) (i : Fin 16) : BI.Storable (upEmb : UEmb _ 𝕄) (go d q X I c i) := by unfold go; infer_instance
instance td_storable (c : Fin 2) (i : Fin 16) : BI.Storable (upEmb : UEmb _ 𝕄) (td d q X I c i) := by unfold td; infer_instance

def CallIn : Prop :=
  iprop((xLoc d ↦{q} X) ∗ (iLoc d ↦{fullShare} I) ∗ ∃ f, zLoc d ↦{fullShare} f)
    ⊢ (|={Set.univ}=> bigSep Finset.univ fun c : Fin 2 => st d q X I c : sProp 𝕄)

def CallOut : Prop :=
  (bigSep Finset.univ fun c : Fin 2 => dn d q X I c : sProp 𝕄)
    ⊢ iprop((xLoc d ↦{q} X) ∗ (iLoc d ↦{fullShare} I) ∗ zLoc d ↦{fullShare} gath d X I)

def VecSplit0 (c : Fin 2) : Prop :=
  st d q X I c ⊢ (|={Set.univ}=> iprop((bigSep Finset.univ fun i : Fin 16 => go d q X I c i)
      ∗ ((bigSep Finset.univ fun i : Fin 16 => td d q X I c i) -∗ dn d q X I c)) : sProp 𝕄)

end Cert.Proof.KI.Sc2

end
-- ==== Proof.ScSplit2.lean ====
import proofs.«212107_g53927609368716_cont_9to1_m_409_29_alg».proof.Proof.ScCall2Defs
import proofs.«212107_g53927609368716_cont_9to1_m_409_29_alg».proof.Proof.ScWorkers

noncomputable section

namespace Cert.Proof.KI.Sc2

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode

variable {F : FTy → Type} [FloatOps F] [Named F] [Cert.KernelIdeal.Facts]

local notation "𝕄" => MT nD τ sig (HIx 5) (Elt F) ℕ (UU) ℕ

variable (d : Dev nD)

variable (q : PosShare TreeShare) (X : Buf (Elt F) (xLoc d)) (I : Buf (Elt F) (iLoc d))

-- The table is dealt by halves, the index words by the workers' rows; the third factor rides along.
theorem deal (Z : Fin 2 → sProp 𝕄) :
    (bigSep Finset.univ fun c : Fin 2 => iprop((xLoc d ↦{qCore q c} X)
        ∗ (bigSep Finset.univ fun i : Fin 16 => iLoc d ↦[iRows (wid c i)]{fullShare} I) ∗ Z c) : sProp 𝕄)
      = iprop((xLoc d ↦{q} X) ∗ (iLoc d ↦{fullShare} I) ∗ bigSep Finset.univ Z) := by
  have h : (xLoc d ↦{q} X : sProp 𝕄) ⊣⊢ _ := pointsTo_share (PosShare.mem_left_op_right q)
  rw [bigSep_sep', bigSep_sep', ← ScWorkers.pts_rows wid (fun _ _ => rfl) (ℓ := iLoc d) hdivI iRows (fun _ => View.set_slice_whole _ _), bigSep_univ_two,
    BI.Entails.antisymm h.1 h.2] <;> rfl

theorem call_in : CallIn d q X I := by
  unfold CallIn st
  rw [deal]
  iintro ⟨Hx, Hi, ⟨%f, Hz⟩⟩
  imodintro
  isplitl [Hx]; · iexact Hx
  isplitl [Hi]; · iexact Hi
  iapply ((Entails.of_eq (ScWorkers.pts_rows wid (fun _ _ => rfl) (ℓ := zLoc d) hdivZ zRows (fun _ => View.set_slice_whole _ _) fullShare f)).trans
    (bigSep_mono fun c _ => bigSep_mono fun i _ => BIClass.exists_intro (PROP := sProp 𝕄) f))
  iexact Hz

theorem call_out : CallOut d q X I := by
  unfold CallOut dn
  exact Entails.of_eq ((deal d q X I _).trans
    (by rw [← ScWorkers.pts_rows wid (fun _ _ => rfl) (ℓ := zLoc d) hdivZ zRows fun _ => View.set_slice_whole _ _]))

-- A SparseCore's half of the table is sixteen read tokens and a remainder, which it keeps until the tokens are back.
theorem vecSplit0 (c : Fin 2) : VecSplit0 d q X I c := by
  unfold VecSplit0 st dn go td
  have h : (xLoc d ↦{qCore q c} X : sProp 𝕄) ⊣⊢ _ := Transfers.pointsTo_toks (qCore q c) 16
  rw [bigSep_sep', bigSep_sep', bigSep_sep', bigSep_sep', BI.Entails.antisymm h.1 h.2]
  iintro ⟨⟨Hr, Ht⟩, H⟩
  imodintro
  isplitl [Ht H]
  · isplitl [Ht] <;> iassumption
  iintro ⟨Ht, H⟩
  isplitr [H]
  · isplitl [Hr] <;> iassumption
  iexact H

end Cert.Proof.KI.Sc2

end
-- ==== Proof.ScCall3Defs.lean ====
import proofs.«212107_g53927609368716_cont_9to1_m_409_29_alg».proof.Proof.Setup
import Idealize.ShloMosaic.Lib.Transfers
import Idealize.ShloMosaic.Lib.ValueIdx

noncomputable section

namespace Cert.Proof.KI.Sc3

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F] [Cert.KernelIdeal.Facts]

local notation "𝕄" => MT nD τ sig (HIx 5) (Elt F) ℕ (UU) ℕ

variable (d : Dev nD)

abbrev iLoc : Loc nD τ sig := (SparseCore.T d).loc main_v21

abbrev zLoc : Loc nD τ sig := (SparseCore.T d).loc main_v22

abbrev xW : Memref sig .scVector .hbm S10000x128 .f32 := Memref.whole main_arg0_scv
abbrev iW : Memref sig .scVector .hbm S32x25x80 .i32 := Memref.whole main_v21_scv
abbrev zW : Memref sig .scVector .hbm S64000x128 .f32 := Memref.whole main_v22_scv

def gath (X : Buf (Elt F) (xLoc d)) (I : Buf (Elt F) (iLoc d)) : Buf (Elt F) (zLoc d) :=
  fun e : S64000x128.Idx =>
    X (ix2 (n0 := 10000) (n1 := 128)
      ⟨(I (ix3 (n0 := 32) (n1 := 25) (n2 := 80) ⟨(e 0).val / 2000, by have := (e 0).isLt; simp at this; omega⟩
          ⟨(e 0).val / 80 % 25, Nat.mod_lt _ (by decide)⟩ ⟨(e 0).val % 80, Nat.mod_lt _ (by decide)⟩)).toNat % 10000,
        Nat.mod_lt _ (by decide)⟩ (e 1))

def IdxOK (I : Buf (Elt F) (iLoc d)) : Prop := ∀ e, (I e).toNat < 10000

def wid (c : Fin 2) (i : Fin 16) : Fin 32 := ⟨2 * i.val + c.val, by omega⟩

theorem hdivI : 32 ∣ S32x25x80.size 0 := ⟨1, rfl⟩
theorem hdivZ : 32 ∣ S64000x128.size 0 := ⟨2000, rfl⟩

abbrev iPart (w : Fin 32) : Rect S32x25x80 := Rect.part (s := S32x25x80) (a₀ := 0) hdivI w

abbrev zPart (w : Fin 32) : Rect S64000x128 := Rect.part (s := S64000x128) (a₀ := 0) hdivZ w
abbrev iRows (w : Fin 32) : Finset S32x25x80.Idx := ((iW : Memref sig .scVector .hbm S32x25x80 .i32).view.slice (iPart w)).set
abbrev zRows (w : Fin 32) : Finset S64000x128.Idx := ((zW : Memref sig .scVector .hbm S64000x128 .f32).view.slice (zPart w)).set

def qCore (q : PosShare TreeShare) (c : Fin 2) : PosShare TreeShare := if c.val = 0 then q.left else q.right

abbrev qTile (q : PosShare TreeShare) (c : Fin 2) (i : Fin 16) : PosShare TreeShare := Transfers.shareTok (qCore q c) 16 i

variable (q : PosShare TreeShare) (X : Buf (Elt F) (xLoc d)) (I : Buf (Elt F) (iLoc d))

def st (c : Fin 2) : sProp 𝕄 :=
  iprop((xLoc d ↦{qCore q c} X) ∗ (bigSep Finset.univ fun i : Fin 16 => iLoc d ↦[iRows (wid c i)]{fullShare} I)
    ∗ bigSep Finset.univ fun i : Fin 16 => iprop(∃ f, zLoc d ↦[zRows (wid c i)]{fullShare} f))

def dn (c : Fin 2) : sProp 𝕄 :=
  iprop((xLoc d ↦{qCore q c} X) ∗ (bigSep Finset.univ fun i : Fin 16 => iLoc d ↦[iRows (wid c i)]{fullShare} I)
    ∗ bigSep Finset.univ fun i : Fin 16 => zLoc d ↦[zRows (wid c i)]{fullShare} gath d X I)

def go (c : Fin 2) (i : Fin 16) : sProp 𝕄 :=
  iprop((xLoc d ↦{qTile q c i} X) ∗ (iLoc d ↦[iRows (wid c i)]{fullShare} I) ∗ ∃ f, zLoc d ↦[zRows (wid c i)]{fullShare} f)

def td (c : Fin 2) (i : Fin 16) : sProp 𝕄 :=
  iprop((xLoc d ↦{qTile q c i} X) ∗ (iLoc d ↦[iRows (wid c i)]{fullShare} I) ∗ zLoc d ↦[zRows (wid c i)]{fullShare} gath d X I)

instance st_storable (c : Fin 2) : BI.Storable (upEmb : UEmb _ 𝕄) (st d q X I c) := by unfold st; infer_instance
instance dn_storable (c : Fin 2) : BI.Storable (upEmb : UEmb _ 𝕄) (dn d q X I c) := by unfold dn; infer_instance
instance go_storable (c : Fin 2) (i : Fin 16) : BI.Storable (upEmb : UEmb _ 𝕄) (go d q X I c i) := by unfold go; infer_instance
instance td_storable (c : Fin 2) (i : Fin 16) : BI.Storable (upEmb : UEmb _ 𝕄) (td d q X I c i) := by unfold td; infer_instance

def CallIn : Prop :=
  iprop((xLoc d ↦{q} X) ∗ (iLoc d ↦{fullShare} I) ∗ ∃ f, zLoc d ↦{fullShare} f)
    ⊢ (|={Set.univ}=> bigSep Finset.univ fun c : Fin 2 => st d q X I c : sProp 𝕄)

def CallOut : Prop :=
  (bigSep Finset.univ fun c : Fin 2 => dn d q X I c : sProp 𝕄)
    ⊢ iprop((xLoc d ↦{q} X) ∗ (iLoc d ↦{fullShare} I) ∗ zLoc d ↦{fullShare} gath d X I)

def VecSplit0 (c : Fin 2) : Prop :=
  st d q X I c ⊢ (|={Set.univ}=> iprop((bigSep Finset.univ fun i : Fin 16 => go d q X I c i)
      ∗ ((bigSep Finset.univ fun i : Fin 16 => td d q X I c i) -∗ dn d q X I c)) : sProp 𝕄)

end Cert.Proof.KI.Sc3

end
-- ==== Proof.ScSplit3.lean ====
import proofs.«212107_g53927609368716_cont_9to1_m_409_29_alg».proof.Proof.ScCall3Defs
import proofs.«212107_g53927609368716_cont_9to1_m_409_29_alg».proof.Proof.ScWorkers

noncomputable section

namespace Cert.Proof.KI.Sc3

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode

variable {F : FTy → Type} [FloatOps F] [Named F] [Cert.KernelIdeal.Facts]

local notation "𝕄" => MT nD τ sig (HIx 5) (Elt F) ℕ (UU) ℕ

variable (d : Dev nD)

variable (q : PosShare TreeShare) (X : Buf (Elt F) (xLoc d)) (I : Buf (Elt F) (iLoc d))

-- The table is dealt by halves, the index words by the workers' rows; the third factor rides along.
theorem deal (Z : Fin 2 → sProp 𝕄) :
    (bigSep Finset.univ fun c : Fin 2 => iprop((xLoc d ↦{qCore q c} X)
        ∗ (bigSep Finset.univ fun i : Fin 16 => iLoc d ↦[iRows (wid c i)]{fullShare} I) ∗ Z c) : sProp 𝕄)
      = iprop((xLoc d ↦{q} X) ∗ (iLoc d ↦{fullShare} I) ∗ bigSep Finset.univ Z) := by
  have h : (xLoc d ↦{q} X : sProp 𝕄) ⊣⊢ _ := pointsTo_share (PosShare.mem_left_op_right q)
  rw [bigSep_sep', bigSep_sep', ← ScWorkers.pts_rows wid (fun _ _ => rfl) (ℓ := iLoc d) hdivI iRows (fun _ => View.set_slice_whole _ _), bigSep_univ_two,
    BI.Entails.antisymm h.1 h.2] <;> rfl

theorem call_in : CallIn d q X I := by
  unfold CallIn st
  rw [deal]
  iintro ⟨Hx, Hi, ⟨%f, Hz⟩⟩
  imodintro
  isplitl [Hx]; · iexact Hx
  isplitl [Hi]; · iexact Hi
  iapply ((Entails.of_eq (ScWorkers.pts_rows wid (fun _ _ => rfl) (ℓ := zLoc d) hdivZ zRows (fun _ => View.set_slice_whole _ _) fullShare f)).trans
    (bigSep_mono fun c _ => bigSep_mono fun i _ => BIClass.exists_intro (PROP := sProp 𝕄) f))
  iexact Hz

theorem call_out : CallOut d q X I := by
  unfold CallOut dn
  exact Entails.of_eq ((deal d q X I _).trans
    (by rw [← ScWorkers.pts_rows wid (fun _ _ => rfl) (ℓ := zLoc d) hdivZ zRows fun _ => View.set_slice_whole _ _]))

-- A SparseCore's half of the table is sixteen read tokens and a remainder, which it keeps until the tokens are back.
theorem vecSplit0 (c : Fin 2) : VecSplit0 d q X I c := by
  unfold VecSplit0 st dn go td
  have h : (xLoc d ↦{qCore q c} X : sProp 𝕄) ⊣⊢ _ := Transfers.pointsTo_toks (qCore q c) 16
  rw [bigSep_sep', bigSep_sep', bigSep_sep', bigSep_sep', BI.Entails.antisymm h.1 h.2]
  iintro ⟨⟨Hr, Ht⟩, H⟩
  imodintro
  isplitl [Ht H]
  · isplitl [Ht] <;> iassumption
  iintro ⟨Ht, H⟩
  isplitr [H]
  · isplitl [Hr] <;> iassumption
  iexact H

end Cert.Proof.KI.Sc3

end
-- ==== Proof.ScCall4Defs.lean ====
import proofs.«212107_g53927609368716_cont_9to1_m_409_29_alg».proof.Proof.Setup
import Idealize.ShloMosaic.Lib.Transfers
import Idealize.ShloMosaic.Lib.ValueIdx

noncomputable section

namespace Cert.Proof.KI.Sc4

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F] [Cert.KernelIdeal.Facts]

local notation "𝕄" => MT nD τ sig (HIx 5) (Elt F) ℕ (UU) ℕ

variable (d : Dev nD)

abbrev iLoc : Loc nD τ sig := (SparseCore.T d).loc main_v26

abbrev zLoc : Loc nD τ sig := (SparseCore.T d).loc main_v27

abbrev xW : Memref sig .scVector .hbm S10000x128 .f32 := Memref.whole main_arg0_scv
abbrev iW : Memref sig .scVector .hbm S32x25x80 .i32 := Memref.whole main_v26_scv
abbrev zW : Memref sig .scVector .hbm S64000x128 .f32 := Memref.whole main_v27_scv

def gath (X : Buf (Elt F) (xLoc d)) (I : Buf (Elt F) (iLoc d)) : Buf (Elt F) (zLoc d) :=
  fun e : S64000x128.Idx =>
    X (ix2 (n0 := 10000) (n1 := 128)
      ⟨(I (ix3 (n0 := 32) (n1 := 25) (n2 := 80) ⟨(e 0).val / 2000, by have := (e 0).isLt; simp at this; omega⟩
          ⟨(e 0).val / 80 % 25, Nat.mod_lt _ (by decide)⟩ ⟨(e 0).val % 80, Nat.mod_lt _ (by decide)⟩)).toNat % 10000,
        Nat.mod_lt _ (by decide)⟩ (e 1))

def IdxOK (I : Buf (Elt F) (iLoc d)) : Prop := ∀ e, (I e).toNat < 10000

def wid (c : Fin 2) (i : Fin 16) : Fin 32 := ⟨2 * i.val + c.val, by omega⟩

theorem hdivI : 32 ∣ S32x25x80.size 0 := ⟨1, rfl⟩
theorem hdivZ : 32 ∣ S64000x128.size 0 := ⟨2000, rfl⟩

abbrev iPart (w : Fin 32) : Rect S32x25x80 := Rect.part (s := S32x25x80) (a₀ := 0) hdivI w

abbrev zPart (w : Fin 32) : Rect S64000x128 := Rect.part (s := S64000x128) (a₀ := 0) hdivZ w
abbrev iRows (w : Fin 32) : Finset S32x25x80.Idx := ((iW : Memref sig .scVector .hbm S32x25x80 .i32).view.slice (iPart w)).set
abbrev zRows (w : Fin 32) : Finset S64000x128.Idx := ((zW : Memref sig .scVector .hbm S64000x128 .f32).view.slice (zPart w)).set

def qCore (q : PosShare TreeShare) (c : Fin 2) : PosShare TreeShare := if c.val = 0 then q.left else q.right

abbrev qTile (q : PosShare TreeShare) (c : Fin 2) (i : Fin 16) : PosShare TreeShare := Transfers.shareTok (qCore q c) 16 i

variable (q : PosShare TreeShare) (X : Buf (Elt F) (xLoc d)) (I : Buf (Elt F) (iLoc d))

def st (c : Fin 2) : sProp 𝕄 :=
  iprop((xLoc d ↦{qCore q c} X) ∗ (bigSep Finset.univ fun i : Fin 16 => iLoc d ↦[iRows (wid c i)]{fullShare} I)
    ∗ bigSep Finset.univ fun i : Fin 16 => iprop(∃ f, zLoc d ↦[zRows (wid c i)]{fullShare} f))

def dn (c : Fin 2) : sProp 𝕄 :=
  iprop((xLoc d ↦{qCore q c} X) ∗ (bigSep Finset.univ fun i : Fin 16 => iLoc d ↦[iRows (wid c i)]{fullShare} I)
    ∗ bigSep Finset.univ fun i : Fin 16 => zLoc d ↦[zRows (wid c i)]{fullShare} gath d X I)

def go (c : Fin 2) (i : Fin 16) : sProp 𝕄 :=
  iprop((xLoc d ↦{qTile q c i} X) ∗ (iLoc d ↦[iRows (wid c i)]{fullShare} I) ∗ ∃ f, zLoc d ↦[zRows (wid c i)]{fullShare} f)

def td (c : Fin 2) (i : Fin 16) : sProp 𝕄 :=
  iprop((xLoc d ↦{qTile q c i} X) ∗ (iLoc d ↦[iRows (wid c i)]{fullShare} I) ∗ zLoc d ↦[zRows (wid c i)]{fullShare} gath d X I)

instance st_storable (c : Fin 2) : BI.Storable (upEmb : UEmb _ 𝕄) (st d q X I c) := by unfold st; infer_instance
instance dn_storable (c : Fin 2) : BI.Storable (upEmb : UEmb _ 𝕄) (dn d q X I c) := by unfold dn; infer_instance
instance go_storable (c : Fin 2) (i : Fin 16) : BI.Storable (upEmb : UEmb _ 𝕄) (go d q X I c i) := by unfold go; infer_instance
instance td_storable (c : Fin 2) (i : Fin 16) : BI.Storable (upEmb : UEmb _ 𝕄) (td d q X I c i) := by unfold td; infer_instance

def CallIn : Prop :=
  iprop((xLoc d ↦{q} X) ∗ (iLoc d ↦{fullShare} I) ∗ ∃ f, zLoc d ↦{fullShare} f)
    ⊢ (|={Set.univ}=> bigSep Finset.univ fun c : Fin 2 => st d q X I c : sProp 𝕄)

def CallOut : Prop :=
  (bigSep Finset.univ fun c : Fin 2 => dn d q X I c : sProp 𝕄)
    ⊢ iprop((xLoc d ↦{q} X) ∗ (iLoc d ↦{fullShare} I) ∗ zLoc d ↦{fullShare} gath d X I)

def VecSplit0 (c : Fin 2) : Prop :=
  st d q X I c ⊢ (|={Set.univ}=> iprop((bigSep Finset.univ fun i : Fin 16 => go d q X I c i)
      ∗ ((bigSep Finset.univ fun i : Fin 16 => td d q X I c i) -∗ dn d q X I c)) : sProp 𝕄)

end Cert.Proof.KI.Sc4

end
-- ==== Proof.ScSplit4.lean ====
import proofs.«212107_g53927609368716_cont_9to1_m_409_29_alg».proof.Proof.ScCall4Defs
import proofs.«212107_g53927609368716_cont_9to1_m_409_29_alg».proof.Proof.ScWorkers

noncomputable section

namespace Cert.Proof.KI.Sc4

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode

variable {F : FTy → Type} [FloatOps F] [Named F] [Cert.KernelIdeal.Facts]

local notation "𝕄" => MT nD τ sig (HIx 5) (Elt F) ℕ (UU) ℕ

variable (d : Dev nD)

variable (q : PosShare TreeShare) (X : Buf (Elt F) (xLoc d)) (I : Buf (Elt F) (iLoc d))

-- The table is dealt by halves, the index words by the workers' rows; the third factor rides along.
theorem deal (Z : Fin 2 → sProp 𝕄) :
    (bigSep Finset.univ fun c : Fin 2 => iprop((xLoc d ↦{qCore q c} X)
        ∗ (bigSep Finset.univ fun i : Fin 16 => iLoc d ↦[iRows (wid c i)]{fullShare} I) ∗ Z c) : sProp 𝕄)
      = iprop((xLoc d ↦{q} X) ∗ (iLoc d ↦{fullShare} I) ∗ bigSep Finset.univ Z) := by
  have h : (xLoc d ↦{q} X : sProp 𝕄) ⊣⊢ _ := pointsTo_share (PosShare.mem_left_op_right q)
  rw [bigSep_sep', bigSep_sep', ← ScWorkers.pts_rows wid (fun _ _ => rfl) (ℓ := iLoc d) hdivI iRows (fun _ => View.set_slice_whole _ _), bigSep_univ_two,
    BI.Entails.antisymm h.1 h.2] <;> rfl

theorem call_in : CallIn d q X I := by
  unfold CallIn st
  rw [deal]
  iintro ⟨Hx, Hi, ⟨%f, Hz⟩⟩
  imodintro
  isplitl [Hx]; · iexact Hx
  isplitl [Hi]; · iexact Hi
  iapply ((Entails.of_eq (ScWorkers.pts_rows wid (fun _ _ => rfl) (ℓ := zLoc d) hdivZ zRows (fun _ => View.set_slice_whole _ _) fullShare f)).trans
    (bigSep_mono fun c _ => bigSep_mono fun i _ => BIClass.exists_intro (PROP := sProp 𝕄) f))
  iexact Hz

theorem call_out : CallOut d q X I := by
  unfold CallOut dn
  exact Entails.of_eq ((deal d q X I _).trans
    (by rw [← ScWorkers.pts_rows wid (fun _ _ => rfl) (ℓ := zLoc d) hdivZ zRows fun _ => View.set_slice_whole _ _]))

-- A SparseCore's half of the table is sixteen read tokens and a remainder, which it keeps until the tokens are back.
theorem vecSplit0 (c : Fin 2) : VecSplit0 d q X I c := by
  unfold VecSplit0 st dn go td
  have h : (xLoc d ↦{qCore q c} X : sProp 𝕄) ⊣⊢ _ := Transfers.pointsTo_toks (qCore q c) 16
  rw [bigSep_sep', bigSep_sep', bigSep_sep', bigSep_sep', BI.Entails.antisymm h.1 h.2]
  iintro ⟨⟨Hr, Ht⟩, H⟩
  imodintro
  isplitl [Ht H]
  · isplitl [Ht] <;> iassumption
  iintro ⟨Ht, H⟩
  isplitr [H]
  · isplitl [Hr] <;> iassumption
  iexact H

end Cert.Proof.KI.Sc4

end
-- ==== Proof.Pay.lean ====
import proofs.«212107_g53927609368716_cont_9to1_m_409_29_alg».proof.Proof.ScSplit0
import proofs.«212107_g53927609368716_cont_9to1_m_409_29_alg».proof.Proof.ScSplit1
import proofs.«212107_g53927609368716_cont_9to1_m_409_29_alg».proof.Proof.ScSplit2
import proofs.«212107_g53927609368716_cont_9to1_m_409_29_alg».proof.Proof.ScSplit3
import proofs.«212107_g53927609368716_cont_9to1_m_409_29_alg».proof.Proof.ScSplit4

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [Cert.KernelIdeal.Facts]

local notation "𝕄" => MT nD τ sig (HIx 5) (Elt F) ℕ (UU) ℕ

theorem nCore_eq (q : Fin 5) : (K (F := F)).nCore q = 2 :=
  match q with | 0 | 1 | 2 | 3 | 4 => rfl
theorem nSub_eq (q : Fin 5) : (K (F := F)).nSub q = 16 :=
  match q with | 0 | 1 | 2 | 3 | 4 => rfl

theorem bigSep_cast {n k : ℕ} (h : n = k) (Φ : Fin k → sProp 𝕄) :
    (bigSep Finset.univ fun i : Fin n => Φ (Fin.cast h i)) = bigSep Finset.univ Φ := by
  subst h; rfl

theorem split_cast {n : ℕ} (h : n = 16) {st dn : sProp 𝕄} {go td : Fin 16 → sProp 𝕄}
    (H : st ⊢ (|={Set.univ}=> iprop((bigSep Finset.univ fun i : Fin 16 => go i) ∗ ((bigSep Finset.univ fun i : Fin 16 => td i) -∗ dn)) : sProp 𝕄)) :
    st ⊢ (|={Set.univ}=> iprop((bigSep Finset.univ fun i : Fin n => go (Fin.cast h i))
      ∗ ((bigSep Finset.univ fun i : Fin n => td (Fin.cast h i)) -∗ dn)) : sProp 𝕄) := by
  subst h; exact H

variable (m : (ℓ : Loc nD τ sig) → Buf (Elt F) ℓ)
variable (I0 : (d : Dev nD) → Buf (Elt F) (Sc0.iLoc d))
variable (I1 : (d : Dev nD) → Buf (Elt F) (Sc1.iLoc d))
variable (I2 : (d : Dev nD) → Buf (Elt F) (Sc2.iLoc d))
variable (I3 : (d : Dev nD) → Buf (Elt F) (Sc3.iLoc d))
variable (I4 : (d : Dev nD) → Buf (Elt F) (Sc4.iLoc d))

def P : (K (F := F)).Pay (nD := nD) (Val := Elt F) (Name := ℕ) (U := UU) where
  st := fun q d c => match q with
    | 0 => Sc0.st d fullShare (m (xLoc d)) (I0 d) (Fin.cast (nCore_eq 0) c)
    | 1 => Sc1.st d fullShare (m (xLoc d)) (I1 d) (Fin.cast (nCore_eq 1) c)
    | 2 => Sc2.st d fullShare (m (xLoc d)) (I2 d) (Fin.cast (nCore_eq 2) c)
    | 3 => Sc3.st d fullShare (m (xLoc d)) (I3 d) (Fin.cast (nCore_eq 3) c)
    | 4 => Sc4.st d fullShare (m (xLoc d)) (I4 d) (Fin.cast (nCore_eq 4) c)
  dn := fun q d c => match q with
    | 0 => Sc0.dn d fullShare (m (xLoc d)) (I0 d) (Fin.cast (nCore_eq 0) c)
    | 1 => Sc1.dn d fullShare (m (xLoc d)) (I1 d) (Fin.cast (nCore_eq 1) c)
    | 2 => Sc2.dn d fullShare (m (xLoc d)) (I2 d) (Fin.cast (nCore_eq 2) c)
    | 3 => Sc3.dn d fullShare (m (xLoc d)) (I3 d) (Fin.cast (nCore_eq 3) c)
    | 4 => Sc4.dn d fullShare (m (xLoc d)) (I4 d) (Fin.cast (nCore_eq 4) c)
  go := fun q d c i => match q with
    | 0 => Sc0.go d fullShare (m (xLoc d)) (I0 d) (Fin.cast (nCore_eq 0) c) (Fin.cast (nSub_eq 0) i)
    | 1 => Sc1.go d fullShare (m (xLoc d)) (I1 d) (Fin.cast (nCore_eq 1) c) (Fin.cast (nSub_eq 1) i)
    | 2 => Sc2.go d fullShare (m (xLoc d)) (I2 d) (Fin.cast (nCore_eq 2) c) (Fin.cast (nSub_eq 2) i)
    | 3 => Sc3.go d fullShare (m (xLoc d)) (I3 d) (Fin.cast (nCore_eq 3) c) (Fin.cast (nSub_eq 3) i)
    | 4 => Sc4.go d fullShare (m (xLoc d)) (I4 d) (Fin.cast (nCore_eq 4) c) (Fin.cast (nSub_eq 4) i)
  td := fun q d c i => match q with
    | 0 => Sc0.td d fullShare (m (xLoc d)) (I0 d) (Fin.cast (nCore_eq 0) c) (Fin.cast (nSub_eq 0) i)
    | 1 => Sc1.td d fullShare (m (xLoc d)) (I1 d) (Fin.cast (nCore_eq 1) c) (Fin.cast (nSub_eq 1) i)
    | 2 => Sc2.td d fullShare (m (xLoc d)) (I2 d) (Fin.cast (nCore_eq 2) c) (Fin.cast (nSub_eq 2) i)
    | 3 => Sc3.td d fullShare (m (xLoc d)) (I3 d) (Fin.cast (nCore_eq 3) c) (Fin.cast (nSub_eq 3) i)
    | 4 => Sc4.td d fullShare (m (xLoc d)) (I4 d) (Fin.cast (nCore_eq 4) c) (Fin.cast (nSub_eq 4) i)
  x := fun _ _ => iprop(emp)

-- Each field of `P` at a given call is that call's own payload, which is storable.
instance P_storable : (P (F := F) m I0 I1 I2 I3 I4).IsStorable where
  st q d c := match q with | 0 | 1 | 2 | 3 | 4 => by dsimp only [P]; infer_instance
  dn q d c := match q with | 0 | 1 | 2 | 3 | 4 => by dsimp only [P]; infer_instance
  go q d c i := match q with | 0 | 1 | 2 | 3 | 4 => by dsimp only [P]; infer_instance
  td q d c i := match q with | 0 | 1 | 2 | 3 | 4 => by dsimp only [P]; infer_instance

theorem P_x (q : Fin 5) (thr : Thread nD τ) : (P (F := F) m I0 I1 I2 I3 I4).x q thr = iprop(emp) := rfl

-- Each call's own split over sixteen tiles, read over the call's tile count.
theorem hvec : ∀ q, (K (F := F)).kind q = .scVector → (K (F := F)).VecSplit (P (F := F) m I0 I1 I2 I3 I4) q :=
  fun q _ => match q with
    | 0 => .of_plain fun d c => split_cast (nSub_eq 0) (Sc0.vecSplit0 d fullShare (m (xLoc d)) (I0 d) (Fin.cast (nCore_eq 0) c))
    | 1 => .of_plain fun d c => split_cast (nSub_eq 1) (Sc1.vecSplit0 d fullShare (m (xLoc d)) (I1 d) (Fin.cast (nCore_eq 1) c))
    | 2 => .of_plain fun d c => split_cast (nSub_eq 2) (Sc2.vecSplit0 d fullShare (m (xLoc d)) (I2 d) (Fin.cast (nCore_eq 2) c))
    | 3 => .of_plain fun d c => split_cast (nSub_eq 3) (Sc3.vecSplit0 d fullShare (m (xLoc d)) (I3 d) (Fin.cast (nCore_eq 3) c))
    | 4 => .of_plain fun d c => split_cast (nSub_eq 4) (Sc4.vecSplit0 d fullShare (m (xLoc d)) (I4 d) (Fin.cast (nCore_eq 4) c))

end Cert.Proof.KI

end
-- ==== Proof.Spec.lean ====
import Idealize.ShloMosaic.PureOps.Ideal

noncomputable section

namespace Cert.Routing

open Idealize.ShloMosaic

def eps : EReal := Ideal.ofBits .f32 0x2B8CBCCC#32

-- the square of `eps`
def epsSq : EReal := ((5316911940649 / 5316911983139663491615228241121378304 : ℝ) : EReal)

def w32 : EReal := Ideal.ofBits .f32 0x3D000000#32

def one32 : EReal := Ideal.ofBits .f32 0x3F800000#32

def sumSq (v : Fin 128 → EReal) : EReal := ∑ k, v k * v k

-- a row times the reciprocal root of its clamped squared norm
def kNorm (v : Fin 128 → EReal) : Fin 128 → EReal := fun d => v d * Ideal.rsqrt (max (sumSq v) epsSq)

-- the squashed centre: `u · (‖u‖² · rsqrt (max ‖u‖² ε²) / (‖u‖² + 1))`
def kSquash (u : Fin 128 → EReal) : Fin 128 → EReal := fun d =>
  u d * Ideal.div (sumSq u * Ideal.rsqrt (max (sumSq u) epsSq)) (sumSq u + one32)

def dotRow (z : Fin 32 → Fin 128 → EReal) (c : Fin 128 → EReal) (m : Fin 32) : EReal := ∑ k, z m k * c k

-- the first round: the neighbours' sum with the uniform weight 1/32, plus the row
def kInit (z : Fin 32 → Fin 128 → EReal) (xn : Fin 128 → EReal) : Fin 128 → EReal := fun d =>
  (∑ m, z m d) * w32 + xn d

-- a later round: the neighbours weighted by the exponentials of their inner products with the squashed centre, over the sum of the weights, plus the row
def kStep (z : Fin 32 → Fin 128 → EReal) (xn u : Fin 128 → EReal) : Fin 128 → EReal := fun d =>
  Ideal.div (∑ m, Ideal.exp (dotRow z (kSquash u) m) * z m d) (∑ m, Ideal.exp (dotRow z (kSquash u) m)) + xn d

def kRow (Z : Fin 32 → Fin 128 → EReal) (x : Fin 128 → EReal) : Fin 128 → EReal :=
  kStep (fun m => kNorm (Z m)) (kNorm x) (kStep (fun m => kNorm (Z m)) (kNorm x) (kInit (fun m => kNorm (Z m)) (kNorm x)))

-- a row divided by its clamped norm
def rNorm (v : Fin 128 → EReal) : Fin 128 → EReal := fun d => Ideal.div (v d) (max (Ideal.sqrt (sumSq v)) eps)

-- the maximum of the scores, folded from `⊥` and taken once more against `⊥`
def rMax (p : Fin 32 → EReal) : EReal := max ⊥ (Finset.univ.fold max ⊥ p)

def rSoftmax (p : Fin 32 → EReal) : Fin 32 → EReal := fun m =>
  Ideal.div (Ideal.exp (p m - rMax p)) (0 + ∑ m', Ideal.exp (p m' - rMax p))

def rRound (z : Fin 32 → Fin 128 → EReal) (xn : Fin 128 → EReal) (p : Fin 32 → EReal) : Fin 128 → EReal := fun d =>
  (0 + ∑ m, z m d * rSoftmax p m) + xn d

-- the squashed centre: `(‖u‖² / (‖u‖² + 1)) · (u / max ‖u‖ ε)`
def rSquash (u : Fin 128 → EReal) : Fin 128 → EReal := fun d =>
  Ideal.div (Ideal.sqrt (sumSq u) * Ideal.sqrt (sumSq u)) (Ideal.sqrt (sumSq u) * Ideal.sqrt (sumSq u) + one32) * rNorm u d

def rRow (Z : Fin 32 → Fin 128 → EReal) (x : Fin 128 → EReal) : Fin 128 → EReal :=
  let z := fun m => rNorm (Z m)
  let xn := rNorm x
  let u0 := rRound z xn (fun _ => 0)
  let u1 := rRound z xn (dotRow z (rSquash u0))
  rRound z xn (dotRow z (rSquash u1))

-- the word `0` names the last row, a word `v` the row `v - 1`
def nbRow (v : BitVec 32) : Fin 10000 :=
  if v = 0#32 then ⟨9999, by decide⟩ else ⟨(v.toNat - 1) % 10000, Nat.mod_lt _ (by decide)⟩

-- row `n` is the routing of row `n` against the rows its 32 neighbour words name
def G (x : Fin 10000 → Fin 128 → EReal) (nb : Fin 10000 → Fin 32 → BitVec 32) : Fin 10000 → Fin 128 → EReal :=
  fun n d => kRow (fun m k => x (nbRow (nb n m)) k) (x n) d

end Cert.Routing

end
-- ==== Proof.PreFacts.lean ====
import proofs.«212107_g53927609368716_cont_9to1_m_409_29_alg».proof.Defs
import proofs.«212107_g53927609368716_cont_9to1_m_409_29_alg».proof.Proof.Gen.Pre_input_domain
import proofs.«212107_g53927609368716_cont_9to1_m_409_29_alg».proof.Proof.Spec
import Idealize.ShloMosaic.Lib.ReduceAll
import Idealize.ShloMosaic.Lib.StableHlo.Predicate
import Idealize.ShloMosaic.Lib.ValueIdx
import Idealize.ShloMosaic.Lib.IdealHost
import Idealize.ShloMosaic.Lib.Pipeline.Value

noncomputable section

namespace Cert.Proof.KI.Pre

open Idealize.ShloMosaic Idealize.ShloMosaic.ValueIdx

section Domain

open Cert.Pre_input_domain

variable [Cert.Pre_input_domain.Facts]

theorem subsingleton_S_ : Subsingleton S_.Idx := ⟨fun a b => funext fun d => d.elim0⟩

theorem word_range (a : BitVec 32) (h1 : IntOp.cmpi .sge a 0#32 = 1#1) (h2 : IntOp.cmpi .sle a 9999#32 = 1#1) :
    a.toNat ≤ 9999 := by
  simp only [IntOp.cmpi, StableHlo.Predicate.ofBool_eq_one_iff, BitVec.sle, decide_eq_true_eq] at h1 h2
  have h0 : (0#32 : BitVec 32).toInt = 0 := by decide
  have h9 : (9999#32 : BitVec 32).toInt = 9999 := by decide
  rw [h0] at h1
  rw [h9] at h2
  have hc := BitVec.toInt_eq_toNat_cond a
  have hlt := a.isLt
  split at hc <;> omega

theorem nb_range {F : FTy → Type} [FloatOps F] (X : FVec F S10000x128 .f32) (NB : IVec S10000x32 32)
    (h : Cert.Pre_input_domain.fn (F := F) X NB = fun _ => 1#1) (i : S10000x32.Idx) : (NB i).toNat ≤ 9999 := by
  have h0 := congrFun h ix0
  dsimp only [Cert.Pre_input_domain.fn] at h0
  obtain ⟨-, h2⟩ := IntOp.andi_eq_one.1 h0
  haveI := subsingleton_S_
  have e := Host.reduce_andi_all _ _ _ _ ix0 h2 i
  obtain ⟨e1, e2⟩ := IntOp.andi_eq_one.1 e
  exact word_range (NB i) e1 e2

theorem x_real (X : FVec Ideal S10000x128 .f32) (NB : IVec S10000x32 32)
    (h : Cert.Pre_input_domain.fn (F := Ideal) X NB = fun _ => 1#1) (i : S10000x128.Idx) :
    ∃ r : ℝ, X i = (r : EReal) := by
  have h0 := congrFun h ix0
  dsimp only [Cert.Pre_input_domain.fn] at h0
  obtain ⟨h1, -⟩ := IntOp.andi_eq_one.1 h0
  haveI := subsingleton_S_
  have e := Host.reduce_andi_all _ _ _ _ ix0 h1 i
  have e' : Ideal.cmp .olt (max (X i) (-(X i))) (Ideal.ofBits .f32 0x7F800000#32) = 1#1 := e
  have htop : Ideal.ofBits .f32 0x7F800000#32 = ⊤ := by simp [Ideal.ofBits, Ideal.ieee]
  rw [htop] at e'
  simp only [Ideal.cmp, StableHlo.Predicate.ofBool_eq_one_iff, decide_eq_true_eq] at e'
  have hx : X i ≠ ⊤ := fun hx => by rw [hx] at e'; simp at e'
  have hx' : X i ≠ ⊥ := fun hx => by rw [hx] at e'; simp at e'
  exact ⟨(X i).toReal, (EReal.coe_toReal hx hx').symm⟩

end Domain

section Index

open Cert.KernelIdeal

variable [Cert.KernelIdeal.Facts]

open Cert.KernelIdeal.Facts₀ Cert.KernelIdeal.Facts

def idxAll (NB : IVec S10000x32 32) : IVec S10000x32 32 :=
  select (cmpi .eq NB (broadcastInDim S10000x32 ![] bcast_S_S10000x32 (constantI S_ 32 0#32)))
    (broadcastInDim S10000x32 ![] bcast_S_S10000x32 (id (constantI S_ 32 9999#32)))
    (subi NB (broadcastInDim S10000x32 ![] bcast_S_S10000x32 (constantI S_ 32 1#32)))

def idxOf (NB : IVec S10000x32 32) : Fin 5 → IVec S32x25x80 32
  | 0 => shapeCast S32x25x80 (extractStridedSlice S2000x32 ![0, 0] (idxAll NB) slices_S10000x32_S2000x32_0_0)
      shapeCasts_S2000x32_S32x25x80
  | 1 => shapeCast S32x25x80 (extractStridedSlice S2000x32 ![2000, 0] (idxAll NB) slices_S10000x32_S2000x32_2000_0)
      shapeCasts_S2000x32_S32x25x80
  | 2 => shapeCast S32x25x80 (extractStridedSlice S2000x32 ![4000, 0] (idxAll NB) slices_S10000x32_S2000x32_4000_0)
      shapeCasts_S2000x32_S32x25x80
  | 3 => shapeCast S32x25x80 (extractStridedSlice S2000x32 ![6000, 0] (idxAll NB) slices_S10000x32_S2000x32_6000_0)
      shapeCasts_S2000x32_S32x25x80
  | 4 => shapeCast S32x25x80 (extractStridedSlice S2000x32 ![8000, 0] (idxAll NB) slices_S10000x32_S2000x32_8000_0)
      shapeCasts_S2000x32_S32x25x80

def rowOf (s : Fin 5) (w : Fin 32) (j : Fin 25) (t : Fin 80) : Fin 10000 :=
  ⟨2000 * s.val + ((25 * w.val + j.val) * 80 + t.val) / 32, by
    have := s.isLt; have := w.isLt; have := j.isLt; have := t.isLt; omega⟩

def colOf (w : Fin 32) (j : Fin 25) (t : Fin 80) : Fin 32 :=
  ⟨((25 * w.val + j.val) * 80 + t.val) % 32, Nat.mod_lt _ (by decide)⟩

theorem idxAll_apply (NB : IVec S10000x32 32) (i : S10000x32.Idx) :
    idxAll NB i = Scalar.select (IntOp.cmpi .eq (NB i) 0#32) 9999#32 (IntOp.subi (NB i) 1#32) := rfl

theorem band_apply (NB : IVec S10000x32 32) (o : Nat) (hs : S10000x32.Slices ![o, 0] S2000x32)
    (w : Fin 32) (j : Fin 25) (t : Fin 80) (r : Fin 10000)
    (hr : r.val = o + ((25 * w.val + j.val) * 80 + t.val) / 32) :
    shapeCast S32x25x80 (extractStridedSlice S2000x32 ![o, 0] (idxAll NB) hs) shapeCasts_S2000x32_S32x25x80 (ix3 w j t)
      = idxAll NB (ix2 r (colOf w j t)) := by
  have hw := w.isLt; have hj := j.isLt; have ht := t.isLt
  have hp : ((25 * w.val + j.val) * 80 + t.val) / 32 < 2000 := by omega
  refine (shapeCast_apply _ shapeCasts_S2000x32_S32x25x80 (ix3 w j t)
    (ix2 (⟨((25 * w.val + j.val) * 80 + t.val) / 32, hp⟩ : Fin 2000) (colOf w j t)) ?_).trans ?_
  · rw [Shape.rowMajor_val_two, Shape.rowMajor_val_three]
    show ((25 * w.val + j.val) * 80 + t.val) / 32 * 32 + ((25 * w.val + j.val) * 80 + t.val) % 32
      = (w.val * 25 + j.val) * 80 + t.val
    omega
  · refine extractStridedSlice_apply _ _ hs _ (ix2 r (colOf w j t)) fun a => ?_
    match a with
    | ⟨0, _⟩ => exact hr
    | ⟨1, _⟩ => show ((25 * w.val + j.val) * 80 + t.val) % 32 = 0 + ((25 * w.val + j.val) * 80 + t.val) % 32; omega

theorem idxOf_apply (NB : IVec S10000x32 32) (s : Fin 5) (w : Fin 32) (j : Fin 25) (t : Fin 80) :
    idxOf NB s (ix3 w j t) = idxAll NB (ix2 (rowOf s w j t) (colOf w j t)) := by
  match s with
  | ⟨0, _⟩ => exact band_apply NB 0 _ w j t _ (by show 2000 * 0 + _ = 0 + _; omega)
  | ⟨1, _⟩ => exact band_apply NB 2000 _ w j t _ (by show 2000 * 1 + _ = 2000 + _; omega)
  | ⟨2, _⟩ => exact band_apply NB 4000 _ w j t _ (by show 2000 * 2 + _ = 4000 + _; omega)
  | ⟨3, _⟩ => exact band_apply NB 6000 _ w j t _ (by show 2000 * 3 + _ = 6000 + _; omega)
  | ⟨4, _⟩ => exact band_apply NB 8000 _ w j t _ (by show 2000 * 4 + _ = 8000 + _; omega)

theorem gatherWord_toNat (v : BitVec 32) (hv : v.toNat ≤ 9999) :
    (Scalar.select (IntOp.cmpi .eq v 0#32) 9999#32 (IntOp.subi v 1#32)).toNat = (Cert.Routing.nbRow v).val := by
  unfold Cert.Routing.nbRow
  by_cases h0 : v = 0#32
  · rw [if_pos h0, StableHlo.Predicate.cmpi_eq_iff.2 h0, select_one]; rfl
  · have hc : IntOp.cmpi .eq v 0#32 = 0#1 := eq_zero_of_ne_one fun hc => h0 (StableHlo.Predicate.cmpi_eq_iff.1 hc)
    have hpos : 0 < v.toNat := by
      rcases Nat.eq_zero_or_pos v.toNat with hz | hz
      · exact absurd (BitVec.eq_of_toNat_eq (by rw [hz]; rfl)) h0
      · exact hz
    rw [if_neg h0, hc, select_zero]
    show (v - 1#32).toNat = (v.toNat - 1) % 10000
    rw [BitVec.toNat_sub]
    have hlt := v.isLt
    show (2 ^ 32 - (1#32 : BitVec 32).toNat + v.toNat) % 2 ^ 32 = (v.toNat - 1) % 10000
    have h1 : (1#32 : BitVec 32).toNat = 1 := rfl
    rw [h1]
    omega

theorem idxOf_toNat (NB : IVec S10000x32 32) (hNB : ∀ i, (NB i).toNat ≤ 9999) (s : Fin 5) (w : Fin 32) (j : Fin 25)
    (t : Fin 80) :
    (idxOf NB s (ix3 w j t)).toNat = (Cert.Routing.nbRow (NB (ix2 (rowOf s w j t) (colOf w j t)))).val := by
  rw [idxOf_apply, idxAll_apply]
  exact gatherWord_toNat _ (hNB _)

theorem idxOf_toNat' (NB : IVec S10000x32 32) (hNB : ∀ i, (NB i).toNat ≤ 9999) (s : Fin 5) (e : S32x25x80.Idx) :
    (idxOf NB s e).toNat
      = (Cert.Routing.nbRow (NB (ix2 (rowOf s (e 0) (e 1) (e 2)) (colOf (e 0) (e 1) (e 2))))).val := by
  exact (congrArg (fun i => (idxOf NB s i).toNat) (eq_ix3 e)).trans (idxOf_toNat NB hNB s (e 0) (e 1) (e 2))

theorem idxOf_lt' (NB : IVec S10000x32 32) (hNB : ∀ i, (NB i).toNat ≤ 9999) (s : Fin 5) (e : S32x25x80.Idx) :
    (idxOf NB s e).toNat < 10000 := by
  rw [idxOf_toNat' NB hNB]; exact Fin.isLt _

end Index

end Cert.Proof.KI.Pre

end
-- ==== Proof.Launch.lean ====
import proofs.«212107_g53927609368716_cont_9to1_m_409_29_alg».proof.Proof.Setup
import proofs.«212107_g53927609368716_cont_9to1_m_409_29_alg».proof.Proof.Gen.KernelIdeal.Launch
import proofs.«212107_g53927609368716_cont_9to1_m_409_29_alg».proof.Proof.Pay
import proofs.«212107_g53927609368716_cont_9to1_m_409_29_alg».proof.Proof.PreFacts
import Idealize.ShloMosaic.Lib.SparseCore.Launch
import Idealize.ShloMosaic.Lib.Pipeline.Kit
import Idealize.ShloMosaic.Lib.Pipeline.Sound
import Idealize.ShloMosaic.Lib.Tactic

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [Cert.KernelIdeal.Facts]

abbrev adm (p : Fin 5) : (pcfgs (F := F) p).Adm := (cfgs p).toPCfg_adm

def ghost (p : Fin 5) (c : Dev nD) : sProp (MM (F := F)) :=
  iprop(Pipeline.cellsGhost (Pipeline.pin (pcfgs (F := F)) adm) EP p c ∗ Pipeline.toksInit (Pipeline.pin (pcfgs (F := F)) adm) EP p c)

def G (d : Dev nD) : sProp (MM (F := F)) := bigSep Finset.univ fun p : Fin 5 => ghost p d

def uH : UH := initOf (K (F := F)).hsCells (K (F := F)).hsToks

def uP : UP := initOf (Pipeline.cells (nD := nD) (τ := τ) cfgs cellOf_inj) (Pipeline.launchToks (nD := nD) (τ := τ) cfgs cellOf_inj)

theorem fund_ghosts : (BI.own (EP (F := F) uP) : sProp (MM (F := F)))
    ⊢ iprop(|==> bigSep Finset.univ fun c : Dev nD => bigSep Finset.univ fun p : Fin 5 => ghost (F := F) p c) := by
  unfold uP ghost
  refine (Pipeline.fund_ghost (nD := nD) (τ := τ) cfgs (EP (F := F)) cellOf_inj).trans (BI.bupd_mono ?_)
  rw [← bigSep_sep']
  refine bigSep_mono fun c _ => ?_
  rw [← bigSep_sep']
  exact BI.Entails.refl _

section Run

variable (m : (ℓ : Loc nD τ sig) → Buf (Elt F) ℓ) (ρ : Dev nD → PrngReg)

variable (Py : (K (F := F)).Pay (nD := nD) (Val := Elt F) (Name := ℕ) (U := UU))
variable (Res : ((ℓ : Loc nD τ sig) → Buf (Elt F) ℓ) → (d : Dev nD) → Buf (Elt F) (outLoc d))

theorem bigSep_emp' {I : Type} (s : Finset I) : (bigSep s fun _ => iprop(emp)) = (iprop(emp) : sProp (MM (F := F))) :=
  bigSep_emp_const s

theorem hu₀_of (uP' : UP) (G' : Dev nD → sProp (MM (F := F)))
    (hfund : (BI.own (EP (F := F) uP') : sProp (MM (F := F))) ⊢ iprop(|==> bigSep Finset.univ G'))
    (hx : ∀ q thr, Py.x q thr = (iprop(emp) : sProp (MM (F := F)))) :
    iprop(ownU ((uH (F := F), (uP', 1)) : UU) ∗ Py.oxCred ∗ (K (F := F)).freeSems0)
      ⊢ |={Set.univ}=> iprop(BI.own (EH (F := F) (initOf (K (F := F)).hsCells (K (F := F)).hsToks)) ∗ bigSep Finset.univ G'
        ∗ bigSep Finset.univ fun thr : Thread nD τ => bigSep Finset.univ fun q : Fin 5 => Py.x q thr) := by
  unfold uH
  iintro ⟨Hu, -, -⟩
  ihave H := (ownU_pair _ _) $$ Hu
  icases H with ⟨HH, HR⟩
  ihave H2 := (own_pair_emb embR _ _) $$ HR
  icases H2 with ⟨HP, -⟩
  imod hfund $$ HP with Hg
  imodintro
  isplitl [HH]; · iexact HH
  isplitl [Hg]; · iexact Hg
  rw [show (bigSep Finset.univ fun thr : Thread nD τ => bigSep Finset.univ fun q : Fin 5 => Py.x q thr) = (iprop(emp) : sProp (MM (F := F))) from by
    rw [bigSep_congr fun thr _ => (bigSep_congr fun q _ => hx q thr).trans (bigSep_emp' _), bigSep_emp']]
  iempintro

def FIN (d : Dev nD) : sProp (MM (F := F)) :=
  iprop((xLoc d ↦{fullShare} m (xLoc d)) ∗ (nbLoc d ↦{fullShare} m (nbLoc d)) ∗ (outLoc d ↦{fullShare} Res m d))

def fq (d : Dev nD) (s' : Phys nD τ sig (Elt F)) : Prop :=
  s'.mem.mem (xLoc d) = m (xLoc d) ∧ s'.mem.mem (nbLoc d) = m (nbLoc d) ∧ s'.mem.mem (outLoc d) = Res m d

theorem hfin (d : Dev nD) (s' : Phys nD τ sig (Elt F)) : iprop(FIN m Res d ∗ SI s') ⊢ (⌜fq m Res d s'⌝ : sProp (MM (F := F))) := by
  unfold FIN
  iintro ⟨⟨Hx, Hn, Ho⟩, HSI⟩
  icombine HSI Hx gives %hx
  icombine HSI Hn gives %hn
  icombine HSI Ho gives %ho
  ipureintro
  exact ⟨funext fun i => hx i (Finset.mem_univ i), funext fun i => hn i (Finset.mem_univ i), funext fun i => ho i (Finset.mem_univ i)⟩

def QC : PUnit × MemSt nD τ sig (Elt F) → Prop := fun r =>
  ∀ c : Dev nD, r.2.mem (xLoc c) = m (xLoc c) ∧ r.2.mem (nbLoc c) = m (nbLoc c) ∧ r.2.mem (outLoc c) = Res m c

theorem kind_vec (q : Fin 5) : (K (F := F)).kind q = .scVector := by
  match q with
  | 0 => rfl
  | 1 => rfl
  | 2 => rfl
  | 3 => rfl
  | 4 => rfl

theorem run_main_of [∀ e, Nonempty (Elt F e)] [Py.IsStorable] (uP' : UP) (G' : Dev nD → sProp (MM (F := F)))
    (hfund : (BI.own (EP (F := F) uP') : sProp (MM (F := F))) ⊢ iprop(|==> bigSep Finset.univ G'))
    (hx : ∀ q thr, Py.x q thr = (iprop(emp) : sProp (MM (F := F)))) (hheld : Py.held = ∅)
    (htile : ∀ q, (K (F := F)).TileObl (D (F := F)) 𝒱 Py v₀ q)
    (hvec : ∀ q, (K (F := F)).VecSplit Py q)
    (hmain : ∀ (κ : GSem nD τ sig → ℕ) (d : Dev nD),
      iprop((K (F := F)).ctx EH Py κ (K (F := F)).lev ∗ (K (F := F)).tcSt EH d 0 ∗ (K (F := F)).tcRes m ρ d ∗ G' d)
        ⊢ wp frame (wpE ((K (F := F)).defs (D (F := F))) 𝒱 (SparseCore.T d) none) Set.univ (main d)
            fun _ => iprop((K (F := F)).tcSt EH d 5 ∗ FIN m Res d)) :
    θ_run (Cert.KernelIdeal.defs (F := F)) (Cert.KernelIdeal.threads (F := F)) ⟨m, fun _ => 0, ρ⟩ (QC m Res) :=
  SparseCore.Cfg.θ_run_sc (K := K (F := F)) (D := D (F := F)) (𝒱 := 𝒱) (EH := EH) (P := Py) facts v₀
    (fun q hq => absurd ((kind_vec (F := F) q).symm.trans hq) (by decide))
    (fun q _ => htile q)
    (fun q _ => hvec q)
    m ρ main G' (FIN m Res) ((uH (F := F), (uP', 1)) : UU) (hu₀_of Py uP' G' hfund hx) hmain (fq m Res) (hfin m Res) (QC m Res)
    (fun _ h => h) hheld

end Run

section AtPayloads

variable (m : (ℓ : Loc nD τ sig) → Buf (Elt F) ℓ) (ρ : Dev nD → PrngReg)
variable (Res : ((ℓ : Loc nD τ sig) → Buf (Elt F) ℓ) → (d : Dev nD) → Buf (Elt F) (outLoc d))

def I0 (d : Dev nD) : Buf (Elt F) (Sc0.iLoc d) := Pre.idxOf (m (nbLoc d)) 0
def I1 (d : Dev nD) : Buf (Elt F) (Sc1.iLoc d) := Pre.idxOf (m (nbLoc d)) 1
def I2 (d : Dev nD) : Buf (Elt F) (Sc2.iLoc d) := Pre.idxOf (m (nbLoc d)) 2
def I3 (d : Dev nD) : Buf (Elt F) (Sc3.iLoc d) := Pre.idxOf (m (nbLoc d)) 3
def I4 (d : Dev nD) : Buf (Elt F) (Sc4.iLoc d) := Pre.idxOf (m (nbLoc d)) 4

abbrev P₀ : (K (F := F)).Pay (nD := nD) (Val := Elt F) (Name := ℕ) (U := UU) := P m (I0 m) (I1 m) (I2 m) (I3 m) (I4 m)

theorem run_main₀ [∀ e, Nonempty (Elt F e)]
    (htile : ∀ q, (K (F := F)).TileObl (D (F := F)) 𝒱 (P₀ m) v₀ q)
    (hmain : ∀ (κ : GSem nD τ sig → ℕ) (d : Dev nD),
      iprop((K (F := F)).ctx EH (P₀ m) κ (K (F := F)).lev ∗ (K (F := F)).tcSt EH d 0 ∗ (K (F := F)).tcRes m ρ d ∗ G d)
        ⊢ wp frame (wpE ((K (F := F)).defs (D (F := F))) 𝒱 (SparseCore.T d) none) Set.univ (main d)
            fun _ => iprop((K (F := F)).tcSt EH d 5 ∗ FIN m Res d)) :
    θ_run (Cert.KernelIdeal.defs (F := F)) (Cert.KernelIdeal.threads (F := F)) ⟨m, fun _ => 0, ρ⟩ (QC m Res) :=
  run_main_of m ρ (P₀ m) Res uP G fund_ghosts (P_x m (I0 m) (I1 m) (I2 m) (I3 m) (I4 m)) rfl htile
    (fun q => hvec m (I0 m) (I1 m) (I2 m) (I3 m) (I4 m) q (kind_vec q)) hmain

end AtPayloads

end Cert.Proof.KI

end
-- ==== Proof.WSetup.lean ====
import proofs.«212107_g53927609368716_cont_9to1_m_409_29_alg».proof.Defs
import Idealize.ShloMosaic.Lib.SparseCore.Launch
import Idealize.ShloMosaic.Lib.Pipeline.Kit
import proofs.«212107_g53927609368716_cont_9to1_m_409_29_alg».proof.Proof.Gen.Kernel

noncomputable section

namespace Cert.Proof.KW

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open Idealize.SL.Sem
open Idealize.ShloMosaic.Rounds

variable {F : FTy → Type} [FloatOps F] [Cert.Kernel.Facts]

abbrev ΛP : Labels := Pipeline.Sig Λ₀ (Fin 5) fun p => (pcfgs (F := F) p).Adm

abbrev K : SparseCore.Cfg τ sig (ΛP (F := F)) 5 := sc (F := F)

abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ

abbrev UP : Type := UR sig nD τ

abbrev UU : Type := UH × (UP × Counters)

abbrev MM : Type := MT nD τ sig (HIx 5) (Elt F) ℕ UU ℕ

abbrev EH : Emb UH (MM (F := F)) := embL

abbrev EP : Emb UP (MM (F := F)) := (Emb.inl : Emb UP (UP × Counters)).trans embR

variable (d : Dev nD)

abbrev xLoc : Loc nD τ sig := (SparseCore.T d).loc main_arg0

abbrev nbLoc : Loc nD τ sig := (SparseCore.T d).loc main_arg1

abbrev outLoc : Loc nD τ sig := (SparseCore.T d).loc main_v30

end Cert.Proof.KW

end
-- ==== Proof.WScCall0Defs.lean ====
import proofs.«212107_g53927609368716_cont_9to1_m_409_29_alg».proof.Proof.WSetup
import Idealize.ShloMosaic.Lib.Transfers
import Idealize.ShloMosaic.Lib.ValueIdx

noncomputable section

namespace Cert.Proof.KW.Sc0

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Cert.Kernel.Facts]

local notation "𝕄" => MT nD τ sig (HIx 5) (Elt F) ℕ (UU) ℕ

variable (d : Dev nD)

abbrev iLoc : Loc nD τ sig := (SparseCore.T d).loc main_v6

abbrev zLoc : Loc nD τ sig := (SparseCore.T d).loc main_v7

abbrev xW : Memref sig .scVector .hbm S10000x128 .f32 := Memref.whole main_arg0_scv
abbrev iW : Memref sig .scVector .hbm S32x25x80 .i32 := Memref.whole main_v6_scv
abbrev zW : Memref sig .scVector .hbm S64000x128 .f32 := Memref.whole main_v7_scv

def gath (X : Buf (Elt F) (xLoc d)) (I : Buf (Elt F) (iLoc d)) : Buf (Elt F) (zLoc d) :=
  fun e : S64000x128.Idx =>
    X (ix2 (n0 := 10000) (n1 := 128)
      ⟨(I (ix3 (n0 := 32) (n1 := 25) (n2 := 80) ⟨(e 0).val / 2000, by have := (e 0).isLt; simp at this; omega⟩
          ⟨(e 0).val / 80 % 25, Nat.mod_lt _ (by decide)⟩ ⟨(e 0).val % 80, Nat.mod_lt _ (by decide)⟩)).toNat % 10000,
        Nat.mod_lt _ (by decide)⟩ (e 1))

def IdxOK (I : Buf (Elt F) (iLoc d)) : Prop := ∀ e, (I e).toNat < 10000

def wid (c : Fin 2) (i : Fin 16) : Fin 32 := ⟨2 * i.val + c.val, by omega⟩

theorem hdivI : 32 ∣ S32x25x80.size 0 := ⟨1, rfl⟩
theorem hdivZ : 32 ∣ S64000x128.size 0 := ⟨2000, rfl⟩

abbrev iPart (w : Fin 32) : Rect S32x25x80 := Rect.part (s := S32x25x80) (a₀ := 0) hdivI w

abbrev zPart (w : Fin 32) : Rect S64000x128 := Rect.part (s := S64000x128) (a₀ := 0) hdivZ w
abbrev iRows (w : Fin 32) : Finset S32x25x80.Idx := ((iW : Memref sig .scVector .hbm S32x25x80 .i32).view.slice (iPart w)).set
abbrev zRows (w : Fin 32) : Finset S64000x128.Idx := ((zW : Memref sig .scVector .hbm S64000x128 .f32).view.slice (zPart w)).set

def qCore (q : PosShare TreeShare) (c : Fin 2) : PosShare TreeShare := if c.val = 0 then q.left else q.right

abbrev qTile (q : PosShare TreeShare) (c : Fin 2) (i : Fin 16) : PosShare TreeShare := Transfers.shareTok (qCore q c) 16 i

variable (q : PosShare TreeShare) (X : Buf (Elt F) (xLoc d)) (I : Buf (Elt F) (iLoc d))

def st (c : Fin 2) : sProp 𝕄 :=
  iprop((xLoc d ↦{qCore q c} X) ∗ (bigSep Finset.univ fun i : Fin 16 => iLoc d ↦[iRows (wid c i)]{fullShare} I)
    ∗ bigSep Finset.univ fun i : Fin 16 => iprop(∃ f, zLoc d ↦[zRows (wid c i)]{fullShare} f))

def dn (c : Fin 2) : sProp 𝕄 :=
  iprop((xLoc d ↦{qCore q c} X) ∗ (bigSep Finset.univ fun i : Fin 16 => iLoc d ↦[iRows (wid c i)]{fullShare} I)
    ∗ bigSep Finset.univ fun i : Fin 16 => zLoc d ↦[zRows (wid c i)]{fullShare} gath d X I)

def go (c : Fin 2) (i : Fin 16) : sProp 𝕄 :=
  iprop((xLoc d ↦{qTile q c i} X) ∗ (iLoc d ↦[iRows (wid c i)]{fullShare} I) ∗ ∃ f, zLoc d ↦[zRows (wid c i)]{fullShare} f)

def td (c : Fin 2) (i : Fin 16) : sProp 𝕄 :=
  iprop((xLoc d ↦{qTile q c i} X) ∗ (iLoc d ↦[iRows (wid c i)]{fullShare} I) ∗ zLoc d ↦[zRows (wid c i)]{fullShare} gath d X I)

instance st_storable (c : Fin 2) : BI.Storable (upEmb : UEmb _ 𝕄) (st d q X I c) := by unfold st; infer_instance
instance dn_storable (c : Fin 2) : BI.Storable (upEmb : UEmb _ 𝕄) (dn d q X I c) := by unfold dn; infer_instance
instance go_storable (c : Fin 2) (i : Fin 16) : BI.Storable (upEmb : UEmb _ 𝕄) (go d q X I c i) := by unfold go; infer_instance
instance td_storable (c : Fin 2) (i : Fin 16) : BI.Storable (upEmb : UEmb _ 𝕄) (td d q X I c i) := by unfold td; infer_instance

def CallIn : Prop :=
  iprop((xLoc d ↦{q} X) ∗ (iLoc d ↦{fullShare} I) ∗ ∃ f, zLoc d ↦{fullShare} f)
    ⊢ (|={Set.univ}=> bigSep Finset.univ fun c : Fin 2 => st d q X I c : sProp 𝕄)

def CallOut : Prop :=
  (bigSep Finset.univ fun c : Fin 2 => dn d q X I c : sProp 𝕄)
    ⊢ iprop((xLoc d ↦{q} X) ∗ (iLoc d ↦{fullShare} I) ∗ zLoc d ↦{fullShare} gath d X I)

def VecSplit0 (c : Fin 2) : Prop :=
  st d q X I c ⊢ (|={Set.univ}=> iprop((bigSep Finset.univ fun i : Fin 16 => go d q X I c i)
      ∗ ((bigSep Finset.univ fun i : Fin 16 => td d q X I c i) -∗ dn d q X I c)) : sProp 𝕄)

end Cert.Proof.KW.Sc0

end
-- ==== Proof.WScSplit0.lean ====
import proofs.«212107_g53927609368716_cont_9to1_m_409_29_alg».proof.Proof.WScCall0Defs
import proofs.«212107_g53927609368716_cont_9to1_m_409_29_alg».proof.Proof.ScWorkers

noncomputable section

namespace Cert.Proof.KW.Sc0

open Cert.Kernel Cert.Kernel.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode

variable {F : FTy → Type} [FloatOps F] [Cert.Kernel.Facts]

local notation "𝕄" => MT nD τ sig (HIx 5) (Elt F) ℕ (UU) ℕ

variable (d : Dev nD)

variable (q : PosShare TreeShare) (X : Buf (Elt F) (xLoc d)) (I : Buf (Elt F) (iLoc d))

-- The table is dealt by halves, the index words by the workers' rows; the third factor rides along.
theorem deal (Z : Fin 2 → sProp 𝕄) :
    (bigSep Finset.univ fun c : Fin 2 => iprop((xLoc d ↦{qCore q c} X)
        ∗ (bigSep Finset.univ fun i : Fin 16 => iLoc d ↦[iRows (wid c i)]{fullShare} I) ∗ Z c) : sProp 𝕄)
      = iprop((xLoc d ↦{q} X) ∗ (iLoc d ↦{fullShare} I) ∗ bigSep Finset.univ Z) := by
  have h : (xLoc d ↦{q} X : sProp 𝕄) ⊣⊢ _ := pointsTo_share (PosShare.mem_left_op_right q)
  rw [bigSep_sep', bigSep_sep', ← ScWorkers.pts_rows wid (fun _ _ => rfl) (ℓ := iLoc d) hdivI iRows (fun _ => View.set_slice_whole _ _), bigSep_univ_two,
    BI.Entails.antisymm h.1 h.2] <;> rfl

theorem call_in : CallIn d q X I := by
  unfold CallIn st
  rw [deal]
  iintro ⟨Hx, Hi, ⟨%f, Hz⟩⟩
  imodintro
  isplitl [Hx]; · iexact Hx
  isplitl [Hi]; · iexact Hi
  iapply ((Entails.of_eq (ScWorkers.pts_rows wid (fun _ _ => rfl) (ℓ := zLoc d) hdivZ zRows (fun _ => View.set_slice_whole _ _) fullShare f)).trans
    (bigSep_mono fun c _ => bigSep_mono fun i _ => BIClass.exists_intro (PROP := sProp 𝕄) f))
  iexact Hz

theorem call_out : CallOut d q X I := by
  unfold CallOut dn
  exact Entails.of_eq ((deal d q X I _).trans
    (by rw [← ScWorkers.pts_rows wid (fun _ _ => rfl) (ℓ := zLoc d) hdivZ zRows fun _ => View.set_slice_whole _ _]))

-- A SparseCore's half of the table is sixteen read tokens and a remainder, which it keeps until the tokens are back.
theorem vecSplit0 (c : Fin 2) : VecSplit0 d q X I c := by
  unfold VecSplit0 st dn go td
  have h : (xLoc d ↦{qCore q c} X : sProp 𝕄) ⊣⊢ _ := Transfers.pointsTo_toks (qCore q c) 16
  rw [bigSep_sep', bigSep_sep', bigSep_sep', bigSep_sep', BI.Entails.antisymm h.1 h.2]
  iintro ⟨⟨Hr, Ht⟩, H⟩
  imodintro
  isplitl [Ht H]
  · isplitl [Ht] <;> iassumption
  iintro ⟨Ht, H⟩
  isplitr [H]
  · isplitl [Hr] <;> iassumption
  iexact H

end Cert.Proof.KW.Sc0

end
-- ==== Proof.WScCall1Defs.lean ====
import proofs.«212107_g53927609368716_cont_9to1_m_409_29_alg».proof.Proof.WSetup
import Idealize.ShloMosaic.Lib.Transfers
import Idealize.ShloMosaic.Lib.ValueIdx

noncomputable section

namespace Cert.Proof.KW.Sc1

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Cert.Kernel.Facts]

local notation "𝕄" => MT nD τ sig (HIx 5) (Elt F) ℕ (UU) ℕ

variable (d : Dev nD)

abbrev iLoc : Loc nD τ sig := (SparseCore.T d).loc main_v11

abbrev zLoc : Loc nD τ sig := (SparseCore.T d).loc main_v12

abbrev xW : Memref sig .scVector .hbm S10000x128 .f32 := Memref.whole main_arg0_scv
abbrev iW : Memref sig .scVector .hbm S32x25x80 .i32 := Memref.whole main_v11_scv
abbrev zW : Memref sig .scVector .hbm S64000x128 .f32 := Memref.whole main_v12_scv

def gath (X : Buf (Elt F) (xLoc d)) (I : Buf (Elt F) (iLoc d)) : Buf (Elt F) (zLoc d) :=
  fun e : S64000x128.Idx =>
    X (ix2 (n0 := 10000) (n1 := 128)
      ⟨(I (ix3 (n0 := 32) (n1 := 25) (n2 := 80) ⟨(e 0).val / 2000, by have := (e 0).isLt; simp at this; omega⟩
          ⟨(e 0).val / 80 % 25, Nat.mod_lt _ (by decide)⟩ ⟨(e 0).val % 80, Nat.mod_lt _ (by decide)⟩)).toNat % 10000,
        Nat.mod_lt _ (by decide)⟩ (e 1))

def IdxOK (I : Buf (Elt F) (iLoc d)) : Prop := ∀ e, (I e).toNat < 10000

def wid (c : Fin 2) (i : Fin 16) : Fin 32 := ⟨2 * i.val + c.val, by omega⟩

theorem hdivI : 32 ∣ S32x25x80.size 0 := ⟨1, rfl⟩
theorem hdivZ : 32 ∣ S64000x128.size 0 := ⟨2000, rfl⟩

abbrev iPart (w : Fin 32) : Rect S32x25x80 := Rect.part (s := S32x25x80) (a₀ := 0) hdivI w

abbrev zPart (w : Fin 32) : Rect S64000x128 := Rect.part (s := S64000x128) (a₀ := 0) hdivZ w
abbrev iRows (w : Fin 32) : Finset S32x25x80.Idx := ((iW : Memref sig .scVector .hbm S32x25x80 .i32).view.slice (iPart w)).set
abbrev zRows (w : Fin 32) : Finset S64000x128.Idx := ((zW : Memref sig .scVector .hbm S64000x128 .f32).view.slice (zPart w)).set

def qCore (q : PosShare TreeShare) (c : Fin 2) : PosShare TreeShare := if c.val = 0 then q.left else q.right

abbrev qTile (q : PosShare TreeShare) (c : Fin 2) (i : Fin 16) : PosShare TreeShare := Transfers.shareTok (qCore q c) 16 i

variable (q : PosShare TreeShare) (X : Buf (Elt F) (xLoc d)) (I : Buf (Elt F) (iLoc d))

def st (c : Fin 2) : sProp 𝕄 :=
  iprop((xLoc d ↦{qCore q c} X) ∗ (bigSep Finset.univ fun i : Fin 16 => iLoc d ↦[iRows (wid c i)]{fullShare} I)
    ∗ bigSep Finset.univ fun i : Fin 16 => iprop(∃ f, zLoc d ↦[zRows (wid c i)]{fullShare} f))

def dn (c : Fin 2) : sProp 𝕄 :=
  iprop((xLoc d ↦{qCore q c} X) ∗ (bigSep Finset.univ fun i : Fin 16 => iLoc d ↦[iRows (wid c i)]{fullShare} I)
    ∗ bigSep Finset.univ fun i : Fin 16 => zLoc d ↦[zRows (wid c i)]{fullShare} gath d X I)

def go (c : Fin 2) (i : Fin 16) : sProp 𝕄 :=
  iprop((xLoc d ↦{qTile q c i} X) ∗ (iLoc d ↦[iRows (wid c i)]{fullShare} I) ∗ ∃ f, zLoc d ↦[zRows (wid c i)]{fullShare} f)

def td (c : Fin 2) (i : Fin 16) : sProp 𝕄 :=
  iprop((xLoc d ↦{qTile q c i} X) ∗ (iLoc d ↦[iRows (wid c i)]{fullShare} I) ∗ zLoc d ↦[zRows (wid c i)]{fullShare} gath d X I)

instance st_storable (c : Fin 2) : BI.Storable (upEmb : UEmb _ 𝕄) (st d q X I c) := by unfold st; infer_instance
instance dn_storable (c : Fin 2) : BI.Storable (upEmb : UEmb _ 𝕄) (dn d q X I c) := by unfold dn; infer_instance
instance go_storable (c : Fin 2) (i : Fin 16) : BI.Storable (upEmb : UEmb _ 𝕄) (go d q X I c i) := by unfold go; infer_instance
instance td_storable (c : Fin 2) (i : Fin 16) : BI.Storable (upEmb : UEmb _ 𝕄) (td d q X I c i) := by unfold td; infer_instance

def CallIn : Prop :=
  iprop((xLoc d ↦{q} X) ∗ (iLoc d ↦{fullShare} I) ∗ ∃ f, zLoc d ↦{fullShare} f)
    ⊢ (|={Set.univ}=> bigSep Finset.univ fun c : Fin 2 => st d q X I c : sProp 𝕄)

def CallOut : Prop :=
  (bigSep Finset.univ fun c : Fin 2 => dn d q X I c : sProp 𝕄)
    ⊢ iprop((xLoc d ↦{q} X) ∗ (iLoc d ↦{fullShare} I) ∗ zLoc d ↦{fullShare} gath d X I)

def VecSplit0 (c : Fin 2) : Prop :=
  st d q X I c ⊢ (|={Set.univ}=> iprop((bigSep Finset.univ fun i : Fin 16 => go d q X I c i)
      ∗ ((bigSep Finset.univ fun i : Fin 16 => td d q X I c i) -∗ dn d q X I c)) : sProp 𝕄)

end Cert.Proof.KW.Sc1

end
-- ==== Proof.WScSplit1.lean ====
import proofs.«212107_g53927609368716_cont_9to1_m_409_29_alg».proof.Proof.WScCall1Defs
import proofs.«212107_g53927609368716_cont_9to1_m_409_29_alg».proof.Proof.ScWorkers

noncomputable section

namespace Cert.Proof.KW.Sc1

open Cert.Kernel Cert.Kernel.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode

variable {F : FTy → Type} [FloatOps F] [Cert.Kernel.Facts]

local notation "𝕄" => MT nD τ sig (HIx 5) (Elt F) ℕ (UU) ℕ

variable (d : Dev nD)

variable (q : PosShare TreeShare) (X : Buf (Elt F) (xLoc d)) (I : Buf (Elt F) (iLoc d))

-- The table is dealt by halves, the index words by the workers' rows; the third factor rides along.
theorem deal (Z : Fin 2 → sProp 𝕄) :
    (bigSep Finset.univ fun c : Fin 2 => iprop((xLoc d ↦{qCore q c} X)
        ∗ (bigSep Finset.univ fun i : Fin 16 => iLoc d ↦[iRows (wid c i)]{fullShare} I) ∗ Z c) : sProp 𝕄)
      = iprop((xLoc d ↦{q} X) ∗ (iLoc d ↦{fullShare} I) ∗ bigSep Finset.univ Z) := by
  have h : (xLoc d ↦{q} X : sProp 𝕄) ⊣⊢ _ := pointsTo_share (PosShare.mem_left_op_right q)
  rw [bigSep_sep', bigSep_sep', ← ScWorkers.pts_rows wid (fun _ _ => rfl) (ℓ := iLoc d) hdivI iRows (fun _ => View.set_slice_whole _ _), bigSep_univ_two,
    BI.Entails.antisymm h.1 h.2] <;> rfl

theorem call_in : CallIn d q X I := by
  unfold CallIn st
  rw [deal]
  iintro ⟨Hx, Hi, ⟨%f, Hz⟩⟩
  imodintro
  isplitl [Hx]; · iexact Hx
  isplitl [Hi]; · iexact Hi
  iapply ((Entails.of_eq (ScWorkers.pts_rows wid (fun _ _ => rfl) (ℓ := zLoc d) hdivZ zRows (fun _ => View.set_slice_whole _ _) fullShare f)).trans
    (bigSep_mono fun c _ => bigSep_mono fun i _ => BIClass.exists_intro (PROP := sProp 𝕄) f))
  iexact Hz

theorem call_out : CallOut d q X I := by
  unfold CallOut dn
  exact Entails.of_eq ((deal d q X I _).trans
    (by rw [← ScWorkers.pts_rows wid (fun _ _ => rfl) (ℓ := zLoc d) hdivZ zRows fun _ => View.set_slice_whole _ _]))

-- A SparseCore's half of the table is sixteen read tokens and a remainder, which it keeps until the tokens are back.
theorem vecSplit0 (c : Fin 2) : VecSplit0 d q X I c := by
  unfold VecSplit0 st dn go td
  have h : (xLoc d ↦{qCore q c} X : sProp 𝕄) ⊣⊢ _ := Transfers.pointsTo_toks (qCore q c) 16
  rw [bigSep_sep', bigSep_sep', bigSep_sep', bigSep_sep', BI.Entails.antisymm h.1 h.2]
  iintro ⟨⟨Hr, Ht⟩, H⟩
  imodintro
  isplitl [Ht H]
  · isplitl [Ht] <;> iassumption
  iintro ⟨Ht, H⟩
  isplitr [H]
  · isplitl [Hr] <;> iassumption
  iexact H

end Cert.Proof.KW.Sc1

end
-- ==== Proof.WScCall2Defs.lean ====
import proofs.«212107_g53927609368716_cont_9to1_m_409_29_alg».proof.Proof.WSetup
import Idealize.ShloMosaic.Lib.Transfers
import Idealize.ShloMosaic.Lib.ValueIdx

noncomputable section

namespace Cert.Proof.KW.Sc2

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Cert.Kernel.Facts]

local notation "𝕄" => MT nD τ sig (HIx 5) (Elt F) ℕ (UU) ℕ

variable (d : Dev nD)

abbrev iLoc : Loc nD τ sig := (SparseCore.T d).loc main_v16

abbrev zLoc : Loc nD τ sig := (SparseCore.T d).loc main_v17

abbrev xW : Memref sig .scVector .hbm S10000x128 .f32 := Memref.whole main_arg0_scv
abbrev iW : Memref sig .scVector .hbm S32x25x80 .i32 := Memref.whole main_v16_scv
abbrev zW : Memref sig .scVector .hbm S64000x128 .f32 := Memref.whole main_v17_scv

def gath (X : Buf (Elt F) (xLoc d)) (I : Buf (Elt F) (iLoc d)) : Buf (Elt F) (zLoc d) :=
  fun e : S64000x128.Idx =>
    X (ix2 (n0 := 10000) (n1 := 128)
      ⟨(I (ix3 (n0 := 32) (n1 := 25) (n2 := 80) ⟨(e 0).val / 2000, by have := (e 0).isLt; simp at this; omega⟩
          ⟨(e 0).val / 80 % 25, Nat.mod_lt _ (by decide)⟩ ⟨(e 0).val % 80, Nat.mod_lt _ (by decide)⟩)).toNat % 10000,
        Nat.mod_lt _ (by decide)⟩ (e 1))

def IdxOK (I : Buf (Elt F) (iLoc d)) : Prop := ∀ e, (I e).toNat < 10000

def wid (c : Fin 2) (i : Fin 16) : Fin 32 := ⟨2 * i.val + c.val, by omega⟩

theorem hdivI : 32 ∣ S32x25x80.size 0 := ⟨1, rfl⟩
theorem hdivZ : 32 ∣ S64000x128.size 0 := ⟨2000, rfl⟩

abbrev iPart (w : Fin 32) : Rect S32x25x80 := Rect.part (s := S32x25x80) (a₀ := 0) hdivI w

abbrev zPart (w : Fin 32) : Rect S64000x128 := Rect.part (s := S64000x128) (a₀ := 0) hdivZ w
abbrev iRows (w : Fin 32) : Finset S32x25x80.Idx := ((iW : Memref sig .scVector .hbm S32x25x80 .i32).view.slice (iPart w)).set
abbrev zRows (w : Fin 32) : Finset S64000x128.Idx := ((zW : Memref sig .scVector .hbm S64000x128 .f32).view.slice (zPart w)).set

def qCore (q : PosShare TreeShare) (c : Fin 2) : PosShare TreeShare := if c.val = 0 then q.left else q.right

abbrev qTile (q : PosShare TreeShare) (c : Fin 2) (i : Fin 16) : PosShare TreeShare := Transfers.shareTok (qCore q c) 16 i

variable (q : PosShare TreeShare) (X : Buf (Elt F) (xLoc d)) (I : Buf (Elt F) (iLoc d))

def st (c : Fin 2) : sProp 𝕄 :=
  iprop((xLoc d ↦{qCore q c} X) ∗ (bigSep Finset.univ fun i : Fin 16 => iLoc d ↦[iRows (wid c i)]{fullShare} I)
    ∗ bigSep Finset.univ fun i : Fin 16 => iprop(∃ f, zLoc d ↦[zRows (wid c i)]{fullShare} f))

def dn (c : Fin 2) : sProp 𝕄 :=
  iprop((xLoc d ↦{qCore q c} X) ∗ (bigSep Finset.univ fun i : Fin 16 => iLoc d ↦[iRows (wid c i)]{fullShare} I)
    ∗ bigSep Finset.univ fun i : Fin 16 => zLoc d ↦[zRows (wid c i)]{fullShare} gath d X I)

def go (c : Fin 2) (i : Fin 16) : sProp 𝕄 :=
  iprop((xLoc d ↦{qTile q c i} X) ∗ (iLoc d ↦[iRows (wid c i)]{fullShare} I) ∗ ∃ f, zLoc d ↦[zRows (wid c i)]{fullShare} f)

def td (c : Fin 2) (i : Fin 16) : sProp 𝕄 :=
  iprop((xLoc d ↦{qTile q c i} X) ∗ (iLoc d ↦[iRows (wid c i)]{fullShare} I) ∗ zLoc d ↦[zRows (wid c i)]{fullShare} gath d X I)

instance st_storable (c : Fin 2) : BI.Storable (upEmb : UEmb _ 𝕄) (st d q X I c) := by unfold st; infer_instance
instance dn_storable (c : Fin 2) : BI.Storable (upEmb : UEmb _ 𝕄) (dn d q X I c) := by unfold dn; infer_instance
instance go_storable (c : Fin 2) (i : Fin 16) : BI.Storable (upEmb : UEmb _ 𝕄) (go d q X I c i) := by unfold go; infer_instance
instance td_storable (c : Fin 2) (i : Fin 16) : BI.Storable (upEmb : UEmb _ 𝕄) (td d q X I c i) := by unfold td; infer_instance

def CallIn : Prop :=
  iprop((xLoc d ↦{q} X) ∗ (iLoc d ↦{fullShare} I) ∗ ∃ f, zLoc d ↦{fullShare} f)
    ⊢ (|={Set.univ}=> bigSep Finset.univ fun c : Fin 2 => st d q X I c : sProp 𝕄)

def CallOut : Prop :=
  (bigSep Finset.univ fun c : Fin 2 => dn d q X I c : sProp 𝕄)
    ⊢ iprop((xLoc d ↦{q} X) ∗ (iLoc d ↦{fullShare} I) ∗ zLoc d ↦{fullShare} gath d X I)

def VecSplit0 (c : Fin 2) : Prop :=
  st d q X I c ⊢ (|={Set.univ}=> iprop((bigSep Finset.univ fun i : Fin 16 => go d q X I c i)
      ∗ ((bigSep Finset.univ fun i : Fin 16 => td d q X I c i) -∗ dn d q X I c)) : sProp 𝕄)

end Cert.Proof.KW.Sc2

end
-- ==== Proof.WScSplit2.lean ====
import proofs.«212107_g53927609368716_cont_9to1_m_409_29_alg».proof.Proof.WScCall2Defs
import proofs.«212107_g53927609368716_cont_9to1_m_409_29_alg».proof.Proof.ScWorkers

noncomputable section

namespace Cert.Proof.KW.Sc2

open Cert.Kernel Cert.Kernel.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode

variable {F : FTy → Type} [FloatOps F] [Cert.Kernel.Facts]

local notation "𝕄" => MT nD τ sig (HIx 5) (Elt F) ℕ (UU) ℕ

variable (d : Dev nD)

variable (q : PosShare TreeShare) (X : Buf (Elt F) (xLoc d)) (I : Buf (Elt F) (iLoc d))

-- The table is dealt by halves, the index words by the workers' rows; the third factor rides along.
theorem deal (Z : Fin 2 → sProp 𝕄) :
    (bigSep Finset.univ fun c : Fin 2 => iprop((xLoc d ↦{qCore q c} X)
        ∗ (bigSep Finset.univ fun i : Fin 16 => iLoc d ↦[iRows (wid c i)]{fullShare} I) ∗ Z c) : sProp 𝕄)
      = iprop((xLoc d ↦{q} X) ∗ (iLoc d ↦{fullShare} I) ∗ bigSep Finset.univ Z) := by
  have h : (xLoc d ↦{q} X : sProp 𝕄) ⊣⊢ _ := pointsTo_share (PosShare.mem_left_op_right q)
  rw [bigSep_sep', bigSep_sep', ← ScWorkers.pts_rows wid (fun _ _ => rfl) (ℓ := iLoc d) hdivI iRows (fun _ => View.set_slice_whole _ _), bigSep_univ_two,
    BI.Entails.antisymm h.1 h.2] <;> rfl

theorem call_in : CallIn d q X I := by
  unfold CallIn st
  rw [deal]
  iintro ⟨Hx, Hi, ⟨%f, Hz⟩⟩
  imodintro
  isplitl [Hx]; · iexact Hx
  isplitl [Hi]; · iexact Hi
  iapply ((Entails.of_eq (ScWorkers.pts_rows wid (fun _ _ => rfl) (ℓ := zLoc d) hdivZ zRows (fun _ => View.set_slice_whole _ _) fullShare f)).trans
    (bigSep_mono fun c _ => bigSep_mono fun i _ => BIClass.exists_intro (PROP := sProp 𝕄) f))
  iexact Hz

theorem call_out : CallOut d q X I := by
  unfold CallOut dn
  exact Entails.of_eq ((deal d q X I _).trans
    (by rw [← ScWorkers.pts_rows wid (fun _ _ => rfl) (ℓ := zLoc d) hdivZ zRows fun _ => View.set_slice_whole _ _]))

-- A SparseCore's half of the table is sixteen read tokens and a remainder, which it keeps until the tokens are back.
theorem vecSplit0 (c : Fin 2) : VecSplit0 d q X I c := by
  unfold VecSplit0 st dn go td
  have h : (xLoc d ↦{qCore q c} X : sProp 𝕄) ⊣⊢ _ := Transfers.pointsTo_toks (qCore q c) 16
  rw [bigSep_sep', bigSep_sep', bigSep_sep', bigSep_sep', BI.Entails.antisymm h.1 h.2]
  iintro ⟨⟨Hr, Ht⟩, H⟩
  imodintro
  isplitl [Ht H]
  · isplitl [Ht] <;> iassumption
  iintro ⟨Ht, H⟩
  isplitr [H]
  · isplitl [Hr] <;> iassumption
  iexact H

end Cert.Proof.KW.Sc2

end
-- ==== Proof.WScCall3Defs.lean ====
import proofs.«212107_g53927609368716_cont_9to1_m_409_29_alg».proof.Proof.WSetup
import Idealize.ShloMosaic.Lib.Transfers
import Idealize.ShloMosaic.Lib.ValueIdx

noncomputable section

namespace Cert.Proof.KW.Sc3

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Cert.Kernel.Facts]

local notation "𝕄" => MT nD τ sig (HIx 5) (Elt F) ℕ (UU) ℕ

variable (d : Dev nD)

abbrev iLoc : Loc nD τ sig := (SparseCore.T d).loc main_v21

abbrev zLoc : Loc nD τ sig := (SparseCore.T d).loc main_v22

abbrev xW : Memref sig .scVector .hbm S10000x128 .f32 := Memref.whole main_arg0_scv
abbrev iW : Memref sig .scVector .hbm S32x25x80 .i32 := Memref.whole main_v21_scv
abbrev zW : Memref sig .scVector .hbm S64000x128 .f32 := Memref.whole main_v22_scv

def gath (X : Buf (Elt F) (xLoc d)) (I : Buf (Elt F) (iLoc d)) : Buf (Elt F) (zLoc d) :=
  fun e : S64000x128.Idx =>
    X (ix2 (n0 := 10000) (n1 := 128)
      ⟨(I (ix3 (n0 := 32) (n1 := 25) (n2 := 80) ⟨(e 0).val / 2000, by have := (e 0).isLt; simp at this; omega⟩
          ⟨(e 0).val / 80 % 25, Nat.mod_lt _ (by decide)⟩ ⟨(e 0).val % 80, Nat.mod_lt _ (by decide)⟩)).toNat % 10000,
        Nat.mod_lt _ (by decide)⟩ (e 1))

def IdxOK (I : Buf (Elt F) (iLoc d)) : Prop := ∀ e, (I e).toNat < 10000

def wid (c : Fin 2) (i : Fin 16) : Fin 32 := ⟨2 * i.val + c.val, by omega⟩

theorem hdivI : 32 ∣ S32x25x80.size 0 := ⟨1, rfl⟩
theorem hdivZ : 32 ∣ S64000x128.size 0 := ⟨2000, rfl⟩

abbrev iPart (w : Fin 32) : Rect S32x25x80 := Rect.part (s := S32x25x80) (a₀ := 0) hdivI w

abbrev zPart (w : Fin 32) : Rect S64000x128 := Rect.part (s := S64000x128) (a₀ := 0) hdivZ w
abbrev iRows (w : Fin 32) : Finset S32x25x80.Idx := ((iW : Memref sig .scVector .hbm S32x25x80 .i32).view.slice (iPart w)).set
abbrev zRows (w : Fin 32) : Finset S64000x128.Idx := ((zW : Memref sig .scVector .hbm S64000x128 .f32).view.slice (zPart w)).set

def qCore (q : PosShare TreeShare) (c : Fin 2) : PosShare TreeShare := if c.val = 0 then q.left else q.right

abbrev qTile (q : PosShare TreeShare) (c : Fin 2) (i : Fin 16) : PosShare TreeShare := Transfers.shareTok (qCore q c) 16 i

variable (q : PosShare TreeShare) (X : Buf (Elt F) (xLoc d)) (I : Buf (Elt F) (iLoc d))

def st (c : Fin 2) : sProp 𝕄 :=
  iprop((xLoc d ↦{qCore q c} X) ∗ (bigSep Finset.univ fun i : Fin 16 => iLoc d ↦[iRows (wid c i)]{fullShare} I)
    ∗ bigSep Finset.univ fun i : Fin 16 => iprop(∃ f, zLoc d ↦[zRows (wid c i)]{fullShare} f))

def dn (c : Fin 2) : sProp 𝕄 :=
  iprop((xLoc d ↦{qCore q c} X) ∗ (bigSep Finset.univ fun i : Fin 16 => iLoc d ↦[iRows (wid c i)]{fullShare} I)
    ∗ bigSep Finset.univ fun i : Fin 16 => zLoc d ↦[zRows (wid c i)]{fullShare} gath d X I)

def go (c : Fin 2) (i : Fin 16) : sProp 𝕄 :=
  iprop((xLoc d ↦{qTile q c i} X) ∗ (iLoc d ↦[iRows (wid c i)]{fullShare} I) ∗ ∃ f, zLoc d ↦[zRows (wid c i)]{fullShare} f)

def td (c : Fin 2) (i : Fin 16) : sProp 𝕄 :=
  iprop((xLoc d ↦{qTile q c i} X) ∗ (iLoc d ↦[iRows (wid c i)]{fullShare} I) ∗ zLoc d ↦[zRows (wid c i)]{fullShare} gath d X I)

instance st_storable (c : Fin 2) : BI.Storable (upEmb : UEmb _ 𝕄) (st d q X I c) := by unfold st; infer_instance
instance dn_storable (c : Fin 2) : BI.Storable (upEmb : UEmb _ 𝕄) (dn d q X I c) := by unfold dn; infer_instance
instance go_storable (c : Fin 2) (i : Fin 16) : BI.Storable (upEmb : UEmb _ 𝕄) (go d q X I c i) := by unfold go; infer_instance
instance td_storable (c : Fin 2) (i : Fin 16) : BI.Storable (upEmb : UEmb _ 𝕄) (td d q X I c i) := by unfold td; infer_instance

def CallIn : Prop :=
  iprop((xLoc d ↦{q} X) ∗ (iLoc d ↦{fullShare} I) ∗ ∃ f, zLoc d ↦{fullShare} f)
    ⊢ (|={Set.univ}=> bigSep Finset.univ fun c : Fin 2 => st d q X I c : sProp 𝕄)

def CallOut : Prop :=
  (bigSep Finset.univ fun c : Fin 2 => dn d q X I c : sProp 𝕄)
    ⊢ iprop((xLoc d ↦{q} X) ∗ (iLoc d ↦{fullShare} I) ∗ zLoc d ↦{fullShare} gath d X I)

def VecSplit0 (c : Fin 2) : Prop :=
  st d q X I c ⊢ (|={Set.univ}=> iprop((bigSep Finset.univ fun i : Fin 16 => go d q X I c i)
      ∗ ((bigSep Finset.univ fun i : Fin 16 => td d q X I c i) -∗ dn d q X I c)) : sProp 𝕄)

end Cert.Proof.KW.Sc3

end
-- ==== Proof.WScSplit3.lean ====
import proofs.«212107_g53927609368716_cont_9to1_m_409_29_alg».proof.Proof.WScCall3Defs
import proofs.«212107_g53927609368716_cont_9to1_m_409_29_alg».proof.Proof.ScWorkers

noncomputable section

namespace Cert.Proof.KW.Sc3

open Cert.Kernel Cert.Kernel.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode

variable {F : FTy → Type} [FloatOps F] [Cert.Kernel.Facts]

local notation "𝕄" => MT nD τ sig (HIx 5) (Elt F) ℕ (UU) ℕ

variable (d : Dev nD)

variable (q : PosShare TreeShare) (X : Buf (Elt F) (xLoc d)) (I : Buf (Elt F) (iLoc d))

-- The table is dealt by halves, the index words by the workers' rows; the third factor rides along.
theorem deal (Z : Fin 2 → sProp 𝕄) :
    (bigSep Finset.univ fun c : Fin 2 => iprop((xLoc d ↦{qCore q c} X)
        ∗ (bigSep Finset.univ fun i : Fin 16 => iLoc d ↦[iRows (wid c i)]{fullShare} I) ∗ Z c) : sProp 𝕄)
      = iprop((xLoc d ↦{q} X) ∗ (iLoc d ↦{fullShare} I) ∗ bigSep Finset.univ Z) := by
  have h : (xLoc d ↦{q} X : sProp 𝕄) ⊣⊢ _ := pointsTo_share (PosShare.mem_left_op_right q)
  rw [bigSep_sep', bigSep_sep', ← ScWorkers.pts_rows wid (fun _ _ => rfl) (ℓ := iLoc d) hdivI iRows (fun _ => View.set_slice_whole _ _), bigSep_univ_two,
    BI.Entails.antisymm h.1 h.2] <;> rfl

theorem call_in : CallIn d q X I := by
  unfold CallIn st
  rw [deal]
  iintro ⟨Hx, Hi, ⟨%f, Hz⟩⟩
  imodintro
  isplitl [Hx]; · iexact Hx
  isplitl [Hi]; · iexact Hi
  iapply ((Entails.of_eq (ScWorkers.pts_rows wid (fun _ _ => rfl) (ℓ := zLoc d) hdivZ zRows (fun _ => View.set_slice_whole _ _) fullShare f)).trans
    (bigSep_mono fun c _ => bigSep_mono fun i _ => BIClass.exists_intro (PROP := sProp 𝕄) f))
  iexact Hz

theorem call_out : CallOut d q X I := by
  unfold CallOut dn
  exact Entails.of_eq ((deal d q X I _).trans
    (by rw [← ScWorkers.pts_rows wid (fun _ _ => rfl) (ℓ := zLoc d) hdivZ zRows fun _ => View.set_slice_whole _ _]))

-- A SparseCore's half of the table is sixteen read tokens and a remainder, which it keeps until the tokens are back.
theorem vecSplit0 (c : Fin 2) : VecSplit0 d q X I c := by
  unfold VecSplit0 st dn go td
  have h : (xLoc d ↦{qCore q c} X : sProp 𝕄) ⊣⊢ _ := Transfers.pointsTo_toks (qCore q c) 16
  rw [bigSep_sep', bigSep_sep', bigSep_sep', bigSep_sep', BI.Entails.antisymm h.1 h.2]
  iintro ⟨⟨Hr, Ht⟩, H⟩
  imodintro
  isplitl [Ht H]
  · isplitl [Ht] <;> iassumption
  iintro ⟨Ht, H⟩
  isplitr [H]
  · isplitl [Hr] <;> iassumption
  iexact H

end Cert.Proof.KW.Sc3

end
-- ==== Proof.WScCall4Defs.lean ====
import proofs.«212107_g53927609368716_cont_9to1_m_409_29_alg».proof.Proof.WSetup
import Idealize.ShloMosaic.Lib.Transfers
import Idealize.ShloMosaic.Lib.ValueIdx

noncomputable section

namespace Cert.Proof.KW.Sc4

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Cert.Kernel.Facts]

local notation "𝕄" => MT nD τ sig (HIx 5) (Elt F) ℕ (UU) ℕ

variable (d : Dev nD)

abbrev iLoc : Loc nD τ sig := (SparseCore.T d).loc main_v26

abbrev zLoc : Loc nD τ sig := (SparseCore.T d).loc main_v27

abbrev xW : Memref sig .scVector .hbm S10000x128 .f32 := Memref.whole main_arg0_scv
abbrev iW : Memref sig .scVector .hbm S32x25x80 .i32 := Memref.whole main_v26_scv
abbrev zW : Memref sig .scVector .hbm S64000x128 .f32 := Memref.whole main_v27_scv

def gath (X : Buf (Elt F) (xLoc d)) (I : Buf (Elt F) (iLoc d)) : Buf (Elt F) (zLoc d) :=
  fun e : S64000x128.Idx =>
    X (ix2 (n0 := 10000) (n1 := 128)
      ⟨(I (ix3 (n0 := 32) (n1 := 25) (n2 := 80) ⟨(e 0).val / 2000, by have := (e 0).isLt; simp at this; omega⟩
          ⟨(e 0).val / 80 % 25, Nat.mod_lt _ (by decide)⟩ ⟨(e 0).val % 80, Nat.mod_lt _ (by decide)⟩)).toNat % 10000,
        Nat.mod_lt _ (by decide)⟩ (e 1))

def IdxOK (I : Buf (Elt F) (iLoc d)) : Prop := ∀ e, (I e).toNat < 10000

def wid (c : Fin 2) (i : Fin 16) : Fin 32 := ⟨2 * i.val + c.val, by omega⟩

theorem hdivI : 32 ∣ S32x25x80.size 0 := ⟨1, rfl⟩
theorem hdivZ : 32 ∣ S64000x128.size 0 := ⟨2000, rfl⟩

abbrev iPart (w : Fin 32) : Rect S32x25x80 := Rect.part (s := S32x25x80) (a₀ := 0) hdivI w

abbrev zPart (w : Fin 32) : Rect S64000x128 := Rect.part (s := S64000x128) (a₀ := 0) hdivZ w
abbrev iRows (w : Fin 32) : Finset S32x25x80.Idx := ((iW : Memref sig .scVector .hbm S32x25x80 .i32).view.slice (iPart w)).set
abbrev zRows (w : Fin 32) : Finset S64000x128.Idx := ((zW : Memref sig .scVector .hbm S64000x128 .f32).view.slice (zPart w)).set

def qCore (q : PosShare TreeShare) (c : Fin 2) : PosShare TreeShare := if c.val = 0 then q.left else q.right

abbrev qTile (q : PosShare TreeShare) (c : Fin 2) (i : Fin 16) : PosShare TreeShare := Transfers.shareTok (qCore q c) 16 i

variable (q : PosShare TreeShare) (X : Buf (Elt F) (xLoc d)) (I : Buf (Elt F) (iLoc d))

def st (c : Fin 2) : sProp 𝕄 :=
  iprop((xLoc d ↦{qCore q c} X) ∗ (bigSep Finset.univ fun i : Fin 16 => iLoc d ↦[iRows (wid c i)]{fullShare} I)
    ∗ bigSep Finset.univ fun i : Fin 16 => iprop(∃ f, zLoc d ↦[zRows (wid c i)]{fullShare} f))

def dn (c : Fin 2) : sProp 𝕄 :=
  iprop((xLoc d ↦{qCore q c} X) ∗ (bigSep Finset.univ fun i : Fin 16 => iLoc d ↦[iRows (wid c i)]{fullShare} I)
    ∗ bigSep Finset.univ fun i : Fin 16 => zLoc d ↦[zRows (wid c i)]{fullShare} gath d X I)

def go (c : Fin 2) (i : Fin 16) : sProp 𝕄 :=
  iprop((xLoc d ↦{qTile q c i} X) ∗ (iLoc d ↦[iRows (wid c i)]{fullShare} I) ∗ ∃ f, zLoc d ↦[zRows (wid c i)]{fullShare} f)

def td (c : Fin 2) (i : Fin 16) : sProp 𝕄 :=
  iprop((xLoc d ↦{qTile q c i} X) ∗ (iLoc d ↦[iRows (wid c i)]{fullShare} I) ∗ zLoc d ↦[zRows (wid c i)]{fullShare} gath d X I)

instance st_storable (c : Fin 2) : BI.Storable (upEmb : UEmb _ 𝕄) (st d q X I c) := by unfold st; infer_instance
instance dn_storable (c : Fin 2) : BI.Storable (upEmb : UEmb _ 𝕄) (dn d q X I c) := by unfold dn; infer_instance
instance go_storable (c : Fin 2) (i : Fin 16) : BI.Storable (upEmb : UEmb _ 𝕄) (go d q X I c i) := by unfold go; infer_instance
instance td_storable (c : Fin 2) (i : Fin 16) : BI.Storable (upEmb : UEmb _ 𝕄) (td d q X I c i) := by unfold td; infer_instance

def CallIn : Prop :=
  iprop((xLoc d ↦{q} X) ∗ (iLoc d ↦{fullShare} I) ∗ ∃ f, zLoc d ↦{fullShare} f)
    ⊢ (|={Set.univ}=> bigSep Finset.univ fun c : Fin 2 => st d q X I c : sProp 𝕄)

def CallOut : Prop :=
  (bigSep Finset.univ fun c : Fin 2 => dn d q X I c : sProp 𝕄)
    ⊢ iprop((xLoc d ↦{q} X) ∗ (iLoc d ↦{fullShare} I) ∗ zLoc d ↦{fullShare} gath d X I)

def VecSplit0 (c : Fin 2) : Prop :=
  st d q X I c ⊢ (|={Set.univ}=> iprop((bigSep Finset.univ fun i : Fin 16 => go d q X I c i)
      ∗ ((bigSep Finset.univ fun i : Fin 16 => td d q X I c i) -∗ dn d q X I c)) : sProp 𝕄)

end Cert.Proof.KW.Sc4

end
-- ==== Proof.WScSplit4.lean ====
import proofs.«212107_g53927609368716_cont_9to1_m_409_29_alg».proof.Proof.WScCall4Defs
import proofs.«212107_g53927609368716_cont_9to1_m_409_29_alg».proof.Proof.ScWorkers

noncomputable section

namespace Cert.Proof.KW.Sc4

open Cert.Kernel Cert.Kernel.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode

variable {F : FTy → Type} [FloatOps F] [Cert.Kernel.Facts]

local notation "𝕄" => MT nD τ sig (HIx 5) (Elt F) ℕ (UU) ℕ

variable (d : Dev nD)

variable (q : PosShare TreeShare) (X : Buf (Elt F) (xLoc d)) (I : Buf (Elt F) (iLoc d))

-- The table is dealt by halves, the index words by the workers' rows; the third factor rides along.
theorem deal (Z : Fin 2 → sProp 𝕄) :
    (bigSep Finset.univ fun c : Fin 2 => iprop((xLoc d ↦{qCore q c} X)
        ∗ (bigSep Finset.univ fun i : Fin 16 => iLoc d ↦[iRows (wid c i)]{fullShare} I) ∗ Z c) : sProp 𝕄)
      = iprop((xLoc d ↦{q} X) ∗ (iLoc d ↦{fullShare} I) ∗ bigSep Finset.univ Z) := by
  have h : (xLoc d ↦{q} X : sProp 𝕄) ⊣⊢ _ := pointsTo_share (PosShare.mem_left_op_right q)
  rw [bigSep_sep', bigSep_sep', ← ScWorkers.pts_rows wid (fun _ _ => rfl) (ℓ := iLoc d) hdivI iRows (fun _ => View.set_slice_whole _ _), bigSep_univ_two,
    BI.Entails.antisymm h.1 h.2] <;> rfl

theorem call_in : CallIn d q X I := by
  unfold CallIn st
  rw [deal]
  iintro ⟨Hx, Hi, ⟨%f, Hz⟩⟩
  imodintro
  isplitl [Hx]; · iexact Hx
  isplitl [Hi]; · iexact Hi
  iapply ((Entails.of_eq (ScWorkers.pts_rows wid (fun _ _ => rfl) (ℓ := zLoc d) hdivZ zRows (fun _ => View.set_slice_whole _ _) fullShare f)).trans
    (bigSep_mono fun c _ => bigSep_mono fun i _ => BIClass.exists_intro (PROP := sProp 𝕄) f))
  iexact Hz

theorem call_out : CallOut d q X I := by
  unfold CallOut dn
  exact Entails.of_eq ((deal d q X I _).trans
    (by rw [← ScWorkers.pts_rows wid (fun _ _ => rfl) (ℓ := zLoc d) hdivZ zRows fun _ => View.set_slice_whole _ _]))

-- A SparseCore's half of the table is sixteen read tokens and a remainder, which it keeps until the tokens are back.
theorem vecSplit0 (c : Fin 2) : VecSplit0 d q X I c := by
  unfold VecSplit0 st dn go td
  have h : (xLoc d ↦{qCore q c} X : sProp 𝕄) ⊣⊢ _ := Transfers.pointsTo_toks (qCore q c) 16
  rw [bigSep_sep', bigSep_sep', bigSep_sep', bigSep_sep', BI.Entails.antisymm h.1 h.2]
  iintro ⟨⟨Hr, Ht⟩, H⟩
  imodintro
  isplitl [Ht H]
  · isplitl [Ht] <;> iassumption
  iintro ⟨Ht, H⟩
  isplitr [H]
  · isplitl [Hr] <;> iassumption
  iexact H

end Cert.Proof.KW.Sc4

end
-- ==== Proof.WPay.lean ====
import proofs.«212107_g53927609368716_cont_9to1_m_409_29_alg».proof.Proof.WScSplit0
import proofs.«212107_g53927609368716_cont_9to1_m_409_29_alg».proof.Proof.WScSplit1
import proofs.«212107_g53927609368716_cont_9to1_m_409_29_alg».proof.Proof.WScSplit2
import proofs.«212107_g53927609368716_cont_9to1_m_409_29_alg».proof.Proof.WScSplit3
import proofs.«212107_g53927609368716_cont_9to1_m_409_29_alg».proof.Proof.WScSplit4

noncomputable section

namespace Cert.Proof.KW

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.Kernel.Facts]

local notation "𝕄" => MT nD τ sig (HIx 5) (Elt F) ℕ (UU) ℕ

theorem nCore_eq (q : Fin 5) : (K (F := F)).nCore q = 2 :=
  match q with | 0 | 1 | 2 | 3 | 4 => rfl
theorem nSub_eq (q : Fin 5) : (K (F := F)).nSub q = 16 :=
  match q with | 0 | 1 | 2 | 3 | 4 => rfl

theorem bigSep_cast {n k : ℕ} (h : n = k) (Φ : Fin k → sProp 𝕄) :
    (bigSep Finset.univ fun i : Fin n => Φ (Fin.cast h i)) = bigSep Finset.univ Φ := by
  subst h; rfl

theorem split_cast {n : ℕ} (h : n = 16) {st dn : sProp 𝕄} {go td : Fin 16 → sProp 𝕄}
    (H : st ⊢ (|={Set.univ}=> iprop((bigSep Finset.univ fun i : Fin 16 => go i) ∗ ((bigSep Finset.univ fun i : Fin 16 => td i) -∗ dn)) : sProp 𝕄)) :
    st ⊢ (|={Set.univ}=> iprop((bigSep Finset.univ fun i : Fin n => go (Fin.cast h i))
      ∗ ((bigSep Finset.univ fun i : Fin n => td (Fin.cast h i)) -∗ dn)) : sProp 𝕄) := by
  subst h; exact H

variable (m : (ℓ : Loc nD τ sig) → Buf (Elt F) ℓ)
variable (I0 : (d : Dev nD) → Buf (Elt F) (Sc0.iLoc d))
variable (I1 : (d : Dev nD) → Buf (Elt F) (Sc1.iLoc d))
variable (I2 : (d : Dev nD) → Buf (Elt F) (Sc2.iLoc d))
variable (I3 : (d : Dev nD) → Buf (Elt F) (Sc3.iLoc d))
variable (I4 : (d : Dev nD) → Buf (Elt F) (Sc4.iLoc d))

def P : (K (F := F)).Pay (nD := nD) (Val := Elt F) (Name := ℕ) (U := UU) where
  st := fun q d c => match q with
    | 0 => Sc0.st d fullShare (m (xLoc d)) (I0 d) (Fin.cast (nCore_eq 0) c)
    | 1 => Sc1.st d fullShare (m (xLoc d)) (I1 d) (Fin.cast (nCore_eq 1) c)
    | 2 => Sc2.st d fullShare (m (xLoc d)) (I2 d) (Fin.cast (nCore_eq 2) c)
    | 3 => Sc3.st d fullShare (m (xLoc d)) (I3 d) (Fin.cast (nCore_eq 3) c)
    | 4 => Sc4.st d fullShare (m (xLoc d)) (I4 d) (Fin.cast (nCore_eq 4) c)
  dn := fun q d c => match q with
    | 0 => Sc0.dn d fullShare (m (xLoc d)) (I0 d) (Fin.cast (nCore_eq 0) c)
    | 1 => Sc1.dn d fullShare (m (xLoc d)) (I1 d) (Fin.cast (nCore_eq 1) c)
    | 2 => Sc2.dn d fullShare (m (xLoc d)) (I2 d) (Fin.cast (nCore_eq 2) c)
    | 3 => Sc3.dn d fullShare (m (xLoc d)) (I3 d) (Fin.cast (nCore_eq 3) c)
    | 4 => Sc4.dn d fullShare (m (xLoc d)) (I4 d) (Fin.cast (nCore_eq 4) c)
  go := fun q d c i => match q with
    | 0 => Sc0.go d fullShare (m (xLoc d)) (I0 d) (Fin.cast (nCore_eq 0) c) (Fin.cast (nSub_eq 0) i)
    | 1 => Sc1.go d fullShare (m (xLoc d)) (I1 d) (Fin.cast (nCore_eq 1) c) (Fin.cast (nSub_eq 1) i)
    | 2 => Sc2.go d fullShare (m (xLoc d)) (I2 d) (Fin.cast (nCore_eq 2) c) (Fin.cast (nSub_eq 2) i)
    | 3 => Sc3.go d fullShare (m (xLoc d)) (I3 d) (Fin.cast (nCore_eq 3) c) (Fin.cast (nSub_eq 3) i)
    | 4 => Sc4.go d fullShare (m (xLoc d)) (I4 d) (Fin.cast (nCore_eq 4) c) (Fin.cast (nSub_eq 4) i)
  td := fun q d c i => match q with
    | 0 => Sc0.td d fullShare (m (xLoc d)) (I0 d) (Fin.cast (nCore_eq 0) c) (Fin.cast (nSub_eq 0) i)
    | 1 => Sc1.td d fullShare (m (xLoc d)) (I1 d) (Fin.cast (nCore_eq 1) c) (Fin.cast (nSub_eq 1) i)
    | 2 => Sc2.td d fullShare (m (xLoc d)) (I2 d) (Fin.cast (nCore_eq 2) c) (Fin.cast (nSub_eq 2) i)
    | 3 => Sc3.td d fullShare (m (xLoc d)) (I3 d) (Fin.cast (nCore_eq 3) c) (Fin.cast (nSub_eq 3) i)
    | 4 => Sc4.td d fullShare (m (xLoc d)) (I4 d) (Fin.cast (nCore_eq 4) c) (Fin.cast (nSub_eq 4) i)
  x := fun _ _ => iprop(emp)

-- Each field of `P` at a given call is that call's own payload, which is storable.
instance P_storable : (P (F := F) m I0 I1 I2 I3 I4).IsStorable where
  st q d c := match q with | 0 | 1 | 2 | 3 | 4 => by dsimp only [P]; infer_instance
  dn q d c := match q with | 0 | 1 | 2 | 3 | 4 => by dsimp only [P]; infer_instance
  go q d c i := match q with | 0 | 1 | 2 | 3 | 4 => by dsimp only [P]; infer_instance
  td q d c i := match q with | 0 | 1 | 2 | 3 | 4 => by dsimp only [P]; infer_instance

theorem P_x (q : Fin 5) (thr : Thread nD τ) : (P (F := F) m I0 I1 I2 I3 I4).x q thr = iprop(emp) := rfl

-- Each call's own split over sixteen tiles, read over the call's tile count.
theorem hvec : ∀ q, (K (F := F)).kind q = .scVector → (K (F := F)).VecSplit (P (F := F) m I0 I1 I2 I3 I4) q :=
  fun q _ => match q with
    | 0 => .of_plain fun d c => split_cast (nSub_eq 0) (Sc0.vecSplit0 d fullShare (m (xLoc d)) (I0 d) (Fin.cast (nCore_eq 0) c))
    | 1 => .of_plain fun d c => split_cast (nSub_eq 1) (Sc1.vecSplit0 d fullShare (m (xLoc d)) (I1 d) (Fin.cast (nCore_eq 1) c))
    | 2 => .of_plain fun d c => split_cast (nSub_eq 2) (Sc2.vecSplit0 d fullShare (m (xLoc d)) (I2 d) (Fin.cast (nCore_eq 2) c))
    | 3 => .of_plain fun d c => split_cast (nSub_eq 3) (Sc3.vecSplit0 d fullShare (m (xLoc d)) (I3 d) (Fin.cast (nCore_eq 3) c))
    | 4 => .of_plain fun d c => split_cast (nSub_eq 4) (Sc4.vecSplit0 d fullShare (m (xLoc d)) (I4 d) (Fin.cast (nCore_eq 4) c))

end Cert.Proof.KW

end
-- ==== Proof.WPreFacts.lean ====
import proofs.«212107_g53927609368716_cont_9to1_m_409_29_alg».proof.Defs
import proofs.«212107_g53927609368716_cont_9to1_m_409_29_alg».proof.Proof.Gen.Pre_input_domain
import proofs.«212107_g53927609368716_cont_9to1_m_409_29_alg».proof.Proof.Spec
import Idealize.ShloMosaic.Lib.ReduceAll
import Idealize.ShloMosaic.Lib.StableHlo.Predicate
import Idealize.ShloMosaic.Lib.ValueIdx
import Idealize.ShloMosaic.Lib.IdealHost
import Idealize.ShloMosaic.Lib.Pipeline.Value

noncomputable section

namespace Cert.Proof.KW.Pre

open Idealize.ShloMosaic Idealize.ShloMosaic.ValueIdx

section Domain

open Cert.Pre_input_domain

variable [Cert.Pre_input_domain.Facts]

theorem subsingleton_S_ : Subsingleton S_.Idx := ⟨fun a b => funext fun d => d.elim0⟩

theorem word_range (a : BitVec 32) (h1 : IntOp.cmpi .sge a 0#32 = 1#1) (h2 : IntOp.cmpi .sle a 9999#32 = 1#1) :
    a.toNat ≤ 9999 := by
  simp only [IntOp.cmpi, StableHlo.Predicate.ofBool_eq_one_iff, BitVec.sle, decide_eq_true_eq] at h1 h2
  have h0 : (0#32 : BitVec 32).toInt = 0 := by decide
  have h9 : (9999#32 : BitVec 32).toInt = 9999 := by decide
  rw [h0] at h1
  rw [h9] at h2
  have hc := BitVec.toInt_eq_toNat_cond a
  have hlt := a.isLt
  split at hc <;> omega

theorem nb_range {F : FTy → Type} [FloatOps F] (X : FVec F S10000x128 .f32) (NB : IVec S10000x32 32)
    (h : Cert.Pre_input_domain.fn (F := F) X NB = fun _ => 1#1) (i : S10000x32.Idx) : (NB i).toNat ≤ 9999 := by
  have h0 := congrFun h ix0
  dsimp only [Cert.Pre_input_domain.fn] at h0
  obtain ⟨-, h2⟩ := IntOp.andi_eq_one.1 h0
  haveI := subsingleton_S_
  have e := Host.reduce_andi_all _ _ _ _ ix0 h2 i
  obtain ⟨e1, e2⟩ := IntOp.andi_eq_one.1 e
  exact word_range (NB i) e1 e2

theorem x_real (X : FVec Ideal S10000x128 .f32) (NB : IVec S10000x32 32)
    (h : Cert.Pre_input_domain.fn (F := Ideal) X NB = fun _ => 1#1) (i : S10000x128.Idx) :
    ∃ r : ℝ, X i = (r : EReal) := by
  have h0 := congrFun h ix0
  dsimp only [Cert.Pre_input_domain.fn] at h0
  obtain ⟨h1, -⟩ := IntOp.andi_eq_one.1 h0
  haveI := subsingleton_S_
  have e := Host.reduce_andi_all _ _ _ _ ix0 h1 i
  have e' : Ideal.cmp .olt (max (X i) (-(X i))) (Ideal.ofBits .f32 0x7F800000#32) = 1#1 := e
  have htop : Ideal.ofBits .f32 0x7F800000#32 = ⊤ := by simp [Ideal.ofBits, Ideal.ieee]
  rw [htop] at e'
  simp only [Ideal.cmp, StableHlo.Predicate.ofBool_eq_one_iff, decide_eq_true_eq] at e'
  have hx : X i ≠ ⊤ := fun hx => by rw [hx] at e'; simp at e'
  have hx' : X i ≠ ⊥ := fun hx => by rw [hx] at e'; simp at e'
  exact ⟨(X i).toReal, (EReal.coe_toReal hx hx').symm⟩

end Domain

section Index

open Cert.Kernel

variable [Cert.Kernel.Facts]

open Cert.Kernel.Facts₀ Cert.Kernel.Facts

def idxAll (NB : IVec S10000x32 32) : IVec S10000x32 32 :=
  select (cmpi .eq NB (broadcastInDim S10000x32 ![] bcast_S_S10000x32 (constantI S_ 32 0#32)))
    (broadcastInDim S10000x32 ![] bcast_S_S10000x32 (id (constantI S_ 32 9999#32)))
    (subi NB (broadcastInDim S10000x32 ![] bcast_S_S10000x32 (constantI S_ 32 1#32)))

def idxOf (NB : IVec S10000x32 32) : Fin 5 → IVec S32x25x80 32
  | 0 => shapeCast S32x25x80 (extractStridedSlice S2000x32 ![0, 0] (idxAll NB) slices_S10000x32_S2000x32_0_0)
      shapeCasts_S2000x32_S32x25x80
  | 1 => shapeCast S32x25x80 (extractStridedSlice S2000x32 ![2000, 0] (idxAll NB) slices_S10000x32_S2000x32_2000_0)
      shapeCasts_S2000x32_S32x25x80
  | 2 => shapeCast S32x25x80 (extractStridedSlice S2000x32 ![4000, 0] (idxAll NB) slices_S10000x32_S2000x32_4000_0)
      shapeCasts_S2000x32_S32x25x80
  | 3 => shapeCast S32x25x80 (extractStridedSlice S2000x32 ![6000, 0] (idxAll NB) slices_S10000x32_S2000x32_6000_0)
      shapeCasts_S2000x32_S32x25x80
  | 4 => shapeCast S32x25x80 (extractStridedSlice S2000x32 ![8000, 0] (idxAll NB) slices_S10000x32_S2000x32_8000_0)
      shapeCasts_S2000x32_S32x25x80

def rowOf (s : Fin 5) (w : Fin 32) (j : Fin 25) (t : Fin 80) : Fin 10000 :=
  ⟨2000 * s.val + ((25 * w.val + j.val) * 80 + t.val) / 32, by
    have := s.isLt; have := w.isLt; have := j.isLt; have := t.isLt; omega⟩

def colOf (w : Fin 32) (j : Fin 25) (t : Fin 80) : Fin 32 :=
  ⟨((25 * w.val + j.val) * 80 + t.val) % 32, Nat.mod_lt _ (by decide)⟩

theorem idxAll_apply (NB : IVec S10000x32 32) (i : S10000x32.Idx) :
    idxAll NB i = Scalar.select (IntOp.cmpi .eq (NB i) 0#32) 9999#32 (IntOp.subi (NB i) 1#32) := rfl

theorem band_apply (NB : IVec S10000x32 32) (o : Nat) (hs : S10000x32.Slices ![o, 0] S2000x32)
    (w : Fin 32) (j : Fin 25) (t : Fin 80) (r : Fin 10000)
    (hr : r.val = o + ((25 * w.val + j.val) * 80 + t.val) / 32) :
    shapeCast S32x25x80 (extractStridedSlice S2000x32 ![o, 0] (idxAll NB) hs) shapeCasts_S2000x32_S32x25x80 (ix3 w j t)
      = idxAll NB (ix2 r (colOf w j t)) := by
  have hw := w.isLt; have hj := j.isLt; have ht := t.isLt
  have hp : ((25 * w.val + j.val) * 80 + t.val) / 32 < 2000 := by omega
  refine (shapeCast_apply _ shapeCasts_S2000x32_S32x25x80 (ix3 w j t)
    (ix2 (⟨((25 * w.val + j.val) * 80 + t.val) / 32, hp⟩ : Fin 2000) (colOf w j t)) ?_).trans ?_
  · rw [Shape.rowMajor_val_two, Shape.rowMajor_val_three]
    show ((25 * w.val + j.val) * 80 + t.val) / 32 * 32 + ((25 * w.val + j.val) * 80 + t.val) % 32
      = (w.val * 25 + j.val) * 80 + t.val
    omega
  · refine extractStridedSlice_apply _ _ hs _ (ix2 r (colOf w j t)) fun a => ?_
    match a with
    | ⟨0, _⟩ => exact hr
    | ⟨1, _⟩ => show ((25 * w.val + j.val) * 80 + t.val) % 32 = 0 + ((25 * w.val + j.val) * 80 + t.val) % 32; omega

theorem idxOf_apply (NB : IVec S10000x32 32) (s : Fin 5) (w : Fin 32) (j : Fin 25) (t : Fin 80) :
    idxOf NB s (ix3 w j t) = idxAll NB (ix2 (rowOf s w j t) (colOf w j t)) := by
  match s with
  | ⟨0, _⟩ => exact band_apply NB 0 _ w j t _ (by show 2000 * 0 + _ = 0 + _; omega)
  | ⟨1, _⟩ => exact band_apply NB 2000 _ w j t _ (by show 2000 * 1 + _ = 2000 + _; omega)
  | ⟨2, _⟩ => exact band_apply NB 4000 _ w j t _ (by show 2000 * 2 + _ = 4000 + _; omega)
  | ⟨3, _⟩ => exact band_apply NB 6000 _ w j t _ (by show 2000 * 3 + _ = 6000 + _; omega)
  | ⟨4, _⟩ => exact band_apply NB 8000 _ w j t _ (by show 2000 * 4 + _ = 8000 + _; omega)

theorem gatherWord_toNat (v : BitVec 32) (hv : v.toNat ≤ 9999) :
    (Scalar.select (IntOp.cmpi .eq v 0#32) 9999#32 (IntOp.subi v 1#32)).toNat = (Cert.Routing.nbRow v).val := by
  unfold Cert.Routing.nbRow
  by_cases h0 : v = 0#32
  · rw [if_pos h0, StableHlo.Predicate.cmpi_eq_iff.2 h0, select_one]; rfl
  · have hc : IntOp.cmpi .eq v 0#32 = 0#1 := eq_zero_of_ne_one fun hc => h0 (StableHlo.Predicate.cmpi_eq_iff.1 hc)
    have hpos : 0 < v.toNat := by
      rcases Nat.eq_zero_or_pos v.toNat with hz | hz
      · exact absurd (BitVec.eq_of_toNat_eq (by rw [hz]; rfl)) h0
      · exact hz
    rw [if_neg h0, hc, select_zero]
    show (v - 1#32).toNat = (v.toNat - 1) % 10000
    rw [BitVec.toNat_sub]
    have hlt := v.isLt
    show (2 ^ 32 - (1#32 : BitVec 32).toNat + v.toNat) % 2 ^ 32 = (v.toNat - 1) % 10000
    have h1 : (1#32 : BitVec 32).toNat = 1 := rfl
    rw [h1]
    omega

theorem idxOf_toNat (NB : IVec S10000x32 32) (hNB : ∀ i, (NB i).toNat ≤ 9999) (s : Fin 5) (w : Fin 32) (j : Fin 25)
    (t : Fin 80) :
    (idxOf NB s (ix3 w j t)).toNat = (Cert.Routing.nbRow (NB (ix2 (rowOf s w j t) (colOf w j t)))).val := by
  rw [idxOf_apply, idxAll_apply]
  exact gatherWord_toNat _ (hNB _)

theorem idxOf_toNat' (NB : IVec S10000x32 32) (hNB : ∀ i, (NB i).toNat ≤ 9999) (s : Fin 5) (e : S32x25x80.Idx) :
    (idxOf NB s e).toNat
      = (Cert.Routing.nbRow (NB (ix2 (rowOf s (e 0) (e 1) (e 2)) (colOf (e 0) (e 1) (e 2))))).val := by
  exact (congrArg (fun i => (idxOf NB s i).toNat) (eq_ix3 e)).trans (idxOf_toNat NB hNB s (e 0) (e 1) (e 2))

theorem idxOf_lt' (NB : IVec S10000x32 32) (hNB : ∀ i, (NB i).toNat ≤ 9999) (s : Fin 5) (e : S32x25x80.Idx) :
    (idxOf NB s e).toNat < 10000 := by
  rw [idxOf_toNat' NB hNB]; exact Fin.isLt _

end Index

end Cert.Proof.KW.Pre

end
-- ==== Proof.WLaunch.lean ====
import proofs.«212107_g53927609368716_cont_9to1_m_409_29_alg».proof.Proof.WSetup
import proofs.«212107_g53927609368716_cont_9to1_m_409_29_alg».proof.Proof.Gen.Kernel.Launch
import proofs.«212107_g53927609368716_cont_9to1_m_409_29_alg».proof.Proof.WPay
import proofs.«212107_g53927609368716_cont_9to1_m_409_29_alg».proof.Proof.WPreFacts
import Idealize.ShloMosaic.Lib.SparseCore.Launch
import Idealize.ShloMosaic.Lib.Pipeline.Kit
import Idealize.ShloMosaic.Lib.Pipeline.Sound
import Idealize.ShloMosaic.Lib.Tactic

noncomputable section

namespace Cert.Proof.KW

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.Kernel.Facts]

abbrev adm (p : Fin 5) : (pcfgs (F := F) p).Adm := (cfgs p).toPCfg_adm

def ghost (p : Fin 5) (c : Dev nD) : sProp (MM (F := F)) :=
  iprop(Pipeline.cellsGhost (Pipeline.pin (pcfgs (F := F)) adm) EP p c ∗ Pipeline.toksInit (Pipeline.pin (pcfgs (F := F)) adm) EP p c)

def G (d : Dev nD) : sProp (MM (F := F)) := bigSep Finset.univ fun p : Fin 5 => ghost p d

def uH : UH := initOf (K (F := F)).hsCells (K (F := F)).hsToks

def uP : UP := initOf (Pipeline.cells (nD := nD) (τ := τ) cfgs cellOf_inj) (Pipeline.launchToks (nD := nD) (τ := τ) cfgs cellOf_inj)

theorem fund_ghosts : (BI.own (EP (F := F) uP) : sProp (MM (F := F)))
    ⊢ iprop(|==> bigSep Finset.univ fun c : Dev nD => bigSep Finset.univ fun p : Fin 5 => ghost (F := F) p c) := by
  unfold uP ghost
  refine (Pipeline.fund_ghost (nD := nD) (τ := τ) cfgs (EP (F := F)) cellOf_inj).trans (BI.bupd_mono ?_)
  rw [← bigSep_sep']
  refine bigSep_mono fun c _ => ?_
  rw [← bigSep_sep']
  exact BI.Entails.refl _

section Run

variable (m : (ℓ : Loc nD τ sig) → Buf (Elt F) ℓ) (ρ : Dev nD → PrngReg)

variable (Py : (K (F := F)).Pay (nD := nD) (Val := Elt F) (Name := ℕ) (U := UU))
variable (Res : ((ℓ : Loc nD τ sig) → Buf (Elt F) ℓ) → (d : Dev nD) → Buf (Elt F) (outLoc d))

theorem bigSep_emp' {I : Type} (s : Finset I) : (bigSep s fun _ => iprop(emp)) = (iprop(emp) : sProp (MM (F := F))) :=
  bigSep_emp_const s

theorem hu₀_of (uP' : UP) (G' : Dev nD → sProp (MM (F := F)))
    (hfund : (BI.own (EP (F := F) uP') : sProp (MM (F := F))) ⊢ iprop(|==> bigSep Finset.univ G'))
    (hx : ∀ q thr, Py.x q thr = (iprop(emp) : sProp (MM (F := F)))) :
    iprop(ownU ((uH (F := F), (uP', 1)) : UU) ∗ Py.oxCred ∗ (K (F := F)).freeSems0)
      ⊢ |={Set.univ}=> iprop(BI.own (EH (F := F) (initOf (K (F := F)).hsCells (K (F := F)).hsToks)) ∗ bigSep Finset.univ G'
        ∗ bigSep Finset.univ fun thr : Thread nD τ => bigSep Finset.univ fun q : Fin 5 => Py.x q thr) := by
  unfold uH
  iintro ⟨Hu, -, -⟩
  ihave H := (ownU_pair _ _) $$ Hu
  icases H with ⟨HH, HR⟩
  ihave H2 := (own_pair_emb embR _ _) $$ HR
  icases H2 with ⟨HP, -⟩
  imod hfund $$ HP with Hg
  imodintro
  isplitl [HH]; · iexact HH
  isplitl [Hg]; · iexact Hg
  rw [show (bigSep Finset.univ fun thr : Thread nD τ => bigSep Finset.univ fun q : Fin 5 => Py.x q thr) = (iprop(emp) : sProp (MM (F := F))) from by
    rw [bigSep_congr fun thr _ => (bigSep_congr fun q _ => hx q thr).trans (bigSep_emp' _), bigSep_emp']]
  iempintro

def FIN (d : Dev nD) : sProp (MM (F := F)) :=
  iprop((xLoc d ↦{fullShare} m (xLoc d)) ∗ (nbLoc d ↦{fullShare} m (nbLoc d)) ∗ (outLoc d ↦{fullShare} Res m d))

def fq (d : Dev nD) (s' : Phys nD τ sig (Elt F)) : Prop :=
  s'.mem.mem (xLoc d) = m (xLoc d) ∧ s'.mem.mem (nbLoc d) = m (nbLoc d) ∧ s'.mem.mem (outLoc d) = Res m d

theorem hfin (d : Dev nD) (s' : Phys nD τ sig (Elt F)) : iprop(FIN m Res d ∗ SI s') ⊢ (⌜fq m Res d s'⌝ : sProp (MM (F := F))) := by
  unfold FIN
  iintro ⟨⟨Hx, Hn, Ho⟩, HSI⟩
  icombine HSI Hx gives %hx
  icombine HSI Hn gives %hn
  icombine HSI Ho gives %ho
  ipureintro
  exact ⟨funext fun i => hx i (Finset.mem_univ i), funext fun i => hn i (Finset.mem_univ i), funext fun i => ho i (Finset.mem_univ i)⟩

def QC : PUnit × MemSt nD τ sig (Elt F) → Prop := fun r =>
  ∀ c : Dev nD, r.2.mem (xLoc c) = m (xLoc c) ∧ r.2.mem (nbLoc c) = m (nbLoc c) ∧ r.2.mem (outLoc c) = Res m c

theorem kind_vec (q : Fin 5) : (K (F := F)).kind q = .scVector := by
  match q with
  | 0 => rfl
  | 1 => rfl
  | 2 => rfl
  | 3 => rfl
  | 4 => rfl

theorem run_main_of [∀ e, Nonempty (Elt F e)] [Py.IsStorable] (uP' : UP) (G' : Dev nD → sProp (MM (F := F)))
    (hfund : (BI.own (EP (F := F) uP') : sProp (MM (F := F))) ⊢ iprop(|==> bigSep Finset.univ G'))
    (hx : ∀ q thr, Py.x q thr = (iprop(emp) : sProp (MM (F := F)))) (hheld : Py.held = ∅)
    (htile : ∀ q, (K (F := F)).TileObl (D (F := F)) 𝒱 Py v₀ q)
    (hvec : ∀ q, (K (F := F)).VecSplit Py q)
    (hmain : ∀ (κ : GSem nD τ sig → ℕ) (d : Dev nD),
      iprop((K (F := F)).ctx EH Py κ (K (F := F)).lev ∗ (K (F := F)).tcSt EH d 0 ∗ (K (F := F)).tcRes m ρ d ∗ G' d)
        ⊢ wp frame (wpE ((K (F := F)).defs (D (F := F))) 𝒱 (SparseCore.T d) none) Set.univ (main d)
            fun _ => iprop((K (F := F)).tcSt EH d 5 ∗ FIN m Res d)) :
    θ_run (Cert.Kernel.defs (F := F)) (Cert.Kernel.threads (F := F)) ⟨m, fun _ => 0, ρ⟩ (QC m Res) :=
  SparseCore.Cfg.θ_run_sc (K := K (F := F)) (D := D (F := F)) (𝒱 := 𝒱) (EH := EH) (P := Py) facts v₀
    (fun q hq => absurd ((kind_vec (F := F) q).symm.trans hq) (by decide))
    (fun q _ => htile q)
    (fun q _ => hvec q)
    m ρ main G' (FIN m Res) ((uH (F := F), (uP', 1)) : UU) (hu₀_of Py uP' G' hfund hx) hmain (fq m Res) (hfin m Res) (QC m Res)
    (fun _ h => h) hheld

end Run

section AtPayloads

variable (m : (ℓ : Loc nD τ sig) → Buf (Elt F) ℓ) (ρ : Dev nD → PrngReg)
variable (Res : ((ℓ : Loc nD τ sig) → Buf (Elt F) ℓ) → (d : Dev nD) → Buf (Elt F) (outLoc d))

def I0 (d : Dev nD) : Buf (Elt F) (Sc0.iLoc d) := Pre.idxOf (m (nbLoc d)) 0
def I1 (d : Dev nD) : Buf (Elt F) (Sc1.iLoc d) := Pre.idxOf (m (nbLoc d)) 1
def I2 (d : Dev nD) : Buf (Elt F) (Sc2.iLoc d) := Pre.idxOf (m (nbLoc d)) 2
def I3 (d : Dev nD) : Buf (Elt F) (Sc3.iLoc d) := Pre.idxOf (m (nbLoc d)) 3
def I4 (d : Dev nD) : Buf (Elt F) (Sc4.iLoc d) := Pre.idxOf (m (nbLoc d)) 4

abbrev P₀ : (K (F := F)).Pay (nD := nD) (Val := Elt F) (Name := ℕ) (U := UU) := P m (I0 m) (I1 m) (I2 m) (I3 m) (I4 m)

theorem run_main₀ [∀ e, Nonempty (Elt F e)]
    (htile : ∀ q, (K (F := F)).TileObl (D (F := F)) 𝒱 (P₀ m) v₀ q)
    (hmain : ∀ (κ : GSem nD τ sig → ℕ) (d : Dev nD),
      iprop((K (F := F)).ctx EH (P₀ m) κ (K (F := F)).lev ∗ (K (F := F)).tcSt EH d 0 ∗ (K (F := F)).tcRes m ρ d ∗ G d)
        ⊢ wp frame (wpE ((K (F := F)).defs (D (F := F))) 𝒱 (SparseCore.T d) none) Set.univ (main d)
            fun _ => iprop((K (F := F)).tcSt EH d 5 ∗ FIN m Res d)) :
    θ_run (Cert.Kernel.defs (F := F)) (Cert.Kernel.threads (F := F)) ⟨m, fun _ => 0, ρ⟩ (QC m Res) :=
  run_main_of m ρ (P₀ m) Res uP G fund_ghosts (P_x m (I0 m) (I1 m) (I2 m) (I3 m) (I4 m)) rfl htile
    (fun q => hvec m (I0 m) (I1 m) (I2 m) (I3 m) (I4 m) q (kind_vec q)) hmain

end AtPayloads

end Cert.Proof.KW

end
-- ==== Proof.Preserves.lean ====
import proofs.«212107_g53927609368716_cont_9to1_m_409_29_alg».proof.Defs

noncomputable section

namespace Cert.Proof.KI

open Idealize.ShloMosaic

theorem eps_site : IdealRules.named_const.Statement Cert.KernelIdeal.κ "eps_sq" .f32 0x179ABE15#32
    ((5316911940649 / 5316911983139663491615228241121378304 : ℝ) : EReal) :=
  IdealRules.named_const.statement Cert.KernelIdeal.κ "eps_sq" .f32 0x179ABE15#32
    ((5316911940649 / 5316911983139663491615228241121378304 : ℝ) : EReal) rfl

theorem preserves : Cert.preserves_Kernel_KernelIdeal :=
  ⟨eps_site, eps_site, eps_site, eps_site, eps_site, eps_site, eps_site, eps_site, eps_site, eps_site,
   eps_site, eps_site, eps_site, eps_site, eps_site, eps_site, eps_site, eps_site, eps_site, eps_site⟩

end Cert.Proof.KI

end
-- ==== Proof.RefValue.lean ====
import proofs.«212107_g53927609368716_cont_9to1_m_409_29_alg».proof.Proof.Spec
import proofs.«212107_g53927609368716_cont_9to1_m_409_29_alg».proof.Proof.Gen.ReferenceIdeal
import Idealize.ShloMosaic.Lib.IdealHost
import Idealize.ShloMosaic.Lib.Pipeline.Value
import Idealize.ShloMosaic.Lib.Affine

noncomputable section

namespace Cert.ReferenceIdeal.RefValue

open Cert.ReferenceIdeal Cert.ReferenceIdeal.Gen Idealize.ShloMosaic Idealize.ShloMosaic.ValueIdx
open Cert.Routing

theorem reduces_S10000x128_S10000_d1 : Shape.Reduces S10000x128 [1] S10000 := by decide

theorem lift_cols (n : Fin 10000) (k : Fin 128) :
    reduces_S10000x128_S10000_d1.lift (ix1 n) k = ix2 n k := by
  funext c
  match c with
  | ⟨0, _⟩ | ⟨1, _⟩ => exact Fin.ext rfl

theorem sumSq_val (x sq : FVec Ideal S10000x128 .f32) (c0 : FVec Ideal S_ .f32) (r : FVec Ideal S10000 .f32)
    (h0 : sq = mulf x x) (h1 : c0 = constant S_ .f32 0x00000000#32)
    (h2 : r = Host.reduceAdd sq c0 reducesTo_S10000x128_S10000_d1 h_S_) (n : Fin 10000) :
    r (ix1 n) = sumSq (fun k => x (ix2 n k)) := by
  subst h2 h1 h0
  rw [hostReduceAdd_apply, Ideal.hostReduceAdd_single _ reduces_S10000x128_S10000_d1, constant_apply, Ideal.ofBits_zero_f32, zero_add]
  unfold sumSq
  refine Finset.sum_congr rfl fun (k : Fin 128) _ => ?_
  exact congrArg (fun i => x i * x i) (lift_cols n k)

theorem norm_val (x sq : FVec Ideal S10000x128 .f32) (c0 : FVec Ideal S_ .f32) (r : FVec Ideal S10000 .f32)
    (rb sr : FVec Ideal S10000x1 .f32) (ce : FVec Ideal S_ .f32) (eb mx : FVec Ideal S10000x1 .f32)
    (mb y : FVec Ideal S10000x128 .f32)
    (h0 : sq = mulf x x) (h1 : c0 = constant S_ .f32 0x00000000#32)
    (h2 : r = Host.reduceAdd sq c0 reducesTo_S10000x128_S10000_d1 h_S_)
    (h3 : rb = broadcastInDim S10000x1 ![0] bcast_S10000_S10000x1_0 r)
    (h4 : sr = Host.sqrt rb) (h5 : ce = constant S_ .f32 0x2B8CBCCC#32)
    (h6 : eb = broadcastInDim S10000x1 ![] bcast_S_S10000x1 ce)
    (h7 : mx = maximumf sr eb)
    (h8 : mb = broadcastInDim S10000x128 ![0, 1] bcast_S10000x1_S10000x128_0_1 mx)
    (h9 : y = Host.divf x mb) (n : Fin 10000) (d : Fin 128) :
    y (ix2 n d) = rNorm (fun k => x (ix2 n k)) d := by
  have hs := sumSq_val x sq c0 r h0 h1 h2 n
  subst h9 h8 h7 h6 h5 h4 h3
  rw [hostDivf_apply]
  unfold rNorm
  congr 1
  rw [broadcastInDim_apply _ _ _ _ (ix2 n (0 : Fin 1)) (fun a => by match a with | ⟨0, _⟩ | ⟨1, _⟩ => rfl)]
  rw [maximumf_apply]
  congr 1
  · show Ideal.sqrt (broadcastInDim S10000x1 ![0] bcast_S10000_S10000x1_0 r (ix2 n (0 : Fin 1))) = _
    rw [broadcastInDim_apply _ _ _ _ (ix1 n) (fun a => by match a with | ⟨0, _⟩ => rfl), hs]

theorem ofBits_negInf_f32 : Ideal.ofBits .f32 0xFF800000#32 = (⊥ : EReal) := by simp [Ideal.ofBits, Ideal.ieee]

theorem reduces_S10000x32_S10000_d1 : Shape.Reduces S10000x32 [1] S10000 := by decide
theorem reduces_S10000x32x128_S10000x128_d1 : Shape.Reduces S10000x32x128 [1] S10000x128 := by decide
theorem reduces_S10000x32x128_S10000x32_d2 : Shape.Reduces S10000x32x128 [2] S10000x32 := by decide

theorem lift_cols32 (n : Fin 10000) (m : Fin 32) : reduces_S10000x32_S10000_d1.lift (ix1 n) m = ix2 n m := by
  funext c
  match c with
  | ⟨0, _⟩ | ⟨1, _⟩ => exact Fin.ext rfl

theorem lift_mid (n : Fin 10000) (d : Fin 128) (m : Fin 32) :
    reduces_S10000x32x128_S10000x128_d1.lift (ix2 n d) m = ix3 n m d := by
  funext c
  match c with
  | ⟨0, _⟩ | ⟨1, _⟩ | ⟨2, _⟩ => exact Fin.ext rfl

theorem lift_last (n : Fin 10000) (m : Fin 32) (k : Fin 128) :
    reduces_S10000x32x128_S10000x32_d2.lift (ix2 n m) k = ix3 n m k := by
  funext c
  match c with
  | ⟨0, _⟩ | ⟨1, _⟩ | ⟨2, _⟩ => exact Fin.ext rfl

theorem spread32 (v : FVec Ideal S10000 .f32) (n : Fin 10000) (m : Fin 32) :
    broadcastInDim S10000x32 ![0, 1] bcast_S10000x1_S10000x32_0_1 (broadcastInDim S10000x1 ![0] bcast_S10000_S10000x1_0 v) (ix2 n m)
      = v (ix1 n) := by
  rw [broadcastInDim_apply _ _ _ _ (ix2 n (0 : Fin 1)) (fun a => by match a with | ⟨0, _⟩ | ⟨1, _⟩ => rfl),
    broadcastInDim_apply _ _ _ _ (ix1 n) (fun a => by match a with | ⟨0, _⟩ => rfl)]

theorem dots_val (z : FVec Ideal S10000x32x128 .f32) (u a0 : FVec Ideal S10000x128 .f32) (ac : FVec Ideal S_ .f32)
    (a1 v31 v32 v33 : FVec Ideal S10000 .f32) (c7 : FVec Ideal S_ .f32) (v34 v35 v36 : FVec Ideal S10000 .f32)
    (v37 : FVec Ideal S10000x1 .f32)
    (b0 : FVec Ideal S10000x128 .f32) (bc : FVec Ideal S_ .f32) (b1 : FVec Ideal S10000 .f32) (b2 v38 : FVec Ideal S10000x1 .f32)
    (c8 : FVec Ideal S_ .f32) (v39 v40 : FVec Ideal S10000x1 .f32) (v41 v42 v43 v44 : FVec Ideal S10000x128 .f32)
    (v45 : FVec Ideal S10000x1x128 .f32) (v46 v47 : FVec Ideal S10000x32x128 .f32) (c9 : FVec Ideal S_ .f32)
    (v48 : FVec Ideal S10000x32 .f32)
    (ha0 : a0 = mulf u u) (hac : ac = constant S_ .f32 0x00000000#32)
    (ha1 : a1 = Host.reduceAdd a0 ac reducesTo_S10000x128_S10000_d1 h_S_)
    (h31 : v31 = Host.sqrt a1) (h32 : v32 = mulf v31 v31) (h33 : v33 = mulf v31 v31)
    (h7 : c7 = constant S_ .f32 0x3F800000#32) (h34 : v34 = broadcastInDim S10000 ![] bcast_S_S10000 c7)
    (h35 : v35 = addf v33 v34) (h36 : v36 = Host.divf v32 v35)
    (h37 : v37 = broadcastInDim S10000x1 ![0] bcast_S10000_S10000x1_0 v36)
    (hb0 : b0 = mulf u u) (hbc : bc = constant S_ .f32 0x00000000#32)
    (hb1 : b1 = Host.reduceAdd b0 bc reducesTo_S10000x128_S10000_d1 h_S_)
    (hb2 : b2 = broadcastInDim S10000x1 ![0] bcast_S10000_S10000x1_0 b1)
    (h38 : v38 = Host.sqrt b2) (h8 : c8 = constant S_ .f32 0x2B8CBCCC#32)
    (h39 : v39 = broadcastInDim S10000x1 ![] bcast_S_S10000x1 c8)
    (h40 : v40 = maximumf v38 v39)
    (h41 : v41 = broadcastInDim S10000x128 ![0, 1] bcast_S10000x1_S10000x128_0_1 v40)
    (h42 : v42 = Host.divf u v41)
    (h43 : v43 = broadcastInDim S10000x128 ![0, 1] bcast_S10000x1_S10000x128_0_1 v37)
    (h44 : v44 = mulf v43 v42)
    (h45 : v45 = fun i => shapeCast S10000x1x128 v44 shapeCasts_S10000x128_S10000x1x128 i)
    (h46 : v46 = broadcastInDim S10000x32x128 ![0, 1, 2] bcast_S10000x1x128_S10000x32x128_0_1_2 v45)
    (h47 : v47 = mulf z v46) (h9 : c9 = constant S_ .f32 0x00000000#32)
    (h48 : v48 = Host.reduceAdd v47 c9 reducesTo_S10000x32x128_S10000x32_d2 h_S_) (n : Fin 10000) (m : Fin 32) :
    v48 (ix2 n m) = dotRow (fun m' k => z (ix3 n m' k)) (rSquash (fun k => u (ix2 n k))) m := by
  have hn : ∀ k : Fin 128, v42 (ix2 n k) = rNorm (fun k' => u (ix2 n k')) k :=
    norm_val u b0 bc b1 b2 v38 c8 v39 v40 v41 v42 hb0 hbc hb1 hb2 h38 h8 h39 h40 h41 h42 n
  have hs := sumSq_val u a0 ac a1 ha0 hac ha1 n
  have hsc : v37 (ix2 n (0 : Fin 1)) = Ideal.div (Ideal.sqrt (sumSq fun k => u (ix2 n k)) * Ideal.sqrt (sumSq fun k => u (ix2 n k)))
      (Ideal.sqrt (sumSq fun k => u (ix2 n k)) * Ideal.sqrt (sumSq fun k => u (ix2 n k)) + one32) := by
    subst h37 h36 h35 h34 h7 h33 h32 h31
    rw [broadcastInDim_apply _ _ _ _ (ix1 n) (fun a => by match a with | ⟨0, _⟩ => rfl), hostDivf_apply, mulf_apply, addf_apply,
      mulf_apply, broadcastInDim_scalar_apply, constant_apply]
    show Ideal.div (Ideal.sqrt (a1 (ix1 n)) * Ideal.sqrt (a1 (ix1 n))) (Ideal.sqrt (a1 (ix1 n)) * Ideal.sqrt (a1 (ix1 n)) + _) = _
    rw [hs]
    rfl
  have h44v : ∀ k : Fin 128, v44 (ix2 n k) = rSquash (fun k' => u (ix2 n k')) k := by
    intro k
    subst h44 h43
    rw [mulf_apply, broadcastInDim_apply _ _ _ _ (ix2 n (0 : Fin 1)) (fun a => by match a with | ⟨0, _⟩ | ⟨1, _⟩ => rfl), hsc, hn k]
    rfl
  subst h48 h9 h47 h46 h45
  rw [hostReduceAdd_apply, Ideal.hostReduceAdd_single _ reduces_S10000x32x128_S10000x32_d2, constant_apply, Ideal.ofBits_zero_f32,
    zero_add]
  unfold dotRow
  refine Finset.sum_congr rfl fun (k : Fin 128) _ => ?_
  refine (congrArg (fun i => mulf z _ i) (lift_last n m k)).trans ?_
  rw [mulf_apply]
  congr 1
  rw [broadcastInDim_apply _ _ _ _ (ix3 n (0 : Fin 1) k) (fun a => by match a with | ⟨0, _⟩ | ⟨1, _⟩ | ⟨2, _⟩ => rfl)]
  refine (shapeCast_apply _ _ _ (ix2 n k) (by
    rw [Shape.rowMajor_val_two, Shape.rowMajor_val_three]
    show n.val * 128 + k.val = (n.val * 1 + 0) * 128 + k.val
    omega)).trans (h44v k)

abbrev gd := gather_S10000x128_S10000x32x1_S10000x32x128_2_0_n_n_0_2_1128

theorem gather_val (x : FVec Ideal S10000x128 .f32) (idx : IVec S10000x32x1 32) (n : Fin 10000) (m : Fin 32) (k : Fin 128) :
    Host.gather gather_S10000x128_S10000x32x1_S10000x32x128_2_0_n_n_0_2_1128 x idx (ix3 n m k)
      = x (ix2 (⟨min (idx (ix3 n m (0 : Fin 1))).toInt.toNat 9999, by omega⟩ : Fin 10000) k) := by
  unfold Host.gather
  congr 1
  funext a
  match a with
  | ⟨0, _⟩ =>
    refine Fin.ext ?_
    show gd.start (ix3 n m k) idx 0 + gd.batchCoord (ix3 n m k) 0 + gd.offCoord (ix3 n m k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gd.startIndexMap from List.mem_singleton.mpr rfl)]
    have hsi : gd.siIdx (ix3 n m k)
        ⟨List.idxOf (0 : Fin 2) gd.startIndexMap,
          List.idxOf_lt_length_iff.2 (List.mem_singleton.mpr rfl)⟩ = ix3 n m (0 : Fin 1) := by
      funext b; refine Fin.ext ?_
      match b with
      | ⟨0, _⟩ | ⟨1, _⟩ | ⟨2, _⟩ => rfl
    rw [hsi]
    rfl
  | ⟨1, _⟩ =>
    refine Fin.ext ?_
    show gd.start (ix3 n m k) idx 1 + gd.batchCoord (ix3 n m k) 1 + gd.offCoord (ix3 n m k) 1 = k.val
    rw [GatherDims.batchCoord_eq_zero _ _ _ List.not_mem_nil]
    unfold GatherDims.start
    rw [dif_neg (show (1 : Fin 2) ∉ gd.startIndexMap from by decide)]
    unfold GatherDims.offCoord
    rw [dif_pos (show (1 : Fin 2) ∈ gd.sKept from by decide)]
    simp only [Nat.zero_add, Nat.add_zero]
    rfl

theorem nb_word (v : BitVec 32) (hv : v.toNat ≤ 9999) :
    min (Scalar.select (IntOp.cmpi .slt (IntOp.subi v 1#32) 0#32) (IntOp.addi (IntOp.subi v 1#32) 10000#32)
      (IntOp.subi v 1#32)).toInt.toNat 9999 = (nbRow v).val := by
  unfold nbRow
  by_cases h0 : v = 0#32
  · subst h0
    rw [if_pos rfl]
    decide
  · have h1 : 1 ≤ v.toNat := by
      rcases Nat.eq_zero_or_pos v.toNat with h | h
      · exact absurd (BitVec.eq_of_toNat_eq (by rw [h]; rfl)) h0
      · exact h
    have hsub : (IntOp.subi v 1#32).toNat = v.toNat - 1 := by
      show (v - 1#32).toNat = _
      rw [BitVec.toNat_sub]
      have : (1#32 : BitVec 32).toNat = 1 := rfl
      rw [this]
      have := v.isLt
      omega
    have hint : (IntOp.subi v 1#32).toInt = ((v.toNat - 1 : Nat) : Int) := by
      rw [BitVec.toInt_eq_toNat_cond, hsub, if_pos (by omega)]
    have hc : IntOp.cmpi .slt (IntOp.subi v 1#32) 0#32 = 0#1 := by
      apply eq_zero_of_ne_one
      intro h
      rw [IntOp.cmpi_slt, hint] at h
      have : (0#32 : BitVec 32).toInt = 0 := rfl
      rw [this] at h
      omega
    rw [hc, select_zero, hint, if_neg h0]
    show min (v.toNat - 1) 9999 = (v.toNat - 1) % 10000
    omega

theorem nbsel_val (nb : IVec S10000x32 32) (c : IVec S_ 32) (v5 v6 : IVec S10000x32 32) (c0 : IVec S_ 32) (v7 : IVec S10000x32 32)
    (v8 : IVec S10000x32 1) (c1 : IVec S_ 32) (v9 v10 v11 : IVec S10000x32 32) (v12 : IVec S10000x32x1 32)
    (hc : c = constantI S_ 32 1#32) (h5 : v5 = broadcastInDim S10000x32 ![] bcast_S_S10000x32 c) (h6 : v6 = subi nb v5)
    (hc0 : c0 = constantI S_ 32 0#32) (h7 : v7 = broadcastInDim S10000x32 ![] bcast_S_S10000x32 c0) (h8 : v8 = cmpi .slt v6 v7)
    (hc1 : c1 = constantI S_ 32 10000#32) (h9 : v9 = broadcastInDim S10000x32 ![] bcast_S_S10000x32 c1) (h10 : v10 = addi v6 v9)
    (h11 : v11 = select v8 v10 v6) (h12 : v12 = broadcastInDim S10000x32x1 ![0, 1] bcast_S10000x32_S10000x32x1_0_1 v11)
    (n : Fin 10000) (m : Fin 32) (hv : (nb (ix2 n m)).toNat ≤ 9999) :
    min (v12 (ix3 n m (0 : Fin 1))).toInt.toNat 9999 = (nbRow (nb (ix2 n m))).val := by
  subst h12 h11 h10 h9 hc1 h8 h7 hc0 h6 h5 hc
  rw [broadcastInDim_apply _ _ _ _ (ix2 n m) (fun a => by match a with | ⟨0, _⟩ | ⟨1, _⟩ => rfl)]
  simp only [select_apply, cmpi, subi, addi, broadcastInDim_scalar_apply, constantI]
  exact nb_word _ hv

theorem round_val (p : FVec Ideal S10000x32 .f32) (z : FVec Ideal S10000x32x128 .f32) (xn : FVec Ideal S10000x128 .f32)
    (c3 : FVec Ideal S_ .f32) (v15 : FVec Ideal S10000 .f32) (c4 : FVec Ideal S_ .f32)
    (v16 v17 : FVec Ideal S10000 .f32) (v18 : FVec Ideal S10000x1 .f32) (v19 v20 v21 : FVec Ideal S10000x32 .f32)
    (c5 : FVec Ideal S_ .f32) (v22 : FVec Ideal S10000 .f32) (v23 : FVec Ideal S10000x1 .f32) (v24 v25 : FVec Ideal S10000x32 .f32)
    (v26 : FVec Ideal S10000x32x1 .f32) (v27 v28 : FVec Ideal S10000x32x128 .f32) (c6 : FVec Ideal S_ .f32)
    (v29 v30 : FVec Ideal S10000x128 .f32)
    (h3 : c3 = constant S_ .f32 0xFF800000#32)
    (h15 : v15 = Host.reduce FloatOps.maximumf p c3 reducesTo_S10000x32_S10000_d1 h_S_)
    (h4 : c4 = constant S_ .f32 0xFF800000#32)
    (h16 : v16 = broadcastInDim S10000 ![] bcast_S_S10000 c4)
    (h17 : v17 = maximumf v16 v15)
    (h18 : v18 = broadcastInDim S10000x1 ![0] bcast_S10000_S10000x1_0 v17)
    (h19 : v19 = broadcastInDim S10000x32 ![0, 1] bcast_S10000x1_S10000x32_0_1 v18)
    (h20 : v20 = subf p v19) (h21 : v21 = Host.exp v20)
    (h5 : c5 = constant S_ .f32 0x00000000#32)
    (h22 : v22 = Host.reduceAdd v21 c5 reducesTo_S10000x32_S10000_d1 h_S_)
    (h23 : v23 = broadcastInDim S10000x1 ![0] bcast_S10000_S10000x1_0 v22)
    (h24 : v24 = broadcastInDim S10000x32 ![0, 1] bcast_S10000x1_S10000x32_0_1 v23)
    (h25 : v25 = Host.divf v21 v24)
    (h26 : v26 = fun i => shapeCast S10000x32x1 v25 shapeCasts_S10000x32_S10000x32x1 i)
    (h27 : v27 = broadcastInDim S10000x32x128 ![0, 1, 2] bcast_S10000x32x1_S10000x32x128_0_1_2 v26)
    (h28 : v28 = mulf z v27) (h6 : c6 = constant S_ .f32 0x00000000#32)
    (h29 : v29 = Host.reduceAdd v28 c6 reducesTo_S10000x32x128_S10000x128_d1 h_S_)
    (h30 : v30 = addf v29 xn) (n : Fin 10000) (d : Fin 128) :
    v30 (ix2 n d) = rRound (fun m k => z (ix3 n m k)) (fun k => xn (ix2 n k)) (fun m => p (ix2 n m)) d := by
  have hmax : v17 (ix1 n) = rMax (fun m' => p (ix2 n m')) := by
    subst h17 h16 h15 h4 h3
    rw [maximumf_apply, broadcastInDim_scalar_apply, constant_apply, ofBits_negInf_f32,
      Host.reduce_eq_fold_single FloatOps.maximumf p _ reducesTo_S10000x32_S10000_d1 reduces_S10000x32_S10000_d1 h_S_]
    unfold rMax
    congr 1
    have hf : (p ∘ reduces_S10000x32_S10000_d1.lift (ix1 n)) = fun m' : Fin 32 => p (ix2 n m') :=
      funext fun m' => congrArg p (lift_cols32 n m')
    rw [hf, constant_apply, ofBits_negInf_f32]
    rfl
  have hexp : ∀ m' : Fin 32, v21 (ix2 n m') = Ideal.exp (p (ix2 n m') - rMax (fun m'' => p (ix2 n m''))) := by
    intro m'
    subst h21 h20 h19 h18
    show Ideal.exp (subf p _ (ix2 n m')) = _
    rw [subf_apply, spread32, hmax]
  have hsm : ∀ m : Fin 32, v25 (ix2 n m) = rSoftmax (fun m' => p (ix2 n m')) m := fun m => by
    subst h25 h24 h23 h22 h5
    rw [hostDivf_apply, hexp m, spread32]
    unfold rSoftmax
    congr 1
    rw [hostReduceAdd_apply, Ideal.hostReduceAdd_single _ reduces_S10000x32_S10000_d1, constant_apply, Ideal.ofBits_zero_f32]
    congr 1
    refine Finset.sum_congr rfl fun (m' : Fin 32) _ => ?_
    exact (congrArg v21 (lift_cols32 n m')).trans (hexp m')
  have hw : v30 (ix2 n d) = (0 + ∑ m : Fin 32, z (ix3 n m d) * v25 (ix2 n m)) + xn (ix2 n d) := by
    subst h30 h29 h6 h28 h27 h26
    rw [addf_apply, hostReduceAdd_apply, Ideal.hostReduceAdd_single _ reduces_S10000x32x128_S10000x128_d1, constant_apply,
      Ideal.ofBits_zero_f32]
    congr 2
    refine Finset.sum_congr rfl fun (m : Fin 32) _ => ?_
    have hl := lift_mid n d m
    refine (congrArg (fun i => mulf z _ i) hl).trans ?_
    rw [mulf_apply]
    congr 1
    rw [broadcastInDim_apply _ _ _ _ (ix3 n m (0 : Fin 1)) (fun a => by match a with | ⟨0, _⟩ | ⟨1, _⟩ | ⟨2, _⟩ => rfl)]
    exact shapeCast_apply _ _ _ (ix2 n m) (by
      rw [Shape.rowMajor_val_two, Shape.rowMajor_val_three]
      show n.val * 32 + m.val = (n.val * 32 + m.val) * 1 + 0
      omega)
  rw [hw]
  unfold rRound
  congr 2
  refine Finset.sum_congr rfl fun m _ => ?_
  rw [hsm m]

theorem zeros_val (c : FVec Ideal S_ .f32) (v : FVec Ideal S10000x32 .f32) (hc : c = constant S_ .f32 0x00000000#32)
    (hv : v = broadcastInDim S10000x32 ![] bcast_S_S10000x32 c) (n : Fin 10000) (m : Fin 32) : v (ix2 n m) = 0 := by
  rw [hv, hc, broadcastInDim_scalar_apply, constant_apply, Ideal.ofBits_zero_f32]

end Cert.ReferenceIdeal.RefValue
end
-- ==== Proof.LibSsa.lean ====
import Idealize.ShloMosaic.Lib.StableHlo.Run

noncomputable section

namespace Idealize.ShloMosaic.StableHlo.Ssa

open Idealize.ShloMosaic Idealize.ShloMosaic.StableHlo

variable {τ : Topo} {sig : RefSig} {Val : EltTy → Type}

theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

def WritesOnly : List (HloOp τ sig Val) → List (Ref sig .tc) → Prop
  | [], [] => True
  | op :: ops, w :: W => op.writes = {Proc.devRef .tc w} ∧ WritesOnly ops W
  | [], _ :: _ => False
  | _ :: _, [] => False

theorem WritesOnly.drop : ∀ (k : Nat) (ops : List (HloOp τ sig Val)) (W : List (Ref sig .tc)),
    WritesOnly ops W → WritesOnly (ops.drop k) (W.drop k)
  | 0, _, _, h => h
  | _ + 1, [], [], _ => trivial
  | k + 1, _ :: ops, _ :: W, h => WritesOnly.drop k ops W h.2
  | _ + 1, [], _ :: _, h => h.elim
  | _ + 1, _ :: _, [], h => h.elim

theorem after_of_not_written : ∀ (ops : List (HloOp τ sig Val)) (W : List (Ref sig .tc)) (V : Valuation τ sig Val)
    (r : Ref sig .tc), WritesOnly ops W → r ∉ W → after ops V (Proc.devRef .tc r) = V (Proc.devRef .tc r)
  | [], [], _, _, _, _ => rfl
  | op :: ops, w :: W, V, r, h, hr => by
    have hrw : r ≠ w := fun e => hr (e ▸ List.mem_cons_self)
    have hrW : r ∉ W := fun e => hr (List.mem_cons_of_mem _ e)
    rw [after_cons, after_of_not_written ops W _ r h.2 hrW, op.result_of_not_mem V]
    rw [h.1, Finset.mem_singleton]
    exact devRef_ne_of_ne hrw
  | [], _ :: _, _, _, h, _ => h.elim
  | _ :: _, [], _, _, h, _ => h.elim

variable (ops : List (HloOp τ sig Val)) (W : List (Ref sig .tc)) (hW : WritesOnly ops W) (V : Valuation τ sig Val)
include hW

theorem after_at (k : Nat) (op : HloOp τ sig Val) (y : Ref sig .tc)
    (hop : ops.drop k = op :: ops.drop (k + 1)) (hy : y ∉ W.drop (k + 1)) :
    after ops V (Proc.devRef .tc y) = op.result (after (ops.take k) V) (Proc.devRef .tc y) := by
  conv_lhs => rw [← List.take_append_drop k ops, after_append, hop, after_cons]
  exact after_of_not_written _ _ _ y (hW.drop (k + 1)) hy

theorem after_take (k : Nat) (x : Ref sig .tc) (hx : x ∉ W.drop k) :
    after (ops.take k) V (Proc.devRef .tc x) = after ops V (Proc.devRef .tc x) := by
  conv_rhs => rw [← List.take_append_drop k ops, after_append]
  exact (after_of_not_written _ _ _ x (hW.drop k) hx).symm

theorem after_arg (x : Ref sig .tc) (hx : x ∉ W) : after ops V (Proc.devRef .tc x) = V (Proc.devRef .tc x) :=
  after_of_not_written ops W V x hW hx

theorem ssa_nullary (k : Nat) (y : Ref sig .tc) (v : y.ty.Contents Val) (hy)
    (hop : ops.drop k = nullary y v hy :: ops.drop (k + 1)) (hy' : y ∉ W.drop (k + 1)) :
    after ops V (Proc.devRef .tc y) = v := by
  rw [after_at ops W hW V k _ y hop hy']; exact nullary_result y v hy _

theorem ssa_unary (k : Nat) (x y : Ref sig .tc) (f : x.ty.Contents Val → y.ty.Contents Val) (hx hy)
    (hop : ops.drop k = unary x y f hx hy :: ops.drop (k + 1)) (hy' : y ∉ W.drop (k + 1)) (hx' : x ∉ W.drop k) :
    after ops V (Proc.devRef .tc y) = f (after ops V (Proc.devRef .tc x)) := by
  rw [after_at ops W hW V k _ y hop hy', ← after_take ops W hW V k x hx']; exact unary_result x y f hx hy _

theorem ssa_binary (k : Nat) (a b y : Ref sig .tc) (f : a.ty.Contents Val → b.ty.Contents Val → y.ty.Contents Val) (ha hb hy)
    (hop : ops.drop k = binary a b y f ha hb hy :: ops.drop (k + 1)) (hy' : y ∉ W.drop (k + 1))
    (ha' : a ∉ W.drop k) (hb' : b ∉ W.drop k) :
    after ops V (Proc.devRef .tc y) = f (after ops V (Proc.devRef .tc a)) (after ops V (Proc.devRef .tc b)) := by
  rw [after_at ops W hW V k _ y hop hy', ← after_take ops W hW V k a ha', ← after_take ops W hW V k b hb']
  exact binary_result a b y f ha hb hy _

theorem ssa_ternary (k : Nat) (c a b y : Ref sig .tc)
    (f : c.ty.Contents Val → a.ty.Contents Val → b.ty.Contents Val → y.ty.Contents Val) (hc ha hb hy)
    (hop : ops.drop k = ternary c a b y f hc ha hb hy :: ops.drop (k + 1)) (hy' : y ∉ W.drop (k + 1))
    (hc' : c ∉ W.drop k) (ha' : a ∉ W.drop k) (hb' : b ∉ W.drop k) :
    after ops V (Proc.devRef .tc y)
      = f (after ops V (Proc.devRef .tc c)) (after ops V (Proc.devRef .tc a)) (after ops V (Proc.devRef .tc b)) := by
  rw [after_at ops W hW V k _ y hop hy', ← after_take ops W hW V k c hc', ← after_take ops W hW V k a ha',
    ← after_take ops W hW V k b hb']
  exact ternary_result c a b y f hc ha hb hy _

theorem ssa_reshape (k : Nat) (x y : Ref sig .tc) (he : x.ty.elt = y.ty.elt) (hn : x.ty.shape.ShapeCasts y.ty.shape) (hx hy)
    (hop : ops.drop k = reshape (Val := Val) x y he hn hx hy :: ops.drop (k + 1)) (hy' : y ∉ W.drop (k + 1))
    (hx' : x ∉ W.drop k) :
    after ops V (Proc.devRef .tc y) = fun i => he ▸ shapeCast y.ty.shape (after ops V (Proc.devRef .tc x)) hn i := by
  rw [after_at ops W hW V k _ y hop hy', ← after_take ops W hW V k x hx']; exact reshape_result x y he hn hx hy _

end Idealize.ShloMosaic.StableHlo.Ssa

end
-- ==== Proof.RefValue2.lean ====
/-
  The reference's run and its value. The program is a line of 140 host operations, each writing a buffer no other writes, so
  the final contents satisfy one equation per operation (the buffer is that operation's function of its operands' final
  contents). `run`: every execution terminates with the result buffer at what the line leaves there and the two arguments
  unchanged. The stages `s4` … `s98` read the final contents at an index, each by handing a stretch's equations to the lemma of
  the module before that reads the stretch: the normalised array, the gathered neighbours, the zero scores, and for each of
  the three rounds the scores (from the second on) and the round. `value`: under the range of the neighbour words (each, as a
  natural number, at most 9999) the result buffer is, row by row, the specification's `rRow` of the rows of the first argument
  that the row's neighbour words name and of the row itself.
-/
import proofs.«212107_g53927609368716_cont_9to1_m_409_29_alg».proof.Proof.RefValue
import proofs.«212107_g53927609368716_cont_9to1_m_409_29_alg».proof.Proof.RefOps
import proofs.«212107_g53927609368716_cont_9to1_m_409_29_alg».proof.Proof.LibSsa

noncomputable section

namespace Cert.ReferenceIdeal.RefValue

open Cert.ReferenceIdeal Cert.ReferenceIdeal.Gen Cert.ReferenceIdeal.RunP Idealize.ShloMosaic Idealize.ShloMosaic.TcCoe Idealize.SL.Sem
  Idealize.ShloMosaic.StableHlo Idealize.ShloMosaic.StableHlo.Ssa Idealize.ShloMosaic.ValueIdx
open Cert.Routing

/-! ## The run, and the program in single-assignment form -/

/-- The buffer each operation writes, in order. -/
def W : List (Ref sig .tc) :=
  [main_call0_v0, main_call0_cst, main_call0_v1, main_call0_v2, main_v0, main_cst, main_v1, main_v2, main_v3, main_v4, main_c, main_v5, main_v6, main_c_0, main_v7, main_v8, main_c_1, main_v9, main_v10, main_v11, main_v12, main_v13, main_cst_2, main_v14, main_cst_3, main_v15, main_cst_4, main_v16, main_v17, main_v18, main_v19, main_v20, main_v21, main_cst_5, main_v22, main_v23, main_v24, main_v25, main_v26, main_v27, main_v28, main_cst_6, main_v29, main_v30, main_call1_v0, main_call1_cst, main_call1_v1, main_v31, main_v32, main_v33, main_cst_7, main_v34, main_v35, main_v36, main_v37, main_call2_v0, main_call2_cst, main_call2_v1, main_call2_v2, main_v38, main_cst_8, main_v39, main_v40, main_v41, main_v42, main_v43, main_v44, main_v45, main_v46, main_v47, main_cst_9, main_v48, main_cst_10, main_v49, main_cst_11, main_v50, main_v51, main_v52, main_v53, main_v54, main_v55, main_cst_12, main_v56, main_v57, main_v58, main_v59, main_v60, main_v61, main_v62, main_cst_13, main_v63, main_v64, main_call3_v0, main_call3_cst, main_call3_v1, main_v65, main_v66, main_v67, main_cst_14, main_v68, main_v69, main_v70, main_v71, main_call4_v0, main_call4_cst, main_call4_v1, main_call4_v2, main_v72, main_cst_15, main_v73, main_v74, main_v75, main_v76, main_v77, main_v78, main_v79, main_v80, main_v81, main_cst_16, main_v82, main_cst_17, main_v83, main_cst_18, main_v84, main_v85, main_v86, main_v87, main_v88, main_v89, main_cst_19, main_v90, main_v91, main_v92, main_v93, main_v94, main_v95, main_v96, main_cst_20, main_v97, main_v98]

set_option maxRecDepth 8192 in
/-- Each operation writes exactly the buffer `W` names at its position. -/
theorem hW {F : FTy → Type} [FloatOps F] : WritesOnly (ops (F := F)) W := by
  unfold W
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, trivial⟩

/-- On every device, for any float values, from any memory with zero counters: every weakly fair execution of the reference
    terminates with the result buffer at what the line of operations leaves there and the two arguments unchanged. -/
theorem run {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v98) = after ops (fun b => m (c, b)) (Proc.devRef .tc main_v98)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨h c main_v98,
      (h c main_arg0).trans (after_arg ops W hW _ main_arg0 (by decide)),
      (h c main_arg1).trans (after_arg ops W hW _ main_arg1 (by decide))⟩)
    (run_seq scopedRefs_eq scopedSems_eq defs main (fun _ => ops) main_eq (fun _ => ops_sub) m ρ)

/-! ## The value -/

section Value

variable (V : Valuation τ sig (Elt Ideal))

set_option quotPrecheck false in
/-- The final contents of a buffer. -/
local notation "B[" r "]" => after (ops (F := Ideal)) V (Proc.devRef .tc r)

/- The equation of the operation at position `k`, by its number of operands: the operation is read off the list at `k`, and that
   its buffers are written at no later position is decided on the list of written buffers. -/
set_option hygiene false in
local macro "ssa0 " k:num : term => `(ssa_nullary ops W hW V $k _ _ _ rfl (by decide))
set_option hygiene false in
local macro "ssa1 " k:num : term => `(ssa_unary ops W hW V $k _ _ _ _ _ rfl (by decide) (by decide))
set_option hygiene false in
local macro "ssa2 " k:num : term => `(ssa_binary ops W hW V $k _ _ _ _ _ _ _ rfl (by decide) (by decide) (by decide))
set_option hygiene false in
local macro "ssa3 " k:num : term => `(ssa_ternary ops W hW V $k _ _ _ _ _ _ _ _ _ rfl (by decide) (by decide) (by decide) (by decide))
set_option hygiene false in
local macro "ssaR " k:num : term => `(ssa_reshape ops W hW V $k _ _ _ _ _ _ rfl (by decide) (by decide))

/-- The final contents of the buffers the stages are stated over, at their literal types: the two arguments, the normalised
    array, the gathered neighbours, and each round's scores and result. -/
abbrev bX : FVec Ideal S10000x128 .f32 := B[main_arg0]
abbrev bN : IVec S10000x32 32 := B[main_arg1]
abbrev b4 : FVec Ideal S10000x128 .f32 := B[main_v4]
abbrev b13 : FVec Ideal S10000x32x128 .f32 := B[main_v13]
abbrev b14 : FVec Ideal S10000x32 .f32 := B[main_v14]
abbrev b30 : FVec Ideal S10000x128 .f32 := B[main_v30]
abbrev b48 : FVec Ideal S10000x32 .f32 := B[main_v48]
abbrev b64 : FVec Ideal S10000x128 .f32 := B[main_v64]
abbrev b82 : FVec Ideal S10000x32 .f32 := B[main_v82]
abbrev b98 : FVec Ideal S10000x128 .f32 := B[main_v98]

/-- The normalised array: each row divided by its clamped norm. -/
theorem s4 (n : Fin 10000) (d : Fin 128) : b4 V (ix2 n d) = rNorm (fun k => bX V (ix2 n k)) d :=
  norm_val (bX V) B[main_call0_v0] B[main_call0_cst] B[main_call0_v1] B[main_call0_v2] B[main_v0] B[main_cst] B[main_v1] B[main_v2] B[main_v3] (b4 V)
    (ssa2 0) (ssa0 1) (ssa2 2) (ssa1 3) (ssa1 4) (ssa0 5) (ssa1 6) (ssa2 7) (ssa1 8) (ssa2 9) n d

/-- The gathered neighbours: slot `m` of row `n` is the normalised row the neighbour word names. -/
theorem s13 (hNB : ∀ i, (bN V i).toNat ≤ 9999) (n : Fin 10000) (m : Fin 32) (k : Fin 128) :
    b13 V (ix3 n m k) = b4 V (ix2 (nbRow (bN V (ix2 n m))) k) :=
  (congrFun (ssa2 21 : b13 V = Host.gather gather_S10000x128_S10000x32x1_S10000x32x128_2_0_n_n_0_2_1128 (b4 V) B[main_v12]) (ix3 n m k)).trans
    ((gather_val (b4 V) B[main_v12] n m k).trans (congrArg (fun r => b4 V (ix2 r k)) (Fin.ext
      (nbsel_val (bN V) B[main_c] B[main_v5] B[main_v6] B[main_c_0] B[main_v7] B[main_v8] B[main_c_1] B[main_v9] B[main_v10] B[main_v11] B[main_v12]
        (ssa0 10) (ssa1 11) (ssa2 12) (ssa0 13) (ssa1 14) (ssa2 15) (ssa0 16) (ssa1 17) (ssa2 18) (ssa3 19) (ssa1 20) n m (hNB _)))))

/-- The first round's scores: zero. -/
theorem s14 (n : Fin 10000) (m : Fin 32) : b14 V (ix2 n m) = 0 :=
  zeros_val B[main_cst_2] (b14 V) (ssa0 22) (ssa1 23) n m

/-- The first round. -/
theorem s30 (n : Fin 10000) (d : Fin 128) :
    b30 V (ix2 n d) = rRound (fun m k => b13 V (ix3 n m k)) (fun k => b4 V (ix2 n k)) (fun m => b14 V (ix2 n m)) d :=
  round_val (b14 V) (b13 V) (b4 V) B[main_cst_3] B[main_v15] B[main_cst_4] B[main_v16] B[main_v17] B[main_v18] B[main_v19] B[main_v20] B[main_v21] B[main_cst_5] B[main_v22] B[main_v23] B[main_v24] B[main_v25] B[main_v26] B[main_v27] B[main_v28] B[main_cst_6] B[main_v29] (b30 V)
    (ssa0 24) (ssa2 25) (ssa0 26) (ssa1 27) (ssa2 28) (ssa1 29) (ssa1 30) (ssa2 31) (ssa1 32) (ssa0 33) (ssa2 34) (ssa1 35) (ssa1 36) (ssa2 37) (ssaR 38) (ssa1 39) (ssa2 40) (ssa0 41) (ssa2 42) (ssa2 43) n d

/-- The second round's scores. -/
theorem s48 (n : Fin 10000) (m : Fin 32) :
    b48 V (ix2 n m) = dotRow (fun m' k => b13 V (ix3 n m' k)) (rSquash (fun k => b30 V (ix2 n k))) m :=
  dots_val (b13 V) (b30 V) B[main_call1_v0] B[main_call1_cst] B[main_call1_v1] B[main_v31] B[main_v32] B[main_v33] B[main_cst_7] B[main_v34] B[main_v35] B[main_v36] B[main_v37] B[main_call2_v0] B[main_call2_cst] B[main_call2_v1] B[main_call2_v2] B[main_v38] B[main_cst_8] B[main_v39] B[main_v40] B[main_v41] B[main_v42] B[main_v43] B[main_v44] B[main_v45] B[main_v46] B[main_v47] B[main_cst_9] (b48 V)
    (ssa2 44) (ssa0 45) (ssa2 46) (ssa1 47) (ssa2 48) (ssa2 49) (ssa0 50) (ssa1 51) (ssa2 52) (ssa2 53) (ssa1 54) (ssa2 55) (ssa0 56) (ssa2 57) (ssa1 58) (ssa1 59) (ssa0 60) (ssa1 61) (ssa2 62) (ssa1 63) (ssa2 64) (ssa1 65) (ssa2 66) (ssaR 67) (ssa1 68) (ssa2 69) (ssa0 70) (ssa2 71) n m

/-- The second round. -/
theorem s64 (n : Fin 10000) (d : Fin 128) :
    b64 V (ix2 n d) = rRound (fun m k => b13 V (ix3 n m k)) (fun k => b4 V (ix2 n k)) (fun m => b48 V (ix2 n m)) d :=
  round_val (b48 V) (b13 V) (b4 V) B[main_cst_10] B[main_v49] B[main_cst_11] B[main_v50] B[main_v51] B[main_v52] B[main_v53] B[main_v54] B[main_v55] B[main_cst_12] B[main_v56] B[main_v57] B[main_v58] B[main_v59] B[main_v60] B[main_v61] B[main_v62] B[main_cst_13] B[main_v63] (b64 V)
    (ssa0 72) (ssa2 73) (ssa0 74) (ssa1 75) (ssa2 76) (ssa1 77) (ssa1 78) (ssa2 79) (ssa1 80) (ssa0 81) (ssa2 82) (ssa1 83) (ssa1 84) (ssa2 85) (ssaR 86) (ssa1 87) (ssa2 88) (ssa0 89) (ssa2 90) (ssa2 91) n d

/-- The third round's scores. -/
theorem s82 (n : Fin 10000) (m : Fin 32) :
    b82 V (ix2 n m) = dotRow (fun m' k => b13 V (ix3 n m' k)) (rSquash (fun k => b64 V (ix2 n k))) m :=
  dots_val (b13 V) (b64 V) B[main_call3_v0] B[main_call3_cst] B[main_call3_v1] B[main_v65] B[main_v66] B[main_v67] B[main_cst_14] B[main_v68] B[main_v69] B[main_v70] B[main_v71] B[main_call4_v0] B[main_call4_cst] B[main_call4_v1] B[main_call4_v2] B[main_v72] B[main_cst_15] B[main_v73] B[main_v74] B[main_v75] B[main_v76] B[main_v77] B[main_v78] B[main_v79] B[main_v80] B[main_v81] B[main_cst_16] (b82 V)
    (ssa2 92) (ssa0 93) (ssa2 94) (ssa1 95) (ssa2 96) (ssa2 97) (ssa0 98) (ssa1 99) (ssa2 100) (ssa2 101) (ssa1 102) (ssa2 103) (ssa0 104) (ssa2 105) (ssa1 106) (ssa1 107) (ssa0 108) (ssa1 109) (ssa2 110) (ssa1 111) (ssa2 112) (ssa1 113) (ssa2 114) (ssaR 115) (ssa1 116) (ssa2 117) (ssa0 118) (ssa2 119) n m

/-- The third round: the result. -/
theorem s98 (n : Fin 10000) (d : Fin 128) :
    b98 V (ix2 n d) = rRound (fun m k => b13 V (ix3 n m k)) (fun k => b4 V (ix2 n k)) (fun m => b82 V (ix2 n m)) d :=
  round_val (b82 V) (b13 V) (b4 V) B[main_cst_17] B[main_v83] B[main_cst_18] B[main_v84] B[main_v85] B[main_v86] B[main_v87] B[main_v88] B[main_v89] B[main_cst_19] B[main_v90] B[main_v91] B[main_v92] B[main_v93] B[main_v94] B[main_v95] B[main_v96] B[main_cst_20] B[main_v97] (b98 V)
    (ssa0 120) (ssa2 121) (ssa0 122) (ssa1 123) (ssa2 124) (ssa1 125) (ssa1 126) (ssa2 127) (ssa1 128) (ssa0 129) (ssa2 130) (ssa1 131) (ssa1 132) (ssa2 133) (ssaR 134) (ssa1 135) (ssa2 136) (ssa0 137) (ssa2 138) (ssa2 139) n d

/-- THE VALUE: under the neighbour words' range, the result buffer holds, row by row, the reference's routing of the row against
    the rows its neighbour words name, read off the two arguments' contents. The range is stated on the words as naturals:
    each at most 9999. -/
theorem value (hNB : ∀ i, ((V (Proc.devRef .tc main_arg1) : IVec S10000x32 32) i).toNat ≤ 9999) :
    (B[main_v98] : FVec Ideal S10000x128 .f32) = fun i =>
      rRow (fun mm k => (V (Proc.devRef .tc main_arg0) : FVec Ideal S10000x128 .f32)
          (ix2 (nbRow ((V (Proc.devRef .tc main_arg1) : IVec S10000x32 32) (ix2 (i 0) mm))) k))
        (fun k => (V (Proc.devRef .tc main_arg0) : FVec Ideal S10000x128 .f32) (ix2 (i 0) k)) (i 1) := by
  have hX : bX V = V (Proc.devRef .tc main_arg0) := after_arg ops W hW V main_arg0 (by decide)
  have hN : bN V = V (Proc.devRef .tc main_arg1) := after_arg ops W hW V main_arg1 (by decide)
  rw [← hX, ← hN]
  have hNB' : ∀ i, (bN V i).toNat ≤ 9999 := by rw [hN]; exact hNB
  funext i
  obtain ⟨n, d, rfl⟩ : ∃ n d, i = ix2 n d := ⟨i 0, i 1, eq_ix2 i⟩
  show b98 V (ix2 n d) = rRow (fun mm k => bX V (ix2 (nbRow (bN V (ix2 n mm))) k)) (fun k => bX V (ix2 n k)) d
  -- the stages as equations between rows: the normalised row, the normalised neighbour rows, and round by round
  have f4 : (fun k => b4 V (ix2 n k)) = rNorm (fun k => bX V (ix2 n k)) := funext fun k => s4 V n k
  have f13 : (fun m k => b13 V (ix3 n m k)) = fun m => rNorm (fun k => bX V (ix2 (nbRow (bN V (ix2 n m))) k)) :=
    funext fun m => funext fun k => (s13 V hNB' n m k).trans (s4 V _ k)
  have f14 : (fun m => b14 V (ix2 n m)) = fun _ => (0 : EReal) := funext fun m => s14 V n m
  have f30 : (fun k => b30 V (ix2 n k)) = rRound (fun m => rNorm (fun k => bX V (ix2 (nbRow (bN V (ix2 n m))) k)))
      (rNorm (fun k => bX V (ix2 n k))) (fun _ => 0) := funext fun k => by rw [s30, f4, f13, f14]
  have f48 : (fun m => b48 V (ix2 n m)) = dotRow (fun m => rNorm (fun k => bX V (ix2 (nbRow (bN V (ix2 n m))) k))) (rSquash _) :=
    funext fun m => by rw [s48, f13, f30]
  have f64 : (fun k => b64 V (ix2 n k)) = rRound (fun m => rNorm (fun k => bX V (ix2 (nbRow (bN V (ix2 n m))) k)))
      (rNorm (fun k => bX V (ix2 n k))) _ := funext fun k => by rw [s64, f4, f13, f48]
  have f82 : (fun m => b82 V (ix2 n m)) = dotRow (fun m => rNorm (fun k => bX V (ix2 (nbRow (bN V (ix2 n m))) k))) (rSquash _) :=
    funext fun m => by rw [s82, f13, f64]
  rw [s98, f4, f13, f82]
  rfl

/-- The value at an index: element `d` of row `n`. -/
theorem value_at (hNB : ∀ i, ((V (Proc.devRef .tc main_arg1) : IVec S10000x32 32) i).toNat ≤ 9999) (n : Fin 10000) (d : Fin 128) :
    (B[main_v98] : FVec Ideal S10000x128 .f32) (ix2 n d) =
      rRow (fun mm k => (V (Proc.devRef .tc main_arg0) : FVec Ideal S10000x128 .f32)
          (ix2 (nbRow ((V (Proc.devRef .tc main_arg1) : IVec S10000x32 32) (ix2 n mm))) k))
        (fun k => (V (Proc.devRef .tc main_arg0) : FVec Ideal S10000x128 .f32) (ix2 n k)) d :=
  congrFun (value V hNB) (ix2 n d)

end Value

end Cert.ReferenceIdeal.RefValue

end
-- ==== Proof.Claims.lean ====
import proofs.«212107_g53927609368716_cont_9to1_m_409_29_alg».proof.Defs
import proofs.«212107_g53927609368716_cont_9to1_m_409_29_alg».proof.Proof.Launch
import proofs.«212107_g53927609368716_cont_9to1_m_409_29_alg».proof.Proof.WLaunch
import proofs.«212107_g53927609368716_cont_9to1_m_409_29_alg».proof.Proof.Preserves
import proofs.«212107_g53927609368716_cont_9to1_m_409_29_alg».proof.Proof.RefValue2

noncomputable section

namespace Cert.Proof.Claims

open Idealize.ShloMosaic Idealize.SL.Sem
open Idealize.SL Idealize.SL.BI
open scoped Idealize.SL.BI
open Idealize.SL.BI.BIBase

section Conjuncts

variable [Cert.Kernel.Facts] [Cert.KernelIdeal.Facts] [Cert.ReferenceIdeal.Facts] [Cert.Pre_input_domain.Facts]

abbrev MemI := (ℓ : Loc Cert.KernelIdeal.nD Cert.KernelIdeal.τ Cert.KernelIdeal.sig) → Buf (Elt Ideal) ℓ
abbrev MemW := (ℓ : Loc Cert.Kernel.nD Cert.Kernel.τ Cert.Kernel.sig) → Buf (Elt Bits) ℓ
abbrev MemR := (ℓ : Loc Cert.ReferenceIdeal.nD Cert.ReferenceIdeal.τ Cert.ReferenceIdeal.sig) → Buf (Elt Ideal) ℓ
abbrev ResTyI := MemI → (d : Dev Cert.KernelIdeal.nD) → Buf (Elt Ideal) (Cert.Proof.KI.outLoc d)
abbrev ResTyW := MemW → (d : Dev Cert.Kernel.nD) → Buf (Elt Bits) (Cert.Proof.KW.outLoc d)

section Ideal

open Cert.KernelIdeal Cert.Proof.KI

abbrev TileHypI : Prop :=
  ∀ m : MemI, Cert.Pre_KernelIdeal m →
    ∀ q, (K (F := Ideal)).TileObl (D (F := Ideal)) 𝒱 (P₀ m) v₀ q

abbrev MainHypI (ResI : ResTyI) : Prop :=
  ∀ (m : MemI) (ρ : Dev nD → PrngReg), Cert.Pre_KernelIdeal m →
    ∀ (κ : GSem nD τ sig → ℕ) (d : Dev nD),
      iprop((K (F := Ideal)).ctx EH (P₀ m) κ (K (F := Ideal)).lev ∗ (K (F := Ideal)).tcSt EH d 0 ∗ (K (F := Ideal)).tcRes m ρ d ∗ G d)
        ⊢ wp frame (wpE ((K (F := Ideal)).defs (D (F := Ideal))) 𝒱 (SparseCore.T d) none) Set.univ (main d)
            fun _ => iprop((K (F := Ideal)).tcSt EH d 5 ∗ FIN m ResI d)

theorem runI (ResI : ResTyI)
    (htileI : TileHypI) (hmainI : MainHypI ResI) (m : MemI) (ρ : Dev nD → PrngReg)
    (hpre : Cert.Pre_KernelIdeal m) :
    θ_run (Cert.KernelIdeal.defs (F := Ideal)) (Cert.KernelIdeal.threads (F := Ideal)) ⟨m, fun _ => 0, ρ⟩ (QC m ResI) :=
  run_main₀ (F := Ideal) m ρ ResI (htileI m hpre) (hmainI m ρ hpre)

theorem frame_KernelIdeal (ResI : ResTyI)
    (htileI : TileHypI) (hmainI : MainHypI ResI) : Cert.frame_KernelIdeal := fun m ρ hpre =>
  (θ_run Cert.KernelIdeal.defs _ _).mono (fun _ h c => ⟨(h c).1, (h c).2.1⟩) (runI ResI htileI hmainI m ρ hpre)

end Ideal

section Word

open Cert.Kernel Cert.Proof.KW

abbrev TileHypW : Prop :=
  ∀ m : MemW, Cert.Pre_Kernel m →
    ∀ q, (K (F := Bits)).TileObl (D (F := Bits)) 𝒱 (P₀ m) v₀ q

abbrev MainHypW (ResW : ResTyW) : Prop :=
  ∀ (m : MemW) (ρ : Dev nD → PrngReg), Cert.Pre_Kernel m →
    ∀ (κ : GSem nD τ sig → ℕ) (d : Dev nD),
      iprop((K (F := Bits)).ctx EH (P₀ m) κ (K (F := Bits)).lev ∗ (K (F := Bits)).tcSt EH d 0 ∗ (K (F := Bits)).tcRes m ρ d ∗ G d)
        ⊢ wp frame (wpE ((K (F := Bits)).defs (D (F := Bits))) 𝒱 (SparseCore.T d) none) Set.univ (main d)
            fun _ => iprop((K (F := Bits)).tcSt EH d 5 ∗ FIN m ResW d)

theorem frame_Kernel (ResW : ResTyW)
    (htileW : TileHypW) (hmainW : MainHypW ResW) : Cert.frame_Kernel := fun m ρ hpre =>
  (θ_run Cert.Kernel.defs _ _).mono (fun _ h c => ⟨(h c).1, (h c).2.1⟩)
    (run_main₀ (F := Bits) m ρ ResW (htileW m hpre) (hmainW m ρ hpre))

end Word

section Reference

open Cert.Proof.KI

abbrev RefRes (m' : MemR) (c : Dev Cert.ReferenceIdeal.nD) :
    Buf (Elt Ideal) ((c.tc : Thread Cert.ReferenceIdeal.nD Cert.ReferenceIdeal.τ).loc Cert.ReferenceIdeal.main_v98) :=
  StableHlo.after (Cert.ReferenceIdeal.RunP.ops (F := Ideal)) (fun b => m' (c, b)) (Proc.devRef .tc Cert.ReferenceIdeal.main_v98)

theorem frame_ReferenceIdeal : Cert.frame_ReferenceIdeal := fun m' ρ' _ =>
  (θ_run Cert.ReferenceIdeal.defs _ _).mono (fun _ h c => (h c).2) (Cert.ReferenceIdeal.RefValue.run (F := Ideal) m' ρ')

abbrev ValHyp (ResI : ResTyI) : Prop :=
  ∀ (m : MemI)
    (m' : MemR), Cert.Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∀ c : Dev Cert.KernelIdeal.nD, RefRes m' c = ResI m c

theorem algebraic (ResI : ResTyI)
    (htileI : TileHypI) (hmainI : MainHypI ResI) (hval : ValHyp ResI) :
    Cert.algebraic_KernelIdeal_ReferenceIdeal := fun m ρ m' ρ' hpre hagree =>
  ⟨ResI m,
    (θ_run Cert.KernelIdeal.defs _ _).mono (fun _ h c => ⟨(h c).2.2, (h c).1, (h c).2.1⟩) (runI ResI htileI hmainI m ρ hpre),
    (θ_run Cert.ReferenceIdeal.defs _ _).mono (fun _ h c => ⟨(h c).1.trans (hval m m' hpre hagree c), (h c).2⟩)
      (Cert.ReferenceIdeal.RefValue.run (F := Ideal) m' ρ')⟩

end Reference

end Conjuncts

theorem claim_of
    (ResW : ResTyW)
    (htileW : TileHypW) (hmainW : MainHypW ResW)
    (ResI : ResTyI)
    (htileI : TileHypI) (hmainI : MainHypI ResI) (hval : ValHyp ResI) : Cert.Claim :=
  ⟨Cert.Kernel.Gen.facts, Cert.KernelIdeal.Gen.facts, Cert.ReferenceIdeal.Gen.facts, Cert.Pre_input_domain.Gen.facts,
    frame_Kernel ResW htileW hmainW, frame_KernelIdeal ResI htileI hmainI, frame_ReferenceIdeal, Cert.Proof.KI.preserves,
    algebraic ResI htileI hmainI hval⟩

end Cert.Proof.Claims

end
-- ==== Proof.Main.lean ====
import proofs.«212107_g53927609368716_cont_9to1_m_409_29_alg».proof.Proof.Setup
import proofs.«212107_g53927609368716_cont_9to1_m_409_29_alg».proof.Proof.Launch
import proofs.«212107_g53927609368716_cont_9to1_m_409_29_alg».proof.Proof.ScSplit0
import proofs.«212107_g53927609368716_cont_9to1_m_409_29_alg».proof.Proof.ScSplit1
import proofs.«212107_g53927609368716_cont_9to1_m_409_29_alg».proof.Proof.ScSplit2
import proofs.«212107_g53927609368716_cont_9to1_m_409_29_alg».proof.Proof.ScSplit3
import proofs.«212107_g53927609368716_cont_9to1_m_409_29_alg».proof.Proof.ScSplit4
import Idealize.ShloMosaic.Lib.StableHlo.Run
import Idealize.ShloMosaic.Lib.Pipeline.Frame
import Idealize.ShloMosaic.Lib.Tactic

noncomputable section

namespace Cert.Proof.KI.Main

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split held_congr wp_hlo_within wp_seq seq after)
open Idealize.ShloMosaic.Tactic

variable {F : FTy → Type} [FloatOps F] [Named F] [Cert.KernelIdeal.Facts]

local notation "𝕄" => MT nD τ sig (HIx 5) (Elt F) ℕ UU ℕ

abbrev C (s : Shape) (e : EltTy) : Type := (⟨s, e⟩ : BufTy).Contents (Elt F)

abbrev xBand (o : ℕ) (h : S10000x128.Slices ![o, 0] S2000x128) (X : C (F := F) S10000x128 .f32) : C (F := F) S2000x128 .f32 :=
  extractStridedSlice S2000x128 ![o, 0] X h
abbrev iBand (o : ℕ) (h : S10000x32.Slices ![o, 0] S2000x32) (N : C (F := F) S10000x32 .i32) : C (F := F) S2000x32 .i32 :=
  extractStridedSlice S2000x32 ![o, 0] N h

abbrev op_c : HloOp τ sig (Elt F) := StableHlo.nullary main_c (constantI S_ 32 0#32)
abbrev op_v0 : HloOp τ sig (Elt F) := StableHlo.unary main_c main_v0 (broadcastInDim S10000x32 ![] bcast_S_S10000x32 : C (F := F) S_ .i32 → C (F := F) S10000x32 .i32)
abbrev op_v1 : HloOp τ sig (Elt F) := StableHlo.binary main_arg1 main_v0 main_v1 (cmpi .eq : C (F := F) S10000x32 .i32 → C (F := F) S10000x32 .i32 → C (F := F) S10000x32 .i1)
abbrev op_c0 : HloOp τ sig (Elt F) := StableHlo.nullary main_c_0 (constantI S_ 32 1#32)
abbrev op_v2 : HloOp τ sig (Elt F) := StableHlo.unary main_c_0 main_v2 (broadcastInDim S10000x32 ![] bcast_S_S10000x32 : C (F := F) S_ .i32 → C (F := F) S10000x32 .i32)
abbrev op_v3 : HloOp τ sig (Elt F) := StableHlo.binary main_arg1 main_v2 main_v3 (subi : C (F := F) S10000x32 .i32 → C (F := F) S10000x32 .i32 → C (F := F) S10000x32 .i32)
abbrev op_c1 : HloOp τ sig (Elt F) := StableHlo.nullary main_c_1 (constantI S_ 32 9999#32)
abbrev op_w0 : HloOp τ sig (Elt F) := StableHlo.TRef.unary (.of main_c_1 : StableHlo.TRef sig ⟨S_, .i32⟩) main_call0.v0 id
abbrev op_w1 : HloOp τ sig (Elt F) := StableHlo.TRef.unary main_call0.v0 main_call0.v1 (broadcastInDim S10000x32 ![] bcast_S_S10000x32)
abbrev op_v4 : HloOp τ sig (Elt F) := StableHlo.TRef.ternary (.of main_v1 : StableHlo.TRef sig ⟨S10000x32, .i1⟩) main_call0.v1 (.of main_v3 : StableHlo.TRef sig ⟨S10000x32, .i32⟩) main_call0.v2 select
abbrev op_v5 : HloOp τ sig (Elt F) := StableHlo.unary main_v4 main_v5 (iBand 0 slices_S10000x32_S2000x32_0_0)
abbrev op_v6 : HloOp τ sig (Elt F) := StableHlo.reshape main_v5 main_v6 rfl shapeCasts_S2000x32_S32x25x80
abbrev op_v8 : HloOp τ sig (Elt F) := StableHlo.unary main_arg0 main_v8 (xBand 0 slices_S10000x128_S2000x128_0_0)
abbrev op_v10 : HloOp τ sig (Elt F) := StableHlo.unary main_v4 main_v10 (iBand 2000 slices_S10000x32_S2000x32_2000_0)
abbrev op_v11 : HloOp τ sig (Elt F) := StableHlo.reshape main_v10 main_v11 rfl shapeCasts_S2000x32_S32x25x80
abbrev op_v13 : HloOp τ sig (Elt F) := StableHlo.unary main_arg0 main_v13 (xBand 2000 slices_S10000x128_S2000x128_2000_0)
abbrev op_v15 : HloOp τ sig (Elt F) := StableHlo.unary main_v4 main_v15 (iBand 4000 slices_S10000x32_S2000x32_4000_0)
abbrev op_v16 : HloOp τ sig (Elt F) := StableHlo.reshape main_v15 main_v16 rfl shapeCasts_S2000x32_S32x25x80
abbrev op_v18 : HloOp τ sig (Elt F) := StableHlo.unary main_arg0 main_v18 (xBand 4000 slices_S10000x128_S2000x128_4000_0)
abbrev op_v20 : HloOp τ sig (Elt F) := StableHlo.unary main_v4 main_v20 (iBand 6000 slices_S10000x32_S2000x32_6000_0)
abbrev op_v21 : HloOp τ sig (Elt F) := StableHlo.reshape main_v20 main_v21 rfl shapeCasts_S2000x32_S32x25x80
abbrev op_v23 : HloOp τ sig (Elt F) := StableHlo.unary main_arg0 main_v23 (xBand 6000 slices_S10000x128_S2000x128_6000_0)
abbrev op_v25 : HloOp τ sig (Elt F) := StableHlo.unary main_v4 main_v25 (iBand 8000 slices_S10000x32_S2000x32_8000_0)
abbrev op_v26 : HloOp τ sig (Elt F) := StableHlo.reshape main_v25 main_v26 rfl shapeCasts_S2000x32_S32x25x80
abbrev op_v28 : HloOp τ sig (Elt F) := StableHlo.unary main_arg0 main_v28 (xBand 8000 slices_S10000x128_S2000x128_8000_0)
abbrev op_v30 : HloOp τ sig (Elt F) := StableHlo.nary ![main_v9, main_v14, main_v19, main_v24, main_v29] main_v30 (fun u => concatenate S10000x128 0 [⟨S2000x128, u 0⟩, ⟨S2000x128, u 1⟩, ⟨S2000x128, u 2⟩, ⟨S2000x128, u 3⟩, ⟨S2000x128, u 4⟩] concatenates_S2000x128_S2000x128_S2000x128_S2000x128_S2000x128_S10000x128_d0)

abbrev ops0 : List (HloOp τ sig (Elt F)) := [op_c, op_v0, op_v1, op_c0, op_v2, op_v3, op_c1, op_w0, op_w1, op_v4, op_v5, op_v6]

abbrev region (s : Fin 5) : Prog (TpuEff nD τ sig (Elt F) (SparseCore.Sig (ΛP (F := F)) 5) .tc) PUnit :=
  Prog.lift (.customCall (SparseCore.inner (Pipeline.entry s)) ())

theorem main_eq (d : Dev nD) : main (F := F) d =
    (seq ops0 >>= fun _ => (K (F := F)).run d 0 >>= fun _ => seq [op_v8] >>= fun _ => region 0 >>= fun _ =>
     seq [op_v10, op_v11] >>= fun _ => (K (F := F)).run d 1 >>= fun _ => seq [op_v13] >>= fun _ => region 1 >>= fun _ =>
     seq [op_v15, op_v16] >>= fun _ => (K (F := F)).run d 2 >>= fun _ => seq [op_v18] >>= fun _ => region 2 >>= fun _ =>
     seq [op_v20, op_v21] >>= fun _ => (K (F := F)).run d 3 >>= fun _ => seq [op_v23] >>= fun _ => region 3 >>= fun _ =>
     seq [op_v25, op_v26] >>= fun _ => (K (F := F)).run d 4 >>= fun _ => seq [op_v28] >>= fun _ => region 4 >>= fun _ =>
     seq [op_v30] >>= fun _ => pure ⟨⟩) := rfl

abbrev r (b : Ref sig .tc) : DevRef τ sig := Proc.devRef .tc b

abbrev SS : Finset (DevRef τ sig) := Pipeline.ucRefs τ sig

theorem mem_SS (b : Ref sig .tc) (h : (r b).isScoped = false := by rfl) : r b ∈ SS :=
  Finset.mem_filter.mpr ⟨StableHlo.devRef_mem_tcRefs b, fun h' => Bool.false_ne_true (h.symm.trans h')⟩

abbrev rest3 (a b c : DevRef τ sig) : Finset (DevRef τ sig) := ((SS.erase a).erase b).erase c

omit [FloatOps F] [Named F] [Cert.KernelIdeal.Facts] in
theorem held3 (thr : Thread nD τ) {a b c : DevRef τ sig} (ha : a ∈ SS) (hb : b ∈ SS) (hc : c ∈ SS)
    (hab : a ≠ b) (hac : a ≠ c) (hbc : b ≠ c) (V : Valuation τ sig (Elt F)) :
    (held thr SS V : sProp 𝕄) = iprop((((thr.1, a) : Loc nD τ sig) ↦{fullShare} V a) ∗ (((thr.1, b) : Loc nD τ sig) ↦{fullShare} V b)
      ∗ (((thr.1, c) : Loc nD τ sig) ↦{fullShare} V c) ∗ held thr (rest3 a b c) V) := by
  unfold held
  rw [SparseCore.bigSep_erase' ha, SparseCore.bigSep_erase' (Finset.mem_erase.mpr ⟨hab.symm, hb⟩),
    SparseCore.bigSep_erase' (Finset.mem_erase.mpr ⟨hbc.symm, Finset.mem_erase.mpr ⟨hac.symm, hc⟩⟩)]

omit [FloatOps F] [Named F] [Cert.KernelIdeal.Facts] in

theorem held3_of (thr : Thread nD τ) {a b c : DevRef τ sig} (ha : a ∈ SS) (hb : b ∈ SS) (hc : c ∈ SS)
    (hab : a ≠ b) (hac : a ≠ c) (hbc : b ≠ c) (V W : Valuation τ sig (Elt F)) (hW : ∀ x, x ≠ a → x ≠ b → x ≠ c → W x = V x) :
    (held thr SS W : sProp 𝕄) = iprop((((thr.1, a) : Loc nD τ sig) ↦{fullShare} W a) ∗ (((thr.1, b) : Loc nD τ sig) ↦{fullShare} W b)
      ∗ (((thr.1, c) : Loc nD τ sig) ↦{fullShare} W c) ∗ held thr (rest3 a b c) V) := by
  rw [held3 thr ha hb hc hab hac hbc W, held_congr thr (V := W) (V' := V) fun x hx =>
    hW x (Finset.ne_of_mem_erase (Finset.mem_of_mem_erase (Finset.mem_of_mem_erase hx)))
      (Finset.ne_of_mem_erase (Finset.mem_of_mem_erase hx)) (Finset.ne_of_mem_erase hx)]

abbrev TT (d : Dev nD) : Thread nD τ := SparseCore.T d
abbrev loc (d : Dev nD) (b : Ref sig .tc) : Loc nD τ sig := (SparseCore.T d).loc b

abbrev owesB (d : Dev nD) (n : ℕ) : sProp 𝕄 :=
  iprop(∃ W, ⌜(K (F := F)).WBelow (TT d) W (8 * n)⌝ ∗ owes (TT d) ((K (F := F)).Otc d n) W)

theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

section Pre

theorem hS_of (ops : List (HloOp τ sig (Elt F))) (h : ops.Forall fun op => op.bufs ⊆ StableHlo.tcRefs τ sig) : ∀ op ∈ ops, op.bufs ⊆ SS :=
  fun op hop => Pipeline.sub_ucRefs op ((List.forall_iff_forall_mem.mp h) op hop)

theorem hS0 : ∀ op ∈ (ops0 : List (HloOp τ sig (Elt F))), op.bufs ⊆ SS :=
  hS_of _ (by simp only [ops0, List.Forall, StableHlo.nullary_bufs_sub, StableHlo.unary_bufs_sub, StableHlo.binary_bufs_sub, StableHlo.ternary_bufs_sub, StableHlo.reshape_bufs_sub, and_self])
theorem hf0 : ∀ op ∈ (ops0 : List (HloOp τ sig (Elt F))), op.fresh = ∅ := by
  intro op h
  simp only [ops0, List.mem_cons, List.not_mem_nil, or_false] at h
  rcases h with rfl | rfl | rfl | rfl | rfl | rfl | rfl | rfl | rfl | rfl | rfl | rfl <;> rfl

abbrev wr0 : List (Ref sig .tc) := [main_c, main_v0, main_v1, main_c_0, main_v2, main_v3, main_c_1, main_call0_v0, main_call0_v1, main_v4, main_v5, main_v6]

theorem pre0_ne (V : Valuation τ sig (Elt F)) (b : Ref sig .tc) (hb : b ∉ wr0) : after ops0 V (r b) = V (r b) :=
  StableHlo.after_of_writes_sub (W := wr0) ops0 V (by
    simp only [ops0, List.Forall, StableHlo.nullary_writes, StableHlo.unary_writes, StableHlo.binary_writes, StableHlo.ternary_writes, StableHlo.reshape_writes]
    decide) hb

theorem pre0_4 (V : Valuation τ sig (Elt F)) : after ops0 V (r main_v4) = Pre.idxAll (V (r main_arg1)) := by
  after_results_simp
  rfl
theorem pre0_i (V : Valuation τ sig (Elt F)) : after ops0 V (r main_v6) = Pre.idxOf (V (r main_arg1)) 0 := by
  after_results_simp
  rfl

theorem hS2 {a b : HloOp τ sig (Elt F)}
    (ha : a.bufs ⊆ StableHlo.tcRefs τ sig := by simp only [StableHlo.unary_bufs_sub, StableHlo.reshape_bufs_sub])
    (hb : b.bufs ⊆ StableHlo.tcRefs τ sig := by simp only [StableHlo.unary_bufs_sub, StableHlo.reshape_bufs_sub]) :
    ∀ op ∈ [a, b], op.bufs ⊆ SS := hS_of _ ⟨ha, hb⟩
theorem hf2 {a b : HloOp τ sig (Elt F)} (ha : a.fresh = ∅ := by rfl) (hb : b.fresh = ∅ := by rfl) : ∀ op ∈ [a, b], op.fresh = ∅ := by
  intro op h
  simp only [List.mem_cons, List.not_mem_nil, or_false] at h
  rcases h with rfl | rfl <;> assumption

theorem hSe : ∀ op ∈ ([op_v30] : List (HloOp τ sig (Elt F))), op.bufs ⊆ SS :=
  hS_of _ (by simp only [List.Forall, StableHlo.nary_bufs_sub])
theorem hfe : ∀ op ∈ ([op_v30] : List (HloOp τ sig (Elt F))), op.fresh = ∅ := fun op h => by
  rcases List.mem_singleton.mp h with rfl; rfl
theorem post_ne (V : Valuation τ sig (Elt F)) (b : Ref sig .tc) (h : b ≠ main_v30) : after [op_v30] V (r b) = V (r b) := by
  rw [StableHlo.after_cons, StableHlo.after_nil, StableHlo.nary_result_ne _ _ _ _ _ _ h]
theorem post_out (V : Valuation τ sig (Elt F)) : after [op_v30] V (r main_v30)
    = concatenate S10000x128 0 [⟨S2000x128, V (r main_v9)⟩, ⟨S2000x128, V (r main_v14)⟩, ⟨S2000x128, V (r main_v19)⟩, ⟨S2000x128, V (r main_v24)⟩, ⟨S2000x128, V (r main_v29)⟩]
        concatenates_S2000x128_S2000x128_S2000x128_S2000x128_S2000x128_S10000x128_d0 := by
  rw [StableHlo.after_cons, StableHlo.after_nil, StableHlo.nary_result]
  rfl

end Pre

section Stage

variable (P : (K (F := F)).Pay (nD := nD) (Val := Elt F) (Name := ℕ) (U := UU))
variable {lv : GSem nD τ sig → HIx 5 → ℕ} (d : Dev nD) (q : Fin 5) (bi bz bx bo : Ref sig .tc)
variable (X : Buf (Elt F) (loc d main_arg0)) (I : Buf (Elt F) (loc d bi)) (Z : Buf (Elt F) (loc d bz)) (XS : Buf (Elt F) (loc d bx))
variable (Oin O : Buf (Elt F) (loc d bo))

def stV (V : Valuation τ sig (Elt F)) : Valuation τ sig (Elt F) :=
  Function.update (Function.update (Function.update V (r bz) Z) (r bx) XS) (r bo) O

theorem stV_of_ne (V : Valuation τ sig (Elt F)) (b : DevRef τ sig) (h1 : b ≠ r bz) (h2 : b ≠ r bx) (h3 : b ≠ r bo) :
    stV d bz bx bo Z XS O V b = V b := by
  unfold stV; rw [Function.update_of_ne h3, Function.update_of_ne h2, Function.update_of_ne h1]
theorem stV_o (V : Valuation τ sig (Elt F)) : stV d bz bx bo Z XS O V (r bo) = O := by
  unfold stV; rw [Function.update_self]
theorem stV_z (nzx : r bz ≠ r bx) (nzo : r bz ≠ r bo) (V : Valuation τ sig (Elt F)) : stV d bz bx bo Z XS O V (r bz) = Z := by
  unfold stV; rw [Function.update_of_ne nzo, Function.update_of_ne nzx, Function.update_self]
theorem stV_xs (nxo : r bx ≠ r bo) (V : Valuation τ sig (Elt F)) : stV d bz bx bo Z XS O V (r bx) = XS := by
  unfold stV; rw [Function.update_of_ne nxo, Function.update_self]

abbrev opX (f : main_arg0.ty.Contents (Elt F) → bx.ty.Contents (Elt F)) (hy : bx.space ≠ .host ∧ (r bx).isScoped = false) :
    HloOp τ sig (Elt F) := StableHlo.unary main_arg0 bx f (by exact ⟨by decide, rfl⟩) hy

-- One call and its pipeline, over any four arrays told apart: three arrays leave the held set and come back, twice.
set_option backward.isDefEq.respectTransparency.types false in
theorem stage (GR : sProp 𝕄) (hlv : (K (F := F)).Refines lv)
    (f : main_arg0.ty.Contents (Elt F) → bx.ty.Contents (Elt F)) (hy : bx.space ≠ .host ∧ (r bx).isScoped = false)
    (mi : r bi ∈ SS) (mz : r bz ∈ SS) (mo : r bo ∈ SS)
    (nai : r main_arg0 ≠ r bi) (naz : r main_arg0 ≠ r bz) (niz : r bi ≠ r bz) (nzx : r bz ≠ r bx) (nzo : r bz ≠ r bo) (nxo : r bx ≠ r bo)
    (hin : iprop((loc d main_arg0 ↦{fullShare} X) ∗ (loc d bi ↦{fullShare} I) ∗ ∃ g, loc d bz ↦{fullShare} g)
      ⊢ (|={Set.univ}=> bigSep Finset.univ fun c : Fin ((K (F := F)).nCore q) => P.st q d c : sProp 𝕄))
    (hout : (bigSep Finset.univ fun c : Fin ((K (F := F)).nCore q) => P.dn q d c : sProp 𝕄)
      ⊢ iprop((loc d main_arg0 ↦{fullShare} X) ∗ (loc d bi ↦{fullShare} I) ∗ loc d bz ↦{fullShare} Z))
    (hreg : iprop(boundary (TT d) ∗ ((loc d bz ↦{fullShare} Z) ∗ (loc d bx ↦{fullShare} f X) ∗ (loc d bo ↦{fullShare} Oin))
          ∗ owesB d (q.val + 1) ∗ levAts (K (F := F)).L lv ∗ GR)
      ⊢ wp frame (wpE ((K (F := F)).defs (D (F := F))) 𝒱 (TT d) none) Set.univ (region (F := F) q)
          fun _ => iprop(boundary (TT d) ∗ ((loc d bz ↦{fullShare} Z) ∗ (loc d bx ↦{fullShare} f X) ∗ (loc d bo ↦{fullShare} O))
            ∗ owesB d (q.val + 1)))
    (κ : GSem nD τ sig → ℕ) (V : Valuation τ sig (Elt F)) (hx : V (r main_arg0) = X) (hi : V (r bi) = I) (ho : V (r bo) = Oin)
    {β : Type} (k : PUnit → Prog (TpuEff nD τ sig (Elt F) (SparseCore.Sig (ΛP (F := F)) 5) .tc) β) (Φ : β → sProp 𝕄) :
    iprop((K (F := F)).ctx EH P κ lv ∗ (K (F := F)).tcSt EH d q.val ∗ boundary (TT d) ∗ held (TT d) SS V ∗ GR
        ∗ (((K (F := F)).tcSt EH d (q.val + 1) ∗ boundary (TT d) ∗ held (TT d) SS (stV d bz bx bo Z (f X) O V))
            -∗ wp frame (wpE ((K (F := F)).defs (D (F := F))) 𝒱 (TT d) none) Set.univ (k ⟨⟩) Φ))
      ⊢ wp frame (wpE ((K (F := F)).defs (D (F := F))) 𝒱 (TT d) none) Set.univ
          ((K (F := F)).run d q >>= fun _ => seq [opX bx f hy] >>= fun _ => region q >>= k) Φ := by
  have mx : r bx ∈ SS := mem_SS bx hy.2
  have e1 : (held (TT d) SS V : sProp 𝕄) = iprop((loc d main_arg0 ↦{fullShare} X) ∗ (loc d bi ↦{fullShare} I)
      ∗ (loc d bz ↦{fullShare} V (r bz)) ∗ held (TT d) (rest3 (r main_arg0) (r bi) (r bz)) V) := by
    rw [held3 (TT d) (mem_SS main_arg0) mi mz nai naz niz V, hx, hi]
  have e2 : (held (TT d) SS (Function.update V (r bz) Z) : sProp 𝕄) = iprop((loc d main_arg0 ↦{fullShare} X) ∗ (loc d bi ↦{fullShare} I)
      ∗ (loc d bz ↦{fullShare} Z) ∗ held (TT d) (rest3 (r main_arg0) (r bi) (r bz)) V) := by
    rw [held3_of (TT d) (mem_SS main_arg0) mi mz nai naz niz V _ (fun x _ _ h => Function.update_of_ne h _ _),
      Function.update_of_ne naz, Function.update_of_ne niz, Function.update_self, hx, hi]
  have a_ne : ∀ (W : Valuation τ sig (Elt F)) (x : DevRef τ sig), x ≠ r bx → after [opX bx f hy] W x = W x := fun W x h => by
    rw [StableHlo.after_cons, StableHlo.after_nil, HloOp.result_of_not_mem _ _ (by rw [StableHlo.unary_writes, Finset.mem_singleton]; exact h)]
  have a_z : after [opX bx f hy] (Function.update V (r bz) Z) (r bz) = Z := by rw [a_ne _ _ nzx, Function.update_self]
  have a_xs : after [opX bx f hy] (Function.update V (r bz) Z) (r bx) = f X := by
    rw [StableHlo.after_cons, StableHlo.after_nil, StableHlo.unary_result, Function.update_of_ne naz, hx]
  have a_o : after [opX bx f hy] (Function.update V (r bz) Z) (r bo) = Oin := by
    rw [a_ne _ _ nxo.symm, Function.update_of_ne nzo.symm, ho]
  have e3 : (held (TT d) SS (after [opX bx f hy] (Function.update V (r bz) Z)) : sProp 𝕄) = iprop((loc d bz ↦{fullShare} Z) ∗ (loc d bx ↦{fullShare} f X)
      ∗ (loc d bo ↦{fullShare} Oin) ∗ held (TT d) (rest3 (r bz) (r bx) (r bo)) (after [opX bx f hy] (Function.update V (r bz) Z))) := by
    rw [held3 (TT d) mz mx mo nzx nzo nxo _, a_z, a_xs, a_o]
  have e4 : (held (TT d) SS (stV d bz bx bo Z (f X) O V) : sProp 𝕄) = iprop((loc d bz ↦{fullShare} Z) ∗ (loc d bx ↦{fullShare} f X)
      ∗ (loc d bo ↦{fullShare} O) ∗ held (TT d) (rest3 (r bz) (r bx) (r bo)) (after [opX bx f hy] (Function.update V (r bz) Z))) := by
    rw [held3_of (TT d) mz mx mo nzx nzo nxo (after [opX bx f hy] (Function.update V (r bz) Z)) _
      (fun x h1 h2 h3 => by rw [stV_of_ne d bz bx bo Z (f X) O V x h1 h2 h3, a_ne _ _ h2, Function.update_of_ne h1]),
      stV_z d bz bx bo Z (f X) O nzx nzo, stV_xs d bz bx bo Z (f X) O nxo, stV_o]
  have hS : ∀ op ∈ [opX bx f hy], op.bufs ⊆ SS := fun op h => by
    rcases List.mem_singleton.mp h with rfl; exact Pipeline.sub_ucRefs _ (StableHlo.unary_bufs_sub _ _ _ _ _)
  have hf : ∀ op ∈ [opX bx f hy], op.fresh = ∅ := fun op h => by
    rcases List.mem_singleton.mp h with rfl; rfl
  rw [wp_bind]
  iintro ⟨#Hctx, Hst, Hb, Hheld, HG, Hk⟩
  ihave Hh := (Entails.of_eq e1) $$ Hheld
  icases Hh with ⟨Hx, Hi, Hz, Hrest⟩
  iapply (fupd_wp frame (wpE ((K (F := F)).defs (D (F := F))) 𝒱 (TT d) none) Set.univ _ _)
  imod hin $$ [Hx Hi Hz] with Hstp
  · isplitl [Hx]; · iexact Hx
    isplitl [Hi]; · iexact Hi
    iexists _; iexact Hz
  imodintro
  iapply ((K (F := F)).wp_run (D (F := F)) 𝒱 (EH := EH) (P := P) κ d q lv hlv) $$ [Hst Hstp Hb Hrest HG Hk]
  isplitr; · iexact Hctx
  isplitl [Hst]; · iexact Hst
  isplitl [Hstp]; · iexact Hstp
  iintro ⟨Hst, Hdn⟩
  ihave Hdn' := hout $$ Hdn
  icases Hdn' with ⟨Hx, Hi, Hz⟩
  ihave Hheld := (Entails.of_eq e2.symm) $$ [Hx Hi Hz Hrest]
  · isplitl [Hx]; · iexact Hx
    isplitl [Hi]; · iexact Hi
    isplitl [Hz]; · iexact Hz
    iexact Hrest
  iapply (wp_seq 𝒱 none Set.univ d SS (fun _ => region q >>= k) [opX bx f hy] hS hf (Function.update V (r bz) Z)) $$ [Hb Hheld]
  · isplitl [Hb]; · iexact Hb
    iexact Hheld
  iintro ⟨Hb, Hheld⟩
  rw [wp_bind]
  ihave Hh := (Entails.of_eq e3) $$ Hheld
  icases Hh with ⟨Hz, Hxs, Ho, Hrest⟩
  unfold SparseCore.Cfg.tcSt
  icases Hst with ⟨HO, Hst⟩
  iapply (wp_wand_r frame _ Set.univ)
  isplitl [Hb Hz Hxs Ho HO HG]
  · iapply hreg
    isplitl [Hb]; · iexact Hb
    isplitl [Hz Hxs Ho]
    · isplitl [Hz]; · iexact Hz
      isplitl [Hxs]; · iexact Hxs
      iexact Ho
    isplitl [HO]; · iexact HO
    isplitr; · iapply (SparseCore.Cfg.ctx_levAts κ); iexact Hctx
    iexact HG
  iintro %_ ⟨Hb, ⟨Hz, Hxs, Ho⟩, HO⟩
  iapply Hk
  isplitl [HO Hst]
  · isplitl [HO]; · iexact HO
    iexact Hst
  isplitl [Hb]; · iexact Hb
  iapply (Entails.of_eq e4.symm)
  isplitl [Hz]; · iexact Hz
  isplitl [Hxs]; · iexact Hxs
  isplitl [Ho]; · iexact Ho
  iexact Hrest

end Stage

section Agree

def Agr (ws : List (Ref sig .tc)) (W W' : Valuation τ sig (Elt F)) : Prop := ∀ b, b ∉ ws → W' (r b) = W (r b)

theorem agr_trans {ws ws' : List (Ref sig .tc)} {W W' W'' : Valuation τ sig (Elt F)} (h : Agr ws W W') (h' : Agr ws' W' W'') :
    Agr (ws ++ ws') W W'' :=
  fun b hb => (h' b fun hm => hb (List.mem_append_right _ hm)).trans (h b fun hm => hb (List.mem_append_left _ hm))

-- Two operations in a row change only their two results.
theorem agr2 {a b : HloOp τ sig (Elt F)} {V W : Valuation τ sig (Elt F)} (hW : W = after [a, b] V) (ya yb : Ref sig .tc)
    (ha : a.writes = {r ya} := by rfl) (hb : b.writes = {r yb} := by rfl) : Agr [ya, yb] V W := fun c hc => by
  simp only [List.mem_cons, List.not_mem_nil, or_false, not_or] at hc
  rw [hW, StableHlo.after_cons, StableHlo.after_cons, StableHlo.after_nil,
    b.result_of_not_mem _ (by rw [hb, Finset.mem_singleton]; exact StableHlo.devRef_ne_of_ne hc.2),
    a.result_of_not_mem _ (by rw [ha, Finset.mem_singleton]; exact StableHlo.devRef_ne_of_ne hc.1)]

theorem agr_stV {d : Dev nD} {bz bx bo : Ref sig .tc} {Z : Buf (Elt F) (loc d bz)} {XS : Buf (Elt F) (loc d bx)} {O : Buf (Elt F) (loc d bo)}
    {V W : Valuation τ sig (Elt F)} (hW : W = stV d bz bx bo Z XS O V) : Agr [bz, bx, bo] V W := fun b hb => by
  simp only [List.mem_cons, List.not_mem_nil, or_false, not_or] at hb
  rw [hW]
  exact stV_of_ne d bz bx bo Z XS O V _ (StableHlo.devRef_ne_of_ne hb.1) (StableHlo.devRef_ne_of_ne hb.2.1) (StableHlo.devRef_ne_of_ne hb.2.2)

end Agree

section HMain

variable (m : (ℓ : Loc nD τ sig) → Buf (Elt F) ℓ) (ρ : Dev nD → PrngReg)

def V0 (d : Dev nD) : Valuation τ sig (Elt F) := fun b => m (d, b)

abbrev Z0 (d : Dev nD) : Buf (Elt F) (loc d main_v7) := Sc0.gath d (m (xLoc d)) (I0 m d)
abbrev XS0 (d : Dev nD) : Buf (Elt F) (loc d main_v8) := xBand 0 slices_S10000x128_S2000x128_0_0 (m (xLoc d))

abbrev Z1 (d : Dev nD) : Buf (Elt F) (loc d main_v12) := Sc1.gath d (m (xLoc d)) (I1 m d)
abbrev XS1 (d : Dev nD) : Buf (Elt F) (loc d main_v13) := xBand 2000 slices_S10000x128_S2000x128_2000_0 (m (xLoc d))

abbrev Z2 (d : Dev nD) : Buf (Elt F) (loc d main_v17) := Sc2.gath d (m (xLoc d)) (I2 m d)
abbrev XS2 (d : Dev nD) : Buf (Elt F) (loc d main_v18) := xBand 4000 slices_S10000x128_S2000x128_4000_0 (m (xLoc d))

abbrev Z3 (d : Dev nD) : Buf (Elt F) (loc d main_v22) := Sc3.gath d (m (xLoc d)) (I3 m d)
abbrev XS3 (d : Dev nD) : Buf (Elt F) (loc d main_v23) := xBand 6000 slices_S10000x128_S2000x128_6000_0 (m (xLoc d))

abbrev Z4 (d : Dev nD) : Buf (Elt F) (loc d main_v27) := Sc4.gath d (m (xLoc d)) (I4 m d)
abbrev XS4 (d : Dev nD) : Buf (Elt F) (loc d main_v28) := xBand 8000 slices_S10000x128_S2000x128_8000_0 (m (xLoc d))

variable (O0 : (d : Dev nD) → Buf (Elt F) (loc d main_v9)) (O1 : (d : Dev nD) → Buf (Elt F) (loc d main_v14))
  (O2 : (d : Dev nD) → Buf (Elt F) (loc d main_v19)) (O3 : (d : Dev nD) → Buf (Elt F) (loc d main_v24))
  (O4 : (d : Dev nD) → Buf (Elt F) (loc d main_v29))

def Res (d : Dev nD) : Buf (Elt F) (outLoc d) :=
  concatenate S10000x128 0 [⟨S2000x128, O0 d⟩, ⟨S2000x128, O1 d⟩, ⟨S2000x128, O2 d⟩, ⟨S2000x128, O3 d⟩, ⟨S2000x128, O4 d⟩]
    concatenates_S2000x128_S2000x128_S2000x128_S2000x128_S2000x128_S10000x128_d0

abbrev Region0 : Prop := ∀ d : Dev nD,
  iprop(boundary (TT d) ∗ ((loc d main_v7 ↦{fullShare} Z0 m d) ∗ (loc d main_v8 ↦{fullShare} XS0 m d) ∗ (loc d main_v9 ↦{fullShare} m (loc d main_v9)))
      ∗ owesB d 1 ∗ levAts (K (F := F)).L (K (F := F)).lev ∗ ghost (F := F) 0 d)
    ⊢ wp frame (wpE ((K (F := F)).defs (D (F := F))) 𝒱 (TT d) none) Set.univ (region (F := F) 0)
        fun _ => iprop(boundary (TT d) ∗ ((loc d main_v7 ↦{fullShare} Z0 m d) ∗ (loc d main_v8 ↦{fullShare} XS0 m d) ∗ (loc d main_v9 ↦{fullShare} O0 d))
          ∗ owesB d 1)

abbrev Region1 : Prop := ∀ d : Dev nD,
  iprop(boundary (TT d) ∗ ((loc d main_v12 ↦{fullShare} Z1 m d) ∗ (loc d main_v13 ↦{fullShare} XS1 m d) ∗ (loc d main_v14 ↦{fullShare} m (loc d main_v14)))
      ∗ owesB d 2 ∗ levAts (K (F := F)).L (K (F := F)).lev ∗ ghost (F := F) 1 d)
    ⊢ wp frame (wpE ((K (F := F)).defs (D (F := F))) 𝒱 (TT d) none) Set.univ (region (F := F) 1)
        fun _ => iprop(boundary (TT d) ∗ ((loc d main_v12 ↦{fullShare} Z1 m d) ∗ (loc d main_v13 ↦{fullShare} XS1 m d) ∗ (loc d main_v14 ↦{fullShare} O1 d))
          ∗ owesB d 2)

abbrev Region2 : Prop := ∀ d : Dev nD,
  iprop(boundary (TT d) ∗ ((loc d main_v17 ↦{fullShare} Z2 m d) ∗ (loc d main_v18 ↦{fullShare} XS2 m d) ∗ (loc d main_v19 ↦{fullShare} m (loc d main_v19)))
      ∗ owesB d 3 ∗ levAts (K (F := F)).L (K (F := F)).lev ∗ ghost (F := F) 2 d)
    ⊢ wp frame (wpE ((K (F := F)).defs (D (F := F))) 𝒱 (TT d) none) Set.univ (region (F := F) 2)
        fun _ => iprop(boundary (TT d) ∗ ((loc d main_v17 ↦{fullShare} Z2 m d) ∗ (loc d main_v18 ↦{fullShare} XS2 m d) ∗ (loc d main_v19 ↦{fullShare} O2 d))
          ∗ owesB d 3)

abbrev Region3 : Prop := ∀ d : Dev nD,
  iprop(boundary (TT d) ∗ ((loc d main_v22 ↦{fullShare} Z3 m d) ∗ (loc d main_v23 ↦{fullShare} XS3 m d) ∗ (loc d main_v24 ↦{fullShare} m (loc d main_v24)))
      ∗ owesB d 4 ∗ levAts (K (F := F)).L (K (F := F)).lev ∗ ghost (F := F) 3 d)
    ⊢ wp frame (wpE ((K (F := F)).defs (D (F := F))) 𝒱 (TT d) none) Set.univ (region (F := F) 3)
        fun _ => iprop(boundary (TT d) ∗ ((loc d main_v22 ↦{fullShare} Z3 m d) ∗ (loc d main_v23 ↦{fullShare} XS3 m d) ∗ (loc d main_v24 ↦{fullShare} O3 d))
          ∗ owesB d 4)

abbrev Region4 : Prop := ∀ d : Dev nD,
  iprop(boundary (TT d) ∗ ((loc d main_v27 ↦{fullShare} Z4 m d) ∗ (loc d main_v28 ↦{fullShare} XS4 m d) ∗ (loc d main_v29 ↦{fullShare} m (loc d main_v29)))
      ∗ owesB d 5 ∗ levAts (K (F := F)).L (K (F := F)).lev ∗ ghost (F := F) 4 d)
    ⊢ wp frame (wpE ((K (F := F)).defs (D (F := F))) 𝒱 (TT d) none) Set.univ (region (F := F) 4)
        fun _ => iprop(boundary (TT d) ∗ ((loc d main_v27 ↦{fullShare} Z4 m d) ∗ (loc d main_v28 ↦{fullShare} XS4 m d) ∗ (loc d main_v29 ↦{fullShare} O4 d))
          ∗ owesB d 5)

set_option backward.isDefEq.respectTransparency.types false in
set_option maxHeartbeats 1600000 in

theorem hmain (hreg0 : Region0 m O0) (hreg1 : Region1 m O1) (hreg2 : Region2 m O2) (hreg3 : Region3 m O3) (hreg4 : Region4 m O4)
    (κ : GSem nD τ sig → ℕ) (d : Dev nD) :
    iprop((K (F := F)).ctx EH (P₀ m) κ (K (F := F)).lev ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 5 ∗ FIN m (fun _ d => Res O0 O1 O2 O3 O4 d) d) := by
  have hlv : SparseCore.Cfg.Refines (nD := nD) (K (F := F)) ((K (F := F)).lev (nD := nD)) := by sl_refines_lev

  obtain ⟨W0, hW0⟩ : ∃ W, W = after ops0 (V0 m d) := ⟨_, rfl⟩
  have Fx_a0 : W0 (r main_arg0) = m (xLoc d) := by rw [hW0]; exact (pre0_ne _ main_arg0 (by decide)).trans rfl
  have Fnb_a0 : W0 (r main_arg1) = m (nbLoc d) := by rw [hW0]; exact (pre0_ne _ main_arg1 (by decide)).trans rfl
  have F4_a0 : W0 (r main_v4) = Pre.idxAll (m (nbLoc d)) := by rw [hW0]; exact (pre0_4 _).trans rfl
  have Fi_a0 : W0 (r main_v6) = I0 m d := by rw [hW0]; exact (pre0_i _).trans rfl
  have Fo0_a0 : W0 (r main_v9) = m (loc d main_v9) := by rw [hW0]; exact (pre0_ne _ main_v9 (by decide)).trans rfl
  have Fo1_a0 : W0 (r main_v14) = m (loc d main_v14) := by rw [hW0]; exact (pre0_ne _ main_v14 (by decide)).trans rfl
  have Fo2_a0 : W0 (r main_v19) = m (loc d main_v19) := by rw [hW0]; exact (pre0_ne _ main_v19 (by decide)).trans rfl
  have Fo3_a0 : W0 (r main_v24) = m (loc d main_v24) := by rw [hW0]; exact (pre0_ne _ main_v24 (by decide)).trans rfl
  have Fo4_a0 : W0 (r main_v29) = m (loc d main_v29) := by rw [hW0]; exact (pre0_ne _ main_v29 (by decide)).trans rfl
  obtain ⟨W0', hW0'⟩ : ∃ W, W = stV d main_v7 main_v8 main_v9 (Z0 m d) (XS0 m d) (O0 d) W0 := ⟨_, rfl⟩
  have g0' := agr_stV hW0'
  obtain ⟨W1, hW1⟩ : ∃ W, W = after [op_v10, op_v11] W0' := ⟨_, rfl⟩
  have p1 := agr2 hW1 main_v10 main_v11
  have g1 := agr_trans g0' p1
  have Fi_a1 : W1 (r main_v11) = I1 m d := by
    rw [hW1, StableHlo.after_cons, StableHlo.after_cons, StableHlo.after_nil, StableHlo.reshape_result, StableHlo.unary_result, (g0' main_v4 (by decide)).trans F4_a0]; rfl
  obtain ⟨W1', hW1'⟩ : ∃ W, W = stV d main_v12 main_v13 main_v14 (Z1 m d) (XS1 m d) (O1 d) W1 := ⟨_, rfl⟩
  have s1 := agr_stV hW1'
  have g1' := agr_trans g1 s1
  obtain ⟨W2, hW2⟩ : ∃ W, W = after [op_v15, op_v16] W1' := ⟨_, rfl⟩
  have p2 := agr2 hW2 main_v15 main_v16
  have g2 := agr_trans g1' p2
  have Fi_a2 : W2 (r main_v16) = I2 m d := by
    rw [hW2, StableHlo.after_cons, StableHlo.after_cons, StableHlo.after_nil, StableHlo.reshape_result, StableHlo.unary_result, (g1' main_v4 (by decide)).trans F4_a0]; rfl
  obtain ⟨W2', hW2'⟩ : ∃ W, W = stV d main_v17 main_v18 main_v19 (Z2 m d) (XS2 m d) (O2 d) W2 := ⟨_, rfl⟩
  have s2 := agr_stV hW2'
  have g2' := agr_trans g2 s2
  obtain ⟨W3, hW3⟩ : ∃ W, W = after [op_v20, op_v21] W2' := ⟨_, rfl⟩
  have p3 := agr2 hW3 main_v20 main_v21
  have g3 := agr_trans g2' p3
  have Fi_a3 : W3 (r main_v21) = I3 m d := by
    rw [hW3, StableHlo.after_cons, StableHlo.after_cons, StableHlo.after_nil, StableHlo.reshape_result, StableHlo.unary_result, (g2' main_v4 (by decide)).trans F4_a0]; rfl
  obtain ⟨W3', hW3'⟩ : ∃ W, W = stV d main_v22 main_v23 main_v24 (Z3 m d) (XS3 m d) (O3 d) W3 := ⟨_, rfl⟩
  have s3 := agr_stV hW3'
  have g3' := agr_trans g3 s3
  obtain ⟨W4, hW4⟩ : ∃ W, W = after [op_v25, op_v26] W3' := ⟨_, rfl⟩
  have p4 := agr2 hW4 main_v25 main_v26
  have g4 := agr_trans g3' p4
  have Fi_a4 : W4 (r main_v26) = I4 m d := by
    rw [hW4, StableHlo.after_cons, StableHlo.after_cons, StableHlo.after_nil, StableHlo.reshape_result, StableHlo.unary_result, (g3' main_v4 (by decide)).trans F4_a0]; rfl
  obtain ⟨W4', hW4'⟩ : ∃ W, W = stV d main_v27 main_v28 main_v29 (Z4 m d) (XS4 m d) (O4 d) W4 := ⟨_, rfl⟩
  have s4 := agr_stV hW4'
  have g4' := agr_trans g4 s4
  have t3 := agr_trans p4 s4
  have t2 := agr_trans (agr_trans p3 s3) t3
  have t1 := agr_trans (agr_trans p2 s2) t2
  have t0 := agr_trans (agr_trans p1 s1) t1
  have Fo0_b4 : W4' (r main_v9) = O0 d := by rw [t0 main_v9 (by decide), hW0', stV_o]
  have Fo1_b4 : W4' (r main_v14) = O1 d := by rw [t1 main_v14 (by decide), hW1', stV_o]
  have Fo2_b4 : W4' (r main_v19) = O2 d := by rw [t2 main_v19 (by decide), hW2', stV_o]
  have Fo3_b4 : W4' (r main_v24) = O3 d := by rw [t3 main_v24 (by decide), hW3', stV_o]
  have Fo4_b4 : W4' (r main_v29) = O4 d := by rw [hW4', stV_o]
  obtain ⟨We, hWe⟩ : ∃ W, W = after [op_v30] W4' := ⟨_, rfl⟩
  have Fx_e : We (r main_arg0) = m (xLoc d) := by rw [hWe, post_ne _ main_arg0 (by decide)]; exact (g4' main_arg0 (by decide)).trans Fx_a0
  have Fnb_e : We (r main_arg1) = m (nbLoc d) := by rw [hWe, post_ne _ main_arg1 (by decide)]; exact (g4' main_arg1 (by decide)).trans Fnb_a0
  have Fout_e : We (r main_v30) = Res O0 O1 O2 O3 O4 d := by
    rw [hWe, post_out, Fo0_b4, Fo1_b4, Fo2_b4, Fo3_b4, Fo4_b4]
    first | rfl | done
  have eG : (G (F := F) d : sProp 𝕄) = iprop(ghost 0 d ∗ ghost 1 d ∗ ghost 2 d ∗ ghost 3 d ∗ ghost 4 d) := by
    unfold G
    rw [show (Finset.univ : Finset (Fin 5)) = {0, 1, 2, 3, 4} by decide, SparseCore.bigSep_insert' (by decide), SparseCore.bigSep_insert' (by decide),
      SparseCore.bigSep_insert' (by decide), SparseCore.bigSep_insert' (by decide), bigSep_singleton]
  have eFin : (held (TT d) SS We : sProp 𝕄) = iprop((xLoc d ↦{fullShare} m (xLoc d)) ∗ (nbLoc d ↦{fullShare} m (nbLoc d))
      ∗ (outLoc d ↦{fullShare} Res O0 O1 O2 O3 O4 d) ∗ held (TT d) (rest3 (r main_arg0) (r main_arg1) (r main_v30)) We) := by
    rw [held3 (TT d) (mem_SS main_arg0) (mem_SS main_arg1) (mem_SS main_v30) (by decide) (by decide) (by decide) We, Fx_e, Fnb_e, Fout_e]

  unfold SparseCore.Cfg.tcRes FIN
  rw [main_eq, eG, show (unscopedBufs d (fun b => m ((SparseCore.T d).loc b)) : sProp 𝕄) = held (TT d) SS (V0 m d) from
    Pipeline.unscopedBufs_held d (V0 m d)]
  iintro ⟨#Hctx, Hst, ⟨Hb, Hheld, -, -⟩, HG0, HG1, HG2, HG3, HG4⟩
  iapply (wp_seq 𝒱 none Set.univ d SS _ ops0 hS0 hf0 (V0 m d)) $$ [Hb Hheld]
  · isplitl [Hb]; · iexact Hb
    iexact Hheld
  iintro ⟨Hb, Hheld⟩
  rw [← hW0]

  iapply (stage (P₀ m) d 0 main_v6 main_v7 main_v8 main_v9 (m (xLoc d)) (I0 m d) (Z0 m d) (m (loc d main_v9)) (O0 d) (ghost 0 d) hlv
    (xBand 0 slices_S10000x128_S2000x128_0_0) ⟨by decide, rfl⟩ (mem_SS _) (mem_SS _) (mem_SS _) (by decide) (by decide) (by decide) (by decide) (by decide) (by decide)
    (by have h := Sc0.call_in (F := F) d fullShare (m (xLoc d)) (I0 m d); unfold Sc0.CallIn at h; rw [← bigSep_cast (F := F) (nCore_eq (F := F) 0) fun c => Sc0.st d fullShare (m (xLoc d)) (I0 m d) c] at h; exact h)
    (by have h := Sc0.call_out (F := F) d fullShare (m (xLoc d)) (I0 m d); unfold Sc0.CallOut at h; rw [← bigSep_cast (F := F) (nCore_eq (F := F) 0) fun c => Sc0.dn d fullShare (m (xLoc d)) (I0 m d) c] at h; exact h)
    (hreg0 d)
    κ W0 Fx_a0 Fi_a0 Fo0_a0 _ _)
  isplitr; · iexact Hctx
  isplitl [Hst]; · iexact Hst
  isplitl [Hb]; · iexact Hb
  isplitl [Hheld]; · iexact Hheld
  isplitl [HG0]; · iexact HG0
  iintro ⟨Hst, Hb, Hheld⟩
  rw [← hW0']
  iapply (wp_seq 𝒱 none Set.univ d SS _ [op_v10, op_v11] hS2 hf2 W0') $$ [Hb Hheld]
  · isplitl [Hb]; · iexact Hb
    iexact Hheld
  iintro ⟨Hb, Hheld⟩
  rw [← hW1]

  iapply (stage (P₀ m) d 1 main_v11 main_v12 main_v13 main_v14 (m (xLoc d)) (I1 m d) (Z1 m d) (m (loc d main_v14)) (O1 d) (ghost 1 d) hlv
    (xBand 2000 slices_S10000x128_S2000x128_2000_0) ⟨by decide, rfl⟩ (mem_SS _) (mem_SS _) (mem_SS _) (by decide) (by decide) (by decide) (by decide) (by decide) (by decide)
    (by have h := Sc1.call_in (F := F) d fullShare (m (xLoc d)) (I1 m d); unfold Sc1.CallIn at h; rw [← bigSep_cast (F := F) (nCore_eq (F := F) 1) fun c => Sc1.st d fullShare (m (xLoc d)) (I1 m d) c] at h; exact h)
    (by have h := Sc1.call_out (F := F) d fullShare (m (xLoc d)) (I1 m d); unfold Sc1.CallOut at h; rw [← bigSep_cast (F := F) (nCore_eq (F := F) 1) fun c => Sc1.dn d fullShare (m (xLoc d)) (I1 m d) c] at h; exact h)
    (hreg1 d)
    κ W1 ((g1 main_arg0 (by decide)).trans Fx_a0) Fi_a1 ((g1 main_v14 (by decide)).trans Fo1_a0) _ _)
  isplitr; · iexact Hctx
  isplitl [Hst]; · iexact Hst
  isplitl [Hb]; · iexact Hb
  isplitl [Hheld]; · iexact Hheld
  isplitl [HG1]; · iexact HG1
  iintro ⟨Hst, Hb, Hheld⟩
  rw [← hW1']
  iapply (wp_seq 𝒱 none Set.univ d SS _ [op_v15, op_v16] hS2 hf2 W1') $$ [Hb Hheld]
  · isplitl [Hb]; · iexact Hb
    iexact Hheld
  iintro ⟨Hb, Hheld⟩
  rw [← hW2]

  iapply (stage (P₀ m) d 2 main_v16 main_v17 main_v18 main_v19 (m (xLoc d)) (I2 m d) (Z2 m d) (m (loc d main_v19)) (O2 d) (ghost 2 d) hlv
    (xBand 4000 slices_S10000x128_S2000x128_4000_0) ⟨by decide, rfl⟩ (mem_SS _) (mem_SS _) (mem_SS _) (by decide) (by decide) (by decide) (by decide) (by decide) (by decide)
    (by have h := Sc2.call_in (F := F) d fullShare (m (xLoc d)) (I2 m d); unfold Sc2.CallIn at h; rw [← bigSep_cast (F := F) (nCore_eq (F := F) 2) fun c => Sc2.st d fullShare (m (xLoc d)) (I2 m d) c] at h; exact h)
    (by have h := Sc2.call_out (F := F) d fullShare (m (xLoc d)) (I2 m d); unfold Sc2.CallOut at h; rw [← bigSep_cast (F := F) (nCore_eq (F := F) 2) fun c => Sc2.dn d fullShare (m (xLoc d)) (I2 m d) c] at h; exact h)
    (hreg2 d)
    κ W2 ((g2 main_arg0 (by decide)).trans Fx_a0) Fi_a2 ((g2 main_v19 (by decide)).trans Fo2_a0) _ _)
  isplitr; · iexact Hctx
  isplitl [Hst]; · iexact Hst
  isplitl [Hb]; · iexact Hb
  isplitl [Hheld]; · iexact Hheld
  isplitl [HG2]; · iexact HG2
  iintro ⟨Hst, Hb, Hheld⟩
  rw [← hW2']
  iapply (wp_seq 𝒱 none Set.univ d SS _ [op_v20, op_v21] hS2 hf2 W2') $$ [Hb Hheld]
  · isplitl [Hb]; · iexact Hb
    iexact Hheld
  iintro ⟨Hb, Hheld⟩
  rw [← hW3]

  iapply (stage (P₀ m) d 3 main_v21 main_v22 main_v23 main_v24 (m (xLoc d)) (I3 m d) (Z3 m d) (m (loc d main_v24)) (O3 d) (ghost 3 d) hlv
    (xBand 6000 slices_S10000x128_S2000x128_6000_0) ⟨by decide, rfl⟩ (mem_SS _) (mem_SS _) (mem_SS _) (by decide) (by decide) (by decide) (by decide) (by decide) (by decide)
    (by have h := Sc3.call_in (F := F) d fullShare (m (xLoc d)) (I3 m d); unfold Sc3.CallIn at h; rw [← bigSep_cast (F := F) (nCore_eq (F := F) 3) fun c => Sc3.st d fullShare (m (xLoc d)) (I3 m d) c] at h; exact h)
    (by have h := Sc3.call_out (F := F) d fullShare (m (xLoc d)) (I3 m d); unfold Sc3.CallOut at h; rw [← bigSep_cast (F := F) (nCore_eq (F := F) 3) fun c => Sc3.dn d fullShare (m (xLoc d)) (I3 m d) c] at h; exact h)
    (hreg3 d)
    κ W3 ((g3 main_arg0 (by decide)).trans Fx_a0) Fi_a3 ((g3 main_v24 (by decide)).trans Fo3_a0) _ _)
  isplitr; · iexact Hctx
  isplitl [Hst]; · iexact Hst
  isplitl [Hb]; · iexact Hb
  isplitl [Hheld]; · iexact Hheld
  isplitl [HG3]; · iexact HG3
  iintro ⟨Hst, Hb, Hheld⟩
  rw [← hW3']
  iapply (wp_seq 𝒱 none Set.univ d SS _ [op_v25, op_v26] hS2 hf2 W3') $$ [Hb Hheld]
  · isplitl [Hb]; · iexact Hb
    iexact Hheld
  iintro ⟨Hb, Hheld⟩
  rw [← hW4]

  iapply (stage (P₀ m) d 4 main_v26 main_v27 main_v28 main_v29 (m (xLoc d)) (I4 m d) (Z4 m d) (m (loc d main_v29)) (O4 d) (ghost 4 d) hlv
    (xBand 8000 slices_S10000x128_S2000x128_8000_0) ⟨by decide, rfl⟩ (mem_SS _) (mem_SS _) (mem_SS _) (by decide) (by decide) (by decide) (by decide) (by decide) (by decide)
    (by have h := Sc4.call_in (F := F) d fullShare (m (xLoc d)) (I4 m d); unfold Sc4.CallIn at h; rw [← bigSep_cast (F := F) (nCore_eq (F := F) 4) fun c => Sc4.st d fullShare (m (xLoc d)) (I4 m d) c] at h; exact h)
    (by have h := Sc4.call_out (F := F) d fullShare (m (xLoc d)) (I4 m d); unfold Sc4.CallOut at h; rw [← bigSep_cast (F := F) (nCore_eq (F := F) 4) fun c => Sc4.dn d fullShare (m (xLoc d)) (I4 m d) c] at h; exact h)
    (hreg4 d)
    κ W4 ((g4 main_arg0 (by decide)).trans Fx_a0) Fi_a4 ((g4 main_v29 (by decide)).trans Fo4_a0) _ _)
  isplitr; · iexact Hctx
  isplitl [Hst]; · iexact Hst
  isplitl [Hb]; · iexact Hb
  isplitl [Hheld]; · iexact Hheld
  isplitl [HG4]; · iexact HG4
  iintro ⟨Hst, Hb, Hheld⟩
  rw [← hW4']

  iapply (wp_seq 𝒱 none Set.univ d SS _ [op_v30] hSe hfe W4') $$ [Hb Hheld]
  · isplitl [Hb]; · iexact Hb
    iexact Hheld
  iintro ⟨Hb, Hheld⟩
  rw [← hWe, wp_pure]
  imodintro
  isplitl [Hst]; · iexact Hst
  ihave Hh := (Entails.of_eq eFin) $$ Hheld
  icases Hh with ⟨Hx, Hn, Ho, -⟩
  isplitl [Hx]; · iexact Hx
  isplitl [Hn]; · iexact Hn
  iexact Ho

end HMain

end Cert.Proof.KI.Main

end
-- ==== Proof.TcShared.lean ====
import Idealize.ShloMosaic.Lib.Pipeline.Regions
import Idealize.ShloMosaic.Lib.Pipeline.FrameBody
import Idealize.ShloMosaic.Lib.Pipeline.Value
import Idealize.ShloMosaic.Lib.Tactic

noncomputable section

namespace Cert.Proof.TcShared

open Idealize.ShloMosaic

variable {F : FTy → Type} [FloatOps F] {sig : RefSig} {κ : Kind} {sp : Space}

theorem zeros2 : (![0, 0] : Fin 2 → Nat) = fun _ => 0 := by funext a; fin_cases a <;> rfl

-- The rectangle at zero offsets of the buffer's own sizes is the whole buffer, so a load through it reads the contents,
theorem readAt_full (sh : Shape) {off : Fin sh.rank → Nat} (h : off = fun _ => 0) {inb}
    (v : View sig κ sp sh .f32) (f : v.ty.Contents (Elt F)) :
    v.readAt (Elt F) (Rect.unit (s := sh) off sh.size inb).toLoadRect f = v.read (Elt F) f := by
  rw [View.readAt_eq_ld]; exact View.ld_unit_zero h _ _

-- and one store through it covers the buffer, so what is read back is the payload.
theorem read_store_full (sh : Shape) {off : Fin sh.rank → Nat} (h : off = fun _ => 0) {inb}
    (v : View sig κ sp sh .f32) (f : v.ty.Contents (Elt F)) (w : Vec F sh .f32) :
    v.read (Elt F) (v.writes (Elt F) f [⟨Rect.unit (s := sh) off sh.size inb, w⟩]) = w := by
  rw [View.read_writes_eq_canon v f _ fun y => ⟨_, List.mem_singleton_self _, View.mem_set_unit_zero h inb y⟩]
  exact View.canon_unit_zero h inb w

end Cert.Proof.TcShared

end
-- ==== Proof.TcRegion0.lean ====
import proofs.«212107_g53927609368716_cont_9to1_m_409_29_alg».proof.Proof.Setup
import proofs.«212107_g53927609368716_cont_9to1_m_409_29_alg».proof.Proof.Launch
import proofs.«212107_g53927609368716_cont_9to1_m_409_29_alg».proof.Proof.Gen.KernelIdeal.Launch
import proofs.«212107_g53927609368716_cont_9to1_m_409_29_alg».proof.Proof.Gen.KernelIdeal.Points
import proofs.«212107_g53927609368716_cont_9to1_m_409_29_alg».proof.Proof.Gen.KernelIdeal.Skeleton
import proofs.«212107_g53927609368716_cont_9to1_m_409_29_alg».proof.Proof.TcShared
import Idealize.ShloMosaic.Lib.Pipeline.Regions
import Idealize.ShloMosaic.Lib.Pipeline.FrameBody
import Idealize.ShloMosaic.Lib.Pipeline.Value
import Idealize.ShloMosaic.Lib.Tactic

noncomputable section

namespace Cert.Proof.KI.Tc0

open Cert.KernelIdeal Cert.KernelIdeal.Gen
open Cert.Proof.KI
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open TcShared

variable {F : FTy → Type} [FloatOps F] [Named F] [Cert.KernelIdeal.Facts]

local notation "𝕄" => MM (F := F)

abbrev pIx : Fin 5 := 0

def bodyFn (z : Vec F S12800x128 .f32) (x : Vec F S400x128 .f32) : FVec F S400x128 .f32 :=
  k1_pay1 (k1_pay2 (F := F)) (k1_pay3 x) (k1_pay4 z) (k1_pay6 z x) (k1_pay7 z x)

theorem sound_kernel (c : Dev nD) (E : Set ℕ) (i : grid1.Coords)
    (arg1 : Memref sig .tc .vmem S12800x128 .f32) (harg1 : arg1.IsWhole) (arg2 : Memref sig .tc .vmem S400x128 .f32) (harg2 : arg2.IsWhole)
    (arg3 : Memref sig .tc .vmem S400x128 .f32) (harg3 : arg3.IsWhole)
    {δ₁ δ₂ δ₃ : Type} (Z : δ₁ → Vec F S12800x128 .f32) (X : δ₂ → Vec F S400x128 .f32) (Y : δ₃ → Vec F S400x128 .f32)
    (z : Vec F S12800x128 .f32) (x : Vec F S400x128 .f32) (hZ : ∀ d, Z d = z) (hX : ∀ d, X d = x) (R R' : sProp 𝕄) :
    iprop(R ∗ R' ∗ (∃ d, owns (c : Thread nD τ) arg1 fullShare (Z d)) ∗ (∃ d, owns (c : Thread nD τ) arg2 fullShare (X d))
        ∗ (∃ d, owns (c : Thread nD τ) arg3 fullShare (Y d)))
      ⊢ wp frame (wpE (defs₀ (F := F)) Variants.none c none) E (cc1__routing_body i arg1 harg1 arg2 harg2 arg3 harg3) fun _ =>
        iprop(R ∗ R' ∗ owns (c : Thread nD τ) arg1 fullShare z ∗ owns (c : Thread nD τ) arg2 fullShare x
          ∗ owns (c : Thread nD τ) arg3 fullShare (bodyFn z x)) := by
  simp only [cc1__routing_body_eq_skeleton]; unfold cc1__routing_body_skel
  simp only [k1_part1_eq_skeleton]; unfold k1_part1_skel
  unfold owns
  iintro ⟨HR, HR', ⟨%d0, %f0, %hf0, H0⟩, ⟨%d1, %f1, %hf1, H1⟩, ⟨%d2, %f2, -, H2⟩⟩
  rw [hZ] at hf0; rw [hX] at hf1; subst hf0 hf1
  sl_exec
  sl_step
  isplitl [HR]; · iexact HR
  isplitl [HR']; · iexact HR'
  isplitl [H0]
  · iexists f0; isplitr; · ipureintro; rfl
    iexact H0
  isplitl [H1]
  · iexists f1; isplitr; · ipureintro; rfl
    iexact H1
  iexists _; isplitr
  swap; · iexact H2
  ipureintro
  rw [read_store_full S400x128 zeros2]
  dsimp only
  rw [readAt_full S12800x128 zeros2, readAt_full S400x128 zeros2]
  rfl

abbrev zLoc (c : Dev nD) : Loc nD τ sig := (SparseCore.T c).loc main_v7
abbrev xsLoc (c : Dev nD) : Loc nD τ sig := (SparseCore.T c).loc main_v8
abbrev oLoc (c : Dev nD) : Loc nD τ sig := (SparseCore.T c).loc main_v9

variable (Zin : (c : Dev nD) → Buf (Elt F) (zLoc c)) (Xs : (c : Dev nD) → Buf (Elt F) (xsLoc c))
  (Oin : (c : Dev nD) → Buf (Elt F) (oLoc c))
  (O : Dev nD → CellTallies nD τ sig (HIx 5)) (b : ℕ)

abbrev zBlk (c : Dev nD) (t : Fin cfg1.N) : Vec F S12800x128 .f32 := ((cfg1.win 0).blk t).view.read (Elt F) (Zin c)
abbrev xBlk (c : Dev nD) (t : Fin cfg1.N) : Vec F S400x128 .f32 := ((cfg1.win 1).blk t).view.read (Elt F) (Xs c)

abbrev rest0 (c : Dev nD) : sProp 𝕄 :=
  Pipeline.scopedRest (Ix := HIx 5) (Name := ℕ) (U := UU) (Lvl := ℕ) (Val := Elt F) spec1 c

def dat0 (c : Dev nD) : Dat τ (Elt F) (HIx 5) ℕ UU ℕ cfg1 c where
  A w := match w with
    | ⟨0, _⟩ => Zin c
    | ⟨1, _⟩ => Xs c
    | ⟨2, _⟩ => Oin c
  after w t := match w with
    | ⟨0, _⟩ => zBlk Zin c t
    | ⟨1, _⟩ => xBlk Xs c t
    | ⟨2, _⟩ => bodyFn (zBlk Zin c t) (xBlk Xs c t)
  Φ _ := rest0 c
  q _ := fullShare
  owed _ := O c
  recorded _ := {p | (K (F := F)).lev (SparseCore.T c, p.1) p.2 ≤ b}

def idleDat (cfg : Pipeline.Cfg sig Λ₀) (c : Dev nD) : Dat τ (Elt F) (HIx 5) ℕ UU ℕ cfg c where
  A w := (cfg.win w).arr.view.junk
  after w t := Dat.unnamed w t
  Φ _ := iprop(emp)
  q _ := fullShare
  owed _ := 0

def dats (p : Fin 5) (c : Dev nD) : Dat τ (Elt F) (HIx 5) ℕ UU ℕ (Pipeline.pin (pcfgs (F := F)) adm p) c :=
  if h : p = pIx then (by subst h; exact dat0 Zin Xs Oin O b c) else idleDat _ c

def regionOut (c : Dev nD) : Buf (Elt F) (oLoc c) := (dat0 Zin Xs Oin O b c).arrAt 2 cfg1.N

def arrays0 (c : Dev nD) (z : Buf (Elt F) (zLoc c)) (x : Buf (Elt F) (xsLoc c)) (o : Buf (Elt F) (oLoc c)) : sProp 𝕄 :=
  iprop((zLoc c ↦{fullShare} z) ∗ (xsLoc c ↦{fullShare} x) ∗ (oLoc c ↦{fullShare} o))

def owesB (c : Dev nD) : sProp 𝕄 :=
  iprop(∃ W, ⌜(K (F := F)).WBelow (SparseCore.T c) W b⌝ ∗ owes (SparseCore.T c) (O c) W)

theorem body_obligation (c : Dev nD) :
    BodyObligation (dat0 Zin Xs Oin O b c) (defs₀ (F := F)) 𝒱₀ (none : HIx 5) Set.univ := fun t => by
  rw [bigSep_W1, bigSep_W1]
  exact sound_kernel c _ _ _ _ _ _ _ _ _ _ _ (zBlk Zin c t) (xBlk Xs c t)
    ((dat0 Zin Xs Oin O b c).before_fetched 0 t (fetch1_0 t)) ((dat0 Zin Xs Oin O b c).before_fetched 1 t (fetch1_1 t)) _ _

abbrev ghost0 (c : Dev nD) : sProp 𝕄 := ghost (F := F) pIx c

theorem index_ne : ∀ t t' : Fin grid1.N, t ≠ t' → win1_2.index t ≠ win1_2.index t' := by decide +kernel

theorem regionOut_blk (c : Dev nD) (t : Fin cfg1.N) :
    ((cfg1.win 2).blk t).view.read (Elt F) (regionOut Zin Xs Oin O b c) = bodyFn (zBlk Zin c t) (xBlk Xs c t) := by
  unfold regionOut
  rw [(dat0 Zin Xs Oin O b c).read_blk_arrAt_eq_flushed 2
    (fun t t' _ _ h => (cfg1.win 2).disjoint_blk (index_ne t t' h)) cfg1.N t t.isLt (flush1_2 t)]
  show (cfg1.win 2).cut (cfg1.grid.coords t) ((dat0 Zin Xs Oin O b c).after 2 t) = _
  dsimp only [dat0]
  rfl

variable (hO : ∀ c g, O c g none = 0) (lv : GSem nD τ sig → HIx 5 → ℕ) (hlv : (K (F := F)).Refines lv)

set_option backward.isDefEq.respectTransparency.types false in
def reg0 : Pipeline.RegionSeg (pcfgs (F := F)) adm (dats Zin Xs Oin O b) (none : HIx 5) defs₀ 𝒱₀ (K (F := F)).L lv pIx where
  win := launch1.win.to₀
  block_pos := launch1.block_pos
  stage_whole := launch1.stage_whole
  K := PEmpty
  osem := fun k => k.elim
  ho := Pipeline.OwnSemFacts.none _
  hbody c := (body_obligation Zin Xs Oin O b c).loose
  hwaits c := Pipeline.cellsWaits_intro (Pipeline.pin (pcfgs (F := F)) adm) (dats Zin Xs Oin O b) (none : HIx 5) pIx c
    fun w s t => (K (F := F)).mayWait_none _ (hO c) lv hlv
  pre c := iprop(arrays0 c (Zin c) (Xs c) (Oin c) ∗ owesB (F := F) O b c)
  post c := iprop(arrays0 c (Zin c) (Xs c) (regionOut Zin Xs Oin O b c) ∗ owesB (F := F) O b c)
  X _ := iprop(emp)
  Y _ := iprop(emp)
  Z _ := iprop(emp)
  hentry c := by
    rw [Pipeline.ownSems0_none,
      Pipeline.arrays_eq (Pipeline.pin (pcfgs (F := F)) adm) (dats Zin Xs Oin O b) pIx c launch1.arr_whole
        ((dats Zin Xs Oin O b pIx c).share_full fun _ => rfl), bigSep_W1]
    unfold arrays0 owesB
    iintro ⟨⟨Ha, ⟨%W, %hW, HO⟩⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr <;> iempintro
  hin c := by
    rw [show (dats Zin Xs Oin O b pIx c).Φ 0 = rest0 c from rfl]
    iintro ⟨-, -, Hr⟩; iexact Hr
  hout c := by
    rw [Pipeline.ownSems0_none, show (dats Zin Xs Oin O b pIx c).Φ (Fin.last _) = rest0 c from rfl]
    iintro Hr
    isplitr; · iempintro
    isplitr; · iempintro
    iexact Hr
  hexit c := by
    rw [Pipeline.arrays_eq (Pipeline.pin (pcfgs (F := F)) adm) (dats Zin Xs Oin O b) pIx c launch1.arr_whole
        ((dats Zin Xs Oin O b pIx c).share_full fun _ => rfl), bigSep_W1,
      show (dats Zin Xs Oin O b pIx c).arrAt 0 (Pipeline.pin (pcfgs (F := F)) adm pIx).N = Zin c from (dat0 Zin Xs Oin O b c).arrAt_in 0 rfl _,
      show (dats Zin Xs Oin O b pIx c).arrAt 1 (Pipeline.pin (pcfgs (F := F)) adm pIx).N = Xs c from (dat0 Zin Xs Oin O b c).arrAt_in 1 rfl _]
    unfold arrays0 owesB regionOut
    iintro ⟨Ha, HO, -, -⟩
    imodintro
    isplitl [Ha]; · iexact Ha
    unfold Pipeline.Dat.owesAt Pipeline.owesWithin
    icases HO with ⟨%W, %hW, HO⟩; iexists W; isplitr; swap; (· iexact HO)
    ipureintro
    intro p hp
    rcases hW hp with h | ⟨w, s, rfl⟩
    · exact h
    · exact Nat.zero_le _

abbrev post0 (d : Dev nD) : sProp 𝕄 :=
  iprop(boundary (SparseCore.T d : Thread nD τ) ∗ arrays0 d (Zin d) (Xs d) (regionOut Zin Xs Oin O b d) ∗ owesB (F := F) O b d)

include hO hlv in
set_option backward.isDefEq.respectTransparency.types false in
theorem region0 (d : Dev nD) :
    iprop(boundary (SparseCore.T d : Thread nD τ) ∗ arrays0 d (Zin d) (Xs d) (Oin d) ∗ owesB (F := F) O b d
        ∗ levAts (K (F := F)).L lv ∗ ghost0 (F := F) d)
      ⊢ wp frame (wpE ((K (F := F)).defs D) 𝒱 (SparseCore.T d) none) Set.univ
          (Prog.lift (.customCall (SparseCore.inner (Pipeline.entry pIx)) ()))
          (fun _ => post0 Zin Xs Oin O b d) := by
  have h := Pipeline.RegionSeg.wp (pcfgs (F := F)) adm (dats Zin Xs Oin O b) (none : HIx 5) cellOf_inj (EP (F := F)) defs₀ 𝒱₀ (K (F := F)).L lv
    (reg0 Zin Xs Oin O b hO lv hlv) d none (fun u hu => nomatch hu) .ret
    (fun _ => post0 Zin Xs Oin O b d)
  refine .trans (.trans ?_ h)
    ((K (F := F)).wp_liftProg D 𝒱 (SparseCore.T d) Set.univ none (.op (.customCall (Pipeline.entry pIx) ()) .ret) _)
  unfold ghost0 ghost
  dsimp only [reg0]
  iintro ⟨Hb, Ha, HO, Hl, Hg, Ht⟩
  isplitr
  · iintro H
    rw [wp_ret]; imodintro; iexact H
  isplitl [Hb]; · iexact Hb
  isplitl [Ha HO]; · iframe
  isplitl [Hl]; · iexact Hl
  isplitl [Hg]; · iexact Hg
  iexact Ht

end Cert.Proof.KI.Tc0

end
-- ==== Proof.TcRegion1.lean ====
import proofs.«212107_g53927609368716_cont_9to1_m_409_29_alg».proof.Proof.Setup
import proofs.«212107_g53927609368716_cont_9to1_m_409_29_alg».proof.Proof.Launch
import proofs.«212107_g53927609368716_cont_9to1_m_409_29_alg».proof.Proof.Gen.KernelIdeal.Launch
import proofs.«212107_g53927609368716_cont_9to1_m_409_29_alg».proof.Proof.Gen.KernelIdeal.Points
import proofs.«212107_g53927609368716_cont_9to1_m_409_29_alg».proof.Proof.Gen.KernelIdeal.Skeleton
import proofs.«212107_g53927609368716_cont_9to1_m_409_29_alg».proof.Proof.TcShared
import Idealize.ShloMosaic.Lib.Pipeline.Regions
import Idealize.ShloMosaic.Lib.Pipeline.FrameBody
import Idealize.ShloMosaic.Lib.Pipeline.Value
import Idealize.ShloMosaic.Lib.Tactic

noncomputable section

namespace Cert.Proof.KI.Tc1

open Cert.KernelIdeal Cert.KernelIdeal.Gen
open Cert.Proof.KI
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open TcShared

variable {F : FTy → Type} [FloatOps F] [Named F] [Cert.KernelIdeal.Facts]

local notation "𝕄" => MM (F := F)

abbrev pIx : Fin 5 := 1

def bodyFn (z : Vec F S12800x128 .f32) (x : Vec F S400x128 .f32) : FVec F S400x128 .f32 :=
  k3_pay1 (k3_pay2 (F := F)) (k3_pay3 x) (k3_pay4 z) (k3_pay6 z x) (k3_pay7 z x)

theorem sound_kernel (c : Dev nD) (E : Set ℕ) (i : grid3.Coords)
    (arg1 : Memref sig .tc .vmem S12800x128 .f32) (harg1 : arg1.IsWhole) (arg2 : Memref sig .tc .vmem S400x128 .f32) (harg2 : arg2.IsWhole)
    (arg3 : Memref sig .tc .vmem S400x128 .f32) (harg3 : arg3.IsWhole)
    {δ₁ δ₂ δ₃ : Type} (Z : δ₁ → Vec F S12800x128 .f32) (X : δ₂ → Vec F S400x128 .f32) (Y : δ₃ → Vec F S400x128 .f32)
    (z : Vec F S12800x128 .f32) (x : Vec F S400x128 .f32) (hZ : ∀ d, Z d = z) (hX : ∀ d, X d = x) (R R' : sProp 𝕄) :
    iprop(R ∗ R' ∗ (∃ d, owns (c : Thread nD τ) arg1 fullShare (Z d)) ∗ (∃ d, owns (c : Thread nD τ) arg2 fullShare (X d))
        ∗ (∃ d, owns (c : Thread nD τ) arg3 fullShare (Y d)))
      ⊢ wp frame (wpE (defs₀ (F := F)) Variants.none c none) E (cc3__routing_body i arg1 harg1 arg2 harg2 arg3 harg3) fun _ =>
        iprop(R ∗ R' ∗ owns (c : Thread nD τ) arg1 fullShare z ∗ owns (c : Thread nD τ) arg2 fullShare x
          ∗ owns (c : Thread nD τ) arg3 fullShare (bodyFn z x)) := by
  simp only [cc3__routing_body_eq_skeleton]; unfold cc3__routing_body_skel
  simp only [k3_part1_eq_skeleton]; unfold k3_part1_skel
  unfold owns
  iintro ⟨HR, HR', ⟨%d0, %f0, %hf0, H0⟩, ⟨%d1, %f1, %hf1, H1⟩, ⟨%d2, %f2, -, H2⟩⟩
  rw [hZ] at hf0; rw [hX] at hf1; subst hf0 hf1
  sl_exec
  sl_step
  isplitl [HR]; · iexact HR
  isplitl [HR']; · iexact HR'
  isplitl [H0]
  · iexists f0; isplitr; · ipureintro; rfl
    iexact H0
  isplitl [H1]
  · iexists f1; isplitr; · ipureintro; rfl
    iexact H1
  iexists _; isplitr
  swap; · iexact H2
  ipureintro
  rw [read_store_full S400x128 zeros2]
  dsimp only
  rw [readAt_full S12800x128 zeros2, readAt_full S400x128 zeros2]
  rfl

abbrev zLoc (c : Dev nD) : Loc nD τ sig := (SparseCore.T c).loc main_v12
abbrev xsLoc (c : Dev nD) : Loc nD τ sig := (SparseCore.T c).loc main_v13
abbrev oLoc (c : Dev nD) : Loc nD τ sig := (SparseCore.T c).loc main_v14

variable (Zin : (c : Dev nD) → Buf (Elt F) (zLoc c)) (Xs : (c : Dev nD) → Buf (Elt F) (xsLoc c))
  (Oin : (c : Dev nD) → Buf (Elt F) (oLoc c))
  (O : Dev nD → CellTallies nD τ sig (HIx 5)) (b : ℕ)

abbrev zBlk (c : Dev nD) (t : Fin cfg3.N) : Vec F S12800x128 .f32 := ((cfg3.win 0).blk t).view.read (Elt F) (Zin c)
abbrev xBlk (c : Dev nD) (t : Fin cfg3.N) : Vec F S400x128 .f32 := ((cfg3.win 1).blk t).view.read (Elt F) (Xs c)

abbrev rest0 (c : Dev nD) : sProp 𝕄 :=
  Pipeline.scopedRest (Ix := HIx 5) (Name := ℕ) (U := UU) (Lvl := ℕ) (Val := Elt F) spec3 c

def dat0 (c : Dev nD) : Dat τ (Elt F) (HIx 5) ℕ UU ℕ cfg3 c where
  A w := match w with
    | ⟨0, _⟩ => Zin c
    | ⟨1, _⟩ => Xs c
    | ⟨2, _⟩ => Oin c
  after w t := match w with
    | ⟨0, _⟩ => zBlk Zin c t
    | ⟨1, _⟩ => xBlk Xs c t
    | ⟨2, _⟩ => bodyFn (zBlk Zin c t) (xBlk Xs c t)
  Φ _ := rest0 c
  q _ := fullShare
  owed _ := O c
  recorded _ := {p | (K (F := F)).lev (SparseCore.T c, p.1) p.2 ≤ b}

def idleDat (cfg : Pipeline.Cfg sig Λ₀) (c : Dev nD) : Dat τ (Elt F) (HIx 5) ℕ UU ℕ cfg c where
  A w := (cfg.win w).arr.view.junk
  after w t := Dat.unnamed w t
  Φ _ := iprop(emp)
  q _ := fullShare
  owed _ := 0

def dats (p : Fin 5) (c : Dev nD) : Dat τ (Elt F) (HIx 5) ℕ UU ℕ (Pipeline.pin (pcfgs (F := F)) adm p) c :=
  if h : p = pIx then (by subst h; exact dat0 Zin Xs Oin O b c) else idleDat _ c

def regionOut (c : Dev nD) : Buf (Elt F) (oLoc c) := (dat0 Zin Xs Oin O b c).arrAt 2 cfg3.N

def arrays0 (c : Dev nD) (z : Buf (Elt F) (zLoc c)) (x : Buf (Elt F) (xsLoc c)) (o : Buf (Elt F) (oLoc c)) : sProp 𝕄 :=
  iprop((zLoc c ↦{fullShare} z) ∗ (xsLoc c ↦{fullShare} x) ∗ (oLoc c ↦{fullShare} o))

def owesB (c : Dev nD) : sProp 𝕄 :=
  iprop(∃ W, ⌜(K (F := F)).WBelow (SparseCore.T c) W b⌝ ∗ owes (SparseCore.T c) (O c) W)

theorem body_obligation (c : Dev nD) :
    BodyObligation (dat0 Zin Xs Oin O b c) (defs₀ (F := F)) 𝒱₀ (none : HIx 5) Set.univ := fun t => by
  rw [bigSep_W3, bigSep_W3]
  exact sound_kernel c _ _ _ _ _ _ _ _ _ _ _ (zBlk Zin c t) (xBlk Xs c t)
    ((dat0 Zin Xs Oin O b c).before_fetched 0 t (fetch3_0 t)) ((dat0 Zin Xs Oin O b c).before_fetched 1 t (fetch3_1 t)) _ _

abbrev ghost0 (c : Dev nD) : sProp 𝕄 := ghost (F := F) pIx c

theorem index_ne : ∀ t t' : Fin grid3.N, t ≠ t' → win3_2.index t ≠ win3_2.index t' := by decide +kernel

theorem regionOut_blk (c : Dev nD) (t : Fin cfg3.N) :
    ((cfg3.win 2).blk t).view.read (Elt F) (regionOut Zin Xs Oin O b c) = bodyFn (zBlk Zin c t) (xBlk Xs c t) := by
  unfold regionOut
  rw [(dat0 Zin Xs Oin O b c).read_blk_arrAt_eq_flushed 2
    (fun t t' _ _ h => (cfg3.win 2).disjoint_blk (index_ne t t' h)) cfg3.N t t.isLt (flush3_2 t)]
  show (cfg3.win 2).cut (cfg3.grid.coords t) ((dat0 Zin Xs Oin O b c).after 2 t) = _
  dsimp only [dat0]
  rfl

variable (hO : ∀ c g, O c g none = 0) (lv : GSem nD τ sig → HIx 5 → ℕ) (hlv : (K (F := F)).Refines lv)

set_option backward.isDefEq.respectTransparency.types false in
def reg0 : Pipeline.RegionSeg (pcfgs (F := F)) adm (dats Zin Xs Oin O b) (none : HIx 5) defs₀ 𝒱₀ (K (F := F)).L lv pIx where
  win := launch3.win.to₀
  block_pos := launch3.block_pos
  stage_whole := launch3.stage_whole
  K := PEmpty
  osem := fun k => k.elim
  ho := Pipeline.OwnSemFacts.none _
  hbody c := (body_obligation Zin Xs Oin O b c).loose
  hwaits c := Pipeline.cellsWaits_intro (Pipeline.pin (pcfgs (F := F)) adm) (dats Zin Xs Oin O b) (none : HIx 5) pIx c
    fun w s t => (K (F := F)).mayWait_none _ (hO c) lv hlv
  pre c := iprop(arrays0 c (Zin c) (Xs c) (Oin c) ∗ owesB (F := F) O b c)
  post c := iprop(arrays0 c (Zin c) (Xs c) (regionOut Zin Xs Oin O b c) ∗ owesB (F := F) O b c)
  X _ := iprop(emp)
  Y _ := iprop(emp)
  Z _ := iprop(emp)
  hentry c := by
    rw [Pipeline.ownSems0_none,
      Pipeline.arrays_eq (Pipeline.pin (pcfgs (F := F)) adm) (dats Zin Xs Oin O b) pIx c launch3.arr_whole
        ((dats Zin Xs Oin O b pIx c).share_full fun _ => rfl), bigSep_W3]
    unfold arrays0 owesB
    iintro ⟨⟨Ha, ⟨%W, %hW, HO⟩⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr <;> iempintro
  hin c := by
    rw [show (dats Zin Xs Oin O b pIx c).Φ 0 = rest0 c from rfl]
    iintro ⟨-, -, Hr⟩; iexact Hr
  hout c := by
    rw [Pipeline.ownSems0_none, show (dats Zin Xs Oin O b pIx c).Φ (Fin.last _) = rest0 c from rfl]
    iintro Hr
    isplitr; · iempintro
    isplitr; · iempintro
    iexact Hr
  hexit c := by
    rw [Pipeline.arrays_eq (Pipeline.pin (pcfgs (F := F)) adm) (dats Zin Xs Oin O b) pIx c launch3.arr_whole
        ((dats Zin Xs Oin O b pIx c).share_full fun _ => rfl), bigSep_W3,
      show (dats Zin Xs Oin O b pIx c).arrAt 0 (Pipeline.pin (pcfgs (F := F)) adm pIx).N = Zin c from (dat0 Zin Xs Oin O b c).arrAt_in 0 rfl _,
      show (dats Zin Xs Oin O b pIx c).arrAt 1 (Pipeline.pin (pcfgs (F := F)) adm pIx).N = Xs c from (dat0 Zin Xs Oin O b c).arrAt_in 1 rfl _]
    unfold arrays0 owesB regionOut
    iintro ⟨Ha, HO, -, -⟩
    imodintro
    isplitl [Ha]; · iexact Ha
    unfold Pipeline.Dat.owesAt Pipeline.owesWithin
    icases HO with ⟨%W, %hW, HO⟩; iexists W; isplitr; swap; (· iexact HO)
    ipureintro
    intro p hp
    rcases hW hp with h | ⟨w, s, rfl⟩
    · exact h
    · exact Nat.zero_le _

abbrev post0 (d : Dev nD) : sProp 𝕄 :=
  iprop(boundary (SparseCore.T d : Thread nD τ) ∗ arrays0 d (Zin d) (Xs d) (regionOut Zin Xs Oin O b d) ∗ owesB (F := F) O b d)

include hO hlv in
set_option backward.isDefEq.respectTransparency.types false in
theorem region0 (d : Dev nD) :
    iprop(boundary (SparseCore.T d : Thread nD τ) ∗ arrays0 d (Zin d) (Xs d) (Oin d) ∗ owesB (F := F) O b d
        ∗ levAts (K (F := F)).L lv ∗ ghost0 (F := F) d)
      ⊢ wp frame (wpE ((K (F := F)).defs D) 𝒱 (SparseCore.T d) none) Set.univ
          (Prog.lift (.customCall (SparseCore.inner (Pipeline.entry pIx)) ()))
          (fun _ => post0 Zin Xs Oin O b d) := by
  have h := Pipeline.RegionSeg.wp (pcfgs (F := F)) adm (dats Zin Xs Oin O b) (none : HIx 5) cellOf_inj (EP (F := F)) defs₀ 𝒱₀ (K (F := F)).L lv
    (reg0 Zin Xs Oin O b hO lv hlv) d none (fun u hu => nomatch hu) .ret
    (fun _ => post0 Zin Xs Oin O b d)
  refine .trans (.trans ?_ h)
    ((K (F := F)).wp_liftProg D 𝒱 (SparseCore.T d) Set.univ none (.op (.customCall (Pipeline.entry pIx) ()) .ret) _)
  unfold ghost0 ghost
  dsimp only [reg0]
  iintro ⟨Hb, Ha, HO, Hl, Hg, Ht⟩
  isplitr
  · iintro H
    rw [wp_ret]; imodintro; iexact H
  isplitl [Hb]; · iexact Hb
  isplitl [Ha HO]; · iframe
  isplitl [Hl]; · iexact Hl
  isplitl [Hg]; · iexact Hg
  iexact Ht

end Cert.Proof.KI.Tc1

end
-- ==== Proof.TcRegion2.lean ====
import proofs.«212107_g53927609368716_cont_9to1_m_409_29_alg».proof.Proof.Setup
import proofs.«212107_g53927609368716_cont_9to1_m_409_29_alg».proof.Proof.Launch
import proofs.«212107_g53927609368716_cont_9to1_m_409_29_alg».proof.Proof.Gen.KernelIdeal.Launch
import proofs.«212107_g53927609368716_cont_9to1_m_409_29_alg».proof.Proof.Gen.KernelIdeal.Points
import proofs.«212107_g53927609368716_cont_9to1_m_409_29_alg».proof.Proof.Gen.KernelIdeal.Skeleton
import proofs.«212107_g53927609368716_cont_9to1_m_409_29_alg».proof.Proof.TcShared
import Idealize.ShloMosaic.Lib.Pipeline.Regions
import Idealize.ShloMosaic.Lib.Pipeline.FrameBody
import Idealize.ShloMosaic.Lib.Pipeline.Value
import Idealize.ShloMosaic.Lib.Tactic

noncomputable section

namespace Cert.Proof.KI.Tc2

open Cert.KernelIdeal Cert.KernelIdeal.Gen
open Cert.Proof.KI
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open TcShared

variable {F : FTy → Type} [FloatOps F] [Named F] [Cert.KernelIdeal.Facts]

local notation "𝕄" => MM (F := F)

abbrev pIx : Fin 5 := 2

def bodyFn (z : Vec F S12800x128 .f32) (x : Vec F S400x128 .f32) : FVec F S400x128 .f32 :=
  k5_pay1 (k5_pay2 (F := F)) (k5_pay3 x) (k5_pay4 z) (k5_pay6 z x) (k5_pay7 z x)

theorem sound_kernel (c : Dev nD) (E : Set ℕ) (i : grid5.Coords)
    (arg1 : Memref sig .tc .vmem S12800x128 .f32) (harg1 : arg1.IsWhole) (arg2 : Memref sig .tc .vmem S400x128 .f32) (harg2 : arg2.IsWhole)
    (arg3 : Memref sig .tc .vmem S400x128 .f32) (harg3 : arg3.IsWhole)
    {δ₁ δ₂ δ₃ : Type} (Z : δ₁ → Vec F S12800x128 .f32) (X : δ₂ → Vec F S400x128 .f32) (Y : δ₃ → Vec F S400x128 .f32)
    (z : Vec F S12800x128 .f32) (x : Vec F S400x128 .f32) (hZ : ∀ d, Z d = z) (hX : ∀ d, X d = x) (R R' : sProp 𝕄) :
    iprop(R ∗ R' ∗ (∃ d, owns (c : Thread nD τ) arg1 fullShare (Z d)) ∗ (∃ d, owns (c : Thread nD τ) arg2 fullShare (X d))
        ∗ (∃ d, owns (c : Thread nD τ) arg3 fullShare (Y d)))
      ⊢ wp frame (wpE (defs₀ (F := F)) Variants.none c none) E (cc5__routing_body i arg1 harg1 arg2 harg2 arg3 harg3) fun _ =>
        iprop(R ∗ R' ∗ owns (c : Thread nD τ) arg1 fullShare z ∗ owns (c : Thread nD τ) arg2 fullShare x
          ∗ owns (c : Thread nD τ) arg3 fullShare (bodyFn z x)) := by
  simp only [cc5__routing_body_eq_skeleton]; unfold cc5__routing_body_skel
  simp only [k5_part1_eq_skeleton]; unfold k5_part1_skel
  unfold owns
  iintro ⟨HR, HR', ⟨%d0, %f0, %hf0, H0⟩, ⟨%d1, %f1, %hf1, H1⟩, ⟨%d2, %f2, -, H2⟩⟩
  rw [hZ] at hf0; rw [hX] at hf1; subst hf0 hf1
  sl_exec
  sl_step
  isplitl [HR]; · iexact HR
  isplitl [HR']; · iexact HR'
  isplitl [H0]
  · iexists f0; isplitr; · ipureintro; rfl
    iexact H0
  isplitl [H1]
  · iexists f1; isplitr; · ipureintro; rfl
    iexact H1
  iexists _; isplitr
  swap; · iexact H2
  ipureintro
  rw [read_store_full S400x128 zeros2]
  dsimp only
  rw [readAt_full S12800x128 zeros2, readAt_full S400x128 zeros2]
  rfl

abbrev zLoc (c : Dev nD) : Loc nD τ sig := (SparseCore.T c).loc main_v17
abbrev xsLoc (c : Dev nD) : Loc nD τ sig := (SparseCore.T c).loc main_v18
abbrev oLoc (c : Dev nD) : Loc nD τ sig := (SparseCore.T c).loc main_v19

variable (Zin : (c : Dev nD) → Buf (Elt F) (zLoc c)) (Xs : (c : Dev nD) → Buf (Elt F) (xsLoc c))
  (Oin : (c : Dev nD) → Buf (Elt F) (oLoc c))
  (O : Dev nD → CellTallies nD τ sig (HIx 5)) (b : ℕ)

abbrev zBlk (c : Dev nD) (t : Fin cfg5.N) : Vec F S12800x128 .f32 := ((cfg5.win 0).blk t).view.read (Elt F) (Zin c)
abbrev xBlk (c : Dev nD) (t : Fin cfg5.N) : Vec F S400x128 .f32 := ((cfg5.win 1).blk t).view.read (Elt F) (Xs c)

abbrev rest0 (c : Dev nD) : sProp 𝕄 :=
  Pipeline.scopedRest (Ix := HIx 5) (Name := ℕ) (U := UU) (Lvl := ℕ) (Val := Elt F) spec5 c

def dat0 (c : Dev nD) : Dat τ (Elt F) (HIx 5) ℕ UU ℕ cfg5 c where
  A w := match w with
    | ⟨0, _⟩ => Zin c
    | ⟨1, _⟩ => Xs c
    | ⟨2, _⟩ => Oin c
  after w t := match w with
    | ⟨0, _⟩ => zBlk Zin c t
    | ⟨1, _⟩ => xBlk Xs c t
    | ⟨2, _⟩ => bodyFn (zBlk Zin c t) (xBlk Xs c t)
  Φ _ := rest0 c
  q _ := fullShare
  owed _ := O c
  recorded _ := {p | (K (F := F)).lev (SparseCore.T c, p.1) p.2 ≤ b}

def idleDat (cfg : Pipeline.Cfg sig Λ₀) (c : Dev nD) : Dat τ (Elt F) (HIx 5) ℕ UU ℕ cfg c where
  A w := (cfg.win w).arr.view.junk
  after w t := Dat.unnamed w t
  Φ _ := iprop(emp)
  q _ := fullShare
  owed _ := 0

def dats (p : Fin 5) (c : Dev nD) : Dat τ (Elt F) (HIx 5) ℕ UU ℕ (Pipeline.pin (pcfgs (F := F)) adm p) c :=
  if h : p = pIx then (by subst h; exact dat0 Zin Xs Oin O b c) else idleDat _ c

def regionOut (c : Dev nD) : Buf (Elt F) (oLoc c) := (dat0 Zin Xs Oin O b c).arrAt 2 cfg5.N

def arrays0 (c : Dev nD) (z : Buf (Elt F) (zLoc c)) (x : Buf (Elt F) (xsLoc c)) (o : Buf (Elt F) (oLoc c)) : sProp 𝕄 :=
  iprop((zLoc c ↦{fullShare} z) ∗ (xsLoc c ↦{fullShare} x) ∗ (oLoc c ↦{fullShare} o))

def owesB (c : Dev nD) : sProp 𝕄 :=
  iprop(∃ W, ⌜(K (F := F)).WBelow (SparseCore.T c) W b⌝ ∗ owes (SparseCore.T c) (O c) W)

theorem body_obligation (c : Dev nD) :
    BodyObligation (dat0 Zin Xs Oin O b c) (defs₀ (F := F)) 𝒱₀ (none : HIx 5) Set.univ := fun t => by
  rw [bigSep_W5, bigSep_W5]
  exact sound_kernel c _ _ _ _ _ _ _ _ _ _ _ (zBlk Zin c t) (xBlk Xs c t)
    ((dat0 Zin Xs Oin O b c).before_fetched 0 t (fetch5_0 t)) ((dat0 Zin Xs Oin O b c).before_fetched 1 t (fetch5_1 t)) _ _

abbrev ghost0 (c : Dev nD) : sProp 𝕄 := ghost (F := F) pIx c

theorem index_ne : ∀ t t' : Fin grid5.N, t ≠ t' → win5_2.index t ≠ win5_2.index t' := by decide +kernel

theorem regionOut_blk (c : Dev nD) (t : Fin cfg5.N) :
    ((cfg5.win 2).blk t).view.read (Elt F) (regionOut Zin Xs Oin O b c) = bodyFn (zBlk Zin c t) (xBlk Xs c t) := by
  unfold regionOut
  rw [(dat0 Zin Xs Oin O b c).read_blk_arrAt_eq_flushed 2
    (fun t t' _ _ h => (cfg5.win 2).disjoint_blk (index_ne t t' h)) cfg5.N t t.isLt (flush5_2 t)]
  show (cfg5.win 2).cut (cfg5.grid.coords t) ((dat0 Zin Xs Oin O b c).after 2 t) = _
  dsimp only [dat0]
  rfl

variable (hO : ∀ c g, O c g none = 0) (lv : GSem nD τ sig → HIx 5 → ℕ) (hlv : (K (F := F)).Refines lv)

set_option backward.isDefEq.respectTransparency.types false in
def reg0 : Pipeline.RegionSeg (pcfgs (F := F)) adm (dats Zin Xs Oin O b) (none : HIx 5) defs₀ 𝒱₀ (K (F := F)).L lv pIx where
  win := launch5.win.to₀
  block_pos := launch5.block_pos
  stage_whole := launch5.stage_whole
  K := PEmpty
  osem := fun k => k.elim
  ho := Pipeline.OwnSemFacts.none _
  hbody c := (body_obligation Zin Xs Oin O b c).loose
  hwaits c := Pipeline.cellsWaits_intro (Pipeline.pin (pcfgs (F := F)) adm) (dats Zin Xs Oin O b) (none : HIx 5) pIx c
    fun w s t => (K (F := F)).mayWait_none _ (hO c) lv hlv
  pre c := iprop(arrays0 c (Zin c) (Xs c) (Oin c) ∗ owesB (F := F) O b c)
  post c := iprop(arrays0 c (Zin c) (Xs c) (regionOut Zin Xs Oin O b c) ∗ owesB (F := F) O b c)
  X _ := iprop(emp)
  Y _ := iprop(emp)
  Z _ := iprop(emp)
  hentry c := by
    rw [Pipeline.ownSems0_none,
      Pipeline.arrays_eq (Pipeline.pin (pcfgs (F := F)) adm) (dats Zin Xs Oin O b) pIx c launch5.arr_whole
        ((dats Zin Xs Oin O b pIx c).share_full fun _ => rfl), bigSep_W5]
    unfold arrays0 owesB
    iintro ⟨⟨Ha, ⟨%W, %hW, HO⟩⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr <;> iempintro
  hin c := by
    rw [show (dats Zin Xs Oin O b pIx c).Φ 0 = rest0 c from rfl]
    iintro ⟨-, -, Hr⟩; iexact Hr
  hout c := by
    rw [Pipeline.ownSems0_none, show (dats Zin Xs Oin O b pIx c).Φ (Fin.last _) = rest0 c from rfl]
    iintro Hr
    isplitr; · iempintro
    isplitr; · iempintro
    iexact Hr
  hexit c := by
    rw [Pipeline.arrays_eq (Pipeline.pin (pcfgs (F := F)) adm) (dats Zin Xs Oin O b) pIx c launch5.arr_whole
        ((dats Zin Xs Oin O b pIx c).share_full fun _ => rfl), bigSep_W5,
      show (dats Zin Xs Oin O b pIx c).arrAt 0 (Pipeline.pin (pcfgs (F := F)) adm pIx).N = Zin c from (dat0 Zin Xs Oin O b c).arrAt_in 0 rfl _,
      show (dats Zin Xs Oin O b pIx c).arrAt 1 (Pipeline.pin (pcfgs (F := F)) adm pIx).N = Xs c from (dat0 Zin Xs Oin O b c).arrAt_in 1 rfl _]
    unfold arrays0 owesB regionOut
    iintro ⟨Ha, HO, -, -⟩
    imodintro
    isplitl [Ha]; · iexact Ha
    unfold Pipeline.Dat.owesAt Pipeline.owesWithin
    icases HO with ⟨%W, %hW, HO⟩; iexists W; isplitr; swap; (· iexact HO)
    ipureintro
    intro p hp
    rcases hW hp with h | ⟨w, s, rfl⟩
    · exact h
    · exact Nat.zero_le _

abbrev post0 (d : Dev nD) : sProp 𝕄 :=
  iprop(boundary (SparseCore.T d : Thread nD τ) ∗ arrays0 d (Zin d) (Xs d) (regionOut Zin Xs Oin O b d) ∗ owesB (F := F) O b d)

include hO hlv in
set_option backward.isDefEq.respectTransparency.types false in
theorem region0 (d : Dev nD) :
    iprop(boundary (SparseCore.T d : Thread nD τ) ∗ arrays0 d (Zin d) (Xs d) (Oin d) ∗ owesB (F := F) O b d
        ∗ levAts (K (F := F)).L lv ∗ ghost0 (F := F) d)
      ⊢ wp frame (wpE ((K (F := F)).defs D) 𝒱 (SparseCore.T d) none) Set.univ
          (Prog.lift (.customCall (SparseCore.inner (Pipeline.entry pIx)) ()))
          (fun _ => post0 Zin Xs Oin O b d) := by
  have h := Pipeline.RegionSeg.wp (pcfgs (F := F)) adm (dats Zin Xs Oin O b) (none : HIx 5) cellOf_inj (EP (F := F)) defs₀ 𝒱₀ (K (F := F)).L lv
    (reg0 Zin Xs Oin O b hO lv hlv) d none (fun u hu => nomatch hu) .ret
    (fun _ => post0 Zin Xs Oin O b d)
  refine .trans (.trans ?_ h)
    ((K (F := F)).wp_liftProg D 𝒱 (SparseCore.T d) Set.univ none (.op (.customCall (Pipeline.entry pIx) ()) .ret) _)
  unfold ghost0 ghost
  dsimp only [reg0]
  iintro ⟨Hb, Ha, HO, Hl, Hg, Ht⟩
  isplitr
  · iintro H
    rw [wp_ret]; imodintro; iexact H
  isplitl [Hb]; · iexact Hb
  isplitl [Ha HO]; · iframe
  isplitl [Hl]; · iexact Hl
  isplitl [Hg]; · iexact Hg
  iexact Ht

end Cert.Proof.KI.Tc2

end
-- ==== Proof.TcRegion3.lean ====
import proofs.«212107_g53927609368716_cont_9to1_m_409_29_alg».proof.Proof.Setup
import proofs.«212107_g53927609368716_cont_9to1_m_409_29_alg».proof.Proof.Launch
import proofs.«212107_g53927609368716_cont_9to1_m_409_29_alg».proof.Proof.Gen.KernelIdeal.Launch
import proofs.«212107_g53927609368716_cont_9to1_m_409_29_alg».proof.Proof.Gen.KernelIdeal.Points
import proofs.«212107_g53927609368716_cont_9to1_m_409_29_alg».proof.Proof.Gen.KernelIdeal.Skeleton
import proofs.«212107_g53927609368716_cont_9to1_m_409_29_alg».proof.Proof.TcShared
import Idealize.ShloMosaic.Lib.Pipeline.Regions
import Idealize.ShloMosaic.Lib.Pipeline.FrameBody
import Idealize.ShloMosaic.Lib.Pipeline.Value
import Idealize.ShloMosaic.Lib.Tactic

noncomputable section

namespace Cert.Proof.KI.Tc3

open Cert.KernelIdeal Cert.KernelIdeal.Gen
open Cert.Proof.KI
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open TcShared

variable {F : FTy → Type} [FloatOps F] [Named F] [Cert.KernelIdeal.Facts]

local notation "𝕄" => MM (F := F)

abbrev pIx : Fin 5 := 3

def bodyFn (z : Vec F S12800x128 .f32) (x : Vec F S400x128 .f32) : FVec F S400x128 .f32 :=
  k7_pay1 (k7_pay2 (F := F)) (k7_pay3 x) (k7_pay4 z) (k7_pay6 z x) (k7_pay7 z x)

theorem sound_kernel (c : Dev nD) (E : Set ℕ) (i : grid7.Coords)
    (arg1 : Memref sig .tc .vmem S12800x128 .f32) (harg1 : arg1.IsWhole) (arg2 : Memref sig .tc .vmem S400x128 .f32) (harg2 : arg2.IsWhole)
    (arg3 : Memref sig .tc .vmem S400x128 .f32) (harg3 : arg3.IsWhole)
    {δ₁ δ₂ δ₃ : Type} (Z : δ₁ → Vec F S12800x128 .f32) (X : δ₂ → Vec F S400x128 .f32) (Y : δ₃ → Vec F S400x128 .f32)
    (z : Vec F S12800x128 .f32) (x : Vec F S400x128 .f32) (hZ : ∀ d, Z d = z) (hX : ∀ d, X d = x) (R R' : sProp 𝕄) :
    iprop(R ∗ R' ∗ (∃ d, owns (c : Thread nD τ) arg1 fullShare (Z d)) ∗ (∃ d, owns (c : Thread nD τ) arg2 fullShare (X d))
        ∗ (∃ d, owns (c : Thread nD τ) arg3 fullShare (Y d)))
      ⊢ wp frame (wpE (defs₀ (F := F)) Variants.none c none) E (cc7__routing_body i arg1 harg1 arg2 harg2 arg3 harg3) fun _ =>
        iprop(R ∗ R' ∗ owns (c : Thread nD τ) arg1 fullShare z ∗ owns (c : Thread nD τ) arg2 fullShare x
          ∗ owns (c : Thread nD τ) arg3 fullShare (bodyFn z x)) := by
  simp only [cc7__routing_body_eq_skeleton]; unfold cc7__routing_body_skel
  simp only [k7_part1_eq_skeleton]; unfold k7_part1_skel
  unfold owns
  iintro ⟨HR, HR', ⟨%d0, %f0, %hf0, H0⟩, ⟨%d1, %f1, %hf1, H1⟩, ⟨%d2, %f2, -, H2⟩⟩
  rw [hZ] at hf0; rw [hX] at hf1; subst hf0 hf1
  sl_exec
  sl_step
  isplitl [HR]; · iexact HR
  isplitl [HR']; · iexact HR'
  isplitl [H0]
  · iexists f0; isplitr; · ipureintro; rfl
    iexact H0
  isplitl [H1]
  · iexists f1; isplitr; · ipureintro; rfl
    iexact H1
  iexists _; isplitr
  swap; · iexact H2
  ipureintro
  rw [read_store_full S400x128 zeros2]
  dsimp only
  rw [readAt_full S12800x128 zeros2, readAt_full S400x128 zeros2]
  rfl

abbrev zLoc (c : Dev nD) : Loc nD τ sig := (SparseCore.T c).loc main_v22
abbrev xsLoc (c : Dev nD) : Loc nD τ sig := (SparseCore.T c).loc main_v23
abbrev oLoc (c : Dev nD) : Loc nD τ sig := (SparseCore.T c).loc main_v24

variable (Zin : (c : Dev nD) → Buf (Elt F) (zLoc c)) (Xs : (c : Dev nD) → Buf (Elt F) (xsLoc c))
  (Oin : (c : Dev nD) → Buf (Elt F) (oLoc c))
  (O : Dev nD → CellTallies nD τ sig (HIx 5)) (b : ℕ)

abbrev zBlk (c : Dev nD) (t : Fin cfg7.N) : Vec F S12800x128 .f32 := ((cfg7.win 0).blk t).view.read (Elt F) (Zin c)
abbrev xBlk (c : Dev nD) (t : Fin cfg7.N) : Vec F S400x128 .f32 := ((cfg7.win 1).blk t).view.read (Elt F) (Xs c)

abbrev rest0 (c : Dev nD) : sProp 𝕄 :=
  Pipeline.scopedRest (Ix := HIx 5) (Name := ℕ) (U := UU) (Lvl := ℕ) (Val := Elt F) spec7 c

def dat0 (c : Dev nD) : Dat τ (Elt F) (HIx 5) ℕ UU ℕ cfg7 c where
  A w := match w with
    | ⟨0, _⟩ => Zin c
    | ⟨1, _⟩ => Xs c
    | ⟨2, _⟩ => Oin c
  after w t := match w with
    | ⟨0, _⟩ => zBlk Zin c t
    | ⟨1, _⟩ => xBlk Xs c t
    | ⟨2, _⟩ => bodyFn (zBlk Zin c t) (xBlk Xs c t)
  Φ _ := rest0 c
  q _ := fullShare
  owed _ := O c
  recorded _ := {p | (K (F := F)).lev (SparseCore.T c, p.1) p.2 ≤ b}

def idleDat (cfg : Pipeline.Cfg sig Λ₀) (c : Dev nD) : Dat τ (Elt F) (HIx 5) ℕ UU ℕ cfg c where
  A w := (cfg.win w).arr.view.junk
  after w t := Dat.unnamed w t
  Φ _ := iprop(emp)
  q _ := fullShare
  owed _ := 0

def dats (p : Fin 5) (c : Dev nD) : Dat τ (Elt F) (HIx 5) ℕ UU ℕ (Pipeline.pin (pcfgs (F := F)) adm p) c :=
  if h : p = pIx then (by subst h; exact dat0 Zin Xs Oin O b c) else idleDat _ c

def regionOut (c : Dev nD) : Buf (Elt F) (oLoc c) := (dat0 Zin Xs Oin O b c).arrAt 2 cfg7.N

def arrays0 (c : Dev nD) (z : Buf (Elt F) (zLoc c)) (x : Buf (Elt F) (xsLoc c)) (o : Buf (Elt F) (oLoc c)) : sProp 𝕄 :=
  iprop((zLoc c ↦{fullShare} z) ∗ (xsLoc c ↦{fullShare} x) ∗ (oLoc c ↦{fullShare} o))

def owesB (c : Dev nD) : sProp 𝕄 :=
  iprop(∃ W, ⌜(K (F := F)).WBelow (SparseCore.T c) W b⌝ ∗ owes (SparseCore.T c) (O c) W)

theorem body_obligation (c : Dev nD) :
    BodyObligation (dat0 Zin Xs Oin O b c) (defs₀ (F := F)) 𝒱₀ (none : HIx 5) Set.univ := fun t => by
  rw [bigSep_W7, bigSep_W7]
  exact sound_kernel c _ _ _ _ _ _ _ _ _ _ _ (zBlk Zin c t) (xBlk Xs c t)
    ((dat0 Zin Xs Oin O b c).before_fetched 0 t (fetch7_0 t)) ((dat0 Zin Xs Oin O b c).before_fetched 1 t (fetch7_1 t)) _ _

abbrev ghost0 (c : Dev nD) : sProp 𝕄 := ghost (F := F) pIx c

theorem index_ne : ∀ t t' : Fin grid7.N, t ≠ t' → win7_2.index t ≠ win7_2.index t' := by decide +kernel

theorem regionOut_blk (c : Dev nD) (t : Fin cfg7.N) :
    ((cfg7.win 2).blk t).view.read (Elt F) (regionOut Zin Xs Oin O b c) = bodyFn (zBlk Zin c t) (xBlk Xs c t) := by
  unfold regionOut
  rw [(dat0 Zin Xs Oin O b c).read_blk_arrAt_eq_flushed 2
    (fun t t' _ _ h => (cfg7.win 2).disjoint_blk (index_ne t t' h)) cfg7.N t t.isLt (flush7_2 t)]
  show (cfg7.win 2).cut (cfg7.grid.coords t) ((dat0 Zin Xs Oin O b c).after 2 t) = _
  dsimp only [dat0]
  rfl

variable (hO : ∀ c g, O c g none = 0) (lv : GSem nD τ sig → HIx 5 → ℕ) (hlv : (K (F := F)).Refines lv)

set_option backward.isDefEq.respectTransparency.types false in
def reg0 : Pipeline.RegionSeg (pcfgs (F := F)) adm (dats Zin Xs Oin O b) (none : HIx 5) defs₀ 𝒱₀ (K (F := F)).L lv pIx where
  win := launch7.win.to₀
  block_pos := launch7.block_pos
  stage_whole := launch7.stage_whole
  K := PEmpty
  osem := fun k => k.elim
  ho := Pipeline.OwnSemFacts.none _
  hbody c := (body_obligation Zin Xs Oin O b c).loose
  hwaits c := Pipeline.cellsWaits_intro (Pipeline.pin (pcfgs (F := F)) adm) (dats Zin Xs Oin O b) (none : HIx 5) pIx c
    fun w s t => (K (F := F)).mayWait_none _ (hO c) lv hlv
  pre c := iprop(arrays0 c (Zin c) (Xs c) (Oin c) ∗ owesB (F := F) O b c)
  post c := iprop(arrays0 c (Zin c) (Xs c) (regionOut Zin Xs Oin O b c) ∗ owesB (F := F) O b c)
  X _ := iprop(emp)
  Y _ := iprop(emp)
  Z _ := iprop(emp)
  hentry c := by
    rw [Pipeline.ownSems0_none,
      Pipeline.arrays_eq (Pipeline.pin (pcfgs (F := F)) adm) (dats Zin Xs Oin O b) pIx c launch7.arr_whole
        ((dats Zin Xs Oin O b pIx c).share_full fun _ => rfl), bigSep_W7]
    unfold arrays0 owesB
    iintro ⟨⟨Ha, ⟨%W, %hW, HO⟩⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr <;> iempintro
  hin c := by
    rw [show (dats Zin Xs Oin O b pIx c).Φ 0 = rest0 c from rfl]
    iintro ⟨-, -, Hr⟩; iexact Hr
  hout c := by
    rw [Pipeline.ownSems0_none, show (dats Zin Xs Oin O b pIx c).Φ (Fin.last _) = rest0 c from rfl]
    iintro Hr
    isplitr; · iempintro
    isplitr; · iempintro
    iexact Hr
  hexit c := by
    rw [Pipeline.arrays_eq (Pipeline.pin (pcfgs (F := F)) adm) (dats Zin Xs Oin O b) pIx c launch7.arr_whole
        ((dats Zin Xs Oin O b pIx c).share_full fun _ => rfl), bigSep_W7,
      show (dats Zin Xs Oin O b pIx c).arrAt 0 (Pipeline.pin (pcfgs (F := F)) adm pIx).N = Zin c from (dat0 Zin Xs Oin O b c).arrAt_in 0 rfl _,
      show (dats Zin Xs Oin O b pIx c).arrAt 1 (Pipeline.pin (pcfgs (F := F)) adm pIx).N = Xs c from (dat0 Zin Xs Oin O b c).arrAt_in 1 rfl _]
    unfold arrays0 owesB regionOut
    iintro ⟨Ha, HO, -, -⟩
    imodintro
    isplitl [Ha]; · iexact Ha
    unfold Pipeline.Dat.owesAt Pipeline.owesWithin
    icases HO with ⟨%W, %hW, HO⟩; iexists W; isplitr; swap; (· iexact HO)
    ipureintro
    intro p hp
    rcases hW hp with h | ⟨w, s, rfl⟩
    · exact h
    · exact Nat.zero_le _

abbrev post0 (d : Dev nD) : sProp 𝕄 :=
  iprop(boundary (SparseCore.T d : Thread nD τ) ∗ arrays0 d (Zin d) (Xs d) (regionOut Zin Xs Oin O b d) ∗ owesB (F := F) O b d)

include hO hlv in
set_option backward.isDefEq.respectTransparency.types false in
theorem region0 (d : Dev nD) :
    iprop(boundary (SparseCore.T d : Thread nD τ) ∗ arrays0 d (Zin d) (Xs d) (Oin d) ∗ owesB (F := F) O b d
        ∗ levAts (K (F := F)).L lv ∗ ghost0 (F := F) d)
      ⊢ wp frame (wpE ((K (F := F)).defs D) 𝒱 (SparseCore.T d) none) Set.univ
          (Prog.lift (.customCall (SparseCore.inner (Pipeline.entry pIx)) ()))
          (fun _ => post0 Zin Xs Oin O b d) := by
  have h := Pipeline.RegionSeg.wp (pcfgs (F := F)) adm (dats Zin Xs Oin O b) (none : HIx 5) cellOf_inj (EP (F := F)) defs₀ 𝒱₀ (K (F := F)).L lv
    (reg0 Zin Xs Oin O b hO lv hlv) d none (fun u hu => nomatch hu) .ret
    (fun _ => post0 Zin Xs Oin O b d)
  refine .trans (.trans ?_ h)
    ((K (F := F)).wp_liftProg D 𝒱 (SparseCore.T d) Set.univ none (.op (.customCall (Pipeline.entry pIx) ()) .ret) _)
  unfold ghost0 ghost
  dsimp only [reg0]
  iintro ⟨Hb, Ha, HO, Hl, Hg, Ht⟩
  isplitr
  · iintro H
    rw [wp_ret]; imodintro; iexact H
  isplitl [Hb]; · iexact Hb
  isplitl [Ha HO]; · iframe
  isplitl [Hl]; · iexact Hl
  isplitl [Hg]; · iexact Hg
  iexact Ht

end Cert.Proof.KI.Tc3

end
-- ==== Proof.TcRegion4.lean ====
import proofs.«212107_g53927609368716_cont_9to1_m_409_29_alg».proof.Proof.Setup
import proofs.«212107_g53927609368716_cont_9to1_m_409_29_alg».proof.Proof.Launch
import proofs.«212107_g53927609368716_cont_9to1_m_409_29_alg».proof.Proof.Gen.KernelIdeal.Launch
import proofs.«212107_g53927609368716_cont_9to1_m_409_29_alg».proof.Proof.Gen.KernelIdeal.Points
import proofs.«212107_g53927609368716_cont_9to1_m_409_29_alg».proof.Proof.Gen.KernelIdeal.Skeleton
import proofs.«212107_g53927609368716_cont_9to1_m_409_29_alg».proof.Proof.TcShared
import Idealize.ShloMosaic.Lib.Pipeline.Regions
import Idealize.ShloMosaic.Lib.Pipeline.FrameBody
import Idealize.ShloMosaic.Lib.Pipeline.Value
import Idealize.ShloMosaic.Lib.Tactic

noncomputable section

namespace Cert.Proof.KI.Tc4

open Cert.KernelIdeal Cert.KernelIdeal.Gen
open Cert.Proof.KI
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open TcShared

variable {F : FTy → Type} [FloatOps F] [Named F] [Cert.KernelIdeal.Facts]

local notation "𝕄" => MM (F := F)

abbrev pIx : Fin 5 := 4

def bodyFn (z : Vec F S12800x128 .f32) (x : Vec F S400x128 .f32) : FVec F S400x128 .f32 :=
  k9_pay1 (k9_pay2 (F := F)) (k9_pay3 x) (k9_pay4 z) (k9_pay6 z x) (k9_pay7 z x)

theorem sound_kernel (c : Dev nD) (E : Set ℕ) (i : grid9.Coords)
    (arg1 : Memref sig .tc .vmem S12800x128 .f32) (harg1 : arg1.IsWhole) (arg2 : Memref sig .tc .vmem S400x128 .f32) (harg2 : arg2.IsWhole)
    (arg3 : Memref sig .tc .vmem S400x128 .f32) (harg3 : arg3.IsWhole)
    {δ₁ δ₂ δ₃ : Type} (Z : δ₁ → Vec F S12800x128 .f32) (X : δ₂ → Vec F S400x128 .f32) (Y : δ₃ → Vec F S400x128 .f32)
    (z : Vec F S12800x128 .f32) (x : Vec F S400x128 .f32) (hZ : ∀ d, Z d = z) (hX : ∀ d, X d = x) (R R' : sProp 𝕄) :
    iprop(R ∗ R' ∗ (∃ d, owns (c : Thread nD τ) arg1 fullShare (Z d)) ∗ (∃ d, owns (c : Thread nD τ) arg2 fullShare (X d))
        ∗ (∃ d, owns (c : Thread nD τ) arg3 fullShare (Y d)))
      ⊢ wp frame (wpE (defs₀ (F := F)) Variants.none c none) E (cc9__routing_body i arg1 harg1 arg2 harg2 arg3 harg3) fun _ =>
        iprop(R ∗ R' ∗ owns (c : Thread nD τ) arg1 fullShare z ∗ owns (c : Thread nD τ) arg2 fullShare x
          ∗ owns (c : Thread nD τ) arg3 fullShare (bodyFn z x)) := by
  simp only [cc9__routing_body_eq_skeleton]; unfold cc9__routing_body_skel
  simp only [k9_part1_eq_skeleton]; unfold k9_part1_skel
  unfold owns
  iintro ⟨HR, HR', ⟨%d0, %f0, %hf0, H0⟩, ⟨%d1, %f1, %hf1, H1⟩, ⟨%d2, %f2, -, H2⟩⟩
  rw [hZ] at hf0; rw [hX] at hf1; subst hf0 hf1
  sl_exec
  sl_step
  isplitl [HR]; · iexact HR
  isplitl [HR']; · iexact HR'
  isplitl [H0]
  · iexists f0; isplitr; · ipureintro; rfl
    iexact H0
  isplitl [H1]
  · iexists f1; isplitr; · ipureintro; rfl
    iexact H1
  iexists _; isplitr
  swap; · iexact H2
  ipureintro
  rw [read_store_full S400x128 zeros2]
  dsimp only
  rw [readAt_full S12800x128 zeros2, readAt_full S400x128 zeros2]
  rfl

abbrev zLoc (c : Dev nD) : Loc nD τ sig := (SparseCore.T c).loc main_v27
abbrev xsLoc (c : Dev nD) : Loc nD τ sig := (SparseCore.T c).loc main_v28
abbrev oLoc (c : Dev nD) : Loc nD τ sig := (SparseCore.T c).loc main_v29

variable (Zin : (c : Dev nD) → Buf (Elt F) (zLoc c)) (Xs : (c : Dev nD) → Buf (Elt F) (xsLoc c))
  (Oin : (c : Dev nD) → Buf (Elt F) (oLoc c))
  (O : Dev nD → CellTallies nD τ sig (HIx 5)) (b : ℕ)

abbrev zBlk (c : Dev nD) (t : Fin cfg9.N) : Vec F S12800x128 .f32 := ((cfg9.win 0).blk t).view.read (Elt F) (Zin c)
abbrev xBlk (c : Dev nD) (t : Fin cfg9.N) : Vec F S400x128 .f32 := ((cfg9.win 1).blk t).view.read (Elt F) (Xs c)

abbrev rest0 (c : Dev nD) : sProp 𝕄 :=
  Pipeline.scopedRest (Ix := HIx 5) (Name := ℕ) (U := UU) (Lvl := ℕ) (Val := Elt F) spec9 c

def dat0 (c : Dev nD) : Dat τ (Elt F) (HIx 5) ℕ UU ℕ cfg9 c where
  A w := match w with
    | ⟨0, _⟩ => Zin c
    | ⟨1, _⟩ => Xs c
    | ⟨2, _⟩ => Oin c
  after w t := match w with
    | ⟨0, _⟩ => zBlk Zin c t
    | ⟨1, _⟩ => xBlk Xs c t
    | ⟨2, _⟩ => bodyFn (zBlk Zin c t) (xBlk Xs c t)
  Φ _ := rest0 c
  q _ := fullShare
  owed _ := O c
  recorded _ := {p | (K (F := F)).lev (SparseCore.T c, p.1) p.2 ≤ b}

def idleDat (cfg : Pipeline.Cfg sig Λ₀) (c : Dev nD) : Dat τ (Elt F) (HIx 5) ℕ UU ℕ cfg c where
  A w := (cfg.win w).arr.view.junk
  after w t := Dat.unnamed w t
  Φ _ := iprop(emp)
  q _ := fullShare
  owed _ := 0

def dats (p : Fin 5) (c : Dev nD) : Dat τ (Elt F) (HIx 5) ℕ UU ℕ (Pipeline.pin (pcfgs (F := F)) adm p) c :=
  if h : p = pIx then (by subst h; exact dat0 Zin Xs Oin O b c) else idleDat _ c

def regionOut (c : Dev nD) : Buf (Elt F) (oLoc c) := (dat0 Zin Xs Oin O b c).arrAt 2 cfg9.N

def arrays0 (c : Dev nD) (z : Buf (Elt F) (zLoc c)) (x : Buf (Elt F) (xsLoc c)) (o : Buf (Elt F) (oLoc c)) : sProp 𝕄 :=
  iprop((zLoc c ↦{fullShare} z) ∗ (xsLoc c ↦{fullShare} x) ∗ (oLoc c ↦{fullShare} o))

def owesB (c : Dev nD) : sProp 𝕄 :=
  iprop(∃ W, ⌜(K (F := F)).WBelow (SparseCore.T c) W b⌝ ∗ owes (SparseCore.T c) (O c) W)

theorem body_obligation (c : Dev nD) :
    BodyObligation (dat0 Zin Xs Oin O b c) (defs₀ (F := F)) 𝒱₀ (none : HIx 5) Set.univ := fun t => by
  rw [bigSep_W9, bigSep_W9]
  exact sound_kernel c _ _ _ _ _ _ _ _ _ _ _ (zBlk Zin c t) (xBlk Xs c t)
    ((dat0 Zin Xs Oin O b c).before_fetched 0 t (fetch9_0 t)) ((dat0 Zin Xs Oin O b c).before_fetched 1 t (fetch9_1 t)) _ _

abbrev ghost0 (c : Dev nD) : sProp 𝕄 := ghost (F := F) pIx c

theorem index_ne : ∀ t t' : Fin grid9.N, t ≠ t' → win9_2.index t ≠ win9_2.index t' := by decide +kernel

theorem regionOut_blk (c : Dev nD) (t : Fin cfg9.N) :
    ((cfg9.win 2).blk t).view.read (Elt F) (regionOut Zin Xs Oin O b c) = bodyFn (zBlk Zin c t) (xBlk Xs c t) := by
  unfold regionOut
  rw [(dat0 Zin Xs Oin O b c).read_blk_arrAt_eq_flushed 2
    (fun t t' _ _ h => (cfg9.win 2).disjoint_blk (index_ne t t' h)) cfg9.N t t.isLt (flush9_2 t)]
  show (cfg9.win 2).cut (cfg9.grid.coords t) ((dat0 Zin Xs Oin O b c).after 2 t) = _
  dsimp only [dat0]
  rfl

variable (hO : ∀ c g, O c g none = 0) (lv : GSem nD τ sig → HIx 5 → ℕ) (hlv : (K (F := F)).Refines lv)

set_option backward.isDefEq.respectTransparency.types false in
def reg0 : Pipeline.RegionSeg (pcfgs (F := F)) adm (dats Zin Xs Oin O b) (none : HIx 5) defs₀ 𝒱₀ (K (F := F)).L lv pIx where
  win := launch9.win.to₀
  block_pos := launch9.block_pos
  stage_whole := launch9.stage_whole
  K := PEmpty
  osem := fun k => k.elim
  ho := Pipeline.OwnSemFacts.none _
  hbody c := (body_obligation Zin Xs Oin O b c).loose
  hwaits c := Pipeline.cellsWaits_intro (Pipeline.pin (pcfgs (F := F)) adm) (dats Zin Xs Oin O b) (none : HIx 5) pIx c
    fun w s t => (K (F := F)).mayWait_none _ (hO c) lv hlv
  pre c := iprop(arrays0 c (Zin c) (Xs c) (Oin c) ∗ owesB (F := F) O b c)
  post c := iprop(arrays0 c (Zin c) (Xs c) (regionOut Zin Xs Oin O b c) ∗ owesB (F := F) O b c)
  X _ := iprop(emp)
  Y _ := iprop(emp)
  Z _ := iprop(emp)
  hentry c := by
    rw [Pipeline.ownSems0_none,
      Pipeline.arrays_eq (Pipeline.pin (pcfgs (F := F)) adm) (dats Zin Xs Oin O b) pIx c launch9.arr_whole
        ((dats Zin Xs Oin O b pIx c).share_full fun _ => rfl), bigSep_W9]
    unfold arrays0 owesB
    iintro ⟨⟨Ha, ⟨%W, %hW, HO⟩⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr <;> iempintro
  hin c := by
    rw [show (dats Zin Xs Oin O b pIx c).Φ 0 = rest0 c from rfl]
    iintro ⟨-, -, Hr⟩; iexact Hr
  hout c := by
    rw [Pipeline.ownSems0_none, show (dats Zin Xs Oin O b pIx c).Φ (Fin.last _) = rest0 c from rfl]
    iintro Hr
    isplitr; · iempintro
    isplitr; · iempintro
    iexact Hr
  hexit c := by
    rw [Pipeline.arrays_eq (Pipeline.pin (pcfgs (F := F)) adm) (dats Zin Xs Oin O b) pIx c launch9.arr_whole
        ((dats Zin Xs Oin O b pIx c).share_full fun _ => rfl), bigSep_W9,
      show (dats Zin Xs Oin O b pIx c).arrAt 0 (Pipeline.pin (pcfgs (F := F)) adm pIx).N = Zin c from (dat0 Zin Xs Oin O b c).arrAt_in 0 rfl _,
      show (dats Zin Xs Oin O b pIx c).arrAt 1 (Pipeline.pin (pcfgs (F := F)) adm pIx).N = Xs c from (dat0 Zin Xs Oin O b c).arrAt_in 1 rfl _]
    unfold arrays0 owesB regionOut
    iintro ⟨Ha, HO, -, -⟩
    imodintro
    isplitl [Ha]; · iexact Ha
    unfold Pipeline.Dat.owesAt Pipeline.owesWithin
    icases HO with ⟨%W, %hW, HO⟩; iexists W; isplitr; swap; (· iexact HO)
    ipureintro
    intro p hp
    rcases hW hp with h | ⟨w, s, rfl⟩
    · exact h
    · exact Nat.zero_le _

abbrev post0 (d : Dev nD) : sProp 𝕄 :=
  iprop(boundary (SparseCore.T d : Thread nD τ) ∗ arrays0 d (Zin d) (Xs d) (regionOut Zin Xs Oin O b d) ∗ owesB (F := F) O b d)

include hO hlv in
set_option backward.isDefEq.respectTransparency.types false in
theorem region0 (d : Dev nD) :
    iprop(boundary (SparseCore.T d : Thread nD τ) ∗ arrays0 d (Zin d) (Xs d) (Oin d) ∗ owesB (F := F) O b d
        ∗ levAts (K (F := F)).L lv ∗ ghost0 (F := F) d)
      ⊢ wp frame (wpE ((K (F := F)).defs D) 𝒱 (SparseCore.T d) none) Set.univ
          (Prog.lift (.customCall (SparseCore.inner (Pipeline.entry pIx)) ()))
          (fun _ => post0 Zin Xs Oin O b d) := by
  have h := Pipeline.RegionSeg.wp (pcfgs (F := F)) adm (dats Zin Xs Oin O b) (none : HIx 5) cellOf_inj (EP (F := F)) defs₀ 𝒱₀ (K (F := F)).L lv
    (reg0 Zin Xs Oin O b hO lv hlv) d none (fun u hu => nomatch hu) .ret
    (fun _ => post0 Zin Xs Oin O b d)
  refine .trans (.trans ?_ h)
    ((K (F := F)).wp_liftProg D 𝒱 (SparseCore.T d) Set.univ none (.op (.customCall (Pipeline.entry pIx) ()) .ret) _)
  unfold ghost0 ghost
  dsimp only [reg0]
  iintro ⟨Hb, Ha, HO, Hl, Hg, Ht⟩
  isplitr
  · iintro H
    rw [wp_ret]; imodintro; iexact H
  isplitl [Hb]; · iexact Hb
  isplitl [Ha HO]; · iframe
  isplitl [Hl]; · iexact Hl
  isplitl [Hg]; · iexact Hg
  iexact Ht

end Cert.Proof.KI.Tc4

end
-- ==== Proof.MainClosed.lean ====
import proofs.«212107_g53927609368716_cont_9to1_m_409_29_alg».proof.Proof.Main
import proofs.«212107_g53927609368716_cont_9to1_m_409_29_alg».proof.Proof.TcRegion0
import proofs.«212107_g53927609368716_cont_9to1_m_409_29_alg».proof.Proof.TcRegion1
import proofs.«212107_g53927609368716_cont_9to1_m_409_29_alg».proof.Proof.TcRegion2
import proofs.«212107_g53927609368716_cont_9to1_m_409_29_alg».proof.Proof.TcRegion3
import proofs.«212107_g53927609368716_cont_9to1_m_409_29_alg».proof.Proof.TcRegion4

noncomputable section

namespace Cert.Proof.KI.Main

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F] [Cert.KernelIdeal.Facts]

local notation "𝕄" => MT nD τ sig (HIx 5) (Elt F) ℕ UU ℕ

variable (m : (ℓ : Loc nD τ sig) → Buf (Elt F) ℓ) (ρ : Dev nD → PrngReg)

def OR0 (d : Dev nD) : Buf (Elt F) (loc d main_v9) :=
  Tc0.regionOut (Z0 m) (XS0 m) (fun c => m (loc c main_v9)) (fun c => (K (F := F)).Otc c 1) (8 * 1) d

set_option backward.isDefEq.respectTransparency.types false in
theorem hreg0 : Region0 m (OR0 m) := fun d => by
  have h := Tc0.region0 (F := F) (Z0 m) (XS0 m) (fun c => m (loc c main_v9)) (fun c => (K (F := F)).Otc c 1) (8 * 1)
    (fun c g => Otc_none c 1 g) (K (F := F)).lev (by sl_refines_lev) d
  unfold Tc0.arrays0 Tc0.owesB at h
  exact h

def OR1 (d : Dev nD) : Buf (Elt F) (loc d main_v14) :=
  Tc1.regionOut (Z1 m) (XS1 m) (fun c => m (loc c main_v14)) (fun c => (K (F := F)).Otc c 2) (8 * 2) d

set_option backward.isDefEq.respectTransparency.types false in
theorem hreg1 : Region1 m (OR1 m) := fun d => by
  have h := Tc1.region0 (F := F) (Z1 m) (XS1 m) (fun c => m (loc c main_v14)) (fun c => (K (F := F)).Otc c 2) (8 * 2)
    (fun c g => Otc_none c 2 g) (K (F := F)).lev (by sl_refines_lev) d
  unfold Tc1.arrays0 Tc1.owesB at h
  exact h

def OR2 (d : Dev nD) : Buf (Elt F) (loc d main_v19) :=
  Tc2.regionOut (Z2 m) (XS2 m) (fun c => m (loc c main_v19)) (fun c => (K (F := F)).Otc c 3) (8 * 3) d

set_option backward.isDefEq.respectTransparency.types false in
theorem hreg2 : Region2 m (OR2 m) := fun d => by
  have h := Tc2.region0 (F := F) (Z2 m) (XS2 m) (fun c => m (loc c main_v19)) (fun c => (K (F := F)).Otc c 3) (8 * 3)
    (fun c g => Otc_none c 3 g) (K (F := F)).lev (by sl_refines_lev) d
  unfold Tc2.arrays0 Tc2.owesB at h
  exact h

def OR3 (d : Dev nD) : Buf (Elt F) (loc d main_v24) :=
  Tc3.regionOut (Z3 m) (XS3 m) (fun c => m (loc c main_v24)) (fun c => (K (F := F)).Otc c 4) (8 * 4) d

set_option backward.isDefEq.respectTransparency.types false in
theorem hreg3 : Region3 m (OR3 m) := fun d => by
  have h := Tc3.region0 (F := F) (Z3 m) (XS3 m) (fun c => m (loc c main_v24)) (fun c => (K (F := F)).Otc c 4) (8 * 4)
    (fun c g => Otc_none c 4 g) (K (F := F)).lev (by sl_refines_lev) d
  unfold Tc3.arrays0 Tc3.owesB at h
  exact h

def OR4 (d : Dev nD) : Buf (Elt F) (loc d main_v29) :=
  Tc4.regionOut (Z4 m) (XS4 m) (fun c => m (loc c main_v29)) (fun c => (K (F := F)).Otc c 5) (8 * 5) d

set_option backward.isDefEq.respectTransparency.types false in
theorem hreg4 : Region4 m (OR4 m) := fun d => by
  have h := Tc4.region0 (F := F) (Z4 m) (XS4 m) (fun c => m (loc c main_v29)) (fun c => (K (F := F)).Otc c 5) (8 * 5)
    (fun c g => Otc_none c 5 g) (K (F := F)).lev (by sl_refines_lev) d
  unfold Tc4.arrays0 Tc4.owesB at h
  exact h

def ResI (m : (ℓ : Loc nD τ sig) → Buf (Elt F) ℓ) (d : Dev nD) : Buf (Elt F) (outLoc d) :=
  Res (OR0 m) (OR1 m) (OR2 m) (OR3 m) (OR4 m) d

theorem ResI_eq (d : Dev nD) : ResI m d
    = concatenate S10000x128 0 [⟨S2000x128, OR0 m d⟩, ⟨S2000x128, OR1 m d⟩, ⟨S2000x128, OR2 m d⟩, ⟨S2000x128, OR3 m d⟩, ⟨S2000x128, OR4 m d⟩]
        concatenates_S2000x128_S2000x128_S2000x128_S2000x128_S2000x128_S10000x128_d0 := rfl

theorem FIN_ResI (d : Dev nD) :
    (FIN m (fun _ d => Res (OR0 m) (OR1 m) (OR2 m) (OR3 m) (OR4 m) d) d : sProp 𝕄) = FIN m ResI d := by
  unfold FIN ResI
  rfl

theorem hmainI (κ : GSem nD τ sig → ℕ) (d : Dev nD) :
    iprop((K (F := F)).ctx EH (P₀ m) κ (K (F := F)).lev ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 5 ∗ FIN m ResI d) :=
  (hmain m ρ (OR0 m) (OR1 m) (OR2 m) (OR3 m) (OR4 m) (hreg0 m) (hreg1 m) (hreg2 m) (hreg3 m) (hreg4 m) κ d).trans
    (wp_mono frame _ Set.univ fun _ => BI.sep_mono_r (Entails.of_eq (FIN_ResI m d)))

end Cert.Proof.KI.Main

end
-- ==== Proof.RoutingBlock.lean ====
import proofs.«212107_g53927609368716_cont_9to1_m_409_29_alg».proof.Proof.Gen.KernelIdeal
import proofs.«212107_g53927609368716_cont_9to1_m_409_29_alg».proof.Proof.Spec
import Idealize.ShloMosaic.Lib.ValueIdx
import Idealize.ShloMosaic.Lib.IdealHost
import Idealize.ShloMosaic.Lib.Pipeline.Value
import Idealize.ShloMosaic.PureOps.Ideal.Laws
import Idealize.ShloMosaic.PureOps.IdealRules

noncomputable section

namespace Cert.KernelIdeal.Block

open Idealize.ShloMosaic Idealize.ShloMosaic.ValueIdx
open Cert.KernelIdeal Cert.KernelIdeal.Gen
open Cert.Routing

def eps : EReal := Named.named (F := Ideal) Cert.KernelIdeal.κ "eps_sq" (φ := .f32) 0x179ABE15#32

theorem named_eps : eps = epsSq := IdealRules.named_const.ideal_named_scalar _ _ _ _ rfl

def flatRow (r : Fin 400) (mm : Fin 32) : Fin 12800 := ⟨r.val * 32 + mm.val, by have := r.isLt; have := mm.isLt; omega⟩

def ones : FVec Ideal S128x128 .f32 := broadcast S128x128 (Scalar.ofBits (F := Ideal) .f32 0x3F800000#32)

variable {n : Nat} (a x : FVec Ideal ⟨2, ![n, 128]⟩ .f32) (q : Fin n) (zn : FVec Ideal S400x32x128 .f32)
  (xn u c : FVec Ideal S400x128 .f32) (r : Fin 400) (mm : Fin 32) (Z : Fin 32 → Fin 128 → EReal) (X U : Fin 128 → EReal)
  (d : Fin 128)

-- Row `32 r + m` of the 12800 rows and entry `(r, m)` of the 400 × 32 rows have one row-major position.
theorem flat_pos : (S12800x128.rowMajor (ix2 (flatRow r mm) d)).val = (S400x32x128.rowMajor (ix3 r mm d)).val := by
  rw [Shape.rowMajor_val_two, Shape.rowMajor_val_three]; rfl

theorem bcastRow (h1 : S400x128.ShapeCasts S400x1x128) (h2 : S400x1x128.Broadcasts S400x32x128) :
    broadcastTo S400x32x128 (shapeCast S400x1x128 c h1) h2 (ix3 r mm d) = c (ix2 r d) := by
  refine (broadcastTo_apply _ h2 (ix3 r mm d) (ix3 r (0 : Fin 1) d) fun ax => ?_).trans
    (shapeCast_apply c h1 _ _ (by
      rw [Shape.rowMajor_val_two, Shape.rowMajor_val_three]
      show r.val * 128 + d.val = (r.val * 1 + 0) * 128 + d.val
      omega))
  match ax with
  | ⟨0, _⟩ | ⟨1, _⟩ | ⟨2, _⟩ => rfl

def mred : FVec Ideal S400x128 .f32 :=
  multiReduction (F := Ideal) .add [1] S400x128 zn 0x00000000#32 reduces_S400x32x128_S400x128 (.inl rfl) rfl

theorem mred_apply : mred zn (ix2 r d) = ∑ mm : Fin 32, zn (ix3 r mm d) := by
  refine (Ideal.multiReduction_add_single zn 0x00000000#32 reduces_S400x32x128_S400x128 (.inl rfl) rfl (ix2 r d)).trans ?_
  show (∑ mm : Fin 32, zn (reduces_S400x32x128_S400x128.lift (ix2 r d) mm)) = _
  refine Finset.sum_congr rfl fun mm _ => congrArg zn (funext fun a => ?_)
  match a with
  | ⟨0, _⟩ | ⟨1, _⟩ | ⟨2, _⟩ => rfl

def rs : FVec Ideal ⟨2, ![n, 128]⟩ .f32 :=
  FloatOps.matmul (DotDims.plain n 128 128) none a ones (constant (F := Ideal) ⟨2, ![n, 128]⟩ .f32 0x00000000#32)

-- The product with the all-ones matrix, added to zero, is the row sum, the same in every column.
theorem rowsum : rs a (ix2 q d) = ∑ k : Fin 128, a (ix2 q k) := by
  unfold rs
  rw [Ideal.matmul_constant_zero_apply, ← Equiv.sum_comp (contrEquiv1 (DotDims.plain n 128 128) 128 rfl rfl).symm]
  refine Finset.sum_congr rfl fun c _ => ?_
  have h : (DotDims.plain n 128 128).lhsIdx (ix2 q d) ((contrEquiv1 (DotDims.plain n 128 128) 128 rfl rfl).symm c) = ix2 q c := by
    funext ax; apply Fin.ext
    match ax with
    | ⟨0, _⟩ => rfl
    | ⟨1, _⟩ => exact contrEquiv1_symm_val (DotDims.plain n 128 128) 128 rfl rfl c
  rw [h]
  exact (congrArg (a (ix2 q c) * ·) Ideal.ofBits_one_f32).trans (mul_one _)

def norm : FVec Ideal ⟨2, ![n, 128]⟩ .f32 := mulf x (rsqrt (maximumf (rs (mulf x x)) (broadcast _ eps)))

def initV : FVec Ideal S400x128 .f32 :=
  addf (mulf (mred zn) (broadcast S400x128 (Scalar.ofBits (F := Ideal) .f32 0x3D000000#32))) xn

def squashV : FVec Ideal S400x128 .f32 :=
  mulf u (divf (mulf (rs (mulf u u)) (rsqrt (maximumf (rs (mulf u u)) (broadcast S400x128 eps))))
    (addf (rs (mulf u u)) (broadcast S400x128 (Scalar.ofBits (F := Ideal) .f32 0x3F800000#32))))

def expDots : FVec Ideal S400x32x128 .f32 :=
  exp (shapeCast S400x32x128
    (rs (shapeCast S12800x128
      (mulf zn (broadcastTo S400x32x128 (shapeCast S400x1x128 c shapeCasts_S400x128_S400x1x128)
        broadcasts_S400x1x128_S400x32x128))
      shapeCasts_S400x32x128_S12800x128))
    shapeCasts_S12800x128_S400x32x128)

def stepV : FVec Ideal S400x128 .f32 :=
  addf (divf (mred (mulf (expDots zn (squashV u)) zn)) (mred (expDots zn (squashV u)))) xn

theorem norm_apply : norm x (ix2 q d) = kNorm (fun k => x (ix2 q k)) d :=
  congrArg₂ (fun s e : EReal => x (ix2 q d) * Ideal.rsqrt (max s e)) (rowsum (mulf x x) q d) named_eps

theorem squashV_apply : squashV u (ix2 r d) = kSquash (fun k => u (ix2 r k)) d :=
  congrArg₂ (fun s e : EReal => u (ix2 r d) * Ideal.div (s * Ideal.rsqrt (max s e)) (s + one32))
    (rowsum (mulf u u) r d) named_eps

theorem expDots_apply :
    expDots zn c (ix3 r mm d) = Ideal.exp (dotRow (fun m k => zn (ix3 r m k)) (fun k => c (ix2 r k)) mm) := by
  refine congrArg Ideal.exp ?_
  refine (shapeCast_apply _ _ (ix3 r mm d) (ix2 (flatRow r mm) d) (flat_pos r mm d)).trans ?_
  refine (rowsum _ _ _).trans (Finset.sum_congr rfl fun k _ => ?_)
  rw [shapeCast_apply _ _ (ix2 (flatRow r mm) k) (ix3 r mm k) (flat_pos r mm k).symm]
  exact congrArg (zn (ix3 r mm k) * ·) (bcastRow c r mm k _ _)

-- The rows of a block enter a round only through the rows `Z`, `X`, `U` they are equal to.
theorem initV_row (hz : ∀ m k, zn (ix3 r m k) = Z m k) (hx : ∀ k, xn (ix2 r k) = X k) (d : Fin 128) :
    initV zn xn (ix2 r d) = kInit Z X d := by
  refine (congrArg (· * w32 + xn (ix2 r d)) (mred_apply zn r d)).trans ?_
  simp only [hz, hx]; rfl

theorem stepV_row (hz : ∀ m k, zn (ix3 r m k) = Z m k) (hx : ∀ k, xn (ix2 r k) = X k) (hu : ∀ k, u (ix2 r k) = U k)
    (d : Fin 128) : stepV zn xn u (ix2 r d) = kStep Z X U d := by
  have e : ∀ mm k, expDots zn (squashV u) (ix3 r mm k) = Ideal.exp (dotRow Z (kSquash U) mm) := fun mm k => by
    rw [expDots_apply, funext₂ hz, funext (squashV_apply u r), funext hu]
  refine (congrArg₂ (fun a b : EReal => Ideal.div a b + xn (ix2 r d)) (mred_apply _ r d) (mred_apply _ r d)).trans ?_
  simp only [mulf_apply, e, hz, hx]; rfl

-- Normalising the blocks and running three rounds on them gives Spec's `kRow`, row by row.
theorem body_apply (P3 : Vec Ideal S400x128 .f32 → FVec Ideal S400x128 .f32)
    (P4 : Vec Ideal S12800x128 .f32 → FVec Ideal S400x32x128 .f32)
    (B : Vec Ideal S12800x128 .f32 → Vec Ideal S400x128 .f32 → FVec Ideal S400x128 .f32)
    (h3 : ∀ v2, P3 v2 = norm (shapeCast S400x128 v2 shapeCasts_S400x128_S400x128))
    (h4 : ∀ v0, P4 v0 = shapeCast S400x32x128 (norm (shapeCast S12800x128 v0 shapeCasts_S12800x128_S12800x128))
      shapeCasts_S12800x128_S400x32x128)
    (hB : ∀ v0 v2, B v0 v2 = stepV (P4 v0) (P3 v2) (stepV (P4 v0) (P3 v2) (initV (P4 v0) (P3 v2))))
    (v0 : Vec Ideal S12800x128 .f32) (v2 : Vec Ideal S400x128 .f32) (r : Fin 400) (d : Fin 128) :
    B v0 v2 (ix2 r d) = kRow (fun mm k => v0 (ix2 (flatRow r mm) k)) (fun k => v2 (ix2 r k)) d := by
  have p3 : ∀ k, P3 v2 (ix2 r k) = kNorm (fun k => v2 (ix2 r k)) k := fun k => by
    rw [h3, shapeCast_self]; exact norm_apply v2 r k
  have p4 : ∀ mm k, P4 v0 (ix3 r mm k) = kNorm (fun k => v0 (ix2 (flatRow r mm) k)) k := fun mm k => by
    rw [h4, shapeCast_self, shapeCast_apply _ _ (ix3 r mm k) (ix2 (flatRow r mm) k) (flat_pos r mm k)]
    exact norm_apply v0 (flatRow r mm) k
  rw [hB]
  exact stepV_row _ _ _ r _ _ _ p4 p3 (stepV_row _ _ _ r _ _ _ p4 p3 (initV_row _ _ r _ _ p4 p3)) d

end Cert.KernelIdeal.Block

end
-- ==== Proof.BodyValue.lean ====
import proofs.«212107_g53927609368716_cont_9to1_m_409_29_alg».proof.Proof.Gen.KernelIdeal.Skeleton
import proofs.«212107_g53927609368716_cont_9to1_m_409_29_alg».proof.Proof.Spec
import proofs.«212107_g53927609368716_cont_9to1_m_409_29_alg».proof.Proof.RoutingBlock
import Idealize.ShloMosaic.Lib.ValueIdx
import Idealize.ShloMosaic.Lib.Pipeline.Value
import Idealize.ShloMosaic.PureOps.Ideal.Laws
import Idealize.ShloMosaic.PureOps.IdealRules

noncomputable section

namespace Cert.KernelIdeal.BodyValue

open Idealize.ShloMosaic Idealize.ShloMosaic.ValueIdx
open Cert.KernelIdeal Cert.KernelIdeal.Gen
open Cert.Routing

def flat (r : Fin 400) (mm : Fin 32) : Fin 12800 := ⟨r.val * 32 + mm.val, by have := r.isLt; have := mm.isLt; omega⟩

def bodyOut (v0 : Vec Ideal S12800x128 .f32) (v2 : Vec Ideal S400x128 .f32) : FVec Ideal S400x128 .f32 :=
  k1_pay1 (k1_pay2 (F := Ideal)) (k1_pay3 v2) (k1_pay4 v0) (k1_pay6 v0 v2) (k1_pay7 v0 v2)

theorem bodyOut_apply (v0 : Vec Ideal S12800x128 .f32) (v2 : Vec Ideal S400x128 .f32) (r : Fin 400) (d : Fin 128) :
    bodyOut v0 v2 (ix2 r d) = kRow (fun mm k => v0 (ix2 (flat r mm) k)) (fun k => v2 (ix2 r k)) d :=
  Block.body_apply k1_pay3 k1_pay4 bodyOut (fun _ => rfl) (fun _ => rfl) (fun _ _ => rfl) v0 v2 r d

end Cert.KernelIdeal.BodyValue

end
-- ==== Proof.BodyValue3.lean ====
import proofs.«212107_g53927609368716_cont_9to1_m_409_29_alg».proof.Proof.Gen.KernelIdeal.Skeleton
import proofs.«212107_g53927609368716_cont_9to1_m_409_29_alg».proof.Proof.Spec
import proofs.«212107_g53927609368716_cont_9to1_m_409_29_alg».proof.Proof.RoutingBlock
import Idealize.ShloMosaic.Lib.ValueIdx
import Idealize.ShloMosaic.Lib.Pipeline.Value
import Idealize.ShloMosaic.PureOps.Ideal.Laws
import Idealize.ShloMosaic.PureOps.IdealRules

noncomputable section

namespace Cert.KernelIdeal.BodyValue3

open Idealize.ShloMosaic Idealize.ShloMosaic.ValueIdx
open Cert.KernelIdeal Cert.KernelIdeal.Gen
open Cert.Routing

def flat (r : Fin 400) (mm : Fin 32) : Fin 12800 := ⟨r.val * 32 + mm.val, by have := r.isLt; have := mm.isLt; omega⟩

def bodyOut (v0 : Vec Ideal S12800x128 .f32) (v2 : Vec Ideal S400x128 .f32) : FVec Ideal S400x128 .f32 :=
  k3_pay1 (k3_pay2 (F := Ideal)) (k3_pay3 v2) (k3_pay4 v0) (k3_pay6 v0 v2) (k3_pay7 v0 v2)

theorem bodyOut_apply (v0 : Vec Ideal S12800x128 .f32) (v2 : Vec Ideal S400x128 .f32) (r : Fin 400) (d : Fin 128) :
    bodyOut v0 v2 (ix2 r d) = kRow (fun mm k => v0 (ix2 (flat r mm) k)) (fun k => v2 (ix2 r k)) d :=
  Block.body_apply k3_pay3 k3_pay4 bodyOut (fun _ => rfl) (fun _ => rfl) (fun _ _ => rfl) v0 v2 r d

end Cert.KernelIdeal.BodyValue3

end
-- ==== Proof.BodyValue5.lean ====
import proofs.«212107_g53927609368716_cont_9to1_m_409_29_alg».proof.Proof.Gen.KernelIdeal.Skeleton
import proofs.«212107_g53927609368716_cont_9to1_m_409_29_alg».proof.Proof.Spec
import proofs.«212107_g53927609368716_cont_9to1_m_409_29_alg».proof.Proof.RoutingBlock
import Idealize.ShloMosaic.Lib.ValueIdx
import Idealize.ShloMosaic.Lib.Pipeline.Value
import Idealize.ShloMosaic.PureOps.Ideal.Laws
import Idealize.ShloMosaic.PureOps.IdealRules

noncomputable section

namespace Cert.KernelIdeal.BodyValue5

open Idealize.ShloMosaic Idealize.ShloMosaic.ValueIdx
open Cert.KernelIdeal Cert.KernelIdeal.Gen
open Cert.Routing

def flat (r : Fin 400) (mm : Fin 32) : Fin 12800 := ⟨r.val * 32 + mm.val, by have := r.isLt; have := mm.isLt; omega⟩

def bodyOut (v0 : Vec Ideal S12800x128 .f32) (v2 : Vec Ideal S400x128 .f32) : FVec Ideal S400x128 .f32 :=
  k5_pay1 (k5_pay2 (F := Ideal)) (k5_pay3 v2) (k5_pay4 v0) (k5_pay6 v0 v2) (k5_pay7 v0 v2)

theorem bodyOut_apply (v0 : Vec Ideal S12800x128 .f32) (v2 : Vec Ideal S400x128 .f32) (r : Fin 400) (d : Fin 128) :
    bodyOut v0 v2 (ix2 r d) = kRow (fun mm k => v0 (ix2 (flat r mm) k)) (fun k => v2 (ix2 r k)) d :=
  Block.body_apply k5_pay3 k5_pay4 bodyOut (fun _ => rfl) (fun _ => rfl) (fun _ _ => rfl) v0 v2 r d

end Cert.KernelIdeal.BodyValue5

end
-- ==== Proof.BodyValue7.lean ====
import proofs.«212107_g53927609368716_cont_9to1_m_409_29_alg».proof.Proof.Gen.KernelIdeal.Skeleton
import proofs.«212107_g53927609368716_cont_9to1_m_409_29_alg».proof.Proof.Spec
import proofs.«212107_g53927609368716_cont_9to1_m_409_29_alg».proof.Proof.RoutingBlock
import Idealize.ShloMosaic.Lib.ValueIdx
import Idealize.ShloMosaic.Lib.Pipeline.Value
import Idealize.ShloMosaic.PureOps.Ideal.Laws
import Idealize.ShloMosaic.PureOps.IdealRules

noncomputable section

namespace Cert.KernelIdeal.BodyValue7

open Idealize.ShloMosaic Idealize.ShloMosaic.ValueIdx
open Cert.KernelIdeal Cert.KernelIdeal.Gen
open Cert.Routing

def flat (r : Fin 400) (mm : Fin 32) : Fin 12800 := ⟨r.val * 32 + mm.val, by have := r.isLt; have := mm.isLt; omega⟩

def bodyOut (v0 : Vec Ideal S12800x128 .f32) (v2 : Vec Ideal S400x128 .f32) : FVec Ideal S400x128 .f32 :=
  k7_pay1 (k7_pay2 (F := Ideal)) (k7_pay3 v2) (k7_pay4 v0) (k7_pay6 v0 v2) (k7_pay7 v0 v2)

theorem bodyOut_apply (v0 : Vec Ideal S12800x128 .f32) (v2 : Vec Ideal S400x128 .f32) (r : Fin 400) (d : Fin 128) :
    bodyOut v0 v2 (ix2 r d) = kRow (fun mm k => v0 (ix2 (flat r mm) k)) (fun k => v2 (ix2 r k)) d :=
  Block.body_apply k7_pay3 k7_pay4 bodyOut (fun _ => rfl) (fun _ => rfl) (fun _ _ => rfl) v0 v2 r d

end Cert.KernelIdeal.BodyValue7

end
-- ==== Proof.BodyValue9.lean ====
import proofs.«212107_g53927609368716_cont_9to1_m_409_29_alg».proof.Proof.Gen.KernelIdeal.Skeleton
import proofs.«212107_g53927609368716_cont_9to1_m_409_29_alg».proof.Proof.Spec
import proofs.«212107_g53927609368716_cont_9to1_m_409_29_alg».proof.Proof.RoutingBlock
import Idealize.ShloMosaic.Lib.ValueIdx
import Idealize.ShloMosaic.Lib.Pipeline.Value
import Idealize.ShloMosaic.PureOps.Ideal.Laws
import Idealize.ShloMosaic.PureOps.IdealRules

noncomputable section

namespace Cert.KernelIdeal.BodyValue9

open Idealize.ShloMosaic Idealize.ShloMosaic.ValueIdx
open Cert.KernelIdeal Cert.KernelIdeal.Gen
open Cert.Routing

def flat (r : Fin 400) (mm : Fin 32) : Fin 12800 := ⟨r.val * 32 + mm.val, by have := r.isLt; have := mm.isLt; omega⟩

def bodyOut (v0 : Vec Ideal S12800x128 .f32) (v2 : Vec Ideal S400x128 .f32) : FVec Ideal S400x128 .f32 :=
  k9_pay1 (k9_pay2 (F := Ideal)) (k9_pay3 v2) (k9_pay4 v0) (k9_pay6 v0 v2) (k9_pay7 v0 v2)

theorem bodyOut_apply (v0 : Vec Ideal S12800x128 .f32) (v2 : Vec Ideal S400x128 .f32) (r : Fin 400) (d : Fin 128) :
    bodyOut v0 v2 (ix2 r d) = kRow (fun mm k => v0 (ix2 (flat r mm) k)) (fun k => v2 (ix2 r k)) d :=
  Block.body_apply k9_pay3 k9_pay4 bodyOut (fun _ => rfl) (fun _ => rfl) (fun _ _ => rfl) v0 v2 r d

end Cert.KernelIdeal.BodyValue9

end
-- ==== Proof.ValueAssembly.lean ====
import proofs.«212107_g53927609368716_cont_9to1_m_409_29_alg».proof.Proof.BodyValue
import proofs.«212107_g53927609368716_cont_9to1_m_409_29_alg».proof.Proof.BodyValue3
import proofs.«212107_g53927609368716_cont_9to1_m_409_29_alg».proof.Proof.BodyValue5
import proofs.«212107_g53927609368716_cont_9to1_m_409_29_alg».proof.Proof.BodyValue7
import proofs.«212107_g53927609368716_cont_9to1_m_409_29_alg».proof.Proof.BodyValue9
import proofs.«212107_g53927609368716_cont_9to1_m_409_29_alg».proof.Proof.PreFacts
import Idealize.ShloMosaic.Lib.ValueLayout

noncomputable section

namespace Cert.Proof.KI.Val

open Idealize.ShloMosaic Idealize.ShloMosaic.ValueIdx
open Cert.KernelIdeal Cert.KernelIdeal.Gen
open Cert.Routing

def gpos (w : Fin 32) (j : Fin 25) (t : Fin 80) : Fin 64000 :=
  ⟨(25 * w.val + j.val) * 80 + t.val, by have := w.isLt; have := j.isLt; have := t.isLt; omega⟩

def srcRow (s : Fin 5) (ρ : Fin 64000) : Fin 10000 :=
  ⟨2000 * s.val + ρ.val / 32, by have := s.isLt; have := ρ.isLt; omega⟩

def srcNb (ρ : Fin 64000) : Fin 32 := ⟨ρ.val % 32, Nat.mod_lt _ (by decide)⟩

def partRow (s : Fin 5) (q : Fin 2000) : Fin 10000 := ⟨2000 * s.val + q.val, by have := s.isLt; have := q.isLt; omega⟩

def blockRow (i : Fin 5) (r : Fin 400) : Fin 2000 := ⟨400 * i.val + r.val, by have := i.isLt; have := r.isLt; omega⟩

def zBlock (Z : S64000x128.Idx → EReal) (i : Fin 5) : Vec Ideal S12800x128 .f32 := fun y =>
  Z (ix2 (⟨12800 * i.val + (y 0).val, by have := i.isLt; have := idx2_lt0 y; omega⟩ : Fin 64000)
    (⟨(y 1).val, idx2_lt1 y⟩ : Fin 128))

def xBlock (Xs : S2000x128.Idx → EReal) (i : Fin 5) : Vec Ideal S400x128 .f32 := fun y =>
  Xs (ix2 (⟨400 * i.val + (y 0).val, by have := i.isLt; have := idx2_lt0 y; omega⟩ : Fin 2000)
    (⟨(y 1).val, idx2_lt1 y⟩ : Fin 128))

abbrev cat5 {α : Type} (O : Fin 5 → S2000x128.Idx → α) : List ((s : Shape) × (s.Idx → α)) :=
  [⟨S2000x128, O 0⟩, ⟨S2000x128, O 1⟩, ⟨S2000x128, O 2⟩, ⟨S2000x128, O 3⟩, ⟨S2000x128, O 4⟩]

-- Part `s` starts at row `2000 s` of the five parts laid end to end.
theorem concat_apply {α : Type} (O : Fin 5 → S2000x128.Idx → α)
    (h : Shape.Concatenates [S2000x128, S2000x128, S2000x128, S2000x128, S2000x128] S10000x128 0)
    (s : Fin 5) (q : Fin 2000) (d : Fin 128) :
    concatenate S10000x128 0 (cat5 O) h (ix2 (partRow s q) d) = O s (ix2 q d) := by
  have hi : ∀ (p : Fin 10000) (b : Fin S2000x128.rank),
      b.cast (rfl : S2000x128.rank = S10000x128.rank) ≠ (0 : Fin S10000x128.rank) →
      ((ix2 q d : S2000x128.Idx) b).val = ((ix2 p d : S10000x128.Idx) (b.cast rfl)).val := fun p b hb => by
    match b with
    | ⟨0, _⟩ => exact absurd rfl hb
    | ⟨1, _⟩ => rfl
  have hx : (cat5 O)[s.val]'s.isLt = ⟨S2000x128, O s⟩ := by
    match s with
    | ⟨0, _⟩ | ⟨1, _⟩ | ⟨2, _⟩ | ⟨3, _⟩ | ⟨4, _⟩ => rfl
  refine concatenate_apply_piece (t := S10000x128) (0 : Fin S10000x128.rank) (cat5 O) h _ s.val s.isLt S2000x128 (O s) hx rfl
    (2000 * s.val) ?_ (ix2 q d) (hi _) rfl
  match s with
  | ⟨0, _⟩ | ⟨1, _⟩ | ⟨2, _⟩ | ⟨3, _⟩ | ⟨4, _⟩ => rfl

theorem slice_rows (X : S10000x128.Idx → EReal) (o : Nat) (h : S10000x128.Slices ![o, 0] S2000x128) (s : Fin 5)
    (ho : o = 2000 * s.val) (q : Fin 2000) (k : Fin 128) :
    extractStridedSlice S2000x128 ![o, 0] X h (ix2 q k) = X (ix2 (partRow s q) k) :=
  slice2_axis0_apply o X h q k (partRow s q) (by rw [ho]; rfl)

def bodyOutOf : Fin 5 → Vec Ideal S12800x128 .f32 → Vec Ideal S400x128 .f32 → FVec Ideal S400x128 .f32 :=
  ![BodyValue.bodyOut, BodyValue3.bodyOut, BodyValue5.bodyOut, BodyValue7.bodyOut, BodyValue9.bodyOut]

theorem bodyOutOf_apply (s : Fin 5) (v0 : Vec Ideal S12800x128 .f32) (v2 : Vec Ideal S400x128 .f32) (r : Fin 400)
    (d : Fin 128) :
    bodyOutOf s v0 v2 (ix2 r d) = kRow (fun mm k => v0 (ix2 (BodyValue.flat r mm) k)) (fun k => v2 (ix2 r k)) d := by
  match s with
  | ⟨0, _⟩ => exact BodyValue.bodyOut_apply v0 v2 r d
  | ⟨1, _⟩ => exact BodyValue3.bodyOut_apply v0 v2 r d
  | ⟨2, _⟩ => exact BodyValue5.bodyOut_apply v0 v2 r d
  | ⟨3, _⟩ => exact BodyValue7.bodyOut_apply v0 v2 r d
  | ⟨4, _⟩ => exact BodyValue9.bodyOut_apply v0 v2 r d

-- Row `2000 s + 400 i + r` has as neighbour `m` the gathered row `ρ = 12800 i + 32 r + m` of part `s`, named by neighbour word `ρ % 32` of row `2000 s + ρ / 32`.
theorem result_words (X : S10000x128.Idx → EReal) (NB : IVec S10000x32 32) (hNB : ∀ i, (NB i).toNat ≤ 9999)
    (Z : Fin 5 → S64000x128.Idx → EReal) (Xs O : Fin 5 → S2000x128.Idx → EReal)
    (hZ : ∀ (s : Fin 5) (e : S64000x128.Idx), Z s e = X (ix2 (n0 := 10000) (n1 := 128)
      ⟨(Pre.idxOf NB s (ix3 (n0 := 32) (n1 := 25) (n2 := 80) ⟨(e 0).val / 2000, by have := idx2_lt0 e; omega⟩
          ⟨(e 0).val / 80 % 25, Nat.mod_lt _ (by decide)⟩ ⟨(e 0).val % 80, Nat.mod_lt _ (by decide)⟩)).toNat % 10000,
        Nat.mod_lt _ (by decide)⟩ (e 1)))
    (hXs : ∀ (s : Fin 5) (q : Fin 2000) (k : Fin 128), Xs s (ix2 q k) = X (ix2 (partRow s q) k))
    (hO : ∀ (s i : Fin 5) (r : Fin 400) (d : Fin 128),
      O s (ix2 (blockRow i r) d) = bodyOutOf s (zBlock (Z s) i) (xBlock (Xs s) i) (ix2 r d))
    (h : Shape.Concatenates [S2000x128, S2000x128, S2000x128, S2000x128, S2000x128] S10000x128 0)
    (n : Fin 10000) (d : Fin 128) :
    concatenate S10000x128 0 [⟨S2000x128, O 0⟩, ⟨S2000x128, O 1⟩, ⟨S2000x128, O 2⟩, ⟨S2000x128, O 3⟩, ⟨S2000x128, O 4⟩] h
        (ix2 n d)
      = G (fun n k => X (ix2 n k)) (fun n mm => NB (ix2 n mm)) n d := by
  have hn := n.isLt
  obtain ⟨s, i, r, rfl⟩ : ∃ (s i : Fin 5) (r : Fin 400), n = partRow s (blockRow i r) :=
    ⟨⟨n.val / 2000, by omega⟩, ⟨n.val % 2000 / 400, by omega⟩, ⟨n.val % 2000 % 400, Nat.mod_lt _ (by decide)⟩,
      Fin.ext (by show n.val = 2000 * (n.val / 2000) + (400 * (n.val % 2000 / 400) + n.val % 2000 % 400); omega)⟩
  have hI : ∀ (w : Fin 32) (j : Fin 25) (t : Fin 80), (Pre.idxOf NB s (ix3 w j t)).toNat
      = (nbRow (NB (ix2 (srcRow s (gpos w j t)) (srcNb (gpos w j t))))).val := fun w j t => Pre.idxOf_toNat NB hNB s w j t
  have gather : ∀ (ρ : Fin 64000) (k : Fin 128),
      Z s (ix2 ρ k) = X (ix2 (nbRow (NB (ix2 (srcRow s ρ) (srcNb ρ)))) k) := fun ρ k => by
    have hρ := ρ.isLt
    have e : gpos ⟨ρ.val / 2000, by omega⟩ ⟨ρ.val / 80 % 25, Nat.mod_lt _ (by decide)⟩ ⟨ρ.val % 80, Nat.mod_lt _ (by decide)⟩ = ρ :=
      Fin.ext (by show (25 * (ρ.val / 2000) + ρ.val / 80 % 25) * 80 + ρ.val % 80 = ρ.val; omega)
    have h2 := hI ⟨ρ.val / 2000, by omega⟩ ⟨ρ.val / 80 % 25, Nat.mod_lt _ (by decide)⟩ ⟨ρ.val % 80, Nat.mod_lt _ (by decide)⟩
    rw [e] at h2
    rw [hZ s (ix2 ρ k)]
    refine congrArg (fun a => X (ix2 a k)) (Fin.ext ?_)
    show (Pre.idxOf NB s (ix3 (n0 := 32) (n1 := 25) (n2 := 80) ⟨ρ.val / 2000, _⟩ ⟨ρ.val / 80 % 25, _⟩ ⟨ρ.val % 80, _⟩)).toNat
      % 10000 = _
    rw [h2]
    exact Nat.mod_eq_of_lt (Fin.isLt _)
  refine (concat_apply O h s (blockRow i r) d).trans ?_
  rw [hO, bodyOutOf_apply]
  have hi := i.isLt; have hr := r.isLt; have hs := s.isLt
  show kRow _ _ d = kRow _ _ d
  congr 1
  · funext mm k
    have hm := mm.isLt
    show Z s (ix2 (⟨12800 * i.val + (r.val * 32 + mm.val), _⟩ : Fin 64000) (⟨k.val, _⟩ : Fin 128)) = _
    rw [gather]
    have e1 : srcRow s (⟨12800 * i.val + (r.val * 32 + mm.val), by omega⟩ : Fin 64000) = partRow s (blockRow i r) :=
      Fin.ext (by show 2000 * s.val + (12800 * i.val + (r.val * 32 + mm.val)) / 32 = 2000 * s.val + (400 * i.val + r.val); omega)
    have e2 : srcNb (⟨12800 * i.val + (r.val * 32 + mm.val), by omega⟩ : Fin 64000) = mm :=
      Fin.ext (by show (12800 * i.val + (r.val * 32 + mm.val)) % 32 = mm.val; omega)
    rw [e1, e2]
  · funext k
    show Xs s (ix2 (⟨400 * i.val + r.val, _⟩ : Fin 2000) (⟨k.val, _⟩ : Fin 128)) = _
    exact hXs s (blockRow i r) k

end Cert.Proof.KI.Val

end
-- ==== Proof.RowAlgebra.lean ====
import proofs.«212107_g53927609368716_cont_9to1_m_409_29_alg».proof.Proof.Spec
import Mathlib.Analysis.SpecialFunctions.Exp
import Mathlib.Analysis.SpecialFunctions.Sqrt
import Mathlib.Tactic.FieldSimp
import Mathlib.Tactic.Ring
import Mathlib.Tactic.NormNum

noncomputable section

namespace Cert.Routing

open Idealize.ShloMosaic

def epsR : ℝ := 2305843 / 2305843009213693952

theorem epsR_pos : 0 < epsR := by unfold epsR; norm_num

theorem eps_eq : eps = (epsR : EReal) := by
  unfold eps epsR
  simp [Ideal.ofBits, Ideal.ieee, -EReal.coe_mul]; norm_num

theorem epsSq_eq : epsSq = ((epsR * epsR : ℝ) : EReal) := by
  unfold epsSq epsR
  congr 1; norm_num

theorem w32_eq : w32 = ((1 / 32 : ℝ) : EReal) := by
  unfold w32
  simp [Ideal.ofBits, Ideal.ieee, -EReal.coe_mul]; norm_num

theorem one32_eq : one32 = ((1 : ℝ) : EReal) := by
  unfold one32
  simp [Ideal.ofBits, Ideal.ieee, -EReal.coe_mul]; norm_num

theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) :=
  EReal.coe_strictMono.monotone.map_max

theorem div_coe_coe (a : ℝ) {b : ℝ} (h : b ≠ 0) : Ideal.div (a : EReal) (b : EReal) = ((a / b : ℝ) : EReal) := by
  rw [Ideal.div_coe h, ← EReal.coe_mul, mul_one_div]

theorem rsqrt_coe_pos {y : ℝ} (h : 0 < y) : Ideal.rsqrt (y : EReal) = (((Real.sqrt y)⁻¹ : ℝ) : EReal) := by
  rw [Ideal.rsqrt_coe, if_neg (not_lt.mpr h.le), if_neg h.ne']

theorem sqrt_coe_nonneg {y : ℝ} (h : 0 ≤ y) : Ideal.sqrt (y : EReal) = ((Real.sqrt y : ℝ) : EReal) := by
  rw [Ideal.sqrt_coe, if_neg (not_lt.mpr h)]

theorem sqrt_max_sq (s : ℝ) : Real.sqrt (max s (epsR * epsR)) = max (Real.sqrt s) epsR := by
  have hm : Monotone Real.sqrt := fun a b h => Real.sqrt_le_sqrt h
  rw [hm.map_max, Real.sqrt_mul_self epsR_pos.le]

theorem max_sqrt_pos (s : ℝ) : 0 < max (Real.sqrt s) epsR := lt_max_of_lt_right epsR_pos

def sumSqR (v : Fin 128 → ℝ) : ℝ := ∑ k, v k * v k

theorem sumSqR_nonneg (v : Fin 128 → ℝ) : 0 ≤ sumSqR v :=
  Finset.sum_nonneg fun k _ => mul_self_nonneg (v k)

theorem sumSq_coe (v : Fin 128 → ℝ) : sumSq (fun k => (v k : EReal)) = (sumSqR v : EReal) := by
  unfold sumSq sumSqR
  rw [coe_sum]; simp only [EReal.coe_mul]

def normR (v : Fin 128 → ℝ) : Fin 128 → ℝ := fun d => v d / max (Real.sqrt (sumSqR v)) epsR

theorem kNorm_coe (v : Fin 128 → ℝ) : kNorm (fun k => (v k : EReal)) = fun d => (normR v d : EReal) := by
  funext d
  have hpos : 0 < max (sumSqR v) (epsR * epsR) := lt_max_of_lt_right (mul_pos epsR_pos epsR_pos)
  unfold kNorm normR
  rw [sumSq_coe, epsSq_eq, ← coe_max, rsqrt_coe_pos hpos, sqrt_max_sq, ← EReal.coe_mul, div_eq_mul_inv]

theorem rNorm_coe (v : Fin 128 → ℝ) : rNorm (fun k => (v k : EReal)) = fun d => (normR v d : EReal) := by
  funext d
  unfold rNorm normR
  rw [sumSq_coe, eps_eq, sqrt_coe_nonneg (sumSqR_nonneg v), ← coe_max, div_coe_coe _ (max_sqrt_pos _).ne']

def squashR (u : Fin 128 → ℝ) : Fin 128 → ℝ := fun d => sumSqR u / (sumSqR u + 1) * normR u d

theorem sumSqR_add_one_ne (u : Fin 128 → ℝ) : sumSqR u + 1 ≠ 0 :=
  (add_pos_of_nonneg_of_pos (sumSqR_nonneg u) one_pos).ne'

theorem kSquash_coe (u : Fin 128 → ℝ) : kSquash (fun k => (u k : EReal)) = fun d => (squashR u d : EReal) := by
  funext d
  have hpos : 0 < max (sumSqR u) (epsR * epsR) := lt_max_of_lt_right (mul_pos epsR_pos epsR_pos)
  have h1 := sumSqR_add_one_ne u
  have h2 := (max_sqrt_pos (sumSqR u)).ne'
  unfold kSquash squashR normR
  rw [sumSq_coe, epsSq_eq, one32_eq, ← coe_max, rsqrt_coe_pos hpos, sqrt_max_sq, ← EReal.coe_mul, ← EReal.coe_add,
    div_coe_coe _ h1, ← EReal.coe_mul]
  congr 1
  field_simp

theorem rSquash_coe (u : Fin 128 → ℝ) : rSquash (fun k => (u k : EReal)) = fun d => (squashR u d : EReal) := by
  funext d
  have h1 := sumSqR_add_one_ne u
  unfold rSquash squashR
  rw [rNorm_coe, sumSq_coe, one32_eq, sqrt_coe_nonneg (sumSqR_nonneg u), ← EReal.coe_mul, ← EReal.coe_add,
    Real.mul_self_sqrt (sumSqR_nonneg u), div_coe_coe _ h1, ← EReal.coe_mul]

def dotR (z : Fin 32 → Fin 128 → ℝ) (c : Fin 128 → ℝ) (m : Fin 32) : ℝ := ∑ k, z m k * c k

theorem dotRow_coe (z : Fin 32 → Fin 128 → ℝ) (c : Fin 128 → ℝ) :
    dotRow (fun m k => (z m k : EReal)) (fun k => (c k : EReal)) = fun m => (dotR z c m : EReal) := by
  funext m
  unfold dotRow dotR
  rw [coe_sum]; simp only [EReal.coe_mul]

def softR (p : Fin 32 → ℝ) : Fin 32 → ℝ := fun m => Real.exp (p m) / ∑ m', Real.exp (p m')

theorem sum_exp_pos (p : Fin 32 → ℝ) : 0 < ∑ m, Real.exp (p m) :=
  Finset.sum_pos (fun m _ => Real.exp_pos (p m)) ⟨0, Finset.mem_univ _⟩

theorem rMax_coe (p : Fin 32 → ℝ) : ∃ M : ℝ, rMax (fun m => (p m : EReal)) = (M : EReal) := by
  have hS : rMax (fun m => (p m : EReal)) = Finset.univ.sup (fun m => (p m : EReal)) := by
    unfold rMax
    rw [max_bot_left]
    rfl
  have htop : Finset.univ.sup (fun m => (p m : EReal)) ≠ ⊤ :=
    ((Finset.sup_lt_iff (bot_lt_top (α := EReal))).mpr fun m _ => EReal.coe_lt_top (p m)).ne
  have hbot : Finset.univ.sup (fun m => (p m : EReal)) ≠ ⊥ :=
    (lt_of_lt_of_le (EReal.bot_lt_coe (p 0))
      (Finset.le_sup (f := fun m => (p m : EReal)) (Finset.mem_univ (0 : Fin 32)))).ne'
  exact ⟨_, hS.trans (EReal.coe_toReal htop hbot).symm⟩

theorem rSoftmax_coe (p : Fin 32 → ℝ) : rSoftmax (fun m => (p m : EReal)) = fun m => (softR p m : EReal) := by
  obtain ⟨M, hM⟩ := rMax_coe p
  funext m
  have hpos : 0 < ∑ m', Real.exp (p m' - M) :=
    Finset.sum_pos (fun m _ => Real.exp_pos _) ⟨0, Finset.mem_univ _⟩
  unfold rSoftmax softR
  rw [hM, zero_add]
  simp only [← EReal.coe_sub, Ideal.exp_coe]
  rw [← coe_sum, div_coe_coe _ hpos.ne']
  congr 1
  have hS := (sum_exp_pos p).ne'
  have hE := (Real.exp_pos M).ne'
  simp only [Real.exp_sub]
  rw [← Finset.sum_div]
  field_simp

def roundR (z : Fin 32 → Fin 128 → ℝ) (xn : Fin 128 → ℝ) (p : Fin 32 → ℝ) : Fin 128 → ℝ := fun d =>
  (∑ m, z m d * softR p m) + xn d

theorem rRound_coe (z : Fin 32 → Fin 128 → ℝ) (xn : Fin 128 → ℝ) (p : Fin 32 → ℝ) :
    rRound (fun m k => (z m k : EReal)) (fun k => (xn k : EReal)) (fun m => (p m : EReal)) =
      fun d => (roundR z xn p d : EReal) := by
  funext d
  unfold rRound roundR
  rw [rSoftmax_coe, zero_add]
  simp only [← EReal.coe_mul]
  rw [← coe_sum, ← EReal.coe_add]

theorem rRound_zero (z : Fin 32 → Fin 128 → ℝ) (xn : Fin 128 → ℝ) :
    rRound (fun m k => (z m k : EReal)) (fun k => (xn k : EReal)) (fun _ => 0) =
      fun d => (roundR z xn (fun _ => 0) d : EReal) :=
  rRound_coe z xn (fun _ => 0)

theorem softR_zero (m : Fin 32) : softR (fun _ => 0) m = 1 / 32 := by
  unfold softR
  simp [Real.exp_zero]

theorem kInit_coe (z : Fin 32 → Fin 128 → ℝ) (xn : Fin 128 → ℝ) :
    kInit (fun m k => (z m k : EReal)) (fun k => (xn k : EReal)) = fun d => (roundR z xn (fun _ => 0) d : EReal) := by
  funext d
  unfold kInit roundR
  rw [w32_eq, ← coe_sum, ← EReal.coe_mul, ← EReal.coe_add]
  congr 2
  simp only [softR_zero]
  rw [Finset.sum_mul]

theorem kStep_coe (z : Fin 32 → Fin 128 → ℝ) (xn u : Fin 128 → ℝ) :
    kStep (fun m k => (z m k : EReal)) (fun k => (xn k : EReal)) (fun k => (u k : EReal)) =
      fun d => (roundR z xn (dotR z (squashR u)) d : EReal) := by
  funext d
  unfold kStep roundR softR
  rw [kSquash_coe, dotRow_coe]
  simp only [Ideal.exp_coe, ← EReal.coe_mul]
  rw [← coe_sum, ← coe_sum, div_coe_coe _ (sum_exp_pos _).ne', ← EReal.coe_add]
  congr 2
  rw [Finset.sum_div]
  refine Finset.sum_congr rfl fun m _ => ?_
  ring

def rowR (Z : Fin 32 → Fin 128 → ℝ) (x : Fin 128 → ℝ) : Fin 128 → ℝ :=
  let z := fun m => normR (Z m)
  let xn := normR x
  roundR z xn (dotR z (squashR (roundR z xn (dotR z (squashR (roundR z xn (fun _ => 0)))))))

theorem kRow_coe (Z : Fin 32 → Fin 128 → ℝ) (x : Fin 128 → ℝ) :
    kRow (fun m k => (Z m k : EReal)) (fun k => (x k : EReal)) = fun d => (rowR Z x d : EReal) := by
  unfold kRow rowR
  simp only [kNorm_coe]
  rw [kInit_coe, kStep_coe, kStep_coe]

theorem rRow_coe (Z : Fin 32 → Fin 128 → ℝ) (x : Fin 128 → ℝ) :
    rRow (fun m k => (Z m k : EReal)) (fun k => (x k : EReal)) = fun d => (rowR Z x d : EReal) := by
  unfold rRow rowR
  simp only [rNorm_coe]
  rw [rRound_zero, rSquash_coe, dotRow_coe, rRound_coe, rSquash_coe, dotRow_coe, rRound_coe]

theorem kRow_eq_rRow (Z : Fin 32 → Fin 128 → EReal) (x : Fin 128 → EReal)
    (hZ : ∀ m k, ∃ r : ℝ, Z m k = (r : EReal)) (hx : ∀ k, ∃ r : ℝ, x k = (r : EReal)) :
    kRow Z x = rRow Z x := by
  choose Zr hZr using hZ
  choose xr hxr using hx
  obtain rfl : Z = fun m k => (Zr m k : EReal) := by funext m k; exact hZr m k
  obtain rfl : x = fun k => (xr k : EReal) := funext hxr
  rw [kRow_coe, rRow_coe]

end Cert.Routing

end
-- ==== Proof.Bridge.lean ====
import proofs.«212107_g53927609368716_cont_9to1_m_409_29_alg».proof.Proof.ValueAssembly
import proofs.«212107_g53927609368716_cont_9to1_m_409_29_alg».proof.Proof.RowAlgebra
import proofs.«212107_g53927609368716_cont_9to1_m_409_29_alg».proof.Proof.PreFacts

noncomputable section

namespace Cert.Proof.KI.Bridge

open Idealize.ShloMosaic Idealize.ShloMosaic.ValueIdx
open Cert.KernelIdeal Cert.KernelIdeal.Gen
open Cert.Routing
open Cert.Proof.KI.Val

-- The kernel's array is `G` row by row; on a table of real entries `G`'s row is the reference's row.
theorem kernel_eq_reference (X : FVec Ideal S10000x128 .f32) (NB : IVec S10000x32 32)
    (hpre : Cert.Pre_input_domain.fn (F := Ideal) X NB = fun _ => 1#1)
    (Z : Fin 5 → S64000x128.Idx → EReal) (Xs O : Fin 5 → S2000x128.Idx → EReal)
    (hZ : ∀ (s : Fin 5) (e : S64000x128.Idx), Z s e = X (ix2 (n0 := 10000) (n1 := 128)
      ⟨(Pre.idxOf NB s (ix3 (n0 := 32) (n1 := 25) (n2 := 80) ⟨(e 0).val / 2000, by have := idx2_lt0 e; omega⟩
          ⟨(e 0).val / 80 % 25, Nat.mod_lt _ (by decide)⟩ ⟨(e 0).val % 80, Nat.mod_lt _ (by decide)⟩)).toNat % 10000,
        Nat.mod_lt _ (by decide)⟩ (e 1)))
    (hXs : ∀ (s : Fin 5) (q : Fin 2000) (k : Fin 128), Xs s (ix2 q k) = X (ix2 (partRow s q) k))
    (hO : ∀ (s i : Fin 5) (r : Fin 400) (d : Fin 128),
      O s (ix2 (blockRow i r) d) = bodyOutOf s (zBlock (Z s) i) (xBlock (Xs s) i) (ix2 r d))
    (h : Shape.Concatenates [S2000x128, S2000x128, S2000x128, S2000x128, S2000x128] S10000x128 0)
    (R : S10000x128.Idx → EReal)
    (hR : ∀ (n : Fin 10000) (d : Fin 128),
      R (ix2 n d) = rRow (fun mm k => X (ix2 (nbRow (NB (ix2 n mm))) k)) (fun k => X (ix2 n k)) d) :
    concatenate S10000x128 0 [⟨S2000x128, O 0⟩, ⟨S2000x128, O 1⟩, ⟨S2000x128, O 2⟩, ⟨S2000x128, O 3⟩, ⟨S2000x128, O 4⟩] h
      = R := by
  funext i
  obtain ⟨n, d, rfl⟩ : ∃ (n : Fin 10000) (d : Fin 128), i = ix2 n d := ⟨i 0, i 1, eq_ix2 i⟩
  rw [result_words X NB (Pre.nb_range X NB hpre) Z Xs O hZ hXs hO h n d, hR]
  exact congrFun (kRow_eq_rRow (fun m k => X (ix2 (nbRow (NB (ix2 n m))) k)) (fun k => X (ix2 n k))
    (fun m k => Pre.x_real X NB hpre _) (fun k => Pre.x_real X NB hpre _)) d

end Cert.Proof.KI.Bridge

end
-- ==== Proof.Blocks1.lean ====
import proofs.«212107_g53927609368716_cont_9to1_m_409_29_alg».proof.Proof.ValueAssembly
import Idealize.ShloMosaic.Lib.Decide

noncomputable section

namespace Cert.Proof.KI.Blocks1

open Idealize.ShloMosaic Idealize.ShloMosaic.ValueIdx
open Cert.KernelIdeal Cert.KernelIdeal.Gen
open Cert.Proof.KI.Val

theorem N_eq : cfg1.N = 5 := by decide

def pt (t : Fin cfg1.N) : Fin 5 := ⟨t.val, Nat.lt_of_lt_of_eq t.isLt N_eq⟩

theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

-- A block's element sits in the array at block index × block size + its own coordinate; the block index is `(t, 0)`.
theorem read_win0 (A : S64000x128.Idx → EReal) (t : Fin cfg1.N) :
    ((cfg1.win 0).blk t).view.read (Elt Ideal) A = zBlock A (pt t) := by
  obtain ⟨e0, e1, -, -, -, -⟩ := idx_facts t
  funext y
  show A (((cfg1.win 0).blk t).view.emb y) = A _
  refine congrArg A (funext fun a => Fin.ext ?_)
  match a with
  | ⟨0, _⟩ => show win1_0.index t (0 : Fin 2) * 12800 + 1 * (y 0).val = 12800 * t.val + (y 0).val; omega
  | ⟨1, _⟩ => show win1_0.index t (1 : Fin 2) * 128 + 1 * (y 1).val = (y 1).val; omega

theorem read_win1 (A : S2000x128.Idx → EReal) (t : Fin cfg1.N) :
    ((cfg1.win 1).blk t).view.read (Elt Ideal) A = xBlock A (pt t) := by
  obtain ⟨-, -, e0, e1, -, -⟩ := idx_facts t
  funext y
  show A (((cfg1.win 1).blk t).view.emb y) = A _
  refine congrArg A (funext fun a => Fin.ext ?_)
  match a with
  | ⟨0, _⟩ => show win1_1.index t (0 : Fin 2) * 400 + 1 * (y 0).val = 400 * t.val + (y 0).val; omega
  | ⟨1, _⟩ => show win1_1.index t (1 : Fin 2) * 128 + 1 * (y 1).val = (y 1).val; omega

theorem read_win2 (A : S2000x128.Idx → EReal) (t : Fin cfg1.N) :
    ((cfg1.win 2).blk t).view.read (Elt Ideal) A = xBlock A (pt t) := by
  obtain ⟨-, -, -, -, e0, e1⟩ := idx_facts t
  funext y
  show A (((cfg1.win 2).blk t).view.emb y) = A _
  refine congrArg A (funext fun a => Fin.ext ?_)
  match a with
  | ⟨0, _⟩ => show win1_2.index t (0 : Fin 2) * 400 + 1 * (y 0).val = 400 * t.val + (y 0).val; omega
  | ⟨1, _⟩ => show win1_2.index t (1 : Fin 2) * 128 + 1 * (y 1).val = (y 1).val; omega

end Cert.Proof.KI.Blocks1

end
-- ==== Proof.RegionRow1.lean ====
import proofs.«212107_g53927609368716_cont_9to1_m_409_29_alg».proof.Proof.Blocks1

noncomputable section

namespace Cert.Proof.KI.RegionRow1

open Idealize.ShloMosaic Idealize.ShloMosaic.ValueIdx
open Cert.KernelIdeal Cert.KernelIdeal.Gen
open Cert.Proof.KI.Val Cert.Proof.KI.Blocks1

def ptOf (i : Fin 5) : Fin cfg1.N := ⟨i.val, Nat.lt_of_lt_of_eq i.isLt N_eq.symm⟩

theorem pt_ptOf (i : Fin 5) : pt (ptOf i) = i := Fin.ext rfl

-- Row `400 i + r` of the output lies in block `i`, at row `r` of that block.
theorem row_of_blocks (Z : S64000x128.Idx → EReal) (Xs O : S2000x128.Idx → EReal)
    (hblk : ∀ t : Fin cfg1.N, ((cfg1.win 2).blk t).view.read (Elt Ideal) O
      = BodyValue.bodyOut (((cfg1.win 0).blk t).view.read (Elt Ideal) Z) (((cfg1.win 1).blk t).view.read (Elt Ideal) Xs))
    (i : Fin 5) (r : Fin 400) (d : Fin 128) :
    O (ix2 (blockRow i r) d) = BodyValue.bodyOut (zBlock Z i) (xBlock Xs i) (ix2 r d) := by
  have h := congrFun (hblk (ptOf i)) (ix2 r d)
  rw [read_win2, read_win0, read_win1, pt_ptOf] at h
  exact h

end Cert.Proof.KI.RegionRow1

end
-- ==== Proof.Blocks3.lean ====
import proofs.«212107_g53927609368716_cont_9to1_m_409_29_alg».proof.Proof.ValueAssembly
import Idealize.ShloMosaic.Lib.Decide

noncomputable section

namespace Cert.Proof.KI.Blocks3

open Idealize.ShloMosaic Idealize.ShloMosaic.ValueIdx
open Cert.KernelIdeal Cert.KernelIdeal.Gen
open Cert.Proof.KI.Val

theorem N_eq : cfg3.N = 5 := by decide

def pt (t : Fin cfg3.N) : Fin 5 := ⟨t.val, Nat.lt_of_lt_of_eq t.isLt N_eq⟩

theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

-- A block's element sits in the array at block index × block size + its own coordinate; the block index is `(t, 0)`.
theorem read_win0 (A : S64000x128.Idx → EReal) (t : Fin cfg3.N) :
    ((cfg3.win 0).blk t).view.read (Elt Ideal) A = zBlock A (pt t) := by
  obtain ⟨e0, e1, -, -, -, -⟩ := idx_facts t
  funext y
  show A (((cfg3.win 0).blk t).view.emb y) = A _
  refine congrArg A (funext fun a => Fin.ext ?_)
  match a with
  | ⟨0, _⟩ => show win3_0.index t (0 : Fin 2) * 12800 + 1 * (y 0).val = 12800 * t.val + (y 0).val; omega
  | ⟨1, _⟩ => show win3_0.index t (1 : Fin 2) * 128 + 1 * (y 1).val = (y 1).val; omega

theorem read_win1 (A : S2000x128.Idx → EReal) (t : Fin cfg3.N) :
    ((cfg3.win 1).blk t).view.read (Elt Ideal) A = xBlock A (pt t) := by
  obtain ⟨-, -, e0, e1, -, -⟩ := idx_facts t
  funext y
  show A (((cfg3.win 1).blk t).view.emb y) = A _
  refine congrArg A (funext fun a => Fin.ext ?_)
  match a with
  | ⟨0, _⟩ => show win3_1.index t (0 : Fin 2) * 400 + 1 * (y 0).val = 400 * t.val + (y 0).val; omega
  | ⟨1, _⟩ => show win3_1.index t (1 : Fin 2) * 128 + 1 * (y 1).val = (y 1).val; omega

theorem read_win2 (A : S2000x128.Idx → EReal) (t : Fin cfg3.N) :
    ((cfg3.win 2).blk t).view.read (Elt Ideal) A = xBlock A (pt t) := by
  obtain ⟨-, -, -, -, e0, e1⟩ := idx_facts t
  funext y
  show A (((cfg3.win 2).blk t).view.emb y) = A _
  refine congrArg A (funext fun a => Fin.ext ?_)
  match a with
  | ⟨0, _⟩ => show win3_2.index t (0 : Fin 2) * 400 + 1 * (y 0).val = 400 * t.val + (y 0).val; omega
  | ⟨1, _⟩ => show win3_2.index t (1 : Fin 2) * 128 + 1 * (y 1).val = (y 1).val; omega

end Cert.Proof.KI.Blocks3

end
-- ==== Proof.RegionRow3.lean ====
import proofs.«212107_g53927609368716_cont_9to1_m_409_29_alg».proof.Proof.Blocks3

noncomputable section

namespace Cert.Proof.KI.RegionRow3

open Idealize.ShloMosaic Idealize.ShloMosaic.ValueIdx
open Cert.KernelIdeal Cert.KernelIdeal.Gen
open Cert.Proof.KI.Val Cert.Proof.KI.Blocks3

def ptOf (i : Fin 5) : Fin cfg3.N := ⟨i.val, Nat.lt_of_lt_of_eq i.isLt N_eq.symm⟩

theorem pt_ptOf (i : Fin 5) : pt (ptOf i) = i := Fin.ext rfl

-- Row `400 i + r` of the output lies in block `i`, at row `r` of that block.
theorem row_of_blocks (Z : S64000x128.Idx → EReal) (Xs O : S2000x128.Idx → EReal)
    (hblk : ∀ t : Fin cfg3.N, ((cfg3.win 2).blk t).view.read (Elt Ideal) O
      = BodyValue3.bodyOut (((cfg3.win 0).blk t).view.read (Elt Ideal) Z) (((cfg3.win 1).blk t).view.read (Elt Ideal) Xs))
    (i : Fin 5) (r : Fin 400) (d : Fin 128) :
    O (ix2 (blockRow i r) d) = BodyValue3.bodyOut (zBlock Z i) (xBlock Xs i) (ix2 r d) := by
  have h := congrFun (hblk (ptOf i)) (ix2 r d)
  rw [read_win2, read_win0, read_win1, pt_ptOf] at h
  exact h

end Cert.Proof.KI.RegionRow3

end
-- ==== Proof.Blocks5.lean ====
import proofs.«212107_g53927609368716_cont_9to1_m_409_29_alg».proof.Proof.ValueAssembly
import Idealize.ShloMosaic.Lib.Decide

noncomputable section

namespace Cert.Proof.KI.Blocks5

open Idealize.ShloMosaic Idealize.ShloMosaic.ValueIdx
open Cert.KernelIdeal Cert.KernelIdeal.Gen
open Cert.Proof.KI.Val

theorem N_eq : cfg5.N = 5 := by decide

def pt (t : Fin cfg5.N) : Fin 5 := ⟨t.val, Nat.lt_of_lt_of_eq t.isLt N_eq⟩

theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

-- A block's element sits in the array at block index × block size + its own coordinate; the block index is `(t, 0)`.
theorem read_win0 (A : S64000x128.Idx → EReal) (t : Fin cfg5.N) :
    ((cfg5.win 0).blk t).view.read (Elt Ideal) A = zBlock A (pt t) := by
  obtain ⟨e0, e1, -, -, -, -⟩ := idx_facts t
  funext y
  show A (((cfg5.win 0).blk t).view.emb y) = A _
  refine congrArg A (funext fun a => Fin.ext ?_)
  match a with
  | ⟨0, _⟩ => show win5_0.index t (0 : Fin 2) * 12800 + 1 * (y 0).val = 12800 * t.val + (y 0).val; omega
  | ⟨1, _⟩ => show win5_0.index t (1 : Fin 2) * 128 + 1 * (y 1).val = (y 1).val; omega

theorem read_win1 (A : S2000x128.Idx → EReal) (t : Fin cfg5.N) :
    ((cfg5.win 1).blk t).view.read (Elt Ideal) A = xBlock A (pt t) := by
  obtain ⟨-, -, e0, e1, -, -⟩ := idx_facts t
  funext y
  show A (((cfg5.win 1).blk t).view.emb y) = A _
  refine congrArg A (funext fun a => Fin.ext ?_)
  match a with
  | ⟨0, _⟩ => show win5_1.index t (0 : Fin 2) * 400 + 1 * (y 0).val = 400 * t.val + (y 0).val; omega
  | ⟨1, _⟩ => show win5_1.index t (1 : Fin 2) * 128 + 1 * (y 1).val = (y 1).val; omega

theorem read_win2 (A : S2000x128.Idx → EReal) (t : Fin cfg5.N) :
    ((cfg5.win 2).blk t).view.read (Elt Ideal) A = xBlock A (pt t) := by
  obtain ⟨-, -, -, -, e0, e1⟩ := idx_facts t
  funext y
  show A (((cfg5.win 2).blk t).view.emb y) = A _
  refine congrArg A (funext fun a => Fin.ext ?_)
  match a with
  | ⟨0, _⟩ => show win5_2.index t (0 : Fin 2) * 400 + 1 * (y 0).val = 400 * t.val + (y 0).val; omega
  | ⟨1, _⟩ => show win5_2.index t (1 : Fin 2) * 128 + 1 * (y 1).val = (y 1).val; omega

end Cert.Proof.KI.Blocks5

end
-- ==== Proof.RegionRow5.lean ====
import proofs.«212107_g53927609368716_cont_9to1_m_409_29_alg».proof.Proof.Blocks5

noncomputable section

namespace Cert.Proof.KI.RegionRow5

open Idealize.ShloMosaic Idealize.ShloMosaic.ValueIdx
open Cert.KernelIdeal Cert.KernelIdeal.Gen
open Cert.Proof.KI.Val Cert.Proof.KI.Blocks5

def ptOf (i : Fin 5) : Fin cfg5.N := ⟨i.val, Nat.lt_of_lt_of_eq i.isLt N_eq.symm⟩

theorem pt_ptOf (i : Fin 5) : pt (ptOf i) = i := Fin.ext rfl

-- Row `400 i + r` of the output lies in block `i`, at row `r` of that block.
theorem row_of_blocks (Z : S64000x128.Idx → EReal) (Xs O : S2000x128.Idx → EReal)
    (hblk : ∀ t : Fin cfg5.N, ((cfg5.win 2).blk t).view.read (Elt Ideal) O
      = BodyValue5.bodyOut (((cfg5.win 0).blk t).view.read (Elt Ideal) Z) (((cfg5.win 1).blk t).view.read (Elt Ideal) Xs))
    (i : Fin 5) (r : Fin 400) (d : Fin 128) :
    O (ix2 (blockRow i r) d) = BodyValue5.bodyOut (zBlock Z i) (xBlock Xs i) (ix2 r d) := by
  have h := congrFun (hblk (ptOf i)) (ix2 r d)
  rw [read_win2, read_win0, read_win1, pt_ptOf] at h
  exact h

end Cert.Proof.KI.RegionRow5

end
-- ==== Proof.Blocks7.lean ====
import proofs.«212107_g53927609368716_cont_9to1_m_409_29_alg».proof.Proof.ValueAssembly
import Idealize.ShloMosaic.Lib.Decide

noncomputable section

namespace Cert.Proof.KI.Blocks7

open Idealize.ShloMosaic Idealize.ShloMosaic.ValueIdx
open Cert.KernelIdeal Cert.KernelIdeal.Gen
open Cert.Proof.KI.Val

theorem N_eq : cfg7.N = 5 := by decide

def pt (t : Fin cfg7.N) : Fin 5 := ⟨t.val, Nat.lt_of_lt_of_eq t.isLt N_eq⟩

theorem idx_facts : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0 :=
  (by decide +kernel : ∀ t : Fin grid7.N, _)

-- A block's element sits in the array at block index × block size + its own coordinate; the block index is `(t, 0)`.
theorem read_win0 (A : S64000x128.Idx → EReal) (t : Fin cfg7.N) :
    ((cfg7.win 0).blk t).view.read (Elt Ideal) A = zBlock A (pt t) := by
  obtain ⟨e0, e1, -, -, -, -⟩ := idx_facts t
  funext y
  show A (((cfg7.win 0).blk t).view.emb y) = A _
  refine congrArg A (funext fun a => Fin.ext ?_)
  match a with
  | ⟨0, _⟩ => show win7_0.index t (0 : Fin 2) * 12800 + 1 * (y 0).val = 12800 * t.val + (y 0).val; omega
  | ⟨1, _⟩ => show win7_0.index t (1 : Fin 2) * 128 + 1 * (y 1).val = (y 1).val; omega

theorem read_win1 (A : S2000x128.Idx → EReal) (t : Fin cfg7.N) :
    ((cfg7.win 1).blk t).view.read (Elt Ideal) A = xBlock A (pt t) := by
  obtain ⟨-, -, e0, e1, -, -⟩ := idx_facts t
  funext y
  show A (((cfg7.win 1).blk t).view.emb y) = A _
  refine congrArg A (funext fun a => Fin.ext ?_)
  match a with
  | ⟨0, _⟩ => show win7_1.index t (0 : Fin 2) * 400 + 1 * (y 0).val = 400 * t.val + (y 0).val; omega
  | ⟨1, _⟩ => show win7_1.index t (1 : Fin 2) * 128 + 1 * (y 1).val = (y 1).val; omega

theorem read_win2 (A : S2000x128.Idx → EReal) (t : Fin cfg7.N) :
    ((cfg7.win 2).blk t).view.read (Elt Ideal) A = xBlock A (pt t) := by
  obtain ⟨-, -, -, -, e0, e1⟩ := idx_facts t
  funext y
  show A (((cfg7.win 2).blk t).view.emb y) = A _
  refine congrArg A (funext fun a => Fin.ext ?_)
  match a with
  | ⟨0, _⟩ => show win7_2.index t (0 : Fin 2) * 400 + 1 * (y 0).val = 400 * t.val + (y 0).val; omega
  | ⟨1, _⟩ => show win7_2.index t (1 : Fin 2) * 128 + 1 * (y 1).val = (y 1).val; omega

end Cert.Proof.KI.Blocks7

end
-- ==== Proof.RegionRow7.lean ====
import proofs.«212107_g53927609368716_cont_9to1_m_409_29_alg».proof.Proof.Blocks7

noncomputable section

namespace Cert.Proof.KI.RegionRow7

open Idealize.ShloMosaic Idealize.ShloMosaic.ValueIdx
open Cert.KernelIdeal Cert.KernelIdeal.Gen
open Cert.Proof.KI.Val Cert.Proof.KI.Blocks7

def ptOf (i : Fin 5) : Fin cfg7.N := ⟨i.val, Nat.lt_of_lt_of_eq i.isLt N_eq.symm⟩

theorem pt_ptOf (i : Fin 5) : pt (ptOf i) = i := Fin.ext rfl

-- Row `400 i + r` of the output lies in block `i`, at row `r` of that block.
theorem row_of_blocks (Z : S64000x128.Idx → EReal) (Xs O : S2000x128.Idx → EReal)
    (hblk : ∀ t : Fin cfg7.N, ((cfg7.win 2).blk t).view.read (Elt Ideal) O
      = BodyValue7.bodyOut (((cfg7.win 0).blk t).view.read (Elt Ideal) Z) (((cfg7.win 1).blk t).view.read (Elt Ideal) Xs))
    (i : Fin 5) (r : Fin 400) (d : Fin 128) :
    O (ix2 (blockRow i r) d) = BodyValue7.bodyOut (zBlock Z i) (xBlock Xs i) (ix2 r d) := by
  have h := congrFun (hblk (ptOf i)) (ix2 r d)
  rw [read_win2, read_win0, read_win1, pt_ptOf] at h
  exact h

end Cert.Proof.KI.RegionRow7

end
-- ==== Proof.Blocks9.lean ====
import proofs.«212107_g53927609368716_cont_9to1_m_409_29_alg».proof.Proof.ValueAssembly
import Idealize.ShloMosaic.Lib.Decide

noncomputable section

namespace Cert.Proof.KI.Blocks9

open Idealize.ShloMosaic Idealize.ShloMosaic.ValueIdx
open Cert.KernelIdeal Cert.KernelIdeal.Gen
open Cert.Proof.KI.Val

theorem N_eq : cfg9.N = 5 := by decide

def pt (t : Fin cfg9.N) : Fin 5 := ⟨t.val, Nat.lt_of_lt_of_eq t.isLt N_eq⟩

theorem idx_facts : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0 :=
  (by decide +kernel : ∀ t : Fin grid9.N, _)

-- A block's element sits in the array at block index × block size + its own coordinate; the block index is `(t, 0)`.
theorem read_win0 (A : S64000x128.Idx → EReal) (t : Fin cfg9.N) :
    ((cfg9.win 0).blk t).view.read (Elt Ideal) A = zBlock A (pt t) := by
  obtain ⟨e0, e1, -, -, -, -⟩ := idx_facts t
  funext y
  show A (((cfg9.win 0).blk t).view.emb y) = A _
  refine congrArg A (funext fun a => Fin.ext ?_)
  match a with
  | ⟨0, _⟩ => show win9_0.index t (0 : Fin 2) * 12800 + 1 * (y 0).val = 12800 * t.val + (y 0).val; omega
  | ⟨1, _⟩ => show win9_0.index t (1 : Fin 2) * 128 + 1 * (y 1).val = (y 1).val; omega

theorem read_win1 (A : S2000x128.Idx → EReal) (t : Fin cfg9.N) :
    ((cfg9.win 1).blk t).view.read (Elt Ideal) A = xBlock A (pt t) := by
  obtain ⟨-, -, e0, e1, -, -⟩ := idx_facts t
  funext y
  show A (((cfg9.win 1).blk t).view.emb y) = A _
  refine congrArg A (funext fun a => Fin.ext ?_)
  match a with
  | ⟨0, _⟩ => show win9_1.index t (0 : Fin 2) * 400 + 1 * (y 0).val = 400 * t.val + (y 0).val; omega
  | ⟨1, _⟩ => show win9_1.index t (1 : Fin 2) * 128 + 1 * (y 1).val = (y 1).val; omega

theorem read_win2 (A : S2000x128.Idx → EReal) (t : Fin cfg9.N) :
    ((cfg9.win 2).blk t).view.read (Elt Ideal) A = xBlock A (pt t) := by
  obtain ⟨-, -, -, -, e0, e1⟩ := idx_facts t
  funext y
  show A (((cfg9.win 2).blk t).view.emb y) = A _
  refine congrArg A (funext fun a => Fin.ext ?_)
  match a with
  | ⟨0, _⟩ => show win9_2.index t (0 : Fin 2) * 400 + 1 * (y 0).val = 400 * t.val + (y 0).val; omega
  | ⟨1, _⟩ => show win9_2.index t (1 : Fin 2) * 128 + 1 * (y 1).val = (y 1).val; omega

end Cert.Proof.KI.Blocks9

end
-- ==== Proof.RegionRow9.lean ====
import proofs.«212107_g53927609368716_cont_9to1_m_409_29_alg».proof.Proof.Blocks9

noncomputable section

namespace Cert.Proof.KI.RegionRow9

open Idealize.ShloMosaic Idealize.ShloMosaic.ValueIdx
open Cert.KernelIdeal Cert.KernelIdeal.Gen
open Cert.Proof.KI.Val Cert.Proof.KI.Blocks9

def ptOf (i : Fin 5) : Fin cfg9.N := ⟨i.val, Nat.lt_of_lt_of_eq i.isLt N_eq.symm⟩

theorem pt_ptOf (i : Fin 5) : pt (ptOf i) = i := Fin.ext rfl

-- Row `400 i + r` of the output lies in block `i`, at row `r` of that block.
theorem row_of_blocks (Z : S64000x128.Idx → EReal) (Xs O : S2000x128.Idx → EReal)
    (hblk : ∀ t : Fin cfg9.N, ((cfg9.win 2).blk t).view.read (Elt Ideal) O
      = BodyValue9.bodyOut (((cfg9.win 0).blk t).view.read (Elt Ideal) Z) (((cfg9.win 1).blk t).view.read (Elt Ideal) Xs))
    (i : Fin 5) (r : Fin 400) (d : Fin 128) :
    O (ix2 (blockRow i r) d) = BodyValue9.bodyOut (zBlock Z i) (xBlock Xs i) (ix2 r d) := by
  have h := congrFun (hblk (ptOf i)) (ix2 r d)
  rw [read_win2, read_win0, read_win1, pt_ptOf] at h
  exact h

end Cert.Proof.KI.RegionRow9

end
-- ==== Proof.ResValue.lean ====
import proofs.«212107_g53927609368716_cont_9to1_m_409_29_alg».proof.Proof.Bridge
import proofs.«212107_g53927609368716_cont_9to1_m_409_29_alg».proof.Proof.RegionRow1
import proofs.«212107_g53927609368716_cont_9to1_m_409_29_alg».proof.Proof.RegionRow3
import proofs.«212107_g53927609368716_cont_9to1_m_409_29_alg».proof.Proof.RegionRow5
import proofs.«212107_g53927609368716_cont_9to1_m_409_29_alg».proof.Proof.RegionRow7
import proofs.«212107_g53927609368716_cont_9to1_m_409_29_alg».proof.Proof.RegionRow9

noncomputable section

namespace Cert.Proof.KI.ResValue

open Idealize.ShloMosaic Idealize.ShloMosaic.ValueIdx
open Cert.KernelIdeal Cert.KernelIdeal.Gen
open Cert.Routing
open Cert.Proof.KI.Val

-- Each region's output is the body's stored block, block by block; the five outputs laid end to end are the reference's array.
theorem res_eq_reference_of5 (X : FVec Ideal S10000x128 .f32) (NB : IVec S10000x32 32)
    (hpre : Cert.Pre_input_domain.fn (F := Ideal) X NB = fun _ => 1#1)
    (Z0 Z1 Z2 Z3 Z4 : S64000x128.Idx → EReal) (XS0 XS1 XS2 XS3 XS4 O0 O1 O2 O3 O4 : S2000x128.Idx → EReal)
    (hZ0 : ∀ e : S64000x128.Idx, Z0 e = X (ix2 (n0 := 10000) (n1 := 128)
      ⟨(Pre.idxOf NB 0 (ix3 (n0 := 32) (n1 := 25) (n2 := 80) ⟨(e 0).val / 2000, by have := idx2_lt0 e; omega⟩
          ⟨(e 0).val / 80 % 25, Nat.mod_lt _ (by decide)⟩ ⟨(e 0).val % 80, Nat.mod_lt _ (by decide)⟩)).toNat % 10000,
        Nat.mod_lt _ (by decide)⟩ (e 1)))
    (hZ1 : ∀ e : S64000x128.Idx, Z1 e = X (ix2 (n0 := 10000) (n1 := 128)
      ⟨(Pre.idxOf NB 1 (ix3 (n0 := 32) (n1 := 25) (n2 := 80) ⟨(e 0).val / 2000, by have := idx2_lt0 e; omega⟩
          ⟨(e 0).val / 80 % 25, Nat.mod_lt _ (by decide)⟩ ⟨(e 0).val % 80, Nat.mod_lt _ (by decide)⟩)).toNat % 10000,
        Nat.mod_lt _ (by decide)⟩ (e 1)))
    (hZ2 : ∀ e : S64000x128.Idx, Z2 e = X (ix2 (n0 := 10000) (n1 := 128)
      ⟨(Pre.idxOf NB 2 (ix3 (n0 := 32) (n1 := 25) (n2 := 80) ⟨(e 0).val / 2000, by have := idx2_lt0 e; omega⟩
          ⟨(e 0).val / 80 % 25, Nat.mod_lt _ (by decide)⟩ ⟨(e 0).val % 80, Nat.mod_lt _ (by decide)⟩)).toNat % 10000,
        Nat.mod_lt _ (by decide)⟩ (e 1)))
    (hZ3 : ∀ e : S64000x128.Idx, Z3 e = X (ix2 (n0 := 10000) (n1 := 128)
      ⟨(Pre.idxOf NB 3 (ix3 (n0 := 32) (n1 := 25) (n2 := 80) ⟨(e 0).val / 2000, by have := idx2_lt0 e; omega⟩
          ⟨(e 0).val / 80 % 25, Nat.mod_lt _ (by decide)⟩ ⟨(e 0).val % 80, Nat.mod_lt _ (by decide)⟩)).toNat % 10000,
        Nat.mod_lt _ (by decide)⟩ (e 1)))
    (hZ4 : ∀ e : S64000x128.Idx, Z4 e = X (ix2 (n0 := 10000) (n1 := 128)
      ⟨(Pre.idxOf NB 4 (ix3 (n0 := 32) (n1 := 25) (n2 := 80) ⟨(e 0).val / 2000, by have := idx2_lt0 e; omega⟩
          ⟨(e 0).val / 80 % 25, Nat.mod_lt _ (by decide)⟩ ⟨(e 0).val % 80, Nat.mod_lt _ (by decide)⟩)).toNat % 10000,
        Nat.mod_lt _ (by decide)⟩ (e 1)))
    (hXs0 : ∀ (q : Fin 2000) (k : Fin 128), XS0 (ix2 q k) = X (ix2 (partRow 0 q) k))
    (hXs1 : ∀ (q : Fin 2000) (k : Fin 128), XS1 (ix2 q k) = X (ix2 (partRow 1 q) k))
    (hXs2 : ∀ (q : Fin 2000) (k : Fin 128), XS2 (ix2 q k) = X (ix2 (partRow 2 q) k))
    (hXs3 : ∀ (q : Fin 2000) (k : Fin 128), XS3 (ix2 q k) = X (ix2 (partRow 3 q) k))
    (hXs4 : ∀ (q : Fin 2000) (k : Fin 128), XS4 (ix2 q k) = X (ix2 (partRow 4 q) k))
    (hb0 : ∀ t : Fin cfg1.N, ((cfg1.win 2).blk t).view.read (Elt Ideal) O0
      = BodyValue.bodyOut (((cfg1.win 0).blk t).view.read (Elt Ideal) Z0) (((cfg1.win 1).blk t).view.read (Elt Ideal) XS0))
    (hb1 : ∀ t : Fin cfg3.N, ((cfg3.win 2).blk t).view.read (Elt Ideal) O1
      = BodyValue3.bodyOut (((cfg3.win 0).blk t).view.read (Elt Ideal) Z1) (((cfg3.win 1).blk t).view.read (Elt Ideal) XS1))
    (hb2 : ∀ t : Fin cfg5.N, ((cfg5.win 2).blk t).view.read (Elt Ideal) O2
      = BodyValue5.bodyOut (((cfg5.win 0).blk t).view.read (Elt Ideal) Z2) (((cfg5.win 1).blk t).view.read (Elt Ideal) XS2))
    (hb3 : ∀ t : Fin cfg7.N, ((cfg7.win 2).blk t).view.read (Elt Ideal) O3
      = BodyValue7.bodyOut (((cfg7.win 0).blk t).view.read (Elt Ideal) Z3) (((cfg7.win 1).blk t).view.read (Elt Ideal) XS3))
    (hb4 : ∀ t : Fin cfg9.N, ((cfg9.win 2).blk t).view.read (Elt Ideal) O4
      = BodyValue9.bodyOut (((cfg9.win 0).blk t).view.read (Elt Ideal) Z4) (((cfg9.win 1).blk t).view.read (Elt Ideal) XS4))
    (h : Shape.Concatenates [S2000x128, S2000x128, S2000x128, S2000x128, S2000x128] S10000x128 0)
    (R : S10000x128.Idx → EReal)
    (hR : ∀ (n : Fin 10000) (d : Fin 128),
      R (ix2 n d) = rRow (fun mm k => X (ix2 (nbRow (NB (ix2 n mm))) k)) (fun k => X (ix2 n k)) d) :
    concatenate S10000x128 0 [⟨S2000x128, O0⟩, ⟨S2000x128, O1⟩, ⟨S2000x128, O2⟩, ⟨S2000x128, O3⟩, ⟨S2000x128, O4⟩] h = R :=
  Bridge.kernel_eq_reference X NB hpre ![Z0, Z1, Z2, Z3, Z4] ![XS0, XS1, XS2, XS3, XS4] ![O0, O1, O2, O3, O4]
    (fun s e => by
      match s with
      | ⟨0, _⟩ => exact hZ0 e
      | ⟨1, _⟩ => exact hZ1 e
      | ⟨2, _⟩ => exact hZ2 e
      | ⟨3, _⟩ => exact hZ3 e
      | ⟨4, _⟩ => exact hZ4 e)
    (fun s q k => by
      match s with
      | ⟨0, _⟩ => exact hXs0 q k
      | ⟨1, _⟩ => exact hXs1 q k
      | ⟨2, _⟩ => exact hXs2 q k
      | ⟨3, _⟩ => exact hXs3 q k
      | ⟨4, _⟩ => exact hXs4 q k)
    (fun s i r d => by
      match s with
      | ⟨0, _⟩ => exact RegionRow1.row_of_blocks Z0 XS0 O0 hb0 i r d
      | ⟨1, _⟩ => exact RegionRow3.row_of_blocks Z1 XS1 O1 hb1 i r d
      | ⟨2, _⟩ => exact RegionRow5.row_of_blocks Z2 XS2 O2 hb2 i r d
      | ⟨3, _⟩ => exact RegionRow7.row_of_blocks Z3 XS3 O3 hb3 i r d
      | ⟨4, _⟩ => exact RegionRow9.row_of_blocks Z4 XS4 O4 hb4 i r d)
    h R hR

end Cert.Proof.KI.ResValue

end
-- ==== Proof.ResFinal.lean ====
import proofs.«212107_g53927609368716_cont_9to1_m_409_29_alg».proof.Proof.MainClosed
import proofs.«212107_g53927609368716_cont_9to1_m_409_29_alg».proof.Proof.ResValue

noncomputable section

namespace Cert.Proof.KI.ResFinal

open Idealize.ShloMosaic Idealize.ShloMosaic.ValueIdx
open Cert.KernelIdeal Cert.KernelIdeal.Gen
open Cert.Routing
open Idealize.ShloMosaic.SparseCore.Cfg (HIx)

theorem bodyFn0 : Tc0.bodyFn (F := Ideal) = BodyValue.bodyOut := rfl
theorem bodyFn1 : Tc1.bodyFn (F := Ideal) = BodyValue3.bodyOut := rfl
theorem bodyFn2 : Tc2.bodyFn (F := Ideal) = BodyValue5.bodyOut := rfl
theorem bodyFn3 : Tc3.bodyFn (F := Ideal) = BodyValue7.bodyOut := rfl
theorem bodyFn4 : Tc4.bodyFn (F := Ideal) = BodyValue9.bodyOut := rfl

theorem blk0 (m : (ℓ : Loc nD τ sig) → Buf (Elt Ideal) ℓ) (d : Dev nD) (t : Fin cfg1.N) :
    ((cfg1.win 2).blk t).view.read (Elt Ideal) (Main.OR0 m d)
      = BodyValue.bodyOut (((cfg1.win 0).blk t).view.read (Elt Ideal) (Main.Z0 m d))
          (((cfg1.win 1).blk t).view.read (Elt Ideal) (Main.XS0 m d)) := by
  rw [← bodyFn0]
  unfold Main.OR0
  exact Tc0.regionOut_blk _ _ _ _ _ d t

theorem blk1 (m : (ℓ : Loc nD τ sig) → Buf (Elt Ideal) ℓ) (d : Dev nD) (t : Fin cfg3.N) :
    ((cfg3.win 2).blk t).view.read (Elt Ideal) (Main.OR1 m d)
      = BodyValue3.bodyOut (((cfg3.win 0).blk t).view.read (Elt Ideal) (Main.Z1 m d))
          (((cfg3.win 1).blk t).view.read (Elt Ideal) (Main.XS1 m d)) := by
  rw [← bodyFn1]
  unfold Main.OR1
  exact Tc1.regionOut_blk _ _ _ _ _ d t

theorem blk2 (m : (ℓ : Loc nD τ sig) → Buf (Elt Ideal) ℓ) (d : Dev nD) (t : Fin cfg5.N) :
    ((cfg5.win 2).blk t).view.read (Elt Ideal) (Main.OR2 m d)
      = BodyValue5.bodyOut (((cfg5.win 0).blk t).view.read (Elt Ideal) (Main.Z2 m d))
          (((cfg5.win 1).blk t).view.read (Elt Ideal) (Main.XS2 m d)) := by
  rw [← bodyFn2]
  unfold Main.OR2
  exact Tc2.regionOut_blk _ _ _ _ _ d t

theorem blk3 (m : (ℓ : Loc nD τ sig) → Buf (Elt Ideal) ℓ) (d : Dev nD) (t : Fin cfg7.N) :
    ((cfg7.win 2).blk t).view.read (Elt Ideal) (Main.OR3 m d)
      = BodyValue7.bodyOut (((cfg7.win 0).blk t).view.read (Elt Ideal) (Main.Z3 m d))
          (((cfg7.win 1).blk t).view.read (Elt Ideal) (Main.XS3 m d)) := by
  rw [← bodyFn3]
  unfold Main.OR3
  exact Tc3.regionOut_blk _ _ _ _ _ d t

theorem blk4 (m : (ℓ : Loc nD τ sig) → Buf (Elt Ideal) ℓ) (d : Dev nD) (t : Fin cfg9.N) :
    ((cfg9.win 2).blk t).view.read (Elt Ideal) (Main.OR4 m d)
      = BodyValue9.bodyOut (((cfg9.win 0).blk t).view.read (Elt Ideal) (Main.Z4 m d))
          (((cfg9.win 1).blk t).view.read (Elt Ideal) (Main.XS4 m d)) := by
  rw [← bodyFn4]
  unfold Main.OR4
  exact Tc4.regionOut_blk _ _ _ _ _ d t

-- The result is the five regions' outputs laid end to end; each output is, block by block, the body's value of the gathered rows' block and the table's block.
theorem res_final (m : (ℓ : Loc nD τ sig) → Buf (Elt Ideal) ℓ) (d : Dev nD)
    (hpre : Cert.Pre_input_domain.fn (F := Ideal) (m (xLoc d)) (m (nbLoc d)) = fun _ => 1#1)
    (R : S10000x128.Idx → EReal)
    (hR : ∀ (n : Fin 10000) (k : Fin 128), R (ix2 n k)
      = rRow (fun mm j => (m (xLoc d) : FVec Ideal S10000x128 .f32) (ix2 (nbRow ((m (nbLoc d) : IVec S10000x32 32) (ix2 n mm))) j))
          (fun j => (m (xLoc d) : FVec Ideal S10000x128 .f32) (ix2 n j)) k) :
    Main.ResI (F := Ideal) m d = R := by
  rw [Main.ResI_eq]
  refine ResValue.res_eq_reference_of5 (m (xLoc d)) (m (nbLoc d)) hpre _ _ _ _ _ _ _ _ _ _ _ _ _ _ _
    ?_ ?_ ?_ ?_ ?_ ?_ ?_ ?_ ?_ ?_ (blk0 m d) (blk1 m d) (blk2 m d) (blk3 m d) (blk4 m d) _ R hR
  · exact fun _ => rfl
  · exact fun _ => rfl
  · exact fun _ => rfl
  · exact fun _ => rfl
  · exact fun _ => rfl
  · exact fun q k => Val.slice_rows (m (xLoc d)) 0 slices_S10000x128_S2000x128_0_0 0 rfl q k
  · exact fun q k => Val.slice_rows (m (xLoc d)) 2000 slices_S10000x128_S2000x128_2000_0 1 rfl q k
  · exact fun q k => Val.slice_rows (m (xLoc d)) 4000 slices_S10000x128_S2000x128_4000_0 2 rfl q k
  · exact fun q k => Val.slice_rows (m (xLoc d)) 6000 slices_S10000x128_S2000x128_6000_0 3 rfl q k
  · exact fun q k => Val.slice_rows (m (xLoc d)) 8000 slices_S10000x128_S2000x128_8000_0 4 rfl q k

end Cert.Proof.KI.ResFinal

end
-- ==== Proof.ScObl0.lean ====
import proofs.«212107_g53927609368716_cont_9to1_m_409_29_alg».proof.Proof.Pay

noncomputable section

namespace Cert.Proof.KI.Sc0.Obl

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [Cert.KernelIdeal.Facts]

local notation "𝕄" => MT nD τ sig (HIx 5) (Elt F) ℕ (UU) ℕ

abbrev callIx : Fin 5 := 0
abbrev labIx : Fin 10 := 0

abbrev thr (d : Dev nD) (L : grid0.Coords) : Thread nD τ := V d ((L 0).castLE hcore0) ((L 1).castLE hsub0)
abbrev cOf (L : grid0.Coords) : Fin 2 := Fin.cast (rfl : grid0.bound 0 = 2) (L 0)
abbrev jOf (L : grid0.Coords) : Fin 16 := Fin.cast (rfl : grid0.bound 1 = 16) (L 1)

-- The kernel at grid coordinates `L`, over the call's three arrays and the tile's scratch.
abbrev kern (L : grid0.Coords) := cc0_k (F := F) L (Memref.whole main_arg0_scv) (Memref.isWhole_whole _) (Memref.whole main_v6_scv) (Memref.isWhole_whole _)
  (Memref.whole main_v7_scv) (Memref.isWhole_whole _) (Memref.whole cc0_scratch0) (Memref.isWhole_whole _) (Memref.whole cc0_scratch1) (Memref.isWhole_whole _)
  cc0_scratch2 cc0_scratch3 cc0_scoped0

def TileBody : Prop :=
  ∀ (_ : (K (F := F)).Facts) (d : Dev nD) (L : grid0.Coords) (q : PosShare TreeShare)
    (X : Buf (Elt F) (xLoc d)) (I : Buf (Elt F) (iLoc d)) (_ : IdxOK d I)
    (O : CellTallies nD τ sig (HIx 5)) (W : Waits sig (HIx 5)) (_ : ∀ g, O g none = 0),
    iprop(levAts (K (F := F)).L (K (F := F)).lev ∗ go d q X I (cOf L) (jOf L)
        ∗ scopedBufs (thr d L) ∗ scopedSems0 (thr d L) ∗ owes (thr d L) O W)
      ⊢ wp frame (wpE (defs₀ (F := F)) 𝒱₀ (thr d L) none) Set.univ
          (kern L)
          fun _ => (iprop(td d q X I (cOf L) (jOf L) ∗ scopedBufs (thr d L) ∗ scopedSems0 (thr d L)
            ∗ ∃ W', ⌜∀ p ∈ W', p ∈ W ∨ p.2 = none⌝ ∗ owes (thr d L) O W') : sProp 𝕄)

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) labIx ()
      = SparseCore.onTile hcore0 hsub0 (fun c s => kern (coordsV c s)) ⟨⟩ c s := rfl

-- The tile the launch names by the call's core and subcore maps.
abbrev vt (d : Dev nD) (c : Fin ((K (F := F)).nCore callIx)) (i : Fin ((K (F := F)).nSub callIx)) : Thread nD τ :=
  V d ((K (F := F)).core callIx c) ((K (F := F)).sub callIx i)

-- The launch's tile is the grid's tile at coordinates (core, subcore), where the body is given.
theorem tile_obl (hb : TileBody (F := F)) (hF : (K (F := F)).Facts) (d : Dev nD)
    (c : Fin ((K (F := F)).nCore callIx)) (i : Fin ((K (F := F)).nSub callIx)) (q : PosShare TreeShare)
    (X : Buf (Elt F) (xLoc d)) (I : Buf (Elt F) (iLoc d)) (hI : IdxOK d I)
    (O : CellTallies nD τ sig (HIx 5)) (W : Waits sig (HIx 5)) (hO : ∀ g, O g none = 0) :
    iprop(levAts (K (F := F)).L (K (F := F)).lev ∗ emp ∗ go d q X I (Fin.cast (nCore_eq callIx) c) (Fin.cast (nSub_eq callIx) i)
        ∗ scopedBufs (vt d c i) ∗ scopedSems0 (vt d c i) ∗ owes (vt d c i) O W)
      ⊢ wp frame (wpE (D (F := F)) 𝒱 (vt d c i) (some v₀)) Set.univ
          (D (F := F) (.scVector ((K (F := F)).core callIx c) ((K (F := F)).sub callIx i)) ((K (F := F)).body callIx) ((K (F := F)).args callIx))
          fun _ => (iprop(td d q X I (Fin.cast (nCore_eq callIx) c) (Fin.cast (nSub_eq callIx) i)
            ∗ scopedBufs (vt d c i) ∗ scopedSems0 (vt d c i)
            ∗ ∃ W', ⌜∀ p ∈ W', p ∈ W ∨ p.2 = none ∨ p.2 = some callIx⌝ ∗ owes (vt d c i) O W') : sProp 𝕄) := by
  change _ ⊢ wp _ _ _ (Pipeline.liftProg (defs₀ (F := F) (.scVector ((K (F := F)).core callIx c) ((K (F := F)).sub callIx i)) labIx ())) _
  refine BI.Entails.trans ?_ (Pipeline.wp_liftProg (D (F := F)) (Pipeline.defs_kernel pcfgs defs₀) 𝒱₀ _ Set.univ none _ _)
  have hc : ((K (F := F)).core callIx c).val < grid0.bound 0 ∧ ((K (F := F)).sub callIx i).val < grid0.bound 1 := ⟨c.isLt, i.isLt⟩
  rw [defs₀_vector]; simp only [SparseCore.onTile, hc, and_self, ↓reduceDIte]
  refine BI.Entails.trans ?_ ((hb hF d (coordsV ⟨_, hc.1⟩ ⟨_, hc.2⟩) q X I hI O W hO).trans (wp_mono frame _ _ fun _ => ScWorkers.obl_post))
  show (_ : sProp 𝕄) ⊢ (_ : sProp 𝕄)
  iintro ⟨Hl, -, H⟩
  isplitl [Hl]; · iexact Hl
  iexact H

end Cert.Proof.KI.Sc0.Obl

end
-- ==== Proof.ScObl1.lean ====
import proofs.«212107_g53927609368716_cont_9to1_m_409_29_alg».proof.Proof.Pay

noncomputable section

namespace Cert.Proof.KI.Sc1.Obl

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [Cert.KernelIdeal.Facts]

local notation "𝕄" => MT nD τ sig (HIx 5) (Elt F) ℕ (UU) ℕ

abbrev callIx : Fin 5 := 1
abbrev labIx : Fin 10 := 2

abbrev thr (d : Dev nD) (L : grid2.Coords) : Thread nD τ := V d ((L 0).castLE hcore2) ((L 1).castLE hsub2)
abbrev cOf (L : grid2.Coords) : Fin 2 := Fin.cast (rfl : grid2.bound 0 = 2) (L 0)
abbrev jOf (L : grid2.Coords) : Fin 16 := Fin.cast (rfl : grid2.bound 1 = 16) (L 1)

-- The kernel at grid coordinates `L`, over the call's three arrays and the tile's scratch.
abbrev kern (L : grid2.Coords) := cc2_k (F := F) L (Memref.whole main_arg0_scv) (Memref.isWhole_whole _) (Memref.whole main_v11_scv) (Memref.isWhole_whole _)
  (Memref.whole main_v12_scv) (Memref.isWhole_whole _) (Memref.whole cc2_scratch0) (Memref.isWhole_whole _) (Memref.whole cc2_scratch1) (Memref.isWhole_whole _)
  cc2_scratch2 cc2_scratch3 cc2_scoped0

def TileBody : Prop :=
  ∀ (_ : (K (F := F)).Facts) (d : Dev nD) (L : grid2.Coords) (q : PosShare TreeShare)
    (X : Buf (Elt F) (xLoc d)) (I : Buf (Elt F) (iLoc d)) (_ : IdxOK d I)
    (O : CellTallies nD τ sig (HIx 5)) (W : Waits sig (HIx 5)) (_ : ∀ g, O g none = 0),
    iprop(levAts (K (F := F)).L (K (F := F)).lev ∗ go d q X I (cOf L) (jOf L)
        ∗ scopedBufs (thr d L) ∗ scopedSems0 (thr d L) ∗ owes (thr d L) O W)
      ⊢ wp frame (wpE (defs₀ (F := F)) 𝒱₀ (thr d L) none) Set.univ
          (kern L)
          fun _ => (iprop(td d q X I (cOf L) (jOf L) ∗ scopedBufs (thr d L) ∗ scopedSems0 (thr d L)
            ∗ ∃ W', ⌜∀ p ∈ W', p ∈ W ∨ p.2 = none⌝ ∗ owes (thr d L) O W') : sProp 𝕄)

def coordsV (c : Fin (grid2.bound 0)) (s : Fin (grid2.bound 1)) : grid2.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) labIx ()
      = SparseCore.onTile hcore2 hsub2 (fun c s => kern (coordsV c s)) ⟨⟩ c s := rfl

-- The tile the launch names by the call's core and subcore maps.
abbrev vt (d : Dev nD) (c : Fin ((K (F := F)).nCore callIx)) (i : Fin ((K (F := F)).nSub callIx)) : Thread nD τ :=
  V d ((K (F := F)).core callIx c) ((K (F := F)).sub callIx i)

-- The launch's tile is the grid's tile at coordinates (core, subcore), where the body is given.
theorem tile_obl (hb : TileBody (F := F)) (hF : (K (F := F)).Facts) (d : Dev nD)
    (c : Fin ((K (F := F)).nCore callIx)) (i : Fin ((K (F := F)).nSub callIx)) (q : PosShare TreeShare)
    (X : Buf (Elt F) (xLoc d)) (I : Buf (Elt F) (iLoc d)) (hI : IdxOK d I)
    (O : CellTallies nD τ sig (HIx 5)) (W : Waits sig (HIx 5)) (hO : ∀ g, O g none = 0) :
    iprop(levAts (K (F := F)).L (K (F := F)).lev ∗ emp ∗ go d q X I (Fin.cast (nCore_eq callIx) c) (Fin.cast (nSub_eq callIx) i)
        ∗ scopedBufs (vt d c i) ∗ scopedSems0 (vt d c i) ∗ owes (vt d c i) O W)
      ⊢ wp frame (wpE (D (F := F)) 𝒱 (vt d c i) (some v₀)) Set.univ
          (D (F := F) (.scVector ((K (F := F)).core callIx c) ((K (F := F)).sub callIx i)) ((K (F := F)).body callIx) ((K (F := F)).args callIx))
          fun _ => (iprop(td d q X I (Fin.cast (nCore_eq callIx) c) (Fin.cast (nSub_eq callIx) i)
            ∗ scopedBufs (vt d c i) ∗ scopedSems0 (vt d c i)
            ∗ ∃ W', ⌜∀ p ∈ W', p ∈ W ∨ p.2 = none ∨ p.2 = some callIx⌝ ∗ owes (vt d c i) O W') : sProp 𝕄) := by
  change _ ⊢ wp _ _ _ (Pipeline.liftProg (defs₀ (F := F) (.scVector ((K (F := F)).core callIx c) ((K (F := F)).sub callIx i)) labIx ())) _
  refine BI.Entails.trans ?_ (Pipeline.wp_liftProg (D (F := F)) (Pipeline.defs_kernel pcfgs defs₀) 𝒱₀ _ Set.univ none _ _)
  have hc : ((K (F := F)).core callIx c).val < grid2.bound 0 ∧ ((K (F := F)).sub callIx i).val < grid2.bound 1 := ⟨c.isLt, i.isLt⟩
  rw [defs₀_vector]; simp only [SparseCore.onTile, hc, and_self, ↓reduceDIte]
  refine BI.Entails.trans ?_ ((hb hF d (coordsV ⟨_, hc.1⟩ ⟨_, hc.2⟩) q X I hI O W hO).trans (wp_mono frame _ _ fun _ => ScWorkers.obl_post))
  show (_ : sProp 𝕄) ⊢ (_ : sProp 𝕄)
  iintro ⟨Hl, -, H⟩
  isplitl [Hl]; · iexact Hl
  iexact H

end Cert.Proof.KI.Sc1.Obl

end
-- ==== Proof.ScObl2.lean ====
import proofs.«212107_g53927609368716_cont_9to1_m_409_29_alg».proof.Proof.Pay

noncomputable section

namespace Cert.Proof.KI.Sc2.Obl

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [Cert.KernelIdeal.Facts]

local notation "𝕄" => MT nD τ sig (HIx 5) (Elt F) ℕ (UU) ℕ

abbrev callIx : Fin 5 := 2
abbrev labIx : Fin 10 := 4

abbrev thr (d : Dev nD) (L : grid4.Coords) : Thread nD τ := V d ((L 0).castLE hcore4) ((L 1).castLE hsub4)
abbrev cOf (L : grid4.Coords) : Fin 2 := Fin.cast (rfl : grid4.bound 0 = 2) (L 0)
abbrev jOf (L : grid4.Coords) : Fin 16 := Fin.cast (rfl : grid4.bound 1 = 16) (L 1)

-- The kernel at grid coordinates `L`, over the call's three arrays and the tile's scratch.
abbrev kern (L : grid4.Coords) := cc4_k (F := F) L (Memref.whole main_arg0_scv) (Memref.isWhole_whole _) (Memref.whole main_v16_scv) (Memref.isWhole_whole _)
  (Memref.whole main_v17_scv) (Memref.isWhole_whole _) (Memref.whole cc4_scratch0) (Memref.isWhole_whole _) (Memref.whole cc4_scratch1) (Memref.isWhole_whole _)
  cc4_scratch2 cc4_scratch3 cc4_scoped0

def TileBody : Prop :=
  ∀ (_ : (K (F := F)).Facts) (d : Dev nD) (L : grid4.Coords) (q : PosShare TreeShare)
    (X : Buf (Elt F) (xLoc d)) (I : Buf (Elt F) (iLoc d)) (_ : IdxOK d I)
    (O : CellTallies nD τ sig (HIx 5)) (W : Waits sig (HIx 5)) (_ : ∀ g, O g none = 0),
    iprop(levAts (K (F := F)).L (K (F := F)).lev ∗ go d q X I (cOf L) (jOf L)
        ∗ scopedBufs (thr d L) ∗ scopedSems0 (thr d L) ∗ owes (thr d L) O W)
      ⊢ wp frame (wpE (defs₀ (F := F)) 𝒱₀ (thr d L) none) Set.univ
          (kern L)
          fun _ => (iprop(td d q X I (cOf L) (jOf L) ∗ scopedBufs (thr d L) ∗ scopedSems0 (thr d L)
            ∗ ∃ W', ⌜∀ p ∈ W', p ∈ W ∨ p.2 = none⌝ ∗ owes (thr d L) O W') : sProp 𝕄)

def coordsV (c : Fin (grid4.bound 0)) (s : Fin (grid4.bound 1)) : grid4.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) labIx ()
      = SparseCore.onTile hcore4 hsub4 (fun c s => kern (coordsV c s)) ⟨⟩ c s := rfl

-- The tile the launch names by the call's core and subcore maps.
abbrev vt (d : Dev nD) (c : Fin ((K (F := F)).nCore callIx)) (i : Fin ((K (F := F)).nSub callIx)) : Thread nD τ :=
  V d ((K (F := F)).core callIx c) ((K (F := F)).sub callIx i)

-- The launch's tile is the grid's tile at coordinates (core, subcore), where the body is given.
theorem tile_obl (hb : TileBody (F := F)) (hF : (K (F := F)).Facts) (d : Dev nD)
    (c : Fin ((K (F := F)).nCore callIx)) (i : Fin ((K (F := F)).nSub callIx)) (q : PosShare TreeShare)
    (X : Buf (Elt F) (xLoc d)) (I : Buf (Elt F) (iLoc d)) (hI : IdxOK d I)
    (O : CellTallies nD τ sig (HIx 5)) (W : Waits sig (HIx 5)) (hO : ∀ g, O g none = 0) :
    iprop(levAts (K (F := F)).L (K (F := F)).lev ∗ emp ∗ go d q X I (Fin.cast (nCore_eq callIx) c) (Fin.cast (nSub_eq callIx) i)
        ∗ scopedBufs (vt d c i) ∗ scopedSems0 (vt d c i) ∗ owes (vt d c i) O W)
      ⊢ wp frame (wpE (D (F := F)) 𝒱 (vt d c i) (some v₀)) Set.univ
          (D (F := F) (.scVector ((K (F := F)).core callIx c) ((K (F := F)).sub callIx i)) ((K (F := F)).body callIx) ((K (F := F)).args callIx))
          fun _ => (iprop(td d q X I (Fin.cast (nCore_eq callIx) c) (Fin.cast (nSub_eq callIx) i)
            ∗ scopedBufs (vt d c i) ∗ scopedSems0 (vt d c i)
            ∗ ∃ W', ⌜∀ p ∈ W', p ∈ W ∨ p.2 = none ∨ p.2 = some callIx⌝ ∗ owes (vt d c i) O W') : sProp 𝕄) := by
  change _ ⊢ wp _ _ _ (Pipeline.liftProg (defs₀ (F := F) (.scVector ((K (F := F)).core callIx c) ((K (F := F)).sub callIx i)) labIx ())) _
  refine BI.Entails.trans ?_ (Pipeline.wp_liftProg (D (F := F)) (Pipeline.defs_kernel pcfgs defs₀) 𝒱₀ _ Set.univ none _ _)
  have hc : ((K (F := F)).core callIx c).val < grid4.bound 0 ∧ ((K (F := F)).sub callIx i).val < grid4.bound 1 := ⟨c.isLt, i.isLt⟩
  rw [defs₀_vector]; simp only [SparseCore.onTile, hc, and_self, ↓reduceDIte]
  refine BI.Entails.trans ?_ ((hb hF d (coordsV ⟨_, hc.1⟩ ⟨_, hc.2⟩) q X I hI O W hO).trans (wp_mono frame _ _ fun _ => ScWorkers.obl_post))
  show (_ : sProp 𝕄) ⊢ (_ : sProp 𝕄)
  iintro ⟨Hl, -, H⟩
  isplitl [Hl]; · iexact Hl
  iexact H

end Cert.Proof.KI.Sc2.Obl

end
-- ==== Proof.ScObl3.lean ====
import proofs.«212107_g53927609368716_cont_9to1_m_409_29_alg».proof.Proof.Pay

noncomputable section

namespace Cert.Proof.KI.Sc3.Obl

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [Cert.KernelIdeal.Facts]

local notation "𝕄" => MT nD τ sig (HIx 5) (Elt F) ℕ (UU) ℕ

abbrev callIx : Fin 5 := 3
abbrev labIx : Fin 10 := 6

abbrev thr (d : Dev nD) (L : grid6.Coords) : Thread nD τ := V d ((L 0).castLE hcore6) ((L 1).castLE hsub6)
abbrev cOf (L : grid6.Coords) : Fin 2 := Fin.cast (rfl : grid6.bound 0 = 2) (L 0)
abbrev jOf (L : grid6.Coords) : Fin 16 := Fin.cast (rfl : grid6.bound 1 = 16) (L 1)

-- The kernel at grid coordinates `L`, over the call's three arrays and the tile's scratch.
abbrev kern (L : grid6.Coords) := cc6_k (F := F) L (Memref.whole main_arg0_scv) (Memref.isWhole_whole _) (Memref.whole main_v21_scv) (Memref.isWhole_whole _)
  (Memref.whole main_v22_scv) (Memref.isWhole_whole _) (Memref.whole cc6_scratch0) (Memref.isWhole_whole _) (Memref.whole cc6_scratch1) (Memref.isWhole_whole _)
  cc6_scratch2 cc6_scratch3 cc6_scoped0

def TileBody : Prop :=
  ∀ (_ : (K (F := F)).Facts) (d : Dev nD) (L : grid6.Coords) (q : PosShare TreeShare)
    (X : Buf (Elt F) (xLoc d)) (I : Buf (Elt F) (iLoc d)) (_ : IdxOK d I)
    (O : CellTallies nD τ sig (HIx 5)) (W : Waits sig (HIx 5)) (_ : ∀ g, O g none = 0),
    iprop(levAts (K (F := F)).L (K (F := F)).lev ∗ go d q X I (cOf L) (jOf L)
        ∗ scopedBufs (thr d L) ∗ scopedSems0 (thr d L) ∗ owes (thr d L) O W)
      ⊢ wp frame (wpE (defs₀ (F := F)) 𝒱₀ (thr d L) none) Set.univ
          (kern L)
          fun _ => (iprop(td d q X I (cOf L) (jOf L) ∗ scopedBufs (thr d L) ∗ scopedSems0 (thr d L)
            ∗ ∃ W', ⌜∀ p ∈ W', p ∈ W ∨ p.2 = none⌝ ∗ owes (thr d L) O W') : sProp 𝕄)

def coordsV (c : Fin (grid6.bound 0)) (s : Fin (grid6.bound 1)) : grid6.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) labIx ()
      = SparseCore.onTile hcore6 hsub6 (fun c s => kern (coordsV c s)) ⟨⟩ c s := rfl

-- The tile the launch names by the call's core and subcore maps.
abbrev vt (d : Dev nD) (c : Fin ((K (F := F)).nCore callIx)) (i : Fin ((K (F := F)).nSub callIx)) : Thread nD τ :=
  V d ((K (F := F)).core callIx c) ((K (F := F)).sub callIx i)

-- The launch's tile is the grid's tile at coordinates (core, subcore), where the body is given.
theorem tile_obl (hb : TileBody (F := F)) (hF : (K (F := F)).Facts) (d : Dev nD)
    (c : Fin ((K (F := F)).nCore callIx)) (i : Fin ((K (F := F)).nSub callIx)) (q : PosShare TreeShare)
    (X : Buf (Elt F) (xLoc d)) (I : Buf (Elt F) (iLoc d)) (hI : IdxOK d I)
    (O : CellTallies nD τ sig (HIx 5)) (W : Waits sig (HIx 5)) (hO : ∀ g, O g none = 0) :
    iprop(levAts (K (F := F)).L (K (F := F)).lev ∗ emp ∗ go d q X I (Fin.cast (nCore_eq callIx) c) (Fin.cast (nSub_eq callIx) i)
        ∗ scopedBufs (vt d c i) ∗ scopedSems0 (vt d c i) ∗ owes (vt d c i) O W)
      ⊢ wp frame (wpE (D (F := F)) 𝒱 (vt d c i) (some v₀)) Set.univ
          (D (F := F) (.scVector ((K (F := F)).core callIx c) ((K (F := F)).sub callIx i)) ((K (F := F)).body callIx) ((K (F := F)).args callIx))
          fun _ => (iprop(td d q X I (Fin.cast (nCore_eq callIx) c) (Fin.cast (nSub_eq callIx) i)
            ∗ scopedBufs (vt d c i) ∗ scopedSems0 (vt d c i)
            ∗ ∃ W', ⌜∀ p ∈ W', p ∈ W ∨ p.2 = none ∨ p.2 = some callIx⌝ ∗ owes (vt d c i) O W') : sProp 𝕄) := by
  change _ ⊢ wp _ _ _ (Pipeline.liftProg (defs₀ (F := F) (.scVector ((K (F := F)).core callIx c) ((K (F := F)).sub callIx i)) labIx ())) _
  refine BI.Entails.trans ?_ (Pipeline.wp_liftProg (D (F := F)) (Pipeline.defs_kernel pcfgs defs₀) 𝒱₀ _ Set.univ none _ _)
  have hc : ((K (F := F)).core callIx c).val < grid6.bound 0 ∧ ((K (F := F)).sub callIx i).val < grid6.bound 1 := ⟨c.isLt, i.isLt⟩
  rw [defs₀_vector]; simp only [SparseCore.onTile, hc, and_self, ↓reduceDIte]
  refine BI.Entails.trans ?_ ((hb hF d (coordsV ⟨_, hc.1⟩ ⟨_, hc.2⟩) q X I hI O W hO).trans (wp_mono frame _ _ fun _ => ScWorkers.obl_post))
  show (_ : sProp 𝕄) ⊢ (_ : sProp 𝕄)
  iintro ⟨Hl, -, H⟩
  isplitl [Hl]; · iexact Hl
  iexact H

end Cert.Proof.KI.Sc3.Obl

end
-- ==== Proof.ScObl4.lean ====
import proofs.«212107_g53927609368716_cont_9to1_m_409_29_alg».proof.Proof.Pay

noncomputable section

namespace Cert.Proof.KI.Sc4.Obl

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [Cert.KernelIdeal.Facts]

local notation "𝕄" => MT nD τ sig (HIx 5) (Elt F) ℕ (UU) ℕ

abbrev callIx : Fin 5 := 4
abbrev labIx : Fin 10 := 8

abbrev thr (d : Dev nD) (L : grid8.Coords) : Thread nD τ := V d ((L 0).castLE hcore8) ((L 1).castLE hsub8)
abbrev cOf (L : grid8.Coords) : Fin 2 := Fin.cast (rfl : grid8.bound 0 = 2) (L 0)
abbrev jOf (L : grid8.Coords) : Fin 16 := Fin.cast (rfl : grid8.bound 1 = 16) (L 1)

-- The kernel at grid coordinates `L`, over the call's three arrays and the tile's scratch.
abbrev kern (L : grid8.Coords) := cc8_k (F := F) L (Memref.whole main_arg0_scv) (Memref.isWhole_whole _) (Memref.whole main_v26_scv) (Memref.isWhole_whole _)
  (Memref.whole main_v27_scv) (Memref.isWhole_whole _) (Memref.whole cc8_scratch0) (Memref.isWhole_whole _) (Memref.whole cc8_scratch1) (Memref.isWhole_whole _)
  cc8_scratch2 cc8_scratch3 cc8_scoped0

def TileBody : Prop :=
  ∀ (_ : (K (F := F)).Facts) (d : Dev nD) (L : grid8.Coords) (q : PosShare TreeShare)
    (X : Buf (Elt F) (xLoc d)) (I : Buf (Elt F) (iLoc d)) (_ : IdxOK d I)
    (O : CellTallies nD τ sig (HIx 5)) (W : Waits sig (HIx 5)) (_ : ∀ g, O g none = 0),
    iprop(levAts (K (F := F)).L (K (F := F)).lev ∗ go d q X I (cOf L) (jOf L)
        ∗ scopedBufs (thr d L) ∗ scopedSems0 (thr d L) ∗ owes (thr d L) O W)
      ⊢ wp frame (wpE (defs₀ (F := F)) 𝒱₀ (thr d L) none) Set.univ
          (kern L)
          fun _ => (iprop(td d q X I (cOf L) (jOf L) ∗ scopedBufs (thr d L) ∗ scopedSems0 (thr d L)
            ∗ ∃ W', ⌜∀ p ∈ W', p ∈ W ∨ p.2 = none⌝ ∗ owes (thr d L) O W') : sProp 𝕄)

def coordsV (c : Fin (grid8.bound 0)) (s : Fin (grid8.bound 1)) : grid8.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) labIx ()
      = SparseCore.onTile hcore8 hsub8 (fun c s => kern (coordsV c s)) ⟨⟩ c s := rfl

-- The tile the launch names by the call's core and subcore maps.
abbrev vt (d : Dev nD) (c : Fin ((K (F := F)).nCore callIx)) (i : Fin ((K (F := F)).nSub callIx)) : Thread nD τ :=
  V d ((K (F := F)).core callIx c) ((K (F := F)).sub callIx i)

-- The launch's tile is the grid's tile at coordinates (core, subcore), where the body is given.
theorem tile_obl (hb : TileBody (F := F)) (hF : (K (F := F)).Facts) (d : Dev nD)
    (c : Fin ((K (F := F)).nCore callIx)) (i : Fin ((K (F := F)).nSub callIx)) (q : PosShare TreeShare)
    (X : Buf (Elt F) (xLoc d)) (I : Buf (Elt F) (iLoc d)) (hI : IdxOK d I)
    (O : CellTallies nD τ sig (HIx 5)) (W : Waits sig (HIx 5)) (hO : ∀ g, O g none = 0) :
    iprop(levAts (K (F := F)).L (K (F := F)).lev ∗ emp ∗ go d q X I (Fin.cast (nCore_eq callIx) c) (Fin.cast (nSub_eq callIx) i)
        ∗ scopedBufs (vt d c i) ∗ scopedSems0 (vt d c i) ∗ owes (vt d c i) O W)
      ⊢ wp frame (wpE (D (F := F)) 𝒱 (vt d c i) (some v₀)) Set.univ
          (D (F := F) (.scVector ((K (F := F)).core callIx c) ((K (F := F)).sub callIx i)) ((K (F := F)).body callIx) ((K (F := F)).args callIx))
          fun _ => (iprop(td d q X I (Fin.cast (nCore_eq callIx) c) (Fin.cast (nSub_eq callIx) i)
            ∗ scopedBufs (vt d c i) ∗ scopedSems0 (vt d c i)
            ∗ ∃ W', ⌜∀ p ∈ W', p ∈ W ∨ p.2 = none ∨ p.2 = some callIx⌝ ∗ owes (vt d c i) O W') : sProp 𝕄) := by
  change _ ⊢ wp _ _ _ (Pipeline.liftProg (defs₀ (F := F) (.scVector ((K (F := F)).core callIx c) ((K (F := F)).sub callIx i)) labIx ())) _
  refine BI.Entails.trans ?_ (Pipeline.wp_liftProg (D (F := F)) (Pipeline.defs_kernel pcfgs defs₀) 𝒱₀ _ Set.univ none _ _)
  have hc : ((K (F := F)).core callIx c).val < grid8.bound 0 ∧ ((K (F := F)).sub callIx i).val < grid8.bound 1 := ⟨c.isLt, i.isLt⟩
  rw [defs₀_vector]; simp only [SparseCore.onTile, hc, and_self, ↓reduceDIte]
  refine BI.Entails.trans ?_ ((hb hF d (coordsV ⟨_, hc.1⟩ ⟨_, hc.2⟩) q X I hI O W hO).trans (wp_mono frame _ _ fun _ => ScWorkers.obl_post))
  show (_ : sProp 𝕄) ⊢ (_ : sProp 𝕄)
  iintro ⟨Hl, -, H⟩
  isplitl [Hl]; · iexact Hl
  iexact H

end Cert.Proof.KI.Sc4.Obl

end
-- ==== Proof.Obl.lean ====
import proofs.«212107_g53927609368716_cont_9to1_m_409_29_alg».proof.Proof.ScObl0
import proofs.«212107_g53927609368716_cont_9to1_m_409_29_alg».proof.Proof.ScObl1
import proofs.«212107_g53927609368716_cont_9to1_m_409_29_alg».proof.Proof.ScObl2
import proofs.«212107_g53927609368716_cont_9to1_m_409_29_alg».proof.Proof.ScObl3
import proofs.«212107_g53927609368716_cont_9to1_m_409_29_alg».proof.Proof.ScObl4

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [Cert.KernelIdeal.Facts]

local notation "𝕄" => MT nD τ sig (HIx 5) (Elt F) ℕ (UU) ℕ

variable (m : (ℓ : Loc nD τ sig) → Buf (Elt F) ℓ)
variable (I0 : (d : Dev nD) → Buf (Elt F) (Sc0.iLoc d))
variable (I1 : (d : Dev nD) → Buf (Elt F) (Sc1.iLoc d))
variable (I2 : (d : Dev nD) → Buf (Elt F) (Sc2.iLoc d))
variable (I3 : (d : Dev nD) → Buf (Elt F) (Sc3.iLoc d))
variable (I4 : (d : Dev nD) → Buf (Elt F) (Sc4.iLoc d))

-- Each call's tiles meet the call's own obligation, read at the payloads; the payloads owe nothing of their own.
theorem htile (hb0 : Sc0.Obl.TileBody (F := F)) (hb1 : Sc1.Obl.TileBody (F := F)) (hb2 : Sc2.Obl.TileBody (F := F)) (hb3 : Sc3.Obl.TileBody (F := F)) (hb4 : Sc4.Obl.TileBody (F := F))
    (hF : (K (F := F)).Facts) (hI0 : ∀ d, Sc0.IdxOK d (I0 d)) (hI1 : ∀ d, Sc1.IdxOK d (I1 d)) (hI2 : ∀ d, Sc2.IdxOK d (I2 d)) (hI3 : ∀ d, Sc3.IdxOK d (I3 d)) (hI4 : ∀ d, Sc4.IdxOK d (I4 d)) :
    ∀ q, (K (F := F)).kind q = .scVector → (K (F := F)).TileObl (D (F := F)) 𝒱 (P (F := F) m I0 I1 I2 I3 I4) v₀ q := by
  intro q _ d c i O W hO _ _
  simp only [show (P (F := F) m I0 I1 I2 I3 I4).ox = fun _ _ => 0 from rfl, add_zero]
  match q with
  | 0 => exact Sc0.Obl.tile_obl hb0 hF d c i fullShare (m (xLoc d)) (I0 d) (hI0 d) O W hO
  | 1 => exact Sc1.Obl.tile_obl hb1 hF d c i fullShare (m (xLoc d)) (I1 d) (hI1 d) O W hO
  | 2 => exact Sc2.Obl.tile_obl hb2 hF d c i fullShare (m (xLoc d)) (I2 d) (hI2 d) O W hO
  | 3 => exact Sc3.Obl.tile_obl hb3 hF d c i fullShare (m (xLoc d)) (I3 d) (hI3 d) O W hO
  | 4 => exact Sc4.Obl.tile_obl hb4 hF d c i fullShare (m (xLoc d)) (I4 d) (hI4 d) O W hO

end Cert.Proof.KI

end
-- ==== Proof.ScVal0.lean ====
import proofs.«212107_g53927609368716_cont_9to1_m_409_29_alg».proof.Proof.ScCall0Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«212107_g53927609368716_cont_9to1_m_409_29_alg».proof.Proof.Gen.KernelIdeal.Skeleton

noncomputable section

namespace Cert.Proof.KI.Sc0

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Named F] [Cert.KernelIdeal.Facts]

local notation "𝕄" => MT nD τ sig (HIx 5) (Elt F) ℕ UU ℕ

abbrev callIx : Fin 5 := 0
abbrev labIx : Fin 10 := 0

local notation "sI" => (Memref.whole Cert.KernelIdeal.cc0_scratch0 : Memref Cert.KernelIdeal.sig Kind.scVector Space.vmem Cert.KernelIdeal.S25x80 EltTy.i32)
local notation "sR" => (Memref.whole Cert.KernelIdeal.cc0_scratch1 : Memref Cert.KernelIdeal.sig Kind.scVector Space.vmem Cert.KernelIdeal.S5x80x128 EltTy.f32)
local notation "xM" => (Memref.whole Cert.KernelIdeal.main_arg0_scv : Memref Cert.KernelIdeal.sig Kind.scVector Space.hbm Cert.KernelIdeal.S10000x128 EltTy.f32)
local notation "iM" => (Memref.whole Cert.KernelIdeal.main_v6_scv : Memref Cert.KernelIdeal.sig Kind.scVector Space.hbm Cert.KernelIdeal.S32x25x80 EltTy.i32)
local notation "zM" => (Memref.whole Cert.KernelIdeal.main_v7_scv : Memref Cert.KernelIdeal.sig Kind.scVector Space.hbm Cert.KernelIdeal.S64000x128 EltTy.f32)

variable (d : Dev nD) (L : grid0.Coords)

abbrev prL (L : grid0.Coords) : Proc τ := .scVector ((L 0).castLE hcore0) ((L 1).castLE hsub0)
abbrev thrL (L : grid0.Coords) : Thread nD τ := V d ((L 0).castLE hcore0) ((L 1).castLE hsub0)

abbrev iPl (L : grid0.Coords) : Memref sig .scVector .hbm S25x80 .i32 :=
  ((iM).slice (Rect.unit (s := S32x25x80) (k0_off1 L) S1x25x80.size (k0_off1_inb L)) (fun _ => rfl)).squeeze S25x80 squeezes_S1x25x80_S25x80
abbrev sRow (off : Fin 2 → Nat) (h : ∀ a, off a + S1x80.size a ≤ S25x80.size a) : Memref sig .scVector .vmem S80 .i32 :=
  ((sI).slice (Rect.unit (s := S25x80) off S1x80.size h) (fun _ => rfl)).squeeze S80 squeezes_S1x80_S80
abbrev slotM (off : Fin 3 → Nat) (h : ∀ a, off a + S1x80x128.size a ≤ S5x80x128.size a) : Memref sig .scVector .vmem S80x128 .f32 :=
  ((sR).slice (Rect.unit (s := S5x80x128) off S1x80x128.size h) (fun _ => rfl)).squeeze S80x128 squeezes_S1x80x128_S80x128

abbrev semAt (A : DmaSems sig S5) (o : Fin 1 → Nat) (h : ∀ a, o a + S1.size a ≤ S5.size a) : DmaSem sig :=
  SemArray.sem (SemArray.squeeze (SemArray.slice A (Rect.unit (s := S5) o S1.size h)) S_ squeezes_S1_S_)
abbrev gS0 : DmaSem sig := semAt cc0_scratch2 ![0] inb_S5_S1_0
abbrev gS1 : DmaSem sig := semAt cc0_scratch2 ![1] inb_S5_S1_1
abbrev gS2 : DmaSem sig := semAt cc0_scratch2 ![2] inb_S5_S1_2
abbrev gS3 : DmaSem sig := semAt cc0_scratch2 ![3] inb_S5_S1_3
abbrev gS4 : DmaSem sig := semAt cc0_scratch2 ![4] inb_S5_S1_4
abbrev wS0 : DmaSem sig := semAt cc0_scratch3 ![0] inb_S5_S1_0
abbrev wS1 : DmaSem sig := semAt cc0_scratch3 ![1] inb_S5_S1_1
abbrev wS2 : DmaSem sig := semAt cc0_scratch3 ![2] inb_S5_S1_2
abbrev wS3 : DmaSem sig := semAt cc0_scratch3 ![3] inb_S5_S1_3
abbrev wS4 : DmaSem sig := semAt cc0_scratch3 ![4] inb_S5_S1_4
abbrev cS : DmaSem sig := SemArray.sem cc0_scoped0

abbrev zC (L : grid0.Coords) (t : Fin k0_t1_loop.trips) (r : Fin 5) : Memref sig .scVector .hbm S80x128 .f32 :=
  (zM).slice (Rect.unit (s := S64000x128) (k0_off5 L t (BitVec.ofNat 32 r.val)) S80x128.size (k0_off5_inb L t r)) (fun _ => rfl)

abbrev idxPay (L : grid0.Coords) (I : Buf (Elt F) (iLoc d)) : S25x80.Idx → Elt F .i32 :=
  ReadAs.same.apply ((iPl L).view.read (Elt F) I)

theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)
abbrev wL (L : grid0.Coords) : Fin 32 := wid (cL L) (jL L)

theorem trips_eq : k0_t1_loop.trips = 5 := by decide

theorem set_iPl : (iPl L).view.set = iRows (wL L) := by
  have e : Rect.unit (s := S32x25x80) (k0_off1 L) S1x25x80.size (k0_off1_inb L) = iPart (wL L) := by
    unfold iPart Rect.part Rect.block
    congr 1 <;> funext a <;> (try rw [k0_off1_eq]) <;>
      (match a with
       | 0 | 1 | 2 => simp [Shape.partIx, Shape.partSize, wid])
  show (((iM).view.slice (Rect.unit (s := S32x25x80) (k0_off1 L) S1x25x80.size (k0_off1_inb L))).reshape S25x80 squeezes_S1x25x80_S25x80.numel_eq).set
    = ((iM).view.slice (iPart (wL L))).set
  rw [View.set_reshape]
  exact e ▸ rfl

-- A block of whole rows of `z` is the rows from its first on.
theorem mem_rows {off sz : Fin 2 → Nat} {h : ∀ a, off a + sz a ≤ S64000x128.size a} (y : S64000x128.Idx) {o n : Nat}
    (h0 : off 0 = o) (hn : sz 0 = n) (h1 : off 1 = 0) (h2 : sz 1 = 128) :
    y ∈ ((View.whole main_v7_scv).slice (Rect.unit (s := S64000x128) off sz h)).set ↔ o ≤ (y 0).val ∧ (y 0).val < o + n := by
  have : (y 1).val < 128 := (y 1).isLt
  rw [View.set_slice_whole, Rect.mem_set_unit]
  show (∀ a : Fin 2, off a ≤ (y a).val ∧ (y a).val < off a + sz a) ↔ _
  rw [Fin.forall_fin_two, h0, hn, h1, h2]
  omega

theorem mem_zC (t : Fin k0_t1_loop.trips) (r : Fin 5) (y : S64000x128.Idx) :
    y ∈ (zC L t r).view.set ↔ 4000 * (L 1).val + 2000 * (L 0).val + 400 * t.val + 80 * r.val ≤ (y 0).val
      ∧ (y 0).val < 4000 * (L 1).val + 2000 * (L 0).val + 400 * t.val + 80 * r.val + 80 :=
  mem_rows y (by rw [k0_off5_eq]; rfl) (by rfl) (by rw [k0_off5_eq]; rfl) (by rfl)

theorem mem_zRows (w : Fin 32) (y : S64000x128.Idx) : y ∈ zRows w ↔ w.val * 2000 ≤ (y 0).val ∧ (y 0).val < w.val * 2000 + 2000 :=
  mem_rows y (by rfl) (by rfl) (by rfl) (by rfl)

theorem zC_disjoint : ∀ p ∈ (Finset.univ : Finset (Fin k0_t1_loop.trips × Fin 5)), ∀ p' ∈ (Finset.univ : Finset (Fin k0_t1_loop.trips × Fin 5)),
    p ≠ p' → Disjoint (zC L p.1 p.2).view.set (zC L p'.1 p'.2).view.set := by
  intro p _ p' _ hne
  rw [Finset.disjoint_left]
  intro y hy hy'
  rw [mem_zC] at hy hy'
  have := p.2.isLt
  have := p'.2.isLt
  exact hne (Prod.ext (Fin.ext (by omega)) (Fin.ext (by omega)))

-- The twenty-five chunks of eighty rows tile the worker's two thousand.
theorem zC_cover : (Finset.univ : Finset (Fin k0_t1_loop.trips × Fin 5)).biUnion (fun p => (zC L p.1 p.2).view.set) = zRows (wL L) := by
  ext y
  have hw : (wL L).val = 2 * (L 1).val + (L 0).val := rfl
  have h5 := trips_eq
  rw [Finset.mem_biUnion, mem_zRows]
  constructor
  · rintro ⟨p, -, hp⟩
    rw [mem_zC] at hp
    have := p.1.isLt
    have := p.2.isLt
    omega
  · intro hy
    refine ⟨(⟨((y 0).val - 2000 * (wL L).val) / 400, by omega⟩, ⟨((y 0).val - 2000 * (wL L).val) % 400 / 80, by omega⟩), Finset.mem_univ _, ?_⟩
    rw [mem_zC]
    dsimp only
    omega

abbrev semL : List (SemLoc sig) :=
  [.dma gS0, .dma gS1, .dma gS2, .dma gS3, .dma gS4, .dma wS0, .dma wS1, .dma wS2, .dma wS3, .dma wS4, .dma cS]

theorem semL_nodup : semL.Nodup := by decide
theorem semL_scoped : ∀ sm ∈ semL, sm.isScoped .scVector = true := by decide

theorem ownSems0_split :
    (ownSems0 (thrL d L) : sProp 𝕄)
      = iprop(bigSepL (semL.map fun sm => ((thrL d L, sm) : GSem nD τ sig)) (fun g => semVal g 0)
          ∗ bigSep (ownCells (thrL d L) \ (semL.map fun sm => ((thrL d L, sm) : GSem nD τ sig)).toFinset) fun g => semVal g 0) := by
  unfold SparseCore.Cfg.ownSems0
  have hsub : (semL.map fun sm => ((thrL d L, sm) : GSem nD τ sig)).toFinset ⊆ ownCells (thrL d L) := by
    intro g hg
    obtain ⟨sm, hsm, rfl⟩ := List.mem_map.mp (List.mem_toFinset.mp hg)
    exact mem_ownCells.mpr ⟨rfl, semL_scoped sm hsm⟩
  rw [SparseCore.bigSep_sdiff_split' hsub, bigSep_eq_bigSepL _ (List.Nodup.map (fun a b e => (Prod.mk.inj e).2) semL_nodup)]

theorem ownBufs_split :
    (ownBufs (thrL d L) : sProp 𝕄)
      = iprop((∃ f, (thrL d L).loc cc0_scratch0 ↦{fullShare} f) ∗ (∃ f, (thrL d L).loc cc0_scratch1 ↦{fullShare} f)
          ∗ bigSep (((ownRefs (τ := τ) (prL L)).erase ((prL L).devRef cc0_scratch0)).erase ((prL L).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := prL L) (b := (prL L).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := prL L) (b := (prL L).devRef cc0_scratch1) rfl⟩)]

abbrev tr (n : Nat) (h : n < k0_t1_loop.trips := by decide) : Fin k0_t1_loop.trips := ⟨n, h⟩
abbrev chunkL : List (Fin k0_t1_loop.trips × Fin 5) :=
  [(tr 0, 0), (tr 0, 1), (tr 0, 2), (tr 0, 3), (tr 0, 4), (tr 1, 0), (tr 1, 1), (tr 1, 2), (tr 1, 3), (tr 1, 4), (tr 2, 0), (tr 2, 1), (tr 2, 2), (tr 2, 3), (tr 2, 4), (tr 3, 0), (tr 3, 1), (tr 3, 2), (tr 3, 3), (tr 3, 4), (tr 4, 0), (tr 4, 1), (tr 4, 2), (tr 4, 3), (tr 4, 4)]

theorem zRows_chunks (f : Buf (Elt F) (zLoc d)) :
    (zLoc d ↦[zRows (wL L)]{fullShare} f : sProp 𝕄)
      = bigSepL chunkL fun p => zLoc d ↦[(zC L p.1 p.2).view.set]{fullShare} f := by
  rw [← zC_cover L, pointsTo_biUnion Finset.univ (ℓ := zLoc d) (fun p : Fin k0_t1_loop.trips × Fin 5 => (zC L p.1 p.2).view.set) (zC_disjoint L),
    bigSep_univ_eq_bigSepL chunkL (by decide) (by decide)]

abbrev sW (g : Buf (Elt F) ((thrL d L).loc cc0_scratch0)) (I : Buf (Elt F) (iLoc d)) :=
  (sI).view.writes (Elt F) g [⟨Rect.whole cc0_scratch0.ty.shape, idxPay d L I⟩]
abbrev sRd (I : Buf (Elt F) (iLoc d)) (off : Fin 2 → Nat) (h : ∀ a, off a + S1x80.size a ≤ S25x80.size a)
    (g : Buf (Elt F) ((thrL d L).loc cc0_scratch0)) :=
  (sRow off h).view.read (Elt F) (sW d L g I)

-- After the index copy a row of the index scratch reads the tile's plane of index words, whatever the scratch held.
theorem sRd_eq (I : Buf (Elt F) (iLoc d)) (off : Fin 2 → Nat) (h : ∀ a, off a + S1x80.size a ≤ S25x80.size a)
    (g : Buf (Elt F) ((thrL d L).loc cc0_scratch0)) (y : S80.Idx) :
    sRd d L I off h g y = I ((iPl L).view.emb ((sRow off h).view.emb y)) := by
  have h1 := View.read_writes_cons_emb (v := (sI).view) (f := g) (Rect.whole cc0_scratch0.ty.shape) (idxPay d L I) [] ((sRow off h).view.emb y)
  rw [Rect.emb_whole_apply] at h1
  show (sRow off h).view.read (Elt F) (sW d L g I) y = _
  rw [View.read_apply, cast_eq]
  refine Eq.trans h1 ?_
  show (iPl L).view.read (Elt F) I _ = _
  rw [View.read_apply, cast_eq]

theorem hin_ok (I : Buf (Elt F) (iLoc d)) (hI : IdxOK d I) (g : Buf (Elt F) ((thrL d L).loc cc0_scratch0)) (off : Fin 2 → Nat)
    (h : ∀ a, off a + S1x80.size a ≤ S25x80.size a) (x : S80.Idx) :
    (((sRow off h).view.read (Elt F) ((sI).view.writes (Elt F) g [⟨Rect.whole cc0_scratch0.ty.shape, idxPay d L I⟩])) x).toNat < 10000 := by
  show (sRd d L I off h g x).toNat < 10000
  rw [sRd_eq]
  exact hI _

-- A squeezed unit slice puts the dropped unit axis back at the slice's offset.
theorem iPl_emb (q : S25x80.Idx) : @Eq S32x25x80.Idx ((iPl L).view.emb q) (ix3 (n0 := 32) (n1 := 25) (n2 := 80) (wL L) (q 0) (q 1)) := by
  funext a
  refine Fin.ext ?_
  show k0_off1 L a + 1 * (Shape.reshapeEquiv (s := S1x25x80) (s' := S25x80) squeezes_S1x25x80_S25x80.numel_eq q a).val = _
  rw [Shape.reshapeEquiv_cons_one (n := 2) (d := ![25, 80]), k0_off1_eq]
  match a with
  | ⟨0, _⟩ => rfl
  | ⟨1, _⟩ | ⟨2, _⟩ => exact (Nat.zero_add _).trans (Nat.one_mul _)

theorem sRow_emb (j : Nat) (hj : j < 25) (h : ∀ a, ![j, 0] a + S1x80.size a ≤ S25x80.size a) (y : S80.Idx) :
    @Eq S25x80.Idx ((sRow ![j, 0] h).view.emb y) (ix2 (n0 := 25) (n1 := 80) ⟨j, hj⟩ (y 0)) := by
  funext a
  refine Fin.ext ?_
  show ![j, 0] a + 1 * (Shape.reshapeEquiv (s := S1x80) (s' := S80) squeezes_S1x80_S80.numel_eq y a).val = _
  rw [Shape.reshapeEquiv_cons_one (n := 1) (d := ![80])]
  match a with
  | ⟨0, _⟩ => rfl
  | ⟨1, _⟩ => exact (Nat.zero_add _).trans (Nat.one_mul _)

variable (X : Buf (Elt F) (xLoc d)) (I : Buf (Elt F) (iLoc d))

abbrev xG : Memref sig .scVector .hbm S10000x128 .f32 :=
  (xM).slice (Rect.unit (s := S10000x128) ![0, 0] S10000x128.size inb_S10000x128_S10000x128_0_0) (fun _ => rfl)

theorem emb_xG (i : S10000x128.Idx) : @Eq S10000x128.Idx ((xG).view.emb i) i := by
  funext a
  refine Fin.ext ?_
  match a with
  | ⟨0, _⟩ | ⟨1, _⟩ => exact (Nat.zero_add _).trans (Nat.one_mul _)

-- Row `80 (25 w + 5 t + r) + x₀` of the gathered array is the row of the table that word `(w, 5 t + r, x₀)` names; the
-- chunk's gather reads that word from row `5 t + r` of the index scratch.
theorem chunk_val (hI : IdxOK d I) (t : Fin k0_t1_loop.trips) (r : Fin 5) (off : Fin 2 → Nat)
    (h : ∀ a, off a + S1x80.size a ≤ S25x80.size a) (hoff : off = ![5 * t.val + r.val, 0])
    (g : Buf (Elt F) ((thrL d L).loc cc0_scratch0)) (hn : S80.numel = S80x128.size gathers_S10000x128_S80x128.axis')
    (hin' : ∀ x, (((sRow off h).view.read (Elt F) ((sI).view.writes (Elt F) g [⟨Rect.whole cc0_scratch0.ty.shape, idxPay d L I⟩])) x).toNat < S10000x128.size gathers_S10000x128_S80x128.axis)
    (x : S80x128.Idx) :
    gath d X I ((zC L t r).view.emb x)
      = SparseCore.gatherPayload gathers_S10000x128_S80x128 ((xG).view.read (Elt F) X) (SparseCore.rows ((sRow off h).view.read (Elt F) ((sI).view.writes (Elt F) g [⟨Rect.whole cc0_scratch0.ty.shape, idxPay d L I⟩])) hn hin') x := by
  show _ = SparseCore.gatherPayload gathers_S10000x128_S80x128 ((xG).view.read (Elt F) X) (SparseCore.rows (sRd d L I off h g) hn hin') x
  have ht : t.val < 5 := lt_of_lt_of_eq t.isLt trips_eq
  have hr := r.isLt
  have hx0 : (x 0).val < 80 := (x 0).isLt
  have hw : (wL L).val = 2 * (L 1).val + (L 0).val := rfl
  have e0 : (((zC L t r).view.emb x : S64000x128.Idx) 0).val = 2000 * (wL L).val + 400 * t.val + 80 * r.val + (x 0).val := by
    show k0_off5 L t (BitVec.ofNat 32 r.val) 0 + 1 * (x 0).val = _
    rw [k0_off5_eq]
    simp only [Matrix.cons_val_zero]
    omega
  obtain ⟨k0, k1, k2⟩ := (fun n hn => by omega : ∀ n, n = 2000 * (wL L).val + 400 * t.val + 80 * r.val + (x 0).val →
    n / 2000 = (wL L).val ∧ n / 80 % 25 = 5 * t.val + r.val ∧ n % 80 = (x 0).val) _ e0
  have e1 : (((zC L t r).view.emb x : S64000x128.Idx) 1).val = (x 1).val := by
    show k0_off5 L t (BitVec.ofNat 32 r.val) 1 + 1 * (x 1).val = _
    rw [k0_off5_eq]
    simp only [Matrix.cons_val_one, Matrix.cons_val_zero]
    omega
  have hk := Shape.rowMajor_val_one (S80.rowMajor.symm ((x gathers_S10000x128_S80x128.axis').cast hn.symm))
  rw [Equiv.apply_symm_apply] at hk
  have hy : (S80.rowMajor.symm ((x gathers_S10000x128_S80x128.axis').cast hn.symm)) 0 = x 0 := Fin.ext hk.symm
  have hrow : (gathers_S10000x128_S80x128.idx (SparseCore.rows (sRd d L I off h g) hn hin') x gathers_S10000x128_S80x128.axis).val
      = (I (ix3 (n0 := 32) (n1 := 25) (n2 := 80) (wL L) ⟨5 * t.val + r.val, by omega⟩ (x 0))).toNat := by
    rw [Shape.Gathers.idx_axis]
    unfold SparseCore.rows
    show BitVec.toNat (sRd d L I off h g (S80.rowMajor.symm ((x gathers_S10000x128_S80x128.axis').cast hn.symm))) = _
    subst hoff
    rw [sRd_eq, sRow_emb (5 * t.val + r.val) (by omega), iPl_emb]
    exact congrArg (fun k : Fin 80 => (I (ix3 (n0 := 32) (n1 := 25) (n2 := 80) (wL L) ⟨5 * t.val + r.val, by omega⟩ k)).toNat) hy
  unfold SparseCore.gatherPayload gath
  rw [View.read_apply, cast_eq]
  refine Eq.trans ?_ (congrArg X (emb_xG _)).symm
  refine congrArg X (?_ : @Eq S10000x128.Idx _ _)
  funext a
  refine Fin.ext ?_
  match a with
  | ⟨0, _⟩ =>
    refine Eq.trans ?_ (hrow.trans (Nat.mod_eq_of_lt (hI _)).symm).symm
    show (I _).toNat % 10000 = _
    refine congrArg (fun q : S32x25x80.Idx => (I q).toNat % 10000) (?_ : @Eq S32x25x80.Idx _ _)
    funext b
    refine Fin.ext ?_
    match b with
    | ⟨0, _⟩ => exact k0
    | ⟨1, _⟩ => exact k1
    | ⟨2, _⟩ => exact k2
  | ⟨1, _⟩ => exact e1.trans (Shape.Gathers.idx_of_ne gathers_S10000x128_S80x128 _ x (1 : Fin 2) (by decide)).symm

end Cert.Proof.KI.Sc0

end
-- ==== Proof.ScPre0.lean ====
import proofs.«212107_g53927609368716_cont_9to1_m_409_29_alg».proof.Proof.ScVal0

noncomputable section

namespace Cert.Proof.KI.Sc0

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Named F] [Cert.KernelIdeal.Facts]

local notation "𝕄" => MT nD τ sig (HIx 5) (Elt F) ℕ UU ℕ

local notation "sI" => (Memref.whole Cert.KernelIdeal.cc0_scratch0 : Memref Cert.KernelIdeal.sig Kind.scVector Space.vmem Cert.KernelIdeal.S25x80 EltTy.i32)
local notation "sR" => (Memref.whole Cert.KernelIdeal.cc0_scratch1 : Memref Cert.KernelIdeal.sig Kind.scVector Space.vmem Cert.KernelIdeal.S5x80x128 EltTy.f32)
local notation "xM" => (Memref.whole Cert.KernelIdeal.main_arg0_scv : Memref Cert.KernelIdeal.sig Kind.scVector Space.hbm Cert.KernelIdeal.S10000x128 EltTy.f32)
local notation "iM" => (Memref.whole Cert.KernelIdeal.main_v6_scv : Memref Cert.KernelIdeal.sig Kind.scVector Space.hbm Cert.KernelIdeal.S32x25x80 EltTy.i32)
local notation "zM" => (Memref.whole Cert.KernelIdeal.main_v7_scv : Memref Cert.KernelIdeal.sig Kind.scVector Space.hbm Cert.KernelIdeal.S64000x128 EltTy.f32)

variable (d : Dev nD) (L : grid0.Coords)

abbrev T0 : Fin k0_t1_loop.trips := ⟨0, by decide⟩
abbrev T1 : Fin k0_t1_loop.trips := ⟨1, by decide⟩
abbrev T2 : Fin k0_t1_loop.trips := ⟨2, by decide⟩
abbrev T3 : Fin k0_t1_loop.trips := ⟨3, by decide⟩
abbrev T4 : Fin k0_t1_loop.trips := ⟨4, by decide⟩

abbrev XT (qt : PosShare TreeShare) (X : Buf (Elt F) (xLoc d)) : sProp 𝕄 :=
  bigSepL [(0 : Fin 5), 1, 2, 3, 4] fun b => xLoc d ↦{Transfers.shareTok qt 5 b} X

abbrev ZT (f : Buf (Elt F) (zLoc d)) : sProp 𝕄 :=
  bigSepL chunkL fun p => zLoc d ↦[(zC L p.1 p.2).view.set]{fullShare} f

abbrev ST : sProp 𝕄 := bigSepL (semL.map fun sm => ((thrL d L, sm) : GSem nD τ sig)) (fun g => semVal g 0)

theorem slot_read_write_same (off : Fin 3 → Nat) (h : ∀ a, off a + S1x80x128.size a ≤ S5x80x128.size a)
    (G : Buf (Elt F) ((thrL d L).loc cc0_scratch1)) (P : S80x128.Idx → Elt F .f32) :
    (slotM off h).view.read (Elt F) (View.write (Elt F) (slotM off h).view G P Finset.univ) = P := by
  funext x
  rw [View.read_apply, View.write_emb_of_mem _ _ (Finset.mem_univ x), cast_cast, cast_eq]

theorem slot_disjoint (off off' : Fin 3 → Nat) (h : ∀ a, off a + S1x80x128.size a ≤ S5x80x128.size a)
    (h' : ∀ a, off' a + S1x80x128.size a ≤ S5x80x128.size a) (hne : off 0 ≠ off' 0) :
    Disjoint (slotM off h).view.set (slotM off' h').view.set := by
  show Disjoint (((View.whole cc0_scratch1).slice (Rect.unit (s := S5x80x128) off S1x80x128.size h)).reshape S80x128 squeezes_S1x80x128_S80x128.numel_eq).set
    (((View.whole cc0_scratch1).slice (Rect.unit (s := S5x80x128) off' S1x80x128.size h')).reshape S80x128 squeezes_S1x80x128_S80x128.numel_eq).set
  rw [View.set_reshape, View.set_reshape, View.set_slice_whole, View.set_slice_whole]
  refine Rect.unit_disjoint (0 : Fin 3) ?_
  rcases Nat.lt_or_gt_of_ne hne with hlt | hgt
  · left; show off 0 + 1 ≤ off' 0; omega
  · right; show off' 0 + 1 ≤ off 0; omega

theorem slot_read_write_other (off off' : Fin 3 → Nat) (h : ∀ a, off a + S1x80x128.size a ≤ S5x80x128.size a)
    (h' : ∀ a, off' a + S1x80x128.size a ≤ S5x80x128.size a) (hne : off 0 ≠ off' 0)
    (G : Buf (Elt F) ((thrL d L).loc cc0_scratch1)) (P' : S80x128.Idx → Elt F .f32) :
    (slotM off h).view.read (Elt F) (View.write (Elt F) (slotM off' h').view G P' Finset.univ) = (slotM off h).view.read (Elt F) G := by
  funext x
  rw [View.read_apply, View.read_apply, View.write_of_not_mem]
  rw [View.setOn_univ]
  exact Finset.disjoint_left.mp (slot_disjoint off off' h h' hne) (View.emb_mem_set (slotM off h).view x)

theorem z_fin (X : Buf (Elt F) (xLoc d)) (I : Buf (Elt F) (iLoc d)) (t : Fin k0_t1_loop.trips) (r : Fin 5) (fz : Buf (Elt F) (zLoc d))
    (P : S80x128.Idx → Elt F .f32) (hP : ∀ x, gath d X I ((zC L t r).view.emb x) = P x) :
    ((zC L t r).view.loc (thrL d L) ↦[(zC L t r).view.set]{fullShare} (zC L t r).view.writes (Elt F) fz [⟨Rect.whole S80x128, P⟩] : sProp 𝕄)
      = (zLoc d ↦[(zC L t r).view.set]{fullShare} gath d X I) := by
  refine pointsTo_congr fun y hy => ?_
  obtain ⟨x, -, rfl⟩ := Finset.mem_map.mp hy
  have h1 := View.read_writes_cons_emb (v := (zC L t r).view) (f := fz) (Rect.whole S80x128) P [] x
  rw [Rect.emb_whole_apply, View.read_apply] at h1
  exact ((cast_eq _ _).symm.trans h1).trans (hP x).symm

theorem waits_ok {W W' : Waits sig (HIx 5)} (sm : SemLoc sig) (h : ∀ p ∈ W', p ∈ W ∨ p.2 = none) :
    ∀ p ∈ insert (sm, (default : HIx 5)) W', p ∈ W ∨ p.2 = none := by
  intro p hp
  rcases Finset.mem_insert.mp hp with rfl | hp
  · exact .inr rfl
  · exact h p hp
theorem waits_ok₀ {W : Waits sig (HIx 5)} : ∀ p ∈ W, p ∈ W ∨ p.2 = none := fun _ hp => .inl hp

theorem pts_x (q : PosShare TreeShare) (X : Buf (Elt F) (xLoc d)) :
    (xLoc d ↦{q} X : sProp 𝕄) = ((xM).view.loc (thrL d L) ↦[(xM).view.set]{q} X) := by
  simp only [Memref.view_whole, View.set_whole]
theorem pts_s0 (f : Buf (Elt F) ((thrL d L).loc cc0_scratch0)) :
    ((thrL d L).loc cc0_scratch0 ↦{fullShare} f : sProp 𝕄) = ((sI).view.loc (thrL d L) ↦[(sI).view.set]{fullShare} f) := by
  simp only [Memref.view_whole, View.set_whole]
theorem pts_s1 (f : Buf (Elt F) ((thrL d L).loc cc0_scratch1)) :
    ((thrL d L).loc cc0_scratch1 ↦{fullShare} f : sProp 𝕄) = ((sR).view.loc (thrL d L) ↦[(sR).view.set]{fullShare} f) := by
  simp only [Memref.view_whole, View.set_whole]

end Cert.Proof.KI.Sc0

end
-- ==== Proof.ScTile0.lean ====
import proofs.«212107_g53927609368716_cont_9to1_m_409_29_alg».proof.Proof.ScPre0

noncomputable section

namespace Cert.Proof.KI.Sc0

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Named F] [Cert.KernelIdeal.Facts]

local notation "𝕄" => MT nD τ sig (HIx 5) (Elt F) ℕ UU ℕ

local notation "sI" => (Memref.whole Cert.KernelIdeal.cc0_scratch0 : Memref Cert.KernelIdeal.sig Kind.scVector Space.vmem Cert.KernelIdeal.S25x80 EltTy.i32)
local notation "sR" => (Memref.whole Cert.KernelIdeal.cc0_scratch1 : Memref Cert.KernelIdeal.sig Kind.scVector Space.vmem Cert.KernelIdeal.S5x80x128 EltTy.f32)
local notation "xM" => (Memref.whole Cert.KernelIdeal.main_arg0_scv : Memref Cert.KernelIdeal.sig Kind.scVector Space.hbm Cert.KernelIdeal.S10000x128 EltTy.f32)
local notation "iM" => (Memref.whole Cert.KernelIdeal.main_v6_scv : Memref Cert.KernelIdeal.sig Kind.scVector Space.hbm Cert.KernelIdeal.S32x25x80 EltTy.i32)
local notation "zM" => (Memref.whole Cert.KernelIdeal.main_v7_scv : Memref Cert.KernelIdeal.sig Kind.scVector Space.hbm Cert.KernelIdeal.S64000x128 EltTy.f32)

variable (d : Dev nD) (L : grid0.Coords)

theorem xt_eq (qt : PosShare TreeShare) (X : Buf (Elt F) (xLoc d)) :
    XT d qt X = iprop(((xM).view.loc (thrL d L) ↦[(xM).view.set]{Transfers.shareTok qt 5 0} X) ∗ ((xM).view.loc (thrL d L) ↦[(xM).view.set]{Transfers.shareTok qt 5 1} X) ∗ ((xM).view.loc (thrL d L) ↦[(xM).view.set]{Transfers.shareTok qt 5 2} X) ∗ ((xM).view.loc (thrL d L) ↦[(xM).view.set]{Transfers.shareTok qt 5 3} X) ∗ ((xM).view.loc (thrL d L) ↦[(xM).view.set]{Transfers.shareTok qt 5 4} X)) := by
  simp only [← pts_x d L]; rfl

theorem zt_eq (f : Buf (Elt F) (zLoc d)) :
    ZT d L f = iprop((zLoc d ↦[(zC L T0 0).view.set]{fullShare} f) ∗ (zLoc d ↦[(zC L T0 1).view.set]{fullShare} f) ∗ (zLoc d ↦[(zC L T0 2).view.set]{fullShare} f) ∗ (zLoc d ↦[(zC L T0 3).view.set]{fullShare} f) ∗ (zLoc d ↦[(zC L T0 4).view.set]{fullShare} f) ∗ (zLoc d ↦[(zC L T1 0).view.set]{fullShare} f) ∗ (zLoc d ↦[(zC L T1 1).view.set]{fullShare} f) ∗ (zLoc d ↦[(zC L T1 2).view.set]{fullShare} f) ∗ (zLoc d ↦[(zC L T1 3).view.set]{fullShare} f) ∗ (zLoc d ↦[(zC L T1 4).view.set]{fullShare} f) ∗ (zLoc d ↦[(zC L T2 0).view.set]{fullShare} f) ∗ (zLoc d ↦[(zC L T2 1).view.set]{fullShare} f) ∗ (zLoc d ↦[(zC L T2 2).view.set]{fullShare} f) ∗ (zLoc d ↦[(zC L T2 3).view.set]{fullShare} f) ∗ (zLoc d ↦[(zC L T2 4).view.set]{fullShare} f) ∗ (zLoc d ↦[(zC L T3 0).view.set]{fullShare} f) ∗ (zLoc d ↦[(zC L T3 1).view.set]{fullShare} f) ∗ (zLoc d ↦[(zC L T3 2).view.set]{fullShare} f) ∗ (zLoc d ↦[(zC L T3 3).view.set]{fullShare} f) ∗ (zLoc d ↦[(zC L T3 4).view.set]{fullShare} f) ∗ (zLoc d ↦[(zC L T4 0).view.set]{fullShare} f) ∗ (zLoc d ↦[(zC L T4 1).view.set]{fullShare} f) ∗ (zLoc d ↦[(zC L T4 2).view.set]{fullShare} f) ∗ (zLoc d ↦[(zC L T4 3).view.set]{fullShare} f) ∗ (zLoc d ↦[(zC L T4 4).view.set]{fullShare} f)) := rfl

theorem pts_z (t : Fin k0_t1_loop.trips) (r : Fin 5) (f : Buf (Elt F) (zLoc d)) :
    (zLoc d ↦[(zC L t r).view.set]{fullShare} f : sProp 𝕄) = ((zC L t r).view.loc (thrL d L) ↦[(zC L t r).view.set]{fullShare} f) := rfl

theorem st_eq : (ST d L : sProp 𝕄) = iprop(semVal (thrL d L, SemLoc.dma gS0) 0 ∗ semVal (thrL d L, SemLoc.dma gS1) 0 ∗ semVal (thrL d L, SemLoc.dma gS2) 0 ∗ semVal (thrL d L, SemLoc.dma gS3) 0 ∗ semVal (thrL d L, SemLoc.dma gS4) 0 ∗ semVal (thrL d L, SemLoc.dma wS0) 0 ∗ semVal (thrL d L, SemLoc.dma wS1) 0 ∗ semVal (thrL d L, SemLoc.dma wS2) 0 ∗ semVal (thrL d L, SemLoc.dma wS3) 0 ∗ semVal (thrL d L, SemLoc.dma wS4) 0 ∗ semVal (thrL d L, SemLoc.dma cS) 0) := rfl

set_option maxHeartbeats 16000000 in
theorem tile_run (O : CellTallies nD τ sig (HIx 5)) (W : Waits sig (HIx 5)) (hO : ∀ g, O g none = 0)
    (X : Buf (Elt F) (xLoc d)) (I : Buf (Elt F) (iLoc d)) (hI : IdxOK d I)
    (fs : Buf (Elt F) ((thrL d L).loc cc0_scratch0)) (fr : Buf (Elt F) ((thrL d L).loc cc0_scratch1))
    (fz : Buf (Elt F) (zLoc d)) (qt : PosShare TreeShare) :
    (iprop(levAts (K (F := F)).L (K (F := F)).lev ∗ XT d qt X
        ∗ (iLoc d ↦[(iPl L).view.set]{fullShare} I)
        ∗ ((thrL d L).loc cc0_scratch0 ↦{fullShare} fs) ∗ ((thrL d L).loc cc0_scratch1 ↦{fullShare} fr)
        ∗ ZT d L fz ∗ ST d L ∗ owes (thrL d L) O W) : sProp 𝕄)
      ⊢ wp frame (wpE (defs₀ (F := F)) 𝒱₀ (thrL d L) none) Set.univ
          (cc0_k L xM (Memref.isWhole_whole _) iM (Memref.isWhole_whole _) zM (Memref.isWhole_whole _) sI (Memref.isWhole_whole _) sR (Memref.isWhole_whole _) cc0_scratch2 cc0_scratch3 cc0_scoped0)
          fun _ => iprop(XT d qt X ∗ (iLoc d ↦[(iPl L).view.set]{fullShare} I)
            ∗ (∃ f, (thrL d L).loc cc0_scratch0 ↦{fullShare} f) ∗ (∃ f, (thrL d L).loc cc0_scratch1 ↦{fullShare} f)
            ∗ ZT d L (gath d X I) ∗ ST d L ∗ ∃ W', ⌜∀ p ∈ W', p ∈ W ∨ p.2 = none⌝ ∗ owes (thrL d L) O W') := by
  have hin := hin_ok d L I hI
  simp only [cc0_k_eq_skeleton]; unfold cc0_k_skel
  iintro ⟨#Hlv, HX, Hi, Hs, Hr, HZ, HS, HO⟩
  ihave Hmw := ((K (F := F)).mayWaits_none (thr := thrL d L) hO) $$ Hlv
  ihave ⟨Hz00, Hz01, Hz02, Hz03, Hz04, Hz10, Hz11, Hz12, Hz13, Hz14, Hz20, Hz21, Hz22, Hz23, Hz24, Hz30, Hz31, Hz32, Hz33, Hz34, Hz40, Hz41, Hz42, Hz43, Hz44⟩ := (Entails.of_eq (zt_eq d L fz)) $$ HZ
  ihave ⟨Hg0, Hg1, Hg2, Hg3, Hg4, Hw0, Hw1, Hw2, Hw3, Hw4, Hc⟩ := (Entails.of_eq (st_eq d L)) $$ HS
  ihave ⟨Hx0, Hx1, Hx2, Hx3, Hx4⟩ := (Entails.of_eq (xt_eq d L qt X)) $$ HX
  ihave Hi := (Entails.of_eq (show (iLoc d ↦[(iPl L).view.set]{fullShare} I : sProp 𝕄) = ((iPl L).view.loc (thrL d L) ↦[(iPl L).view.set]{fullShare} I) from rfl)) $$ Hi
  ihave Hs := (Entails.of_eq (pts_s0 d L fs)) $$ Hs
  ihave Hr := (Entails.of_eq (pts_s1 d L fr)) $$ Hr
  ihave Hz00 := (Entails.of_eq (pts_z d L T0 0 fz)) $$ Hz00
  ihave Hz01 := (Entails.of_eq (pts_z d L T0 1 fz)) $$ Hz01
  ihave Hz02 := (Entails.of_eq (pts_z d L T0 2 fz)) $$ Hz02
  ihave Hz03 := (Entails.of_eq (pts_z d L T0 3 fz)) $$ Hz03
  ihave Hz04 := (Entails.of_eq (pts_z d L T0 4 fz)) $$ Hz04
  ihave Hz10 := (Entails.of_eq (pts_z d L T1 0 fz)) $$ Hz10
  ihave Hz11 := (Entails.of_eq (pts_z d L T1 1 fz)) $$ Hz11
  ihave Hz12 := (Entails.of_eq (pts_z d L T1 2 fz)) $$ Hz12
  ihave Hz13 := (Entails.of_eq (pts_z d L T1 3 fz)) $$ Hz13
  ihave Hz14 := (Entails.of_eq (pts_z d L T1 4 fz)) $$ Hz14
  ihave Hz20 := (Entails.of_eq (pts_z d L T2 0 fz)) $$ Hz20
  ihave Hz21 := (Entails.of_eq (pts_z d L T2 1 fz)) $$ Hz21
  ihave Hz22 := (Entails.of_eq (pts_z d L T2 2 fz)) $$ Hz22
  ihave Hz23 := (Entails.of_eq (pts_z d L T2 3 fz)) $$ Hz23
  ihave Hz24 := (Entails.of_eq (pts_z d L T2 4 fz)) $$ Hz24
  ihave Hz30 := (Entails.of_eq (pts_z d L T3 0 fz)) $$ Hz30
  ihave Hz31 := (Entails.of_eq (pts_z d L T3 1 fz)) $$ Hz31
  ihave Hz32 := (Entails.of_eq (pts_z d L T3 2 fz)) $$ Hz32
  ihave Hz33 := (Entails.of_eq (pts_z d L T3 3 fz)) $$ Hz33
  ihave Hz34 := (Entails.of_eq (pts_z d L T3 4 fz)) $$ Hz34
  ihave Hz40 := (Entails.of_eq (pts_z d L T4 0 fz)) $$ Hz40
  ihave Hz41 := (Entails.of_eq (pts_z d L T4 1 fz)) $$ Hz41
  ihave Hz42 := (Entails.of_eq (pts_z d L T4 2 fz)) $$ Hz42
  ihave Hz43 := (Entails.of_eq (pts_z d L T4 3 fz)) $$ Hz43
  ihave Hz44 := (Entails.of_eq (pts_z d L T4 4 fz)) $$ Hz44
  sl_exec
  sl_unroll
  sl_exec
  sl_step
  isplitl [Hx0 Hx1 Hx2 Hx3 Hx4]
  · iapply (Entails.of_eq (xt_eq d L qt X).symm)
    isplitl [Hx0]; · iexact Hx0
    isplitl [Hx1]; · iexact Hx1
    isplitl [Hx2]; · iexact Hx2
    isplitl [Hx3]; · iexact Hx3
    iexact Hx4
  isplitl [Hi]; · iexact Hi
  isplitl [Hs]; · iexists _; iapply (Entails.of_eq (pts_s0 d L _).symm); iexact Hs
  isplitl [Hr]; · iexists _; iapply (Entails.of_eq (pts_s1 d L _).symm); iexact Hr
  isplitr [Hg0 Hg1 Hg2 Hg3 Hg4 Hw0 Hw1 Hw2 Hw3 Hw4 Hc HO]
  · iapply (Entails.of_eq (zt_eq d L (gath d X I)).symm)
    have zf := fun t r P hP => Entails.of_eq (z_fin d L X I t r fz P hP)
    isplitl [Hz00]; iapply (zf T0 0 _ ?_); rotate_left; iexact Hz00
    isplitl [Hz01]; iapply (zf T0 1 _ ?_); rotate_left; iexact Hz01
    isplitl [Hz02]; iapply (zf T0 2 _ ?_); rotate_left; iexact Hz02
    isplitl [Hz03]; iapply (zf T0 3 _ ?_); rotate_left; iexact Hz03
    isplitl [Hz04]; iapply (zf T0 4 _ ?_); rotate_left; iexact Hz04
    isplitl [Hz10]; iapply (zf T1 0 _ ?_); rotate_left; iexact Hz10
    isplitl [Hz11]; iapply (zf T1 1 _ ?_); rotate_left; iexact Hz11
    isplitl [Hz12]; iapply (zf T1 2 _ ?_); rotate_left; iexact Hz12
    isplitl [Hz13]; iapply (zf T1 3 _ ?_); rotate_left; iexact Hz13
    isplitl [Hz14]; iapply (zf T1 4 _ ?_); rotate_left; iexact Hz14
    isplitl [Hz20]; iapply (zf T2 0 _ ?_); rotate_left; iexact Hz20
    isplitl [Hz21]; iapply (zf T2 1 _ ?_); rotate_left; iexact Hz21
    isplitl [Hz22]; iapply (zf T2 2 _ ?_); rotate_left; iexact Hz22
    isplitl [Hz23]; iapply (zf T2 3 _ ?_); rotate_left; iexact Hz23
    isplitl [Hz24]; iapply (zf T2 4 _ ?_); rotate_left; iexact Hz24
    isplitl [Hz30]; iapply (zf T3 0 _ ?_); rotate_left; iexact Hz30
    isplitl [Hz31]; iapply (zf T3 1 _ ?_); rotate_left; iexact Hz31
    isplitl [Hz32]; iapply (zf T3 2 _ ?_); rotate_left; iexact Hz32
    isplitl [Hz33]; iapply (zf T3 3 _ ?_); rotate_left; iexact Hz33
    isplitl [Hz34]; iapply (zf T3 4 _ ?_); rotate_left; iexact Hz34
    isplitl [Hz40]; iapply (zf T4 0 _ ?_); rotate_left; iexact Hz40
    isplitl [Hz41]; iapply (zf T4 1 _ ?_); rotate_left; iexact Hz41
    isplitl [Hz42]; iapply (zf T4 2 _ ?_); rotate_left; iexact Hz42
    isplitl [Hz43]; iapply (zf T4 3 _ ?_); rotate_left; iexact Hz43
    iapply (zf T4 4 _ ?_); rotate_left; iexact Hz44
    all_goals
      intro x
      show _ = View.read (Elt F) (slotM _ _).view _ x
      repeat (first | rw [slot_read_write_same d L] | (rw [slot_read_write_other d L]; on_goal 2 => decide))
      exact chunk_val d L X I hI _ _ _ _ (by first | rfl | (rw [k0_off3_eq]; rfl) | (rw [k0_off7_eq]; rfl) | (rw [k0_off9_eq]; rfl) | (rw [k0_off11_eq]; rfl) | (rw [k0_off13_eq]; rfl) | decide) _ _ _ x
  isplitr [HO]
  · iapply (Entails.of_eq (st_eq d L).symm)
    isplitl [Hg0]; · iexact Hg0
    isplitl [Hg1]; · iexact Hg1
    isplitl [Hg2]; · iexact Hg2
    isplitl [Hg3]; · iexact Hg3
    isplitl [Hg4]; · iexact Hg4
    isplitl [Hw0]; · iexact Hw0
    isplitl [Hw1]; · iexact Hw1
    isplitl [Hw2]; · iexact Hw2
    isplitl [Hw3]; · iexact Hw3
    isplitl [Hw4]; · iexact Hw4
    iexact Hc
  iexists _
  isplitr
  on_goal 2 => iexact HO
  ipureintro
  repeat (first | exact waits_ok₀ | refine waits_ok _ ?_)

end Cert.Proof.KI.Sc0

end
-- ==== Proof.ScBody0.lean ====
import proofs.«212107_g53927609368716_cont_9to1_m_409_29_alg».proof.Proof.ScTile0

noncomputable section

namespace Cert.Proof.KI.Sc0

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Named F] [Cert.KernelIdeal.Facts]

local notation "𝕄" => MT nD τ sig (HIx 5) (Elt F) ℕ UU ℕ

variable (d : Dev nD) (L : grid0.Coords)

-- The tile's run with the rest framed off: its share of the table as five tokens, its rows of the result by chunks.
theorem tile_body (hF : (K (F := F)).Facts) (q : PosShare TreeShare)
    (X : Buf (Elt F) (xLoc d)) (I : Buf (Elt F) (iLoc d)) (hI : IdxOK d I)
    (O : CellTallies nD τ sig (HIx 5)) (W : Waits sig (HIx 5)) (hO : ∀ g, O g none = 0) :
    iprop(levAts (K (F := F)).L (K (F := F)).lev ∗ go d q X I (cL L) (jL L)
        ∗ scopedBufs (thrL d L) ∗ scopedSems0 (thrL d L) ∗ owes (thrL d L) O W)
      ⊢ wp frame (wpE (defs₀ (F := F)) 𝒱₀ (thrL d L) none) Set.univ
          (cc0_k L (Memref.whole main_arg0_scv) (Memref.isWhole_whole _) (Memref.whole main_v6_scv) (Memref.isWhole_whole _) (Memref.whole main_v7_scv) (Memref.isWhole_whole _)
            (Memref.whole cc0_scratch0) (Memref.isWhole_whole _) (Memref.whole cc0_scratch1) (Memref.isWhole_whole _) cc0_scratch2 cc0_scratch3 cc0_scoped0)
          fun _ => iprop(td d q X I (cL L) (jL L) ∗ scopedBufs (thrL d L) ∗ scopedSems0 (thrL d L)
            ∗ ∃ W', ⌜∀ p ∈ W', p ∈ W ∨ p.2 = none⌝ ∗ owes (thrL d L) O W') := by
  unfold go td
  have h : (xLoc d ↦{qTile q (cL L) (jL L)} X : sProp 𝕄) ⊣⊢ _ := Transfers.pointsTo_toks _ 5
  rw [(K (F := F)).scopedBufs_V hF d _ _, SparseCore.Cfg.scopedSems0_V (Val := Elt F) d _ _, ownSems0_split, ownBufs_split,
    ← set_iPl L, zRows_chunks d L (gath d X I), BI.Entails.antisymm h.1 h.2,
    bigSep_univ_eq_bigSepL [(0 : Fin 5), 1, 2, 3, 4] (by decide) (by decide)]
  iintro ⟨#Hlv, ⟨⟨Hxd, Hxt⟩, Hi, %fz, Hz⟩, ⟨⟨%fs, Hs⟩, ⟨%fr, Hr⟩, Hbufs⟩, ⟨Hsems, Hsrest⟩, HO⟩
  ihave Hz := (Entails.of_eq (zRows_chunks d L fz)) $$ Hz
  iapply (wp_wand_r frame _ _)
  isplitl [Hxt Hi Hs Hr Hz Hsems HO]
  · iapply (tile_run d L O W hO X I hI fs fr fz (qTile q (cL L) (jL L)))
    isplitr; · iexact Hlv
    isplitl [Hxt]; · iexact Hxt
    isplitl [Hi]; · iexact Hi
    isplitl [Hs]; · iexact Hs
    isplitl [Hr]; · iexact Hr
    isplitl [Hz]; · iexact Hz
    isplitl [Hsems]; · iexact Hsems
    iexact HO
  iintro %_ ⟨Hxt, Hi, Hs, Hr, Hz, Hsems, HO⟩
  isplitl [Hxd Hxt Hi Hz]
  · isplitl [Hxd Hxt]
    · isplitl [Hxd]; · iexact Hxd
      iexact Hxt
    isplitl [Hi]; · iexact Hi
    iexact Hz
  isplitl [Hs Hr Hbufs]
  · isplitl [Hs]; · iexact Hs
    isplitl [Hr]; · iexact Hr
    iexact Hbufs
  isplitl [Hsems Hsrest]
  · isplitl [Hsems]; · iexact Hsems
    iexact Hsrest
  iexact HO

end Cert.Proof.KI.Sc0

end
-- ==== Proof.ScVal1.lean ====
import proofs.«212107_g53927609368716_cont_9to1_m_409_29_alg».proof.Proof.ScCall1Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«212107_g53927609368716_cont_9to1_m_409_29_alg».proof.Proof.Gen.KernelIdeal.Skeleton

noncomputable section

namespace Cert.Proof.KI.Sc1

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Named F] [Cert.KernelIdeal.Facts]

local notation "𝕄" => MT nD τ sig (HIx 5) (Elt F) ℕ UU ℕ

abbrev callIx : Fin 5 := 1
abbrev labIx : Fin 10 := 2

local notation "sI" => (Memref.whole Cert.KernelIdeal.cc2_scratch0 : Memref Cert.KernelIdeal.sig Kind.scVector Space.vmem Cert.KernelIdeal.S25x80 EltTy.i32)
local notation "sR" => (Memref.whole Cert.KernelIdeal.cc2_scratch1 : Memref Cert.KernelIdeal.sig Kind.scVector Space.vmem Cert.KernelIdeal.S5x80x128 EltTy.f32)
local notation "xM" => (Memref.whole Cert.KernelIdeal.main_arg0_scv : Memref Cert.KernelIdeal.sig Kind.scVector Space.hbm Cert.KernelIdeal.S10000x128 EltTy.f32)
local notation "iM" => (Memref.whole Cert.KernelIdeal.main_v11_scv : Memref Cert.KernelIdeal.sig Kind.scVector Space.hbm Cert.KernelIdeal.S32x25x80 EltTy.i32)
local notation "zM" => (Memref.whole Cert.KernelIdeal.main_v12_scv : Memref Cert.KernelIdeal.sig Kind.scVector Space.hbm Cert.KernelIdeal.S64000x128 EltTy.f32)

variable (d : Dev nD) (L : grid2.Coords)

abbrev prL (L : grid2.Coords) : Proc τ := .scVector ((L 0).castLE hcore2) ((L 1).castLE hsub2)
abbrev thrL (L : grid2.Coords) : Thread nD τ := V d ((L 0).castLE hcore2) ((L 1).castLE hsub2)

abbrev iPl (L : grid2.Coords) : Memref sig .scVector .hbm S25x80 .i32 :=
  ((iM).slice (Rect.unit (s := S32x25x80) (k2_off1 L) S1x25x80.size (k2_off1_inb L)) (fun _ => rfl)).squeeze S25x80 squeezes_S1x25x80_S25x80
abbrev sRow (off : Fin 2 → Nat) (h : ∀ a, off a + S1x80.size a ≤ S25x80.size a) : Memref sig .scVector .vmem S80 .i32 :=
  ((sI).slice (Rect.unit (s := S25x80) off S1x80.size h) (fun _ => rfl)).squeeze S80 squeezes_S1x80_S80
abbrev slotM (off : Fin 3 → Nat) (h : ∀ a, off a + S1x80x128.size a ≤ S5x80x128.size a) : Memref sig .scVector .vmem S80x128 .f32 :=
  ((sR).slice (Rect.unit (s := S5x80x128) off S1x80x128.size h) (fun _ => rfl)).squeeze S80x128 squeezes_S1x80x128_S80x128

abbrev semAt (A : DmaSems sig S5) (o : Fin 1 → Nat) (h : ∀ a, o a + S1.size a ≤ S5.size a) : DmaSem sig :=
  SemArray.sem (SemArray.squeeze (SemArray.slice A (Rect.unit (s := S5) o S1.size h)) S_ squeezes_S1_S_)
abbrev gS0 : DmaSem sig := semAt cc2_scratch2 ![0] inb_S5_S1_0
abbrev gS1 : DmaSem sig := semAt cc2_scratch2 ![1] inb_S5_S1_1
abbrev gS2 : DmaSem sig := semAt cc2_scratch2 ![2] inb_S5_S1_2
abbrev gS3 : DmaSem sig := semAt cc2_scratch2 ![3] inb_S5_S1_3
abbrev gS4 : DmaSem sig := semAt cc2_scratch2 ![4] inb_S5_S1_4
abbrev wS0 : DmaSem sig := semAt cc2_scratch3 ![0] inb_S5_S1_0
abbrev wS1 : DmaSem sig := semAt cc2_scratch3 ![1] inb_S5_S1_1
abbrev wS2 : DmaSem sig := semAt cc2_scratch3 ![2] inb_S5_S1_2
abbrev wS3 : DmaSem sig := semAt cc2_scratch3 ![3] inb_S5_S1_3
abbrev wS4 : DmaSem sig := semAt cc2_scratch3 ![4] inb_S5_S1_4
abbrev cS : DmaSem sig := SemArray.sem cc2_scoped0

abbrev zC (L : grid2.Coords) (t : Fin k2_t1_loop.trips) (r : Fin 5) : Memref sig .scVector .hbm S80x128 .f32 :=
  (zM).slice (Rect.unit (s := S64000x128) (k2_off5 L t (BitVec.ofNat 32 r.val)) S80x128.size (k2_off5_inb L t r)) (fun _ => rfl)

abbrev idxPay (L : grid2.Coords) (I : Buf (Elt F) (iLoc d)) : S25x80.Idx → Elt F .i32 :=
  ReadAs.same.apply ((iPl L).view.read (Elt F) I)

theorem bound_zero : grid2.bound 0 = 2 := rfl
theorem bound_one : grid2.bound 1 = 16 := rfl
abbrev cL (L : grid2.Coords) : Fin 2 := Fin.cast bound_zero (L 0)
abbrev jL (L : grid2.Coords) : Fin 16 := Fin.cast bound_one (L 1)
abbrev wL (L : grid2.Coords) : Fin 32 := wid (cL L) (jL L)

theorem trips_eq : k2_t1_loop.trips = 5 := by decide

theorem set_iPl : (iPl L).view.set = iRows (wL L) := by
  have e : Rect.unit (s := S32x25x80) (k2_off1 L) S1x25x80.size (k2_off1_inb L) = iPart (wL L) := by
    unfold iPart Rect.part Rect.block
    congr 1 <;> funext a <;> (try rw [k2_off1_eq]) <;>
      (match a with
       | 0 | 1 | 2 => simp [Shape.partIx, Shape.partSize, wid])
  show (((iM).view.slice (Rect.unit (s := S32x25x80) (k2_off1 L) S1x25x80.size (k2_off1_inb L))).reshape S25x80 squeezes_S1x25x80_S25x80.numel_eq).set
    = ((iM).view.slice (iPart (wL L))).set
  rw [View.set_reshape]
  exact e ▸ rfl

-- A block of whole rows of `z` is the rows from its first on.
theorem mem_rows {off sz : Fin 2 → Nat} {h : ∀ a, off a + sz a ≤ S64000x128.size a} (y : S64000x128.Idx) {o n : Nat}
    (h0 : off 0 = o) (hn : sz 0 = n) (h1 : off 1 = 0) (h2 : sz 1 = 128) :
    y ∈ ((View.whole main_v12_scv).slice (Rect.unit (s := S64000x128) off sz h)).set ↔ o ≤ (y 0).val ∧ (y 0).val < o + n := by
  have : (y 1).val < 128 := (y 1).isLt
  rw [View.set_slice_whole, Rect.mem_set_unit]
  show (∀ a : Fin 2, off a ≤ (y a).val ∧ (y a).val < off a + sz a) ↔ _
  rw [Fin.forall_fin_two, h0, hn, h1, h2]
  omega

theorem mem_zC (t : Fin k2_t1_loop.trips) (r : Fin 5) (y : S64000x128.Idx) :
    y ∈ (zC L t r).view.set ↔ 4000 * (L 1).val + 2000 * (L 0).val + 400 * t.val + 80 * r.val ≤ (y 0).val
      ∧ (y 0).val < 4000 * (L 1).val + 2000 * (L 0).val + 400 * t.val + 80 * r.val + 80 :=
  mem_rows y (by rw [k2_off5_eq]; rfl) (by rfl) (by rw [k2_off5_eq]; rfl) (by rfl)

theorem mem_zRows (w : Fin 32) (y : S64000x128.Idx) : y ∈ zRows w ↔ w.val * 2000 ≤ (y 0).val ∧ (y 0).val < w.val * 2000 + 2000 :=
  mem_rows y (by rfl) (by rfl) (by rfl) (by rfl)

theorem zC_disjoint : ∀ p ∈ (Finset.univ : Finset (Fin k2_t1_loop.trips × Fin 5)), ∀ p' ∈ (Finset.univ : Finset (Fin k2_t1_loop.trips × Fin 5)),
    p ≠ p' → Disjoint (zC L p.1 p.2).view.set (zC L p'.1 p'.2).view.set := by
  intro p _ p' _ hne
  rw [Finset.disjoint_left]
  intro y hy hy'
  rw [mem_zC] at hy hy'
  have := p.2.isLt
  have := p'.2.isLt
  exact hne (Prod.ext (Fin.ext (by omega)) (Fin.ext (by omega)))

-- The twenty-five chunks of eighty rows tile the worker's two thousand.
theorem zC_cover : (Finset.univ : Finset (Fin k2_t1_loop.trips × Fin 5)).biUnion (fun p => (zC L p.1 p.2).view.set) = zRows (wL L) := by
  ext y
  have hw : (wL L).val = 2 * (L 1).val + (L 0).val := rfl
  have h5 := trips_eq
  rw [Finset.mem_biUnion, mem_zRows]
  constructor
  · rintro ⟨p, -, hp⟩
    rw [mem_zC] at hp
    have := p.1.isLt
    have := p.2.isLt
    omega
  · intro hy
    refine ⟨(⟨((y 0).val - 2000 * (wL L).val) / 400, by omega⟩, ⟨((y 0).val - 2000 * (wL L).val) % 400 / 80, by omega⟩), Finset.mem_univ _, ?_⟩
    rw [mem_zC]
    dsimp only
    omega

abbrev semL : List (SemLoc sig) :=
  [.dma gS0, .dma gS1, .dma gS2, .dma gS3, .dma gS4, .dma wS0, .dma wS1, .dma wS2, .dma wS3, .dma wS4, .dma cS]

theorem semL_nodup : semL.Nodup := by decide
theorem semL_scoped : ∀ sm ∈ semL, sm.isScoped .scVector = true := by decide

theorem ownSems0_split :
    (ownSems0 (thrL d L) : sProp 𝕄)
      = iprop(bigSepL (semL.map fun sm => ((thrL d L, sm) : GSem nD τ sig)) (fun g => semVal g 0)
          ∗ bigSep (ownCells (thrL d L) \ (semL.map fun sm => ((thrL d L, sm) : GSem nD τ sig)).toFinset) fun g => semVal g 0) := by
  unfold SparseCore.Cfg.ownSems0
  have hsub : (semL.map fun sm => ((thrL d L, sm) : GSem nD τ sig)).toFinset ⊆ ownCells (thrL d L) := by
    intro g hg
    obtain ⟨sm, hsm, rfl⟩ := List.mem_map.mp (List.mem_toFinset.mp hg)
    exact mem_ownCells.mpr ⟨rfl, semL_scoped sm hsm⟩
  rw [SparseCore.bigSep_sdiff_split' hsub, bigSep_eq_bigSepL _ (List.Nodup.map (fun a b e => (Prod.mk.inj e).2) semL_nodup)]

theorem ownBufs_split :
    (ownBufs (thrL d L) : sProp 𝕄)
      = iprop((∃ f, (thrL d L).loc cc2_scratch0 ↦{fullShare} f) ∗ (∃ f, (thrL d L).loc cc2_scratch1 ↦{fullShare} f)
          ∗ bigSep (((ownRefs (τ := τ) (prL L)).erase ((prL L).devRef cc2_scratch0)).erase ((prL L).devRef cc2_scratch1))
              fun b => iprop(∃ f, ((d, b) : Loc nD τ sig) ↦{fullShare} f)) := by
  unfold SparseCore.Cfg.ownBufs
  refine (SparseCore.bigSep_erase' (SparseCore.Cfg.mem_ownRefs_of_owner (p := prL L) (b := (prL L).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := prL L) (b := (prL L).devRef cc2_scratch1) rfl⟩)]

abbrev tr (n : Nat) (h : n < k2_t1_loop.trips := by decide) : Fin k2_t1_loop.trips := ⟨n, h⟩
abbrev chunkL : List (Fin k2_t1_loop.trips × Fin 5) :=
  [(tr 0, 0), (tr 0, 1), (tr 0, 2), (tr 0, 3), (tr 0, 4), (tr 1, 0), (tr 1, 1), (tr 1, 2), (tr 1, 3), (tr 1, 4), (tr 2, 0), (tr 2, 1), (tr 2, 2), (tr 2, 3), (tr 2, 4), (tr 3, 0), (tr 3, 1), (tr 3, 2), (tr 3, 3), (tr 3, 4), (tr 4, 0), (tr 4, 1), (tr 4, 2), (tr 4, 3), (tr 4, 4)]

theorem zRows_chunks (f : Buf (Elt F) (zLoc d)) :
    (zLoc d ↦[zRows (wL L)]{fullShare} f : sProp 𝕄)
      = bigSepL chunkL fun p => zLoc d ↦[(zC L p.1 p.2).view.set]{fullShare} f := by
  rw [← zC_cover L, pointsTo_biUnion Finset.univ (ℓ := zLoc d) (fun p : Fin k2_t1_loop.trips × Fin 5 => (zC L p.1 p.2).view.set) (zC_disjoint L),
    bigSep_univ_eq_bigSepL chunkL (by decide) (by decide)]

abbrev sW (g : Buf (Elt F) ((thrL d L).loc cc2_scratch0)) (I : Buf (Elt F) (iLoc d)) :=
  (sI).view.writes (Elt F) g [⟨Rect.whole cc2_scratch0.ty.shape, idxPay d L I⟩]
abbrev sRd (I : Buf (Elt F) (iLoc d)) (off : Fin 2 → Nat) (h : ∀ a, off a + S1x80.size a ≤ S25x80.size a)
    (g : Buf (Elt F) ((thrL d L).loc cc2_scratch0)) :=
  (sRow off h).view.read (Elt F) (sW d L g I)

-- After the index copy a row of the index scratch reads the tile's plane of index words, whatever the scratch held.
theorem sRd_eq (I : Buf (Elt F) (iLoc d)) (off : Fin 2 → Nat) (h : ∀ a, off a + S1x80.size a ≤ S25x80.size a)
    (g : Buf (Elt F) ((thrL d L).loc cc2_scratch0)) (y : S80.Idx) :
    sRd d L I off h g y = I ((iPl L).view.emb ((sRow off h).view.emb y)) := by
  have h1 := View.read_writes_cons_emb (v := (sI).view) (f := g) (Rect.whole cc2_scratch0.ty.shape) (idxPay d L I) [] ((sRow off h).view.emb y)
  rw [Rect.emb_whole_apply] at h1
  show (sRow off h).view.read (Elt F) (sW d L g I) y = _
  rw [View.read_apply, cast_eq]
  refine Eq.trans h1 ?_
  show (iPl L).view.read (Elt F) I _ = _
  rw [View.read_apply, cast_eq]

theorem hin_ok (I : Buf (Elt F) (iLoc d)) (hI : IdxOK d I) (g : Buf (Elt F) ((thrL d L).loc cc2_scratch0)) (off : Fin 2 → Nat)
    (h : ∀ a, off a + S1x80.size a ≤ S25x80.size a) (x : S80.Idx) :
    (((sRow off h).view.read (Elt F) ((sI).view.writes (Elt F) g [⟨Rect.whole cc2_scratch0.ty.shape, idxPay d L I⟩])) x).toNat < 10000 := by
  show (sRd d L I off h g x).toNat < 10000
  rw [sRd_eq]
  exact hI _

-- A squeezed unit slice puts the dropped unit axis back at the slice's offset.
theorem iPl_emb (q : S25x80.Idx) : @Eq S32x25x80.Idx ((iPl L).view.emb q) (ix3 (n0 := 32) (n1 := 25) (n2 := 80) (wL L) (q 0) (q 1)) := by
  funext a
  refine Fin.ext ?_
  show k2_off1 L a + 1 * (Shape.reshapeEquiv (s := S1x25x80) (s' := S25x80) squeezes_S1x25x80_S25x80.numel_eq q a).val = _
  rw [Shape.reshapeEquiv_cons_one (n := 2) (d := ![25, 80]), k2_off1_eq]
  match a with
  | ⟨0, _⟩ => rfl
  | ⟨1, _⟩ | ⟨2, _⟩ => exact (Nat.zero_add _).trans (Nat.one_mul _)

theorem sRow_emb (j : Nat) (hj : j < 25) (h : ∀ a, ![j, 0] a + S1x80.size a ≤ S25x80.size a) (y : S80.Idx) :
    @Eq S25x80.Idx ((sRow ![j, 0] h).view.emb y) (ix2 (n0 := 25) (n1 := 80) ⟨j, hj⟩ (y 0)) := by
  funext a
  refine Fin.ext ?_
  show ![j, 0] a + 1 * (Shape.reshapeEquiv (s := S1x80) (s' := S80) squeezes_S1x80_S80.numel_eq y a).val = _
  rw [Shape.reshapeEquiv_cons_one (n := 1) (d := ![80])]
  match a with
  | ⟨0, _⟩ => rfl
  | ⟨1, _⟩ => exact (Nat.zero_add _).trans (Nat.one_mul _)

variable (X : Buf (Elt F) (xLoc d)) (I : Buf (Elt F) (iLoc d))

abbrev xG : Memref sig .scVector .hbm S10000x128 .f32 :=
  (xM).slice (Rect.unit (s := S10000x128) ![0, 0] S10000x128.size inb_S10000x128_S10000x128_0_0) (fun _ => rfl)

theorem emb_xG (i : S10000x128.Idx) : @Eq S10000x128.Idx ((xG).view.emb i) i := by
  funext a
  refine Fin.ext ?_
  match a with
  | ⟨0, _⟩ | ⟨1, _⟩ => exact (Nat.zero_add _).trans (Nat.one_mul _)

-- Row `80 (25 w + 5 t + r) + x₀` of the gathered array is the row of the table that word `(w, 5 t + r, x₀)` names; the
-- chunk's gather reads that word from row `5 t + r` of the index scratch.
theorem chunk_val (hI : IdxOK d I) (t : Fin k2_t1_loop.trips) (r : Fin 5) (off : Fin 2 → Nat)
    (h : ∀ a, off a + S1x80.size a ≤ S25x80.size a) (hoff : off = ![5 * t.val + r.val, 0])
    (g : Buf (Elt F) ((thrL d L).loc cc2_scratch0)) (hn : S80.numel = S80x128.size gathers_S10000x128_S80x128.axis')
    (hin' : ∀ x, (((sRow off h).view.read (Elt F) ((sI).view.writes (Elt F) g [⟨Rect.whole cc2_scratch0.ty.shape, idxPay d L I⟩])) x).toNat < S10000x128.size gathers_S10000x128_S80x128.axis)
    (x : S80x128.Idx) :
    gath d X I ((zC L t r).view.emb x)
      = SparseCore.gatherPayload gathers_S10000x128_S80x128 ((xG).view.read (Elt F) X) (SparseCore.rows ((sRow off h).view.read (Elt F) ((sI).view.writes (Elt F) g [⟨Rect.whole cc2_scratch0.ty.shape, idxPay d L I⟩])) hn hin') x := by
  show _ = SparseCore.gatherPayload gathers_S10000x128_S80x128 ((xG).view.read (Elt F) X) (SparseCore.rows (sRd d L I off h g) hn hin') x
  have ht : t.val < 5 := lt_of_lt_of_eq t.isLt trips_eq
  have hr := r.isLt
  have hx0 : (x 0).val < 80 := (x 0).isLt
  have hw : (wL L).val = 2 * (L 1).val + (L 0).val := rfl
  have e0 : (((zC L t r).view.emb x : S64000x128.Idx) 0).val = 2000 * (wL L).val + 400 * t.val + 80 * r.val + (x 0).val := by
    show k2_off5 L t (BitVec.ofNat 32 r.val) 0 + 1 * (x 0).val = _
    rw [k2_off5_eq]
    simp only [Matrix.cons_val_zero]
    omega
  obtain ⟨k0, k1, k2⟩ := (fun n hn => by omega : ∀ n, n = 2000 * (wL L).val + 400 * t.val + 80 * r.val + (x 0).val →
    n / 2000 = (wL L).val ∧ n / 80 % 25 = 5 * t.val + r.val ∧ n % 80 = (x 0).val) _ e0
  have e1 : (((zC L t r).view.emb x : S64000x128.Idx) 1).val = (x 1).val := by
    show k2_off5 L t (BitVec.ofNat 32 r.val) 1 + 1 * (x 1).val = _
    rw [k2_off5_eq]
    simp only [Matrix.cons_val_one, Matrix.cons_val_zero]
    omega
  have hk := Shape.rowMajor_val_one (S80.rowMajor.symm ((x gathers_S10000x128_S80x128.axis').cast hn.symm))
  rw [Equiv.apply_symm_apply] at hk
  have hy : (S80.rowMajor.symm ((x gathers_S10000x128_S80x128.axis').cast hn.symm)) 0 = x 0 := Fin.ext hk.symm
  have hrow : (gathers_S10000x128_S80x128.idx (SparseCore.rows (sRd d L I off h g) hn hin') x gathers_S10000x128_S80x128.axis).val
      = (I (ix3 (n0 := 32) (n1 := 25) (n2 := 80) (wL L) ⟨5 * t.val + r.val, by omega⟩ (x 0))).toNat := by
    rw [Shape.Gathers.idx_axis]
    unfold SparseCore.rows
    show BitVec.toNat (sRd d L I off h g (S80.rowMajor.symm ((x gathers_S10000x128_S80x128.axis').cast hn.symm))) = _
    subst hoff
    rw [sRd_eq, sRow_emb (5 * t.val + r.val) (by omega), iPl_emb]
    exact congrArg (fun k : Fin 80 => (I (ix3 (n0 := 32) (n1 := 25) (n2 := 80) (wL L) ⟨5 * t.val + r.val, by omega⟩ k)).toNat) hy
  unfold SparseCore.gatherPayload gath
  rw [View.read_apply, cast_eq]
  refine Eq.trans ?_ (congrArg X (emb_xG _)).symm
  refine congrArg X (?_ : @Eq S10000x128.Idx _ _)
  funext a
  refine Fin.ext ?_
  match a with
  | ⟨0, _⟩ =>
    refine Eq.trans ?_ (hrow.trans (Nat.mod_eq_of_lt (hI _)).symm).symm
    show (I _).toNat % 10000 = _
    refine congrArg (fun q : S32x25x80.Idx => (I q).toNat % 10000) (?_ : @Eq S32x25x80.Idx _ _)
    funext b
    refine Fin.ext ?_
    match b with
    | ⟨0, _⟩ => exact k0
    | ⟨1, _⟩ => exact k1
    | ⟨2, _⟩ => exact k2
  | ⟨1, _⟩ => exact e1.trans (Shape.Gathers.idx_of_ne gathers_S10000x128_S80x128 _ x (1 : Fin 2) (by decide)).symm

end Cert.Proof.KI.Sc1

end
-- ==== Proof.ScPre1.lean ====
import proofs.«212107_g53927609368716_cont_9to1_m_409_29_alg».proof.Proof.ScVal1

noncomputable section

namespace Cert.Proof.KI.Sc1

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Named F] [Cert.KernelIdeal.Facts]

local notation "𝕄" => MT nD τ sig (HIx 5) (Elt F) ℕ UU ℕ

local notation "sI" => (Memref.whole Cert.KernelIdeal.cc2_scratch0 : Memref Cert.KernelIdeal.sig Kind.scVector Space.vmem Cert.KernelIdeal.S25x80 EltTy.i32)
local notation "sR" => (Memref.whole Cert.KernelIdeal.cc2_scratch1 : Memref Cert.KernelIdeal.sig Kind.scVector Space.vmem Cert.KernelIdeal.S5x80x128 EltTy.f32)
local notation "xM" => (Memref.whole Cert.KernelIdeal.main_arg0_scv : Memref Cert.KernelIdeal.sig Kind.scVector Space.hbm Cert.KernelIdeal.S10000x128 EltTy.f32)
local notation "iM" => (Memref.whole Cert.KernelIdeal.main_v11_scv : Memref Cert.KernelIdeal.sig Kind.scVector Space.hbm Cert.KernelIdeal.S32x25x80 EltTy.i32)
local notation "zM" => (Memref.whole Cert.KernelIdeal.main_v12_scv : Memref Cert.KernelIdeal.sig Kind.scVector Space.hbm Cert.KernelIdeal.S64000x128 EltTy.f32)

variable (d : Dev nD) (L : grid2.Coords)

abbrev T0 : Fin k2_t1_loop.trips := ⟨0, by decide⟩
abbrev T1 : Fin k2_t1_loop.trips := ⟨1, by decide⟩
abbrev T2 : Fin k2_t1_loop.trips := ⟨2, by decide⟩
abbrev T3 : Fin k2_t1_loop.trips := ⟨3, by decide⟩
abbrev T4 : Fin k2_t1_loop.trips := ⟨4, by decide⟩

abbrev XT (qt : PosShare TreeShare) (X : Buf (Elt F) (xLoc d)) : sProp 𝕄 :=
  bigSepL [(0 : Fin 5), 1, 2, 3, 4] fun b => xLoc d ↦{Transfers.shareTok qt 5 b} X

abbrev ZT (f : Buf (Elt F) (zLoc d)) : sProp 𝕄 :=
  bigSepL chunkL fun p => zLoc d ↦[(zC L p.1 p.2).view.set]{fullShare} f

abbrev ST : sProp 𝕄 := bigSepL (semL.map fun sm => ((thrL d L, sm) : GSem nD τ sig)) (fun g => semVal g 0)

theorem slot_read_write_same (off : Fin 3 → Nat) (h : ∀ a, off a + S1x80x128.size a ≤ S5x80x128.size a)
    (G : Buf (Elt F) ((thrL d L).loc cc2_scratch1)) (P : S80x128.Idx → Elt F .f32) :
    (slotM off h).view.read (Elt F) (View.write (Elt F) (slotM off h).view G P Finset.univ) = P := by
  funext x
  rw [View.read_apply, View.write_emb_of_mem _ _ (Finset.mem_univ x), cast_cast, cast_eq]

theorem slot_disjoint (off off' : Fin 3 → Nat) (h : ∀ a, off a + S1x80x128.size a ≤ S5x80x128.size a)
    (h' : ∀ a, off' a + S1x80x128.size a ≤ S5x80x128.size a) (hne : off 0 ≠ off' 0) :
    Disjoint (slotM off h).view.set (slotM off' h').view.set := by
  show Disjoint (((View.whole cc2_scratch1).slice (Rect.unit (s := S5x80x128) off S1x80x128.size h)).reshape S80x128 squeezes_S1x80x128_S80x128.numel_eq).set
    (((View.whole cc2_scratch1).slice (Rect.unit (s := S5x80x128) off' S1x80x128.size h')).reshape S80x128 squeezes_S1x80x128_S80x128.numel_eq).set
  rw [View.set_reshape, View.set_reshape, View.set_slice_whole, View.set_slice_whole]
  refine Rect.unit_disjoint (0 : Fin 3) ?_
  rcases Nat.lt_or_gt_of_ne hne with hlt | hgt
  · left; show off 0 + 1 ≤ off' 0; omega
  · right; show off' 0 + 1 ≤ off 0; omega

theorem slot_read_write_other (off off' : Fin 3 → Nat) (h : ∀ a, off a + S1x80x128.size a ≤ S5x80x128.size a)
    (h' : ∀ a, off' a + S1x80x128.size a ≤ S5x80x128.size a) (hne : off 0 ≠ off' 0)
    (G : Buf (Elt F) ((thrL d L).loc cc2_scratch1)) (P' : S80x128.Idx → Elt F .f32) :
    (slotM off h).view.read (Elt F) (View.write (Elt F) (slotM off' h').view G P' Finset.univ) = (slotM off h).view.read (Elt F) G := by
  funext x
  rw [View.read_apply, View.read_apply, View.write_of_not_mem]
  rw [View.setOn_univ]
  exact Finset.disjoint_left.mp (slot_disjoint off off' h h' hne) (View.emb_mem_set (slotM off h).view x)

theorem z_fin (X : Buf (Elt F) (xLoc d)) (I : Buf (Elt F) (iLoc d)) (t : Fin k2_t1_loop.trips) (r : Fin 5) (fz : Buf (Elt F) (zLoc d))
    (P : S80x128.Idx → Elt F .f32) (hP : ∀ x, gath d X I ((zC L t r).view.emb x) = P x) :
    ((zC L t r).view.loc (thrL d L) ↦[(zC L t r).view.set]{fullShare} (zC L t r).view.writes (Elt F) fz [⟨Rect.whole S80x128, P⟩] : sProp 𝕄)
      = (zLoc d ↦[(zC L t r).view.set]{fullShare} gath d X I) := by
  refine pointsTo_congr fun y hy => ?_
  obtain ⟨x, -, rfl⟩ := Finset.mem_map.mp hy
  have h1 := View.read_writes_cons_emb (v := (zC L t r).view) (f := fz) (Rect.whole S80x128) P [] x
  rw [Rect.emb_whole_apply, View.read_apply] at h1
  exact ((cast_eq _ _).symm.trans h1).trans (hP x).symm

theorem waits_ok {W W' : Waits sig (HIx 5)} (sm : SemLoc sig) (h : ∀ p ∈ W', p ∈ W ∨ p.2 = none) :
    ∀ p ∈ insert (sm, (default : HIx 5)) W', p ∈ W ∨ p.2 = none := by
  intro p hp
  rcases Finset.mem_insert.mp hp with rfl | hp
  · exact .inr rfl
  · exact h p hp
theorem waits_ok₀ {W : Waits sig (HIx 5)} : ∀ p ∈ W, p ∈ W ∨ p.2 = none := fun _ hp => .inl hp

theorem pts_x (q : PosShare TreeShare) (X : Buf (Elt F) (xLoc d)) :
    (xLoc d ↦{q} X : sProp 𝕄) = ((xM).view.loc (thrL d L) ↦[(xM).view.set]{q} X) := by
  simp only [Memref.view_whole, View.set_whole]
theorem pts_s0 (f : Buf (Elt F) ((thrL d L).loc cc2_scratch0)) :
    ((thrL d L).loc cc2_scratch0 ↦{fullShare} f : sProp 𝕄) = ((sI).view.loc (thrL d L) ↦[(sI).view.set]{fullShare} f) := by
  simp only [Memref.view_whole, View.set_whole]
theorem pts_s1 (f : Buf (Elt F) ((thrL d L).loc cc2_scratch1)) :
    ((thrL d L).loc cc2_scratch1 ↦{fullShare} f : sProp 𝕄) = ((sR).view.loc (thrL d L) ↦[(sR).view.set]{fullShare} f) := by
  simp only [Memref.view_whole, View.set_whole]

end Cert.Proof.KI.Sc1

end
-- ==== Proof.ScTile1.lean ====
import proofs.«212107_g53927609368716_cont_9to1_m_409_29_alg».proof.Proof.ScPre1

noncomputable section

namespace Cert.Proof.KI.Sc1

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Named F] [Cert.KernelIdeal.Facts]

local notation "𝕄" => MT nD τ sig (HIx 5) (Elt F) ℕ UU ℕ

local notation "sI" => (Memref.whole Cert.KernelIdeal.cc2_scratch0 : Memref Cert.KernelIdeal.sig Kind.scVector Space.vmem Cert.KernelIdeal.S25x80 EltTy.i32)
local notation "sR" => (Memref.whole Cert.KernelIdeal.cc2_scratch1 : Memref Cert.KernelIdeal.sig Kind.scVector Space.vmem Cert.KernelIdeal.S5x80x128 EltTy.f32)
local notation "xM" => (Memref.whole Cert.KernelIdeal.main_arg0_scv : Memref Cert.KernelIdeal.sig Kind.scVector Space.hbm Cert.KernelIdeal.S10000x128 EltTy.f32)
local notation "iM" => (Memref.whole Cert.KernelIdeal.main_v11_scv : Memref Cert.KernelIdeal.sig Kind.scVector Space.hbm Cert.KernelIdeal.S32x25x80 EltTy.i32)
local notation "zM" => (Memref.whole Cert.KernelIdeal.main_v12_scv : Memref Cert.KernelIdeal.sig Kind.scVector Space.hbm Cert.KernelIdeal.S64000x128 EltTy.f32)

variable (d : Dev nD) (L : grid2.Coords)

theorem xt_eq (qt : PosShare TreeShare) (X : Buf (Elt F) (xLoc d)) :
    XT d qt X = iprop(((xM).view.loc (thrL d L) ↦[(xM).view.set]{Transfers.shareTok qt 5 0} X) ∗ ((xM).view.loc (thrL d L) ↦[(xM).view.set]{Transfers.shareTok qt 5 1} X) ∗ ((xM).view.loc (thrL d L) ↦[(xM).view.set]{Transfers.shareTok qt 5 2} X) ∗ ((xM).view.loc (thrL d L) ↦[(xM).view.set]{Transfers.shareTok qt 5 3} X) ∗ ((xM).view.loc (thrL d L) ↦[(xM).view.set]{Transfers.shareTok qt 5 4} X)) := by
  simp only [← pts_x d L]; rfl

theorem zt_eq (f : Buf (Elt F) (zLoc d)) :
    ZT d L f = iprop((zLoc d ↦[(zC L T0 0).view.set]{fullShare} f) ∗ (zLoc d ↦[(zC L T0 1).view.set]{fullShare} f) ∗ (zLoc d ↦[(zC L T0 2).view.set]{fullShare} f) ∗ (zLoc d ↦[(zC L T0 3).view.set]{fullShare} f) ∗ (zLoc d ↦[(zC L T0 4).view.set]{fullShare} f) ∗ (zLoc d ↦[(zC L T1 0).view.set]{fullShare} f) ∗ (zLoc d ↦[(zC L T1 1).view.set]{fullShare} f) ∗ (zLoc d ↦[(zC L T1 2).view.set]{fullShare} f) ∗ (zLoc d ↦[(zC L T1 3).view.set]{fullShare} f) ∗ (zLoc d ↦[(zC L T1 4).view.set]{fullShare} f) ∗ (zLoc d ↦[(zC L T2 0).view.set]{fullShare} f) ∗ (zLoc d ↦[(zC L T2 1).view.set]{fullShare} f) ∗ (zLoc d ↦[(zC L T2 2).view.set]{fullShare} f) ∗ (zLoc d ↦[(zC L T2 3).view.set]{fullShare} f) ∗ (zLoc d ↦[(zC L T2 4).view.set]{fullShare} f) ∗ (zLoc d ↦[(zC L T3 0).view.set]{fullShare} f) ∗ (zLoc d ↦[(zC L T3 1).view.set]{fullShare} f) ∗ (zLoc d ↦[(zC L T3 2).view.set]{fullShare} f) ∗ (zLoc d ↦[(zC L T3 3).view.set]{fullShare} f) ∗ (zLoc d ↦[(zC L T3 4).view.set]{fullShare} f) ∗ (zLoc d ↦[(zC L T4 0).view.set]{fullShare} f) ∗ (zLoc d ↦[(zC L T4 1).view.set]{fullShare} f) ∗ (zLoc d ↦[(zC L T4 2).view.set]{fullShare} f) ∗ (zLoc d ↦[(zC L T4 3).view.set]{fullShare} f) ∗ (zLoc d ↦[(zC L T4 4).view.set]{fullShare} f)) := rfl

theorem pts_z (t : Fin k2_t1_loop.trips) (r : Fin 5) (f : Buf (Elt F) (zLoc d)) :
    (zLoc d ↦[(zC L t r).view.set]{fullShare} f : sProp 𝕄) = ((zC L t r).view.loc (thrL d L) ↦[(zC L t r).view.set]{fullShare} f) := rfl

theorem st_eq : (ST d L : sProp 𝕄) = iprop(semVal (thrL d L, SemLoc.dma gS0) 0 ∗ semVal (thrL d L, SemLoc.dma gS1) 0 ∗ semVal (thrL d L, SemLoc.dma gS2) 0 ∗ semVal (thrL d L, SemLoc.dma gS3) 0 ∗ semVal (thrL d L, SemLoc.dma gS4) 0 ∗ semVal (thrL d L, SemLoc.dma wS0) 0 ∗ semVal (thrL d L, SemLoc.dma wS1) 0 ∗ semVal (thrL d L, SemLoc.dma wS2) 0 ∗ semVal (thrL d L, SemLoc.dma wS3) 0 ∗ semVal (thrL d L, SemLoc.dma wS4) 0 ∗ semVal (thrL d L, SemLoc.dma cS) 0) := rfl

set_option maxHeartbeats 16000000 in
theorem tile_run (O : CellTallies nD τ sig (HIx 5)) (W : Waits sig (HIx 5)) (hO : ∀ g, O g none = 0)
    (X : Buf (Elt F) (xLoc d)) (I : Buf (Elt F) (iLoc d)) (hI : IdxOK d I)
    (fs : Buf (Elt F) ((thrL d L).loc cc2_scratch0)) (fr : Buf (Elt F) ((thrL d L).loc cc2_scratch1))
    (fz : Buf (Elt F) (zLoc d)) (qt : PosShare TreeShare) :
    (iprop(levAts (K (F := F)).L (K (F := F)).lev ∗ XT d qt X
        ∗ (iLoc d ↦[(iPl L).view.set]{fullShare} I)
        ∗ ((thrL d L).loc cc2_scratch0 ↦{fullShare} fs) ∗ ((thrL d L).loc cc2_scratch1 ↦{fullShare} fr)
        ∗ ZT d L fz ∗ ST d L ∗ owes (thrL d L) O W) : sProp 𝕄)
      ⊢ wp frame (wpE (defs₀ (F := F)) 𝒱₀ (thrL d L) none) Set.univ
          (cc2_k L xM (Memref.isWhole_whole _) iM (Memref.isWhole_whole _) zM (Memref.isWhole_whole _) sI (Memref.isWhole_whole _) sR (Memref.isWhole_whole _) cc2_scratch2 cc2_scratch3 cc2_scoped0)
          fun _ => iprop(XT d qt X ∗ (iLoc d ↦[(iPl L).view.set]{fullShare} I)
            ∗ (∃ f, (thrL d L).loc cc2_scratch0 ↦{fullShare} f) ∗ (∃ f, (thrL d L).loc cc2_scratch1 ↦{fullShare} f)
            ∗ ZT d L (gath d X I) ∗ ST d L ∗ ∃ W', ⌜∀ p ∈ W', p ∈ W ∨ p.2 = none⌝ ∗ owes (thrL d L) O W') := by
  have hin := hin_ok d L I hI
  simp only [cc2_k_eq_skeleton]; unfold cc2_k_skel
  iintro ⟨#Hlv, HX, Hi, Hs, Hr, HZ, HS, HO⟩
  ihave Hmw := ((K (F := F)).mayWaits_none (thr := thrL d L) hO) $$ Hlv
  ihave ⟨Hz00, Hz01, Hz02, Hz03, Hz04, Hz10, Hz11, Hz12, Hz13, Hz14, Hz20, Hz21, Hz22, Hz23, Hz24, Hz30, Hz31, Hz32, Hz33, Hz34, Hz40, Hz41, Hz42, Hz43, Hz44⟩ := (Entails.of_eq (zt_eq d L fz)) $$ HZ
  ihave ⟨Hg0, Hg1, Hg2, Hg3, Hg4, Hw0, Hw1, Hw2, Hw3, Hw4, Hc⟩ := (Entails.of_eq (st_eq d L)) $$ HS
  ihave ⟨Hx0, Hx1, Hx2, Hx3, Hx4⟩ := (Entails.of_eq (xt_eq d L qt X)) $$ HX
  ihave Hi := (Entails.of_eq (show (iLoc d ↦[(iPl L).view.set]{fullShare} I : sProp 𝕄) = ((iPl L).view.loc (thrL d L) ↦[(iPl L).view.set]{fullShare} I) from rfl)) $$ Hi
  ihave Hs := (Entails.of_eq (pts_s0 d L fs)) $$ Hs
  ihave Hr := (Entails.of_eq (pts_s1 d L fr)) $$ Hr
  ihave Hz00 := (Entails.of_eq (pts_z d L T0 0 fz)) $$ Hz00
  ihave Hz01 := (Entails.of_eq (pts_z d L T0 1 fz)) $$ Hz01
  ihave Hz02 := (Entails.of_eq (pts_z d L T0 2 fz)) $$ Hz02
  ihave Hz03 := (Entails.of_eq (pts_z d L T0 3 fz)) $$ Hz03
  ihave Hz04 := (Entails.of_eq (pts_z d L T0 4 fz)) $$ Hz04
  ihave Hz10 := (Entails.of_eq (pts_z d L T1 0 fz)) $$ Hz10
  ihave Hz11 := (Entails.of_eq (pts_z d L T1 1 fz)) $$ Hz11
  ihave Hz12 := (Entails.of_eq (pts_z d L T1 2 fz)) $$ Hz12
  ihave Hz13 := (Entails.of_eq (pts_z d L T1 3 fz)) $$ Hz13
  ihave Hz14 := (Entails.of_eq (pts_z d L T1 4 fz)) $$ Hz14
  ihave Hz20 := (Entails.of_eq (pts_z d L T2 0 fz)) $$ Hz20
  ihave Hz21 := (Entails.of_eq (pts_z d L T2 1 fz)) $$ Hz21
  ihave Hz22 := (Entails.of_eq (pts_z d L T2 2 fz)) $$ Hz22
  ihave Hz23 := (Entails.of_eq (pts_z d L T2 3 fz)) $$ Hz23
  ihave Hz24 := (Entails.of_eq (pts_z d L T2 4 fz)) $$ Hz24
  ihave Hz30 := (Entails.of_eq (pts_z d L T3 0 fz)) $$ Hz30
  ihave Hz31 := (Entails.of_eq (pts_z d L T3 1 fz)) $$ Hz31
  ihave Hz32 := (Entails.of_eq (pts_z d L T3 2 fz)) $$ Hz32
  ihave Hz33 := (Entails.of_eq (pts_z d L T3 3 fz)) $$ Hz33
  ihave Hz34 := (Entails.of_eq (pts_z d L T3 4 fz)) $$ Hz34
  ihave Hz40 := (Entails.of_eq (pts_z d L T4 0 fz)) $$ Hz40
  ihave Hz41 := (Entails.of_eq (pts_z d L T4 1 fz)) $$ Hz41
  ihave Hz42 := (Entails.of_eq (pts_z d L T4 2 fz)) $$ Hz42
  ihave Hz43 := (Entails.of_eq (pts_z d L T4 3 fz)) $$ Hz43
  ihave Hz44 := (Entails.of_eq (pts_z d L T4 4 fz)) $$ Hz44
  sl_exec
  sl_unroll
  sl_exec
  sl_step
  isplitl [Hx0 Hx1 Hx2 Hx3 Hx4]
  · iapply (Entails.of_eq (xt_eq d L qt X).symm)
    isplitl [Hx0]; · iexact Hx0
    isplitl [Hx1]; · iexact Hx1
    isplitl [Hx2]; · iexact Hx2
    isplitl [Hx3]; · iexact Hx3
    iexact Hx4
  isplitl [Hi]; · iexact Hi
  isplitl [Hs]; · iexists _; iapply (Entails.of_eq (pts_s0 d L _).symm); iexact Hs
  isplitl [Hr]; · iexists _; iapply (Entails.of_eq (pts_s1 d L _).symm); iexact Hr
  isplitr [Hg0 Hg1 Hg2 Hg3 Hg4 Hw0 Hw1 Hw2 Hw3 Hw4 Hc HO]
  · iapply (Entails.of_eq (zt_eq d L (gath d X I)).symm)
    have zf := fun t r P hP => Entails.of_eq (z_fin d L X I t r fz P hP)
    isplitl [Hz00]; iapply (zf T0 0 _ ?_); rotate_left; iexact Hz00
    isplitl [Hz01]; iapply (zf T0 1 _ ?_); rotate_left; iexact Hz01
    isplitl [Hz02]; iapply (zf T0 2 _ ?_); rotate_left; iexact Hz02
    isplitl [Hz03]; iapply (zf T0 3 _ ?_); rotate_left; iexact Hz03
    isplitl [Hz04]; iapply (zf T0 4 _ ?_); rotate_left; iexact Hz04
    isplitl [Hz10]; iapply (zf T1 0 _ ?_); rotate_left; iexact Hz10
    isplitl [Hz11]; iapply (zf T1 1 _ ?_); rotate_left; iexact Hz11
    isplitl [Hz12]; iapply (zf T1 2 _ ?_); rotate_left; iexact Hz12
    isplitl [Hz13]; iapply (zf T1 3 _ ?_); rotate_left; iexact Hz13
    isplitl [Hz14]; iapply (zf T1 4 _ ?_); rotate_left; iexact Hz14
    isplitl [Hz20]; iapply (zf T2 0 _ ?_); rotate_left; iexact Hz20
    isplitl [Hz21]; iapply (zf T2 1 _ ?_); rotate_left; iexact Hz21
    isplitl [Hz22]; iapply (zf T2 2 _ ?_); rotate_left; iexact Hz22
    isplitl [Hz23]; iapply (zf T2 3 _ ?_); rotate_left; iexact Hz23
    isplitl [Hz24]; iapply (zf T2 4 _ ?_); rotate_left; iexact Hz24
    isplitl [Hz30]; iapply (zf T3 0 _ ?_); rotate_left; iexact Hz30
    isplitl [Hz31]; iapply (zf T3 1 _ ?_); rotate_left; iexact Hz31
    isplitl [Hz32]; iapply (zf T3 2 _ ?_); rotate_left; iexact Hz32
    isplitl [Hz33]; iapply (zf T3 3 _ ?_); rotate_left; iexact Hz33
    isplitl [Hz34]; iapply (zf T3 4 _ ?_); rotate_left; iexact Hz34
    isplitl [Hz40]; iapply (zf T4 0 _ ?_); rotate_left; iexact Hz40
    isplitl [Hz41]; iapply (zf T4 1 _ ?_); rotate_left; iexact Hz41
    isplitl [Hz42]; iapply (zf T4 2 _ ?_); rotate_left; iexact Hz42
    isplitl [Hz43]; iapply (zf T4 3 _ ?_); rotate_left; iexact Hz43
    iapply (zf T4 4 _ ?_); rotate_left; iexact Hz44
    all_goals
      intro x
      show _ = View.read (Elt F) (slotM _ _).view _ x
      repeat (first | rw [slot_read_write_same d L] | (rw [slot_read_write_other d L]; on_goal 2 => decide))
      exact chunk_val d L X I hI _ _ _ _ (by first | rfl | (rw [k2_off3_eq]; rfl) | (rw [k2_off7_eq]; rfl) | (rw [k2_off9_eq]; rfl) | (rw [k2_off11_eq]; rfl) | (rw [k2_off13_eq]; rfl) | decide) _ _ _ x
  isplitr [HO]
  · iapply (Entails.of_eq (st_eq d L).symm)
    isplitl [Hg0]; · iexact Hg0
    isplitl [Hg1]; · iexact Hg1
    isplitl [Hg2]; · iexact Hg2
    isplitl [Hg3]; · iexact Hg3
    isplitl [Hg4]; · iexact Hg4
    isplitl [Hw0]; · iexact Hw0
    isplitl [Hw1]; · iexact Hw1
    isplitl [Hw2]; · iexact Hw2
    isplitl [Hw3]; · iexact Hw3
    isplitl [Hw4]; · iexact Hw4
    iexact Hc
  iexists _
  isplitr
  on_goal 2 => iexact HO
  ipureintro
  repeat (first | exact waits_ok₀ | refine waits_ok _ ?_)

end Cert.Proof.KI.Sc1

end
-- ==== Proof.ScBody1.lean ====
import proofs.«212107_g53927609368716_cont_9to1_m_409_29_alg».proof.Proof.ScTile1

noncomputable section

namespace Cert.Proof.KI.Sc1

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Named F] [Cert.KernelIdeal.Facts]

local notation "𝕄" => MT nD τ sig (HIx 5) (Elt F) ℕ UU ℕ

variable (d : Dev nD) (L : grid2.Coords)

-- The tile's run with the rest framed off: its share of the table as five tokens, its rows of the result by chunks.
theorem tile_body (hF : (K (F := F)).Facts) (q : PosShare TreeShare)
    (X : Buf (Elt F) (xLoc d)) (I : Buf (Elt F) (iLoc d)) (hI : IdxOK d I)
    (O : CellTallies nD τ sig (HIx 5)) (W : Waits sig (HIx 5)) (hO : ∀ g, O g none = 0) :
    iprop(levAts (K (F := F)).L (K (F := F)).lev ∗ go d q X I (cL L) (jL L)
        ∗ scopedBufs (thrL d L) ∗ scopedSems0 (thrL d L) ∗ owes (thrL d L) O W)
      ⊢ wp frame (wpE (defs₀ (F := F)) 𝒱₀ (thrL d L) none) Set.univ
          (cc2_k L (Memref.whole main_arg0_scv) (Memref.isWhole_whole _) (Memref.whole main_v11_scv) (Memref.isWhole_whole _) (Memref.whole main_v12_scv) (Memref.isWhole_whole _)
            (Memref.whole cc2_scratch0) (Memref.isWhole_whole _) (Memref.whole cc2_scratch1) (Memref.isWhole_whole _) cc2_scratch2 cc2_scratch3 cc2_scoped0)
          fun _ => iprop(td d q X I (cL L) (jL L) ∗ scopedBufs (thrL d L) ∗ scopedSems0 (thrL d L)
            ∗ ∃ W', ⌜∀ p ∈ W', p ∈ W ∨ p.2 = none⌝ ∗ owes (thrL d L) O W') := by
  unfold go td
  have h : (xLoc d ↦{qTile q (cL L) (jL L)} X : sProp 𝕄) ⊣⊢ _ := Transfers.pointsTo_toks _ 5
  rw [(K (F := F)).scopedBufs_V hF d _ _, SparseCore.Cfg.scopedSems0_V (Val := Elt F) d _ _, ownSems0_split, ownBufs_split,
    ← set_iPl L, zRows_chunks d L (gath d X I), BI.Entails.antisymm h.1 h.2,
    bigSep_univ_eq_bigSepL [(0 : Fin 5), 1, 2, 3, 4] (by decide) (by decide)]
  iintro ⟨#Hlv, ⟨⟨Hxd, Hxt⟩, Hi, %fz, Hz⟩, ⟨⟨%fs, Hs⟩, ⟨%fr, Hr⟩, Hbufs⟩, ⟨Hsems, Hsrest⟩, HO⟩
  ihave Hz := (Entails.of_eq (zRows_chunks d L fz)) $$ Hz
  iapply (wp_wand_r frame _ _)
  isplitl [Hxt Hi Hs Hr Hz Hsems HO]
  · iapply (tile_run d L O W hO X I hI fs fr fz (qTile q (cL L) (jL L)))
    isplitr; · iexact Hlv
    isplitl [Hxt]; · iexact Hxt
    isplitl [Hi]; · iexact Hi
    isplitl [Hs]; · iexact Hs
    isplitl [Hr]; · iexact Hr
    isplitl [Hz]; · iexact Hz
    isplitl [Hsems]; · iexact Hsems
    iexact HO
  iintro %_ ⟨Hxt, Hi, Hs, Hr, Hz, Hsems, HO⟩
  isplitl [Hxd Hxt Hi Hz]
  · isplitl [Hxd Hxt]
    · isplitl [Hxd]; · iexact Hxd
      iexact Hxt
    isplitl [Hi]; · iexact Hi
    iexact Hz
  isplitl [Hs Hr Hbufs]
  · isplitl [Hs]; · iexact Hs
    isplitl [Hr]; · iexact Hr
    iexact Hbufs
  isplitl [Hsems Hsrest]
  · isplitl [Hsems]; · iexact Hsems
    iexact Hsrest
  iexact HO

end Cert.Proof.KI.Sc1

end
-- ==== Proof.ScVal2.lean ====
import proofs.«212107_g53927609368716_cont_9to1_m_409_29_alg».proof.Proof.ScCall2Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«212107_g53927609368716_cont_9to1_m_409_29_alg».proof.Proof.Gen.KernelIdeal.Skeleton

noncomputable section

namespace Cert.Proof.KI.Sc2

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Named F] [Cert.KernelIdeal.Facts]

local notation "𝕄" => MT nD τ sig (HIx 5) (Elt F) ℕ UU ℕ

abbrev callIx : Fin 5 := 2
abbrev labIx : Fin 10 := 4

local notation "sI" => (Memref.whole Cert.KernelIdeal.cc4_scratch0 : Memref Cert.KernelIdeal.sig Kind.scVector Space.vmem Cert.KernelIdeal.S25x80 EltTy.i32)
local notation "sR" => (Memref.whole Cert.KernelIdeal.cc4_scratch1 : Memref Cert.KernelIdeal.sig Kind.scVector Space.vmem Cert.KernelIdeal.S5x80x128 EltTy.f32)
local notation "xM" => (Memref.whole Cert.KernelIdeal.main_arg0_scv : Memref Cert.KernelIdeal.sig Kind.scVector Space.hbm Cert.KernelIdeal.S10000x128 EltTy.f32)
local notation "iM" => (Memref.whole Cert.KernelIdeal.main_v16_scv : Memref Cert.KernelIdeal.sig Kind.scVector Space.hbm Cert.KernelIdeal.S32x25x80 EltTy.i32)
local notation "zM" => (Memref.whole Cert.KernelIdeal.main_v17_scv : Memref Cert.KernelIdeal.sig Kind.scVector Space.hbm Cert.KernelIdeal.S64000x128 EltTy.f32)

variable (d : Dev nD) (L : grid4.Coords)

abbrev prL (L : grid4.Coords) : Proc τ := .scVector ((L 0).castLE hcore4) ((L 1).castLE hsub4)
abbrev thrL (L : grid4.Coords) : Thread nD τ := V d ((L 0).castLE hcore4) ((L 1).castLE hsub4)

abbrev iPl (L : grid4.Coords) : Memref sig .scVector .hbm S25x80 .i32 :=
  ((iM).slice (Rect.unit (s := S32x25x80) (k4_off1 L) S1x25x80.size (k4_off1_inb L)) (fun _ => rfl)).squeeze S25x80 squeezes_S1x25x80_S25x80
abbrev sRow (off : Fin 2 → Nat) (h : ∀ a, off a + S1x80.size a ≤ S25x80.size a) : Memref sig .scVector .vmem S80 .i32 :=
  ((sI).slice (Rect.unit (s := S25x80) off S1x80.size h) (fun _ => rfl)).squeeze S80 squeezes_S1x80_S80
abbrev slotM (off : Fin 3 → Nat) (h : ∀ a, off a + S1x80x128.size a ≤ S5x80x128.size a) : Memref sig .scVector .vmem S80x128 .f32 :=
  ((sR).slice (Rect.unit (s := S5x80x128) off S1x80x128.size h) (fun _ => rfl)).squeeze S80x128 squeezes_S1x80x128_S80x128

abbrev semAt (A : DmaSems sig S5) (o : Fin 1 → Nat) (h : ∀ a, o a + S1.size a ≤ S5.size a) : DmaSem sig :=
  SemArray.sem (SemArray.squeeze (SemArray.slice A (Rect.unit (s := S5) o S1.size h)) S_ squeezes_S1_S_)
abbrev gS0 : DmaSem sig := semAt cc4_scratch2 ![0] inb_S5_S1_0
abbrev gS1 : DmaSem sig := semAt cc4_scratch2 ![1] inb_S5_S1_1
abbrev gS2 : DmaSem sig := semAt cc4_scratch2 ![2] inb_S5_S1_2
abbrev gS3 : DmaSem sig := semAt cc4_scratch2 ![3] inb_S5_S1_3
abbrev gS4 : DmaSem sig := semAt cc4_scratch2 ![4] inb_S5_S1_4
abbrev wS0 : DmaSem sig := semAt cc4_scratch3 ![0] inb_S5_S1_0
abbrev wS1 : DmaSem sig := semAt cc4_scratch3 ![1] inb_S5_S1_1
abbrev wS2 : DmaSem sig := semAt cc4_scratch3 ![2] inb_S5_S1_2
abbrev wS3 : DmaSem sig := semAt cc4_scratch3 ![3] inb_S5_S1_3
abbrev wS4 : DmaSem sig := semAt cc4_scratch3 ![4] inb_S5_S1_4
abbrev cS : DmaSem sig := SemArray.sem cc4_scoped0

abbrev zC (L : grid4.Coords) (t : Fin k4_t1_loop.trips) (r : Fin 5) : Memref sig .scVector .hbm S80x128 .f32 :=
  (zM).slice (Rect.unit (s := S64000x128) (k4_off5 L t (BitVec.ofNat 32 r.val)) S80x128.size (k4_off5_inb L t r)) (fun _ => rfl)

abbrev idxPay (L : grid4.Coords) (I : Buf (Elt F) (iLoc d)) : S25x80.Idx → Elt F .i32 :=
  ReadAs.same.apply ((iPl L).view.read (Elt F) I)

theorem bound_zero : grid4.bound 0 = 2 := rfl
theorem bound_one : grid4.bound 1 = 16 := rfl
abbrev cL (L : grid4.Coords) : Fin 2 := Fin.cast bound_zero (L 0)
abbrev jL (L : grid4.Coords) : Fin 16 := Fin.cast bound_one (L 1)
abbrev wL (L : grid4.Coords) : Fin 32 := wid (cL L) (jL L)

theorem trips_eq : k4_t1_loop.trips = 5 := by decide

theorem set_iPl : (iPl L).view.set = iRows (wL L) := by
  have e : Rect.unit (s := S32x25x80) (k4_off1 L) S1x25x80.size (k4_off1_inb L) = iPart (wL L) := by
    unfold iPart Rect.part Rect.block
    congr 1 <;> funext a <;> (try rw [k4_off1_eq]) <;>
      (match a with
       | 0 | 1 | 2 => simp [Shape.partIx, Shape.partSize, wid])
  show (((iM).view.slice (Rect.unit (s := S32x25x80) (k4_off1 L) S1x25x80.size (k4_off1_inb L))).reshape S25x80 squeezes_S1x25x80_S25x80.numel_eq).set
    = ((iM).view.slice (iPart (wL L))).set
  rw [View.set_reshape]
  exact e ▸ rfl

-- A block of whole rows of `z` is the rows from its first on.
theorem mem_rows {off sz : Fin 2 → Nat} {h : ∀ a, off a + sz a ≤ S64000x128.size a} (y : S64000x128.Idx) {o n : Nat}
    (h0 : off 0 = o) (hn : sz 0 = n) (h1 : off 1 = 0) (h2 : sz 1 = 128) :
    y ∈ ((View.whole main_v17_scv).slice (Rect.unit (s := S64000x128) off sz h)).set ↔ o ≤ (y 0).val ∧ (y 0).val < o + n := by
  have : (y 1).val < 128 := (y 1).isLt
  rw [View.set_slice_whole, Rect.mem_set_unit]
  show (∀ a : Fin 2, off a ≤ (y a).val ∧ (y a).val < off a + sz a) ↔ _
  rw [Fin.forall_fin_two, h0, hn, h1, h2]
  omega

theorem mem_zC (t : Fin k4_t1_loop.trips) (r : Fin 5) (y : S64000x128.Idx) :
    y ∈ (zC L t r).view.set ↔ 4000 * (L 1).val + 2000 * (L 0).val + 400 * t.val + 80 * r.val ≤ (y 0).val
      ∧ (y 0).val < 4000 * (L 1).val + 2000 * (L 0).val + 400 * t.val + 80 * r.val + 80 :=
  mem_rows y (by rw [k4_off5_eq]; rfl) (by rfl) (by rw [k4_off5_eq]; rfl) (by rfl)

theorem mem_zRows (w : Fin 32) (y : S64000x128.Idx) : y ∈ zRows w ↔ w.val * 2000 ≤ (y 0).val ∧ (y 0).val < w.val * 2000 + 2000 :=
  mem_rows y (by rfl) (by rfl) (by rfl) (by rfl)

theorem zC_disjoint : ∀ p ∈ (Finset.univ : Finset (Fin k4_t1_loop.trips × Fin 5)), ∀ p' ∈ (Finset.univ : Finset (Fin k4_t1_loop.trips × Fin 5)),
    p ≠ p' → Disjoint (zC L p.1 p.2).view.set (zC L p'.1 p'.2).view.set := by
  intro p _ p' _ hne
  rw [Finset.disjoint_left]
  intro y hy hy'
  rw [mem_zC] at hy hy'
  have := p.2.isLt
  have := p'.2.isLt
  exact hne (Prod.ext (Fin.ext (by omega)) (Fin.ext (by omega)))

-- The twenty-five chunks of eighty rows tile the worker's two thousand.
theorem zC_cover : (Finset.univ : Finset (Fin k4_t1_loop.trips × Fin 5)).biUnion (fun p => (zC L p.1 p.2).view.set) = zRows (wL L) := by
  ext y
  have hw : (wL L).val = 2 * (L 1).val + (L 0).val := rfl
  have h5 := trips_eq
  rw [Finset.mem_biUnion, mem_zRows]
  constructor
  · rintro ⟨p, -, hp⟩
    rw [mem_zC] at hp
    have := p.1.isLt
    have := p.2.isLt
    omega
  · intro hy
    refine ⟨(⟨((y 0).val - 2000 * (wL L).val) / 400, by omega⟩, ⟨((y 0).val - 2000 * (wL L).val) % 400 / 80, by omega⟩), Finset.mem_univ _, ?_⟩
    rw [mem_zC]
    dsimp only
    omega

abbrev semL : List (SemLoc sig) :=
  [.dma gS0, .dma gS1, .dma gS2, .dma gS3, .dma gS4, .dma wS0, .dma wS1, .dma wS2, .dma wS3, .dma wS4, .dma cS]

theorem semL_nodup : semL.Nodup := by decide
theorem semL_scoped : ∀ sm ∈ semL, sm.isScoped .scVector = true := by decide

theorem ownSems0_split :
    (ownSems0 (thrL d L) : sProp 𝕄)
      = iprop(bigSepL (semL.map fun sm => ((thrL d L, sm) : GSem nD τ sig)) (fun g => semVal g 0)
          ∗ bigSep (ownCells (thrL d L) \ (semL.map fun sm => ((thrL d L, sm) : GSem nD τ sig)).toFinset) fun g => semVal g 0) := by
  unfold SparseCore.Cfg.ownSems0
  have hsub : (semL.map fun sm => ((thrL d L, sm) : GSem nD τ sig)).toFinset ⊆ ownCells (thrL d L) := by
    intro g hg
    obtain ⟨sm, hsm, rfl⟩ := List.mem_map.mp (List.mem_toFinset.mp hg)
    exact mem_ownCells.mpr ⟨rfl, semL_scoped sm hsm⟩
  rw [SparseCore.bigSep_sdiff_split' hsub, bigSep_eq_bigSepL _ (List.Nodup.map (fun a b e => (Prod.mk.inj e).2) semL_nodup)]

theorem ownBufs_split :
    (ownBufs (thrL d L) : sProp 𝕄)
      = iprop((∃ f, (thrL d L).loc cc4_scratch0 ↦{fullShare} f) ∗ (∃ f, (thrL d L).loc cc4_scratch1 ↦{fullShare} f)
          ∗ bigSep (((ownRefs (τ := τ) (prL L)).erase ((prL L).devRef cc4_scratch0)).erase ((prL L).devRef cc4_scratch1))
              fun b => iprop(∃ f, ((d, b) : Loc nD τ sig) ↦{fullShare} f)) := by
  unfold SparseCore.Cfg.ownBufs
  refine (SparseCore.bigSep_erase' (SparseCore.Cfg.mem_ownRefs_of_owner (p := prL L) (b := (prL L).devRef cc4_scratch0) rfl)).trans ?_
  rw [SparseCore.bigSep_erase' (Finset.mem_erase.mpr ⟨fun e => absurd (Proc.devRef_injective _ e) (show (cc4_scratch1 : Ref sig .scVector) ≠ cc4_scratch0 by decide),
    SparseCore.Cfg.mem_ownRefs_of_owner (p := prL L) (b := (prL L).devRef cc4_scratch1) rfl⟩)]

abbrev tr (n : Nat) (h : n < k4_t1_loop.trips := by decide) : Fin k4_t1_loop.trips := ⟨n, h⟩
abbrev chunkL : List (Fin k4_t1_loop.trips × Fin 5) :=
  [(tr 0, 0), (tr 0, 1), (tr 0, 2), (tr 0, 3), (tr 0, 4), (tr 1, 0), (tr 1, 1), (tr 1, 2), (tr 1, 3), (tr 1, 4), (tr 2, 0), (tr 2, 1), (tr 2, 2), (tr 2, 3), (tr 2, 4), (tr 3, 0), (tr 3, 1), (tr 3, 2), (tr 3, 3), (tr 3, 4), (tr 4, 0), (tr 4, 1), (tr 4, 2), (tr 4, 3), (tr 4, 4)]

theorem zRows_chunks (f : Buf (Elt F) (zLoc d)) :
    (zLoc d ↦[zRows (wL L)]{fullShare} f : sProp 𝕄)
      = bigSepL chunkL fun p => zLoc d ↦[(zC L p.1 p.2).view.set]{fullShare} f := by
  rw [← zC_cover L, pointsTo_biUnion Finset.univ (ℓ := zLoc d) (fun p : Fin k4_t1_loop.trips × Fin 5 => (zC L p.1 p.2).view.set) (zC_disjoint L),
    bigSep_univ_eq_bigSepL chunkL (by decide) (by decide)]

abbrev sW (g : Buf (Elt F) ((thrL d L).loc cc4_scratch0)) (I : Buf (Elt F) (iLoc d)) :=
  (sI).view.writes (Elt F) g [⟨Rect.whole cc4_scratch0.ty.shape, idxPay d L I⟩]
abbrev sRd (I : Buf (Elt F) (iLoc d)) (off : Fin 2 → Nat) (h : ∀ a, off a + S1x80.size a ≤ S25x80.size a)
    (g : Buf (Elt F) ((thrL d L).loc cc4_scratch0)) :=
  (sRow off h).view.read (Elt F) (sW d L g I)

-- After the index copy a row of the index scratch reads the tile's plane of index words, whatever the scratch held.
theorem sRd_eq (I : Buf (Elt F) (iLoc d)) (off : Fin 2 → Nat) (h : ∀ a, off a + S1x80.size a ≤ S25x80.size a)
    (g : Buf (Elt F) ((thrL d L).loc cc4_scratch0)) (y : S80.Idx) :
    sRd d L I off h g y = I ((iPl L).view.emb ((sRow off h).view.emb y)) := by
  have h1 := View.read_writes_cons_emb (v := (sI).view) (f := g) (Rect.whole cc4_scratch0.ty.shape) (idxPay d L I) [] ((sRow off h).view.emb y)
  rw [Rect.emb_whole_apply] at h1
  show (sRow off h).view.read (Elt F) (sW d L g I) y = _
  rw [View.read_apply, cast_eq]
  refine Eq.trans h1 ?_
  show (iPl L).view.read (Elt F) I _ = _
  rw [View.read_apply, cast_eq]

theorem hin_ok (I : Buf (Elt F) (iLoc d)) (hI : IdxOK d I) (g : Buf (Elt F) ((thrL d L).loc cc4_scratch0)) (off : Fin 2 → Nat)
    (h : ∀ a, off a + S1x80.size a ≤ S25x80.size a) (x : S80.Idx) :
    (((sRow off h).view.read (Elt F) ((sI).view.writes (Elt F) g [⟨Rect.whole cc4_scratch0.ty.shape, idxPay d L I⟩])) x).toNat < 10000 := by
  show (sRd d L I off h g x).toNat < 10000
  rw [sRd_eq]
  exact hI _

-- A squeezed unit slice puts the dropped unit axis back at the slice's offset.
theorem iPl_emb (q : S25x80.Idx) : @Eq S32x25x80.Idx ((iPl L).view.emb q) (ix3 (n0 := 32) (n1 := 25) (n2 := 80) (wL L) (q 0) (q 1)) := by
  funext a
  refine Fin.ext ?_
  show k4_off1 L a + 1 * (Shape.reshapeEquiv (s := S1x25x80) (s' := S25x80) squeezes_S1x25x80_S25x80.numel_eq q a).val = _
  rw [Shape.reshapeEquiv_cons_one (n := 2) (d := ![25, 80]), k4_off1_eq]
  match a with
  | ⟨0, _⟩ => rfl
  | ⟨1, _⟩ | ⟨2, _⟩ => exact (Nat.zero_add _).trans (Nat.one_mul _)

theorem sRow_emb (j : Nat) (hj : j < 25) (h : ∀ a, ![j, 0] a + S1x80.size a ≤ S25x80.size a) (y : S80.Idx) :
    @Eq S25x80.Idx ((sRow ![j, 0] h).view.emb y) (ix2 (n0 := 25) (n1 := 80) ⟨j, hj⟩ (y 0)) := by
  funext a
  refine Fin.ext ?_
  show ![j, 0] a + 1 * (Shape.reshapeEquiv (s := S1x80) (s' := S80) squeezes_S1x80_S80.numel_eq y a).val = _
  rw [Shape.reshapeEquiv_cons_one (n := 1) (d := ![80])]
  match a with
  | ⟨0, _⟩ => rfl
  | ⟨1, _⟩ => exact (Nat.zero_add _).trans (Nat.one_mul _)

variable (X : Buf (Elt F) (xLoc d)) (I : Buf (Elt F) (iLoc d))

abbrev xG : Memref sig .scVector .hbm S10000x128 .f32 :=
  (xM).slice (Rect.unit (s := S10000x128) ![0, 0] S10000x128.size inb_S10000x128_S10000x128_0_0) (fun _ => rfl)

theorem emb_xG (i : S10000x128.Idx) : @Eq S10000x128.Idx ((xG).view.emb i) i := by
  funext a
  refine Fin.ext ?_
  match a with
  | ⟨0, _⟩ | ⟨1, _⟩ => exact (Nat.zero_add _).trans (Nat.one_mul _)

-- Row `80 (25 w + 5 t + r) + x₀` of the gathered array is the row of the table that word `(w, 5 t + r, x₀)` names; the
-- chunk's gather reads that word from row `5 t + r` of the index scratch.
theorem chunk_val (hI : IdxOK d I) (t : Fin k4_t1_loop.trips) (r : Fin 5) (off : Fin 2 → Nat)
    (h : ∀ a, off a + S1x80.size a ≤ S25x80.size a) (hoff : off = ![5 * t.val + r.val, 0])
    (g : Buf (Elt F) ((thrL d L).loc cc4_scratch0)) (hn : S80.numel = S80x128.size gathers_S10000x128_S80x128.axis')
    (hin' : ∀ x, (((sRow off h).view.read (Elt F) ((sI).view.writes (Elt F) g [⟨Rect.whole cc4_scratch0.ty.shape, idxPay d L I⟩])) x).toNat < S10000x128.size gathers_S10000x128_S80x128.axis)
    (x : S80x128.Idx) :
    gath d X I ((zC L t r).view.emb x)
      = SparseCore.gatherPayload gathers_S10000x128_S80x128 ((xG).view.read (Elt F) X) (SparseCore.rows ((sRow off h).view.read (Elt F) ((sI).view.writes (Elt F) g [⟨Rect.whole cc4_scratch0.ty.shape, idxPay d L I⟩])) hn hin') x := by
  show _ = SparseCore.gatherPayload gathers_S10000x128_S80x128 ((xG).view.read (Elt F) X) (SparseCore.rows (sRd d L I off h g) hn hin') x
  have ht : t.val < 5 := lt_of_lt_of_eq t.isLt trips_eq
  have hr := r.isLt
  have hx0 : (x 0).val < 80 := (x 0).isLt
  have hw : (wL L).val = 2 * (L 1).val + (L 0).val := rfl
  have e0 : (((zC L t r).view.emb x : S64000x128.Idx) 0).val = 2000 * (wL L).val + 400 * t.val + 80 * r.val + (x 0).val := by
    show k4_off5 L t (BitVec.ofNat 32 r.val) 0 + 1 * (x 0).val = _
    rw [k4_off5_eq]
    simp only [Matrix.cons_val_zero]
    omega
  obtain ⟨k0, k1, k2⟩ := (fun n hn => by omega : ∀ n, n = 2000 * (wL L).val + 400 * t.val + 80 * r.val + (x 0).val →
    n / 2000 = (wL L).val ∧ n / 80 % 25 = 5 * t.val + r.val ∧ n % 80 = (x 0).val) _ e0
  have e1 : (((zC L t r).view.emb x : S64000x128.Idx) 1).val = (x 1).val := by
    show k4_off5 L t (BitVec.ofNat 32 r.val) 1 + 1 * (x 1).val = _
    rw [k4_off5_eq]
    simp only [Matrix.cons_val_one, Matrix.cons_val_zero]
    omega
  have hk := Shape.rowMajor_val_one (S80.rowMajor.symm ((x gathers_S10000x128_S80x128.axis').cast hn.symm))
  rw [Equiv.apply_symm_apply] at hk
  have hy : (S80.rowMajor.symm ((x gathers_S10000x128_S80x128.axis').cast hn.symm)) 0 = x 0 := Fin.ext hk.symm
  have hrow : (gathers_S10000x128_S80x128.idx (SparseCore.rows (sRd d L I off h g) hn hin') x gathers_S10000x128_S80x128.axis).val
      = (I (ix3 (n0 := 32) (n1 := 25) (n2 := 80) (wL L) ⟨5 * t.val + r.val, by omega⟩ (x 0))).toNat := by
    rw [Shape.Gathers.idx_axis]
    unfold SparseCore.rows
    show BitVec.toNat (sRd d L I off h g (S80.rowMajor.symm ((x gathers_S10000x128_S80x128.axis').cast hn.symm))) = _
    subst hoff
    rw [sRd_eq, sRow_emb (5 * t.val + r.val) (by omega), iPl_emb]
    exact congrArg (fun k : Fin 80 => (I (ix3 (n0 := 32) (n1 := 25) (n2 := 80) (wL L) ⟨5 * t.val + r.val, by omega⟩ k)).toNat) hy
  unfold SparseCore.gatherPayload gath
  rw [View.read_apply, cast_eq]
  refine Eq.trans ?_ (congrArg X (emb_xG _)).symm
  refine congrArg X (?_ : @Eq S10000x128.Idx _ _)
  funext a
  refine Fin.ext ?_
  match a with
  | ⟨0, _⟩ =>
    refine Eq.trans ?_ (hrow.trans (Nat.mod_eq_of_lt (hI _)).symm).symm
    show (I _).toNat % 10000 = _
    refine congrArg (fun q : S32x25x80.Idx => (I q).toNat % 10000) (?_ : @Eq S32x25x80.Idx _ _)
    funext b
    refine Fin.ext ?_
    match b with
    | ⟨0, _⟩ => exact k0
    | ⟨1, _⟩ => exact k1
    | ⟨2, _⟩ => exact k2
  | ⟨1, _⟩ => exact e1.trans (Shape.Gathers.idx_of_ne gathers_S10000x128_S80x128 _ x (1 : Fin 2) (by decide)).symm

end Cert.Proof.KI.Sc2

end
-- ==== Proof.ScPre2.lean ====
import proofs.«212107_g53927609368716_cont_9to1_m_409_29_alg».proof.Proof.ScVal2

noncomputable section

namespace Cert.Proof.KI.Sc2

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Named F] [Cert.KernelIdeal.Facts]

local notation "𝕄" => MT nD τ sig (HIx 5) (Elt F) ℕ UU ℕ

local notation "sI" => (Memref.whole Cert.KernelIdeal.cc4_scratch0 : Memref Cert.KernelIdeal.sig Kind.scVector Space.vmem Cert.KernelIdeal.S25x80 EltTy.i32)
local notation "sR" => (Memref.whole Cert.KernelIdeal.cc4_scratch1 : Memref Cert.KernelIdeal.sig Kind.scVector Space.vmem Cert.KernelIdeal.S5x80x128 EltTy.f32)
local notation "xM" => (Memref.whole Cert.KernelIdeal.main_arg0_scv : Memref Cert.KernelIdeal.sig Kind.scVector Space.hbm Cert.KernelIdeal.S10000x128 EltTy.f32)
local notation "iM" => (Memref.whole Cert.KernelIdeal.main_v16_scv : Memref Cert.KernelIdeal.sig Kind.scVector Space.hbm Cert.KernelIdeal.S32x25x80 EltTy.i32)
local notation "zM" => (Memref.whole Cert.KernelIdeal.main_v17_scv : Memref Cert.KernelIdeal.sig Kind.scVector Space.hbm Cert.KernelIdeal.S64000x128 EltTy.f32)

variable (d : Dev nD) (L : grid4.Coords)

abbrev T0 : Fin k4_t1_loop.trips := ⟨0, by decide⟩
abbrev T1 : Fin k4_t1_loop.trips := ⟨1, by decide⟩
abbrev T2 : Fin k4_t1_loop.trips := ⟨2, by decide⟩
abbrev T3 : Fin k4_t1_loop.trips := ⟨3, by decide⟩
abbrev T4 : Fin k4_t1_loop.trips := ⟨4, by decide⟩

abbrev XT (qt : PosShare TreeShare) (X : Buf (Elt F) (xLoc d)) : sProp 𝕄 :=
  bigSepL [(0 : Fin 5), 1, 2, 3, 4] fun b => xLoc d ↦{Transfers.shareTok qt 5 b} X

abbrev ZT (f : Buf (Elt F) (zLoc d)) : sProp 𝕄 :=
  bigSepL chunkL fun p => zLoc d ↦[(zC L p.1 p.2).view.set]{fullShare} f

abbrev ST : sProp 𝕄 := bigSepL (semL.map fun sm => ((thrL d L, sm) : GSem nD τ sig)) (fun g => semVal g 0)

theorem slot_read_write_same (off : Fin 3 → Nat) (h : ∀ a, off a + S1x80x128.size a ≤ S5x80x128.size a)
    (G : Buf (Elt F) ((thrL d L).loc cc4_scratch1)) (P : S80x128.Idx → Elt F .f32) :
    (slotM off h).view.read (Elt F) (View.write (Elt F) (slotM off h).view G P Finset.univ) = P := by
  funext x
  rw [View.read_apply, View.write_emb_of_mem _ _ (Finset.mem_univ x), cast_cast, cast_eq]

theorem slot_disjoint (off off' : Fin 3 → Nat) (h : ∀ a, off a + S1x80x128.size a ≤ S5x80x128.size a)
    (h' : ∀ a, off' a + S1x80x128.size a ≤ S5x80x128.size a) (hne : off 0 ≠ off' 0) :
    Disjoint (slotM off h).view.set (slotM off' h').view.set := by
  show Disjoint (((View.whole cc4_scratch1).slice (Rect.unit (s := S5x80x128) off S1x80x128.size h)).reshape S80x128 squeezes_S1x80x128_S80x128.numel_eq).set
    (((View.whole cc4_scratch1).slice (Rect.unit (s := S5x80x128) off' S1x80x128.size h')).reshape S80x128 squeezes_S1x80x128_S80x128.numel_eq).set
  rw [View.set_reshape, View.set_reshape, View.set_slice_whole, View.set_slice_whole]
  refine Rect.unit_disjoint (0 : Fin 3) ?_
  rcases Nat.lt_or_gt_of_ne hne with hlt | hgt
  · left; show off 0 + 1 ≤ off' 0; omega
  · right; show off' 0 + 1 ≤ off 0; omega

theorem slot_read_write_other (off off' : Fin 3 → Nat) (h : ∀ a, off a + S1x80x128.size a ≤ S5x80x128.size a)
    (h' : ∀ a, off' a + S1x80x128.size a ≤ S5x80x128.size a) (hne : off 0 ≠ off' 0)
    (G : Buf (Elt F) ((thrL d L).loc cc4_scratch1)) (P' : S80x128.Idx → Elt F .f32) :
    (slotM off h).view.read (Elt F) (View.write (Elt F) (slotM off' h').view G P' Finset.univ) = (slotM off h).view.read (Elt F) G := by
  funext x
  rw [View.read_apply, View.read_apply, View.write_of_not_mem]
  rw [View.setOn_univ]
  exact Finset.disjoint_left.mp (slot_disjoint off off' h h' hne) (View.emb_mem_set (slotM off h).view x)

theorem z_fin (X : Buf (Elt F) (xLoc d)) (I : Buf (Elt F) (iLoc d)) (t : Fin k4_t1_loop.trips) (r : Fin 5) (fz : Buf (Elt F) (zLoc d))
    (P : S80x128.Idx → Elt F .f32) (hP : ∀ x, gath d X I ((zC L t r).view.emb x) = P x) :
    ((zC L t r).view.loc (thrL d L) ↦[(zC L t r).view.set]{fullShare} (zC L t r).view.writes (Elt F) fz [⟨Rect.whole S80x128, P⟩] : sProp 𝕄)
      = (zLoc d ↦[(zC L t r).view.set]{fullShare} gath d X I) := by
  refine pointsTo_congr fun y hy => ?_
  obtain ⟨x, -, rfl⟩ := Finset.mem_map.mp hy
  have h1 := View.read_writes_cons_emb (v := (zC L t r).view) (f := fz) (Rect.whole S80x128) P [] x
  rw [Rect.emb_whole_apply, View.read_apply] at h1
  exact ((cast_eq _ _).symm.trans h1).trans (hP x).symm

theorem waits_ok {W W' : Waits sig (HIx 5)} (sm : SemLoc sig) (h : ∀ p ∈ W', p ∈ W ∨ p.2 = none) :
    ∀ p ∈ insert (sm, (default : HIx 5)) W', p ∈ W ∨ p.2 = none := by
  intro p hp
  rcases Finset.mem_insert.mp hp with rfl | hp
  · exact .inr rfl
  · exact h p hp
theorem waits_ok₀ {W : Waits sig (HIx 5)} : ∀ p ∈ W, p ∈ W ∨ p.2 = none := fun _ hp => .inl hp

theorem pts_x (q : PosShare TreeShare) (X : Buf (Elt F) (xLoc d)) :
    (xLoc d ↦{q} X : sProp 𝕄) = ((xM).view.loc (thrL d L) ↦[(xM).view.set]{q} X) := by
  simp only [Memref.view_whole, View.set_whole]
theorem pts_s0 (f : Buf (Elt F) ((thrL d L).loc cc4_scratch0)) :
    ((thrL d L).loc cc4_scratch0 ↦{fullShare} f : sProp 𝕄) = ((sI).view.loc (thrL d L) ↦[(sI).view.set]{fullShare} f) := by
  simp only [Memref.view_whole, View.set_whole]
theorem pts_s1 (f : Buf (Elt F) ((thrL d L).loc cc4_scratch1)) :
    ((thrL d L).loc cc4_scratch1 ↦{fullShare} f : sProp 𝕄) = ((sR).view.loc (thrL d L) ↦[(sR).view.set]{fullShare} f) := by
  simp only [Memref.view_whole, View.set_whole]

end Cert.Proof.KI.Sc2

end
-- ==== Proof.ScTile2.lean ====
import proofs.«212107_g53927609368716_cont_9to1_m_409_29_alg».proof.Proof.ScPre2

noncomputable section

namespace Cert.Proof.KI.Sc2

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Named F] [Cert.KernelIdeal.Facts]

local notation "𝕄" => MT nD τ sig (HIx 5) (Elt F) ℕ UU ℕ

local notation "sI" => (Memref.whole Cert.KernelIdeal.cc4_scratch0 : Memref Cert.KernelIdeal.sig Kind.scVector Space.vmem Cert.KernelIdeal.S25x80 EltTy.i32)
local notation "sR" => (Memref.whole Cert.KernelIdeal.cc4_scratch1 : Memref Cert.KernelIdeal.sig Kind.scVector Space.vmem Cert.KernelIdeal.S5x80x128 EltTy.f32)
local notation "xM" => (Memref.whole Cert.KernelIdeal.main_arg0_scv : Memref Cert.KernelIdeal.sig Kind.scVector Space.hbm Cert.KernelIdeal.S10000x128 EltTy.f32)
local notation "iM" => (Memref.whole Cert.KernelIdeal.main_v16_scv : Memref Cert.KernelIdeal.sig Kind.scVector Space.hbm Cert.KernelIdeal.S32x25x80 EltTy.i32)
local notation "zM" => (Memref.whole Cert.KernelIdeal.main_v17_scv : Memref Cert.KernelIdeal.sig Kind.scVector Space.hbm Cert.KernelIdeal.S64000x128 EltTy.f32)

variable (d : Dev nD) (L : grid4.Coords)

theorem xt_eq (qt : PosShare TreeShare) (X : Buf (Elt F) (xLoc d)) :
    XT d qt X = iprop(((xM).view.loc (thrL d L) ↦[(xM).view.set]{Transfers.shareTok qt 5 0} X) ∗ ((xM).view.loc (thrL d L) ↦[(xM).view.set]{Transfers.shareTok qt 5 1} X) ∗ ((xM).view.loc (thrL d L) ↦[(xM).view.set]{Transfers.shareTok qt 5 2} X) ∗ ((xM).view.loc (thrL d L) ↦[(xM).view.set]{Transfers.shareTok qt 5 3} X) ∗ ((xM).view.loc (thrL d L) ↦[(xM).view.set]{Transfers.shareTok qt 5 4} X)) := by
  simp only [← pts_x d L]; rfl

theorem zt_eq (f : Buf (Elt F) (zLoc d)) :
    ZT d L f = iprop((zLoc d ↦[(zC L T0 0).view.set]{fullShare} f) ∗ (zLoc d ↦[(zC L T0 1).view.set]{fullShare} f) ∗ (zLoc d ↦[(zC L T0 2).view.set]{fullShare} f) ∗ (zLoc d ↦[(zC L T0 3).view.set]{fullShare} f) ∗ (zLoc d ↦[(zC L T0 4).view.set]{fullShare} f) ∗ (zLoc d ↦[(zC L T1 0).view.set]{fullShare} f) ∗ (zLoc d ↦[(zC L T1 1).view.set]{fullShare} f) ∗ (zLoc d ↦[(zC L T1 2).view.set]{fullShare} f) ∗ (zLoc d ↦[(zC L T1 3).view.set]{fullShare} f) ∗ (zLoc d ↦[(zC L T1 4).view.set]{fullShare} f) ∗ (zLoc d ↦[(zC L T2 0).view.set]{fullShare} f) ∗ (zLoc d ↦[(zC L T2 1).view.set]{fullShare} f) ∗ (zLoc d ↦[(zC L T2 2).view.set]{fullShare} f) ∗ (zLoc d ↦[(zC L T2 3).view.set]{fullShare} f) ∗ (zLoc d ↦[(zC L T2 4).view.set]{fullShare} f) ∗ (zLoc d ↦[(zC L T3 0).view.set]{fullShare} f) ∗ (zLoc d ↦[(zC L T3 1).view.set]{fullShare} f) ∗ (zLoc d ↦[(zC L T3 2).view.set]{fullShare} f) ∗ (zLoc d ↦[(zC L T3 3).view.set]{fullShare} f) ∗ (zLoc d ↦[(zC L T3 4).view.set]{fullShare} f) ∗ (zLoc d ↦[(zC L T4 0).view.set]{fullShare} f) ∗ (zLoc d ↦[(zC L T4 1).view.set]{fullShare} f) ∗ (zLoc d ↦[(zC L T4 2).view.set]{fullShare} f) ∗ (zLoc d ↦[(zC L T4 3).view.set]{fullShare} f) ∗ (zLoc d ↦[(zC L T4 4).view.set]{fullShare} f)) := rfl

theorem pts_z (t : Fin k4_t1_loop.trips) (r : Fin 5) (f : Buf (Elt F) (zLoc d)) :
    (zLoc d ↦[(zC L t r).view.set]{fullShare} f : sProp 𝕄) = ((zC L t r).view.loc (thrL d L) ↦[(zC L t r).view.set]{fullShare} f) := rfl

theorem st_eq : (ST d L : sProp 𝕄) = iprop(semVal (thrL d L, SemLoc.dma gS0) 0 ∗ semVal (thrL d L, SemLoc.dma gS1) 0 ∗ semVal (thrL d L, SemLoc.dma gS2) 0 ∗ semVal (thrL d L, SemLoc.dma gS3) 0 ∗ semVal (thrL d L, SemLoc.dma gS4) 0 ∗ semVal (thrL d L, SemLoc.dma wS0) 0 ∗ semVal (thrL d L, SemLoc.dma wS1) 0 ∗ semVal (thrL d L, SemLoc.dma wS2) 0 ∗ semVal (thrL d L, SemLoc.dma wS3) 0 ∗ semVal (thrL d L, SemLoc.dma wS4) 0 ∗ semVal (thrL d L, SemLoc.dma cS) 0) := rfl

set_option maxHeartbeats 16000000 in
theorem tile_run (O : CellTallies nD τ sig (HIx 5)) (W : Waits sig (HIx 5)) (hO : ∀ g, O g none = 0)
    (X : Buf (Elt F) (xLoc d)) (I : Buf (Elt F) (iLoc d)) (hI : IdxOK d I)
    (fs : Buf (Elt F) ((thrL d L).loc cc4_scratch0)) (fr : Buf (Elt F) ((thrL d L).loc cc4_scratch1))
    (fz : Buf (Elt F) (zLoc d)) (qt : PosShare TreeShare) :
    (iprop(levAts (K (F := F)).L (K (F := F)).lev ∗ XT d qt X
        ∗ (iLoc d ↦[(iPl L).view.set]{fullShare} I)
        ∗ ((thrL d L).loc cc4_scratch0 ↦{fullShare} fs) ∗ ((thrL d L).loc cc4_scratch1 ↦{fullShare} fr)
        ∗ ZT d L fz ∗ ST d L ∗ owes (thrL d L) O W) : sProp 𝕄)
      ⊢ wp frame (wpE (defs₀ (F := F)) 𝒱₀ (thrL d L) none) Set.univ
          (cc4_k L xM (Memref.isWhole_whole _) iM (Memref.isWhole_whole _) zM (Memref.isWhole_whole _) sI (Memref.isWhole_whole _) sR (Memref.isWhole_whole _) cc4_scratch2 cc4_scratch3 cc4_scoped0)
          fun _ => iprop(XT d qt X ∗ (iLoc d ↦[(iPl L).view.set]{fullShare} I)
            ∗ (∃ f, (thrL d L).loc cc4_scratch0 ↦{fullShare} f) ∗ (∃ f, (thrL d L).loc cc4_scratch1 ↦{fullShare} f)
            ∗ ZT d L (gath d X I) ∗ ST d L ∗ ∃ W', ⌜∀ p ∈ W', p ∈ W ∨ p.2 = none⌝ ∗ owes (thrL d L) O W') := by
  have hin := hin_ok d L I hI
  simp only [cc4_k_eq_skeleton]; unfold cc4_k_skel
  iintro ⟨#Hlv, HX, Hi, Hs, Hr, HZ, HS, HO⟩
  ihave Hmw := ((K (F := F)).mayWaits_none (thr := thrL d L) hO) $$ Hlv
  ihave ⟨Hz00, Hz01, Hz02, Hz03, Hz04, Hz10, Hz11, Hz12, Hz13, Hz14, Hz20, Hz21, Hz22, Hz23, Hz24, Hz30, Hz31, Hz32, Hz33, Hz34, Hz40, Hz41, Hz42, Hz43, Hz44⟩ := (Entails.of_eq (zt_eq d L fz)) $$ HZ
  ihave ⟨Hg0, Hg1, Hg2, Hg3, Hg4, Hw0, Hw1, Hw2, Hw3, Hw4, Hc⟩ := (Entails.of_eq (st_eq d L)) $$ HS
  ihave ⟨Hx0, Hx1, Hx2, Hx3, Hx4⟩ := (Entails.of_eq (xt_eq d L qt X)) $$ HX
  ihave Hi := (Entails.of_eq (show (iLoc d ↦[(iPl L).view.set]{fullShare} I : sProp 𝕄) = ((iPl L).view.loc (thrL d L) ↦[(iPl L).view.set]{fullShare} I) from rfl)) $$ Hi
  ihave Hs := (Entails.of_eq (pts_s0 d L fs)) $$ Hs
  ihave Hr := (Entails.of_eq (pts_s1 d L fr)) $$ Hr
  ihave Hz00 := (Entails.of_eq (pts_z d L T0 0 fz)) $$ Hz00
  ihave Hz01 := (Entails.of_eq (pts_z d L T0 1 fz)) $$ Hz01
  ihave Hz02 := (Entails.of_eq (pts_z d L T0 2 fz)) $$ Hz02
  ihave Hz03 := (Entails.of_eq (pts_z d L T0 3 fz)) $$ Hz03
  ihave Hz04 := (Entails.of_eq (pts_z d L T0 4 fz)) $$ Hz04
  ihave Hz10 := (Entails.of_eq (pts_z d L T1 0 fz)) $$ Hz10
  ihave Hz11 := (Entails.of_eq (pts_z d L T1 1 fz)) $$ Hz11
  ihave Hz12 := (Entails.of_eq (pts_z d L T1 2 fz)) $$ Hz12
  ihave Hz13 := (Entails.of_eq (pts_z d L T1 3 fz)) $$ Hz13
  ihave Hz14 := (Entails.of_eq (pts_z d L T1 4 fz)) $$ Hz14
  ihave Hz20 := (Entails.of_eq (pts_z d L T2 0 fz)) $$ Hz20
  ihave Hz21 := (Entails.of_eq (pts_z d L T2 1 fz)) $$ Hz21
  ihave Hz22 := (Entails.of_eq (pts_z d L T2 2 fz)) $$ Hz22
  ihave Hz23 := (Entails.of_eq (pts_z d L T2 3 fz)) $$ Hz23
  ihave Hz24 := (Entails.of_eq (pts_z d L T2 4 fz)) $$ Hz24
  ihave Hz30 := (Entails.of_eq (pts_z d L T3 0 fz)) $$ Hz30
  ihave Hz31 := (Entails.of_eq (pts_z d L T3 1 fz)) $$ Hz31
  ihave Hz32 := (Entails.of_eq (pts_z d L T3 2 fz)) $$ Hz32
  ihave Hz33 := (Entails.of_eq (pts_z d L T3 3 fz)) $$ Hz33
  ihave Hz34 := (Entails.of_eq (pts_z d L T3 4 fz)) $$ Hz34
  ihave Hz40 := (Entails.of_eq (pts_z d L T4 0 fz)) $$ Hz40
  ihave Hz41 := (Entails.of_eq (pts_z d L T4 1 fz)) $$ Hz41
  ihave Hz42 := (Entails.of_eq (pts_z d L T4 2 fz)) $$ Hz42
  ihave Hz43 := (Entails.of_eq (pts_z d L T4 3 fz)) $$ Hz43
  ihave Hz44 := (Entails.of_eq (pts_z d L T4 4 fz)) $$ Hz44
  sl_exec
  sl_unroll
  sl_exec
  sl_step
  isplitl [Hx0 Hx1 Hx2 Hx3 Hx4]
  · iapply (Entails.of_eq (xt_eq d L qt X).symm)
    isplitl [Hx0]; · iexact Hx0
    isplitl [Hx1]; · iexact Hx1
    isplitl [Hx2]; · iexact Hx2
    isplitl [Hx3]; · iexact Hx3
    iexact Hx4
  isplitl [Hi]; · iexact Hi
  isplitl [Hs]; · iexists _; iapply (Entails.of_eq (pts_s0 d L _).symm); iexact Hs
  isplitl [Hr]; · iexists _; iapply (Entails.of_eq (pts_s1 d L _).symm); iexact Hr
  isplitr [Hg0 Hg1 Hg2 Hg3 Hg4 Hw0 Hw1 Hw2 Hw3 Hw4 Hc HO]
  · iapply (Entails.of_eq (zt_eq d L (gath d X I)).symm)
    have zf := fun t r P hP => Entails.of_eq (z_fin d L X I t r fz P hP)
    isplitl [Hz00]; iapply (zf T0 0 _ ?_); rotate_left; iexact Hz00
    isplitl [Hz01]; iapply (zf T0 1 _ ?_); rotate_left; iexact Hz01
    isplitl [Hz02]; iapply (zf T0 2 _ ?_); rotate_left; iexact Hz02
    isplitl [Hz03]; iapply (zf T0 3 _ ?_); rotate_left; iexact Hz03
    isplitl [Hz04]; iapply (zf T0 4 _ ?_); rotate_left; iexact Hz04
    isplitl [Hz10]; iapply (zf T1 0 _ ?_); rotate_left; iexact Hz10
    isplitl [Hz11]; iapply (zf T1 1 _ ?_); rotate_left; iexact Hz11
    isplitl [Hz12]; iapply (zf T1 2 _ ?_); rotate_left; iexact Hz12
    isplitl [Hz13]; iapply (zf T1 3 _ ?_); rotate_left; iexact Hz13
    isplitl [Hz14]; iapply (zf T1 4 _ ?_); rotate_left; iexact Hz14
    isplitl [Hz20]; iapply (zf T2 0 _ ?_); rotate_left; iexact Hz20
    isplitl [Hz21]; iapply (zf T2 1 _ ?_); rotate_left; iexact Hz21
    isplitl [Hz22]; iapply (zf T2 2 _ ?_); rotate_left; iexact Hz22
    isplitl [Hz23]; iapply (zf T2 3 _ ?_); rotate_left; iexact Hz23
    isplitl [Hz24]; iapply (zf T2 4 _ ?_); rotate_left; iexact Hz24
    isplitl [Hz30]; iapply (zf T3 0 _ ?_); rotate_left; iexact Hz30
    isplitl [Hz31]; iapply (zf T3 1 _ ?_); rotate_left; iexact Hz31
    isplitl [Hz32]; iapply (zf T3 2 _ ?_); rotate_left; iexact Hz32
    isplitl [Hz33]; iapply (zf T3 3 _ ?_); rotate_left; iexact Hz33
    isplitl [Hz34]; iapply (zf T3 4 _ ?_); rotate_left; iexact Hz34
    isplitl [Hz40]; iapply (zf T4 0 _ ?_); rotate_left; iexact Hz40
    isplitl [Hz41]; iapply (zf T4 1 _ ?_); rotate_left; iexact Hz41
    isplitl [Hz42]; iapply (zf T4 2 _ ?_); rotate_left; iexact Hz42
    isplitl [Hz43]; iapply (zf T4 3 _ ?_); rotate_left; iexact Hz43
    iapply (zf T4 4 _ ?_); rotate_left; iexact Hz44
    all_goals
      intro x
      show _ = View.read (Elt F) (slotM _ _).view _ x
      repeat (first | rw [slot_read_write_same d L] | (rw [slot_read_write_other d L]; on_goal 2 => decide))
      exact chunk_val d L X I hI _ _ _ _ (by first | rfl | (rw [k4_off3_eq]; rfl) | (rw [k4_off7_eq]; rfl) | (rw [k4_off9_eq]; rfl) | (rw [k4_off11_eq]; rfl) | (rw [k4_off13_eq]; rfl) | decide) _ _ _ x
  isplitr [HO]
  · iapply (Entails.of_eq (st_eq d L).symm)
    isplitl [Hg0]; · iexact Hg0
    isplitl [Hg1]; · iexact Hg1
    isplitl [Hg2]; · iexact Hg2
    isplitl [Hg3]; · iexact Hg3
    isplitl [Hg4]; · iexact Hg4
    isplitl [Hw0]; · iexact Hw0
    isplitl [Hw1]; · iexact Hw1
    isplitl [Hw2]; · iexact Hw2
    isplitl [Hw3]; · iexact Hw3
    isplitl [Hw4]; · iexact Hw4
    iexact Hc
  iexists _
  isplitr
  on_goal 2 => iexact HO
  ipureintro
  repeat (first | exact waits_ok₀ | refine waits_ok _ ?_)

end Cert.Proof.KI.Sc2

end
-- ==== Proof.ScBody2.lean ====
import proofs.«212107_g53927609368716_cont_9to1_m_409_29_alg».proof.Proof.ScTile2

noncomputable section

namespace Cert.Proof.KI.Sc2

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Named F] [Cert.KernelIdeal.Facts]

local notation "𝕄" => MT nD τ sig (HIx 5) (Elt F) ℕ UU ℕ

variable (d : Dev nD) (L : grid4.Coords)

-- The tile's run with the rest framed off: its share of the table as five tokens, its rows of the result by chunks.
theorem tile_body (hF : (K (F := F)).Facts) (q : PosShare TreeShare)
    (X : Buf (Elt F) (xLoc d)) (I : Buf (Elt F) (iLoc d)) (hI : IdxOK d I)
    (O : CellTallies nD τ sig (HIx 5)) (W : Waits sig (HIx 5)) (hO : ∀ g, O g none = 0) :
    iprop(levAts (K (F := F)).L (K (F := F)).lev ∗ go d q X I (cL L) (jL L)
        ∗ scopedBufs (thrL d L) ∗ scopedSems0 (thrL d L) ∗ owes (thrL d L) O W)
      ⊢ wp frame (wpE (defs₀ (F := F)) 𝒱₀ (thrL d L) none) Set.univ
          (cc4_k L (Memref.whole main_arg0_scv) (Memref.isWhole_whole _) (Memref.whole main_v16_scv) (Memref.isWhole_whole _) (Memref.whole main_v17_scv) (Memref.isWhole_whole _)
            (Memref.whole cc4_scratch0) (Memref.isWhole_whole _) (Memref.whole cc4_scratch1) (Memref.isWhole_whole _) cc4_scratch2 cc4_scratch3 cc4_scoped0)
          fun _ => iprop(td d q X I (cL L) (jL L) ∗ scopedBufs (thrL d L) ∗ scopedSems0 (thrL d L)
            ∗ ∃ W', ⌜∀ p ∈ W', p ∈ W ∨ p.2 = none⌝ ∗ owes (thrL d L) O W') := by
  unfold go td
  have h : (xLoc d ↦{qTile q (cL L) (jL L)} X : sProp 𝕄) ⊣⊢ _ := Transfers.pointsTo_toks _ 5
  rw [(K (F := F)).scopedBufs_V hF d _ _, SparseCore.Cfg.scopedSems0_V (Val := Elt F) d _ _, ownSems0_split, ownBufs_split,
    ← set_iPl L, zRows_chunks d L (gath d X I), BI.Entails.antisymm h.1 h.2,
    bigSep_univ_eq_bigSepL [(0 : Fin 5), 1, 2, 3, 4] (by decide) (by decide)]
  iintro ⟨#Hlv, ⟨⟨Hxd, Hxt⟩, Hi, %fz, Hz⟩, ⟨⟨%fs, Hs⟩, ⟨%fr, Hr⟩, Hbufs⟩, ⟨Hsems, Hsrest⟩, HO⟩
  ihave Hz := (Entails.of_eq (zRows_chunks d L fz)) $$ Hz
  iapply (wp_wand_r frame _ _)
  isplitl [Hxt Hi Hs Hr Hz Hsems HO]
  · iapply (tile_run d L O W hO X I hI fs fr fz (qTile q (cL L) (jL L)))
    isplitr; · iexact Hlv
    isplitl [Hxt]; · iexact Hxt
    isplitl [Hi]; · iexact Hi
    isplitl [Hs]; · iexact Hs
    isplitl [Hr]; · iexact Hr
    isplitl [Hz]; · iexact Hz
    isplitl [Hsems]; · iexact Hsems
    iexact HO
  iintro %_ ⟨Hxt, Hi, Hs, Hr, Hz, Hsems, HO⟩
  isplitl [Hxd Hxt Hi Hz]
  · isplitl [Hxd Hxt]
    · isplitl [Hxd]; · iexact Hxd
      iexact Hxt
    isplitl [Hi]; · iexact Hi
    iexact Hz
  isplitl [Hs Hr Hbufs]
  · isplitl [Hs]; · iexact Hs
    isplitl [Hr]; · iexact Hr
    iexact Hbufs
  isplitl [Hsems Hsrest]
  · isplitl [Hsems]; · iexact Hsems
    iexact Hsrest
  iexact HO

end Cert.Proof.KI.Sc2

end
-- ==== Proof.ScVal3.lean ====
import proofs.«212107_g53927609368716_cont_9to1_m_409_29_alg».proof.Proof.ScCall3Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«212107_g53927609368716_cont_9to1_m_409_29_alg».proof.Proof.Gen.KernelIdeal.Skeleton

noncomputable section

namespace Cert.Proof.KI.Sc3

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Named F] [Cert.KernelIdeal.Facts]

local notation "𝕄" => MT nD τ sig (HIx 5) (Elt F) ℕ UU ℕ

abbrev callIx : Fin 5 := 3
abbrev labIx : Fin 10 := 6

local notation "sI" => (Memref.whole Cert.KernelIdeal.cc6_scratch0 : Memref Cert.KernelIdeal.sig Kind.scVector Space.vmem Cert.KernelIdeal.S25x80 EltTy.i32)
local notation "sR" => (Memref.whole Cert.KernelIdeal.cc6_scratch1 : Memref Cert.KernelIdeal.sig Kind.scVector Space.vmem Cert.KernelIdeal.S5x80x128 EltTy.f32)
local notation "xM" => (Memref.whole Cert.KernelIdeal.main_arg0_scv : Memref Cert.KernelIdeal.sig Kind.scVector Space.hbm Cert.KernelIdeal.S10000x128 EltTy.f32)
local notation "iM" => (Memref.whole Cert.KernelIdeal.main_v21_scv : Memref Cert.KernelIdeal.sig Kind.scVector Space.hbm Cert.KernelIdeal.S32x25x80 EltTy.i32)
local notation "zM" => (Memref.whole Cert.KernelIdeal.main_v22_scv : Memref Cert.KernelIdeal.sig Kind.scVector Space.hbm Cert.KernelIdeal.S64000x128 EltTy.f32)

variable (d : Dev nD) (L : grid6.Coords)

abbrev prL (L : grid6.Coords) : Proc τ := .scVector ((L 0).castLE hcore6) ((L 1).castLE hsub6)
abbrev thrL (L : grid6.Coords) : Thread nD τ := V d ((L 0).castLE hcore6) ((L 1).castLE hsub6)

abbrev iPl (L : grid6.Coords) : Memref sig .scVector .hbm S25x80 .i32 :=
  ((iM).slice (Rect.unit (s := S32x25x80) (k6_off1 L) S1x25x80.size (k6_off1_inb L)) (fun _ => rfl)).squeeze S25x80 squeezes_S1x25x80_S25x80
abbrev sRow (off : Fin 2 → Nat) (h : ∀ a, off a + S1x80.size a ≤ S25x80.size a) : Memref sig .scVector .vmem S80 .i32 :=
  ((sI).slice (Rect.unit (s := S25x80) off S1x80.size h) (fun _ => rfl)).squeeze S80 squeezes_S1x80_S80
abbrev slotM (off : Fin 3 → Nat) (h : ∀ a, off a + S1x80x128.size a ≤ S5x80x128.size a) : Memref sig .scVector .vmem S80x128 .f32 :=
  ((sR).slice (Rect.unit (s := S5x80x128) off S1x80x128.size h) (fun _ => rfl)).squeeze S80x128 squeezes_S1x80x128_S80x128

abbrev semAt (A : DmaSems sig S5) (o : Fin 1 → Nat) (h : ∀ a, o a + S1.size a ≤ S5.size a) : DmaSem sig :=
  SemArray.sem (SemArray.squeeze (SemArray.slice A (Rect.unit (s := S5) o S1.size h)) S_ squeezes_S1_S_)
abbrev gS0 : DmaSem sig := semAt cc6_scratch2 ![0] inb_S5_S1_0
abbrev gS1 : DmaSem sig := semAt cc6_scratch2 ![1] inb_S5_S1_1
abbrev gS2 : DmaSem sig := semAt cc6_scratch2 ![2] inb_S5_S1_2
abbrev gS3 : DmaSem sig := semAt cc6_scratch2 ![3] inb_S5_S1_3
abbrev gS4 : DmaSem sig := semAt cc6_scratch2 ![4] inb_S5_S1_4
abbrev wS0 : DmaSem sig := semAt cc6_scratch3 ![0] inb_S5_S1_0
abbrev wS1 : DmaSem sig := semAt cc6_scratch3 ![1] inb_S5_S1_1
abbrev wS2 : DmaSem sig := semAt cc6_scratch3 ![2] inb_S5_S1_2
abbrev wS3 : DmaSem sig := semAt cc6_scratch3 ![3] inb_S5_S1_3
abbrev wS4 : DmaSem sig := semAt cc6_scratch3 ![4] inb_S5_S1_4
abbrev cS : DmaSem sig := SemArray.sem cc6_scoped0

abbrev zC (L : grid6.Coords) (t : Fin k6_t1_loop.trips) (r : Fin 5) : Memref sig .scVector .hbm S80x128 .f32 :=
  (zM).slice (Rect.unit (s := S64000x128) (k6_off5 L t (BitVec.ofNat 32 r.val)) S80x128.size (k6_off5_inb L t r)) (fun _ => rfl)

abbrev idxPay (L : grid6.Coords) (I : Buf (Elt F) (iLoc d)) : S25x80.Idx → Elt F .i32 :=
  ReadAs.same.apply ((iPl L).view.read (Elt F) I)

theorem bound_zero : grid6.bound 0 = 2 := rfl
theorem bound_one : grid6.bound 1 = 16 := rfl
abbrev cL (L : grid6.Coords) : Fin 2 := Fin.cast bound_zero (L 0)
abbrev jL (L : grid6.Coords) : Fin 16 := Fin.cast bound_one (L 1)
abbrev wL (L : grid6.Coords) : Fin 32 := wid (cL L) (jL L)

theorem trips_eq : k6_t1_loop.trips = 5 := by decide

theorem set_iPl : (iPl L).view.set = iRows (wL L) := by
  have e : Rect.unit (s := S32x25x80) (k6_off1 L) S1x25x80.size (k6_off1_inb L) = iPart (wL L) := by
    unfold iPart Rect.part Rect.block
    congr 1 <;> funext a <;> (try rw [k6_off1_eq]) <;>
      (match a with
       | 0 | 1 | 2 => simp [Shape.partIx, Shape.partSize, wid])
  show (((iM).view.slice (Rect.unit (s := S32x25x80) (k6_off1 L) S1x25x80.size (k6_off1_inb L))).reshape S25x80 squeezes_S1x25x80_S25x80.numel_eq).set
    = ((iM).view.slice (iPart (wL L))).set
  rw [View.set_reshape]
  exact e ▸ rfl

-- A block of whole rows of `z` is the rows from its first on.
theorem mem_rows {off sz : Fin 2 → Nat} {h : ∀ a, off a + sz a ≤ S64000x128.size a} (y : S64000x128.Idx) {o n : Nat}
    (h0 : off 0 = o) (hn : sz 0 = n) (h1 : off 1 = 0) (h2 : sz 1 = 128) :
    y ∈ ((View.whole main_v22_scv).slice (Rect.unit (s := S64000x128) off sz h)).set ↔ o ≤ (y 0).val ∧ (y 0).val < o + n := by
  have : (y 1).val < 128 := (y 1).isLt
  rw [View.set_slice_whole, Rect.mem_set_unit]
  show (∀ a : Fin 2, off a ≤ (y a).val ∧ (y a).val < off a + sz a) ↔ _
  rw [Fin.forall_fin_two, h0, hn, h1, h2]
  omega

theorem mem_zC (t : Fin k6_t1_loop.trips) (r : Fin 5) (y : S64000x128.Idx) :
    y ∈ (zC L t r).view.set ↔ 4000 * (L 1).val + 2000 * (L 0).val + 400 * t.val + 80 * r.val ≤ (y 0).val
      ∧ (y 0).val < 4000 * (L 1).val + 2000 * (L 0).val + 400 * t.val + 80 * r.val + 80 :=
  mem_rows y (by rw [k6_off5_eq]; rfl) (by rfl) (by rw [k6_off5_eq]; rfl) (by rfl)

theorem mem_zRows (w : Fin 32) (y : S64000x128.Idx) : y ∈ zRows w ↔ w.val * 2000 ≤ (y 0).val ∧ (y 0).val < w.val * 2000 + 2000 :=
  mem_rows y (by rfl) (by rfl) (by rfl) (by rfl)

theorem zC_disjoint : ∀ p ∈ (Finset.univ : Finset (Fin k6_t1_loop.trips × Fin 5)), ∀ p' ∈ (Finset.univ : Finset (Fin k6_t1_loop.trips × Fin 5)),
    p ≠ p' → Disjoint (zC L p.1 p.2).view.set (zC L p'.1 p'.2).view.set := by
  intro p _ p' _ hne
  rw [Finset.disjoint_left]
  intro y hy hy'
  rw [mem_zC] at hy hy'
  have := p.2.isLt
  have := p'.2.isLt
  exact hne (Prod.ext (Fin.ext (by omega)) (Fin.ext (by omega)))

-- The twenty-five chunks of eighty rows tile the worker's two thousand.
theorem zC_cover : (Finset.univ : Finset (Fin k6_t1_loop.trips × Fin 5)).biUnion (fun p => (zC L p.1 p.2).view.set) = zRows (wL L) := by
  ext y
  have hw : (wL L).val = 2 * (L 1).val + (L 0).val := rfl
  have h5 := trips_eq
  rw [Finset.mem_biUnion, mem_zRows]
  constructor
  · rintro ⟨p, -, hp⟩
    rw [mem_zC] at hp
    have := p.1.isLt
    have := p.2.isLt
    omega
  · intro hy
    refine ⟨(⟨((y 0).val - 2000 * (wL L).val) / 400, by omega⟩, ⟨((y 0).val - 2000 * (wL L).val) % 400 / 80, by omega⟩), Finset.mem_univ _, ?_⟩
    rw [mem_zC]
    dsimp only
    omega

abbrev semL : List (SemLoc sig) :=
  [.dma gS0, .dma gS1, .dma gS2, .dma gS3, .dma gS4, .dma wS0, .dma wS1, .dma wS2, .dma wS3, .dma wS4, .dma cS]

theorem semL_nodup : semL.Nodup := by decide
theorem semL_scoped : ∀ sm ∈ semL, sm.isScoped .scVector = true := by decide

theorem ownSems0_split :
    (ownSems0 (thrL d L) : sProp 𝕄)
      = iprop(bigSepL (semL.map fun sm => ((thrL d L, sm) : GSem nD τ sig)) (fun g => semVal g 0)
          ∗ bigSep (ownCells (thrL d L) \ (semL.map fun sm => ((thrL d L, sm) : GSem nD τ sig)).toFinset) fun g => semVal g 0) := by
  unfold SparseCore.Cfg.ownSems0
  have hsub : (semL.map fun sm => ((thrL d L, sm) : GSem nD τ sig)).toFinset ⊆ ownCells (thrL d L) := by
    intro g hg
    obtain ⟨sm, hsm, rfl⟩ := List.mem_map.mp (List.mem_toFinset.mp hg)
    exact mem_ownCells.mpr ⟨rfl, semL_scoped sm hsm⟩
  rw [SparseCore.bigSep_sdiff_split' hsub, bigSep_eq_bigSepL _ (List.Nodup.map (fun a b e => (Prod.mk.inj e).2) semL_nodup)]

theorem ownBufs_split :
    (ownBufs (thrL d L) : sProp 𝕄)
      = iprop((∃ f, (thrL d L).loc cc6_scratch0 ↦{fullShare} f) ∗ (∃ f, (thrL d L).loc cc6_scratch1 ↦{fullShare} f)
          ∗ bigSep (((ownRefs (τ := τ) (prL L)).erase ((prL L).devRef cc6_scratch0)).erase ((prL L).devRef cc6_scratch1))
              fun b => iprop(∃ f, ((d, b) : Loc nD τ sig) ↦{fullShare} f)) := by
  unfold SparseCore.Cfg.ownBufs
  refine (SparseCore.bigSep_erase' (SparseCore.Cfg.mem_ownRefs_of_owner (p := prL L) (b := (prL L).devRef cc6_scratch0) rfl)).trans ?_
  rw [SparseCore.bigSep_erase' (Finset.mem_erase.mpr ⟨fun e => absurd (Proc.devRef_injective _ e) (show (cc6_scratch1 : Ref sig .scVector) ≠ cc6_scratch0 by decide),
    SparseCore.Cfg.mem_ownRefs_of_owner (p := prL L) (b := (prL L).devRef cc6_scratch1) rfl⟩)]

abbrev tr (n : Nat) (h : n < k6_t1_loop.trips := by decide) : Fin k6_t1_loop.trips := ⟨n, h⟩
abbrev chunkL : List (Fin k6_t1_loop.trips × Fin 5) :=
  [(tr 0, 0), (tr 0, 1), (tr 0, 2), (tr 0, 3), (tr 0, 4), (tr 1, 0), (tr 1, 1), (tr 1, 2), (tr 1, 3), (tr 1, 4), (tr 2, 0), (tr 2, 1), (tr 2, 2), (tr 2, 3), (tr 2, 4), (tr 3, 0), (tr 3, 1), (tr 3, 2), (tr 3, 3), (tr 3, 4), (tr 4, 0), (tr 4, 1), (tr 4, 2), (tr 4, 3), (tr 4, 4)]

theorem zRows_chunks (f : Buf (Elt F) (zLoc d)) :
    (zLoc d ↦[zRows (wL L)]{fullShare} f : sProp 𝕄)
      = bigSepL chunkL fun p => zLoc d ↦[(zC L p.1 p.2).view.set]{fullShare} f := by
  rw [← zC_cover L, pointsTo_biUnion Finset.univ (ℓ := zLoc d) (fun p : Fin k6_t1_loop.trips × Fin 5 => (zC L p.1 p.2).view.set) (zC_disjoint L),
    bigSep_univ_eq_bigSepL chunkL (by decide) (by decide)]

abbrev sW (g : Buf (Elt F) ((thrL d L).loc cc6_scratch0)) (I : Buf (Elt F) (iLoc d)) :=
  (sI).view.writes (Elt F) g [⟨Rect.whole cc6_scratch0.ty.shape, idxPay d L I⟩]
abbrev sRd (I : Buf (Elt F) (iLoc d)) (off : Fin 2 → Nat) (h : ∀ a, off a + S1x80.size a ≤ S25x80.size a)
    (g : Buf (Elt F) ((thrL d L).loc cc6_scratch0)) :=
  (sRow off h).view.read (Elt F) (sW d L g I)

-- After the index copy a row of the index scratch reads the tile's plane of index words, whatever the scratch held.
theorem sRd_eq (I : Buf (Elt F) (iLoc d)) (off : Fin 2 → Nat) (h : ∀ a, off a + S1x80.size a ≤ S25x80.size a)
    (g : Buf (Elt F) ((thrL d L).loc cc6_scratch0)) (y : S80.Idx) :
    sRd d L I off h g y = I ((iPl L).view.emb ((sRow off h).view.emb y)) := by
  have h1 := View.read_writes_cons_emb (v := (sI).view) (f := g) (Rect.whole cc6_scratch0.ty.shape) (idxPay d L I) [] ((sRow off h).view.emb y)
  rw [Rect.emb_whole_apply] at h1
  show (sRow off h).view.read (Elt F) (sW d L g I) y = _
  rw [View.read_apply, cast_eq]
  refine Eq.trans h1 ?_
  show (iPl L).view.read (Elt F) I _ = _
  rw [View.read_apply, cast_eq]

theorem hin_ok (I : Buf (Elt F) (iLoc d)) (hI : IdxOK d I) (g : Buf (Elt F) ((thrL d L).loc cc6_scratch0)) (off : Fin 2 → Nat)
    (h : ∀ a, off a + S1x80.size a ≤ S25x80.size a) (x : S80.Idx) :
    (((sRow off h).view.read (Elt F) ((sI).view.writes (Elt F) g [⟨Rect.whole cc6_scratch0.ty.shape, idxPay d L I⟩])) x).toNat < 10000 := by
  show (sRd d L I off h g x).toNat < 10000
  rw [sRd_eq]
  exact hI _

-- A squeezed unit slice puts the dropped unit axis back at the slice's offset.
theorem iPl_emb (q : S25x80.Idx) : @Eq S32x25x80.Idx ((iPl L).view.emb q) (ix3 (n0 := 32) (n1 := 25) (n2 := 80) (wL L) (q 0) (q 1)) := by
  funext a
  refine Fin.ext ?_
  show k6_off1 L a + 1 * (Shape.reshapeEquiv (s := S1x25x80) (s' := S25x80) squeezes_S1x25x80_S25x80.numel_eq q a).val = _
  rw [Shape.reshapeEquiv_cons_one (n := 2) (d := ![25, 80]), k6_off1_eq]
  match a with
  | ⟨0, _⟩ => rfl
  | ⟨1, _⟩ | ⟨2, _⟩ => exact (Nat.zero_add _).trans (Nat.one_mul _)

theorem sRow_emb (j : Nat) (hj : j < 25) (h : ∀ a, ![j, 0] a + S1x80.size a ≤ S25x80.size a) (y : S80.Idx) :
    @Eq S25x80.Idx ((sRow ![j, 0] h).view.emb y) (ix2 (n0 := 25) (n1 := 80) ⟨j, hj⟩ (y 0)) := by
  funext a
  refine Fin.ext ?_
  show ![j, 0] a + 1 * (Shape.reshapeEquiv (s := S1x80) (s' := S80) squeezes_S1x80_S80.numel_eq y a).val = _
  rw [Shape.reshapeEquiv_cons_one (n := 1) (d := ![80])]
  match a with
  | ⟨0, _⟩ => rfl
  | ⟨1, _⟩ => exact (Nat.zero_add _).trans (Nat.one_mul _)

variable (X : Buf (Elt F) (xLoc d)) (I : Buf (Elt F) (iLoc d))

abbrev xG : Memref sig .scVector .hbm S10000x128 .f32 :=
  (xM).slice (Rect.unit (s := S10000x128) ![0, 0] S10000x128.size inb_S10000x128_S10000x128_0_0) (fun _ => rfl)

theorem emb_xG (i : S10000x128.Idx) : @Eq S10000x128.Idx ((xG).view.emb i) i := by
  funext a
  refine Fin.ext ?_
  match a with
  | ⟨0, _⟩ | ⟨1, _⟩ => exact (Nat.zero_add _).trans (Nat.one_mul _)

-- Row `80 (25 w + 5 t + r) + x₀` of the gathered array is the row of the table that word `(w, 5 t + r, x₀)` names; the
-- chunk's gather reads that word from row `5 t + r` of the index scratch.
theorem chunk_val (hI : IdxOK d I) (t : Fin k6_t1_loop.trips) (r : Fin 5) (off : Fin 2 → Nat)
    (h : ∀ a, off a + S1x80.size a ≤ S25x80.size a) (hoff : off = ![5 * t.val + r.val, 0])
    (g : Buf (Elt F) ((thrL d L).loc cc6_scratch0)) (hn : S80.numel = S80x128.size gathers_S10000x128_S80x128.axis')
    (hin' : ∀ x, (((sRow off h).view.read (Elt F) ((sI).view.writes (Elt F) g [⟨Rect.whole cc6_scratch0.ty.shape, idxPay d L I⟩])) x).toNat < S10000x128.size gathers_S10000x128_S80x128.axis)
    (x : S80x128.Idx) :
    gath d X I ((zC L t r).view.emb x)
      = SparseCore.gatherPayload gathers_S10000x128_S80x128 ((xG).view.read (Elt F) X) (SparseCore.rows ((sRow off h).view.read (Elt F) ((sI).view.writes (Elt F) g [⟨Rect.whole cc6_scratch0.ty.shape, idxPay d L I⟩])) hn hin') x := by
  show _ = SparseCore.gatherPayload gathers_S10000x128_S80x128 ((xG).view.read (Elt F) X) (SparseCore.rows (sRd d L I off h g) hn hin') x
  have ht : t.val < 5 := lt_of_lt_of_eq t.isLt trips_eq
  have hr := r.isLt
  have hx0 : (x 0).val < 80 := (x 0).isLt
  have hw : (wL L).val = 2 * (L 1).val + (L 0).val := rfl
  have e0 : (((zC L t r).view.emb x : S64000x128.Idx) 0).val = 2000 * (wL L).val + 400 * t.val + 80 * r.val + (x 0).val := by
    show k6_off5 L t (BitVec.ofNat 32 r.val) 0 + 1 * (x 0).val = _
    rw [k6_off5_eq]
    simp only [Matrix.cons_val_zero]
    omega
  obtain ⟨k0, k1, k2⟩ := (fun n hn => by omega : ∀ n, n = 2000 * (wL L).val + 400 * t.val + 80 * r.val + (x 0).val →
    n / 2000 = (wL L).val ∧ n / 80 % 25 = 5 * t.val + r.val ∧ n % 80 = (x 0).val) _ e0
  have e1 : (((zC L t r).view.emb x : S64000x128.Idx) 1).val = (x 1).val := by
    show k6_off5 L t (BitVec.ofNat 32 r.val) 1 + 1 * (x 1).val = _
    rw [k6_off5_eq]
    simp only [Matrix.cons_val_one, Matrix.cons_val_zero]
    omega
  have hk := Shape.rowMajor_val_one (S80.rowMajor.symm ((x gathers_S10000x128_S80x128.axis').cast hn.symm))
  rw [Equiv.apply_symm_apply] at hk
  have hy : (S80.rowMajor.symm ((x gathers_S10000x128_S80x128.axis').cast hn.symm)) 0 = x 0 := Fin.ext hk.symm
  have hrow : (gathers_S10000x128_S80x128.idx (SparseCore.rows (sRd d L I off h g) hn hin') x gathers_S10000x128_S80x128.axis).val
      = (I (ix3 (n0 := 32) (n1 := 25) (n2 := 80) (wL L) ⟨5 * t.val + r.val, by omega⟩ (x 0))).toNat := by
    rw [Shape.Gathers.idx_axis]
    unfold SparseCore.rows
    show BitVec.toNat (sRd d L I off h g (S80.rowMajor.symm ((x gathers_S10000x128_S80x128.axis').cast hn.symm))) = _
    subst hoff
    rw [sRd_eq, sRow_emb (5 * t.val + r.val) (by omega), iPl_emb]
    exact congrArg (fun k : Fin 80 => (I (ix3 (n0 := 32) (n1 := 25) (n2 := 80) (wL L) ⟨5 * t.val + r.val, by omega⟩ k)).toNat) hy
  unfold SparseCore.gatherPayload gath
  rw [View.read_apply, cast_eq]
  refine Eq.trans ?_ (congrArg X (emb_xG _)).symm
  refine congrArg X (?_ : @Eq S10000x128.Idx _ _)
  funext a
  refine Fin.ext ?_
  match a with
  | ⟨0, _⟩ =>
    refine Eq.trans ?_ (hrow.trans (Nat.mod_eq_of_lt (hI _)).symm).symm
    show (I _).toNat % 10000 = _
    refine congrArg (fun q : S32x25x80.Idx => (I q).toNat % 10000) (?_ : @Eq S32x25x80.Idx _ _)
    funext b
    refine Fin.ext ?_
    match b with
    | ⟨0, _⟩ => exact k0
    | ⟨1, _⟩ => exact k1
    | ⟨2, _⟩ => exact k2
  | ⟨1, _⟩ => exact e1.trans (Shape.Gathers.idx_of_ne gathers_S10000x128_S80x128 _ x (1 : Fin 2) (by decide)).symm

end Cert.Proof.KI.Sc3

end
-- ==== Proof.ScPre3.lean ====
import proofs.«212107_g53927609368716_cont_9to1_m_409_29_alg».proof.Proof.ScVal3

noncomputable section

namespace Cert.Proof.KI.Sc3

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Named F] [Cert.KernelIdeal.Facts]

local notation "𝕄" => MT nD τ sig (HIx 5) (Elt F) ℕ UU ℕ

local notation "sI" => (Memref.whole Cert.KernelIdeal.cc6_scratch0 : Memref Cert.KernelIdeal.sig Kind.scVector Space.vmem Cert.KernelIdeal.S25x80 EltTy.i32)
local notation "sR" => (Memref.whole Cert.KernelIdeal.cc6_scratch1 : Memref Cert.KernelIdeal.sig Kind.scVector Space.vmem Cert.KernelIdeal.S5x80x128 EltTy.f32)
local notation "xM" => (Memref.whole Cert.KernelIdeal.main_arg0_scv : Memref Cert.KernelIdeal.sig Kind.scVector Space.hbm Cert.KernelIdeal.S10000x128 EltTy.f32)
local notation "iM" => (Memref.whole Cert.KernelIdeal.main_v21_scv : Memref Cert.KernelIdeal.sig Kind.scVector Space.hbm Cert.KernelIdeal.S32x25x80 EltTy.i32)
local notation "zM" => (Memref.whole Cert.KernelIdeal.main_v22_scv : Memref Cert.KernelIdeal.sig Kind.scVector Space.hbm Cert.KernelIdeal.S64000x128 EltTy.f32)

variable (d : Dev nD) (L : grid6.Coords)

abbrev T0 : Fin k6_t1_loop.trips := ⟨0, by decide⟩
abbrev T1 : Fin k6_t1_loop.trips := ⟨1, by decide⟩
abbrev T2 : Fin k6_t1_loop.trips := ⟨2, by decide⟩
abbrev T3 : Fin k6_t1_loop.trips := ⟨3, by decide⟩
abbrev T4 : Fin k6_t1_loop.trips := ⟨4, by decide⟩

abbrev XT (qt : PosShare TreeShare) (X : Buf (Elt F) (xLoc d)) : sProp 𝕄 :=
  bigSepL [(0 : Fin 5), 1, 2, 3, 4] fun b => xLoc d ↦{Transfers.shareTok qt 5 b} X

abbrev ZT (f : Buf (Elt F) (zLoc d)) : sProp 𝕄 :=
  bigSepL chunkL fun p => zLoc d ↦[(zC L p.1 p.2).view.set]{fullShare} f

abbrev ST : sProp 𝕄 := bigSepL (semL.map fun sm => ((thrL d L, sm) : GSem nD τ sig)) (fun g => semVal g 0)

theorem slot_read_write_same (off : Fin 3 → Nat) (h : ∀ a, off a + S1x80x128.size a ≤ S5x80x128.size a)
    (G : Buf (Elt F) ((thrL d L).loc cc6_scratch1)) (P : S80x128.Idx → Elt F .f32) :
    (slotM off h).view.read (Elt F) (View.write (Elt F) (slotM off h).view G P Finset.univ) = P := by
  funext x
  rw [View.read_apply, View.write_emb_of_mem _ _ (Finset.mem_univ x), cast_cast, cast_eq]

theorem slot_disjoint (off off' : Fin 3 → Nat) (h : ∀ a, off a + S1x80x128.size a ≤ S5x80x128.size a)
    (h' : ∀ a, off' a + S1x80x128.size a ≤ S5x80x128.size a) (hne : off 0 ≠ off' 0) :
    Disjoint (slotM off h).view.set (slotM off' h').view.set := by
  show Disjoint (((View.whole cc6_scratch1).slice (Rect.unit (s := S5x80x128) off S1x80x128.size h)).reshape S80x128 squeezes_S1x80x128_S80x128.numel_eq).set
    (((View.whole cc6_scratch1).slice (Rect.unit (s := S5x80x128) off' S1x80x128.size h')).reshape S80x128 squeezes_S1x80x128_S80x128.numel_eq).set
  rw [View.set_reshape, View.set_reshape, View.set_slice_whole, View.set_slice_whole]
  refine Rect.unit_disjoint (0 : Fin 3) ?_
  rcases Nat.lt_or_gt_of_ne hne with hlt | hgt
  · left; show off 0 + 1 ≤ off' 0; omega
  · right; show off' 0 + 1 ≤ off 0; omega

theorem slot_read_write_other (off off' : Fin 3 → Nat) (h : ∀ a, off a + S1x80x128.size a ≤ S5x80x128.size a)
    (h' : ∀ a, off' a + S1x80x128.size a ≤ S5x80x128.size a) (hne : off 0 ≠ off' 0)
    (G : Buf (Elt F) ((thrL d L).loc cc6_scratch1)) (P' : S80x128.Idx → Elt F .f32) :
    (slotM off h).view.read (Elt F) (View.write (Elt F) (slotM off' h').view G P' Finset.univ) = (slotM off h).view.read (Elt F) G := by
  funext x
  rw [View.read_apply, View.read_apply, View.write_of_not_mem]
  rw [View.setOn_univ]
  exact Finset.disjoint_left.mp (slot_disjoint off off' h h' hne) (View.emb_mem_set (slotM off h).view x)

theorem z_fin (X : Buf (Elt F) (xLoc d)) (I : Buf (Elt F) (iLoc d)) (t : Fin k6_t1_loop.trips) (r : Fin 5) (fz : Buf (Elt F) (zLoc d))
    (P : S80x128.Idx → Elt F .f32) (hP : ∀ x, gath d X I ((zC L t r).view.emb x) = P x) :
    ((zC L t r).view.loc (thrL d L) ↦[(zC L t r).view.set]{fullShare} (zC L t r).view.writes (Elt F) fz [⟨Rect.whole S80x128, P⟩] : sProp 𝕄)
      = (zLoc d ↦[(zC L t r).view.set]{fullShare} gath d X I) := by
  refine pointsTo_congr fun y hy => ?_
  obtain ⟨x, -, rfl⟩ := Finset.mem_map.mp hy
  have h1 := View.read_writes_cons_emb (v := (zC L t r).view) (f := fz) (Rect.whole S80x128) P [] x
  rw [Rect.emb_whole_apply, View.read_apply] at h1
  exact ((cast_eq _ _).symm.trans h1).trans (hP x).symm

theorem waits_ok {W W' : Waits sig (HIx 5)} (sm : SemLoc sig) (h : ∀ p ∈ W', p ∈ W ∨ p.2 = none) :
    ∀ p ∈ insert (sm, (default : HIx 5)) W', p ∈ W ∨ p.2 = none := by
  intro p hp
  rcases Finset.mem_insert.mp hp with rfl | hp
  · exact .inr rfl
  · exact h p hp
theorem waits_ok₀ {W : Waits sig (HIx 5)} : ∀ p ∈ W, p ∈ W ∨ p.2 = none := fun _ hp => .inl hp

theorem pts_x (q : PosShare TreeShare) (X : Buf (Elt F) (xLoc d)) :
    (xLoc d ↦{q} X : sProp 𝕄) = ((xM).view.loc (thrL d L) ↦[(xM).view.set]{q} X) := by
  simp only [Memref.view_whole, View.set_whole]
theorem pts_s0 (f : Buf (Elt F) ((thrL d L).loc cc6_scratch0)) :
    ((thrL d L).loc cc6_scratch0 ↦{fullShare} f : sProp 𝕄) = ((sI).view.loc (thrL d L) ↦[(sI).view.set]{fullShare} f) := by
  simp only [Memref.view_whole, View.set_whole]
theorem pts_s1 (f : Buf (Elt F) ((thrL d L).loc cc6_scratch1)) :
    ((thrL d L).loc cc6_scratch1 ↦{fullShare} f : sProp 𝕄) = ((sR).view.loc (thrL d L) ↦[(sR).view.set]{fullShare} f) := by
  simp only [Memref.view_whole, View.set_whole]

end Cert.Proof.KI.Sc3

end
-- ==== Proof.ScTile3.lean ====
import proofs.«212107_g53927609368716_cont_9to1_m_409_29_alg».proof.Proof.ScPre3

noncomputable section

namespace Cert.Proof.KI.Sc3

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Named F] [Cert.KernelIdeal.Facts]

local notation "𝕄" => MT nD τ sig (HIx 5) (Elt F) ℕ UU ℕ

local notation "sI" => (Memref.whole Cert.KernelIdeal.cc6_scratch0 : Memref Cert.KernelIdeal.sig Kind.scVector Space.vmem Cert.KernelIdeal.S25x80 EltTy.i32)
local notation "sR" => (Memref.whole Cert.KernelIdeal.cc6_scratch1 : Memref Cert.KernelIdeal.sig Kind.scVector Space.vmem Cert.KernelIdeal.S5x80x128 EltTy.f32)
local notation "xM" => (Memref.whole Cert.KernelIdeal.main_arg0_scv : Memref Cert.KernelIdeal.sig Kind.scVector Space.hbm Cert.KernelIdeal.S10000x128 EltTy.f32)
local notation "iM" => (Memref.whole Cert.KernelIdeal.main_v21_scv : Memref Cert.KernelIdeal.sig Kind.scVector Space.hbm Cert.KernelIdeal.S32x25x80 EltTy.i32)
local notation "zM" => (Memref.whole Cert.KernelIdeal.main_v22_scv : Memref Cert.KernelIdeal.sig Kind.scVector Space.hbm Cert.KernelIdeal.S64000x128 EltTy.f32)

variable (d : Dev nD) (L : grid6.Coords)

theorem xt_eq (qt : PosShare TreeShare) (X : Buf (Elt F) (xLoc d)) :
    XT d qt X = iprop(((xM).view.loc (thrL d L) ↦[(xM).view.set]{Transfers.shareTok qt 5 0} X) ∗ ((xM).view.loc (thrL d L) ↦[(xM).view.set]{Transfers.shareTok qt 5 1} X) ∗ ((xM).view.loc (thrL d L) ↦[(xM).view.set]{Transfers.shareTok qt 5 2} X) ∗ ((xM).view.loc (thrL d L) ↦[(xM).view.set]{Transfers.shareTok qt 5 3} X) ∗ ((xM).view.loc (thrL d L) ↦[(xM).view.set]{Transfers.shareTok qt 5 4} X)) := by
  simp only [← pts_x d L]; rfl

theorem zt_eq (f : Buf (Elt F) (zLoc d)) :
    ZT d L f = iprop((zLoc d ↦[(zC L T0 0).view.set]{fullShare} f) ∗ (zLoc d ↦[(zC L T0 1).view.set]{fullShare} f) ∗ (zLoc d ↦[(zC L T0 2).view.set]{fullShare} f) ∗ (zLoc d ↦[(zC L T0 3).view.set]{fullShare} f) ∗ (zLoc d ↦[(zC L T0 4).view.set]{fullShare} f) ∗ (zLoc d ↦[(zC L T1 0).view.set]{fullShare} f) ∗ (zLoc d ↦[(zC L T1 1).view.set]{fullShare} f) ∗ (zLoc d ↦[(zC L T1 2).view.set]{fullShare} f) ∗ (zLoc d ↦[(zC L T1 3).view.set]{fullShare} f) ∗ (zLoc d ↦[(zC L T1 4).view.set]{fullShare} f) ∗ (zLoc d ↦[(zC L T2 0).view.set]{fullShare} f) ∗ (zLoc d ↦[(zC L T2 1).view.set]{fullShare} f) ∗ (zLoc d ↦[(zC L T2 2).view.set]{fullShare} f) ∗ (zLoc d ↦[(zC L T2 3).view.set]{fullShare} f) ∗ (zLoc d ↦[(zC L T2 4).view.set]{fullShare} f) ∗ (zLoc d ↦[(zC L T3 0).view.set]{fullShare} f) ∗ (zLoc d ↦[(zC L T3 1).view.set]{fullShare} f) ∗ (zLoc d ↦[(zC L T3 2).view.set]{fullShare} f) ∗ (zLoc d ↦[(zC L T3 3).view.set]{fullShare} f) ∗ (zLoc d ↦[(zC L T3 4).view.set]{fullShare} f) ∗ (zLoc d ↦[(zC L T4 0).view.set]{fullShare} f) ∗ (zLoc d ↦[(zC L T4 1).view.set]{fullShare} f) ∗ (zLoc d ↦[(zC L T4 2).view.set]{fullShare} f) ∗ (zLoc d ↦[(zC L T4 3).view.set]{fullShare} f) ∗ (zLoc d ↦[(zC L T4 4).view.set]{fullShare} f)) := rfl

theorem pts_z (t : Fin k6_t1_loop.trips) (r : Fin 5) (f : Buf (Elt F) (zLoc d)) :
    (zLoc d ↦[(zC L t r).view.set]{fullShare} f : sProp 𝕄) = ((zC L t r).view.loc (thrL d L) ↦[(zC L t r).view.set]{fullShare} f) := rfl

theorem st_eq : (ST d L : sProp 𝕄) = iprop(semVal (thrL d L, SemLoc.dma gS0) 0 ∗ semVal (thrL d L, SemLoc.dma gS1) 0 ∗ semVal (thrL d L, SemLoc.dma gS2) 0 ∗ semVal (thrL d L, SemLoc.dma gS3) 0 ∗ semVal (thrL d L, SemLoc.dma gS4) 0 ∗ semVal (thrL d L, SemLoc.dma wS0) 0 ∗ semVal (thrL d L, SemLoc.dma wS1) 0 ∗ semVal (thrL d L, SemLoc.dma wS2) 0 ∗ semVal (thrL d L, SemLoc.dma wS3) 0 ∗ semVal (thrL d L, SemLoc.dma wS4) 0 ∗ semVal (thrL d L, SemLoc.dma cS) 0) := rfl

set_option maxHeartbeats 16000000 in
theorem tile_run (O : CellTallies nD τ sig (HIx 5)) (W : Waits sig (HIx 5)) (hO : ∀ g, O g none = 0)
    (X : Buf (Elt F) (xLoc d)) (I : Buf (Elt F) (iLoc d)) (hI : IdxOK d I)
    (fs : Buf (Elt F) ((thrL d L).loc cc6_scratch0)) (fr : Buf (Elt F) ((thrL d L).loc cc6_scratch1))
    (fz : Buf (Elt F) (zLoc d)) (qt : PosShare TreeShare) :
    (iprop(levAts (K (F := F)).L (K (F := F)).lev ∗ XT d qt X
        ∗ (iLoc d ↦[(iPl L).view.set]{fullShare} I)
        ∗ ((thrL d L).loc cc6_scratch0 ↦{fullShare} fs) ∗ ((thrL d L).loc cc6_scratch1 ↦{fullShare} fr)
        ∗ ZT d L fz ∗ ST d L ∗ owes (thrL d L) O W) : sProp 𝕄)
      ⊢ wp frame (wpE (defs₀ (F := F)) 𝒱₀ (thrL d L) none) Set.univ
          (cc6_k L xM (Memref.isWhole_whole _) iM (Memref.isWhole_whole _) zM (Memref.isWhole_whole _) sI (Memref.isWhole_whole _) sR (Memref.isWhole_whole _) cc6_scratch2 cc6_scratch3 cc6_scoped0)
          fun _ => iprop(XT d qt X ∗ (iLoc d ↦[(iPl L).view.set]{fullShare} I)
            ∗ (∃ f, (thrL d L).loc cc6_scratch0 ↦{fullShare} f) ∗ (∃ f, (thrL d L).loc cc6_scratch1 ↦{fullShare} f)
            ∗ ZT d L (gath d X I) ∗ ST d L ∗ ∃ W', ⌜∀ p ∈ W', p ∈ W ∨ p.2 = none⌝ ∗ owes (thrL d L) O W') := by
  have hin := hin_ok d L I hI
  simp only [cc6_k_eq_skeleton]; unfold cc6_k_skel
  iintro ⟨#Hlv, HX, Hi, Hs, Hr, HZ, HS, HO⟩
  ihave Hmw := ((K (F := F)).mayWaits_none (thr := thrL d L) hO) $$ Hlv
  ihave ⟨Hz00, Hz01, Hz02, Hz03, Hz04, Hz10, Hz11, Hz12, Hz13, Hz14, Hz20, Hz21, Hz22, Hz23, Hz24, Hz30, Hz31, Hz32, Hz33, Hz34, Hz40, Hz41, Hz42, Hz43, Hz44⟩ := (Entails.of_eq (zt_eq d L fz)) $$ HZ
  ihave ⟨Hg0, Hg1, Hg2, Hg3, Hg4, Hw0, Hw1, Hw2, Hw3, Hw4, Hc⟩ := (Entails.of_eq (st_eq d L)) $$ HS
  ihave ⟨Hx0, Hx1, Hx2, Hx3, Hx4⟩ := (Entails.of_eq (xt_eq d L qt X)) $$ HX
  ihave Hi := (Entails.of_eq (show (iLoc d ↦[(iPl L).view.set]{fullShare} I : sProp 𝕄) = ((iPl L).view.loc (thrL d L) ↦[(iPl L).view.set]{fullShare} I) from rfl)) $$ Hi
  ihave Hs := (Entails.of_eq (pts_s0 d L fs)) $$ Hs
  ihave Hr := (Entails.of_eq (pts_s1 d L fr)) $$ Hr
  ihave Hz00 := (Entails.of_eq (pts_z d L T0 0 fz)) $$ Hz00
  ihave Hz01 := (Entails.of_eq (pts_z d L T0 1 fz)) $$ Hz01
  ihave Hz02 := (Entails.of_eq (pts_z d L T0 2 fz)) $$ Hz02
  ihave Hz03 := (Entails.of_eq (pts_z d L T0 3 fz)) $$ Hz03
  ihave Hz04 := (Entails.of_eq (pts_z d L T0 4 fz)) $$ Hz04
  ihave Hz10 := (Entails.of_eq (pts_z d L T1 0 fz)) $$ Hz10
  ihave Hz11 := (Entails.of_eq (pts_z d L T1 1 fz)) $$ Hz11
  ihave Hz12 := (Entails.of_eq (pts_z d L T1 2 fz)) $$ Hz12
  ihave Hz13 := (Entails.of_eq (pts_z d L T1 3 fz)) $$ Hz13
  ihave Hz14 := (Entails.of_eq (pts_z d L T1 4 fz)) $$ Hz14
  ihave Hz20 := (Entails.of_eq (pts_z d L T2 0 fz)) $$ Hz20
  ihave Hz21 := (Entails.of_eq (pts_z d L T2 1 fz)) $$ Hz21
  ihave Hz22 := (Entails.of_eq (pts_z d L T2 2 fz)) $$ Hz22
  ihave Hz23 := (Entails.of_eq (pts_z d L T2 3 fz)) $$ Hz23
  ihave Hz24 := (Entails.of_eq (pts_z d L T2 4 fz)) $$ Hz24
  ihave Hz30 := (Entails.of_eq (pts_z d L T3 0 fz)) $$ Hz30
  ihave Hz31 := (Entails.of_eq (pts_z d L T3 1 fz)) $$ Hz31
  ihave Hz32 := (Entails.of_eq (pts_z d L T3 2 fz)) $$ Hz32
  ihave Hz33 := (Entails.of_eq (pts_z d L T3 3 fz)) $$ Hz33
  ihave Hz34 := (Entails.of_eq (pts_z d L T3 4 fz)) $$ Hz34
  ihave Hz40 := (Entails.of_eq (pts_z d L T4 0 fz)) $$ Hz40
  ihave Hz41 := (Entails.of_eq (pts_z d L T4 1 fz)) $$ Hz41
  ihave Hz42 := (Entails.of_eq (pts_z d L T4 2 fz)) $$ Hz42
  ihave Hz43 := (Entails.of_eq (pts_z d L T4 3 fz)) $$ Hz43
  ihave Hz44 := (Entails.of_eq (pts_z d L T4 4 fz)) $$ Hz44
  sl_exec
  sl_unroll
  sl_exec
  sl_step
  isplitl [Hx0 Hx1 Hx2 Hx3 Hx4]
  · iapply (Entails.of_eq (xt_eq d L qt X).symm)
    isplitl [Hx0]; · iexact Hx0
    isplitl [Hx1]; · iexact Hx1
    isplitl [Hx2]; · iexact Hx2
    isplitl [Hx3]; · iexact Hx3
    iexact Hx4
  isplitl [Hi]; · iexact Hi
  isplitl [Hs]; · iexists _; iapply (Entails.of_eq (pts_s0 d L _).symm); iexact Hs
  isplitl [Hr]; · iexists _; iapply (Entails.of_eq (pts_s1 d L _).symm); iexact Hr
  isplitr [Hg0 Hg1 Hg2 Hg3 Hg4 Hw0 Hw1 Hw2 Hw3 Hw4 Hc HO]
  · iapply (Entails.of_eq (zt_eq d L (gath d X I)).symm)
    have zf := fun t r P hP => Entails.of_eq (z_fin d L X I t r fz P hP)
    isplitl [Hz00]; iapply (zf T0 0 _ ?_); rotate_left; iexact Hz00
    isplitl [Hz01]; iapply (zf T0 1 _ ?_); rotate_left; iexact Hz01
    isplitl [Hz02]; iapply (zf T0 2 _ ?_); rotate_left; iexact Hz02
    isplitl [Hz03]; iapply (zf T0 3 _ ?_); rotate_left; iexact Hz03
    isplitl [Hz04]; iapply (zf T0 4 _ ?_); rotate_left; iexact Hz04
    isplitl [Hz10]; iapply (zf T1 0 _ ?_); rotate_left; iexact Hz10
    isplitl [Hz11]; iapply (zf T1 1 _ ?_); rotate_left; iexact Hz11
    isplitl [Hz12]; iapply (zf T1 2 _ ?_); rotate_left; iexact Hz12
    isplitl [Hz13]; iapply (zf T1 3 _ ?_); rotate_left; iexact Hz13
    isplitl [Hz14]; iapply (zf T1 4 _ ?_); rotate_left; iexact Hz14
    isplitl [Hz20]; iapply (zf T2 0 _ ?_); rotate_left; iexact Hz20
    isplitl [Hz21]; iapply (zf T2 1 _ ?_); rotate_left; iexact Hz21
    isplitl [Hz22]; iapply (zf T2 2 _ ?_); rotate_left; iexact Hz22
    isplitl [Hz23]; iapply (zf T2 3 _ ?_); rotate_left; iexact Hz23
    isplitl [Hz24]; iapply (zf T2 4 _ ?_); rotate_left; iexact Hz24
    isplitl [Hz30]; iapply (zf T3 0 _ ?_); rotate_left; iexact Hz30
    isplitl [Hz31]; iapply (zf T3 1 _ ?_); rotate_left; iexact Hz31
    isplitl [Hz32]; iapply (zf T3 2 _ ?_); rotate_left; iexact Hz32
    isplitl [Hz33]; iapply (zf T3 3 _ ?_); rotate_left; iexact Hz33
    isplitl [Hz34]; iapply (zf T3 4 _ ?_); rotate_left; iexact Hz34
    isplitl [Hz40]; iapply (zf T4 0 _ ?_); rotate_left; iexact Hz40
    isplitl [Hz41]; iapply (zf T4 1 _ ?_); rotate_left; iexact Hz41
    isplitl [Hz42]; iapply (zf T4 2 _ ?_); rotate_left; iexact Hz42
    isplitl [Hz43]; iapply (zf T4 3 _ ?_); rotate_left; iexact Hz43
    iapply (zf T4 4 _ ?_); rotate_left; iexact Hz44
    all_goals
      intro x
      show _ = View.read (Elt F) (slotM _ _).view _ x
      repeat (first | rw [slot_read_write_same d L] | (rw [slot_read_write_other d L]; on_goal 2 => decide))
      exact chunk_val d L X I hI _ _ _ _ (by first | rfl | (rw [k6_off3_eq]; rfl) | (rw [k6_off7_eq]; rfl) | (rw [k6_off9_eq]; rfl) | (rw [k6_off11_eq]; rfl) | (rw [k6_off13_eq]; rfl) | decide) _ _ _ x
  isplitr [HO]
  · iapply (Entails.of_eq (st_eq d L).symm)
    isplitl [Hg0]; · iexact Hg0
    isplitl [Hg1]; · iexact Hg1
    isplitl [Hg2]; · iexact Hg2
    isplitl [Hg3]; · iexact Hg3
    isplitl [Hg4]; · iexact Hg4
    isplitl [Hw0]; · iexact Hw0
    isplitl [Hw1]; · iexact Hw1
    isplitl [Hw2]; · iexact Hw2
    isplitl [Hw3]; · iexact Hw3
    isplitl [Hw4]; · iexact Hw4
    iexact Hc
  iexists _
  isplitr
  on_goal 2 => iexact HO
  ipureintro
  repeat (first | exact waits_ok₀ | refine waits_ok _ ?_)

end Cert.Proof.KI.Sc3

end
-- ==== Proof.ScBody3.lean ====
import proofs.«212107_g53927609368716_cont_9to1_m_409_29_alg».proof.Proof.ScTile3

noncomputable section

namespace Cert.Proof.KI.Sc3

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Named F] [Cert.KernelIdeal.Facts]

local notation "𝕄" => MT nD τ sig (HIx 5) (Elt F) ℕ UU ℕ

variable (d : Dev nD) (L : grid6.Coords)

-- The tile's run with the rest framed off: its share of the table as five tokens, its rows of the result by chunks.
theorem tile_body (hF : (K (F := F)).Facts) (q : PosShare TreeShare)
    (X : Buf (Elt F) (xLoc d)) (I : Buf (Elt F) (iLoc d)) (hI : IdxOK d I)
    (O : CellTallies nD τ sig (HIx 5)) (W : Waits sig (HIx 5)) (hO : ∀ g, O g none = 0) :
    iprop(levAts (K (F := F)).L (K (F := F)).lev ∗ go d q X I (cL L) (jL L)
        ∗ scopedBufs (thrL d L) ∗ scopedSems0 (thrL d L) ∗ owes (thrL d L) O W)
      ⊢ wp frame (wpE (defs₀ (F := F)) 𝒱₀ (thrL d L) none) Set.univ
          (cc6_k L (Memref.whole main_arg0_scv) (Memref.isWhole_whole _) (Memref.whole main_v21_scv) (Memref.isWhole_whole _) (Memref.whole main_v22_scv) (Memref.isWhole_whole _)
            (Memref.whole cc6_scratch0) (Memref.isWhole_whole _) (Memref.whole cc6_scratch1) (Memref.isWhole_whole _) cc6_scratch2 cc6_scratch3 cc6_scoped0)
          fun _ => iprop(td d q X I (cL L) (jL L) ∗ scopedBufs (thrL d L) ∗ scopedSems0 (thrL d L)
            ∗ ∃ W', ⌜∀ p ∈ W', p ∈ W ∨ p.2 = none⌝ ∗ owes (thrL d L) O W') := by
  unfold go td
  have h : (xLoc d ↦{qTile q (cL L) (jL L)} X : sProp 𝕄) ⊣⊢ _ := Transfers.pointsTo_toks _ 5
  rw [(K (F := F)).scopedBufs_V hF d _ _, SparseCore.Cfg.scopedSems0_V (Val := Elt F) d _ _, ownSems0_split, ownBufs_split,
    ← set_iPl L, zRows_chunks d L (gath d X I), BI.Entails.antisymm h.1 h.2,
    bigSep_univ_eq_bigSepL [(0 : Fin 5), 1, 2, 3, 4] (by decide) (by decide)]
  iintro ⟨#Hlv, ⟨⟨Hxd, Hxt⟩, Hi, %fz, Hz⟩, ⟨⟨%fs, Hs⟩, ⟨%fr, Hr⟩, Hbufs⟩, ⟨Hsems, Hsrest⟩, HO⟩
  ihave Hz := (Entails.of_eq (zRows_chunks d L fz)) $$ Hz
  iapply (wp_wand_r frame _ _)
  isplitl [Hxt Hi Hs Hr Hz Hsems HO]
  · iapply (tile_run d L O W hO X I hI fs fr fz (qTile q (cL L) (jL L)))
    isplitr; · iexact Hlv
    isplitl [Hxt]; · iexact Hxt
    isplitl [Hi]; · iexact Hi
    isplitl [Hs]; · iexact Hs
    isplitl [Hr]; · iexact Hr
    isplitl [Hz]; · iexact Hz
    isplitl [Hsems]; · iexact Hsems
    iexact HO
  iintro %_ ⟨Hxt, Hi, Hs, Hr, Hz, Hsems, HO⟩
  isplitl [Hxd Hxt Hi Hz]
  · isplitl [Hxd Hxt]
    · isplitl [Hxd]; · iexact Hxd
      iexact Hxt
    isplitl [Hi]; · iexact Hi
    iexact Hz
  isplitl [Hs Hr Hbufs]
  · isplitl [Hs]; · iexact Hs
    isplitl [Hr]; · iexact Hr
    iexact Hbufs
  isplitl [Hsems Hsrest]
  · isplitl [Hsems]; · iexact Hsems
    iexact Hsrest
  iexact HO

end Cert.Proof.KI.Sc3

end
-- ==== Proof.ScVal4.lean ====
import proofs.«212107_g53927609368716_cont_9to1_m_409_29_alg».proof.Proof.ScCall4Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«212107_g53927609368716_cont_9to1_m_409_29_alg».proof.Proof.Gen.KernelIdeal.Skeleton

noncomputable section

namespace Cert.Proof.KI.Sc4

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Named F] [Cert.KernelIdeal.Facts]

local notation "𝕄" => MT nD τ sig (HIx 5) (Elt F) ℕ UU ℕ

abbrev callIx : Fin 5 := 4
abbrev labIx : Fin 10 := 8

local notation "sI" => (Memref.whole Cert.KernelIdeal.cc8_scratch0 : Memref Cert.KernelIdeal.sig Kind.scVector Space.vmem Cert.KernelIdeal.S25x80 EltTy.i32)
local notation "sR" => (Memref.whole Cert.KernelIdeal.cc8_scratch1 : Memref Cert.KernelIdeal.sig Kind.scVector Space.vmem Cert.KernelIdeal.S5x80x128 EltTy.f32)
local notation "xM" => (Memref.whole Cert.KernelIdeal.main_arg0_scv : Memref Cert.KernelIdeal.sig Kind.scVector Space.hbm Cert.KernelIdeal.S10000x128 EltTy.f32)
local notation "iM" => (Memref.whole Cert.KernelIdeal.main_v26_scv : Memref Cert.KernelIdeal.sig Kind.scVector Space.hbm Cert.KernelIdeal.S32x25x80 EltTy.i32)
local notation "zM" => (Memref.whole Cert.KernelIdeal.main_v27_scv : Memref Cert.KernelIdeal.sig Kind.scVector Space.hbm Cert.KernelIdeal.S64000x128 EltTy.f32)

variable (d : Dev nD) (L : grid8.Coords)

abbrev prL (L : grid8.Coords) : Proc τ := .scVector ((L 0).castLE hcore8) ((L 1).castLE hsub8)
abbrev thrL (L : grid8.Coords) : Thread nD τ := V d ((L 0).castLE hcore8) ((L 1).castLE hsub8)

abbrev iPl (L : grid8.Coords) : Memref sig .scVector .hbm S25x80 .i32 :=
  ((iM).slice (Rect.unit (s := S32x25x80) (k8_off1 L) S1x25x80.size (k8_off1_inb L)) (fun _ => rfl)).squeeze S25x80 squeezes_S1x25x80_S25x80
abbrev sRow (off : Fin 2 → Nat) (h : ∀ a, off a + S1x80.size a ≤ S25x80.size a) : Memref sig .scVector .vmem S80 .i32 :=
  ((sI).slice (Rect.unit (s := S25x80) off S1x80.size h) (fun _ => rfl)).squeeze S80 squeezes_S1x80_S80
abbrev slotM (off : Fin 3 → Nat) (h : ∀ a, off a + S1x80x128.size a ≤ S5x80x128.size a) : Memref sig .scVector .vmem S80x128 .f32 :=
  ((sR).slice (Rect.unit (s := S5x80x128) off S1x80x128.size h) (fun _ => rfl)).squeeze S80x128 squeezes_S1x80x128_S80x128

abbrev semAt (A : DmaSems sig S5) (o : Fin 1 → Nat) (h : ∀ a, o a + S1.size a ≤ S5.size a) : DmaSem sig :=
  SemArray.sem (SemArray.squeeze (SemArray.slice A (Rect.unit (s := S5) o S1.size h)) S_ squeezes_S1_S_)
abbrev gS0 : DmaSem sig := semAt cc8_scratch2 ![0] inb_S5_S1_0
abbrev gS1 : DmaSem sig := semAt cc8_scratch2 ![1] inb_S5_S1_1
abbrev gS2 : DmaSem sig := semAt cc8_scratch2 ![2] inb_S5_S1_2
abbrev gS3 : DmaSem sig := semAt cc8_scratch2 ![3] inb_S5_S1_3
abbrev gS4 : DmaSem sig := semAt cc8_scratch2 ![4] inb_S5_S1_4
abbrev wS0 : DmaSem sig := semAt cc8_scratch3 ![0] inb_S5_S1_0
abbrev wS1 : DmaSem sig := semAt cc8_scratch3 ![1] inb_S5_S1_1
abbrev wS2 : DmaSem sig := semAt cc8_scratch3 ![2] inb_S5_S1_2
abbrev wS3 : DmaSem sig := semAt cc8_scratch3 ![3] inb_S5_S1_3
abbrev wS4 : DmaSem sig := semAt cc8_scratch3 ![4] inb_S5_S1_4
abbrev cS : DmaSem sig := SemArray.sem cc8_scoped0

abbrev zC (L : grid8.Coords) (t : Fin k8_t1_loop.trips) (r : Fin 5) : Memref sig .scVector .hbm S80x128 .f32 :=
  (zM).slice (Rect.unit (s := S64000x128) (k8_off5 L t (BitVec.ofNat 32 r.val)) S80x128.size (k8_off5_inb L t r)) (fun _ => rfl)

abbrev idxPay (L : grid8.Coords) (I : Buf (Elt F) (iLoc d)) : S25x80.Idx → Elt F .i32 :=
  ReadAs.same.apply ((iPl L).view.read (Elt F) I)

theorem bound_zero : grid8.bound 0 = 2 := rfl
theorem bound_one : grid8.bound 1 = 16 := rfl
abbrev cL (L : grid8.Coords) : Fin 2 := Fin.cast bound_zero (L 0)
abbrev jL (L : grid8.Coords) : Fin 16 := Fin.cast bound_one (L 1)
abbrev wL (L : grid8.Coords) : Fin 32 := wid (cL L) (jL L)

theorem trips_eq : k8_t1_loop.trips = 5 := by decide

theorem set_iPl : (iPl L).view.set = iRows (wL L) := by
  have e : Rect.unit (s := S32x25x80) (k8_off1 L) S1x25x80.size (k8_off1_inb L) = iPart (wL L) := by
    unfold iPart Rect.part Rect.block
    congr 1 <;> funext a <;> (try rw [k8_off1_eq]) <;>
      (match a with
       | 0 | 1 | 2 => simp [Shape.partIx, Shape.partSize, wid])
  show (((iM).view.slice (Rect.unit (s := S32x25x80) (k8_off1 L) S1x25x80.size (k8_off1_inb L))).reshape S25x80 squeezes_S1x25x80_S25x80.numel_eq).set
    = ((iM).view.slice (iPart (wL L))).set
  rw [View.set_reshape]
  exact e ▸ rfl

-- A block of whole rows of `z` is the rows from its first on.
theorem mem_rows {off sz : Fin 2 → Nat} {h : ∀ a, off a + sz a ≤ S64000x128.size a} (y : S64000x128.Idx) {o n : Nat}
    (h0 : off 0 = o) (hn : sz 0 = n) (h1 : off 1 = 0) (h2 : sz 1 = 128) :
    y ∈ ((View.whole main_v27_scv).slice (Rect.unit (s := S64000x128) off sz h)).set ↔ o ≤ (y 0).val ∧ (y 0).val < o + n := by
  have : (y 1).val < 128 := (y 1).isLt
  rw [View.set_slice_whole, Rect.mem_set_unit]
  show (∀ a : Fin 2, off a ≤ (y a).val ∧ (y a).val < off a + sz a) ↔ _
  rw [Fin.forall_fin_two, h0, hn, h1, h2]
  omega

theorem mem_zC (t : Fin k8_t1_loop.trips) (r : Fin 5) (y : S64000x128.Idx) :
    y ∈ (zC L t r).view.set ↔ 4000 * (L 1).val + 2000 * (L 0).val + 400 * t.val + 80 * r.val ≤ (y 0).val
      ∧ (y 0).val < 4000 * (L 1).val + 2000 * (L 0).val + 400 * t.val + 80 * r.val + 80 :=
  mem_rows y (by rw [k8_off5_eq]; rfl) (by rfl) (by rw [k8_off5_eq]; rfl) (by rfl)

theorem mem_zRows (w : Fin 32) (y : S64000x128.Idx) : y ∈ zRows w ↔ w.val * 2000 ≤ (y 0).val ∧ (y 0).val < w.val * 2000 + 2000 :=
  mem_rows y (by rfl) (by rfl) (by rfl) (by rfl)

theorem zC_disjoint : ∀ p ∈ (Finset.univ : Finset (Fin k8_t1_loop.trips × Fin 5)), ∀ p' ∈ (Finset.univ : Finset (Fin k8_t1_loop.trips × Fin 5)),
    p ≠ p' → Disjoint (zC L p.1 p.2).view.set (zC L p'.1 p'.2).view.set := by
  intro p _ p' _ hne
  rw [Finset.disjoint_left]
  intro y hy hy'
  rw [mem_zC] at hy hy'
  have := p.2.isLt
  have := p'.2.isLt
  exact hne (Prod.ext (Fin.ext (by omega)) (Fin.ext (by omega)))

-- The twenty-five chunks of eighty rows tile the worker's two thousand.
theorem zC_cover : (Finset.univ : Finset (Fin k8_t1_loop.trips × Fin 5)).biUnion (fun p => (zC L p.1 p.2).view.set) = zRows (wL L) := by
  ext y
  have hw : (wL L).val = 2 * (L 1).val + (L 0).val := rfl
  have h5 := trips_eq
  rw [Finset.mem_biUnion, mem_zRows]
  constructor
  · rintro ⟨p, -, hp⟩
    rw [mem_zC] at hp
    have := p.1.isLt
    have := p.2.isLt
    omega
  · intro hy
    refine ⟨(⟨((y 0).val - 2000 * (wL L).val) / 400, by omega⟩, ⟨((y 0).val - 2000 * (wL L).val) % 400 / 80, by omega⟩), Finset.mem_univ _, ?_⟩
    rw [mem_zC]
    dsimp only
    omega

abbrev semL : List (SemLoc sig) :=
  [.dma gS0, .dma gS1, .dma gS2, .dma gS3, .dma gS4, .dma wS0, .dma wS1, .dma wS2, .dma wS3, .dma wS4, .dma cS]

theorem semL_nodup : semL.Nodup := by decide
theorem semL_scoped : ∀ sm ∈ semL, sm.isScoped .scVector = true := by decide

theorem ownSems0_split :
    (ownSems0 (thrL d L) : sProp 𝕄)
      = iprop(bigSepL (semL.map fun sm => ((thrL d L, sm) : GSem nD τ sig)) (fun g => semVal g 0)
          ∗ bigSep (ownCells (thrL d L) \ (semL.map fun sm => ((thrL d L, sm) : GSem nD τ sig)).toFinset) fun g => semVal g 0) := by
  unfold SparseCore.Cfg.ownSems0
  have hsub : (semL.map fun sm => ((thrL d L, sm) : GSem nD τ sig)).toFinset ⊆ ownCells (thrL d L) := by
    intro g hg
    obtain ⟨sm, hsm, rfl⟩ := List.mem_map.mp (List.mem_toFinset.mp hg)
    exact mem_ownCells.mpr ⟨rfl, semL_scoped sm hsm⟩
  rw [SparseCore.bigSep_sdiff_split' hsub, bigSep_eq_bigSepL _ (List.Nodup.map (fun a b e => (Prod.mk.inj e).2) semL_nodup)]

theorem ownBufs_split :
    (ownBufs (thrL d L) : sProp 𝕄)
      = iprop((∃ f, (thrL d L).loc cc8_scratch0 ↦{fullShare} f) ∗ (∃ f, (thrL d L).loc cc8_scratch1 ↦{fullShare} f)
          ∗ bigSep (((ownRefs (τ := τ) (prL L)).erase ((prL L).devRef cc8_scratch0)).erase ((prL L).devRef cc8_scratch1))
              fun b => iprop(∃ f, ((d, b) : Loc nD τ sig) ↦{fullShare} f)) := by
  unfold SparseCore.Cfg.ownBufs
  refine (SparseCore.bigSep_erase' (SparseCore.Cfg.mem_ownRefs_of_owner (p := prL L) (b := (prL L).devRef cc8_scratch0) rfl)).trans ?_
  rw [SparseCore.bigSep_erase' (Finset.mem_erase.mpr ⟨fun e => absurd (Proc.devRef_injective _ e) (show (cc8_scratch1 : Ref sig .scVector) ≠ cc8_scratch0 by decide),
    SparseCore.Cfg.mem_ownRefs_of_owner (p := prL L) (b := (prL L).devRef cc8_scratch1) rfl⟩)]

abbrev tr (n : Nat) (h : n < k8_t1_loop.trips := by decide) : Fin k8_t1_loop.trips := ⟨n, h⟩
abbrev chunkL : List (Fin k8_t1_loop.trips × Fin 5) :=
  [(tr 0, 0), (tr 0, 1), (tr 0, 2), (tr 0, 3), (tr 0, 4), (tr 1, 0), (tr 1, 1), (tr 1, 2), (tr 1, 3), (tr 1, 4), (tr 2, 0), (tr 2, 1), (tr 2, 2), (tr 2, 3), (tr 2, 4), (tr 3, 0), (tr 3, 1), (tr 3, 2), (tr 3, 3), (tr 3, 4), (tr 4, 0), (tr 4, 1), (tr 4, 2), (tr 4, 3), (tr 4, 4)]

theorem zRows_chunks (f : Buf (Elt F) (zLoc d)) :
    (zLoc d ↦[zRows (wL L)]{fullShare} f : sProp 𝕄)
      = bigSepL chunkL fun p => zLoc d ↦[(zC L p.1 p.2).view.set]{fullShare} f := by
  rw [← zC_cover L, pointsTo_biUnion Finset.univ (ℓ := zLoc d) (fun p : Fin k8_t1_loop.trips × Fin 5 => (zC L p.1 p.2).view.set) (zC_disjoint L),
    bigSep_univ_eq_bigSepL chunkL (by decide) (by decide)]

abbrev sW (g : Buf (Elt F) ((thrL d L).loc cc8_scratch0)) (I : Buf (Elt F) (iLoc d)) :=
  (sI).view.writes (Elt F) g [⟨Rect.whole cc8_scratch0.ty.shape, idxPay d L I⟩]
abbrev sRd (I : Buf (Elt F) (iLoc d)) (off : Fin 2 → Nat) (h : ∀ a, off a + S1x80.size a ≤ S25x80.size a)
    (g : Buf (Elt F) ((thrL d L).loc cc8_scratch0)) :=
  (sRow off h).view.read (Elt F) (sW d L g I)

-- After the index copy a row of the index scratch reads the tile's plane of index words, whatever the scratch held.
theorem sRd_eq (I : Buf (Elt F) (iLoc d)) (off : Fin 2 → Nat) (h : ∀ a, off a + S1x80.size a ≤ S25x80.size a)
    (g : Buf (Elt F) ((thrL d L).loc cc8_scratch0)) (y : S80.Idx) :
    sRd d L I off h g y = I ((iPl L).view.emb ((sRow off h).view.emb y)) := by
  have h1 := View.read_writes_cons_emb (v := (sI).view) (f := g) (Rect.whole cc8_scratch0.ty.shape) (idxPay d L I) [] ((sRow off h).view.emb y)
  rw [Rect.emb_whole_apply] at h1
  show (sRow off h).view.read (Elt F) (sW d L g I) y = _
  rw [View.read_apply, cast_eq]
  refine Eq.trans h1 ?_
  show (iPl L).view.read (Elt F) I _ = _
  rw [View.read_apply, cast_eq]

theorem hin_ok (I : Buf (Elt F) (iLoc d)) (hI : IdxOK d I) (g : Buf (Elt F) ((thrL d L).loc cc8_scratch0)) (off : Fin 2 → Nat)
    (h : ∀ a, off a + S1x80.size a ≤ S25x80.size a) (x : S80.Idx) :
    (((sRow off h).view.read (Elt F) ((sI).view.writes (Elt F) g [⟨Rect.whole cc8_scratch0.ty.shape, idxPay d L I⟩])) x).toNat < 10000 := by
  show (sRd d L I off h g x).toNat < 10000
  rw [sRd_eq]
  exact hI _

-- A squeezed unit slice puts the dropped unit axis back at the slice's offset.
theorem iPl_emb (q : S25x80.Idx) : @Eq S32x25x80.Idx ((iPl L).view.emb q) (ix3 (n0 := 32) (n1 := 25) (n2 := 80) (wL L) (q 0) (q 1)) := by
  funext a
  refine Fin.ext ?_
  show k8_off1 L a + 1 * (Shape.reshapeEquiv (s := S1x25x80) (s' := S25x80) squeezes_S1x25x80_S25x80.numel_eq q a).val = _
  rw [Shape.reshapeEquiv_cons_one (n := 2) (d := ![25, 80]), k8_off1_eq]
  match a with
  | ⟨0, _⟩ => rfl
  | ⟨1, _⟩ | ⟨2, _⟩ => exact (Nat.zero_add _).trans (Nat.one_mul _)

theorem sRow_emb (j : Nat) (hj : j < 25) (h : ∀ a, ![j, 0] a + S1x80.size a ≤ S25x80.size a) (y : S80.Idx) :
    @Eq S25x80.Idx ((sRow ![j, 0] h).view.emb y) (ix2 (n0 := 25) (n1 := 80) ⟨j, hj⟩ (y 0)) := by
  funext a
  refine Fin.ext ?_
  show ![j, 0] a + 1 * (Shape.reshapeEquiv (s := S1x80) (s' := S80) squeezes_S1x80_S80.numel_eq y a).val = _
  rw [Shape.reshapeEquiv_cons_one (n := 1) (d := ![80])]
  match a with
  | ⟨0, _⟩ => rfl
  | ⟨1, _⟩ => exact (Nat.zero_add _).trans (Nat.one_mul _)

variable (X : Buf (Elt F) (xLoc d)) (I : Buf (Elt F) (iLoc d))

abbrev xG : Memref sig .scVector .hbm S10000x128 .f32 :=
  (xM).slice (Rect.unit (s := S10000x128) ![0, 0] S10000x128.size inb_S10000x128_S10000x128_0_0) (fun _ => rfl)

theorem emb_xG (i : S10000x128.Idx) : @Eq S10000x128.Idx ((xG).view.emb i) i := by
  funext a
  refine Fin.ext ?_
  match a with
  | ⟨0, _⟩ | ⟨1, _⟩ => exact (Nat.zero_add _).trans (Nat.one_mul _)

-- Row `80 (25 w + 5 t + r) + x₀` of the gathered array is the row of the table that word `(w, 5 t + r, x₀)` names; the
-- chunk's gather reads that word from row `5 t + r` of the index scratch.
theorem chunk_val (hI : IdxOK d I) (t : Fin k8_t1_loop.trips) (r : Fin 5) (off : Fin 2 → Nat)
    (h : ∀ a, off a + S1x80.size a ≤ S25x80.size a) (hoff : off = ![5 * t.val + r.val, 0])
    (g : Buf (Elt F) ((thrL d L).loc cc8_scratch0)) (hn : S80.numel = S80x128.size gathers_S10000x128_S80x128.axis')
    (hin' : ∀ x, (((sRow off h).view.read (Elt F) ((sI).view.writes (Elt F) g [⟨Rect.whole cc8_scratch0.ty.shape, idxPay d L I⟩])) x).toNat < S10000x128.size gathers_S10000x128_S80x128.axis)
    (x : S80x128.Idx) :
    gath d X I ((zC L t r).view.emb x)
      = SparseCore.gatherPayload gathers_S10000x128_S80x128 ((xG).view.read (Elt F) X) (SparseCore.rows ((sRow off h).view.read (Elt F) ((sI).view.writes (Elt F) g [⟨Rect.whole cc8_scratch0.ty.shape, idxPay d L I⟩])) hn hin') x := by
  show _ = SparseCore.gatherPayload gathers_S10000x128_S80x128 ((xG).view.read (Elt F) X) (SparseCore.rows (sRd d L I off h g) hn hin') x
  have ht : t.val < 5 := lt_of_lt_of_eq t.isLt trips_eq
  have hr := r.isLt
  have hx0 : (x 0).val < 80 := (x 0).isLt
  have hw : (wL L).val = 2 * (L 1).val + (L 0).val := rfl
  have e0 : (((zC L t r).view.emb x : S64000x128.Idx) 0).val = 2000 * (wL L).val + 400 * t.val + 80 * r.val + (x 0).val := by
    show k8_off5 L t (BitVec.ofNat 32 r.val) 0 + 1 * (x 0).val = _
    rw [k8_off5_eq]
    simp only [Matrix.cons_val_zero]
    omega
  obtain ⟨k0, k1, k2⟩ := (fun n hn => by omega : ∀ n, n = 2000 * (wL L).val + 400 * t.val + 80 * r.val + (x 0).val →
    n / 2000 = (wL L).val ∧ n / 80 % 25 = 5 * t.val + r.val ∧ n % 80 = (x 0).val) _ e0
  have e1 : (((zC L t r).view.emb x : S64000x128.Idx) 1).val = (x 1).val := by
    show k8_off5 L t (BitVec.ofNat 32 r.val) 1 + 1 * (x 1).val = _
    rw [k8_off5_eq]
    simp only [Matrix.cons_val_one, Matrix.cons_val_zero]
    omega
  have hk := Shape.rowMajor_val_one (S80.rowMajor.symm ((x gathers_S10000x128_S80x128.axis').cast hn.symm))
  rw [Equiv.apply_symm_apply] at hk
  have hy : (S80.rowMajor.symm ((x gathers_S10000x128_S80x128.axis').cast hn.symm)) 0 = x 0 := Fin.ext hk.symm
  have hrow : (gathers_S10000x128_S80x128.idx (SparseCore.rows (sRd d L I off h g) hn hin') x gathers_S10000x128_S80x128.axis).val
      = (I (ix3 (n0 := 32) (n1 := 25) (n2 := 80) (wL L) ⟨5 * t.val + r.val, by omega⟩ (x 0))).toNat := by
    rw [Shape.Gathers.idx_axis]
    unfold SparseCore.rows
    show BitVec.toNat (sRd d L I off h g (S80.rowMajor.symm ((x gathers_S10000x128_S80x128.axis').cast hn.symm))) = _
    subst hoff
    rw [sRd_eq, sRow_emb (5 * t.val + r.val) (by omega), iPl_emb]
    exact congrArg (fun k : Fin 80 => (I (ix3 (n0 := 32) (n1 := 25) (n2 := 80) (wL L) ⟨5 * t.val + r.val, by omega⟩ k)).toNat) hy
  unfold SparseCore.gatherPayload gath
  rw [View.read_apply, cast_eq]
  refine Eq.trans ?_ (congrArg X (emb_xG _)).symm
  refine congrArg X (?_ : @Eq S10000x128.Idx _ _)
  funext a
  refine Fin.ext ?_
  match a with
  | ⟨0, _⟩ =>
    refine Eq.trans ?_ (hrow.trans (Nat.mod_eq_of_lt (hI _)).symm).symm
    show (I _).toNat % 10000 = _
    refine congrArg (fun q : S32x25x80.Idx => (I q).toNat % 10000) (?_ : @Eq S32x25x80.Idx _ _)
    funext b
    refine Fin.ext ?_
    match b with
    | ⟨0, _⟩ => exact k0
    | ⟨1, _⟩ => exact k1
    | ⟨2, _⟩ => exact k2
  | ⟨1, _⟩ => exact e1.trans (Shape.Gathers.idx_of_ne gathers_S10000x128_S80x128 _ x (1 : Fin 2) (by decide)).symm

end Cert.Proof.KI.Sc4

end
-- ==== Proof.ScPre4.lean ====
import proofs.«212107_g53927609368716_cont_9to1_m_409_29_alg».proof.Proof.ScVal4

noncomputable section

namespace Cert.Proof.KI.Sc4

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Named F] [Cert.KernelIdeal.Facts]

local notation "𝕄" => MT nD τ sig (HIx 5) (Elt F) ℕ UU ℕ

local notation "sI" => (Memref.whole Cert.KernelIdeal.cc8_scratch0 : Memref Cert.KernelIdeal.sig Kind.scVector Space.vmem Cert.KernelIdeal.S25x80 EltTy.i32)
local notation "sR" => (Memref.whole Cert.KernelIdeal.cc8_scratch1 : Memref Cert.KernelIdeal.sig Kind.scVector Space.vmem Cert.KernelIdeal.S5x80x128 EltTy.f32)
local notation "xM" => (Memref.whole Cert.KernelIdeal.main_arg0_scv : Memref Cert.KernelIdeal.sig Kind.scVector Space.hbm Cert.KernelIdeal.S10000x128 EltTy.f32)
local notation "iM" => (Memref.whole Cert.KernelIdeal.main_v26_scv : Memref Cert.KernelIdeal.sig Kind.scVector Space.hbm Cert.KernelIdeal.S32x25x80 EltTy.i32)
local notation "zM" => (Memref.whole Cert.KernelIdeal.main_v27_scv : Memref Cert.KernelIdeal.sig Kind.scVector Space.hbm Cert.KernelIdeal.S64000x128 EltTy.f32)

variable (d : Dev nD) (L : grid8.Coords)

abbrev T0 : Fin k8_t1_loop.trips := ⟨0, by decide⟩
abbrev T1 : Fin k8_t1_loop.trips := ⟨1, by decide⟩
abbrev T2 : Fin k8_t1_loop.trips := ⟨2, by decide⟩
abbrev T3 : Fin k8_t1_loop.trips := ⟨3, by decide⟩
abbrev T4 : Fin k8_t1_loop.trips := ⟨4, by decide⟩

abbrev XT (qt : PosShare TreeShare) (X : Buf (Elt F) (xLoc d)) : sProp 𝕄 :=
  bigSepL [(0 : Fin 5), 1, 2, 3, 4] fun b => xLoc d ↦{Transfers.shareTok qt 5 b} X

abbrev ZT (f : Buf (Elt F) (zLoc d)) : sProp 𝕄 :=
  bigSepL chunkL fun p => zLoc d ↦[(zC L p.1 p.2).view.set]{fullShare} f

abbrev ST : sProp 𝕄 := bigSepL (semL.map fun sm => ((thrL d L, sm) : GSem nD τ sig)) (fun g => semVal g 0)

theorem slot_read_write_same (off : Fin 3 → Nat) (h : ∀ a, off a + S1x80x128.size a ≤ S5x80x128.size a)
    (G : Buf (Elt F) ((thrL d L).loc cc8_scratch1)) (P : S80x128.Idx → Elt F .f32) :
    (slotM off h).view.read (Elt F) (View.write (Elt F) (slotM off h).view G P Finset.univ) = P := by
  funext x
  rw [View.read_apply, View.write_emb_of_mem _ _ (Finset.mem_univ x), cast_cast, cast_eq]

theorem slot_disjoint (off off' : Fin 3 → Nat) (h : ∀ a, off a + S1x80x128.size a ≤ S5x80x128.size a)
    (h' : ∀ a, off' a + S1x80x128.size a ≤ S5x80x128.size a) (hne : off 0 ≠ off' 0) :
    Disjoint (slotM off h).view.set (slotM off' h').view.set := by
  show Disjoint (((View.whole cc8_scratch1).slice (Rect.unit (s := S5x80x128) off S1x80x128.size h)).reshape S80x128 squeezes_S1x80x128_S80x128.numel_eq).set
    (((View.whole cc8_scratch1).slice (Rect.unit (s := S5x80x128) off' S1x80x128.size h')).reshape S80x128 squeezes_S1x80x128_S80x128.numel_eq).set
  rw [View.set_reshape, View.set_reshape, View.set_slice_whole, View.set_slice_whole]
  refine Rect.unit_disjoint (0 : Fin 3) ?_
  rcases Nat.lt_or_gt_of_ne hne with hlt | hgt
  · left; show off 0 + 1 ≤ off' 0; omega
  · right; show off' 0 + 1 ≤ off 0; omega

theorem slot_read_write_other (off off' : Fin 3 → Nat) (h : ∀ a, off a + S1x80x128.size a ≤ S5x80x128.size a)
    (h' : ∀ a, off' a + S1x80x128.size a ≤ S5x80x128.size a) (hne : off 0 ≠ off' 0)
    (G : Buf (Elt F) ((thrL d L).loc cc8_scratch1)) (P' : S80x128.Idx → Elt F .f32) :
    (slotM off h).view.read (Elt F) (View.write (Elt F) (slotM off' h').view G P' Finset.univ) = (slotM off h).view.read (Elt F) G := by
  funext x
  rw [View.read_apply, View.read_apply, View.write_of_not_mem]
  rw [View.setOn_univ]
  exact Finset.disjoint_left.mp (slot_disjoint off off' h h' hne) (View.emb_mem_set (slotM off h).view x)

theorem z_fin (X : Buf (Elt F) (xLoc d)) (I : Buf (Elt F) (iLoc d)) (t : Fin k8_t1_loop.trips) (r : Fin 5) (fz : Buf (Elt F) (zLoc d))
    (P : S80x128.Idx → Elt F .f32) (hP : ∀ x, gath d X I ((zC L t r).view.emb x) = P x) :
    ((zC L t r).view.loc (thrL d L) ↦[(zC L t r).view.set]{fullShare} (zC L t r).view.writes (Elt F) fz [⟨Rect.whole S80x128, P⟩] : sProp 𝕄)
      = (zLoc d ↦[(zC L t r).view.set]{fullShare} gath d X I) := by
  refine pointsTo_congr fun y hy => ?_
  obtain ⟨x, -, rfl⟩ := Finset.mem_map.mp hy
  have h1 := View.read_writes_cons_emb (v := (zC L t r).view) (f := fz) (Rect.whole S80x128) P [] x
  rw [Rect.emb_whole_apply, View.read_apply] at h1
  exact ((cast_eq _ _).symm.trans h1).trans (hP x).symm

theorem waits_ok {W W' : Waits sig (HIx 5)} (sm : SemLoc sig) (h : ∀ p ∈ W', p ∈ W ∨ p.2 = none) :
    ∀ p ∈ insert (sm, (default : HIx 5)) W', p ∈ W ∨ p.2 = none := by
  intro p hp
  rcases Finset.mem_insert.mp hp with rfl | hp
  · exact .inr rfl
  · exact h p hp
theorem waits_ok₀ {W : Waits sig (HIx 5)} : ∀ p ∈ W, p ∈ W ∨ p.2 = none := fun _ hp => .inl hp

theorem pts_x (q : PosShare TreeShare) (X : Buf (Elt F) (xLoc d)) :
    (xLoc d ↦{q} X : sProp 𝕄) = ((xM).view.loc (thrL d L) ↦[(xM).view.set]{q} X) := by
  simp only [Memref.view_whole, View.set_whole]
theorem pts_s0 (f : Buf (Elt F) ((thrL d L).loc cc8_scratch0)) :
    ((thrL d L).loc cc8_scratch0 ↦{fullShare} f : sProp 𝕄) = ((sI).view.loc (thrL d L) ↦[(sI).view.set]{fullShare} f) := by
  simp only [Memref.view_whole, View.set_whole]
theorem pts_s1 (f : Buf (Elt F) ((thrL d L).loc cc8_scratch1)) :
    ((thrL d L).loc cc8_scratch1 ↦{fullShare} f : sProp 𝕄) = ((sR).view.loc (thrL d L) ↦[(sR).view.set]{fullShare} f) := by
  simp only [Memref.view_whole, View.set_whole]

end Cert.Proof.KI.Sc4

end
-- ==== Proof.ScTile4.lean ====
import proofs.«212107_g53927609368716_cont_9to1_m_409_29_alg».proof.Proof.ScPre4

noncomputable section

namespace Cert.Proof.KI.Sc4

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Named F] [Cert.KernelIdeal.Facts]

local notation "𝕄" => MT nD τ sig (HIx 5) (Elt F) ℕ UU ℕ

local notation "sI" => (Memref.whole Cert.KernelIdeal.cc8_scratch0 : Memref Cert.KernelIdeal.sig Kind.scVector Space.vmem Cert.KernelIdeal.S25x80 EltTy.i32)
local notation "sR" => (Memref.whole Cert.KernelIdeal.cc8_scratch1 : Memref Cert.KernelIdeal.sig Kind.scVector Space.vmem Cert.KernelIdeal.S5x80x128 EltTy.f32)
local notation "xM" => (Memref.whole Cert.KernelIdeal.main_arg0_scv : Memref Cert.KernelIdeal.sig Kind.scVector Space.hbm Cert.KernelIdeal.S10000x128 EltTy.f32)
local notation "iM" => (Memref.whole Cert.KernelIdeal.main_v26_scv : Memref Cert.KernelIdeal.sig Kind.scVector Space.hbm Cert.KernelIdeal.S32x25x80 EltTy.i32)
local notation "zM" => (Memref.whole Cert.KernelIdeal.main_v27_scv : Memref Cert.KernelIdeal.sig Kind.scVector Space.hbm Cert.KernelIdeal.S64000x128 EltTy.f32)

variable (d : Dev nD) (L : grid8.Coords)

theorem xt_eq (qt : PosShare TreeShare) (X : Buf (Elt F) (xLoc d)) :
    XT d qt X = iprop(((xM).view.loc (thrL d L) ↦[(xM).view.set]{Transfers.shareTok qt 5 0} X) ∗ ((xM).view.loc (thrL d L) ↦[(xM).view.set]{Transfers.shareTok qt 5 1} X) ∗ ((xM).view.loc (thrL d L) ↦[(xM).view.set]{Transfers.shareTok qt 5 2} X) ∗ ((xM).view.loc (thrL d L) ↦[(xM).view.set]{Transfers.shareTok qt 5 3} X) ∗ ((xM).view.loc (thrL d L) ↦[(xM).view.set]{Transfers.shareTok qt 5 4} X)) := by
  simp only [← pts_x d L]; rfl

theorem zt_eq (f : Buf (Elt F) (zLoc d)) :
    ZT d L f = iprop((zLoc d ↦[(zC L T0 0).view.set]{fullShare} f) ∗ (zLoc d ↦[(zC L T0 1).view.set]{fullShare} f) ∗ (zLoc d ↦[(zC L T0 2).view.set]{fullShare} f) ∗ (zLoc d ↦[(zC L T0 3).view.set]{fullShare} f) ∗ (zLoc d ↦[(zC L T0 4).view.set]{fullShare} f) ∗ (zLoc d ↦[(zC L T1 0).view.set]{fullShare} f) ∗ (zLoc d ↦[(zC L T1 1).view.set]{fullShare} f) ∗ (zLoc d ↦[(zC L T1 2).view.set]{fullShare} f) ∗ (zLoc d ↦[(zC L T1 3).view.set]{fullShare} f) ∗ (zLoc d ↦[(zC L T1 4).view.set]{fullShare} f) ∗ (zLoc d ↦[(zC L T2 0).view.set]{fullShare} f) ∗ (zLoc d ↦[(zC L T2 1).view.set]{fullShare} f) ∗ (zLoc d ↦[(zC L T2 2).view.set]{fullShare} f) ∗ (zLoc d ↦[(zC L T2 3).view.set]{fullShare} f) ∗ (zLoc d ↦[(zC L T2 4).view.set]{fullShare} f) ∗ (zLoc d ↦[(zC L T3 0).view.set]{fullShare} f) ∗ (zLoc d ↦[(zC L T3 1).view.set]{fullShare} f) ∗ (zLoc d ↦[(zC L T3 2).view.set]{fullShare} f) ∗ (zLoc d ↦[(zC L T3 3).view.set]{fullShare} f) ∗ (zLoc d ↦[(zC L T3 4).view.set]{fullShare} f) ∗ (zLoc d ↦[(zC L T4 0).view.set]{fullShare} f) ∗ (zLoc d ↦[(zC L T4 1).view.set]{fullShare} f) ∗ (zLoc d ↦[(zC L T4 2).view.set]{fullShare} f) ∗ (zLoc d ↦[(zC L T4 3).view.set]{fullShare} f) ∗ (zLoc d ↦[(zC L T4 4).view.set]{fullShare} f)) := rfl

theorem pts_z (t : Fin k8_t1_loop.trips) (r : Fin 5) (f : Buf (Elt F) (zLoc d)) :
    (zLoc d ↦[(zC L t r).view.set]{fullShare} f : sProp 𝕄) = ((zC L t r).view.loc (thrL d L) ↦[(zC L t r).view.set]{fullShare} f) := rfl

theorem st_eq : (ST d L : sProp 𝕄) = iprop(semVal (thrL d L, SemLoc.dma gS0) 0 ∗ semVal (thrL d L, SemLoc.dma gS1) 0 ∗ semVal (thrL d L, SemLoc.dma gS2) 0 ∗ semVal (thrL d L, SemLoc.dma gS3) 0 ∗ semVal (thrL d L, SemLoc.dma gS4) 0 ∗ semVal (thrL d L, SemLoc.dma wS0) 0 ∗ semVal (thrL d L, SemLoc.dma wS1) 0 ∗ semVal (thrL d L, SemLoc.dma wS2) 0 ∗ semVal (thrL d L, SemLoc.dma wS3) 0 ∗ semVal (thrL d L, SemLoc.dma wS4) 0 ∗ semVal (thrL d L, SemLoc.dma cS) 0) := rfl

set_option maxHeartbeats 16000000 in
theorem tile_run (O : CellTallies nD τ sig (HIx 5)) (W : Waits sig (HIx 5)) (hO : ∀ g, O g none = 0)
    (X : Buf (Elt F) (xLoc d)) (I : Buf (Elt F) (iLoc d)) (hI : IdxOK d I)
    (fs : Buf (Elt F) ((thrL d L).loc cc8_scratch0)) (fr : Buf (Elt F) ((thrL d L).loc cc8_scratch1))
    (fz : Buf (Elt F) (zLoc d)) (qt : PosShare TreeShare) :
    (iprop(levAts (K (F := F)).L (K (F := F)).lev ∗ XT d qt X
        ∗ (iLoc d ↦[(iPl L).view.set]{fullShare} I)
        ∗ ((thrL d L).loc cc8_scratch0 ↦{fullShare} fs) ∗ ((thrL d L).loc cc8_scratch1 ↦{fullShare} fr)
        ∗ ZT d L fz ∗ ST d L ∗ owes (thrL d L) O W) : sProp 𝕄)
      ⊢ wp frame (wpE (defs₀ (F := F)) 𝒱₀ (thrL d L) none) Set.univ
          (cc8_k L xM (Memref.isWhole_whole _) iM (Memref.isWhole_whole _) zM (Memref.isWhole_whole _) sI (Memref.isWhole_whole _) sR (Memref.isWhole_whole _) cc8_scratch2 cc8_scratch3 cc8_scoped0)
          fun _ => iprop(XT d qt X ∗ (iLoc d ↦[(iPl L).view.set]{fullShare} I)
            ∗ (∃ f, (thrL d L).loc cc8_scratch0 ↦{fullShare} f) ∗ (∃ f, (thrL d L).loc cc8_scratch1 ↦{fullShare} f)
            ∗ ZT d L (gath d X I) ∗ ST d L ∗ ∃ W', ⌜∀ p ∈ W', p ∈ W ∨ p.2 = none⌝ ∗ owes (thrL d L) O W') := by
  have hin := hin_ok d L I hI
  simp only [cc8_k_eq_skeleton]; unfold cc8_k_skel
  iintro ⟨#Hlv, HX, Hi, Hs, Hr, HZ, HS, HO⟩
  ihave Hmw := ((K (F := F)).mayWaits_none (thr := thrL d L) hO) $$ Hlv
  ihave ⟨Hz00, Hz01, Hz02, Hz03, Hz04, Hz10, Hz11, Hz12, Hz13, Hz14, Hz20, Hz21, Hz22, Hz23, Hz24, Hz30, Hz31, Hz32, Hz33, Hz34, Hz40, Hz41, Hz42, Hz43, Hz44⟩ := (Entails.of_eq (zt_eq d L fz)) $$ HZ
  ihave ⟨Hg0, Hg1, Hg2, Hg3, Hg4, Hw0, Hw1, Hw2, Hw3, Hw4, Hc⟩ := (Entails.of_eq (st_eq d L)) $$ HS
  ihave ⟨Hx0, Hx1, Hx2, Hx3, Hx4⟩ := (Entails.of_eq (xt_eq d L qt X)) $$ HX
  ihave Hi := (Entails.of_eq (show (iLoc d ↦[(iPl L).view.set]{fullShare} I : sProp 𝕄) = ((iPl L).view.loc (thrL d L) ↦[(iPl L).view.set]{fullShare} I) from rfl)) $$ Hi
  ihave Hs := (Entails.of_eq (pts_s0 d L fs)) $$ Hs
  ihave Hr := (Entails.of_eq (pts_s1 d L fr)) $$ Hr
  ihave Hz00 := (Entails.of_eq (pts_z d L T0 0 fz)) $$ Hz00
  ihave Hz01 := (Entails.of_eq (pts_z d L T0 1 fz)) $$ Hz01
  ihave Hz02 := (Entails.of_eq (pts_z d L T0 2 fz)) $$ Hz02
  ihave Hz03 := (Entails.of_eq (pts_z d L T0 3 fz)) $$ Hz03
  ihave Hz04 := (Entails.of_eq (pts_z d L T0 4 fz)) $$ Hz04
  ihave Hz10 := (Entails.of_eq (pts_z d L T1 0 fz)) $$ Hz10
  ihave Hz11 := (Entails.of_eq (pts_z d L T1 1 fz)) $$ Hz11
  ihave Hz12 := (Entails.of_eq (pts_z d L T1 2 fz)) $$ Hz12
  ihave Hz13 := (Entails.of_eq (pts_z d L T1 3 fz)) $$ Hz13
  ihave Hz14 := (Entails.of_eq (pts_z d L T1 4 fz)) $$ Hz14
  ihave Hz20 := (Entails.of_eq (pts_z d L T2 0 fz)) $$ Hz20
  ihave Hz21 := (Entails.of_eq (pts_z d L T2 1 fz)) $$ Hz21
  ihave Hz22 := (Entails.of_eq (pts_z d L T2 2 fz)) $$ Hz22
  ihave Hz23 := (Entails.of_eq (pts_z d L T2 3 fz)) $$ Hz23
  ihave Hz24 := (Entails.of_eq (pts_z d L T2 4 fz)) $$ Hz24
  ihave Hz30 := (Entails.of_eq (pts_z d L T3 0 fz)) $$ Hz30
  ihave Hz31 := (Entails.of_eq (pts_z d L T3 1 fz)) $$ Hz31
  ihave Hz32 := (Entails.of_eq (pts_z d L T3 2 fz)) $$ Hz32
  ihave Hz33 := (Entails.of_eq (pts_z d L T3 3 fz)) $$ Hz33
  ihave Hz34 := (Entails.of_eq (pts_z d L T3 4 fz)) $$ Hz34
  ihave Hz40 := (Entails.of_eq (pts_z d L T4 0 fz)) $$ Hz40
  ihave Hz41 := (Entails.of_eq (pts_z d L T4 1 fz)) $$ Hz41
  ihave Hz42 := (Entails.of_eq (pts_z d L T4 2 fz)) $$ Hz42
  ihave Hz43 := (Entails.of_eq (pts_z d L T4 3 fz)) $$ Hz43
  ihave Hz44 := (Entails.of_eq (pts_z d L T4 4 fz)) $$ Hz44
  sl_exec
  sl_unroll
  sl_exec
  sl_step
  isplitl [Hx0 Hx1 Hx2 Hx3 Hx4]
  · iapply (Entails.of_eq (xt_eq d L qt X).symm)
    isplitl [Hx0]; · iexact Hx0
    isplitl [Hx1]; · iexact Hx1
    isplitl [Hx2]; · iexact Hx2
    isplitl [Hx3]; · iexact Hx3
    iexact Hx4
  isplitl [Hi]; · iexact Hi
  isplitl [Hs]; · iexists _; iapply (Entails.of_eq (pts_s0 d L _).symm); iexact Hs
  isplitl [Hr]; · iexists _; iapply (Entails.of_eq (pts_s1 d L _).symm); iexact Hr
  isplitr [Hg0 Hg1 Hg2 Hg3 Hg4 Hw0 Hw1 Hw2 Hw3 Hw4 Hc HO]
  · iapply (Entails.of_eq (zt_eq d L (gath d X I)).symm)
    have zf := fun t r P hP => Entails.of_eq (z_fin d L X I t r fz P hP)
    isplitl [Hz00]; iapply (zf T0 0 _ ?_); rotate_left; iexact Hz00
    isplitl [Hz01]; iapply (zf T0 1 _ ?_); rotate_left; iexact Hz01
    isplitl [Hz02]; iapply (zf T0 2 _ ?_); rotate_left; iexact Hz02
    isplitl [Hz03]; iapply (zf T0 3 _ ?_); rotate_left; iexact Hz03
    isplitl [Hz04]; iapply (zf T0 4 _ ?_); rotate_left; iexact Hz04
    isplitl [Hz10]; iapply (zf T1 0 _ ?_); rotate_left; iexact Hz10
    isplitl [Hz11]; iapply (zf T1 1 _ ?_); rotate_left; iexact Hz11
    isplitl [Hz12]; iapply (zf T1 2 _ ?_); rotate_left; iexact Hz12
    isplitl [Hz13]; iapply (zf T1 3 _ ?_); rotate_left; iexact Hz13
    isplitl [Hz14]; iapply (zf T1 4 _ ?_); rotate_left; iexact Hz14
    isplitl [Hz20]; iapply (zf T2 0 _ ?_); rotate_left; iexact Hz20
    isplitl [Hz21]; iapply (zf T2 1 _ ?_); rotate_left; iexact Hz21
    isplitl [Hz22]; iapply (zf T2 2 _ ?_); rotate_left; iexact Hz22
    isplitl [Hz23]; iapply (zf T2 3 _ ?_); rotate_left; iexact Hz23
    isplitl [Hz24]; iapply (zf T2 4 _ ?_); rotate_left; iexact Hz24
    isplitl [Hz30]; iapply (zf T3 0 _ ?_); rotate_left; iexact Hz30
    isplitl [Hz31]; iapply (zf T3 1 _ ?_); rotate_left; iexact Hz31
    isplitl [Hz32]; iapply (zf T3 2 _ ?_); rotate_left; iexact Hz32
    isplitl [Hz33]; iapply (zf T3 3 _ ?_); rotate_left; iexact Hz33
    isplitl [Hz34]; iapply (zf T3 4 _ ?_); rotate_left; iexact Hz34
    isplitl [Hz40]; iapply (zf T4 0 _ ?_); rotate_left; iexact Hz40
    isplitl [Hz41]; iapply (zf T4 1 _ ?_); rotate_left; iexact Hz41
    isplitl [Hz42]; iapply (zf T4 2 _ ?_); rotate_left; iexact Hz42
    isplitl [Hz43]; iapply (zf T4 3 _ ?_); rotate_left; iexact Hz43
    iapply (zf T4 4 _ ?_); rotate_left; iexact Hz44
    all_goals
      intro x
      show _ = View.read (Elt F) (slotM _ _).view _ x
      repeat (first | rw [slot_read_write_same d L] | (rw [slot_read_write_other d L]; on_goal 2 => decide))
      exact chunk_val d L X I hI _ _ _ _ (by first | rfl | (rw [k8_off3_eq]; rfl) | (rw [k8_off7_eq]; rfl) | (rw [k8_off9_eq]; rfl) | (rw [k8_off11_eq]; rfl) | (rw [k8_off13_eq]; rfl) | decide) _ _ _ x
  isplitr [HO]
  · iapply (Entails.of_eq (st_eq d L).symm)
    isplitl [Hg0]; · iexact Hg0
    isplitl [Hg1]; · iexact Hg1
    isplitl [Hg2]; · iexact Hg2
    isplitl [Hg3]; · iexact Hg3
    isplitl [Hg4]; · iexact Hg4
    isplitl [Hw0]; · iexact Hw0
    isplitl [Hw1]; · iexact Hw1
    isplitl [Hw2]; · iexact Hw2
    isplitl [Hw3]; · iexact Hw3
    isplitl [Hw4]; · iexact Hw4
    iexact Hc
  iexists _
  isplitr
  on_goal 2 => iexact HO
  ipureintro
  repeat (first | exact waits_ok₀ | refine waits_ok _ ?_)

end Cert.Proof.KI.Sc4

end
-- ==== Proof.ScBody4.lean ====
import proofs.«212107_g53927609368716_cont_9to1_m_409_29_alg».proof.Proof.ScTile4

noncomputable section

namespace Cert.Proof.KI.Sc4

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Named F] [Cert.KernelIdeal.Facts]

local notation "𝕄" => MT nD τ sig (HIx 5) (Elt F) ℕ UU ℕ

variable (d : Dev nD) (L : grid8.Coords)

-- The tile's run with the rest framed off: its share of the table as five tokens, its rows of the result by chunks.
theorem tile_body (hF : (K (F := F)).Facts) (q : PosShare TreeShare)
    (X : Buf (Elt F) (xLoc d)) (I : Buf (Elt F) (iLoc d)) (hI : IdxOK d I)
    (O : CellTallies nD τ sig (HIx 5)) (W : Waits sig (HIx 5)) (hO : ∀ g, O g none = 0) :
    iprop(levAts (K (F := F)).L (K (F := F)).lev ∗ go d q X I (cL L) (jL L)
        ∗ scopedBufs (thrL d L) ∗ scopedSems0 (thrL d L) ∗ owes (thrL d L) O W)
      ⊢ wp frame (wpE (defs₀ (F := F)) 𝒱₀ (thrL d L) none) Set.univ
          (cc8_k L (Memref.whole main_arg0_scv) (Memref.isWhole_whole _) (Memref.whole main_v26_scv) (Memref.isWhole_whole _) (Memref.whole main_v27_scv) (Memref.isWhole_whole _)
            (Memref.whole cc8_scratch0) (Memref.isWhole_whole _) (Memref.whole cc8_scratch1) (Memref.isWhole_whole _) cc8_scratch2 cc8_scratch3 cc8_scoped0)
          fun _ => iprop(td d q X I (cL L) (jL L) ∗ scopedBufs (thrL d L) ∗ scopedSems0 (thrL d L)
            ∗ ∃ W', ⌜∀ p ∈ W', p ∈ W ∨ p.2 = none⌝ ∗ owes (thrL d L) O W') := by
  unfold go td
  have h : (xLoc d ↦{qTile q (cL L) (jL L)} X : sProp 𝕄) ⊣⊢ _ := Transfers.pointsTo_toks _ 5
  rw [(K (F := F)).scopedBufs_V hF d _ _, SparseCore.Cfg.scopedSems0_V (Val := Elt F) d _ _, ownSems0_split, ownBufs_split,
    ← set_iPl L, zRows_chunks d L (gath d X I), BI.Entails.antisymm h.1 h.2,
    bigSep_univ_eq_bigSepL [(0 : Fin 5), 1, 2, 3, 4] (by decide) (by decide)]
  iintro ⟨#Hlv, ⟨⟨Hxd, Hxt⟩, Hi, %fz, Hz⟩, ⟨⟨%fs, Hs⟩, ⟨%fr, Hr⟩, Hbufs⟩, ⟨Hsems, Hsrest⟩, HO⟩
  ihave Hz := (Entails.of_eq (zRows_chunks d L fz)) $$ Hz
  iapply (wp_wand_r frame _ _)
  isplitl [Hxt Hi Hs Hr Hz Hsems HO]
  · iapply (tile_run d L O W hO X I hI fs fr fz (qTile q (cL L) (jL L)))
    isplitr; · iexact Hlv
    isplitl [Hxt]; · iexact Hxt
    isplitl [Hi]; · iexact Hi
    isplitl [Hs]; · iexact Hs
    isplitl [Hr]; · iexact Hr
    isplitl [Hz]; · iexact Hz
    isplitl [Hsems]; · iexact Hsems
    iexact HO
  iintro %_ ⟨Hxt, Hi, Hs, Hr, Hz, Hsems, HO⟩
  isplitl [Hxd Hxt Hi Hz]
  · isplitl [Hxd Hxt]
    · isplitl [Hxd]; · iexact Hxd
      iexact Hxt
    isplitl [Hi]; · iexact Hi
    iexact Hz
  isplitl [Hs Hr Hbufs]
  · isplitl [Hs]; · iexact Hs
    isplitl [Hr]; · iexact Hr
    iexact Hbufs
  isplitl [Hsems Hsrest]
  · isplitl [Hsems]; · iexact Hsems
    iexact Hsrest
  iexact HO

end Cert.Proof.KI.Sc4

end
-- ==== Proof.WMain.lean ====
import proofs.«212107_g53927609368716_cont_9to1_m_409_29_alg».proof.Proof.WSetup
import proofs.«212107_g53927609368716_cont_9to1_m_409_29_alg».proof.Proof.WLaunch
import proofs.«212107_g53927609368716_cont_9to1_m_409_29_alg».proof.Proof.WScSplit0
import proofs.«212107_g53927609368716_cont_9to1_m_409_29_alg».proof.Proof.WScSplit1
import proofs.«212107_g53927609368716_cont_9to1_m_409_29_alg».proof.Proof.WScSplit2
import proofs.«212107_g53927609368716_cont_9to1_m_409_29_alg».proof.Proof.WScSplit3
import proofs.«212107_g53927609368716_cont_9to1_m_409_29_alg».proof.Proof.WScSplit4
import Idealize.ShloMosaic.Lib.StableHlo.Run
import Idealize.ShloMosaic.Lib.Pipeline.Frame
import Idealize.ShloMosaic.Lib.Tactic

noncomputable section

namespace Cert.Proof.KW.Main

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split held_congr wp_hlo_within wp_seq seq after)
open Idealize.ShloMosaic.Tactic

variable {F : FTy → Type} [FloatOps F] [Cert.Kernel.Facts]

local notation "𝕄" => MT nD τ sig (HIx 5) (Elt F) ℕ UU ℕ

abbrev C (s : Shape) (e : EltTy) : Type := (⟨s, e⟩ : BufTy).Contents (Elt F)

abbrev xBand (o : ℕ) (h : S10000x128.Slices ![o, 0] S2000x128) (X : C (F := F) S10000x128 .f32) : C (F := F) S2000x128 .f32 :=
  extractStridedSlice S2000x128 ![o, 0] X h
abbrev iBand (o : ℕ) (h : S10000x32.Slices ![o, 0] S2000x32) (N : C (F := F) S10000x32 .i32) : C (F := F) S2000x32 .i32 :=
  extractStridedSlice S2000x32 ![o, 0] N h

abbrev op_c : HloOp τ sig (Elt F) := StableHlo.nullary main_c (constantI S_ 32 0#32)
abbrev op_v0 : HloOp τ sig (Elt F) := StableHlo.unary main_c main_v0 (broadcastInDim S10000x32 ![] bcast_S_S10000x32 : C (F := F) S_ .i32 → C (F := F) S10000x32 .i32)
abbrev op_v1 : HloOp τ sig (Elt F) := StableHlo.binary main_arg1 main_v0 main_v1 (cmpi .eq : C (F := F) S10000x32 .i32 → C (F := F) S10000x32 .i32 → C (F := F) S10000x32 .i1)
abbrev op_c0 : HloOp τ sig (Elt F) := StableHlo.nullary main_c_0 (constantI S_ 32 1#32)
abbrev op_v2 : HloOp τ sig (Elt F) := StableHlo.unary main_c_0 main_v2 (broadcastInDim S10000x32 ![] bcast_S_S10000x32 : C (F := F) S_ .i32 → C (F := F) S10000x32 .i32)
abbrev op_v3 : HloOp τ sig (Elt F) := StableHlo.binary main_arg1 main_v2 main_v3 (subi : C (F := F) S10000x32 .i32 → C (F := F) S10000x32 .i32 → C (F := F) S10000x32 .i32)
abbrev op_c1 : HloOp τ sig (Elt F) := StableHlo.nullary main_c_1 (constantI S_ 32 9999#32)
abbrev op_w0 : HloOp τ sig (Elt F) := StableHlo.TRef.unary (.of main_c_1 : StableHlo.TRef sig ⟨S_, .i32⟩) main_call0.v0 id
abbrev op_w1 : HloOp τ sig (Elt F) := StableHlo.TRef.unary main_call0.v0 main_call0.v1 (broadcastInDim S10000x32 ![] bcast_S_S10000x32)
abbrev op_v4 : HloOp τ sig (Elt F) := StableHlo.TRef.ternary (.of main_v1 : StableHlo.TRef sig ⟨S10000x32, .i1⟩) main_call0.v1 (.of main_v3 : StableHlo.TRef sig ⟨S10000x32, .i32⟩) main_call0.v2 select
abbrev op_v5 : HloOp τ sig (Elt F) := StableHlo.unary main_v4 main_v5 (iBand 0 slices_S10000x32_S2000x32_0_0)
abbrev op_v6 : HloOp τ sig (Elt F) := StableHlo.reshape main_v5 main_v6 rfl shapeCasts_S2000x32_S32x25x80
abbrev op_v8 : HloOp τ sig (Elt F) := StableHlo.unary main_arg0 main_v8 (xBand 0 slices_S10000x128_S2000x128_0_0)
abbrev op_v10 : HloOp τ sig (Elt F) := StableHlo.unary main_v4 main_v10 (iBand 2000 slices_S10000x32_S2000x32_2000_0)
abbrev op_v11 : HloOp τ sig (Elt F) := StableHlo.reshape main_v10 main_v11 rfl shapeCasts_S2000x32_S32x25x80
abbrev op_v13 : HloOp τ sig (Elt F) := StableHlo.unary main_arg0 main_v13 (xBand 2000 slices_S10000x128_S2000x128_2000_0)
abbrev op_v15 : HloOp τ sig (Elt F) := StableHlo.unary main_v4 main_v15 (iBand 4000 slices_S10000x32_S2000x32_4000_0)
abbrev op_v16 : HloOp τ sig (Elt F) := StableHlo.reshape main_v15 main_v16 rfl shapeCasts_S2000x32_S32x25x80
abbrev op_v18 : HloOp τ sig (Elt F) := StableHlo.unary main_arg0 main_v18 (xBand 4000 slices_S10000x128_S2000x128_4000_0)
abbrev op_v20 : HloOp τ sig (Elt F) := StableHlo.unary main_v4 main_v20 (iBand 6000 slices_S10000x32_S2000x32_6000_0)
abbrev op_v21 : HloOp τ sig (Elt F) := StableHlo.reshape main_v20 main_v21 rfl shapeCasts_S2000x32_S32x25x80
abbrev op_v23 : HloOp τ sig (Elt F) := StableHlo.unary main_arg0 main_v23 (xBand 6000 slices_S10000x128_S2000x128_6000_0)
abbrev op_v25 : HloOp τ sig (Elt F) := StableHlo.unary main_v4 main_v25 (iBand 8000 slices_S10000x32_S2000x32_8000_0)
abbrev op_v26 : HloOp τ sig (Elt F) := StableHlo.reshape main_v25 main_v26 rfl shapeCasts_S2000x32_S32x25x80
abbrev op_v28 : HloOp τ sig (Elt F) := StableHlo.unary main_arg0 main_v28 (xBand 8000 slices_S10000x128_S2000x128_8000_0)
abbrev op_v30 : HloOp τ sig (Elt F) := StableHlo.nary ![main_v9, main_v14, main_v19, main_v24, main_v29] main_v30 (fun u => concatenate S10000x128 0 [⟨S2000x128, u 0⟩, ⟨S2000x128, u 1⟩, ⟨S2000x128, u 2⟩, ⟨S2000x128, u 3⟩, ⟨S2000x128, u 4⟩] concatenates_S2000x128_S2000x128_S2000x128_S2000x128_S2000x128_S10000x128_d0)

abbrev ops0 : List (HloOp τ sig (Elt F)) := [op_c, op_v0, op_v1, op_c0, op_v2, op_v3, op_c1, op_w0, op_w1, op_v4, op_v5, op_v6]

abbrev region (s : Fin 5) : Prog (TpuEff nD τ sig (Elt F) (SparseCore.Sig (ΛP (F := F)) 5) .tc) PUnit :=
  Prog.lift (.customCall (SparseCore.inner (Pipeline.entry s)) ())

theorem main_eq (d : Dev nD) : main (F := F) d =
    (seq ops0 >>= fun _ => (K (F := F)).run d 0 >>= fun _ => seq [op_v8] >>= fun _ => region 0 >>= fun _ =>
     seq [op_v10, op_v11] >>= fun _ => (K (F := F)).run d 1 >>= fun _ => seq [op_v13] >>= fun _ => region 1 >>= fun _ =>
     seq [op_v15, op_v16] >>= fun _ => (K (F := F)).run d 2 >>= fun _ => seq [op_v18] >>= fun _ => region 2 >>= fun _ =>
     seq [op_v20, op_v21] >>= fun _ => (K (F := F)).run d 3 >>= fun _ => seq [op_v23] >>= fun _ => region 3 >>= fun _ =>
     seq [op_v25, op_v26] >>= fun _ => (K (F := F)).run d 4 >>= fun _ => seq [op_v28] >>= fun _ => region 4 >>= fun _ =>
     seq [op_v30] >>= fun _ => pure ⟨⟩) := rfl

abbrev r (b : Ref sig .tc) : DevRef τ sig := Proc.devRef .tc b

abbrev SS : Finset (DevRef τ sig) := Pipeline.ucRefs τ sig

theorem mem_SS (b : Ref sig .tc) (h : (r b).isScoped = false := by rfl) : r b ∈ SS :=
  Finset.mem_filter.mpr ⟨StableHlo.devRef_mem_tcRefs b, fun h' => Bool.false_ne_true (h.symm.trans h')⟩

abbrev rest3 (a b c : DevRef τ sig) : Finset (DevRef τ sig) := ((SS.erase a).erase b).erase c

omit [FloatOps F] [Cert.Kernel.Facts] in
theorem held3 (thr : Thread nD τ) {a b c : DevRef τ sig} (ha : a ∈ SS) (hb : b ∈ SS) (hc : c ∈ SS)
    (hab : a ≠ b) (hac : a ≠ c) (hbc : b ≠ c) (V : Valuation τ sig (Elt F)) :
    (held thr SS V : sProp 𝕄) = iprop((((thr.1, a) : Loc nD τ sig) ↦{fullShare} V a) ∗ (((thr.1, b) : Loc nD τ sig) ↦{fullShare} V b)
      ∗ (((thr.1, c) : Loc nD τ sig) ↦{fullShare} V c) ∗ held thr (rest3 a b c) V) := by
  unfold held
  rw [SparseCore.bigSep_erase' ha, SparseCore.bigSep_erase' (Finset.mem_erase.mpr ⟨hab.symm, hb⟩),
    SparseCore.bigSep_erase' (Finset.mem_erase.mpr ⟨hbc.symm, Finset.mem_erase.mpr ⟨hac.symm, hc⟩⟩)]

omit [FloatOps F] [Cert.Kernel.Facts] in

theorem held3_of (thr : Thread nD τ) {a b c : DevRef τ sig} (ha : a ∈ SS) (hb : b ∈ SS) (hc : c ∈ SS)
    (hab : a ≠ b) (hac : a ≠ c) (hbc : b ≠ c) (V W : Valuation τ sig (Elt F)) (hW : ∀ x, x ≠ a → x ≠ b → x ≠ c → W x = V x) :
    (held thr SS W : sProp 𝕄) = iprop((((thr.1, a) : Loc nD τ sig) ↦{fullShare} W a) ∗ (((thr.1, b) : Loc nD τ sig) ↦{fullShare} W b)
      ∗ (((thr.1, c) : Loc nD τ sig) ↦{fullShare} W c) ∗ held thr (rest3 a b c) V) := by
  rw [held3 thr ha hb hc hab hac hbc W, held_congr thr (V := W) (V' := V) fun x hx =>
    hW x (Finset.ne_of_mem_erase (Finset.mem_of_mem_erase (Finset.mem_of_mem_erase hx)))
      (Finset.ne_of_mem_erase (Finset.mem_of_mem_erase hx)) (Finset.ne_of_mem_erase hx)]

abbrev TT (d : Dev nD) : Thread nD τ := SparseCore.T d
abbrev loc (d : Dev nD) (b : Ref sig .tc) : Loc nD τ sig := (SparseCore.T d).loc b

abbrev owesB (d : Dev nD) (n : ℕ) : sProp 𝕄 :=
  iprop(∃ W, ⌜(K (F := F)).WBelow (TT d) W (8 * n)⌝ ∗ owes (TT d) ((K (F := F)).Otc d n) W)

theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

section Pre

theorem hS_of (ops : List (HloOp τ sig (Elt F))) (h : ops.Forall fun op => op.bufs ⊆ StableHlo.tcRefs τ sig) : ∀ op ∈ ops, op.bufs ⊆ SS :=
  fun op hop => Pipeline.sub_ucRefs op ((List.forall_iff_forall_mem.mp h) op hop)

theorem hS0 : ∀ op ∈ (ops0 : List (HloOp τ sig (Elt F))), op.bufs ⊆ SS :=
  hS_of _ (by simp only [ops0, List.Forall, StableHlo.nullary_bufs_sub, StableHlo.unary_bufs_sub, StableHlo.binary_bufs_sub, StableHlo.ternary_bufs_sub, StableHlo.reshape_bufs_sub, and_self])
theorem hf0 : ∀ op ∈ (ops0 : List (HloOp τ sig (Elt F))), op.fresh = ∅ := by
  intro op h
  simp only [ops0, List.mem_cons, List.not_mem_nil, or_false] at h
  rcases h with rfl | rfl | rfl | rfl | rfl | rfl | rfl | rfl | rfl | rfl | rfl | rfl <;> rfl

abbrev wr0 : List (Ref sig .tc) := [main_c, main_v0, main_v1, main_c_0, main_v2, main_v3, main_c_1, main_call0_v0, main_call0_v1, main_v4, main_v5, main_v6]

theorem pre0_ne (V : Valuation τ sig (Elt F)) (b : Ref sig .tc) (hb : b ∉ wr0) : after ops0 V (r b) = V (r b) :=
  StableHlo.after_of_writes_sub (W := wr0) ops0 V (by
    simp only [ops0, List.Forall, StableHlo.nullary_writes, StableHlo.unary_writes, StableHlo.binary_writes, StableHlo.ternary_writes, StableHlo.reshape_writes]
    decide) hb

theorem pre0_4 (V : Valuation τ sig (Elt F)) : after ops0 V (r main_v4) = Pre.idxAll (V (r main_arg1)) := by
  after_results_simp
  rfl
theorem pre0_i (V : Valuation τ sig (Elt F)) : after ops0 V (r main_v6) = Pre.idxOf (V (r main_arg1)) 0 := by
  after_results_simp
  rfl

theorem hS2 {a b : HloOp τ sig (Elt F)}
    (ha : a.bufs ⊆ StableHlo.tcRefs τ sig := by simp only [StableHlo.unary_bufs_sub, StableHlo.reshape_bufs_sub])
    (hb : b.bufs ⊆ StableHlo.tcRefs τ sig := by simp only [StableHlo.unary_bufs_sub, StableHlo.reshape_bufs_sub]) :
    ∀ op ∈ [a, b], op.bufs ⊆ SS := hS_of _ ⟨ha, hb⟩
theorem hf2 {a b : HloOp τ sig (Elt F)} (ha : a.fresh = ∅ := by rfl) (hb : b.fresh = ∅ := by rfl) : ∀ op ∈ [a, b], op.fresh = ∅ := by
  intro op h
  simp only [List.mem_cons, List.not_mem_nil, or_false] at h
  rcases h with rfl | rfl <;> assumption

theorem hSe : ∀ op ∈ ([op_v30] : List (HloOp τ sig (Elt F))), op.bufs ⊆ SS :=
  hS_of _ (by simp only [List.Forall, StableHlo.nary_bufs_sub])
theorem hfe : ∀ op ∈ ([op_v30] : List (HloOp τ sig (Elt F))), op.fresh = ∅ := fun op h => by
  rcases List.mem_singleton.mp h with rfl; rfl
theorem post_ne (V : Valuation τ sig (Elt F)) (b : Ref sig .tc) (h : b ≠ main_v30) : after [op_v30] V (r b) = V (r b) := by
  rw [StableHlo.after_cons, StableHlo.after_nil, StableHlo.nary_result_ne _ _ _ _ _ _ h]
theorem post_out (V : Valuation τ sig (Elt F)) : after [op_v30] V (r main_v30)
    = concatenate S10000x128 0 [⟨S2000x128, V (r main_v9)⟩, ⟨S2000x128, V (r main_v14)⟩, ⟨S2000x128, V (r main_v19)⟩, ⟨S2000x128, V (r main_v24)⟩, ⟨S2000x128, V (r main_v29)⟩]
        concatenates_S2000x128_S2000x128_S2000x128_S2000x128_S2000x128_S10000x128_d0 := by
  rw [StableHlo.after_cons, StableHlo.after_nil, StableHlo.nary_result]
  rfl

end Pre

section Stage

variable (P : (K (F := F)).Pay (nD := nD) (Val := Elt F) (Name := ℕ) (U := UU))
variable {lv : GSem nD τ sig → HIx 5 → ℕ} (d : Dev nD) (q : Fin 5) (bi bz bx bo : Ref sig .tc)
variable (X : Buf (Elt F) (loc d main_arg0)) (I : Buf (Elt F) (loc d bi)) (Z : Buf (Elt F) (loc d bz)) (XS : Buf (Elt F) (loc d bx))
variable (Oin O : Buf (Elt F) (loc d bo))

def stV (V : Valuation τ sig (Elt F)) : Valuation τ sig (Elt F) :=
  Function.update (Function.update (Function.update V (r bz) Z) (r bx) XS) (r bo) O

theorem stV_of_ne (V : Valuation τ sig (Elt F)) (b : DevRef τ sig) (h1 : b ≠ r bz) (h2 : b ≠ r bx) (h3 : b ≠ r bo) :
    stV d bz bx bo Z XS O V b = V b := by
  unfold stV; rw [Function.update_of_ne h3, Function.update_of_ne h2, Function.update_of_ne h1]
theorem stV_o (V : Valuation τ sig (Elt F)) : stV d bz bx bo Z XS O V (r bo) = O := by
  unfold stV; rw [Function.update_self]
theorem stV_z (nzx : r bz ≠ r bx) (nzo : r bz ≠ r bo) (V : Valuation τ sig (Elt F)) : stV d bz bx bo Z XS O V (r bz) = Z := by
  unfold stV; rw [Function.update_of_ne nzo, Function.update_of_ne nzx, Function.update_self]
theorem stV_xs (nxo : r bx ≠ r bo) (V : Valuation τ sig (Elt F)) : stV d bz bx bo Z XS O V (r bx) = XS := by
  unfold stV; rw [Function.update_of_ne nxo, Function.update_self]

abbrev opX (f : main_arg0.ty.Contents (Elt F) → bx.ty.Contents (Elt F)) (hy : bx.space ≠ .host ∧ (r bx).isScoped = false) :
    HloOp τ sig (Elt F) := StableHlo.unary main_arg0 bx f (by exact ⟨by decide, rfl⟩) hy

-- One call and its pipeline, over any four arrays told apart: three arrays leave the held set and come back, twice.
set_option backward.isDefEq.respectTransparency.types false in
theorem stage (GR : sProp 𝕄) (hlv : (K (F := F)).Refines lv)
    (f : main_arg0.ty.Contents (Elt F) → bx.ty.Contents (Elt F)) (hy : bx.space ≠ .host ∧ (r bx).isScoped = false)
    (mi : r bi ∈ SS) (mz : r bz ∈ SS) (mo : r bo ∈ SS)
    (nai : r main_arg0 ≠ r bi) (naz : r main_arg0 ≠ r bz) (niz : r bi ≠ r bz) (nzx : r bz ≠ r bx) (nzo : r bz ≠ r bo) (nxo : r bx ≠ r bo)
    (hin : iprop((loc d main_arg0 ↦{fullShare} X) ∗ (loc d bi ↦{fullShare} I) ∗ ∃ g, loc d bz ↦{fullShare} g)
      ⊢ (|={Set.univ}=> bigSep Finset.univ fun c : Fin ((K (F := F)).nCore q) => P.st q d c : sProp 𝕄))
    (hout : (bigSep Finset.univ fun c : Fin ((K (F := F)).nCore q) => P.dn q d c : sProp 𝕄)
      ⊢ iprop((loc d main_arg0 ↦{fullShare} X) ∗ (loc d bi ↦{fullShare} I) ∗ loc d bz ↦{fullShare} Z))
    (hreg : iprop(boundary (TT d) ∗ ((loc d bz ↦{fullShare} Z) ∗ (loc d bx ↦{fullShare} f X) ∗ (loc d bo ↦{fullShare} Oin))
          ∗ owesB d (q.val + 1) ∗ levAts (K (F := F)).L lv ∗ GR)
      ⊢ wp frame (wpE ((K (F := F)).defs (D (F := F))) 𝒱 (TT d) none) Set.univ (region (F := F) q)
          fun _ => iprop(boundary (TT d) ∗ ((loc d bz ↦{fullShare} Z) ∗ (loc d bx ↦{fullShare} f X) ∗ (loc d bo ↦{fullShare} O))
            ∗ owesB d (q.val + 1)))
    (κ : GSem nD τ sig → ℕ) (V : Valuation τ sig (Elt F)) (hx : V (r main_arg0) = X) (hi : V (r bi) = I) (ho : V (r bo) = Oin)
    {β : Type} (k : PUnit → Prog (TpuEff nD τ sig (Elt F) (SparseCore.Sig (ΛP (F := F)) 5) .tc) β) (Φ : β → sProp 𝕄) :
    iprop((K (F := F)).ctx EH P κ lv ∗ (K (F := F)).tcSt EH d q.val ∗ boundary (TT d) ∗ held (TT d) SS V ∗ GR
        ∗ (((K (F := F)).tcSt EH d (q.val + 1) ∗ boundary (TT d) ∗ held (TT d) SS (stV d bz bx bo Z (f X) O V))
            -∗ wp frame (wpE ((K (F := F)).defs (D (F := F))) 𝒱 (TT d) none) Set.univ (k ⟨⟩) Φ))
      ⊢ wp frame (wpE ((K (F := F)).defs (D (F := F))) 𝒱 (TT d) none) Set.univ
          ((K (F := F)).run d q >>= fun _ => seq [opX bx f hy] >>= fun _ => region q >>= k) Φ := by
  have mx : r bx ∈ SS := mem_SS bx hy.2
  have e1 : (held (TT d) SS V : sProp 𝕄) = iprop((loc d main_arg0 ↦{fullShare} X) ∗ (loc d bi ↦{fullShare} I)
      ∗ (loc d bz ↦{fullShare} V (r bz)) ∗ held (TT d) (rest3 (r main_arg0) (r bi) (r bz)) V) := by
    rw [held3 (TT d) (mem_SS main_arg0) mi mz nai naz niz V, hx, hi]
  have e2 : (held (TT d) SS (Function.update V (r bz) Z) : sProp 𝕄) = iprop((loc d main_arg0 ↦{fullShare} X) ∗ (loc d bi ↦{fullShare} I)
      ∗ (loc d bz ↦{fullShare} Z) ∗ held (TT d) (rest3 (r main_arg0) (r bi) (r bz)) V) := by
    rw [held3_of (TT d) (mem_SS main_arg0) mi mz nai naz niz V _ (fun x _ _ h => Function.update_of_ne h _ _),
      Function.update_of_ne naz, Function.update_of_ne niz, Function.update_self, hx, hi]
  have a_ne : ∀ (W : Valuation τ sig (Elt F)) (x : DevRef τ sig), x ≠ r bx → after [opX bx f hy] W x = W x := fun W x h => by
    rw [StableHlo.after_cons, StableHlo.after_nil, HloOp.result_of_not_mem _ _ (by rw [StableHlo.unary_writes, Finset.mem_singleton]; exact h)]
  have a_z : after [opX bx f hy] (Function.update V (r bz) Z) (r bz) = Z := by rw [a_ne _ _ nzx, Function.update_self]
  have a_xs : after [opX bx f hy] (Function.update V (r bz) Z) (r bx) = f X := by
    rw [StableHlo.after_cons, StableHlo.after_nil, StableHlo.unary_result, Function.update_of_ne naz, hx]
  have a_o : after [opX bx f hy] (Function.update V (r bz) Z) (r bo) = Oin := by
    rw [a_ne _ _ nxo.symm, Function.update_of_ne nzo.symm, ho]
  have e3 : (held (TT d) SS (after [opX bx f hy] (Function.update V (r bz) Z)) : sProp 𝕄) = iprop((loc d bz ↦{fullShare} Z) ∗ (loc d bx ↦{fullShare} f X)
      ∗ (loc d bo ↦{fullShare} Oin) ∗ held (TT d) (rest3 (r bz) (r bx) (r bo)) (after [opX bx f hy] (Function.update V (r bz) Z))) := by
    rw [held3 (TT d) mz mx mo nzx nzo nxo _, a_z, a_xs, a_o]
  have e4 : (held (TT d) SS (stV d bz bx bo Z (f X) O V) : sProp 𝕄) = iprop((loc d bz ↦{fullShare} Z) ∗ (loc d bx ↦{fullShare} f X)
      ∗ (loc d bo ↦{fullShare} O) ∗ held (TT d) (rest3 (r bz) (r bx) (r bo)) (after [opX bx f hy] (Function.update V (r bz) Z))) := by
    rw [held3_of (TT d) mz mx mo nzx nzo nxo (after [opX bx f hy] (Function.update V (r bz) Z)) _
      (fun x h1 h2 h3 => by rw [stV_of_ne d bz bx bo Z (f X) O V x h1 h2 h3, a_ne _ _ h2, Function.update_of_ne h1]),
      stV_z d bz bx bo Z (f X) O nzx nzo, stV_xs d bz bx bo Z (f X) O nxo, stV_o]
  have hS : ∀ op ∈ [opX bx f hy], op.bufs ⊆ SS := fun op h => by
    rcases List.mem_singleton.mp h with rfl; exact Pipeline.sub_ucRefs _ (StableHlo.unary_bufs_sub _ _ _ _ _)
  have hf : ∀ op ∈ [opX bx f hy], op.fresh = ∅ := fun op h => by
    rcases List.mem_singleton.mp h with rfl; rfl
  rw [wp_bind]
  iintro ⟨#Hctx, Hst, Hb, Hheld, HG, Hk⟩
  ihave Hh := (Entails.of_eq e1) $$ Hheld
  icases Hh with ⟨Hx, Hi, Hz, Hrest⟩
  iapply (fupd_wp frame (wpE ((K (F := F)).defs (D (F := F))) 𝒱 (TT d) none) Set.univ _ _)
  imod hin $$ [Hx Hi Hz] with Hstp
  · isplitl [Hx]; · iexact Hx
    isplitl [Hi]; · iexact Hi
    iexists _; iexact Hz
  imodintro
  iapply ((K (F := F)).wp_run (D (F := F)) 𝒱 (EH := EH) (P := P) κ d q lv hlv) $$ [Hst Hstp Hb Hrest HG Hk]
  isplitr; · iexact Hctx
  isplitl [Hst]; · iexact Hst
  isplitl [Hstp]; · iexact Hstp
  iintro ⟨Hst, Hdn⟩
  ihave Hdn' := hout $$ Hdn
  icases Hdn' with ⟨Hx, Hi, Hz⟩
  ihave Hheld := (Entails.of_eq e2.symm) $$ [Hx Hi Hz Hrest]
  · isplitl [Hx]; · iexact Hx
    isplitl [Hi]; · iexact Hi
    isplitl [Hz]; · iexact Hz
    iexact Hrest
  iapply (wp_seq 𝒱 none Set.univ d SS (fun _ => region q >>= k) [opX bx f hy] hS hf (Function.update V (r bz) Z)) $$ [Hb Hheld]
  · isplitl [Hb]; · iexact Hb
    iexact Hheld
  iintro ⟨Hb, Hheld⟩
  rw [wp_bind]
  ihave Hh := (Entails.of_eq e3) $$ Hheld
  icases Hh with ⟨Hz, Hxs, Ho, Hrest⟩
  unfold SparseCore.Cfg.tcSt
  icases Hst with ⟨HO, Hst⟩
  iapply (wp_wand_r frame _ Set.univ)
  isplitl [Hb Hz Hxs Ho HO HG]
  · iapply hreg
    isplitl [Hb]; · iexact Hb
    isplitl [Hz Hxs Ho]
    · isplitl [Hz]; · iexact Hz
      isplitl [Hxs]; · iexact Hxs
      iexact Ho
    isplitl [HO]; · iexact HO
    isplitr; · iapply (SparseCore.Cfg.ctx_levAts κ); iexact Hctx
    iexact HG
  iintro %_ ⟨Hb, ⟨Hz, Hxs, Ho⟩, HO⟩
  iapply Hk
  isplitl [HO Hst]
  · isplitl [HO]; · iexact HO
    iexact Hst
  isplitl [Hb]; · iexact Hb
  iapply (Entails.of_eq e4.symm)
  isplitl [Hz]; · iexact Hz
  isplitl [Hxs]; · iexact Hxs
  isplitl [Ho]; · iexact Ho
  iexact Hrest

end Stage

section Agree

def Agr (ws : List (Ref sig .tc)) (W W' : Valuation τ sig (Elt F)) : Prop := ∀ b, b ∉ ws → W' (r b) = W (r b)

theorem agr_trans {ws ws' : List (Ref sig .tc)} {W W' W'' : Valuation τ sig (Elt F)} (h : Agr ws W W') (h' : Agr ws' W' W'') :
    Agr (ws ++ ws') W W'' :=
  fun b hb => (h' b fun hm => hb (List.mem_append_right _ hm)).trans (h b fun hm => hb (List.mem_append_left _ hm))

-- Two operations in a row change only their two results.
theorem agr2 {a b : HloOp τ sig (Elt F)} {V W : Valuation τ sig (Elt F)} (hW : W = after [a, b] V) (ya yb : Ref sig .tc)
    (ha : a.writes = {r ya} := by rfl) (hb : b.writes = {r yb} := by rfl) : Agr [ya, yb] V W := fun c hc => by
  simp only [List.mem_cons, List.not_mem_nil, or_false, not_or] at hc
  rw [hW, StableHlo.after_cons, StableHlo.after_cons, StableHlo.after_nil,
    b.result_of_not_mem _ (by rw [hb, Finset.mem_singleton]; exact StableHlo.devRef_ne_of_ne hc.2),
    a.result_of_not_mem _ (by rw [ha, Finset.mem_singleton]; exact StableHlo.devRef_ne_of_ne hc.1)]

theorem agr_stV {d : Dev nD} {bz bx bo : Ref sig .tc} {Z : Buf (Elt F) (loc d bz)} {XS : Buf (Elt F) (loc d bx)} {O : Buf (Elt F) (loc d bo)}
    {V W : Valuation τ sig (Elt F)} (hW : W = stV d bz bx bo Z XS O V) : Agr [bz, bx, bo] V W := fun b hb => by
  simp only [List.mem_cons, List.not_mem_nil, or_false, not_or] at hb
  rw [hW]
  exact stV_of_ne d bz bx bo Z XS O V _ (StableHlo.devRef_ne_of_ne hb.1) (StableHlo.devRef_ne_of_ne hb.2.1) (StableHlo.devRef_ne_of_ne hb.2.2)

end Agree

section HMain

variable (m : (ℓ : Loc nD τ sig) → Buf (Elt F) ℓ) (ρ : Dev nD → PrngReg)

def V0 (d : Dev nD) : Valuation τ sig (Elt F) := fun b => m (d, b)

abbrev Z0 (d : Dev nD) : Buf (Elt F) (loc d main_v7) := Sc0.gath d (m (xLoc d)) (I0 m d)
abbrev XS0 (d : Dev nD) : Buf (Elt F) (loc d main_v8) := xBand 0 slices_S10000x128_S2000x128_0_0 (m (xLoc d))

abbrev Z1 (d : Dev nD) : Buf (Elt F) (loc d main_v12) := Sc1.gath d (m (xLoc d)) (I1 m d)
abbrev XS1 (d : Dev nD) : Buf (Elt F) (loc d main_v13) := xBand 2000 slices_S10000x128_S2000x128_2000_0 (m (xLoc d))

abbrev Z2 (d : Dev nD) : Buf (Elt F) (loc d main_v17) := Sc2.gath d (m (xLoc d)) (I2 m d)
abbrev XS2 (d : Dev nD) : Buf (Elt F) (loc d main_v18) := xBand 4000 slices_S10000x128_S2000x128_4000_0 (m (xLoc d))

abbrev Z3 (d : Dev nD) : Buf (Elt F) (loc d main_v22) := Sc3.gath d (m (xLoc d)) (I3 m d)
abbrev XS3 (d : Dev nD) : Buf (Elt F) (loc d main_v23) := xBand 6000 slices_S10000x128_S2000x128_6000_0 (m (xLoc d))

abbrev Z4 (d : Dev nD) : Buf (Elt F) (loc d main_v27) := Sc4.gath d (m (xLoc d)) (I4 m d)
abbrev XS4 (d : Dev nD) : Buf (Elt F) (loc d main_v28) := xBand 8000 slices_S10000x128_S2000x128_8000_0 (m (xLoc d))

variable (O0 : (d : Dev nD) → Buf (Elt F) (loc d main_v9)) (O1 : (d : Dev nD) → Buf (Elt F) (loc d main_v14))
  (O2 : (d : Dev nD) → Buf (Elt F) (loc d main_v19)) (O3 : (d : Dev nD) → Buf (Elt F) (loc d main_v24))
  (O4 : (d : Dev nD) → Buf (Elt F) (loc d main_v29))

def Res (d : Dev nD) : Buf (Elt F) (outLoc d) :=
  concatenate S10000x128 0 [⟨S2000x128, O0 d⟩, ⟨S2000x128, O1 d⟩, ⟨S2000x128, O2 d⟩, ⟨S2000x128, O3 d⟩, ⟨S2000x128, O4 d⟩]
    concatenates_S2000x128_S2000x128_S2000x128_S2000x128_S2000x128_S10000x128_d0

abbrev Region0 : Prop := ∀ d : Dev nD,
  iprop(boundary (TT d) ∗ ((loc d main_v7 ↦{fullShare} Z0 m d) ∗ (loc d main_v8 ↦{fullShare} XS0 m d) ∗ (loc d main_v9 ↦{fullShare} m (loc d main_v9)))
      ∗ owesB d 1 ∗ levAts (K (F := F)).L (K (F := F)).lev ∗ ghost (F := F) 0 d)
    ⊢ wp frame (wpE ((K (F := F)).defs (D (F := F))) 𝒱 (TT d) none) Set.univ (region (F := F) 0)
        fun _ => iprop(boundary (TT d) ∗ ((loc d main_v7 ↦{fullShare} Z0 m d) ∗ (loc d main_v8 ↦{fullShare} XS0 m d) ∗ (loc d main_v9 ↦{fullShare} O0 d))
          ∗ owesB d 1)

abbrev Region1 : Prop := ∀ d : Dev nD,
  iprop(boundary (TT d) ∗ ((loc d main_v12 ↦{fullShare} Z1 m d) ∗ (loc d main_v13 ↦{fullShare} XS1 m d) ∗ (loc d main_v14 ↦{fullShare} m (loc d main_v14)))
      ∗ owesB d 2 ∗ levAts (K (F := F)).L (K (F := F)).lev ∗ ghost (F := F) 1 d)
    ⊢ wp frame (wpE ((K (F := F)).defs (D (F := F))) 𝒱 (TT d) none) Set.univ (region (F := F) 1)
        fun _ => iprop(boundary (TT d) ∗ ((loc d main_v12 ↦{fullShare} Z1 m d) ∗ (loc d main_v13 ↦{fullShare} XS1 m d) ∗ (loc d main_v14 ↦{fullShare} O1 d))
          ∗ owesB d 2)

abbrev Region2 : Prop := ∀ d : Dev nD,
  iprop(boundary (TT d) ∗ ((loc d main_v17 ↦{fullShare} Z2 m d) ∗ (loc d main_v18 ↦{fullShare} XS2 m d) ∗ (loc d main_v19 ↦{fullShare} m (loc d main_v19)))
      ∗ owesB d 3 ∗ levAts (K (F := F)).L (K (F := F)).lev ∗ ghost (F := F) 2 d)
    ⊢ wp frame (wpE ((K (F := F)).defs (D (F := F))) 𝒱 (TT d) none) Set.univ (region (F := F) 2)
        fun _ => iprop(boundary (TT d) ∗ ((loc d main_v17 ↦{fullShare} Z2 m d) ∗ (loc d main_v18 ↦{fullShare} XS2 m d) ∗ (loc d main_v19 ↦{fullShare} O2 d))
          ∗ owesB d 3)

abbrev Region3 : Prop := ∀ d : Dev nD,
  iprop(boundary (TT d) ∗ ((loc d main_v22 ↦{fullShare} Z3 m d) ∗ (loc d main_v23 ↦{fullShare} XS3 m d) ∗ (loc d main_v24 ↦{fullShare} m (loc d main_v24)))
      ∗ owesB d 4 ∗ levAts (K (F := F)).L (K (F := F)).lev ∗ ghost (F := F) 3 d)
    ⊢ wp frame (wpE ((K (F := F)).defs (D (F := F))) 𝒱 (TT d) none) Set.univ (region (F := F) 3)
        fun _ => iprop(boundary (TT d) ∗ ((loc d main_v22 ↦{fullShare} Z3 m d) ∗ (loc d main_v23 ↦{fullShare} XS3 m d) ∗ (loc d main_v24 ↦{fullShare} O3 d))
          ∗ owesB d 4)

abbrev Region4 : Prop := ∀ d : Dev nD,
  iprop(boundary (TT d) ∗ ((loc d main_v27 ↦{fullShare} Z4 m d) ∗ (loc d main_v28 ↦{fullShare} XS4 m d) ∗ (loc d main_v29 ↦{fullShare} m (loc d main_v29)))
      ∗ owesB d 5 ∗ levAts (K (F := F)).L (K (F := F)).lev ∗ ghost (F := F) 4 d)
    ⊢ wp frame (wpE ((K (F := F)).defs (D (F := F))) 𝒱 (TT d) none) Set.univ (region (F := F) 4)
        fun _ => iprop(boundary (TT d) ∗ ((loc d main_v27 ↦{fullShare} Z4 m d) ∗ (loc d main_v28 ↦{fullShare} XS4 m d) ∗ (loc d main_v29 ↦{fullShare} O4 d))
          ∗ owesB d 5)

set_option backward.isDefEq.respectTransparency.types false in
set_option maxHeartbeats 1600000 in

theorem hmain (hreg0 : Region0 m O0) (hreg1 : Region1 m O1) (hreg2 : Region2 m O2) (hreg3 : Region3 m O3) (hreg4 : Region4 m O4)
    (κ : GSem nD τ sig → ℕ) (d : Dev nD) :
    iprop((K (F := F)).ctx EH (P₀ m) κ (K (F := F)).lev ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 5 ∗ FIN m (fun _ d => Res O0 O1 O2 O3 O4 d) d) := by
  have hlv : SparseCore.Cfg.Refines (nD := nD) (K (F := F)) ((K (F := F)).lev (nD := nD)) := by sl_refines_lev

  obtain ⟨W0, hW0⟩ : ∃ W, W = after ops0 (V0 m d) := ⟨_, rfl⟩
  have Fx_a0 : W0 (r main_arg0) = m (xLoc d) := by rw [hW0]; exact (pre0_ne _ main_arg0 (by decide)).trans rfl
  have Fnb_a0 : W0 (r main_arg1) = m (nbLoc d) := by rw [hW0]; exact (pre0_ne _ main_arg1 (by decide)).trans rfl
  have F4_a0 : W0 (r main_v4) = Pre.idxAll (m (nbLoc d)) := by rw [hW0]; exact (pre0_4 _).trans rfl
  have Fi_a0 : W0 (r main_v6) = I0 m d := by rw [hW0]; exact (pre0_i _).trans rfl
  have Fo0_a0 : W0 (r main_v9) = m (loc d main_v9) := by rw [hW0]; exact (pre0_ne _ main_v9 (by decide)).trans rfl
  have Fo1_a0 : W0 (r main_v14) = m (loc d main_v14) := by rw [hW0]; exact (pre0_ne _ main_v14 (by decide)).trans rfl
  have Fo2_a0 : W0 (r main_v19) = m (loc d main_v19) := by rw [hW0]; exact (pre0_ne _ main_v19 (by decide)).trans rfl
  have Fo3_a0 : W0 (r main_v24) = m (loc d main_v24) := by rw [hW0]; exact (pre0_ne _ main_v24 (by decide)).trans rfl
  have Fo4_a0 : W0 (r main_v29) = m (loc d main_v29) := by rw [hW0]; exact (pre0_ne _ main_v29 (by decide)).trans rfl
  obtain ⟨W0', hW0'⟩ : ∃ W, W = stV d main_v7 main_v8 main_v9 (Z0 m d) (XS0 m d) (O0 d) W0 := ⟨_, rfl⟩
  have g0' := agr_stV hW0'
  obtain ⟨W1, hW1⟩ : ∃ W, W = after [op_v10, op_v11] W0' := ⟨_, rfl⟩
  have p1 := agr2 hW1 main_v10 main_v11
  have g1 := agr_trans g0' p1
  have Fi_a1 : W1 (r main_v11) = I1 m d := by
    rw [hW1, StableHlo.after_cons, StableHlo.after_cons, StableHlo.after_nil, StableHlo.reshape_result, StableHlo.unary_result, (g0' main_v4 (by decide)).trans F4_a0]; rfl
  obtain ⟨W1', hW1'⟩ : ∃ W, W = stV d main_v12 main_v13 main_v14 (Z1 m d) (XS1 m d) (O1 d) W1 := ⟨_, rfl⟩
  have s1 := agr_stV hW1'
  have g1' := agr_trans g1 s1
  obtain ⟨W2, hW2⟩ : ∃ W, W = after [op_v15, op_v16] W1' := ⟨_, rfl⟩
  have p2 := agr2 hW2 main_v15 main_v16
  have g2 := agr_trans g1' p2
  have Fi_a2 : W2 (r main_v16) = I2 m d := by
    rw [hW2, StableHlo.after_cons, StableHlo.after_cons, StableHlo.after_nil, StableHlo.reshape_result, StableHlo.unary_result, (g1' main_v4 (by decide)).trans F4_a0]; rfl
  obtain ⟨W2', hW2'⟩ : ∃ W, W = stV d main_v17 main_v18 main_v19 (Z2 m d) (XS2 m d) (O2 d) W2 := ⟨_, rfl⟩
  have s2 := agr_stV hW2'
  have g2' := agr_trans g2 s2
  obtain ⟨W3, hW3⟩ : ∃ W, W = after [op_v20, op_v21] W2' := ⟨_, rfl⟩
  have p3 := agr2 hW3 main_v20 main_v21
  have g3 := agr_trans g2' p3
  have Fi_a3 : W3 (r main_v21) = I3 m d := by
    rw [hW3, StableHlo.after_cons, StableHlo.after_cons, StableHlo.after_nil, StableHlo.reshape_result, StableHlo.unary_result, (g2' main_v4 (by decide)).trans F4_a0]; rfl
  obtain ⟨W3', hW3'⟩ : ∃ W, W = stV d main_v22 main_v23 main_v24 (Z3 m d) (XS3 m d) (O3 d) W3 := ⟨_, rfl⟩
  have s3 := agr_stV hW3'
  have g3' := agr_trans g3 s3
  obtain ⟨W4, hW4⟩ : ∃ W, W = after [op_v25, op_v26] W3' := ⟨_, rfl⟩
  have p4 := agr2 hW4 main_v25 main_v26
  have g4 := agr_trans g3' p4
  have Fi_a4 : W4 (r main_v26) = I4 m d := by
    rw [hW4, StableHlo.after_cons, StableHlo.after_cons, StableHlo.after_nil, StableHlo.reshape_result, StableHlo.unary_result, (g3' main_v4 (by decide)).trans F4_a0]; rfl
  obtain ⟨W4', hW4'⟩ : ∃ W, W = stV d main_v27 main_v28 main_v29 (Z4 m d) (XS4 m d) (O4 d) W4 := ⟨_, rfl⟩
  have s4 := agr_stV hW4'
  have g4' := agr_trans g4 s4
  have t3 := agr_trans p4 s4
  have t2 := agr_trans (agr_trans p3 s3) t3
  have t1 := agr_trans (agr_trans p2 s2) t2
  have t0 := agr_trans (agr_trans p1 s1) t1
  have Fo0_b4 : W4' (r main_v9) = O0 d := by rw [t0 main_v9 (by decide), hW0', stV_o]
  have Fo1_b4 : W4' (r main_v14) = O1 d := by rw [t1 main_v14 (by decide), hW1', stV_o]
  have Fo2_b4 : W4' (r main_v19) = O2 d := by rw [t2 main_v19 (by decide), hW2', stV_o]
  have Fo3_b4 : W4' (r main_v24) = O3 d := by rw [t3 main_v24 (by decide), hW3', stV_o]
  have Fo4_b4 : W4' (r main_v29) = O4 d := by rw [hW4', stV_o]
  obtain ⟨We, hWe⟩ : ∃ W, W = after [op_v30] W4' := ⟨_, rfl⟩
  have Fx_e : We (r main_arg0) = m (xLoc d) := by rw [hWe, post_ne _ main_arg0 (by decide)]; exact (g4' main_arg0 (by decide)).trans Fx_a0
  have Fnb_e : We (r main_arg1) = m (nbLoc d) := by rw [hWe, post_ne _ main_arg1 (by decide)]; exact (g4' main_arg1 (by decide)).trans Fnb_a0
  have Fout_e : We (r main_v30) = Res O0 O1 O2 O3 O4 d := by
    rw [hWe, post_out, Fo0_b4, Fo1_b4, Fo2_b4, Fo3_b4, Fo4_b4]
    first | rfl | done
  have eG : (G (F := F) d : sProp 𝕄) = iprop(ghost 0 d ∗ ghost 1 d ∗ ghost 2 d ∗ ghost 3 d ∗ ghost 4 d) := by
    unfold G
    rw [show (Finset.univ : Finset (Fin 5)) = {0, 1, 2, 3, 4} by decide, SparseCore.bigSep_insert' (by decide), SparseCore.bigSep_insert' (by decide),
      SparseCore.bigSep_insert' (by decide), SparseCore.bigSep_insert' (by decide), bigSep_singleton]
  have eFin : (held (TT d) SS We : sProp 𝕄) = iprop((xLoc d ↦{fullShare} m (xLoc d)) ∗ (nbLoc d ↦{fullShare} m (nbLoc d))
      ∗ (outLoc d ↦{fullShare} Res O0 O1 O2 O3 O4 d) ∗ held (TT d) (rest3 (r main_arg0) (r main_arg1) (r main_v30)) We) := by
    rw [held3 (TT d) (mem_SS main_arg0) (mem_SS main_arg1) (mem_SS main_v30) (by decide) (by decide) (by decide) We, Fx_e, Fnb_e, Fout_e]

  unfold SparseCore.Cfg.tcRes FIN
  rw [main_eq, eG, show (unscopedBufs d (fun b => m ((SparseCore.T d).loc b)) : sProp 𝕄) = held (TT d) SS (V0 m d) from
    Pipeline.unscopedBufs_held d (V0 m d)]
  iintro ⟨#Hctx, Hst, ⟨Hb, Hheld, -, -⟩, HG0, HG1, HG2, HG3, HG4⟩
  iapply (wp_seq 𝒱 none Set.univ d SS _ ops0 hS0 hf0 (V0 m d)) $$ [Hb Hheld]
  · isplitl [Hb]; · iexact Hb
    iexact Hheld
  iintro ⟨Hb, Hheld⟩
  rw [← hW0]

  iapply (stage (P₀ m) d 0 main_v6 main_v7 main_v8 main_v9 (m (xLoc d)) (I0 m d) (Z0 m d) (m (loc d main_v9)) (O0 d) (ghost 0 d) hlv
    (xBand 0 slices_S10000x128_S2000x128_0_0) ⟨by decide, rfl⟩ (mem_SS _) (mem_SS _) (mem_SS _) (by decide) (by decide) (by decide) (by decide) (by decide) (by decide)
    (by have h := Sc0.call_in (F := F) d fullShare (m (xLoc d)) (I0 m d); unfold Sc0.CallIn at h; rw [← bigSep_cast (F := F) (nCore_eq (F := F) 0) fun c => Sc0.st d fullShare (m (xLoc d)) (I0 m d) c] at h; exact h)
    (by have h := Sc0.call_out (F := F) d fullShare (m (xLoc d)) (I0 m d); unfold Sc0.CallOut at h; rw [← bigSep_cast (F := F) (nCore_eq (F := F) 0) fun c => Sc0.dn d fullShare (m (xLoc d)) (I0 m d) c] at h; exact h)
    (hreg0 d)
    κ W0 Fx_a0 Fi_a0 Fo0_a0 _ _)
  isplitr; · iexact Hctx
  isplitl [Hst]; · iexact Hst
  isplitl [Hb]; · iexact Hb
  isplitl [Hheld]; · iexact Hheld
  isplitl [HG0]; · iexact HG0
  iintro ⟨Hst, Hb, Hheld⟩
  rw [← hW0']
  iapply (wp_seq 𝒱 none Set.univ d SS _ [op_v10, op_v11] hS2 hf2 W0') $$ [Hb Hheld]
  · isplitl [Hb]; · iexact Hb
    iexact Hheld
  iintro ⟨Hb, Hheld⟩
  rw [← hW1]

  iapply (stage (P₀ m) d 1 main_v11 main_v12 main_v13 main_v14 (m (xLoc d)) (I1 m d) (Z1 m d) (m (loc d main_v14)) (O1 d) (ghost 1 d) hlv
    (xBand 2000 slices_S10000x128_S2000x128_2000_0) ⟨by decide, rfl⟩ (mem_SS _) (mem_SS _) (mem_SS _) (by decide) (by decide) (by decide) (by decide) (by decide) (by decide)
    (by have h := Sc1.call_in (F := F) d fullShare (m (xLoc d)) (I1 m d); unfold Sc1.CallIn at h; rw [← bigSep_cast (F := F) (nCore_eq (F := F) 1) fun c => Sc1.st d fullShare (m (xLoc d)) (I1 m d) c] at h; exact h)
    (by have h := Sc1.call_out (F := F) d fullShare (m (xLoc d)) (I1 m d); unfold Sc1.CallOut at h; rw [← bigSep_cast (F := F) (nCore_eq (F := F) 1) fun c => Sc1.dn d fullShare (m (xLoc d)) (I1 m d) c] at h; exact h)
    (hreg1 d)
    κ W1 ((g1 main_arg0 (by decide)).trans Fx_a0) Fi_a1 ((g1 main_v14 (by decide)).trans Fo1_a0) _ _)
  isplitr; · iexact Hctx
  isplitl [Hst]; · iexact Hst
  isplitl [Hb]; · iexact Hb
  isplitl [Hheld]; · iexact Hheld
  isplitl [HG1]; · iexact HG1
  iintro ⟨Hst, Hb, Hheld⟩
  rw [← hW1']
  iapply (wp_seq 𝒱 none Set.univ d SS _ [op_v15, op_v16] hS2 hf2 W1') $$ [Hb Hheld]
  · isplitl [Hb]; · iexact Hb
    iexact Hheld
  iintro ⟨Hb, Hheld⟩
  rw [← hW2]

  iapply (stage (P₀ m) d 2 main_v16 main_v17 main_v18 main_v19 (m (xLoc d)) (I2 m d) (Z2 m d) (m (loc d main_v19)) (O2 d) (ghost 2 d) hlv
    (xBand 4000 slices_S10000x128_S2000x128_4000_0) ⟨by decide, rfl⟩ (mem_SS _) (mem_SS _) (mem_SS _) (by decide) (by decide) (by decide) (by decide) (by decide) (by decide)
    (by have h := Sc2.call_in (F := F) d fullShare (m (xLoc d)) (I2 m d); unfold Sc2.CallIn at h; rw [← bigSep_cast (F := F) (nCore_eq (F := F) 2) fun c => Sc2.st d fullShare (m (xLoc d)) (I2 m d) c] at h; exact h)
    (by have h := Sc2.call_out (F := F) d fullShare (m (xLoc d)) (I2 m d); unfold Sc2.CallOut at h; rw [← bigSep_cast (F := F) (nCore_eq (F := F) 2) fun c => Sc2.dn d fullShare (m (xLoc d)) (I2 m d) c] at h; exact h)
    (hreg2 d)
    κ W2 ((g2 main_arg0 (by decide)).trans Fx_a0) Fi_a2 ((g2 main_v19 (by decide)).trans Fo2_a0) _ _)
  isplitr; · iexact Hctx
  isplitl [Hst]; · iexact Hst
  isplitl [Hb]; · iexact Hb
  isplitl [Hheld]; · iexact Hheld
  isplitl [HG2]; · iexact HG2
  iintro ⟨Hst, Hb, Hheld⟩
  rw [← hW2']
  iapply (wp_seq 𝒱 none Set.univ d SS _ [op_v20, op_v21] hS2 hf2 W2') $$ [Hb Hheld]
  · isplitl [Hb]; · iexact Hb
    iexact Hheld
  iintro ⟨Hb, Hheld⟩
  rw [← hW3]

  iapply (stage (P₀ m) d 3 main_v21 main_v22 main_v23 main_v24 (m (xLoc d)) (I3 m d) (Z3 m d) (m (loc d main_v24)) (O3 d) (ghost 3 d) hlv
    (xBand 6000 slices_S10000x128_S2000x128_6000_0) ⟨by decide, rfl⟩ (mem_SS _) (mem_SS _) (mem_SS _) (by decide) (by decide) (by decide) (by decide) (by decide) (by decide)
    (by have h := Sc3.call_in (F := F) d fullShare (m (xLoc d)) (I3 m d); unfold Sc3.CallIn at h; rw [← bigSep_cast (F := F) (nCore_eq (F := F) 3) fun c => Sc3.st d fullShare (m (xLoc d)) (I3 m d) c] at h; exact h)
    (by have h := Sc3.call_out (F := F) d fullShare (m (xLoc d)) (I3 m d); unfold Sc3.CallOut at h; rw [← bigSep_cast (F := F) (nCore_eq (F := F) 3) fun c => Sc3.dn d fullShare (m (xLoc d)) (I3 m d) c] at h; exact h)
    (hreg3 d)
    κ W3 ((g3 main_arg0 (by decide)).trans Fx_a0) Fi_a3 ((g3 main_v24 (by decide)).trans Fo3_a0) _ _)
  isplitr; · iexact Hctx
  isplitl [Hst]; · iexact Hst
  isplitl [Hb]; · iexact Hb
  isplitl [Hheld]; · iexact Hheld
  isplitl [HG3]; · iexact HG3
  iintro ⟨Hst, Hb, Hheld⟩
  rw [← hW3']
  iapply (wp_seq 𝒱 none Set.univ d SS _ [op_v25, op_v26] hS2 hf2 W3') $$ [Hb Hheld]
  · isplitl [Hb]; · iexact Hb
    iexact Hheld
  iintro ⟨Hb, Hheld⟩
  rw [← hW4]

  iapply (stage (P₀ m) d 4 main_v26 main_v27 main_v28 main_v29 (m (xLoc d)) (I4 m d) (Z4 m d) (m (loc d main_v29)) (O4 d) (ghost 4 d) hlv
    (xBand 8000 slices_S10000x128_S2000x128_8000_0) ⟨by decide, rfl⟩ (mem_SS _) (mem_SS _) (mem_SS _) (by decide) (by decide) (by decide) (by decide) (by decide) (by decide)
    (by have h := Sc4.call_in (F := F) d fullShare (m (xLoc d)) (I4 m d); unfold Sc4.CallIn at h; rw [← bigSep_cast (F := F) (nCore_eq (F := F) 4) fun c => Sc4.st d fullShare (m (xLoc d)) (I4 m d) c] at h; exact h)
    (by have h := Sc4.call_out (F := F) d fullShare (m (xLoc d)) (I4 m d); unfold Sc4.CallOut at h; rw [← bigSep_cast (F := F) (nCore_eq (F := F) 4) fun c => Sc4.dn d fullShare (m (xLoc d)) (I4 m d) c] at h; exact h)
    (hreg4 d)
    κ W4 ((g4 main_arg0 (by decide)).trans Fx_a0) Fi_a4 ((g4 main_v29 (by decide)).trans Fo4_a0) _ _)
  isplitr; · iexact Hctx
  isplitl [Hst]; · iexact Hst
  isplitl [Hb]; · iexact Hb
  isplitl [Hheld]; · iexact Hheld
  isplitl [HG4]; · iexact HG4
  iintro ⟨Hst, Hb, Hheld⟩
  rw [← hW4']

  iapply (wp_seq 𝒱 none Set.univ d SS _ [op_v30] hSe hfe W4') $$ [Hb Hheld]
  · isplitl [Hb]; · iexact Hb
    iexact Hheld
  iintro ⟨Hb, Hheld⟩
  rw [← hWe, wp_pure]
  imodintro
  isplitl [Hst]; · iexact Hst
  ihave Hh := (Entails.of_eq eFin) $$ Hheld
  icases Hh with ⟨Hx, Hn, Ho, -⟩
  isplitl [Hx]; · iexact Hx
  isplitl [Hn]; · iexact Hn
  iexact Ho

end HMain

end Cert.Proof.KW.Main

end
-- ==== Proof.WTcRegion0.lean ====
import proofs.«212107_g53927609368716_cont_9to1_m_409_29_alg».proof.Proof.WSetup
import proofs.«212107_g53927609368716_cont_9to1_m_409_29_alg».proof.Proof.WLaunch
import proofs.«212107_g53927609368716_cont_9to1_m_409_29_alg».proof.Proof.Gen.Kernel.Launch
import proofs.«212107_g53927609368716_cont_9to1_m_409_29_alg».proof.Proof.Gen.Kernel.Points
import proofs.«212107_g53927609368716_cont_9to1_m_409_29_alg».proof.Proof.Gen.Kernel.Skeleton
import proofs.«212107_g53927609368716_cont_9to1_m_409_29_alg».proof.Proof.TcShared
import Idealize.ShloMosaic.Lib.Pipeline.Regions
import Idealize.ShloMosaic.Lib.Pipeline.FrameBody
import Idealize.ShloMosaic.Lib.Pipeline.Value
import Idealize.ShloMosaic.Lib.Tactic

noncomputable section

namespace Cert.Proof.KW.Tc0

open Cert.Kernel Cert.Kernel.Gen
open Cert.Proof.KW
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open TcShared

variable {F : FTy → Type} [FloatOps F] [Cert.Kernel.Facts]

local notation "𝕄" => MM (F := F)

abbrev pIx : Fin 5 := 0

def bodyFn (z : Vec F S12800x128 .f32) (x : Vec F S400x128 .f32) : FVec F S400x128 .f32 :=
  k1_pay1 (k1_pay2 (F := F)) (k1_pay3 x) (k1_pay4 z) (k1_pay6 z x) (k1_pay7 z x)

theorem sound_kernel (c : Dev nD) (E : Set ℕ) (i : grid1.Coords)
    (arg1 : Memref sig .tc .vmem S12800x128 .f32) (harg1 : arg1.IsWhole) (arg2 : Memref sig .tc .vmem S400x128 .f32) (harg2 : arg2.IsWhole)
    (arg3 : Memref sig .tc .vmem S400x128 .f32) (harg3 : arg3.IsWhole)
    {δ₁ δ₂ δ₃ : Type} (Z : δ₁ → Vec F S12800x128 .f32) (X : δ₂ → Vec F S400x128 .f32) (Y : δ₃ → Vec F S400x128 .f32)
    (z : Vec F S12800x128 .f32) (x : Vec F S400x128 .f32) (hZ : ∀ d, Z d = z) (hX : ∀ d, X d = x) (R R' : sProp 𝕄) :
    iprop(R ∗ R' ∗ (∃ d, owns (c : Thread nD τ) arg1 fullShare (Z d)) ∗ (∃ d, owns (c : Thread nD τ) arg2 fullShare (X d))
        ∗ (∃ d, owns (c : Thread nD τ) arg3 fullShare (Y d)))
      ⊢ wp frame (wpE (defs₀ (F := F)) Variants.none c none) E (cc1__routing_body i arg1 harg1 arg2 harg2 arg3 harg3) fun _ =>
        iprop(R ∗ R' ∗ owns (c : Thread nD τ) arg1 fullShare z ∗ owns (c : Thread nD τ) arg2 fullShare x
          ∗ owns (c : Thread nD τ) arg3 fullShare (bodyFn z x)) := by
  simp only [cc1__routing_body_eq_skeleton]; unfold cc1__routing_body_skel
  simp only [k1_part1_eq_skeleton]; unfold k1_part1_skel
  unfold owns
  iintro ⟨HR, HR', ⟨%d0, %f0, %hf0, H0⟩, ⟨%d1, %f1, %hf1, H1⟩, ⟨%d2, %f2, -, H2⟩⟩
  rw [hZ] at hf0; rw [hX] at hf1; subst hf0 hf1
  sl_exec
  sl_step
  isplitl [HR]; · iexact HR
  isplitl [HR']; · iexact HR'
  isplitl [H0]
  · iexists f0; isplitr; · ipureintro; rfl
    iexact H0
  isplitl [H1]
  · iexists f1; isplitr; · ipureintro; rfl
    iexact H1
  iexists _; isplitr
  swap; · iexact H2
  ipureintro
  rw [read_store_full S400x128 zeros2]
  dsimp only
  rw [readAt_full S12800x128 zeros2, readAt_full S400x128 zeros2]
  rfl

abbrev zLoc (c : Dev nD) : Loc nD τ sig := (SparseCore.T c).loc main_v7
abbrev xsLoc (c : Dev nD) : Loc nD τ sig := (SparseCore.T c).loc main_v8
abbrev oLoc (c : Dev nD) : Loc nD τ sig := (SparseCore.T c).loc main_v9

variable (Zin : (c : Dev nD) → Buf (Elt F) (zLoc c)) (Xs : (c : Dev nD) → Buf (Elt F) (xsLoc c))
  (Oin : (c : Dev nD) → Buf (Elt F) (oLoc c))
  (O : Dev nD → CellTallies nD τ sig (HIx 5)) (b : ℕ)

abbrev zBlk (c : Dev nD) (t : Fin cfg1.N) : Vec F S12800x128 .f32 := ((cfg1.win 0).blk t).view.read (Elt F) (Zin c)
abbrev xBlk (c : Dev nD) (t : Fin cfg1.N) : Vec F S400x128 .f32 := ((cfg1.win 1).blk t).view.read (Elt F) (Xs c)

abbrev rest0 (c : Dev nD) : sProp 𝕄 :=
  Pipeline.scopedRest (Ix := HIx 5) (Name := ℕ) (U := UU) (Lvl := ℕ) (Val := Elt F) spec1 c

def dat0 (c : Dev nD) : Dat τ (Elt F) (HIx 5) ℕ UU ℕ cfg1 c where
  A w := match w with
    | ⟨0, _⟩ => Zin c
    | ⟨1, _⟩ => Xs c
    | ⟨2, _⟩ => Oin c
  after w t := match w with
    | ⟨0, _⟩ => zBlk Zin c t
    | ⟨1, _⟩ => xBlk Xs c t
    | ⟨2, _⟩ => bodyFn (zBlk Zin c t) (xBlk Xs c t)
  Φ _ := rest0 c
  q _ := fullShare
  owed _ := O c
  recorded _ := {p | (K (F := F)).lev (SparseCore.T c, p.1) p.2 ≤ b}

def idleDat (cfg : Pipeline.Cfg sig Λ₀) (c : Dev nD) : Dat τ (Elt F) (HIx 5) ℕ UU ℕ cfg c where
  A w := (cfg.win w).arr.view.junk
  after w t := Dat.unnamed w t
  Φ _ := iprop(emp)
  q _ := fullShare
  owed _ := 0

def dats (p : Fin 5) (c : Dev nD) : Dat τ (Elt F) (HIx 5) ℕ UU ℕ (Pipeline.pin (pcfgs (F := F)) adm p) c :=
  if h : p = pIx then (by subst h; exact dat0 Zin Xs Oin O b c) else idleDat _ c

def regionOut (c : Dev nD) : Buf (Elt F) (oLoc c) := (dat0 Zin Xs Oin O b c).arrAt 2 cfg1.N

def arrays0 (c : Dev nD) (z : Buf (Elt F) (zLoc c)) (x : Buf (Elt F) (xsLoc c)) (o : Buf (Elt F) (oLoc c)) : sProp 𝕄 :=
  iprop((zLoc c ↦{fullShare} z) ∗ (xsLoc c ↦{fullShare} x) ∗ (oLoc c ↦{fullShare} o))

def owesB (c : Dev nD) : sProp 𝕄 :=
  iprop(∃ W, ⌜(K (F := F)).WBelow (SparseCore.T c) W b⌝ ∗ owes (SparseCore.T c) (O c) W)

theorem body_obligation (c : Dev nD) :
    BodyObligation (dat0 Zin Xs Oin O b c) (defs₀ (F := F)) 𝒱₀ (none : HIx 5) Set.univ := fun t => by
  rw [bigSep_W1, bigSep_W1]
  exact sound_kernel c _ _ _ _ _ _ _ _ _ _ _ (zBlk Zin c t) (xBlk Xs c t)
    ((dat0 Zin Xs Oin O b c).before_fetched 0 t (fetch1_0 t)) ((dat0 Zin Xs Oin O b c).before_fetched 1 t (fetch1_1 t)) _ _

abbrev ghost0 (c : Dev nD) : sProp 𝕄 := ghost (F := F) pIx c

theorem index_ne : ∀ t t' : Fin grid1.N, t ≠ t' → win1_2.index t ≠ win1_2.index t' := by decide +kernel

theorem regionOut_blk (c : Dev nD) (t : Fin cfg1.N) :
    ((cfg1.win 2).blk t).view.read (Elt F) (regionOut Zin Xs Oin O b c) = bodyFn (zBlk Zin c t) (xBlk Xs c t) := by
  unfold regionOut
  rw [(dat0 Zin Xs Oin O b c).read_blk_arrAt_eq_flushed 2
    (fun t t' _ _ h => (cfg1.win 2).disjoint_blk (index_ne t t' h)) cfg1.N t t.isLt (flush1_2 t)]
  show (cfg1.win 2).cut (cfg1.grid.coords t) ((dat0 Zin Xs Oin O b c).after 2 t) = _
  dsimp only [dat0]
  rfl

variable (hO : ∀ c g, O c g none = 0) (lv : GSem nD τ sig → HIx 5 → ℕ) (hlv : (K (F := F)).Refines lv)

set_option backward.isDefEq.respectTransparency.types false in
def reg0 : Pipeline.RegionSeg (pcfgs (F := F)) adm (dats Zin Xs Oin O b) (none : HIx 5) defs₀ 𝒱₀ (K (F := F)).L lv pIx where
  win := launch1.win.to₀
  block_pos := launch1.block_pos
  stage_whole := launch1.stage_whole
  K := PEmpty
  osem := fun k => k.elim
  ho := Pipeline.OwnSemFacts.none _
  hbody c := (body_obligation Zin Xs Oin O b c).loose
  hwaits c := Pipeline.cellsWaits_intro (Pipeline.pin (pcfgs (F := F)) adm) (dats Zin Xs Oin O b) (none : HIx 5) pIx c
    fun w s t => (K (F := F)).mayWait_none _ (hO c) lv hlv
  pre c := iprop(arrays0 c (Zin c) (Xs c) (Oin c) ∗ owesB (F := F) O b c)
  post c := iprop(arrays0 c (Zin c) (Xs c) (regionOut Zin Xs Oin O b c) ∗ owesB (F := F) O b c)
  X _ := iprop(emp)
  Y _ := iprop(emp)
  Z _ := iprop(emp)
  hentry c := by
    rw [Pipeline.ownSems0_none,
      Pipeline.arrays_eq (Pipeline.pin (pcfgs (F := F)) adm) (dats Zin Xs Oin O b) pIx c launch1.arr_whole
        ((dats Zin Xs Oin O b pIx c).share_full fun _ => rfl), bigSep_W1]
    unfold arrays0 owesB
    iintro ⟨⟨Ha, ⟨%W, %hW, HO⟩⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr <;> iempintro
  hin c := by
    rw [show (dats Zin Xs Oin O b pIx c).Φ 0 = rest0 c from rfl]
    iintro ⟨-, -, Hr⟩; iexact Hr
  hout c := by
    rw [Pipeline.ownSems0_none, show (dats Zin Xs Oin O b pIx c).Φ (Fin.last _) = rest0 c from rfl]
    iintro Hr
    isplitr; · iempintro
    isplitr; · iempintro
    iexact Hr
  hexit c := by
    rw [Pipeline.arrays_eq (Pipeline.pin (pcfgs (F := F)) adm) (dats Zin Xs Oin O b) pIx c launch1.arr_whole
        ((dats Zin Xs Oin O b pIx c).share_full fun _ => rfl), bigSep_W1,
      show (dats Zin Xs Oin O b pIx c).arrAt 0 (Pipeline.pin (pcfgs (F := F)) adm pIx).N = Zin c from (dat0 Zin Xs Oin O b c).arrAt_in 0 rfl _,
      show (dats Zin Xs Oin O b pIx c).arrAt 1 (Pipeline.pin (pcfgs (F := F)) adm pIx).N = Xs c from (dat0 Zin Xs Oin O b c).arrAt_in 1 rfl _]
    unfold arrays0 owesB regionOut
    iintro ⟨Ha, HO, -, -⟩
    imodintro
    isplitl [Ha]; · iexact Ha
    unfold Pipeline.Dat.owesAt Pipeline.owesWithin
    icases HO with ⟨%W, %hW, HO⟩; iexists W; isplitr; swap; (· iexact HO)
    ipureintro
    intro p hp
    rcases hW hp with h | ⟨w, s, rfl⟩
    · exact h
    · exact Nat.zero_le _

abbrev post0 (d : Dev nD) : sProp 𝕄 :=
  iprop(boundary (SparseCore.T d : Thread nD τ) ∗ arrays0 d (Zin d) (Xs d) (regionOut Zin Xs Oin O b d) ∗ owesB (F := F) O b d)

include hO hlv in
set_option backward.isDefEq.respectTransparency.types false in
theorem region0 (d : Dev nD) :
    iprop(boundary (SparseCore.T d : Thread nD τ) ∗ arrays0 d (Zin d) (Xs d) (Oin d) ∗ owesB (F := F) O b d
        ∗ levAts (K (F := F)).L lv ∗ ghost0 (F := F) d)
      ⊢ wp frame (wpE ((K (F := F)).defs D) 𝒱 (SparseCore.T d) none) Set.univ
          (Prog.lift (.customCall (SparseCore.inner (Pipeline.entry pIx)) ()))
          (fun _ => post0 Zin Xs Oin O b d) := by
  have h := Pipeline.RegionSeg.wp (pcfgs (F := F)) adm (dats Zin Xs Oin O b) (none : HIx 5) cellOf_inj (EP (F := F)) defs₀ 𝒱₀ (K (F := F)).L lv
    (reg0 Zin Xs Oin O b hO lv hlv) d none (fun u hu => nomatch hu) .ret
    (fun _ => post0 Zin Xs Oin O b d)
  refine .trans (.trans ?_ h)
    ((K (F := F)).wp_liftProg D 𝒱 (SparseCore.T d) Set.univ none (.op (.customCall (Pipeline.entry pIx) ()) .ret) _)
  unfold ghost0 ghost
  dsimp only [reg0]
  iintro ⟨Hb, Ha, HO, Hl, Hg, Ht⟩
  isplitr
  · iintro H
    rw [wp_ret]; imodintro; iexact H
  isplitl [Hb]; · iexact Hb
  isplitl [Ha HO]; · iframe
  isplitl [Hl]; · iexact Hl
  isplitl [Hg]; · iexact Hg
  iexact Ht

end Cert.Proof.KW.Tc0

end
-- ==== Proof.WTcRegion1.lean ====
import proofs.«212107_g53927609368716_cont_9to1_m_409_29_alg».proof.Proof.WSetup
import proofs.«212107_g53927609368716_cont_9to1_m_409_29_alg».proof.Proof.WLaunch
import proofs.«212107_g53927609368716_cont_9to1_m_409_29_alg».proof.Proof.Gen.Kernel.Launch
import proofs.«212107_g53927609368716_cont_9to1_m_409_29_alg».proof.Proof.Gen.Kernel.Points
import proofs.«212107_g53927609368716_cont_9to1_m_409_29_alg».proof.Proof.Gen.Kernel.Skeleton
import proofs.«212107_g53927609368716_cont_9to1_m_409_29_alg».proof.Proof.TcShared
import Idealize.ShloMosaic.Lib.Pipeline.Regions
import Idealize.ShloMosaic.Lib.Pipeline.FrameBody
import Idealize.ShloMosaic.Lib.Pipeline.Value
import Idealize.ShloMosaic.Lib.Tactic

noncomputable section

namespace Cert.Proof.KW.Tc1

open Cert.Kernel Cert.Kernel.Gen
open Cert.Proof.KW
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open TcShared

variable {F : FTy → Type} [FloatOps F] [Cert.Kernel.Facts]

local notation "𝕄" => MM (F := F)

abbrev pIx : Fin 5 := 1

def bodyFn (z : Vec F S12800x128 .f32) (x : Vec F S400x128 .f32) : FVec F S400x128 .f32 :=
  k3_pay1 (k3_pay2 (F := F)) (k3_pay3 x) (k3_pay4 z) (k3_pay6 z x) (k3_pay7 z x)

theorem sound_kernel (c : Dev nD) (E : Set ℕ) (i : grid3.Coords)
    (arg1 : Memref sig .tc .vmem S12800x128 .f32) (harg1 : arg1.IsWhole) (arg2 : Memref sig .tc .vmem S400x128 .f32) (harg2 : arg2.IsWhole)
    (arg3 : Memref sig .tc .vmem S400x128 .f32) (harg3 : arg3.IsWhole)
    {δ₁ δ₂ δ₃ : Type} (Z : δ₁ → Vec F S12800x128 .f32) (X : δ₂ → Vec F S400x128 .f32) (Y : δ₃ → Vec F S400x128 .f32)
    (z : Vec F S12800x128 .f32) (x : Vec F S400x128 .f32) (hZ : ∀ d, Z d = z) (hX : ∀ d, X d = x) (R R' : sProp 𝕄) :
    iprop(R ∗ R' ∗ (∃ d, owns (c : Thread nD τ) arg1 fullShare (Z d)) ∗ (∃ d, owns (c : Thread nD τ) arg2 fullShare (X d))
        ∗ (∃ d, owns (c : Thread nD τ) arg3 fullShare (Y d)))
      ⊢ wp frame (wpE (defs₀ (F := F)) Variants.none c none) E (cc3__routing_body i arg1 harg1 arg2 harg2 arg3 harg3) fun _ =>
        iprop(R ∗ R' ∗ owns (c : Thread nD τ) arg1 fullShare z ∗ owns (c : Thread nD τ) arg2 fullShare x
          ∗ owns (c : Thread nD τ) arg3 fullShare (bodyFn z x)) := by
  simp only [cc3__routing_body_eq_skeleton]; unfold cc3__routing_body_skel
  simp only [k3_part1_eq_skeleton]; unfold k3_part1_skel
  unfold owns
  iintro ⟨HR, HR', ⟨%d0, %f0, %hf0, H0⟩, ⟨%d1, %f1, %hf1, H1⟩, ⟨%d2, %f2, -, H2⟩⟩
  rw [hZ] at hf0; rw [hX] at hf1; subst hf0 hf1
  sl_exec
  sl_step
  isplitl [HR]; · iexact HR
  isplitl [HR']; · iexact HR'
  isplitl [H0]
  · iexists f0; isplitr; · ipureintro; rfl
    iexact H0
  isplitl [H1]
  · iexists f1; isplitr; · ipureintro; rfl
    iexact H1
  iexists _; isplitr
  swap; · iexact H2
  ipureintro
  rw [read_store_full S400x128 zeros2]
  dsimp only
  rw [readAt_full S12800x128 zeros2, readAt_full S400x128 zeros2]
  rfl

abbrev zLoc (c : Dev nD) : Loc nD τ sig := (SparseCore.T c).loc main_v12
abbrev xsLoc (c : Dev nD) : Loc nD τ sig := (SparseCore.T c).loc main_v13
abbrev oLoc (c : Dev nD) : Loc nD τ sig := (SparseCore.T c).loc main_v14

variable (Zin : (c : Dev nD) → Buf (Elt F) (zLoc c)) (Xs : (c : Dev nD) → Buf (Elt F) (xsLoc c))
  (Oin : (c : Dev nD) → Buf (Elt F) (oLoc c))
  (O : Dev nD → CellTallies nD τ sig (HIx 5)) (b : ℕ)

abbrev zBlk (c : Dev nD) (t : Fin cfg3.N) : Vec F S12800x128 .f32 := ((cfg3.win 0).blk t).view.read (Elt F) (Zin c)
abbrev xBlk (c : Dev nD) (t : Fin cfg3.N) : Vec F S400x128 .f32 := ((cfg3.win 1).blk t).view.read (Elt F) (Xs c)

abbrev rest0 (c : Dev nD) : sProp 𝕄 :=
  Pipeline.scopedRest (Ix := HIx 5) (Name := ℕ) (U := UU) (Lvl := ℕ) (Val := Elt F) spec3 c

def dat0 (c : Dev nD) : Dat τ (Elt F) (HIx 5) ℕ UU ℕ cfg3 c where
  A w := match w with
    | ⟨0, _⟩ => Zin c
    | ⟨1, _⟩ => Xs c
    | ⟨2, _⟩ => Oin c
  after w t := match w with
    | ⟨0, _⟩ => zBlk Zin c t
    | ⟨1, _⟩ => xBlk Xs c t
    | ⟨2, _⟩ => bodyFn (zBlk Zin c t) (xBlk Xs c t)
  Φ _ := rest0 c
  q _ := fullShare
  owed _ := O c
  recorded _ := {p | (K (F := F)).lev (SparseCore.T c, p.1) p.2 ≤ b}

def idleDat (cfg : Pipeline.Cfg sig Λ₀) (c : Dev nD) : Dat τ (Elt F) (HIx 5) ℕ UU ℕ cfg c where
  A w := (cfg.win w).arr.view.junk
  after w t := Dat.unnamed w t
  Φ _ := iprop(emp)
  q _ := fullShare
  owed _ := 0

def dats (p : Fin 5) (c : Dev nD) : Dat τ (Elt F) (HIx 5) ℕ UU ℕ (Pipeline.pin (pcfgs (F := F)) adm p) c :=
  if h : p = pIx then (by subst h; exact dat0 Zin Xs Oin O b c) else idleDat _ c

def regionOut (c : Dev nD) : Buf (Elt F) (oLoc c) := (dat0 Zin Xs Oin O b c).arrAt 2 cfg3.N

def arrays0 (c : Dev nD) (z : Buf (Elt F) (zLoc c)) (x : Buf (Elt F) (xsLoc c)) (o : Buf (Elt F) (oLoc c)) : sProp 𝕄 :=
  iprop((zLoc c ↦{fullShare} z) ∗ (xsLoc c ↦{fullShare} x) ∗ (oLoc c ↦{fullShare} o))

def owesB (c : Dev nD) : sProp 𝕄 :=
  iprop(∃ W, ⌜(K (F := F)).WBelow (SparseCore.T c) W b⌝ ∗ owes (SparseCore.T c) (O c) W)

theorem body_obligation (c : Dev nD) :
    BodyObligation (dat0 Zin Xs Oin O b c) (defs₀ (F := F)) 𝒱₀ (none : HIx 5) Set.univ := fun t => by
  rw [bigSep_W3, bigSep_W3]
  exact sound_kernel c _ _ _ _ _ _ _ _ _ _ _ (zBlk Zin c t) (xBlk Xs c t)
    ((dat0 Zin Xs Oin O b c).before_fetched 0 t (fetch3_0 t)) ((dat0 Zin Xs Oin O b c).before_fetched 1 t (fetch3_1 t)) _ _

abbrev ghost0 (c : Dev nD) : sProp 𝕄 := ghost (F := F) pIx c

theorem index_ne : ∀ t t' : Fin grid3.N, t ≠ t' → win3_2.index t ≠ win3_2.index t' := by decide +kernel

theorem regionOut_blk (c : Dev nD) (t : Fin cfg3.N) :
    ((cfg3.win 2).blk t).view.read (Elt F) (regionOut Zin Xs Oin O b c) = bodyFn (zBlk Zin c t) (xBlk Xs c t) := by
  unfold regionOut
  rw [(dat0 Zin Xs Oin O b c).read_blk_arrAt_eq_flushed 2
    (fun t t' _ _ h => (cfg3.win 2).disjoint_blk (index_ne t t' h)) cfg3.N t t.isLt (flush3_2 t)]
  show (cfg3.win 2).cut (cfg3.grid.coords t) ((dat0 Zin Xs Oin O b c).after 2 t) = _
  dsimp only [dat0]
  rfl

variable (hO : ∀ c g, O c g none = 0) (lv : GSem nD τ sig → HIx 5 → ℕ) (hlv : (K (F := F)).Refines lv)

set_option backward.isDefEq.respectTransparency.types false in
def reg0 : Pipeline.RegionSeg (pcfgs (F := F)) adm (dats Zin Xs Oin O b) (none : HIx 5) defs₀ 𝒱₀ (K (F := F)).L lv pIx where
  win := launch3.win.to₀
  block_pos := launch3.block_pos
  stage_whole := launch3.stage_whole
  K := PEmpty
  osem := fun k => k.elim
  ho := Pipeline.OwnSemFacts.none _
  hbody c := (body_obligation Zin Xs Oin O b c).loose
  hwaits c := Pipeline.cellsWaits_intro (Pipeline.pin (pcfgs (F := F)) adm) (dats Zin Xs Oin O b) (none : HIx 5) pIx c
    fun w s t => (K (F := F)).mayWait_none _ (hO c) lv hlv
  pre c := iprop(arrays0 c (Zin c) (Xs c) (Oin c) ∗ owesB (F := F) O b c)
  post c := iprop(arrays0 c (Zin c) (Xs c) (regionOut Zin Xs Oin O b c) ∗ owesB (F := F) O b c)
  X _ := iprop(emp)
  Y _ := iprop(emp)
  Z _ := iprop(emp)
  hentry c := by
    rw [Pipeline.ownSems0_none,
      Pipeline.arrays_eq (Pipeline.pin (pcfgs (F := F)) adm) (dats Zin Xs Oin O b) pIx c launch3.arr_whole
        ((dats Zin Xs Oin O b pIx c).share_full fun _ => rfl), bigSep_W3]
    unfold arrays0 owesB
    iintro ⟨⟨Ha, ⟨%W, %hW, HO⟩⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr <;> iempintro
  hin c := by
    rw [show (dats Zin Xs Oin O b pIx c).Φ 0 = rest0 c from rfl]
    iintro ⟨-, -, Hr⟩; iexact Hr
  hout c := by
    rw [Pipeline.ownSems0_none, show (dats Zin Xs Oin O b pIx c).Φ (Fin.last _) = rest0 c from rfl]
    iintro Hr
    isplitr; · iempintro
    isplitr; · iempintro
    iexact Hr
  hexit c := by
    rw [Pipeline.arrays_eq (Pipeline.pin (pcfgs (F := F)) adm) (dats Zin Xs Oin O b) pIx c launch3.arr_whole
        ((dats Zin Xs Oin O b pIx c).share_full fun _ => rfl), bigSep_W3,
      show (dats Zin Xs Oin O b pIx c).arrAt 0 (Pipeline.pin (pcfgs (F := F)) adm pIx).N = Zin c from (dat0 Zin Xs Oin O b c).arrAt_in 0 rfl _,
      show (dats Zin Xs Oin O b pIx c).arrAt 1 (Pipeline.pin (pcfgs (F := F)) adm pIx).N = Xs c from (dat0 Zin Xs Oin O b c).arrAt_in 1 rfl _]
    unfold arrays0 owesB regionOut
    iintro ⟨Ha, HO, -, -⟩
    imodintro
    isplitl [Ha]; · iexact Ha
    unfold Pipeline.Dat.owesAt Pipeline.owesWithin
    icases HO with ⟨%W, %hW, HO⟩; iexists W; isplitr; swap; (· iexact HO)
    ipureintro
    intro p hp
    rcases hW hp with h | ⟨w, s, rfl⟩
    · exact h
    · exact Nat.zero_le _

abbrev post0 (d : Dev nD) : sProp 𝕄 :=
  iprop(boundary (SparseCore.T d : Thread nD τ) ∗ arrays0 d (Zin d) (Xs d) (regionOut Zin Xs Oin O b d) ∗ owesB (F := F) O b d)

include hO hlv in
set_option backward.isDefEq.respectTransparency.types false in
theorem region0 (d : Dev nD) :
    iprop(boundary (SparseCore.T d : Thread nD τ) ∗ arrays0 d (Zin d) (Xs d) (Oin d) ∗ owesB (F := F) O b d
        ∗ levAts (K (F := F)).L lv ∗ ghost0 (F := F) d)
      ⊢ wp frame (wpE ((K (F := F)).defs D) 𝒱 (SparseCore.T d) none) Set.univ
          (Prog.lift (.customCall (SparseCore.inner (Pipeline.entry pIx)) ()))
          (fun _ => post0 Zin Xs Oin O b d) := by
  have h := Pipeline.RegionSeg.wp (pcfgs (F := F)) adm (dats Zin Xs Oin O b) (none : HIx 5) cellOf_inj (EP (F := F)) defs₀ 𝒱₀ (K (F := F)).L lv
    (reg0 Zin Xs Oin O b hO lv hlv) d none (fun u hu => nomatch hu) .ret
    (fun _ => post0 Zin Xs Oin O b d)
  refine .trans (.trans ?_ h)
    ((K (F := F)).wp_liftProg D 𝒱 (SparseCore.T d) Set.univ none (.op (.customCall (Pipeline.entry pIx) ()) .ret) _)
  unfold ghost0 ghost
  dsimp only [reg0]
  iintro ⟨Hb, Ha, HO, Hl, Hg, Ht⟩
  isplitr
  · iintro H
    rw [wp_ret]; imodintro; iexact H
  isplitl [Hb]; · iexact Hb
  isplitl [Ha HO]; · iframe
  isplitl [Hl]; · iexact Hl
  isplitl [Hg]; · iexact Hg
  iexact Ht

end Cert.Proof.KW.Tc1

end
-- ==== Proof.WTcRegion2.lean ====
import proofs.«212107_g53927609368716_cont_9to1_m_409_29_alg».proof.Proof.WSetup
import proofs.«212107_g53927609368716_cont_9to1_m_409_29_alg».proof.Proof.WLaunch
import proofs.«212107_g53927609368716_cont_9to1_m_409_29_alg».proof.Proof.Gen.Kernel.Launch
import proofs.«212107_g53927609368716_cont_9to1_m_409_29_alg».proof.Proof.Gen.Kernel.Points
import proofs.«212107_g53927609368716_cont_9to1_m_409_29_alg».proof.Proof.Gen.Kernel.Skeleton
import proofs.«212107_g53927609368716_cont_9to1_m_409_29_alg».proof.Proof.TcShared
import Idealize.ShloMosaic.Lib.Pipeline.Regions
import Idealize.ShloMosaic.Lib.Pipeline.FrameBody
import Idealize.ShloMosaic.Lib.Pipeline.Value
import Idealize.ShloMosaic.Lib.Tactic

noncomputable section

namespace Cert.Proof.KW.Tc2

open Cert.Kernel Cert.Kernel.Gen
open Cert.Proof.KW
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open TcShared

variable {F : FTy → Type} [FloatOps F] [Cert.Kernel.Facts]

local notation "𝕄" => MM (F := F)

abbrev pIx : Fin 5 := 2

def bodyFn (z : Vec F S12800x128 .f32) (x : Vec F S400x128 .f32) : FVec F S400x128 .f32 :=
  k5_pay1 (k5_pay2 (F := F)) (k5_pay3 x) (k5_pay4 z) (k5_pay6 z x) (k5_pay7 z x)

theorem sound_kernel (c : Dev nD) (E : Set ℕ) (i : grid5.Coords)
    (arg1 : Memref sig .tc .vmem S12800x128 .f32) (harg1 : arg1.IsWhole) (arg2 : Memref sig .tc .vmem S400x128 .f32) (harg2 : arg2.IsWhole)
    (arg3 : Memref sig .tc .vmem S400x128 .f32) (harg3 : arg3.IsWhole)
    {δ₁ δ₂ δ₃ : Type} (Z : δ₁ → Vec F S12800x128 .f32) (X : δ₂ → Vec F S400x128 .f32) (Y : δ₃ → Vec F S400x128 .f32)
    (z : Vec F S12800x128 .f32) (x : Vec F S400x128 .f32) (hZ : ∀ d, Z d = z) (hX : ∀ d, X d = x) (R R' : sProp 𝕄) :
    iprop(R ∗ R' ∗ (∃ d, owns (c : Thread nD τ) arg1 fullShare (Z d)) ∗ (∃ d, owns (c : Thread nD τ) arg2 fullShare (X d))
        ∗ (∃ d, owns (c : Thread nD τ) arg3 fullShare (Y d)))
      ⊢ wp frame (wpE (defs₀ (F := F)) Variants.none c none) E (cc5__routing_body i arg1 harg1 arg2 harg2 arg3 harg3) fun _ =>
        iprop(R ∗ R' ∗ owns (c : Thread nD τ) arg1 fullShare z ∗ owns (c : Thread nD τ) arg2 fullShare x
          ∗ owns (c : Thread nD τ) arg3 fullShare (bodyFn z x)) := by
  simp only [cc5__routing_body_eq_skeleton]; unfold cc5__routing_body_skel
  simp only [k5_part1_eq_skeleton]; unfold k5_part1_skel
  unfold owns
  iintro ⟨HR, HR', ⟨%d0, %f0, %hf0, H0⟩, ⟨%d1, %f1, %hf1, H1⟩, ⟨%d2, %f2, -, H2⟩⟩
  rw [hZ] at hf0; rw [hX] at hf1; subst hf0 hf1
  sl_exec
  sl_step
  isplitl [HR]; · iexact HR
  isplitl [HR']; · iexact HR'
  isplitl [H0]
  · iexists f0; isplitr; · ipureintro; rfl
    iexact H0
  isplitl [H1]
  · iexists f1; isplitr; · ipureintro; rfl
    iexact H1
  iexists _; isplitr
  swap; · iexact H2
  ipureintro
  rw [read_store_full S400x128 zeros2]
  dsimp only
  rw [readAt_full S12800x128 zeros2, readAt_full S400x128 zeros2]
  rfl

abbrev zLoc (c : Dev nD) : Loc nD τ sig := (SparseCore.T c).loc main_v17
abbrev xsLoc (c : Dev nD) : Loc nD τ sig := (SparseCore.T c).loc main_v18
abbrev oLoc (c : Dev nD) : Loc nD τ sig := (SparseCore.T c).loc main_v19

variable (Zin : (c : Dev nD) → Buf (Elt F) (zLoc c)) (Xs : (c : Dev nD) → Buf (Elt F) (xsLoc c))
  (Oin : (c : Dev nD) → Buf (Elt F) (oLoc c))
  (O : Dev nD → CellTallies nD τ sig (HIx 5)) (b : ℕ)

abbrev zBlk (c : Dev nD) (t : Fin cfg5.N) : Vec F S12800x128 .f32 := ((cfg5.win 0).blk t).view.read (Elt F) (Zin c)
abbrev xBlk (c : Dev nD) (t : Fin cfg5.N) : Vec F S400x128 .f32 := ((cfg5.win 1).blk t).view.read (Elt F) (Xs c)

abbrev rest0 (c : Dev nD) : sProp 𝕄 :=
  Pipeline.scopedRest (Ix := HIx 5) (Name := ℕ) (U := UU) (Lvl := ℕ) (Val := Elt F) spec5 c

def dat0 (c : Dev nD) : Dat τ (Elt F) (HIx 5) ℕ UU ℕ cfg5 c where
  A w := match w with
    | ⟨0, _⟩ => Zin c
    | ⟨1, _⟩ => Xs c
    | ⟨2, _⟩ => Oin c
  after w t := match w with
    | ⟨0, _⟩ => zBlk Zin c t
    | ⟨1, _⟩ => xBlk Xs c t
    | ⟨2, _⟩ => bodyFn (zBlk Zin c t) (xBlk Xs c t)
  Φ _ := rest0 c
  q _ := fullShare
  owed _ := O c
  recorded _ := {p | (K (F := F)).lev (SparseCore.T c, p.1) p.2 ≤ b}

def idleDat (cfg : Pipeline.Cfg sig Λ₀) (c : Dev nD) : Dat τ (Elt F) (HIx 5) ℕ UU ℕ cfg c where
  A w := (cfg.win w).arr.view.junk
  after w t := Dat.unnamed w t
  Φ _ := iprop(emp)
  q _ := fullShare
  owed _ := 0

def dats (p : Fin 5) (c : Dev nD) : Dat τ (Elt F) (HIx 5) ℕ UU ℕ (Pipeline.pin (pcfgs (F := F)) adm p) c :=
  if h : p = pIx then (by subst h; exact dat0 Zin Xs Oin O b c) else idleDat _ c

def regionOut (c : Dev nD) : Buf (Elt F) (oLoc c) := (dat0 Zin Xs Oin O b c).arrAt 2 cfg5.N

def arrays0 (c : Dev nD) (z : Buf (Elt F) (zLoc c)) (x : Buf (Elt F) (xsLoc c)) (o : Buf (Elt F) (oLoc c)) : sProp 𝕄 :=
  iprop((zLoc c ↦{fullShare} z) ∗ (xsLoc c ↦{fullShare} x) ∗ (oLoc c ↦{fullShare} o))

def owesB (c : Dev nD) : sProp 𝕄 :=
  iprop(∃ W, ⌜(K (F := F)).WBelow (SparseCore.T c) W b⌝ ∗ owes (SparseCore.T c) (O c) W)

theorem body_obligation (c : Dev nD) :
    BodyObligation (dat0 Zin Xs Oin O b c) (defs₀ (F := F)) 𝒱₀ (none : HIx 5) Set.univ := fun t => by
  rw [bigSep_W5, bigSep_W5]
  exact sound_kernel c _ _ _ _ _ _ _ _ _ _ _ (zBlk Zin c t) (xBlk Xs c t)
    ((dat0 Zin Xs Oin O b c).before_fetched 0 t (fetch5_0 t)) ((dat0 Zin Xs Oin O b c).before_fetched 1 t (fetch5_1 t)) _ _

abbrev ghost0 (c : Dev nD) : sProp 𝕄 := ghost (F := F) pIx c

theorem index_ne : ∀ t t' : Fin grid5.N, t ≠ t' → win5_2.index t ≠ win5_2.index t' := by decide +kernel

theorem regionOut_blk (c : Dev nD) (t : Fin cfg5.N) :
    ((cfg5.win 2).blk t).view.read (Elt F) (regionOut Zin Xs Oin O b c) = bodyFn (zBlk Zin c t) (xBlk Xs c t) := by
  unfold regionOut
  rw [(dat0 Zin Xs Oin O b c).read_blk_arrAt_eq_flushed 2
    (fun t t' _ _ h => (cfg5.win 2).disjoint_blk (index_ne t t' h)) cfg5.N t t.isLt (flush5_2 t)]
  show (cfg5.win 2).cut (cfg5.grid.coords t) ((dat0 Zin Xs Oin O b c).after 2 t) = _
  dsimp only [dat0]
  rfl

variable (hO : ∀ c g, O c g none = 0) (lv : GSem nD τ sig → HIx 5 → ℕ) (hlv : (K (F := F)).Refines lv)

set_option backward.isDefEq.respectTransparency.types false in
def reg0 : Pipeline.RegionSeg (pcfgs (F := F)) adm (dats Zin Xs Oin O b) (none : HIx 5) defs₀ 𝒱₀ (K (F := F)).L lv pIx where
  win := launch5.win.to₀
  block_pos := launch5.block_pos
  stage_whole := launch5.stage_whole
  K := PEmpty
  osem := fun k => k.elim
  ho := Pipeline.OwnSemFacts.none _
  hbody c := (body_obligation Zin Xs Oin O b c).loose
  hwaits c := Pipeline.cellsWaits_intro (Pipeline.pin (pcfgs (F := F)) adm) (dats Zin Xs Oin O b) (none : HIx 5) pIx c
    fun w s t => (K (F := F)).mayWait_none _ (hO c) lv hlv
  pre c := iprop(arrays0 c (Zin c) (Xs c) (Oin c) ∗ owesB (F := F) O b c)
  post c := iprop(arrays0 c (Zin c) (Xs c) (regionOut Zin Xs Oin O b c) ∗ owesB (F := F) O b c)
  X _ := iprop(emp)
  Y _ := iprop(emp)
  Z _ := iprop(emp)
  hentry c := by
    rw [Pipeline.ownSems0_none,
      Pipeline.arrays_eq (Pipeline.pin (pcfgs (F := F)) adm) (dats Zin Xs Oin O b) pIx c launch5.arr_whole
        ((dats Zin Xs Oin O b pIx c).share_full fun _ => rfl), bigSep_W5]
    unfold arrays0 owesB
    iintro ⟨⟨Ha, ⟨%W, %hW, HO⟩⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr <;> iempintro
  hin c := by
    rw [show (dats Zin Xs Oin O b pIx c).Φ 0 = rest0 c from rfl]
    iintro ⟨-, -, Hr⟩; iexact Hr
  hout c := by
    rw [Pipeline.ownSems0_none, show (dats Zin Xs Oin O b pIx c).Φ (Fin.last _) = rest0 c from rfl]
    iintro Hr
    isplitr; · iempintro
    isplitr; · iempintro
    iexact Hr
  hexit c := by
    rw [Pipeline.arrays_eq (Pipeline.pin (pcfgs (F := F)) adm) (dats Zin Xs Oin O b) pIx c launch5.arr_whole
        ((dats Zin Xs Oin O b pIx c).share_full fun _ => rfl), bigSep_W5,
      show (dats Zin Xs Oin O b pIx c).arrAt 0 (Pipeline.pin (pcfgs (F := F)) adm pIx).N = Zin c from (dat0 Zin Xs Oin O b c).arrAt_in 0 rfl _,
      show (dats Zin Xs Oin O b pIx c).arrAt 1 (Pipeline.pin (pcfgs (F := F)) adm pIx).N = Xs c from (dat0 Zin Xs Oin O b c).arrAt_in 1 rfl _]
    unfold arrays0 owesB regionOut
    iintro ⟨Ha, HO, -, -⟩
    imodintro
    isplitl [Ha]; · iexact Ha
    unfold Pipeline.Dat.owesAt Pipeline.owesWithin
    icases HO with ⟨%W, %hW, HO⟩; iexists W; isplitr; swap; (· iexact HO)
    ipureintro
    intro p hp
    rcases hW hp with h | ⟨w, s, rfl⟩
    · exact h
    · exact Nat.zero_le _

abbrev post0 (d : Dev nD) : sProp 𝕄 :=
  iprop(boundary (SparseCore.T d : Thread nD τ) ∗ arrays0 d (Zin d) (Xs d) (regionOut Zin Xs Oin O b d) ∗ owesB (F := F) O b d)

include hO hlv in
set_option backward.isDefEq.respectTransparency.types false in
theorem region0 (d : Dev nD) :
    iprop(boundary (SparseCore.T d : Thread nD τ) ∗ arrays0 d (Zin d) (Xs d) (Oin d) ∗ owesB (F := F) O b d
        ∗ levAts (K (F := F)).L lv ∗ ghost0 (F := F) d)
      ⊢ wp frame (wpE ((K (F := F)).defs D) 𝒱 (SparseCore.T d) none) Set.univ
          (Prog.lift (.customCall (SparseCore.inner (Pipeline.entry pIx)) ()))
          (fun _ => post0 Zin Xs Oin O b d) := by
  have h := Pipeline.RegionSeg.wp (pcfgs (F := F)) adm (dats Zin Xs Oin O b) (none : HIx 5) cellOf_inj (EP (F := F)) defs₀ 𝒱₀ (K (F := F)).L lv
    (reg0 Zin Xs Oin O b hO lv hlv) d none (fun u hu => nomatch hu) .ret
    (fun _ => post0 Zin Xs Oin O b d)
  refine .trans (.trans ?_ h)
    ((K (F := F)).wp_liftProg D 𝒱 (SparseCore.T d) Set.univ none (.op (.customCall (Pipeline.entry pIx) ()) .ret) _)
  unfold ghost0 ghost
  dsimp only [reg0]
  iintro ⟨Hb, Ha, HO, Hl, Hg, Ht⟩
  isplitr
  · iintro H
    rw [wp_ret]; imodintro; iexact H
  isplitl [Hb]; · iexact Hb
  isplitl [Ha HO]; · iframe
  isplitl [Hl]; · iexact Hl
  isplitl [Hg]; · iexact Hg
  iexact Ht

end Cert.Proof.KW.Tc2

end
-- ==== Proof.WTcRegion3.lean ====
import proofs.«212107_g53927609368716_cont_9to1_m_409_29_alg».proof.Proof.WSetup
import proofs.«212107_g53927609368716_cont_9to1_m_409_29_alg».proof.Proof.WLaunch
import proofs.«212107_g53927609368716_cont_9to1_m_409_29_alg».proof.Proof.Gen.Kernel.Launch
import proofs.«212107_g53927609368716_cont_9to1_m_409_29_alg».proof.Proof.Gen.Kernel.Points
import proofs.«212107_g53927609368716_cont_9to1_m_409_29_alg».proof.Proof.Gen.Kernel.Skeleton
import proofs.«212107_g53927609368716_cont_9to1_m_409_29_alg».proof.Proof.TcShared
import Idealize.ShloMosaic.Lib.Pipeline.Regions
import Idealize.ShloMosaic.Lib.Pipeline.FrameBody
import Idealize.ShloMosaic.Lib.Pipeline.Value
import Idealize.ShloMosaic.Lib.Tactic

noncomputable section

namespace Cert.Proof.KW.Tc3

open Cert.Kernel Cert.Kernel.Gen
open Cert.Proof.KW
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open TcShared

variable {F : FTy → Type} [FloatOps F] [Cert.Kernel.Facts]

local notation "𝕄" => MM (F := F)

abbrev pIx : Fin 5 := 3

def bodyFn (z : Vec F S12800x128 .f32) (x : Vec F S400x128 .f32) : FVec F S400x128 .f32 :=
  k7_pay1 (k7_pay2 (F := F)) (k7_pay3 x) (k7_pay4 z) (k7_pay6 z x) (k7_pay7 z x)

theorem sound_kernel (c : Dev nD) (E : Set ℕ) (i : grid7.Coords)
    (arg1 : Memref sig .tc .vmem S12800x128 .f32) (harg1 : arg1.IsWhole) (arg2 : Memref sig .tc .vmem S400x128 .f32) (harg2 : arg2.IsWhole)
    (arg3 : Memref sig .tc .vmem S400x128 .f32) (harg3 : arg3.IsWhole)
    {δ₁ δ₂ δ₃ : Type} (Z : δ₁ → Vec F S12800x128 .f32) (X : δ₂ → Vec F S400x128 .f32) (Y : δ₃ → Vec F S400x128 .f32)
    (z : Vec F S12800x128 .f32) (x : Vec F S400x128 .f32) (hZ : ∀ d, Z d = z) (hX : ∀ d, X d = x) (R R' : sProp 𝕄) :
    iprop(R ∗ R' ∗ (∃ d, owns (c : Thread nD τ) arg1 fullShare (Z d)) ∗ (∃ d, owns (c : Thread nD τ) arg2 fullShare (X d))
        ∗ (∃ d, owns (c : Thread nD τ) arg3 fullShare (Y d)))
      ⊢ wp frame (wpE (defs₀ (F := F)) Variants.none c none) E (cc7__routing_body i arg1 harg1 arg2 harg2 arg3 harg3) fun _ =>
        iprop(R ∗ R' ∗ owns (c : Thread nD τ) arg1 fullShare z ∗ owns (c : Thread nD τ) arg2 fullShare x
          ∗ owns (c : Thread nD τ) arg3 fullShare (bodyFn z x)) := by
  simp only [cc7__routing_body_eq_skeleton]; unfold cc7__routing_body_skel
  simp only [k7_part1_eq_skeleton]; unfold k7_part1_skel
  unfold owns
  iintro ⟨HR, HR', ⟨%d0, %f0, %hf0, H0⟩, ⟨%d1, %f1, %hf1, H1⟩, ⟨%d2, %f2, -, H2⟩⟩
  rw [hZ] at hf0; rw [hX] at hf1; subst hf0 hf1
  sl_exec
  sl_step
  isplitl [HR]; · iexact HR
  isplitl [HR']; · iexact HR'
  isplitl [H0]
  · iexists f0; isplitr; · ipureintro; rfl
    iexact H0
  isplitl [H1]
  · iexists f1; isplitr; · ipureintro; rfl
    iexact H1
  iexists _; isplitr
  swap; · iexact H2
  ipureintro
  rw [read_store_full S400x128 zeros2]
  dsimp only
  rw [readAt_full S12800x128 zeros2, readAt_full S400x128 zeros2]
  rfl

abbrev zLoc (c : Dev nD) : Loc nD τ sig := (SparseCore.T c).loc main_v22
abbrev xsLoc (c : Dev nD) : Loc nD τ sig := (SparseCore.T c).loc main_v23
abbrev oLoc (c : Dev nD) : Loc nD τ sig := (SparseCore.T c).loc main_v24

variable (Zin : (c : Dev nD) → Buf (Elt F) (zLoc c)) (Xs : (c : Dev nD) → Buf (Elt F) (xsLoc c))
  (Oin : (c : Dev nD) → Buf (Elt F) (oLoc c))
  (O : Dev nD → CellTallies nD τ sig (HIx 5)) (b : ℕ)

abbrev zBlk (c : Dev nD) (t : Fin cfg7.N) : Vec F S12800x128 .f32 := ((cfg7.win 0).blk t).view.read (Elt F) (Zin c)
abbrev xBlk (c : Dev nD) (t : Fin cfg7.N) : Vec F S400x128 .f32 := ((cfg7.win 1).blk t).view.read (Elt F) (Xs c)

abbrev rest0 (c : Dev nD) : sProp 𝕄 :=
  Pipeline.scopedRest (Ix := HIx 5) (Name := ℕ) (U := UU) (Lvl := ℕ) (Val := Elt F) spec7 c

def dat0 (c : Dev nD) : Dat τ (Elt F) (HIx 5) ℕ UU ℕ cfg7 c where
  A w := match w with
    | ⟨0, _⟩ => Zin c
    | ⟨1, _⟩ => Xs c
    | ⟨2, _⟩ => Oin c
  after w t := match w with
    | ⟨0, _⟩ => zBlk Zin c t
    | ⟨1, _⟩ => xBlk Xs c t
    | ⟨2, _⟩ => bodyFn (zBlk Zin c t) (xBlk Xs c t)
  Φ _ := rest0 c
  q _ := fullShare
  owed _ := O c
  recorded _ := {p | (K (F := F)).lev (SparseCore.T c, p.1) p.2 ≤ b}

def idleDat (cfg : Pipeline.Cfg sig Λ₀) (c : Dev nD) : Dat τ (Elt F) (HIx 5) ℕ UU ℕ cfg c where
  A w := (cfg.win w).arr.view.junk
  after w t := Dat.unnamed w t
  Φ _ := iprop(emp)
  q _ := fullShare
  owed _ := 0

def dats (p : Fin 5) (c : Dev nD) : Dat τ (Elt F) (HIx 5) ℕ UU ℕ (Pipeline.pin (pcfgs (F := F)) adm p) c :=
  if h : p = pIx then (by subst h; exact dat0 Zin Xs Oin O b c) else idleDat _ c

def regionOut (c : Dev nD) : Buf (Elt F) (oLoc c) := (dat0 Zin Xs Oin O b c).arrAt 2 cfg7.N

def arrays0 (c : Dev nD) (z : Buf (Elt F) (zLoc c)) (x : Buf (Elt F) (xsLoc c)) (o : Buf (Elt F) (oLoc c)) : sProp 𝕄 :=
  iprop((zLoc c ↦{fullShare} z) ∗ (xsLoc c ↦{fullShare} x) ∗ (oLoc c ↦{fullShare} o))

def owesB (c : Dev nD) : sProp 𝕄 :=
  iprop(∃ W, ⌜(K (F := F)).WBelow (SparseCore.T c) W b⌝ ∗ owes (SparseCore.T c) (O c) W)

theorem body_obligation (c : Dev nD) :
    BodyObligation (dat0 Zin Xs Oin O b c) (defs₀ (F := F)) 𝒱₀ (none : HIx 5) Set.univ := fun t => by
  rw [bigSep_W7, bigSep_W7]
  exact sound_kernel c _ _ _ _ _ _ _ _ _ _ _ (zBlk Zin c t) (xBlk Xs c t)
    ((dat0 Zin Xs Oin O b c).before_fetched 0 t (fetch7_0 t)) ((dat0 Zin Xs Oin O b c).before_fetched 1 t (fetch7_1 t)) _ _

abbrev ghost0 (c : Dev nD) : sProp 𝕄 := ghost (F := F) pIx c

theorem index_ne : ∀ t t' : Fin grid7.N, t ≠ t' → win7_2.index t ≠ win7_2.index t' := by decide +kernel

theorem regionOut_blk (c : Dev nD) (t : Fin cfg7.N) :
    ((cfg7.win 2).blk t).view.read (Elt F) (regionOut Zin Xs Oin O b c) = bodyFn (zBlk Zin c t) (xBlk Xs c t) := by
  unfold regionOut
  rw [(dat0 Zin Xs Oin O b c).read_blk_arrAt_eq_flushed 2
    (fun t t' _ _ h => (cfg7.win 2).disjoint_blk (index_ne t t' h)) cfg7.N t t.isLt (flush7_2 t)]
  show (cfg7.win 2).cut (cfg7.grid.coords t) ((dat0 Zin Xs Oin O b c).after 2 t) = _
  dsimp only [dat0]
  rfl

variable (hO : ∀ c g, O c g none = 0) (lv : GSem nD τ sig → HIx 5 → ℕ) (hlv : (K (F := F)).Refines lv)

set_option backward.isDefEq.respectTransparency.types false in
def reg0 : Pipeline.RegionSeg (pcfgs (F := F)) adm (dats Zin Xs Oin O b) (none : HIx 5) defs₀ 𝒱₀ (K (F := F)).L lv pIx where
  win := launch7.win.to₀
  block_pos := launch7.block_pos
  stage_whole := launch7.stage_whole
  K := PEmpty
  osem := fun k => k.elim
  ho := Pipeline.OwnSemFacts.none _
  hbody c := (body_obligation Zin Xs Oin O b c).loose
  hwaits c := Pipeline.cellsWaits_intro (Pipeline.pin (pcfgs (F := F)) adm) (dats Zin Xs Oin O b) (none : HIx 5) pIx c
    fun w s t => (K (F := F)).mayWait_none _ (hO c) lv hlv
  pre c := iprop(arrays0 c (Zin c) (Xs c) (Oin c) ∗ owesB (F := F) O b c)
  post c := iprop(arrays0 c (Zin c) (Xs c) (regionOut Zin Xs Oin O b c) ∗ owesB (F := F) O b c)
  X _ := iprop(emp)
  Y _ := iprop(emp)
  Z _ := iprop(emp)
  hentry c := by
    rw [Pipeline.ownSems0_none,
      Pipeline.arrays_eq (Pipeline.pin (pcfgs (F := F)) adm) (dats Zin Xs Oin O b) pIx c launch7.arr_whole
        ((dats Zin Xs Oin O b pIx c).share_full fun _ => rfl), bigSep_W7]
    unfold arrays0 owesB
    iintro ⟨⟨Ha, ⟨%W, %hW, HO⟩⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr <;> iempintro
  hin c := by
    rw [show (dats Zin Xs Oin O b pIx c).Φ 0 = rest0 c from rfl]
    iintro ⟨-, -, Hr⟩; iexact Hr
  hout c := by
    rw [Pipeline.ownSems0_none, show (dats Zin Xs Oin O b pIx c).Φ (Fin.last _) = rest0 c from rfl]
    iintro Hr
    isplitr; · iempintro
    isplitr; · iempintro
    iexact Hr
  hexit c := by
    rw [Pipeline.arrays_eq (Pipeline.pin (pcfgs (F := F)) adm) (dats Zin Xs Oin O b) pIx c launch7.arr_whole
        ((dats Zin Xs Oin O b pIx c).share_full fun _ => rfl), bigSep_W7,
      show (dats Zin Xs Oin O b pIx c).arrAt 0 (Pipeline.pin (pcfgs (F := F)) adm pIx).N = Zin c from (dat0 Zin Xs Oin O b c).arrAt_in 0 rfl _,
      show (dats Zin Xs Oin O b pIx c).arrAt 1 (Pipeline.pin (pcfgs (F := F)) adm pIx).N = Xs c from (dat0 Zin Xs Oin O b c).arrAt_in 1 rfl _]
    unfold arrays0 owesB regionOut
    iintro ⟨Ha, HO, -, -⟩
    imodintro
    isplitl [Ha]; · iexact Ha
    unfold Pipeline.Dat.owesAt Pipeline.owesWithin
    icases HO with ⟨%W, %hW, HO⟩; iexists W; isplitr; swap; (· iexact HO)
    ipureintro
    intro p hp
    rcases hW hp with h | ⟨w, s, rfl⟩
    · exact h
    · exact Nat.zero_le _

abbrev post0 (d : Dev nD) : sProp 𝕄 :=
  iprop(boundary (SparseCore.T d : Thread nD τ) ∗ arrays0 d (Zin d) (Xs d) (regionOut Zin Xs Oin O b d) ∗ owesB (F := F) O b d)

include hO hlv in
set_option backward.isDefEq.respectTransparency.types false in
theorem region0 (d : Dev nD) :
    iprop(boundary (SparseCore.T d : Thread nD τ) ∗ arrays0 d (Zin d) (Xs d) (Oin d) ∗ owesB (F := F) O b d
        ∗ levAts (K (F := F)).L lv ∗ ghost0 (F := F) d)
      ⊢ wp frame (wpE ((K (F := F)).defs D) 𝒱 (SparseCore.T d) none) Set.univ
          (Prog.lift (.customCall (SparseCore.inner (Pipeline.entry pIx)) ()))
          (fun _ => post0 Zin Xs Oin O b d) := by
  have h := Pipeline.RegionSeg.wp (pcfgs (F := F)) adm (dats Zin Xs Oin O b) (none : HIx 5) cellOf_inj (EP (F := F)) defs₀ 𝒱₀ (K (F := F)).L lv
    (reg0 Zin Xs Oin O b hO lv hlv) d none (fun u hu => nomatch hu) .ret
    (fun _ => post0 Zin Xs Oin O b d)
  refine .trans (.trans ?_ h)
    ((K (F := F)).wp_liftProg D 𝒱 (SparseCore.T d) Set.univ none (.op (.customCall (Pipeline.entry pIx) ()) .ret) _)
  unfold ghost0 ghost
  dsimp only [reg0]
  iintro ⟨Hb, Ha, HO, Hl, Hg, Ht⟩
  isplitr
  · iintro H
    rw [wp_ret]; imodintro; iexact H
  isplitl [Hb]; · iexact Hb
  isplitl [Ha HO]; · iframe
  isplitl [Hl]; · iexact Hl
  isplitl [Hg]; · iexact Hg
  iexact Ht

end Cert.Proof.KW.Tc3

end
-- ==== Proof.WTcRegion4.lean ====
import proofs.«212107_g53927609368716_cont_9to1_m_409_29_alg».proof.Proof.WSetup
import proofs.«212107_g53927609368716_cont_9to1_m_409_29_alg».proof.Proof.WLaunch
import proofs.«212107_g53927609368716_cont_9to1_m_409_29_alg».proof.Proof.Gen.Kernel.Launch
import proofs.«212107_g53927609368716_cont_9to1_m_409_29_alg».proof.Proof.Gen.Kernel.Points
import proofs.«212107_g53927609368716_cont_9to1_m_409_29_alg».proof.Proof.Gen.Kernel.Skeleton
import proofs.«212107_g53927609368716_cont_9to1_m_409_29_alg».proof.Proof.TcShared
import Idealize.ShloMosaic.Lib.Pipeline.Regions
import Idealize.ShloMosaic.Lib.Pipeline.FrameBody
import Idealize.ShloMosaic.Lib.Pipeline.Value
import Idealize.ShloMosaic.Lib.Tactic

noncomputable section

namespace Cert.Proof.KW.Tc4

open Cert.Kernel Cert.Kernel.Gen
open Cert.Proof.KW
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open TcShared

variable {F : FTy → Type} [FloatOps F] [Cert.Kernel.Facts]

local notation "𝕄" => MM (F := F)

abbrev pIx : Fin 5 := 4

def bodyFn (z : Vec F S12800x128 .f32) (x : Vec F S400x128 .f32) : FVec F S400x128 .f32 :=
  k9_pay1 (k9_pay2 (F := F)) (k9_pay3 x) (k9_pay4 z) (k9_pay6 z x) (k9_pay7 z x)

theorem sound_kernel (c : Dev nD) (E : Set ℕ) (i : grid9.Coords)
    (arg1 : Memref sig .tc .vmem S12800x128 .f32) (harg1 : arg1.IsWhole) (arg2 : Memref sig .tc .vmem S400x128 .f32) (harg2 : arg2.IsWhole)
    (arg3 : Memref sig .tc .vmem S400x128 .f32) (harg3 : arg3.IsWhole)
    {δ₁ δ₂ δ₃ : Type} (Z : δ₁ → Vec F S12800x128 .f32) (X : δ₂ → Vec F S400x128 .f32) (Y : δ₃ → Vec F S400x128 .f32)
    (z : Vec F S12800x128 .f32) (x : Vec F S400x128 .f32) (hZ : ∀ d, Z d = z) (hX : ∀ d, X d = x) (R R' : sProp 𝕄) :
    iprop(R ∗ R' ∗ (∃ d, owns (c : Thread nD τ) arg1 fullShare (Z d)) ∗ (∃ d, owns (c : Thread nD τ) arg2 fullShare (X d))
        ∗ (∃ d, owns (c : Thread nD τ) arg3 fullShare (Y d)))
      ⊢ wp frame (wpE (defs₀ (F := F)) Variants.none c none) E (cc9__routing_body i arg1 harg1 arg2 harg2 arg3 harg3) fun _ =>
        iprop(R ∗ R' ∗ owns (c : Thread nD τ) arg1 fullShare z ∗ owns (c : Thread nD τ) arg2 fullShare x
          ∗ owns (c : Thread nD τ) arg3 fullShare (bodyFn z x)) := by
  simp only [cc9__routing_body_eq_skeleton]; unfold cc9__routing_body_skel
  simp only [k9_part1_eq_skeleton]; unfold k9_part1_skel
  unfold owns
  iintro ⟨HR, HR', ⟨%d0, %f0, %hf0, H0⟩, ⟨%d1, %f1, %hf1, H1⟩, ⟨%d2, %f2, -, H2⟩⟩
  rw [hZ] at hf0; rw [hX] at hf1; subst hf0 hf1
  sl_exec
  sl_step
  isplitl [HR]; · iexact HR
  isplitl [HR']; · iexact HR'
  isplitl [H0]
  · iexists f0; isplitr; · ipureintro; rfl
    iexact H0
  isplitl [H1]
  · iexists f1; isplitr; · ipureintro; rfl
    iexact H1
  iexists _; isplitr
  swap; · iexact H2
  ipureintro
  rw [read_store_full S400x128 zeros2]
  dsimp only
  rw [readAt_full S12800x128 zeros2, readAt_full S400x128 zeros2]
  rfl

abbrev zLoc (c : Dev nD) : Loc nD τ sig := (SparseCore.T c).loc main_v27
abbrev xsLoc (c : Dev nD) : Loc nD τ sig := (SparseCore.T c).loc main_v28
abbrev oLoc (c : Dev nD) : Loc nD τ sig := (SparseCore.T c).loc main_v29

variable (Zin : (c : Dev nD) → Buf (Elt F) (zLoc c)) (Xs : (c : Dev nD) → Buf (Elt F) (xsLoc c))
  (Oin : (c : Dev nD) → Buf (Elt F) (oLoc c))
  (O : Dev nD → CellTallies nD τ sig (HIx 5)) (b : ℕ)

abbrev zBlk (c : Dev nD) (t : Fin cfg9.N) : Vec F S12800x128 .f32 := ((cfg9.win 0).blk t).view.read (Elt F) (Zin c)
abbrev xBlk (c : Dev nD) (t : Fin cfg9.N) : Vec F S400x128 .f32 := ((cfg9.win 1).blk t).view.read (Elt F) (Xs c)

abbrev rest0 (c : Dev nD) : sProp 𝕄 :=
  Pipeline.scopedRest (Ix := HIx 5) (Name := ℕ) (U := UU) (Lvl := ℕ) (Val := Elt F) spec9 c

def dat0 (c : Dev nD) : Dat τ (Elt F) (HIx 5) ℕ UU ℕ cfg9 c where
  A w := match w with
    | ⟨0, _⟩ => Zin c
    | ⟨1, _⟩ => Xs c
    | ⟨2, _⟩ => Oin c
  after w t := match w with
    | ⟨0, _⟩ => zBlk Zin c t
    | ⟨1, _⟩ => xBlk Xs c t
    | ⟨2, _⟩ => bodyFn (zBlk Zin c t) (xBlk Xs c t)
  Φ _ := rest0 c
  q _ := fullShare
  owed _ := O c
  recorded _ := {p | (K (F := F)).lev (SparseCore.T c, p.1) p.2 ≤ b}

def idleDat (cfg : Pipeline.Cfg sig Λ₀) (c : Dev nD) : Dat τ (Elt F) (HIx 5) ℕ UU ℕ cfg c where
  A w := (cfg.win w).arr.view.junk
  after w t := Dat.unnamed w t
  Φ _ := iprop(emp)
  q _ := fullShare
  owed _ := 0

def dats (p : Fin 5) (c : Dev nD) : Dat τ (Elt F) (HIx 5) ℕ UU ℕ (Pipeline.pin (pcfgs (F := F)) adm p) c :=
  if h : p = pIx then (by subst h; exact dat0 Zin Xs Oin O b c) else idleDat _ c

def regionOut (c : Dev nD) : Buf (Elt F) (oLoc c) := (dat0 Zin Xs Oin O b c).arrAt 2 cfg9.N

def arrays0 (c : Dev nD) (z : Buf (Elt F) (zLoc c)) (x : Buf (Elt F) (xsLoc c)) (o : Buf (Elt F) (oLoc c)) : sProp 𝕄 :=
  iprop((zLoc c ↦{fullShare} z) ∗ (xsLoc c ↦{fullShare} x) ∗ (oLoc c ↦{fullShare} o))

def owesB (c : Dev nD) : sProp 𝕄 :=
  iprop(∃ W, ⌜(K (F := F)).WBelow (SparseCore.T c) W b⌝ ∗ owes (SparseCore.T c) (O c) W)

theorem body_obligation (c : Dev nD) :
    BodyObligation (dat0 Zin Xs Oin O b c) (defs₀ (F := F)) 𝒱₀ (none : HIx 5) Set.univ := fun t => by
  rw [bigSep_W9, bigSep_W9]
  exact sound_kernel c _ _ _ _ _ _ _ _ _ _ _ (zBlk Zin c t) (xBlk Xs c t)
    ((dat0 Zin Xs Oin O b c).before_fetched 0 t (fetch9_0 t)) ((dat0 Zin Xs Oin O b c).before_fetched 1 t (fetch9_1 t)) _ _

abbrev ghost0 (c : Dev nD) : sProp 𝕄 := ghost (F := F) pIx c

theorem index_ne : ∀ t t' : Fin grid9.N, t ≠ t' → win9_2.index t ≠ win9_2.index t' := by decide +kernel

theorem regionOut_blk (c : Dev nD) (t : Fin cfg9.N) :
    ((cfg9.win 2).blk t).view.read (Elt F) (regionOut Zin Xs Oin O b c) = bodyFn (zBlk Zin c t) (xBlk Xs c t) := by
  unfold regionOut
  rw [(dat0 Zin Xs Oin O b c).read_blk_arrAt_eq_flushed 2
    (fun t t' _ _ h => (cfg9.win 2).disjoint_blk (index_ne t t' h)) cfg9.N t t.isLt (flush9_2 t)]
  show (cfg9.win 2).cut (cfg9.grid.coords t) ((dat0 Zin Xs Oin O b c).after 2 t) = _
  dsimp only [dat0]
  rfl

variable (hO : ∀ c g, O c g none = 0) (lv : GSem nD τ sig → HIx 5 → ℕ) (hlv : (K (F := F)).Refines lv)

set_option backward.isDefEq.respectTransparency.types false in
def reg0 : Pipeline.RegionSeg (pcfgs (F := F)) adm (dats Zin Xs Oin O b) (none : HIx 5) defs₀ 𝒱₀ (K (F := F)).L lv pIx where
  win := launch9.win.to₀
  block_pos := launch9.block_pos
  stage_whole := launch9.stage_whole
  K := PEmpty
  osem := fun k => k.elim
  ho := Pipeline.OwnSemFacts.none _
  hbody c := (body_obligation Zin Xs Oin O b c).loose
  hwaits c := Pipeline.cellsWaits_intro (Pipeline.pin (pcfgs (F := F)) adm) (dats Zin Xs Oin O b) (none : HIx 5) pIx c
    fun w s t => (K (F := F)).mayWait_none _ (hO c) lv hlv
  pre c := iprop(arrays0 c (Zin c) (Xs c) (Oin c) ∗ owesB (F := F) O b c)
  post c := iprop(arrays0 c (Zin c) (Xs c) (regionOut Zin Xs Oin O b c) ∗ owesB (F := F) O b c)
  X _ := iprop(emp)
  Y _ := iprop(emp)
  Z _ := iprop(emp)
  hentry c := by
    rw [Pipeline.ownSems0_none,
      Pipeline.arrays_eq (Pipeline.pin (pcfgs (F := F)) adm) (dats Zin Xs Oin O b) pIx c launch9.arr_whole
        ((dats Zin Xs Oin O b pIx c).share_full fun _ => rfl), bigSep_W9]
    unfold arrays0 owesB
    iintro ⟨⟨Ha, ⟨%W, %hW, HO⟩⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr <;> iempintro
  hin c := by
    rw [show (dats Zin Xs Oin O b pIx c).Φ 0 = rest0 c from rfl]
    iintro ⟨-, -, Hr⟩; iexact Hr
  hout c := by
    rw [Pipeline.ownSems0_none, show (dats Zin Xs Oin O b pIx c).Φ (Fin.last _) = rest0 c from rfl]
    iintro Hr
    isplitr; · iempintro
    isplitr; · iempintro
    iexact Hr
  hexit c := by
    rw [Pipeline.arrays_eq (Pipeline.pin (pcfgs (F := F)) adm) (dats Zin Xs Oin O b) pIx c launch9.arr_whole
        ((dats Zin Xs Oin O b pIx c).share_full fun _ => rfl), bigSep_W9,
      show (dats Zin Xs Oin O b pIx c).arrAt 0 (Pipeline.pin (pcfgs (F := F)) adm pIx).N = Zin c from (dat0 Zin Xs Oin O b c).arrAt_in 0 rfl _,
      show (dats Zin Xs Oin O b pIx c).arrAt 1 (Pipeline.pin (pcfgs (F := F)) adm pIx).N = Xs c from (dat0 Zin Xs Oin O b c).arrAt_in 1 rfl _]
    unfold arrays0 owesB regionOut
    iintro ⟨Ha, HO, -, -⟩
    imodintro
    isplitl [Ha]; · iexact Ha
    unfold Pipeline.Dat.owesAt Pipeline.owesWithin
    icases HO with ⟨%W, %hW, HO⟩; iexists W; isplitr; swap; (· iexact HO)
    ipureintro
    intro p hp
    rcases hW hp with h | ⟨w, s, rfl⟩
    · exact h
    · exact Nat.zero_le _

abbrev post0 (d : Dev nD) : sProp 𝕄 :=
  iprop(boundary (SparseCore.T d : Thread nD τ) ∗ arrays0 d (Zin d) (Xs d) (regionOut Zin Xs Oin O b d) ∗ owesB (F := F) O b d)

include hO hlv in
set_option backward.isDefEq.respectTransparency.types false in
theorem region0 (d : Dev nD) :
    iprop(boundary (SparseCore.T d : Thread nD τ) ∗ arrays0 d (Zin d) (Xs d) (Oin d) ∗ owesB (F := F) O b d
        ∗ levAts (K (F := F)).L lv ∗ ghost0 (F := F) d)
      ⊢ wp frame (wpE ((K (F := F)).defs D) 𝒱 (SparseCore.T d) none) Set.univ
          (Prog.lift (.customCall (SparseCore.inner (Pipeline.entry pIx)) ()))
          (fun _ => post0 Zin Xs Oin O b d) := by
  have h := Pipeline.RegionSeg.wp (pcfgs (F := F)) adm (dats Zin Xs Oin O b) (none : HIx 5) cellOf_inj (EP (F := F)) defs₀ 𝒱₀ (K (F := F)).L lv
    (reg0 Zin Xs Oin O b hO lv hlv) d none (fun u hu => nomatch hu) .ret
    (fun _ => post0 Zin Xs Oin O b d)
  refine .trans (.trans ?_ h)
    ((K (F := F)).wp_liftProg D 𝒱 (SparseCore.T d) Set.univ none (.op (.customCall (Pipeline.entry pIx) ()) .ret) _)
  unfold ghost0 ghost
  dsimp only [reg0]
  iintro ⟨Hb, Ha, HO, Hl, Hg, Ht⟩
  isplitr
  · iintro H
    rw [wp_ret]; imodintro; iexact H
  isplitl [Hb]; · iexact Hb
  isplitl [Ha HO]; · iframe
  isplitl [Hl]; · iexact Hl
  isplitl [Hg]; · iexact Hg
  iexact Ht

end Cert.Proof.KW.Tc4

end
-- ==== Proof.WMainClosed.lean ====
import proofs.«212107_g53927609368716_cont_9to1_m_409_29_alg».proof.Proof.WMain
import proofs.«212107_g53927609368716_cont_9to1_m_409_29_alg».proof.Proof.WTcRegion0
import proofs.«212107_g53927609368716_cont_9to1_m_409_29_alg».proof.Proof.WTcRegion1
import proofs.«212107_g53927609368716_cont_9to1_m_409_29_alg».proof.Proof.WTcRegion2
import proofs.«212107_g53927609368716_cont_9to1_m_409_29_alg».proof.Proof.WTcRegion3
import proofs.«212107_g53927609368716_cont_9to1_m_409_29_alg».proof.Proof.WTcRegion4

noncomputable section

namespace Cert.Proof.KW.Main

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Cert.Kernel.Facts]

local notation "𝕄" => MT nD τ sig (HIx 5) (Elt F) ℕ UU ℕ

variable (m : (ℓ : Loc nD τ sig) → Buf (Elt F) ℓ) (ρ : Dev nD → PrngReg)

def OR0 (d : Dev nD) : Buf (Elt F) (loc d main_v9) :=
  Tc0.regionOut (Z0 m) (XS0 m) (fun c => m (loc c main_v9)) (fun c => (K (F := F)).Otc c 1) (8 * 1) d

set_option backward.isDefEq.respectTransparency.types false in
theorem hreg0 : Region0 m (OR0 m) := fun d => by
  have h := Tc0.region0 (F := F) (Z0 m) (XS0 m) (fun c => m (loc c main_v9)) (fun c => (K (F := F)).Otc c 1) (8 * 1)
    (fun c g => Otc_none c 1 g) (K (F := F)).lev (by sl_refines_lev) d
  unfold Tc0.arrays0 Tc0.owesB at h
  exact h

def OR1 (d : Dev nD) : Buf (Elt F) (loc d main_v14) :=
  Tc1.regionOut (Z1 m) (XS1 m) (fun c => m (loc c main_v14)) (fun c => (K (F := F)).Otc c 2) (8 * 2) d

set_option backward.isDefEq.respectTransparency.types false in
theorem hreg1 : Region1 m (OR1 m) := fun d => by
  have h := Tc1.region0 (F := F) (Z1 m) (XS1 m) (fun c => m (loc c main_v14)) (fun c => (K (F := F)).Otc c 2) (8 * 2)
    (fun c g => Otc_none c 2 g) (K (F := F)).lev (by sl_refines_lev) d
  unfold Tc1.arrays0 Tc1.owesB at h
  exact h

def OR2 (d : Dev nD) : Buf (Elt F) (loc d main_v19) :=
  Tc2.regionOut (Z2 m) (XS2 m) (fun c => m (loc c main_v19)) (fun c => (K (F := F)).Otc c 3) (8 * 3) d

set_option backward.isDefEq.respectTransparency.types false in
theorem hreg2 : Region2 m (OR2 m) := fun d => by
  have h := Tc2.region0 (F := F) (Z2 m) (XS2 m) (fun c => m (loc c main_v19)) (fun c => (K (F := F)).Otc c 3) (8 * 3)
    (fun c g => Otc_none c 3 g) (K (F := F)).lev (by sl_refines_lev) d
  unfold Tc2.arrays0 Tc2.owesB at h
  exact h

def OR3 (d : Dev nD) : Buf (Elt F) (loc d main_v24) :=
  Tc3.regionOut (Z3 m) (XS3 m) (fun c => m (loc c main_v24)) (fun c => (K (F := F)).Otc c 4) (8 * 4) d

set_option backward.isDefEq.respectTransparency.types false in
theorem hreg3 : Region3 m (OR3 m) := fun d => by
  have h := Tc3.region0 (F := F) (Z3 m) (XS3 m) (fun c => m (loc c main_v24)) (fun c => (K (F := F)).Otc c 4) (8 * 4)
    (fun c g => Otc_none c 4 g) (K (F := F)).lev (by sl_refines_lev) d
  unfold Tc3.arrays0 Tc3.owesB at h
  exact h

def OR4 (d : Dev nD) : Buf (Elt F) (loc d main_v29) :=
  Tc4.regionOut (Z4 m) (XS4 m) (fun c => m (loc c main_v29)) (fun c => (K (F := F)).Otc c 5) (8 * 5) d

set_option backward.isDefEq.respectTransparency.types false in
theorem hreg4 : Region4 m (OR4 m) := fun d => by
  have h := Tc4.region0 (F := F) (Z4 m) (XS4 m) (fun c => m (loc c main_v29)) (fun c => (K (F := F)).Otc c 5) (8 * 5)
    (fun c g => Otc_none c 5 g) (K (F := F)).lev (by sl_refines_lev) d
  unfold Tc4.arrays0 Tc4.owesB at h
  exact h

def ResI (m : (ℓ : Loc nD τ sig) → Buf (Elt F) ℓ) (d : Dev nD) : Buf (Elt F) (outLoc d) :=
  Res (OR0 m) (OR1 m) (OR2 m) (OR3 m) (OR4 m) d

theorem ResI_eq (d : Dev nD) : ResI m d
    = concatenate S10000x128 0 [⟨S2000x128, OR0 m d⟩, ⟨S2000x128, OR1 m d⟩, ⟨S2000x128, OR2 m d⟩, ⟨S2000x128, OR3 m d⟩, ⟨S2000x128, OR4 m d⟩]
        concatenates_S2000x128_S2000x128_S2000x128_S2000x128_S2000x128_S10000x128_d0 := rfl

theorem FIN_ResI (d : Dev nD) :
    (FIN m (fun _ d => Res (OR0 m) (OR1 m) (OR2 m) (OR3 m) (OR4 m) d) d : sProp 𝕄) = FIN m ResI d := by
  unfold FIN ResI
  rfl

theorem hmainI (κ : GSem nD τ sig → ℕ) (d : Dev nD) :
    iprop((K (F := F)).ctx EH (P₀ m) κ (K (F := F)).lev ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 5 ∗ FIN m ResI d) :=
  (hmain m ρ (OR0 m) (OR1 m) (OR2 m) (OR3 m) (OR4 m) (hreg0 m) (hreg1 m) (hreg2 m) (hreg3 m) (hreg4 m) κ d).trans
    (wp_mono frame _ Set.univ fun _ => BI.sep_mono_r (Entails.of_eq (FIN_ResI m d)))

end Cert.Proof.KW.Main

end
-- ==== Proof.WScObl0.lean ====
import proofs.«212107_g53927609368716_cont_9to1_m_409_29_alg».proof.Proof.WPay

noncomputable section

namespace Cert.Proof.KW.Sc0.Obl

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.Kernel.Facts]

local notation "𝕄" => MT nD τ sig (HIx 5) (Elt F) ℕ (UU) ℕ

abbrev callIx : Fin 5 := 0
abbrev labIx : Fin 10 := 0

abbrev thr (d : Dev nD) (L : grid0.Coords) : Thread nD τ := V d ((L 0).castLE hcore0) ((L 1).castLE hsub0)
abbrev cOf (L : grid0.Coords) : Fin 2 := Fin.cast (rfl : grid0.bound 0 = 2) (L 0)
abbrev jOf (L : grid0.Coords) : Fin 16 := Fin.cast (rfl : grid0.bound 1 = 16) (L 1)

-- The kernel at grid coordinates `L`, over the call's three arrays and the tile's scratch.
abbrev kern (L : grid0.Coords) := cc0_k (F := F) L (Memref.whole main_arg0_scv) (Memref.isWhole_whole _) (Memref.whole main_v6_scv) (Memref.isWhole_whole _)
  (Memref.whole main_v7_scv) (Memref.isWhole_whole _) (Memref.whole cc0_scratch0) (Memref.isWhole_whole _) (Memref.whole cc0_scratch1) (Memref.isWhole_whole _)
  cc0_scratch2 cc0_scratch3 cc0_scoped0

def TileBody : Prop :=
  ∀ (_ : (K (F := F)).Facts) (d : Dev nD) (L : grid0.Coords) (q : PosShare TreeShare)
    (X : Buf (Elt F) (xLoc d)) (I : Buf (Elt F) (iLoc d)) (_ : IdxOK d I)
    (O : CellTallies nD τ sig (HIx 5)) (W : Waits sig (HIx 5)) (_ : ∀ g, O g none = 0),
    iprop(levAts (K (F := F)).L (K (F := F)).lev ∗ go d q X I (cOf L) (jOf L)
        ∗ scopedBufs (thr d L) ∗ scopedSems0 (thr d L) ∗ owes (thr d L) O W)
      ⊢ wp frame (wpE (defs₀ (F := F)) 𝒱₀ (thr d L) none) Set.univ
          (kern L)
          fun _ => (iprop(td d q X I (cOf L) (jOf L) ∗ scopedBufs (thr d L) ∗ scopedSems0 (thr d L)
            ∗ ∃ W', ⌜∀ p ∈ W', p ∈ W ∨ p.2 = none⌝ ∗ owes (thr d L) O W') : sProp 𝕄)

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) labIx ()
      = SparseCore.onTile hcore0 hsub0 (fun c s => kern (coordsV c s)) ⟨⟩ c s := rfl

-- The tile the launch names by the call's core and subcore maps.
abbrev vt (d : Dev nD) (c : Fin ((K (F := F)).nCore callIx)) (i : Fin ((K (F := F)).nSub callIx)) : Thread nD τ :=
  V d ((K (F := F)).core callIx c) ((K (F := F)).sub callIx i)

-- The launch's tile is the grid's tile at coordinates (core, subcore), where the body is given.
theorem tile_obl (hb : TileBody (F := F)) (hF : (K (F := F)).Facts) (d : Dev nD)
    (c : Fin ((K (F := F)).nCore callIx)) (i : Fin ((K (F := F)).nSub callIx)) (q : PosShare TreeShare)
    (X : Buf (Elt F) (xLoc d)) (I : Buf (Elt F) (iLoc d)) (hI : IdxOK d I)
    (O : CellTallies nD τ sig (HIx 5)) (W : Waits sig (HIx 5)) (hO : ∀ g, O g none = 0) :
    iprop(levAts (K (F := F)).L (K (F := F)).lev ∗ emp ∗ go d q X I (Fin.cast (nCore_eq callIx) c) (Fin.cast (nSub_eq callIx) i)
        ∗ scopedBufs (vt d c i) ∗ scopedSems0 (vt d c i) ∗ owes (vt d c i) O W)
      ⊢ wp frame (wpE (D (F := F)) 𝒱 (vt d c i) (some v₀)) Set.univ
          (D (F := F) (.scVector ((K (F := F)).core callIx c) ((K (F := F)).sub callIx i)) ((K (F := F)).body callIx) ((K (F := F)).args callIx))
          fun _ => (iprop(td d q X I (Fin.cast (nCore_eq callIx) c) (Fin.cast (nSub_eq callIx) i)
            ∗ scopedBufs (vt d c i) ∗ scopedSems0 (vt d c i)
            ∗ ∃ W', ⌜∀ p ∈ W', p ∈ W ∨ p.2 = none ∨ p.2 = some callIx⌝ ∗ owes (vt d c i) O W') : sProp 𝕄) := by
  change _ ⊢ wp _ _ _ (Pipeline.liftProg (defs₀ (F := F) (.scVector ((K (F := F)).core callIx c) ((K (F := F)).sub callIx i)) labIx ())) _
  refine BI.Entails.trans ?_ (Pipeline.wp_liftProg (D (F := F)) (Pipeline.defs_kernel pcfgs defs₀) 𝒱₀ _ Set.univ none _ _)
  have hc : ((K (F := F)).core callIx c).val < grid0.bound 0 ∧ ((K (F := F)).sub callIx i).val < grid0.bound 1 := ⟨c.isLt, i.isLt⟩
  rw [defs₀_vector]; simp only [SparseCore.onTile, hc, and_self, ↓reduceDIte]
  refine BI.Entails.trans ?_ ((hb hF d (coordsV ⟨_, hc.1⟩ ⟨_, hc.2⟩) q X I hI O W hO).trans (wp_mono frame _ _ fun _ => ScWorkers.obl_post))
  show (_ : sProp 𝕄) ⊢ (_ : sProp 𝕄)
  iintro ⟨Hl, -, H⟩
  isplitl [Hl]; · iexact Hl
  iexact H

end Cert.Proof.KW.Sc0.Obl

end
-- ==== Proof.WScObl1.lean ====
import proofs.«212107_g53927609368716_cont_9to1_m_409_29_alg».proof.Proof.WPay

noncomputable section

namespace Cert.Proof.KW.Sc1.Obl

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.Kernel.Facts]

local notation "𝕄" => MT nD τ sig (HIx 5) (Elt F) ℕ (UU) ℕ

abbrev callIx : Fin 5 := 1
abbrev labIx : Fin 10 := 2

abbrev thr (d : Dev nD) (L : grid2.Coords) : Thread nD τ := V d ((L 0).castLE hcore2) ((L 1).castLE hsub2)
abbrev cOf (L : grid2.Coords) : Fin 2 := Fin.cast (rfl : grid2.bound 0 = 2) (L 0)
abbrev jOf (L : grid2.Coords) : Fin 16 := Fin.cast (rfl : grid2.bound 1 = 16) (L 1)

-- The kernel at grid coordinates `L`, over the call's three arrays and the tile's scratch.
abbrev kern (L : grid2.Coords) := cc2_k (F := F) L (Memref.whole main_arg0_scv) (Memref.isWhole_whole _) (Memref.whole main_v11_scv) (Memref.isWhole_whole _)
  (Memref.whole main_v12_scv) (Memref.isWhole_whole _) (Memref.whole cc2_scratch0) (Memref.isWhole_whole _) (Memref.whole cc2_scratch1) (Memref.isWhole_whole _)
  cc2_scratch2 cc2_scratch3 cc2_scoped0

def TileBody : Prop :=
  ∀ (_ : (K (F := F)).Facts) (d : Dev nD) (L : grid2.Coords) (q : PosShare TreeShare)
    (X : Buf (Elt F) (xLoc d)) (I : Buf (Elt F) (iLoc d)) (_ : IdxOK d I)
    (O : CellTallies nD τ sig (HIx 5)) (W : Waits sig (HIx 5)) (_ : ∀ g, O g none = 0),
    iprop(levAts (K (F := F)).L (K (F := F)).lev ∗ go d q X I (cOf L) (jOf L)
        ∗ scopedBufs (thr d L) ∗ scopedSems0 (thr d L) ∗ owes (thr d L) O W)
      ⊢ wp frame (wpE (defs₀ (F := F)) 𝒱₀ (thr d L) none) Set.univ
          (kern L)
          fun _ => (iprop(td d q X I (cOf L) (jOf L) ∗ scopedBufs (thr d L) ∗ scopedSems0 (thr d L)
            ∗ ∃ W', ⌜∀ p ∈ W', p ∈ W ∨ p.2 = none⌝ ∗ owes (thr d L) O W') : sProp 𝕄)

def coordsV (c : Fin (grid2.bound 0)) (s : Fin (grid2.bound 1)) : grid2.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) labIx ()
      = SparseCore.onTile hcore2 hsub2 (fun c s => kern (coordsV c s)) ⟨⟩ c s := rfl

-- The tile the launch names by the call's core and subcore maps.
abbrev vt (d : Dev nD) (c : Fin ((K (F := F)).nCore callIx)) (i : Fin ((K (F := F)).nSub callIx)) : Thread nD τ :=
  V d ((K (F := F)).core callIx c) ((K (F := F)).sub callIx i)

-- The launch's tile is the grid's tile at coordinates (core, subcore), where the body is given.
theorem tile_obl (hb : TileBody (F := F)) (hF : (K (F := F)).Facts) (d : Dev nD)
    (c : Fin ((K (F := F)).nCore callIx)) (i : Fin ((K (F := F)).nSub callIx)) (q : PosShare TreeShare)
    (X : Buf (Elt F) (xLoc d)) (I : Buf (Elt F) (iLoc d)) (hI : IdxOK d I)
    (O : CellTallies nD τ sig (HIx 5)) (W : Waits sig (HIx 5)) (hO : ∀ g, O g none = 0) :
    iprop(levAts (K (F := F)).L (K (F := F)).lev ∗ emp ∗ go d q X I (Fin.cast (nCore_eq callIx) c) (Fin.cast (nSub_eq callIx) i)
        ∗ scopedBufs (vt d c i) ∗ scopedSems0 (vt d c i) ∗ owes (vt d c i) O W)
      ⊢ wp frame (wpE (D (F := F)) 𝒱 (vt d c i) (some v₀)) Set.univ
          (D (F := F) (.scVector ((K (F := F)).core callIx c) ((K (F := F)).sub callIx i)) ((K (F := F)).body callIx) ((K (F := F)).args callIx))
          fun _ => (iprop(td d q X I (Fin.cast (nCore_eq callIx) c) (Fin.cast (nSub_eq callIx) i)
            ∗ scopedBufs (vt d c i) ∗ scopedSems0 (vt d c i)
            ∗ ∃ W', ⌜∀ p ∈ W', p ∈ W ∨ p.2 = none ∨ p.2 = some callIx⌝ ∗ owes (vt d c i) O W') : sProp 𝕄) := by
  change _ ⊢ wp _ _ _ (Pipeline.liftProg (defs₀ (F := F) (.scVector ((K (F := F)).core callIx c) ((K (F := F)).sub callIx i)) labIx ())) _
  refine BI.Entails.trans ?_ (Pipeline.wp_liftProg (D (F := F)) (Pipeline.defs_kernel pcfgs defs₀) 𝒱₀ _ Set.univ none _ _)
  have hc : ((K (F := F)).core callIx c).val < grid2.bound 0 ∧ ((K (F := F)).sub callIx i).val < grid2.bound 1 := ⟨c.isLt, i.isLt⟩
  rw [defs₀_vector]; simp only [SparseCore.onTile, hc, and_self, ↓reduceDIte]
  refine BI.Entails.trans ?_ ((hb hF d (coordsV ⟨_, hc.1⟩ ⟨_, hc.2⟩) q X I hI O W hO).trans (wp_mono frame _ _ fun _ => ScWorkers.obl_post))
  show (_ : sProp 𝕄) ⊢ (_ : sProp 𝕄)
  iintro ⟨Hl, -, H⟩
  isplitl [Hl]; · iexact Hl
  iexact H

end Cert.Proof.KW.Sc1.Obl

end
-- ==== Proof.WScObl2.lean ====
import proofs.«212107_g53927609368716_cont_9to1_m_409_29_alg».proof.Proof.WPay

noncomputable section

namespace Cert.Proof.KW.Sc2.Obl

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.Kernel.Facts]

local notation "𝕄" => MT nD τ sig (HIx 5) (Elt F) ℕ (UU) ℕ

abbrev callIx : Fin 5 := 2
abbrev labIx : Fin 10 := 4

abbrev thr (d : Dev nD) (L : grid4.Coords) : Thread nD τ := V d ((L 0).castLE hcore4) ((L 1).castLE hsub4)
abbrev cOf (L : grid4.Coords) : Fin 2 := Fin.cast (rfl : grid4.bound 0 = 2) (L 0)
abbrev jOf (L : grid4.Coords) : Fin 16 := Fin.cast (rfl : grid4.bound 1 = 16) (L 1)

-- The kernel at grid coordinates `L`, over the call's three arrays and the tile's scratch.
abbrev kern (L : grid4.Coords) := cc4_k (F := F) L (Memref.whole main_arg0_scv) (Memref.isWhole_whole _) (Memref.whole main_v16_scv) (Memref.isWhole_whole _)
  (Memref.whole main_v17_scv) (Memref.isWhole_whole _) (Memref.whole cc4_scratch0) (Memref.isWhole_whole _) (Memref.whole cc4_scratch1) (Memref.isWhole_whole _)
  cc4_scratch2 cc4_scratch3 cc4_scoped0

def TileBody : Prop :=
  ∀ (_ : (K (F := F)).Facts) (d : Dev nD) (L : grid4.Coords) (q : PosShare TreeShare)
    (X : Buf (Elt F) (xLoc d)) (I : Buf (Elt F) (iLoc d)) (_ : IdxOK d I)
    (O : CellTallies nD τ sig (HIx 5)) (W : Waits sig (HIx 5)) (_ : ∀ g, O g none = 0),
    iprop(levAts (K (F := F)).L (K (F := F)).lev ∗ go d q X I (cOf L) (jOf L)
        ∗ scopedBufs (thr d L) ∗ scopedSems0 (thr d L) ∗ owes (thr d L) O W)
      ⊢ wp frame (wpE (defs₀ (F := F)) 𝒱₀ (thr d L) none) Set.univ
          (kern L)
          fun _ => (iprop(td d q X I (cOf L) (jOf L) ∗ scopedBufs (thr d L) ∗ scopedSems0 (thr d L)
            ∗ ∃ W', ⌜∀ p ∈ W', p ∈ W ∨ p.2 = none⌝ ∗ owes (thr d L) O W') : sProp 𝕄)

def coordsV (c : Fin (grid4.bound 0)) (s : Fin (grid4.bound 1)) : grid4.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) labIx ()
      = SparseCore.onTile hcore4 hsub4 (fun c s => kern (coordsV c s)) ⟨⟩ c s := rfl

-- The tile the launch names by the call's core and subcore maps.
abbrev vt (d : Dev nD) (c : Fin ((K (F := F)).nCore callIx)) (i : Fin ((K (F := F)).nSub callIx)) : Thread nD τ :=
  V d ((K (F := F)).core callIx c) ((K (F := F)).sub callIx i)

-- The launch's tile is the grid's tile at coordinates (core, subcore), where the body is given.
theorem tile_obl (hb : TileBody (F := F)) (hF : (K (F := F)).Facts) (d : Dev nD)
    (c : Fin ((K (F := F)).nCore callIx)) (i : Fin ((K (F := F)).nSub callIx)) (q : PosShare TreeShare)
    (X : Buf (Elt F) (xLoc d)) (I : Buf (Elt F) (iLoc d)) (hI : IdxOK d I)
    (O : CellTallies nD τ sig (HIx 5)) (W : Waits sig (HIx 5)) (hO : ∀ g, O g none = 0) :
    iprop(levAts (K (F := F)).L (K (F := F)).lev ∗ emp ∗ go d q X I (Fin.cast (nCore_eq callIx) c) (Fin.cast (nSub_eq callIx) i)
        ∗ scopedBufs (vt d c i) ∗ scopedSems0 (vt d c i) ∗ owes (vt d c i) O W)
      ⊢ wp frame (wpE (D (F := F)) 𝒱 (vt d c i) (some v₀)) Set.univ
          (D (F := F) (.scVector ((K (F := F)).core callIx c) ((K (F := F)).sub callIx i)) ((K (F := F)).body callIx) ((K (F := F)).args callIx))
          fun _ => (iprop(td d q X I (Fin.cast (nCore_eq callIx) c) (Fin.cast (nSub_eq callIx) i)
            ∗ scopedBufs (vt d c i) ∗ scopedSems0 (vt d c i)
            ∗ ∃ W', ⌜∀ p ∈ W', p ∈ W ∨ p.2 = none ∨ p.2 = some callIx⌝ ∗ owes (vt d c i) O W') : sProp 𝕄) := by
  change _ ⊢ wp _ _ _ (Pipeline.liftProg (defs₀ (F := F) (.scVector ((K (F := F)).core callIx c) ((K (F := F)).sub callIx i)) labIx ())) _
  refine BI.Entails.trans ?_ (Pipeline.wp_liftProg (D (F := F)) (Pipeline.defs_kernel pcfgs defs₀) 𝒱₀ _ Set.univ none _ _)
  have hc : ((K (F := F)).core callIx c).val < grid4.bound 0 ∧ ((K (F := F)).sub callIx i).val < grid4.bound 1 := ⟨c.isLt, i.isLt⟩
  rw [defs₀_vector]; simp only [SparseCore.onTile, hc, and_self, ↓reduceDIte]
  refine BI.Entails.trans ?_ ((hb hF d (coordsV ⟨_, hc.1⟩ ⟨_, hc.2⟩) q X I hI O W hO).trans (wp_mono frame _ _ fun _ => ScWorkers.obl_post))
  show (_ : sProp 𝕄) ⊢ (_ : sProp 𝕄)
  iintro ⟨Hl, -, H⟩
  isplitl [Hl]; · iexact Hl
  iexact H

end Cert.Proof.KW.Sc2.Obl

end
-- ==== Proof.WScObl3.lean ====
import proofs.«212107_g53927609368716_cont_9to1_m_409_29_alg».proof.Proof.WPay

noncomputable section

namespace Cert.Proof.KW.Sc3.Obl

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.Kernel.Facts]

local notation "𝕄" => MT nD τ sig (HIx 5) (Elt F) ℕ (UU) ℕ

abbrev callIx : Fin 5 := 3
abbrev labIx : Fin 10 := 6

abbrev thr (d : Dev nD) (L : grid6.Coords) : Thread nD τ := V d ((L 0).castLE hcore6) ((L 1).castLE hsub6)
abbrev cOf (L : grid6.Coords) : Fin 2 := Fin.cast (rfl : grid6.bound 0 = 2) (L 0)
abbrev jOf (L : grid6.Coords) : Fin 16 := Fin.cast (rfl : grid6.bound 1 = 16) (L 1)

-- The kernel at grid coordinates `L`, over the call's three arrays and the tile's scratch.
abbrev kern (L : grid6.Coords) := cc6_k (F := F) L (Memref.whole main_arg0_scv) (Memref.isWhole_whole _) (Memref.whole main_v21_scv) (Memref.isWhole_whole _)
  (Memref.whole main_v22_scv) (Memref.isWhole_whole _) (Memref.whole cc6_scratch0) (Memref.isWhole_whole _) (Memref.whole cc6_scratch1) (Memref.isWhole_whole _)
  cc6_scratch2 cc6_scratch3 cc6_scoped0

def TileBody : Prop :=
  ∀ (_ : (K (F := F)).Facts) (d : Dev nD) (L : grid6.Coords) (q : PosShare TreeShare)
    (X : Buf (Elt F) (xLoc d)) (I : Buf (Elt F) (iLoc d)) (_ : IdxOK d I)
    (O : CellTallies nD τ sig (HIx 5)) (W : Waits sig (HIx 5)) (_ : ∀ g, O g none = 0),
    iprop(levAts (K (F := F)).L (K (F := F)).lev ∗ go d q X I (cOf L) (jOf L)
        ∗ scopedBufs (thr d L) ∗ scopedSems0 (thr d L) ∗ owes (thr d L) O W)
      ⊢ wp frame (wpE (defs₀ (F := F)) 𝒱₀ (thr d L) none) Set.univ
          (kern L)
          fun _ => (iprop(td d q X I (cOf L) (jOf L) ∗ scopedBufs (thr d L) ∗ scopedSems0 (thr d L)
            ∗ ∃ W', ⌜∀ p ∈ W', p ∈ W ∨ p.2 = none⌝ ∗ owes (thr d L) O W') : sProp 𝕄)

def coordsV (c : Fin (grid6.bound 0)) (s : Fin (grid6.bound 1)) : grid6.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) labIx ()
      = SparseCore.onTile hcore6 hsub6 (fun c s => kern (coordsV c s)) ⟨⟩ c s := rfl

-- The tile the launch names by the call's core and subcore maps.
abbrev vt (d : Dev nD) (c : Fin ((K (F := F)).nCore callIx)) (i : Fin ((K (F := F)).nSub callIx)) : Thread nD τ :=
  V d ((K (F := F)).core callIx c) ((K (F := F)).sub callIx i)

-- The launch's tile is the grid's tile at coordinates (core, subcore), where the body is given.
theorem tile_obl (hb : TileBody (F := F)) (hF : (K (F := F)).Facts) (d : Dev nD)
    (c : Fin ((K (F := F)).nCore callIx)) (i : Fin ((K (F := F)).nSub callIx)) (q : PosShare TreeShare)
    (X : Buf (Elt F) (xLoc d)) (I : Buf (Elt F) (iLoc d)) (hI : IdxOK d I)
    (O : CellTallies nD τ sig (HIx 5)) (W : Waits sig (HIx 5)) (hO : ∀ g, O g none = 0) :
    iprop(levAts (K (F := F)).L (K (F := F)).lev ∗ emp ∗ go d q X I (Fin.cast (nCore_eq callIx) c) (Fin.cast (nSub_eq callIx) i)
        ∗ scopedBufs (vt d c i) ∗ scopedSems0 (vt d c i) ∗ owes (vt d c i) O W)
      ⊢ wp frame (wpE (D (F := F)) 𝒱 (vt d c i) (some v₀)) Set.univ
          (D (F := F) (.scVector ((K (F := F)).core callIx c) ((K (F := F)).sub callIx i)) ((K (F := F)).body callIx) ((K (F := F)).args callIx))
          fun _ => (iprop(td d q X I (Fin.cast (nCore_eq callIx) c) (Fin.cast (nSub_eq callIx) i)
            ∗ scopedBufs (vt d c i) ∗ scopedSems0 (vt d c i)
            ∗ ∃ W', ⌜∀ p ∈ W', p ∈ W ∨ p.2 = none ∨ p.2 = some callIx⌝ ∗ owes (vt d c i) O W') : sProp 𝕄) := by
  change _ ⊢ wp _ _ _ (Pipeline.liftProg (defs₀ (F := F) (.scVector ((K (F := F)).core callIx c) ((K (F := F)).sub callIx i)) labIx ())) _
  refine BI.Entails.trans ?_ (Pipeline.wp_liftProg (D (F := F)) (Pipeline.defs_kernel pcfgs defs₀) 𝒱₀ _ Set.univ none _ _)
  have hc : ((K (F := F)).core callIx c).val < grid6.bound 0 ∧ ((K (F := F)).sub callIx i).val < grid6.bound 1 := ⟨c.isLt, i.isLt⟩
  rw [defs₀_vector]; simp only [SparseCore.onTile, hc, and_self, ↓reduceDIte]
  refine BI.Entails.trans ?_ ((hb hF d (coordsV ⟨_, hc.1⟩ ⟨_, hc.2⟩) q X I hI O W hO).trans (wp_mono frame _ _ fun _ => ScWorkers.obl_post))
  show (_ : sProp 𝕄) ⊢ (_ : sProp 𝕄)
  iintro ⟨Hl, -, H⟩
  isplitl [Hl]; · iexact Hl
  iexact H

end Cert.Proof.KW.Sc3.Obl

end
-- ==== Proof.WScObl4.lean ====
import proofs.«212107_g53927609368716_cont_9to1_m_409_29_alg».proof.Proof.WPay

noncomputable section

namespace Cert.Proof.KW.Sc4.Obl

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.Kernel.Facts]

local notation "𝕄" => MT nD τ sig (HIx 5) (Elt F) ℕ (UU) ℕ

abbrev callIx : Fin 5 := 4
abbrev labIx : Fin 10 := 8

abbrev thr (d : Dev nD) (L : grid8.Coords) : Thread nD τ := V d ((L 0).castLE hcore8) ((L 1).castLE hsub8)
abbrev cOf (L : grid8.Coords) : Fin 2 := Fin.cast (rfl : grid8.bound 0 = 2) (L 0)
abbrev jOf (L : grid8.Coords) : Fin 16 := Fin.cast (rfl : grid8.bound 1 = 16) (L 1)

-- The kernel at grid coordinates `L`, over the call's three arrays and the tile's scratch.
abbrev kern (L : grid8.Coords) := cc8_k (F := F) L (Memref.whole main_arg0_scv) (Memref.isWhole_whole _) (Memref.whole main_v26_scv) (Memref.isWhole_whole _)
  (Memref.whole main_v27_scv) (Memref.isWhole_whole _) (Memref.whole cc8_scratch0) (Memref.isWhole_whole _) (Memref.whole cc8_scratch1) (Memref.isWhole_whole _)
  cc8_scratch2 cc8_scratch3 cc8_scoped0

def TileBody : Prop :=
  ∀ (_ : (K (F := F)).Facts) (d : Dev nD) (L : grid8.Coords) (q : PosShare TreeShare)
    (X : Buf (Elt F) (xLoc d)) (I : Buf (Elt F) (iLoc d)) (_ : IdxOK d I)
    (O : CellTallies nD τ sig (HIx 5)) (W : Waits sig (HIx 5)) (_ : ∀ g, O g none = 0),
    iprop(levAts (K (F := F)).L (K (F := F)).lev ∗ go d q X I (cOf L) (jOf L)
        ∗ scopedBufs (thr d L) ∗ scopedSems0 (thr d L) ∗ owes (thr d L) O W)
      ⊢ wp frame (wpE (defs₀ (F := F)) 𝒱₀ (thr d L) none) Set.univ
          (kern L)
          fun _ => (iprop(td d q X I (cOf L) (jOf L) ∗ scopedBufs (thr d L) ∗ scopedSems0 (thr d L)
            ∗ ∃ W', ⌜∀ p ∈ W', p ∈ W ∨ p.2 = none⌝ ∗ owes (thr d L) O W') : sProp 𝕄)

def coordsV (c : Fin (grid8.bound 0)) (s : Fin (grid8.bound 1)) : grid8.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) labIx ()
      = SparseCore.onTile hcore8 hsub8 (fun c s => kern (coordsV c s)) ⟨⟩ c s := rfl

-- The tile the launch names by the call's core and subcore maps.
abbrev vt (d : Dev nD) (c : Fin ((K (F := F)).nCore callIx)) (i : Fin ((K (F := F)).nSub callIx)) : Thread nD τ :=
  V d ((K (F := F)).core callIx c) ((K (F := F)).sub callIx i)

-- The launch's tile is the grid's tile at coordinates (core, subcore), where the body is given.
theorem tile_obl (hb : TileBody (F := F)) (hF : (K (F := F)).Facts) (d : Dev nD)
    (c : Fin ((K (F := F)).nCore callIx)) (i : Fin ((K (F := F)).nSub callIx)) (q : PosShare TreeShare)
    (X : Buf (Elt F) (xLoc d)) (I : Buf (Elt F) (iLoc d)) (hI : IdxOK d I)
    (O : CellTallies nD τ sig (HIx 5)) (W : Waits sig (HIx 5)) (hO : ∀ g, O g none = 0) :
    iprop(levAts (K (F := F)).L (K (F := F)).lev ∗ emp ∗ go d q X I (Fin.cast (nCore_eq callIx) c) (Fin.cast (nSub_eq callIx) i)
        ∗ scopedBufs (vt d c i) ∗ scopedSems0 (vt d c i) ∗ owes (vt d c i) O W)
      ⊢ wp frame (wpE (D (F := F)) 𝒱 (vt d c i) (some v₀)) Set.univ
          (D (F := F) (.scVector ((K (F := F)).core callIx c) ((K (F := F)).sub callIx i)) ((K (F := F)).body callIx) ((K (F := F)).args callIx))
          fun _ => (iprop(td d q X I (Fin.cast (nCore_eq callIx) c) (Fin.cast (nSub_eq callIx) i)
            ∗ scopedBufs (vt d c i) ∗ scopedSems0 (vt d c i)
            ∗ ∃ W', ⌜∀ p ∈ W', p ∈ W ∨ p.2 = none ∨ p.2 = some callIx⌝ ∗ owes (vt d c i) O W') : sProp 𝕄) := by
  change _ ⊢ wp _ _ _ (Pipeline.liftProg (defs₀ (F := F) (.scVector ((K (F := F)).core callIx c) ((K (F := F)).sub callIx i)) labIx ())) _
  refine BI.Entails.trans ?_ (Pipeline.wp_liftProg (D (F := F)) (Pipeline.defs_kernel pcfgs defs₀) 𝒱₀ _ Set.univ none _ _)
  have hc : ((K (F := F)).core callIx c).val < grid8.bound 0 ∧ ((K (F := F)).sub callIx i).val < grid8.bound 1 := ⟨c.isLt, i.isLt⟩
  rw [defs₀_vector]; simp only [SparseCore.onTile, hc, and_self, ↓reduceDIte]
  refine BI.Entails.trans ?_ ((hb hF d (coordsV ⟨_, hc.1⟩ ⟨_, hc.2⟩) q X I hI O W hO).trans (wp_mono frame _ _ fun _ => ScWorkers.obl_post))
  show (_ : sProp 𝕄) ⊢ (_ : sProp 𝕄)
  iintro ⟨Hl, -, H⟩
  isplitl [Hl]; · iexact Hl
  iexact H

end Cert.Proof.KW.Sc4.Obl

end
-- ==== Proof.WObl.lean ====
import proofs.«212107_g53927609368716_cont_9to1_m_409_29_alg».proof.Proof.WScObl0
import proofs.«212107_g53927609368716_cont_9to1_m_409_29_alg».proof.Proof.WScObl1
import proofs.«212107_g53927609368716_cont_9to1_m_409_29_alg».proof.Proof.WScObl2
import proofs.«212107_g53927609368716_cont_9to1_m_409_29_alg».proof.Proof.WScObl3
import proofs.«212107_g53927609368716_cont_9to1_m_409_29_alg».proof.Proof.WScObl4

noncomputable section

namespace Cert.Proof.KW

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.Kernel.Facts]

local notation "𝕄" => MT nD τ sig (HIx 5) (Elt F) ℕ (UU) ℕ

variable (m : (ℓ : Loc nD τ sig) → Buf (Elt F) ℓ)
variable (I0 : (d : Dev nD) → Buf (Elt F) (Sc0.iLoc d))
variable (I1 : (d : Dev nD) → Buf (Elt F) (Sc1.iLoc d))
variable (I2 : (d : Dev nD) → Buf (Elt F) (Sc2.iLoc d))
variable (I3 : (d : Dev nD) → Buf (Elt F) (Sc3.iLoc d))
variable (I4 : (d : Dev nD) → Buf (Elt F) (Sc4.iLoc d))

-- Each call's tiles meet the call's own obligation, read at the payloads; the payloads owe nothing of their own.
theorem htile (hb0 : Sc0.Obl.TileBody (F := F)) (hb1 : Sc1.Obl.TileBody (F := F)) (hb2 : Sc2.Obl.TileBody (F := F)) (hb3 : Sc3.Obl.TileBody (F := F)) (hb4 : Sc4.Obl.TileBody (F := F))
    (hF : (K (F := F)).Facts) (hI0 : ∀ d, Sc0.IdxOK d (I0 d)) (hI1 : ∀ d, Sc1.IdxOK d (I1 d)) (hI2 : ∀ d, Sc2.IdxOK d (I2 d)) (hI3 : ∀ d, Sc3.IdxOK d (I3 d)) (hI4 : ∀ d, Sc4.IdxOK d (I4 d)) :
    ∀ q, (K (F := F)).kind q = .scVector → (K (F := F)).TileObl (D (F := F)) 𝒱 (P (F := F) m I0 I1 I2 I3 I4) v₀ q := by
  intro q _ d c i O W hO _ _
  simp only [show (P (F := F) m I0 I1 I2 I3 I4).ox = fun _ _ => 0 from rfl, add_zero]
  match q with
  | 0 => exact Sc0.Obl.tile_obl hb0 hF d c i fullShare (m (xLoc d)) (I0 d) (hI0 d) O W hO
  | 1 => exact Sc1.Obl.tile_obl hb1 hF d c i fullShare (m (xLoc d)) (I1 d) (hI1 d) O W hO
  | 2 => exact Sc2.Obl.tile_obl hb2 hF d c i fullShare (m (xLoc d)) (I2 d) (hI2 d) O W hO
  | 3 => exact Sc3.Obl.tile_obl hb3 hF d c i fullShare (m (xLoc d)) (I3 d) (hI3 d) O W hO
  | 4 => exact Sc4.Obl.tile_obl hb4 hF d c i fullShare (m (xLoc d)) (I4 d) (hI4 d) O W hO

end Cert.Proof.KW

end
-- ==== Proof.WScVal0.lean ====
import proofs.«212107_g53927609368716_cont_9to1_m_409_29_alg».proof.Proof.WScCall0Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«212107_g53927609368716_cont_9to1_m_409_29_alg».proof.Proof.Gen.Kernel.Skeleton

noncomputable section

namespace Cert.Proof.KW.Sc0

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Cert.Kernel.Facts]

local notation "𝕄" => MT nD τ sig (HIx 5) (Elt F) ℕ UU ℕ

abbrev callIx : Fin 5 := 0
abbrev labIx : Fin 10 := 0

local notation "sI" => (Memref.whole Cert.Kernel.cc0_scratch0 : Memref Cert.Kernel.sig Kind.scVector Space.vmem Cert.Kernel.S25x80 EltTy.i32)
local notation "sR" => (Memref.whole Cert.Kernel.cc0_scratch1 : Memref Cert.Kernel.sig Kind.scVector Space.vmem Cert.Kernel.S5x80x128 EltTy.f32)
local notation "xM" => (Memref.whole Cert.Kernel.main_arg0_scv : Memref Cert.Kernel.sig Kind.scVector Space.hbm Cert.Kernel.S10000x128 EltTy.f32)
local notation "iM" => (Memref.whole Cert.Kernel.main_v6_scv : Memref Cert.Kernel.sig Kind.scVector Space.hbm Cert.Kernel.S32x25x80 EltTy.i32)
local notation "zM" => (Memref.whole Cert.Kernel.main_v7_scv : Memref Cert.Kernel.sig Kind.scVector Space.hbm Cert.Kernel.S64000x128 EltTy.f32)

variable (d : Dev nD) (L : grid0.Coords)

abbrev prL (L : grid0.Coords) : Proc τ := .scVector ((L 0).castLE hcore0) ((L 1).castLE hsub0)
abbrev thrL (L : grid0.Coords) : Thread nD τ := V d ((L 0).castLE hcore0) ((L 1).castLE hsub0)

abbrev iPl (L : grid0.Coords) : Memref sig .scVector .hbm S25x80 .i32 :=
  ((iM).slice (Rect.unit (s := S32x25x80) (k0_off1 L) S1x25x80.size (k0_off1_inb L)) (fun _ => rfl)).squeeze S25x80 squeezes_S1x25x80_S25x80
abbrev sRow (off : Fin 2 → Nat) (h : ∀ a, off a + S1x80.size a ≤ S25x80.size a) : Memref sig .scVector .vmem S80 .i32 :=
  ((sI).slice (Rect.unit (s := S25x80) off S1x80.size h) (fun _ => rfl)).squeeze S80 squeezes_S1x80_S80
abbrev slotM (off : Fin 3 → Nat) (h : ∀ a, off a + S1x80x128.size a ≤ S5x80x128.size a) : Memref sig .scVector .vmem S80x128 .f32 :=
  ((sR).slice (Rect.unit (s := S5x80x128) off S1x80x128.size h) (fun _ => rfl)).squeeze S80x128 squeezes_S1x80x128_S80x128

abbrev semAt (A : DmaSems sig S5) (o : Fin 1 → Nat) (h : ∀ a, o a + S1.size a ≤ S5.size a) : DmaSem sig :=
  SemArray.sem (SemArray.squeeze (SemArray.slice A (Rect.unit (s := S5) o S1.size h)) S_ squeezes_S1_S_)
abbrev gS0 : DmaSem sig := semAt cc0_scratch2 ![0] inb_S5_S1_0
abbrev gS1 : DmaSem sig := semAt cc0_scratch2 ![1] inb_S5_S1_1
abbrev gS2 : DmaSem sig := semAt cc0_scratch2 ![2] inb_S5_S1_2
abbrev gS3 : DmaSem sig := semAt cc0_scratch2 ![3] inb_S5_S1_3
abbrev gS4 : DmaSem sig := semAt cc0_scratch2 ![4] inb_S5_S1_4
abbrev wS0 : DmaSem sig := semAt cc0_scratch3 ![0] inb_S5_S1_0
abbrev wS1 : DmaSem sig := semAt cc0_scratch3 ![1] inb_S5_S1_1
abbrev wS2 : DmaSem sig := semAt cc0_scratch3 ![2] inb_S5_S1_2
abbrev wS3 : DmaSem sig := semAt cc0_scratch3 ![3] inb_S5_S1_3
abbrev wS4 : DmaSem sig := semAt cc0_scratch3 ![4] inb_S5_S1_4
abbrev cS : DmaSem sig := SemArray.sem cc0_scoped0

abbrev zC (L : grid0.Coords) (t : Fin k0_t1_loop.trips) (r : Fin 5) : Memref sig .scVector .hbm S80x128 .f32 :=
  (zM).slice (Rect.unit (s := S64000x128) (k0_off5 L t (BitVec.ofNat 32 r.val)) S80x128.size (k0_off5_inb L t r)) (fun _ => rfl)

abbrev idxPay (L : grid0.Coords) (I : Buf (Elt F) (iLoc d)) : S25x80.Idx → Elt F .i32 :=
  ReadAs.same.apply ((iPl L).view.read (Elt F) I)

theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)
abbrev wL (L : grid0.Coords) : Fin 32 := wid (cL L) (jL L)

theorem trips_eq : k0_t1_loop.trips = 5 := by decide

theorem set_iPl : (iPl L).view.set = iRows (wL L) := by
  have e : Rect.unit (s := S32x25x80) (k0_off1 L) S1x25x80.size (k0_off1_inb L) = iPart (wL L) := by
    unfold iPart Rect.part Rect.block
    congr 1 <;> funext a <;> (try rw [k0_off1_eq]) <;>
      (match a with
       | 0 | 1 | 2 => simp [Shape.partIx, Shape.partSize, wid])
  show (((iM).view.slice (Rect.unit (s := S32x25x80) (k0_off1 L) S1x25x80.size (k0_off1_inb L))).reshape S25x80 squeezes_S1x25x80_S25x80.numel_eq).set
    = ((iM).view.slice (iPart (wL L))).set
  rw [View.set_reshape]
  exact e ▸ rfl

-- A block of whole rows of `z` is the rows from its first on.
theorem mem_rows {off sz : Fin 2 → Nat} {h : ∀ a, off a + sz a ≤ S64000x128.size a} (y : S64000x128.Idx) {o n : Nat}
    (h0 : off 0 = o) (hn : sz 0 = n) (h1 : off 1 = 0) (h2 : sz 1 = 128) :
    y ∈ ((View.whole main_v7_scv).slice (Rect.unit (s := S64000x128) off sz h)).set ↔ o ≤ (y 0).val ∧ (y 0).val < o + n := by
  have : (y 1).val < 128 := (y 1).isLt
  rw [View.set_slice_whole, Rect.mem_set_unit]
  show (∀ a : Fin 2, off a ≤ (y a).val ∧ (y a).val < off a + sz a) ↔ _
  rw [Fin.forall_fin_two, h0, hn, h1, h2]
  omega

theorem mem_zC (t : Fin k0_t1_loop.trips) (r : Fin 5) (y : S64000x128.Idx) :
    y ∈ (zC L t r).view.set ↔ 4000 * (L 1).val + 2000 * (L 0).val + 400 * t.val + 80 * r.val ≤ (y 0).val
      ∧ (y 0).val < 4000 * (L 1).val + 2000 * (L 0).val + 400 * t.val + 80 * r.val + 80 :=
  mem_rows y (by rw [k0_off5_eq]; rfl) (by rfl) (by rw [k0_off5_eq]; rfl) (by rfl)

theorem mem_zRows (w : Fin 32) (y : S64000x128.Idx) : y ∈ zRows w ↔ w.val * 2000 ≤ (y 0).val ∧ (y 0).val < w.val * 2000 + 2000 :=
  mem_rows y (by rfl) (by rfl) (by rfl) (by rfl)

theorem zC_disjoint : ∀ p ∈ (Finset.univ : Finset (Fin k0_t1_loop.trips × Fin 5)), ∀ p' ∈ (Finset.univ : Finset (Fin k0_t1_loop.trips × Fin 5)),
    p ≠ p' → Disjoint (zC L p.1 p.2).view.set (zC L p'.1 p'.2).view.set := by
  intro p _ p' _ hne
  rw [Finset.disjoint_left]
  intro y hy hy'
  rw [mem_zC] at hy hy'
  have := p.2.isLt
  have := p'.2.isLt
  exact hne (Prod.ext (Fin.ext (by omega)) (Fin.ext (by omega)))

-- The twenty-five chunks of eighty rows tile the worker's two thousand.
theorem zC_cover : (Finset.univ : Finset (Fin k0_t1_loop.trips × Fin 5)).biUnion (fun p => (zC L p.1 p.2).view.set) = zRows (wL L) := by
  ext y
  have hw : (wL L).val = 2 * (L 1).val + (L 0).val := rfl
  have h5 := trips_eq
  rw [Finset.mem_biUnion, mem_zRows]
  constructor
  · rintro ⟨p, -, hp⟩
    rw [mem_zC] at hp
    have := p.1.isLt
    have := p.2.isLt
    omega
  · intro hy
    refine ⟨(⟨((y 0).val - 2000 * (wL L).val) / 400, by omega⟩, ⟨((y 0).val - 2000 * (wL L).val) % 400 / 80, by omega⟩), Finset.mem_univ _, ?_⟩
    rw [mem_zC]
    dsimp only
    omega

abbrev semL : List (SemLoc sig) :=
  [.dma gS0, .dma gS1, .dma gS2, .dma gS3, .dma gS4, .dma wS0, .dma wS1, .dma wS2, .dma wS3, .dma wS4, .dma cS]

theorem semL_nodup : semL.Nodup := by decide
theorem semL_scoped : ∀ sm ∈ semL, sm.isScoped .scVector = true := by decide

theorem ownSems0_split :
    (ownSems0 (thrL d L) : sProp 𝕄)
      = iprop(bigSepL (semL.map fun sm => ((thrL d L, sm) : GSem nD τ sig)) (fun g => semVal g 0)
          ∗ bigSep (ownCells (thrL d L) \ (semL.map fun sm => ((thrL d L, sm) : GSem nD τ sig)).toFinset) fun g => semVal g 0) := by
  unfold SparseCore.Cfg.ownSems0
  have hsub : (semL.map fun sm => ((thrL d L, sm) : GSem nD τ sig)).toFinset ⊆ ownCells (thrL d L) := by
    intro g hg
    obtain ⟨sm, hsm, rfl⟩ := List.mem_map.mp (List.mem_toFinset.mp hg)
    exact mem_ownCells.mpr ⟨rfl, semL_scoped sm hsm⟩
  rw [SparseCore.bigSep_sdiff_split' hsub, bigSep_eq_bigSepL _ (List.Nodup.map (fun a b e => (Prod.mk.inj e).2) semL_nodup)]

theorem ownBufs_split :
    (ownBufs (thrL d L) : sProp 𝕄)
      = iprop((∃ f, (thrL d L).loc cc0_scratch0 ↦{fullShare} f) ∗ (∃ f, (thrL d L).loc cc0_scratch1 ↦{fullShare} f)
          ∗ bigSep (((ownRefs (τ := τ) (prL L)).erase ((prL L).devRef cc0_scratch0)).erase ((prL L).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := prL L) (b := (prL L).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := prL L) (b := (prL L).devRef cc0_scratch1) rfl⟩)]

abbrev tr (n : Nat) (h : n < k0_t1_loop.trips := by decide) : Fin k0_t1_loop.trips := ⟨n, h⟩
abbrev chunkL : List (Fin k0_t1_loop.trips × Fin 5) :=
  [(tr 0, 0), (tr 0, 1), (tr 0, 2), (tr 0, 3), (tr 0, 4), (tr 1, 0), (tr 1, 1), (tr 1, 2), (tr 1, 3), (tr 1, 4), (tr 2, 0), (tr 2, 1), (tr 2, 2), (tr 2, 3), (tr 2, 4), (tr 3, 0), (tr 3, 1), (tr 3, 2), (tr 3, 3), (tr 3, 4), (tr 4, 0), (tr 4, 1), (tr 4, 2), (tr 4, 3), (tr 4, 4)]

theorem zRows_chunks (f : Buf (Elt F) (zLoc d)) :
    (zLoc d ↦[zRows (wL L)]{fullShare} f : sProp 𝕄)
      = bigSepL chunkL fun p => zLoc d ↦[(zC L p.1 p.2).view.set]{fullShare} f := by
  rw [← zC_cover L, pointsTo_biUnion Finset.univ (ℓ := zLoc d) (fun p : Fin k0_t1_loop.trips × Fin 5 => (zC L p.1 p.2).view.set) (zC_disjoint L),
    bigSep_univ_eq_bigSepL chunkL (by decide) (by decide)]

abbrev sW (g : Buf (Elt F) ((thrL d L).loc cc0_scratch0)) (I : Buf (Elt F) (iLoc d)) :=
  (sI).view.writes (Elt F) g [⟨Rect.whole cc0_scratch0.ty.shape, idxPay d L I⟩]
abbrev sRd (I : Buf (Elt F) (iLoc d)) (off : Fin 2 → Nat) (h : ∀ a, off a + S1x80.size a ≤ S25x80.size a)
    (g : Buf (Elt F) ((thrL d L).loc cc0_scratch0)) :=
  (sRow off h).view.read (Elt F) (sW d L g I)

-- After the index copy a row of the index scratch reads the tile's plane of index words, whatever the scratch held.
theorem sRd_eq (I : Buf (Elt F) (iLoc d)) (off : Fin 2 → Nat) (h : ∀ a, off a + S1x80.size a ≤ S25x80.size a)
    (g : Buf (Elt F) ((thrL d L).loc cc0_scratch0)) (y : S80.Idx) :
    sRd d L I off h g y = I ((iPl L).view.emb ((sRow off h).view.emb y)) := by
  have h1 := View.read_writes_cons_emb (v := (sI).view) (f := g) (Rect.whole cc0_scratch0.ty.shape) (idxPay d L I) [] ((sRow off h).view.emb y)
  rw [Rect.emb_whole_apply] at h1
  show (sRow off h).view.read (Elt F) (sW d L g I) y = _
  rw [View.read_apply, cast_eq]
  refine Eq.trans h1 ?_
  show (iPl L).view.read (Elt F) I _ = _
  rw [View.read_apply, cast_eq]

theorem hin_ok (I : Buf (Elt F) (iLoc d)) (hI : IdxOK d I) (g : Buf (Elt F) ((thrL d L).loc cc0_scratch0)) (off : Fin 2 → Nat)
    (h : ∀ a, off a + S1x80.size a ≤ S25x80.size a) (x : S80.Idx) :
    (((sRow off h).view.read (Elt F) ((sI).view.writes (Elt F) g [⟨Rect.whole cc0_scratch0.ty.shape, idxPay d L I⟩])) x).toNat < 10000 := by
  show (sRd d L I off h g x).toNat < 10000
  rw [sRd_eq]
  exact hI _

-- A squeezed unit slice puts the dropped unit axis back at the slice's offset.
theorem iPl_emb (q : S25x80.Idx) : @Eq S32x25x80.Idx ((iPl L).view.emb q) (ix3 (n0 := 32) (n1 := 25) (n2 := 80) (wL L) (q 0) (q 1)) := by
  funext a
  refine Fin.ext ?_
  show k0_off1 L a + 1 * (Shape.reshapeEquiv (s := S1x25x80) (s' := S25x80) squeezes_S1x25x80_S25x80.numel_eq q a).val = _
  rw [Shape.reshapeEquiv_cons_one (n := 2) (d := ![25, 80]), k0_off1_eq]
  match a with
  | ⟨0, _⟩ => rfl
  | ⟨1, _⟩ | ⟨2, _⟩ => exact (Nat.zero_add _).trans (Nat.one_mul _)

theorem sRow_emb (j : Nat) (hj : j < 25) (h : ∀ a, ![j, 0] a + S1x80.size a ≤ S25x80.size a) (y : S80.Idx) :
    @Eq S25x80.Idx ((sRow ![j, 0] h).view.emb y) (ix2 (n0 := 25) (n1 := 80) ⟨j, hj⟩ (y 0)) := by
  funext a
  refine Fin.ext ?_
  show ![j, 0] a + 1 * (Shape.reshapeEquiv (s := S1x80) (s' := S80) squeezes_S1x80_S80.numel_eq y a).val = _
  rw [Shape.reshapeEquiv_cons_one (n := 1) (d := ![80])]
  match a with
  | ⟨0, _⟩ => rfl
  | ⟨1, _⟩ => exact (Nat.zero_add _).trans (Nat.one_mul _)

variable (X : Buf (Elt F) (xLoc d)) (I : Buf (Elt F) (iLoc d))

abbrev xG : Memref sig .scVector .hbm S10000x128 .f32 :=
  (xM).slice (Rect.unit (s := S10000x128) ![0, 0] S10000x128.size inb_S10000x128_S10000x128_0_0) (fun _ => rfl)

theorem emb_xG (i : S10000x128.Idx) : @Eq S10000x128.Idx ((xG).view.emb i) i := by
  funext a
  refine Fin.ext ?_
  match a with
  | ⟨0, _⟩ | ⟨1, _⟩ => exact (Nat.zero_add _).trans (Nat.one_mul _)

-- Row `80 (25 w + 5 t + r) + x₀` of the gathered array is the row of the table that word `(w, 5 t + r, x₀)` names; the
-- chunk's gather reads that word from row `5 t + r` of the index scratch.
theorem chunk_val (hI : IdxOK d I) (t : Fin k0_t1_loop.trips) (r : Fin 5) (off : Fin 2 → Nat)
    (h : ∀ a, off a + S1x80.size a ≤ S25x80.size a) (hoff : off = ![5 * t.val + r.val, 0])
    (g : Buf (Elt F) ((thrL d L).loc cc0_scratch0)) (hn : S80.numel = S80x128.size gathers_S10000x128_S80x128.axis')
    (hin' : ∀ x, (((sRow off h).view.read (Elt F) ((sI).view.writes (Elt F) g [⟨Rect.whole cc0_scratch0.ty.shape, idxPay d L I⟩])) x).toNat < S10000x128.size gathers_S10000x128_S80x128.axis)
    (x : S80x128.Idx) :
    gath d X I ((zC L t r).view.emb x)
      = SparseCore.gatherPayload gathers_S10000x128_S80x128 ((xG).view.read (Elt F) X) (SparseCore.rows ((sRow off h).view.read (Elt F) ((sI).view.writes (Elt F) g [⟨Rect.whole cc0_scratch0.ty.shape, idxPay d L I⟩])) hn hin') x := by
  show _ = SparseCore.gatherPayload gathers_S10000x128_S80x128 ((xG).view.read (Elt F) X) (SparseCore.rows (sRd d L I off h g) hn hin') x
  have ht : t.val < 5 := lt_of_lt_of_eq t.isLt trips_eq
  have hr := r.isLt
  have hx0 : (x 0).val < 80 := (x 0).isLt
  have hw : (wL L).val = 2 * (L 1).val + (L 0).val := rfl
  have e0 : (((zC L t r).view.emb x : S64000x128.Idx) 0).val = 2000 * (wL L).val + 400 * t.val + 80 * r.val + (x 0).val := by
    show k0_off5 L t (BitVec.ofNat 32 r.val) 0 + 1 * (x 0).val = _
    rw [k0_off5_eq]
    simp only [Matrix.cons_val_zero]
    omega
  obtain ⟨k0, k1, k2⟩ := (fun n hn => by omega : ∀ n, n = 2000 * (wL L).val + 400 * t.val + 80 * r.val + (x 0).val →
    n / 2000 = (wL L).val ∧ n / 80 % 25 = 5 * t.val + r.val ∧ n % 80 = (x 0).val) _ e0
  have e1 : (((zC L t r).view.emb x : S64000x128.Idx) 1).val = (x 1).val := by
    show k0_off5 L t (BitVec.ofNat 32 r.val) 1 + 1 * (x 1).val = _
    rw [k0_off5_eq]
    simp only [Matrix.cons_val_one, Matrix.cons_val_zero]
    omega
  have hk := Shape.rowMajor_val_one (S80.rowMajor.symm ((x gathers_S10000x128_S80x128.axis').cast hn.symm))
  rw [Equiv.apply_symm_apply] at hk
  have hy : (S80.rowMajor.symm ((x gathers_S10000x128_S80x128.axis').cast hn.symm)) 0 = x 0 := Fin.ext hk.symm
  have hrow : (gathers_S10000x128_S80x128.idx (SparseCore.rows (sRd d L I off h g) hn hin') x gathers_S10000x128_S80x128.axis).val
      = (I (ix3 (n0 := 32) (n1 := 25) (n2 := 80) (wL L) ⟨5 * t.val + r.val, by omega⟩ (x 0))).toNat := by
    rw [Shape.Gathers.idx_axis]
    unfold SparseCore.rows
    show BitVec.toNat (sRd d L I off h g (S80.rowMajor.symm ((x gathers_S10000x128_S80x128.axis').cast hn.symm))) = _
    subst hoff
    rw [sRd_eq, sRow_emb (5 * t.val + r.val) (by omega), iPl_emb]
    exact congrArg (fun k : Fin 80 => (I (ix3 (n0 := 32) (n1 := 25) (n2 := 80) (wL L) ⟨5 * t.val + r.val, by omega⟩ k)).toNat) hy
  unfold SparseCore.gatherPayload gath
  rw [View.read_apply, cast_eq]
  refine Eq.trans ?_ (congrArg X (emb_xG _)).symm
  refine congrArg X (?_ : @Eq S10000x128.Idx _ _)
  funext a
  refine Fin.ext ?_
  match a with
  | ⟨0, _⟩ =>
    refine Eq.trans ?_ (hrow.trans (Nat.mod_eq_of_lt (hI _)).symm).symm
    show (I _).toNat % 10000 = _
    refine congrArg (fun q : S32x25x80.Idx => (I q).toNat % 10000) (?_ : @Eq S32x25x80.Idx _ _)
    funext b
    refine Fin.ext ?_
    match b with
    | ⟨0, _⟩ => exact k0
    | ⟨1, _⟩ => exact k1
    | ⟨2, _⟩ => exact k2
  | ⟨1, _⟩ => exact e1.trans (Shape.Gathers.idx_of_ne gathers_S10000x128_S80x128 _ x (1 : Fin 2) (by decide)).symm

end Cert.Proof.KW.Sc0

end
-- ==== Proof.WScPre0.lean ====
import proofs.«212107_g53927609368716_cont_9to1_m_409_29_alg».proof.Proof.WScVal0

noncomputable section

namespace Cert.Proof.KW.Sc0

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Cert.Kernel.Facts]

local notation "𝕄" => MT nD τ sig (HIx 5) (Elt F) ℕ UU ℕ

local notation "sI" => (Memref.whole Cert.Kernel.cc0_scratch0 : Memref Cert.Kernel.sig Kind.scVector Space.vmem Cert.Kernel.S25x80 EltTy.i32)
local notation "sR" => (Memref.whole Cert.Kernel.cc0_scratch1 : Memref Cert.Kernel.sig Kind.scVector Space.vmem Cert.Kernel.S5x80x128 EltTy.f32)
local notation "xM" => (Memref.whole Cert.Kernel.main_arg0_scv : Memref Cert.Kernel.sig Kind.scVector Space.hbm Cert.Kernel.S10000x128 EltTy.f32)
local notation "iM" => (Memref.whole Cert.Kernel.main_v6_scv : Memref Cert.Kernel.sig Kind.scVector Space.hbm Cert.Kernel.S32x25x80 EltTy.i32)
local notation "zM" => (Memref.whole Cert.Kernel.main_v7_scv : Memref Cert.Kernel.sig Kind.scVector Space.hbm Cert.Kernel.S64000x128 EltTy.f32)

variable (d : Dev nD) (L : grid0.Coords)

abbrev T0 : Fin k0_t1_loop.trips := ⟨0, by decide⟩
abbrev T1 : Fin k0_t1_loop.trips := ⟨1, by decide⟩
abbrev T2 : Fin k0_t1_loop.trips := ⟨2, by decide⟩
abbrev T3 : Fin k0_t1_loop.trips := ⟨3, by decide⟩
abbrev T4 : Fin k0_t1_loop.trips := ⟨4, by decide⟩

abbrev XT (qt : PosShare TreeShare) (X : Buf (Elt F) (xLoc d)) : sProp 𝕄 :=
  bigSepL [(0 : Fin 5), 1, 2, 3, 4] fun b => xLoc d ↦{Transfers.shareTok qt 5 b} X

abbrev ZT (f : Buf (Elt F) (zLoc d)) : sProp 𝕄 :=
  bigSepL chunkL fun p => zLoc d ↦[(zC L p.1 p.2).view.set]{fullShare} f

abbrev ST : sProp 𝕄 := bigSepL (semL.map fun sm => ((thrL d L, sm) : GSem nD τ sig)) (fun g => semVal g 0)

theorem slot_read_write_same (off : Fin 3 → Nat) (h : ∀ a, off a + S1x80x128.size a ≤ S5x80x128.size a)
    (G : Buf (Elt F) ((thrL d L).loc cc0_scratch1)) (P : S80x128.Idx → Elt F .f32) :
    (slotM off h).view.read (Elt F) (View.write (Elt F) (slotM off h).view G P Finset.univ) = P := by
  funext x
  rw [View.read_apply, View.write_emb_of_mem _ _ (Finset.mem_univ x), cast_cast, cast_eq]

theorem slot_disjoint (off off' : Fin 3 → Nat) (h : ∀ a, off a + S1x80x128.size a ≤ S5x80x128.size a)
    (h' : ∀ a, off' a + S1x80x128.size a ≤ S5x80x128.size a) (hne : off 0 ≠ off' 0) :
    Disjoint (slotM off h).view.set (slotM off' h').view.set := by
  show Disjoint (((View.whole cc0_scratch1).slice (Rect.unit (s := S5x80x128) off S1x80x128.size h)).reshape S80x128 squeezes_S1x80x128_S80x128.numel_eq).set
    (((View.whole cc0_scratch1).slice (Rect.unit (s := S5x80x128) off' S1x80x128.size h')).reshape S80x128 squeezes_S1x80x128_S80x128.numel_eq).set
  rw [View.set_reshape, View.set_reshape, View.set_slice_whole, View.set_slice_whole]
  refine Rect.unit_disjoint (0 : Fin 3) ?_
  rcases Nat.lt_or_gt_of_ne hne with hlt | hgt
  · left; show off 0 + 1 ≤ off' 0; omega
  · right; show off' 0 + 1 ≤ off 0; omega

theorem slot_read_write_other (off off' : Fin 3 → Nat) (h : ∀ a, off a + S1x80x128.size a ≤ S5x80x128.size a)
    (h' : ∀ a, off' a + S1x80x128.size a ≤ S5x80x128.size a) (hne : off 0 ≠ off' 0)
    (G : Buf (Elt F) ((thrL d L).loc cc0_scratch1)) (P' : S80x128.Idx → Elt F .f32) :
    (slotM off h).view.read (Elt F) (View.write (Elt F) (slotM off' h').view G P' Finset.univ) = (slotM off h).view.read (Elt F) G := by
  funext x
  rw [View.read_apply, View.read_apply, View.write_of_not_mem]
  rw [View.setOn_univ]
  exact Finset.disjoint_left.mp (slot_disjoint off off' h h' hne) (View.emb_mem_set (slotM off h).view x)

theorem z_fin (X : Buf (Elt F) (xLoc d)) (I : Buf (Elt F) (iLoc d)) (t : Fin k0_t1_loop.trips) (r : Fin 5) (fz : Buf (Elt F) (zLoc d))
    (P : S80x128.Idx → Elt F .f32) (hP : ∀ x, gath d X I ((zC L t r).view.emb x) = P x) :
    ((zC L t r).view.loc (thrL d L) ↦[(zC L t r).view.set]{fullShare} (zC L t r).view.writes (Elt F) fz [⟨Rect.whole S80x128, P⟩] : sProp 𝕄)
      = (zLoc d ↦[(zC L t r).view.set]{fullShare} gath d X I) := by
  refine pointsTo_congr fun y hy => ?_
  obtain ⟨x, -, rfl⟩ := Finset.mem_map.mp hy
  have h1 := View.read_writes_cons_emb (v := (zC L t r).view) (f := fz) (Rect.whole S80x128) P [] x
  rw [Rect.emb_whole_apply, View.read_apply] at h1
  exact ((cast_eq _ _).symm.trans h1).trans (hP x).symm

theorem waits_ok {W W' : Waits sig (HIx 5)} (sm : SemLoc sig) (h : ∀ p ∈ W', p ∈ W ∨ p.2 = none) :
    ∀ p ∈ insert (sm, (default : HIx 5)) W', p ∈ W ∨ p.2 = none := by
  intro p hp
  rcases Finset.mem_insert.mp hp with rfl | hp
  · exact .inr rfl
  · exact h p hp
theorem waits_ok₀ {W : Waits sig (HIx 5)} : ∀ p ∈ W, p ∈ W ∨ p.2 = none := fun _ hp => .inl hp

theorem pts_x (q : PosShare TreeShare) (X : Buf (Elt F) (xLoc d)) :
    (xLoc d ↦{q} X : sProp 𝕄) = ((xM).view.loc (thrL d L) ↦[(xM).view.set]{q} X) := by
  simp only [Memref.view_whole, View.set_whole]
theorem pts_s0 (f : Buf (Elt F) ((thrL d L).loc cc0_scratch0)) :
    ((thrL d L).loc cc0_scratch0 ↦{fullShare} f : sProp 𝕄) = ((sI).view.loc (thrL d L) ↦[(sI).view.set]{fullShare} f) := by
  simp only [Memref.view_whole, View.set_whole]
theorem pts_s1 (f : Buf (Elt F) ((thrL d L).loc cc0_scratch1)) :
    ((thrL d L).loc cc0_scratch1 ↦{fullShare} f : sProp 𝕄) = ((sR).view.loc (thrL d L) ↦[(sR).view.set]{fullShare} f) := by
  simp only [Memref.view_whole, View.set_whole]

end Cert.Proof.KW.Sc0

end
-- ==== Proof.WScTile0.lean ====
import proofs.«212107_g53927609368716_cont_9to1_m_409_29_alg».proof.Proof.WScPre0

noncomputable section

namespace Cert.Proof.KW.Sc0

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Cert.Kernel.Facts]

local notation "𝕄" => MT nD τ sig (HIx 5) (Elt F) ℕ UU ℕ

local notation "sI" => (Memref.whole Cert.Kernel.cc0_scratch0 : Memref Cert.Kernel.sig Kind.scVector Space.vmem Cert.Kernel.S25x80 EltTy.i32)
local notation "sR" => (Memref.whole Cert.Kernel.cc0_scratch1 : Memref Cert.Kernel.sig Kind.scVector Space.vmem Cert.Kernel.S5x80x128 EltTy.f32)
local notation "xM" => (Memref.whole Cert.Kernel.main_arg0_scv : Memref Cert.Kernel.sig Kind.scVector Space.hbm Cert.Kernel.S10000x128 EltTy.f32)
local notation "iM" => (Memref.whole Cert.Kernel.main_v6_scv : Memref Cert.Kernel.sig Kind.scVector Space.hbm Cert.Kernel.S32x25x80 EltTy.i32)
local notation "zM" => (Memref.whole Cert.Kernel.main_v7_scv : Memref Cert.Kernel.sig Kind.scVector Space.hbm Cert.Kernel.S64000x128 EltTy.f32)

variable (d : Dev nD) (L : grid0.Coords)

theorem xt_eq (qt : PosShare TreeShare) (X : Buf (Elt F) (xLoc d)) :
    XT d qt X = iprop(((xM).view.loc (thrL d L) ↦[(xM).view.set]{Transfers.shareTok qt 5 0} X) ∗ ((xM).view.loc (thrL d L) ↦[(xM).view.set]{Transfers.shareTok qt 5 1} X) ∗ ((xM).view.loc (thrL d L) ↦[(xM).view.set]{Transfers.shareTok qt 5 2} X) ∗ ((xM).view.loc (thrL d L) ↦[(xM).view.set]{Transfers.shareTok qt 5 3} X) ∗ ((xM).view.loc (thrL d L) ↦[(xM).view.set]{Transfers.shareTok qt 5 4} X)) := by
  simp only [← pts_x d L]; rfl

theorem zt_eq (f : Buf (Elt F) (zLoc d)) :
    ZT d L f = iprop((zLoc d ↦[(zC L T0 0).view.set]{fullShare} f) ∗ (zLoc d ↦[(zC L T0 1).view.set]{fullShare} f) ∗ (zLoc d ↦[(zC L T0 2).view.set]{fullShare} f) ∗ (zLoc d ↦[(zC L T0 3).view.set]{fullShare} f) ∗ (zLoc d ↦[(zC L T0 4).view.set]{fullShare} f) ∗ (zLoc d ↦[(zC L T1 0).view.set]{fullShare} f) ∗ (zLoc d ↦[(zC L T1 1).view.set]{fullShare} f) ∗ (zLoc d ↦[(zC L T1 2).view.set]{fullShare} f) ∗ (zLoc d ↦[(zC L T1 3).view.set]{fullShare} f) ∗ (zLoc d ↦[(zC L T1 4).view.set]{fullShare} f) ∗ (zLoc d ↦[(zC L T2 0).view.set]{fullShare} f) ∗ (zLoc d ↦[(zC L T2 1).view.set]{fullShare} f) ∗ (zLoc d ↦[(zC L T2 2).view.set]{fullShare} f) ∗ (zLoc d ↦[(zC L T2 3).view.set]{fullShare} f) ∗ (zLoc d ↦[(zC L T2 4).view.set]{fullShare} f) ∗ (zLoc d ↦[(zC L T3 0).view.set]{fullShare} f) ∗ (zLoc d ↦[(zC L T3 1).view.set]{fullShare} f) ∗ (zLoc d ↦[(zC L T3 2).view.set]{fullShare} f) ∗ (zLoc d ↦[(zC L T3 3).view.set]{fullShare} f) ∗ (zLoc d ↦[(zC L T3 4).view.set]{fullShare} f) ∗ (zLoc d ↦[(zC L T4 0).view.set]{fullShare} f) ∗ (zLoc d ↦[(zC L T4 1).view.set]{fullShare} f) ∗ (zLoc d ↦[(zC L T4 2).view.set]{fullShare} f) ∗ (zLoc d ↦[(zC L T4 3).view.set]{fullShare} f) ∗ (zLoc d ↦[(zC L T4 4).view.set]{fullShare} f)) := rfl

theorem pts_z (t : Fin k0_t1_loop.trips) (r : Fin 5) (f : Buf (Elt F) (zLoc d)) :
    (zLoc d ↦[(zC L t r).view.set]{fullShare} f : sProp 𝕄) = ((zC L t r).view.loc (thrL d L) ↦[(zC L t r).view.set]{fullShare} f) := rfl

theorem st_eq : (ST d L : sProp 𝕄) = iprop(semVal (thrL d L, SemLoc.dma gS0) 0 ∗ semVal (thrL d L, SemLoc.dma gS1) 0 ∗ semVal (thrL d L, SemLoc.dma gS2) 0 ∗ semVal (thrL d L, SemLoc.dma gS3) 0 ∗ semVal (thrL d L, SemLoc.dma gS4) 0 ∗ semVal (thrL d L, SemLoc.dma wS0) 0 ∗ semVal (thrL d L, SemLoc.dma wS1) 0 ∗ semVal (thrL d L, SemLoc.dma wS2) 0 ∗ semVal (thrL d L, SemLoc.dma wS3) 0 ∗ semVal (thrL d L, SemLoc.dma wS4) 0 ∗ semVal (thrL d L, SemLoc.dma cS) 0) := rfl

set_option maxHeartbeats 16000000 in
theorem tile_run (O : CellTallies nD τ sig (HIx 5)) (W : Waits sig (HIx 5)) (hO : ∀ g, O g none = 0)
    (X : Buf (Elt F) (xLoc d)) (I : Buf (Elt F) (iLoc d)) (hI : IdxOK d I)
    (fs : Buf (Elt F) ((thrL d L).loc cc0_scratch0)) (fr : Buf (Elt F) ((thrL d L).loc cc0_scratch1))
    (fz : Buf (Elt F) (zLoc d)) (qt : PosShare TreeShare) :
    (iprop(levAts (K (F := F)).L (K (F := F)).lev ∗ XT d qt X
        ∗ (iLoc d ↦[(iPl L).view.set]{fullShare} I)
        ∗ ((thrL d L).loc cc0_scratch0 ↦{fullShare} fs) ∗ ((thrL d L).loc cc0_scratch1 ↦{fullShare} fr)
        ∗ ZT d L fz ∗ ST d L ∗ owes (thrL d L) O W) : sProp 𝕄)
      ⊢ wp frame (wpE (defs₀ (F := F)) 𝒱₀ (thrL d L) none) Set.univ
          (cc0_k L xM (Memref.isWhole_whole _) iM (Memref.isWhole_whole _) zM (Memref.isWhole_whole _) sI (Memref.isWhole_whole _) sR (Memref.isWhole_whole _) cc0_scratch2 cc0_scratch3 cc0_scoped0)
          fun _ => iprop(XT d qt X ∗ (iLoc d ↦[(iPl L).view.set]{fullShare} I)
            ∗ (∃ f, (thrL d L).loc cc0_scratch0 ↦{fullShare} f) ∗ (∃ f, (thrL d L).loc cc0_scratch1 ↦{fullShare} f)
            ∗ ZT d L (gath d X I) ∗ ST d L ∗ ∃ W', ⌜∀ p ∈ W', p ∈ W ∨ p.2 = none⌝ ∗ owes (thrL d L) O W') := by
  have hin := hin_ok d L I hI
  simp only [cc0_k_eq_skeleton]; unfold cc0_k_skel
  iintro ⟨#Hlv, HX, Hi, Hs, Hr, HZ, HS, HO⟩
  ihave Hmw := ((K (F := F)).mayWaits_none (thr := thrL d L) hO) $$ Hlv
  ihave ⟨Hz00, Hz01, Hz02, Hz03, Hz04, Hz10, Hz11, Hz12, Hz13, Hz14, Hz20, Hz21, Hz22, Hz23, Hz24, Hz30, Hz31, Hz32, Hz33, Hz34, Hz40, Hz41, Hz42, Hz43, Hz44⟩ := (Entails.of_eq (zt_eq d L fz)) $$ HZ
  ihave ⟨Hg0, Hg1, Hg2, Hg3, Hg4, Hw0, Hw1, Hw2, Hw3, Hw4, Hc⟩ := (Entails.of_eq (st_eq d L)) $$ HS
  ihave ⟨Hx0, Hx1, Hx2, Hx3, Hx4⟩ := (Entails.of_eq (xt_eq d L qt X)) $$ HX
  ihave Hi := (Entails.of_eq (show (iLoc d ↦[(iPl L).view.set]{fullShare} I : sProp 𝕄) = ((iPl L).view.loc (thrL d L) ↦[(iPl L).view.set]{fullShare} I) from rfl)) $$ Hi
  ihave Hs := (Entails.of_eq (pts_s0 d L fs)) $$ Hs
  ihave Hr := (Entails.of_eq (pts_s1 d L fr)) $$ Hr
  ihave Hz00 := (Entails.of_eq (pts_z d L T0 0 fz)) $$ Hz00
  ihave Hz01 := (Entails.of_eq (pts_z d L T0 1 fz)) $$ Hz01
  ihave Hz02 := (Entails.of_eq (pts_z d L T0 2 fz)) $$ Hz02
  ihave Hz03 := (Entails.of_eq (pts_z d L T0 3 fz)) $$ Hz03
  ihave Hz04 := (Entails.of_eq (pts_z d L T0 4 fz)) $$ Hz04
  ihave Hz10 := (Entails.of_eq (pts_z d L T1 0 fz)) $$ Hz10
  ihave Hz11 := (Entails.of_eq (pts_z d L T1 1 fz)) $$ Hz11
  ihave Hz12 := (Entails.of_eq (pts_z d L T1 2 fz)) $$ Hz12
  ihave Hz13 := (Entails.of_eq (pts_z d L T1 3 fz)) $$ Hz13
  ihave Hz14 := (Entails.of_eq (pts_z d L T1 4 fz)) $$ Hz14
  ihave Hz20 := (Entails.of_eq (pts_z d L T2 0 fz)) $$ Hz20
  ihave Hz21 := (Entails.of_eq (pts_z d L T2 1 fz)) $$ Hz21
  ihave Hz22 := (Entails.of_eq (pts_z d L T2 2 fz)) $$ Hz22
  ihave Hz23 := (Entails.of_eq (pts_z d L T2 3 fz)) $$ Hz23
  ihave Hz24 := (Entails.of_eq (pts_z d L T2 4 fz)) $$ Hz24
  ihave Hz30 := (Entails.of_eq (pts_z d L T3 0 fz)) $$ Hz30
  ihave Hz31 := (Entails.of_eq (pts_z d L T3 1 fz)) $$ Hz31
  ihave Hz32 := (Entails.of_eq (pts_z d L T3 2 fz)) $$ Hz32
  ihave Hz33 := (Entails.of_eq (pts_z d L T3 3 fz)) $$ Hz33
  ihave Hz34 := (Entails.of_eq (pts_z d L T3 4 fz)) $$ Hz34
  ihave Hz40 := (Entails.of_eq (pts_z d L T4 0 fz)) $$ Hz40
  ihave Hz41 := (Entails.of_eq (pts_z d L T4 1 fz)) $$ Hz41
  ihave Hz42 := (Entails.of_eq (pts_z d L T4 2 fz)) $$ Hz42
  ihave Hz43 := (Entails.of_eq (pts_z d L T4 3 fz)) $$ Hz43
  ihave Hz44 := (Entails.of_eq (pts_z d L T4 4 fz)) $$ Hz44
  sl_exec
  sl_unroll
  sl_exec
  sl_step
  isplitl [Hx0 Hx1 Hx2 Hx3 Hx4]
  · iapply (Entails.of_eq (xt_eq d L qt X).symm)
    isplitl [Hx0]; · iexact Hx0
    isplitl [Hx1]; · iexact Hx1
    isplitl [Hx2]; · iexact Hx2
    isplitl [Hx3]; · iexact Hx3
    iexact Hx4
  isplitl [Hi]; · iexact Hi
  isplitl [Hs]; · iexists _; iapply (Entails.of_eq (pts_s0 d L _).symm); iexact Hs
  isplitl [Hr]; · iexists _; iapply (Entails.of_eq (pts_s1 d L _).symm); iexact Hr
  isplitr [Hg0 Hg1 Hg2 Hg3 Hg4 Hw0 Hw1 Hw2 Hw3 Hw4 Hc HO]
  · iapply (Entails.of_eq (zt_eq d L (gath d X I)).symm)
    have zf := fun t r P hP => Entails.of_eq (z_fin d L X I t r fz P hP)
    isplitl [Hz00]; iapply (zf T0 0 _ ?_); rotate_left; iexact Hz00
    isplitl [Hz01]; iapply (zf T0 1 _ ?_); rotate_left; iexact Hz01
    isplitl [Hz02]; iapply (zf T0 2 _ ?_); rotate_left; iexact Hz02
    isplitl [Hz03]; iapply (zf T0 3 _ ?_); rotate_left; iexact Hz03
    isplitl [Hz04]; iapply (zf T0 4 _ ?_); rotate_left; iexact Hz04
    isplitl [Hz10]; iapply (zf T1 0 _ ?_); rotate_left; iexact Hz10
    isplitl [Hz11]; iapply (zf T1 1 _ ?_); rotate_left; iexact Hz11
    isplitl [Hz12]; iapply (zf T1 2 _ ?_); rotate_left; iexact Hz12
    isplitl [Hz13]; iapply (zf T1 3 _ ?_); rotate_left; iexact Hz13
    isplitl [Hz14]; iapply (zf T1 4 _ ?_); rotate_left; iexact Hz14
    isplitl [Hz20]; iapply (zf T2 0 _ ?_); rotate_left; iexact Hz20
    isplitl [Hz21]; iapply (zf T2 1 _ ?_); rotate_left; iexact Hz21
    isplitl [Hz22]; iapply (zf T2 2 _ ?_); rotate_left; iexact Hz22
    isplitl [Hz23]; iapply (zf T2 3 _ ?_); rotate_left; iexact Hz23
    isplitl [Hz24]; iapply (zf T2 4 _ ?_); rotate_left; iexact Hz24
    isplitl [Hz30]; iapply (zf T3 0 _ ?_); rotate_left; iexact Hz30
    isplitl [Hz31]; iapply (zf T3 1 _ ?_); rotate_left; iexact Hz31
    isplitl [Hz32]; iapply (zf T3 2 _ ?_); rotate_left; iexact Hz32
    isplitl [Hz33]; iapply (zf T3 3 _ ?_); rotate_left; iexact Hz33
    isplitl [Hz34]; iapply (zf T3 4 _ ?_); rotate_left; iexact Hz34
    isplitl [Hz40]; iapply (zf T4 0 _ ?_); rotate_left; iexact Hz40
    isplitl [Hz41]; iapply (zf T4 1 _ ?_); rotate_left; iexact Hz41
    isplitl [Hz42]; iapply (zf T4 2 _ ?_); rotate_left; iexact Hz42
    isplitl [Hz43]; iapply (zf T4 3 _ ?_); rotate_left; iexact Hz43
    iapply (zf T4 4 _ ?_); rotate_left; iexact Hz44
    all_goals
      intro x
      show _ = View.read (Elt F) (slotM _ _).view _ x
      repeat (first | rw [slot_read_write_same d L] | (rw [slot_read_write_other d L]; on_goal 2 => decide))
      exact chunk_val d L X I hI _ _ _ _ (by first | rfl | (rw [k0_off3_eq]; rfl) | (rw [k0_off7_eq]; rfl) | (rw [k0_off9_eq]; rfl) | (rw [k0_off11_eq]; rfl) | (rw [k0_off13_eq]; rfl) | decide) _ _ _ x
  isplitr [HO]
  · iapply (Entails.of_eq (st_eq d L).symm)
    isplitl [Hg0]; · iexact Hg0
    isplitl [Hg1]; · iexact Hg1
    isplitl [Hg2]; · iexact Hg2
    isplitl [Hg3]; · iexact Hg3
    isplitl [Hg4]; · iexact Hg4
    isplitl [Hw0]; · iexact Hw0
    isplitl [Hw1]; · iexact Hw1
    isplitl [Hw2]; · iexact Hw2
    isplitl [Hw3]; · iexact Hw3
    isplitl [Hw4]; · iexact Hw4
    iexact Hc
  iexists _
  isplitr
  on_goal 2 => iexact HO
  ipureintro
  repeat (first | exact waits_ok₀ | refine waits_ok _ ?_)

end Cert.Proof.KW.Sc0

end
-- ==== Proof.WScBody0.lean ====
import proofs.«212107_g53927609368716_cont_9to1_m_409_29_alg».proof.Proof.WScTile0

noncomputable section

namespace Cert.Proof.KW.Sc0

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Cert.Kernel.Facts]

local notation "𝕄" => MT nD τ sig (HIx 5) (Elt F) ℕ UU ℕ

variable (d : Dev nD) (L : grid0.Coords)

-- The tile's run with the rest framed off: its share of the table as five tokens, its rows of the result by chunks.
theorem tile_body (hF : (K (F := F)).Facts) (q : PosShare TreeShare)
    (X : Buf (Elt F) (xLoc d)) (I : Buf (Elt F) (iLoc d)) (hI : IdxOK d I)
    (O : CellTallies nD τ sig (HIx 5)) (W : Waits sig (HIx 5)) (hO : ∀ g, O g none = 0) :
    iprop(levAts (K (F := F)).L (K (F := F)).lev ∗ go d q X I (cL L) (jL L)
        ∗ scopedBufs (thrL d L) ∗ scopedSems0 (thrL d L) ∗ owes (thrL d L) O W)
      ⊢ wp frame (wpE (defs₀ (F := F)) 𝒱₀ (thrL d L) none) Set.univ
          (cc0_k L (Memref.whole main_arg0_scv) (Memref.isWhole_whole _) (Memref.whole main_v6_scv) (Memref.isWhole_whole _) (Memref.whole main_v7_scv) (Memref.isWhole_whole _)
            (Memref.whole cc0_scratch0) (Memref.isWhole_whole _) (Memref.whole cc0_scratch1) (Memref.isWhole_whole _) cc0_scratch2 cc0_scratch3 cc0_scoped0)
          fun _ => iprop(td d q X I (cL L) (jL L) ∗ scopedBufs (thrL d L) ∗ scopedSems0 (thrL d L)
            ∗ ∃ W', ⌜∀ p ∈ W', p ∈ W ∨ p.2 = none⌝ ∗ owes (thrL d L) O W') := by
  unfold go td
  have h : (xLoc d ↦{qTile q (cL L) (jL L)} X : sProp 𝕄) ⊣⊢ _ := Transfers.pointsTo_toks _ 5
  rw [(K (F := F)).scopedBufs_V hF d _ _, SparseCore.Cfg.scopedSems0_V (Val := Elt F) d _ _, ownSems0_split, ownBufs_split,
    ← set_iPl L, zRows_chunks d L (gath d X I), BI.Entails.antisymm h.1 h.2,
    bigSep_univ_eq_bigSepL [(0 : Fin 5), 1, 2, 3, 4] (by decide) (by decide)]
  iintro ⟨#Hlv, ⟨⟨Hxd, Hxt⟩, Hi, %fz, Hz⟩, ⟨⟨%fs, Hs⟩, ⟨%fr, Hr⟩, Hbufs⟩, ⟨Hsems, Hsrest⟩, HO⟩
  ihave Hz := (Entails.of_eq (zRows_chunks d L fz)) $$ Hz
  iapply (wp_wand_r frame _ _)
  isplitl [Hxt Hi Hs Hr Hz Hsems HO]
  · iapply (tile_run d L O W hO X I hI fs fr fz (qTile q (cL L) (jL L)))
    isplitr; · iexact Hlv
    isplitl [Hxt]; · iexact Hxt
    isplitl [Hi]; · iexact Hi
    isplitl [Hs]; · iexact Hs
    isplitl [Hr]; · iexact Hr
    isplitl [Hz]; · iexact Hz
    isplitl [Hsems]; · iexact Hsems
    iexact HO
  iintro %_ ⟨Hxt, Hi, Hs, Hr, Hz, Hsems, HO⟩
  isplitl [Hxd Hxt Hi Hz]
  · isplitl [Hxd Hxt]
    · isplitl [Hxd]; · iexact Hxd
      iexact Hxt
    isplitl [Hi]; · iexact Hi
    iexact Hz
  isplitl [Hs Hr Hbufs]
  · isplitl [Hs]; · iexact Hs
    isplitl [Hr]; · iexact Hr
    iexact Hbufs
  isplitl [Hsems Hsrest]
  · isplitl [Hsems]; · iexact Hsems
    iexact Hsrest
  iexact HO

end Cert.Proof.KW.Sc0

end
-- ==== Proof.WScVal1.lean ====
import proofs.«212107_g53927609368716_cont_9to1_m_409_29_alg».proof.Proof.WScCall1Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«212107_g53927609368716_cont_9to1_m_409_29_alg».proof.Proof.Gen.Kernel.Skeleton

noncomputable section

namespace Cert.Proof.KW.Sc1

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Cert.Kernel.Facts]

local notation "𝕄" => MT nD τ sig (HIx 5) (Elt F) ℕ UU ℕ

abbrev callIx : Fin 5 := 1
abbrev labIx : Fin 10 := 2

local notation "sI" => (Memref.whole Cert.Kernel.cc2_scratch0 : Memref Cert.Kernel.sig Kind.scVector Space.vmem Cert.Kernel.S25x80 EltTy.i32)
local notation "sR" => (Memref.whole Cert.Kernel.cc2_scratch1 : Memref Cert.Kernel.sig Kind.scVector Space.vmem Cert.Kernel.S5x80x128 EltTy.f32)
local notation "xM" => (Memref.whole Cert.Kernel.main_arg0_scv : Memref Cert.Kernel.sig Kind.scVector Space.hbm Cert.Kernel.S10000x128 EltTy.f32)
local notation "iM" => (Memref.whole Cert.Kernel.main_v11_scv : Memref Cert.Kernel.sig Kind.scVector Space.hbm Cert.Kernel.S32x25x80 EltTy.i32)
local notation "zM" => (Memref.whole Cert.Kernel.main_v12_scv : Memref Cert.Kernel.sig Kind.scVector Space.hbm Cert.Kernel.S64000x128 EltTy.f32)

variable (d : Dev nD) (L : grid2.Coords)

abbrev prL (L : grid2.Coords) : Proc τ := .scVector ((L 0).castLE hcore2) ((L 1).castLE hsub2)
abbrev thrL (L : grid2.Coords) : Thread nD τ := V d ((L 0).castLE hcore2) ((L 1).castLE hsub2)

abbrev iPl (L : grid2.Coords) : Memref sig .scVector .hbm S25x80 .i32 :=
  ((iM).slice (Rect.unit (s := S32x25x80) (k2_off1 L) S1x25x80.size (k2_off1_inb L)) (fun _ => rfl)).squeeze S25x80 squeezes_S1x25x80_S25x80
abbrev sRow (off : Fin 2 → Nat) (h : ∀ a, off a + S1x80.size a ≤ S25x80.size a) : Memref sig .scVector .vmem S80 .i32 :=
  ((sI).slice (Rect.unit (s := S25x80) off S1x80.size h) (fun _ => rfl)).squeeze S80 squeezes_S1x80_S80
abbrev slotM (off : Fin 3 → Nat) (h : ∀ a, off a + S1x80x128.size a ≤ S5x80x128.size a) : Memref sig .scVector .vmem S80x128 .f32 :=
  ((sR).slice (Rect.unit (s := S5x80x128) off S1x80x128.size h) (fun _ => rfl)).squeeze S80x128 squeezes_S1x80x128_S80x128

abbrev semAt (A : DmaSems sig S5) (o : Fin 1 → Nat) (h : ∀ a, o a + S1.size a ≤ S5.size a) : DmaSem sig :=
  SemArray.sem (SemArray.squeeze (SemArray.slice A (Rect.unit (s := S5) o S1.size h)) S_ squeezes_S1_S_)
abbrev gS0 : DmaSem sig := semAt cc2_scratch2 ![0] inb_S5_S1_0
abbrev gS1 : DmaSem sig := semAt cc2_scratch2 ![1] inb_S5_S1_1
abbrev gS2 : DmaSem sig := semAt cc2_scratch2 ![2] inb_S5_S1_2
abbrev gS3 : DmaSem sig := semAt cc2_scratch2 ![3] inb_S5_S1_3
abbrev gS4 : DmaSem sig := semAt cc2_scratch2 ![4] inb_S5_S1_4
abbrev wS0 : DmaSem sig := semAt cc2_scratch3 ![0] inb_S5_S1_0
abbrev wS1 : DmaSem sig := semAt cc2_scratch3 ![1] inb_S5_S1_1
abbrev wS2 : DmaSem sig := semAt cc2_scratch3 ![2] inb_S5_S1_2
abbrev wS3 : DmaSem sig := semAt cc2_scratch3 ![3] inb_S5_S1_3
abbrev wS4 : DmaSem sig := semAt cc2_scratch3 ![4] inb_S5_S1_4
abbrev cS : DmaSem sig := SemArray.sem cc2_scoped0

abbrev zC (L : grid2.Coords) (t : Fin k2_t1_loop.trips) (r : Fin 5) : Memref sig .scVector .hbm S80x128 .f32 :=
  (zM).slice (Rect.unit (s := S64000x128) (k2_off5 L t (BitVec.ofNat 32 r.val)) S80x128.size (k2_off5_inb L t r)) (fun _ => rfl)

abbrev idxPay (L : grid2.Coords) (I : Buf (Elt F) (iLoc d)) : S25x80.Idx → Elt F .i32 :=
  ReadAs.same.apply ((iPl L).view.read (Elt F) I)

theorem bound_zero : grid2.bound 0 = 2 := rfl
theorem bound_one : grid2.bound 1 = 16 := rfl
abbrev cL (L : grid2.Coords) : Fin 2 := Fin.cast bound_zero (L 0)
abbrev jL (L : grid2.Coords) : Fin 16 := Fin.cast bound_one (L 1)
abbrev wL (L : grid2.Coords) : Fin 32 := wid (cL L) (jL L)

theorem trips_eq : k2_t1_loop.trips = 5 := by decide

theorem set_iPl : (iPl L).view.set = iRows (wL L) := by
  have e : Rect.unit (s := S32x25x80) (k2_off1 L) S1x25x80.size (k2_off1_inb L) = iPart (wL L) := by
    unfold iPart Rect.part Rect.block
    congr 1 <;> funext a <;> (try rw [k2_off1_eq]) <;>
      (match a with
       | 0 | 1 | 2 => simp [Shape.partIx, Shape.partSize, wid])
  show (((iM).view.slice (Rect.unit (s := S32x25x80) (k2_off1 L) S1x25x80.size (k2_off1_inb L))).reshape S25x80 squeezes_S1x25x80_S25x80.numel_eq).set
    = ((iM).view.slice (iPart (wL L))).set
  rw [View.set_reshape]
  exact e ▸ rfl

-- A block of whole rows of `z` is the rows from its first on.
theorem mem_rows {off sz : Fin 2 → Nat} {h : ∀ a, off a + sz a ≤ S64000x128.size a} (y : S64000x128.Idx) {o n : Nat}
    (h0 : off 0 = o) (hn : sz 0 = n) (h1 : off 1 = 0) (h2 : sz 1 = 128) :
    y ∈ ((View.whole main_v12_scv).slice (Rect.unit (s := S64000x128) off sz h)).set ↔ o ≤ (y 0).val ∧ (y 0).val < o + n := by
  have : (y 1).val < 128 := (y 1).isLt
  rw [View.set_slice_whole, Rect.mem_set_unit]
  show (∀ a : Fin 2, off a ≤ (y a).val ∧ (y a).val < off a + sz a) ↔ _
  rw [Fin.forall_fin_two, h0, hn, h1, h2]
  omega

theorem mem_zC (t : Fin k2_t1_loop.trips) (r : Fin 5) (y : S64000x128.Idx) :
    y ∈ (zC L t r).view.set ↔ 4000 * (L 1).val + 2000 * (L 0).val + 400 * t.val + 80 * r.val ≤ (y 0).val
      ∧ (y 0).val < 4000 * (L 1).val + 2000 * (L 0).val + 400 * t.val + 80 * r.val + 80 :=
  mem_rows y (by rw [k2_off5_eq]; rfl) (by rfl) (by rw [k2_off5_eq]; rfl) (by rfl)

theorem mem_zRows (w : Fin 32) (y : S64000x128.Idx) : y ∈ zRows w ↔ w.val * 2000 ≤ (y 0).val ∧ (y 0).val < w.val * 2000 + 2000 :=
  mem_rows y (by rfl) (by rfl) (by rfl) (by rfl)

theorem zC_disjoint : ∀ p ∈ (Finset.univ : Finset (Fin k2_t1_loop.trips × Fin 5)), ∀ p' ∈ (Finset.univ : Finset (Fin k2_t1_loop.trips × Fin 5)),
    p ≠ p' → Disjoint (zC L p.1 p.2).view.set (zC L p'.1 p'.2).view.set := by
  intro p _ p' _ hne
  rw [Finset.disjoint_left]
  intro y hy hy'
  rw [mem_zC] at hy hy'
  have := p.2.isLt
  have := p'.2.isLt
  exact hne (Prod.ext (Fin.ext (by omega)) (Fin.ext (by omega)))

-- The twenty-five chunks of eighty rows tile the worker's two thousand.
theorem zC_cover : (Finset.univ : Finset (Fin k2_t1_loop.trips × Fin 5)).biUnion (fun p => (zC L p.1 p.2).view.set) = zRows (wL L) := by
  ext y
  have hw : (wL L).val = 2 * (L 1).val + (L 0).val := rfl
  have h5 := trips_eq
  rw [Finset.mem_biUnion, mem_zRows]
  constructor
  · rintro ⟨p, -, hp⟩
    rw [mem_zC] at hp
    have := p.1.isLt
    have := p.2.isLt
    omega
  · intro hy
    refine ⟨(⟨((y 0).val - 2000 * (wL L).val) / 400, by omega⟩, ⟨((y 0).val - 2000 * (wL L).val) % 400 / 80, by omega⟩), Finset.mem_univ _, ?_⟩
    rw [mem_zC]
    dsimp only
    omega

abbrev semL : List (SemLoc sig) :=
  [.dma gS0, .dma gS1, .dma gS2, .dma gS3, .dma gS4, .dma wS0, .dma wS1, .dma wS2, .dma wS3, .dma wS4, .dma cS]

theorem semL_nodup : semL.Nodup := by decide
theorem semL_scoped : ∀ sm ∈ semL, sm.isScoped .scVector = true := by decide

theorem ownSems0_split :
    (ownSems0 (thrL d L) : sProp 𝕄)
      = iprop(bigSepL (semL.map fun sm => ((thrL d L, sm) : GSem nD τ sig)) (fun g => semVal g 0)
          ∗ bigSep (ownCells (thrL d L) \ (semL.map fun sm => ((thrL d L, sm) : GSem nD τ sig)).toFinset) fun g => semVal g 0) := by
  unfold SparseCore.Cfg.ownSems0
  have hsub : (semL.map fun sm => ((thrL d L, sm) : GSem nD τ sig)).toFinset ⊆ ownCells (thrL d L) := by
    intro g hg
    obtain ⟨sm, hsm, rfl⟩ := List.mem_map.mp (List.mem_toFinset.mp hg)
    exact mem_ownCells.mpr ⟨rfl, semL_scoped sm hsm⟩
  rw [SparseCore.bigSep_sdiff_split' hsub, bigSep_eq_bigSepL _ (List.Nodup.map (fun a b e => (Prod.mk.inj e).2) semL_nodup)]

theorem ownBufs_split :
    (ownBufs (thrL d L) : sProp 𝕄)
      = iprop((∃ f, (thrL d L).loc cc2_scratch0 ↦{fullShare} f) ∗ (∃ f, (thrL d L).loc cc2_scratch1 ↦{fullShare} f)
          ∗ bigSep (((ownRefs (τ := τ) (prL L)).erase ((prL L).devRef cc2_scratch0)).erase ((prL L).devRef cc2_scratch1))
              fun b => iprop(∃ f, ((d, b) : Loc nD τ sig) ↦{fullShare} f)) := by
  unfold SparseCore.Cfg.ownBufs
  refine (SparseCore.bigSep_erase' (SparseCore.Cfg.mem_ownRefs_of_owner (p := prL L) (b := (prL L).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := prL L) (b := (prL L).devRef cc2_scratch1) rfl⟩)]

abbrev tr (n : Nat) (h : n < k2_t1_loop.trips := by decide) : Fin k2_t1_loop.trips := ⟨n, h⟩
abbrev chunkL : List (Fin k2_t1_loop.trips × Fin 5) :=
  [(tr 0, 0), (tr 0, 1), (tr 0, 2), (tr 0, 3), (tr 0, 4), (tr 1, 0), (tr 1, 1), (tr 1, 2), (tr 1, 3), (tr 1, 4), (tr 2, 0), (tr 2, 1), (tr 2, 2), (tr 2, 3), (tr 2, 4), (tr 3, 0), (tr 3, 1), (tr 3, 2), (tr 3, 3), (tr 3, 4), (tr 4, 0), (tr 4, 1), (tr 4, 2), (tr 4, 3), (tr 4, 4)]

theorem zRows_chunks (f : Buf (Elt F) (zLoc d)) :
    (zLoc d ↦[zRows (wL L)]{fullShare} f : sProp 𝕄)
      = bigSepL chunkL fun p => zLoc d ↦[(zC L p.1 p.2).view.set]{fullShare} f := by
  rw [← zC_cover L, pointsTo_biUnion Finset.univ (ℓ := zLoc d) (fun p : Fin k2_t1_loop.trips × Fin 5 => (zC L p.1 p.2).view.set) (zC_disjoint L),
    bigSep_univ_eq_bigSepL chunkL (by decide) (by decide)]

abbrev sW (g : Buf (Elt F) ((thrL d L).loc cc2_scratch0)) (I : Buf (Elt F) (iLoc d)) :=
  (sI).view.writes (Elt F) g [⟨Rect.whole cc2_scratch0.ty.shape, idxPay d L I⟩]
abbrev sRd (I : Buf (Elt F) (iLoc d)) (off : Fin 2 → Nat) (h : ∀ a, off a + S1x80.size a ≤ S25x80.size a)
    (g : Buf (Elt F) ((thrL d L).loc cc2_scratch0)) :=
  (sRow off h).view.read (Elt F) (sW d L g I)

-- After the index copy a row of the index scratch reads the tile's plane of index words, whatever the scratch held.
theorem sRd_eq (I : Buf (Elt F) (iLoc d)) (off : Fin 2 → Nat) (h : ∀ a, off a + S1x80.size a ≤ S25x80.size a)
    (g : Buf (Elt F) ((thrL d L).loc cc2_scratch0)) (y : S80.Idx) :
    sRd d L I off h g y = I ((iPl L).view.emb ((sRow off h).view.emb y)) := by
  have h1 := View.read_writes_cons_emb (v := (sI).view) (f := g) (Rect.whole cc2_scratch0.ty.shape) (idxPay d L I) [] ((sRow off h).view.emb y)
  rw [Rect.emb_whole_apply] at h1
  show (sRow off h).view.read (Elt F) (sW d L g I) y = _
  rw [View.read_apply, cast_eq]
  refine Eq.trans h1 ?_
  show (iPl L).view.read (Elt F) I _ = _
  rw [View.read_apply, cast_eq]

theorem hin_ok (I : Buf (Elt F) (iLoc d)) (hI : IdxOK d I) (g : Buf (Elt F) ((thrL d L).loc cc2_scratch0)) (off : Fin 2 → Nat)
    (h : ∀ a, off a + S1x80.size a ≤ S25x80.size a) (x : S80.Idx) :
    (((sRow off h).view.read (Elt F) ((sI).view.writes (Elt F) g [⟨Rect.whole cc2_scratch0.ty.shape, idxPay d L I⟩])) x).toNat < 10000 := by
  show (sRd d L I off h g x).toNat < 10000
  rw [sRd_eq]
  exact hI _

-- A squeezed unit slice puts the dropped unit axis back at the slice's offset.
theorem iPl_emb (q : S25x80.Idx) : @Eq S32x25x80.Idx ((iPl L).view.emb q) (ix3 (n0 := 32) (n1 := 25) (n2 := 80) (wL L) (q 0) (q 1)) := by
  funext a
  refine Fin.ext ?_
  show k2_off1 L a + 1 * (Shape.reshapeEquiv (s := S1x25x80) (s' := S25x80) squeezes_S1x25x80_S25x80.numel_eq q a).val = _
  rw [Shape.reshapeEquiv_cons_one (n := 2) (d := ![25, 80]), k2_off1_eq]
  match a with
  | ⟨0, _⟩ => rfl
  | ⟨1, _⟩ | ⟨2, _⟩ => exact (Nat.zero_add _).trans (Nat.one_mul _)

theorem sRow_emb (j : Nat) (hj : j < 25) (h : ∀ a, ![j, 0] a + S1x80.size a ≤ S25x80.size a) (y : S80.Idx) :
    @Eq S25x80.Idx ((sRow ![j, 0] h).view.emb y) (ix2 (n0 := 25) (n1 := 80) ⟨j, hj⟩ (y 0)) := by
  funext a
  refine Fin.ext ?_
  show ![j, 0] a + 1 * (Shape.reshapeEquiv (s := S1x80) (s' := S80) squeezes_S1x80_S80.numel_eq y a).val = _
  rw [Shape.reshapeEquiv_cons_one (n := 1) (d := ![80])]
  match a with
  | ⟨0, _⟩ => rfl
  | ⟨1, _⟩ => exact (Nat.zero_add _).trans (Nat.one_mul _)

variable (X : Buf (Elt F) (xLoc d)) (I : Buf (Elt F) (iLoc d))

abbrev xG : Memref sig .scVector .hbm S10000x128 .f32 :=
  (xM).slice (Rect.unit (s := S10000x128) ![0, 0] S10000x128.size inb_S10000x128_S10000x128_0_0) (fun _ => rfl)

theorem emb_xG (i : S10000x128.Idx) : @Eq S10000x128.Idx ((xG).view.emb i) i := by
  funext a
  refine Fin.ext ?_
  match a with
  | ⟨0, _⟩ | ⟨1, _⟩ => exact (Nat.zero_add _).trans (Nat.one_mul _)

-- Row `80 (25 w + 5 t + r) + x₀` of the gathered array is the row of the table that word `(w, 5 t + r, x₀)` names; the
-- chunk's gather reads that word from row `5 t + r` of the index scratch.
theorem chunk_val (hI : IdxOK d I) (t : Fin k2_t1_loop.trips) (r : Fin 5) (off : Fin 2 → Nat)
    (h : ∀ a, off a + S1x80.size a ≤ S25x80.size a) (hoff : off = ![5 * t.val + r.val, 0])
    (g : Buf (Elt F) ((thrL d L).loc cc2_scratch0)) (hn : S80.numel = S80x128.size gathers_S10000x128_S80x128.axis')
    (hin' : ∀ x, (((sRow off h).view.read (Elt F) ((sI).view.writes (Elt F) g [⟨Rect.whole cc2_scratch0.ty.shape, idxPay d L I⟩])) x).toNat < S10000x128.size gathers_S10000x128_S80x128.axis)
    (x : S80x128.Idx) :
    gath d X I ((zC L t r).view.emb x)
      = SparseCore.gatherPayload gathers_S10000x128_S80x128 ((xG).view.read (Elt F) X) (SparseCore.rows ((sRow off h).view.read (Elt F) ((sI).view.writes (Elt F) g [⟨Rect.whole cc2_scratch0.ty.shape, idxPay d L I⟩])) hn hin') x := by
  show _ = SparseCore.gatherPayload gathers_S10000x128_S80x128 ((xG).view.read (Elt F) X) (SparseCore.rows (sRd d L I off h g) hn hin') x
  have ht : t.val < 5 := lt_of_lt_of_eq t.isLt trips_eq
  have hr := r.isLt
  have hx0 : (x 0).val < 80 := (x 0).isLt
  have hw : (wL L).val = 2 * (L 1).val + (L 0).val := rfl
  have e0 : (((zC L t r).view.emb x : S64000x128.Idx) 0).val = 2000 * (wL L).val + 400 * t.val + 80 * r.val + (x 0).val := by
    show k2_off5 L t (BitVec.ofNat 32 r.val) 0 + 1 * (x 0).val = _
    rw [k2_off5_eq]
    simp only [Matrix.cons_val_zero]
    omega
  obtain ⟨k0, k1, k2⟩ := (fun n hn => by omega : ∀ n, n = 2000 * (wL L).val + 400 * t.val + 80 * r.val + (x 0).val →
    n / 2000 = (wL L).val ∧ n / 80 % 25 = 5 * t.val + r.val ∧ n % 80 = (x 0).val) _ e0
  have e1 : (((zC L t r).view.emb x : S64000x128.Idx) 1).val = (x 1).val := by
    show k2_off5 L t (BitVec.ofNat 32 r.val) 1 + 1 * (x 1).val = _
    rw [k2_off5_eq]
    simp only [Matrix.cons_val_one, Matrix.cons_val_zero]
    omega
  have hk := Shape.rowMajor_val_one (S80.rowMajor.symm ((x gathers_S10000x128_S80x128.axis').cast hn.symm))
  rw [Equiv.apply_symm_apply] at hk
  have hy : (S80.rowMajor.symm ((x gathers_S10000x128_S80x128.axis').cast hn.symm)) 0 = x 0 := Fin.ext hk.symm
  have hrow : (gathers_S10000x128_S80x128.idx (SparseCore.rows (sRd d L I off h g) hn hin') x gathers_S10000x128_S80x128.axis).val
      = (I (ix3 (n0 := 32) (n1 := 25) (n2 := 80) (wL L) ⟨5 * t.val + r.val, by omega⟩ (x 0))).toNat := by
    rw [Shape.Gathers.idx_axis]
    unfold SparseCore.rows
    show BitVec.toNat (sRd d L I off h g (S80.rowMajor.symm ((x gathers_S10000x128_S80x128.axis').cast hn.symm))) = _
    subst hoff
    rw [sRd_eq, sRow_emb (5 * t.val + r.val) (by omega), iPl_emb]
    exact congrArg (fun k : Fin 80 => (I (ix3 (n0 := 32) (n1 := 25) (n2 := 80) (wL L) ⟨5 * t.val + r.val, by omega⟩ k)).toNat) hy
  unfold SparseCore.gatherPayload gath
  rw [View.read_apply, cast_eq]
  refine Eq.trans ?_ (congrArg X (emb_xG _)).symm
  refine congrArg X (?_ : @Eq S10000x128.Idx _ _)
  funext a
  refine Fin.ext ?_
  match a with
  | ⟨0, _⟩ =>
    refine Eq.trans ?_ (hrow.trans (Nat.mod_eq_of_lt (hI _)).symm).symm
    show (I _).toNat % 10000 = _
    refine congrArg (fun q : S32x25x80.Idx => (I q).toNat % 10000) (?_ : @Eq S32x25x80.Idx _ _)
    funext b
    refine Fin.ext ?_
    match b with
    | ⟨0, _⟩ => exact k0
    | ⟨1, _⟩ => exact k1
    | ⟨2, _⟩ => exact k2
  | ⟨1, _⟩ => exact e1.trans (Shape.Gathers.idx_of_ne gathers_S10000x128_S80x128 _ x (1 : Fin 2) (by decide)).symm

end Cert.Proof.KW.Sc1

end
-- ==== Proof.WScPre1.lean ====
import proofs.«212107_g53927609368716_cont_9to1_m_409_29_alg».proof.Proof.WScVal1

noncomputable section

namespace Cert.Proof.KW.Sc1

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Cert.Kernel.Facts]

local notation "𝕄" => MT nD τ sig (HIx 5) (Elt F) ℕ UU ℕ

local notation "sI" => (Memref.whole Cert.Kernel.cc2_scratch0 : Memref Cert.Kernel.sig Kind.scVector Space.vmem Cert.Kernel.S25x80 EltTy.i32)
local notation "sR" => (Memref.whole Cert.Kernel.cc2_scratch1 : Memref Cert.Kernel.sig Kind.scVector Space.vmem Cert.Kernel.S5x80x128 EltTy.f32)
local notation "xM" => (Memref.whole Cert.Kernel.main_arg0_scv : Memref Cert.Kernel.sig Kind.scVector Space.hbm Cert.Kernel.S10000x128 EltTy.f32)
local notation "iM" => (Memref.whole Cert.Kernel.main_v11_scv : Memref Cert.Kernel.sig Kind.scVector Space.hbm Cert.Kernel.S32x25x80 EltTy.i32)
local notation "zM" => (Memref.whole Cert.Kernel.main_v12_scv : Memref Cert.Kernel.sig Kind.scVector Space.hbm Cert.Kernel.S64000x128 EltTy.f32)

variable (d : Dev nD) (L : grid2.Coords)

abbrev T0 : Fin k2_t1_loop.trips := ⟨0, by decide⟩
abbrev T1 : Fin k2_t1_loop.trips := ⟨1, by decide⟩
abbrev T2 : Fin k2_t1_loop.trips := ⟨2, by decide⟩
abbrev T3 : Fin k2_t1_loop.trips := ⟨3, by decide⟩
abbrev T4 : Fin k2_t1_loop.trips := ⟨4, by decide⟩

abbrev XT (qt : PosShare TreeShare) (X : Buf (Elt F) (xLoc d)) : sProp 𝕄 :=
  bigSepL [(0 : Fin 5), 1, 2, 3, 4] fun b => xLoc d ↦{Transfers.shareTok qt 5 b} X

abbrev ZT (f : Buf (Elt F) (zLoc d)) : sProp 𝕄 :=
  bigSepL chunkL fun p => zLoc d ↦[(zC L p.1 p.2).view.set]{fullShare} f

abbrev ST : sProp 𝕄 := bigSepL (semL.map fun sm => ((thrL d L, sm) : GSem nD τ sig)) (fun g => semVal g 0)

theorem slot_read_write_same (off : Fin 3 → Nat) (h : ∀ a, off a + S1x80x128.size a ≤ S5x80x128.size a)
    (G : Buf (Elt F) ((thrL d L).loc cc2_scratch1)) (P : S80x128.Idx → Elt F .f32) :
    (slotM off h).view.read (Elt F) (View.write (Elt F) (slotM off h).view G P Finset.univ) = P := by
  funext x
  rw [View.read_apply, View.write_emb_of_mem _ _ (Finset.mem_univ x), cast_cast, cast_eq]

theorem slot_disjoint (off off' : Fin 3 → Nat) (h : ∀ a, off a + S1x80x128.size a ≤ S5x80x128.size a)
    (h' : ∀ a, off' a + S1x80x128.size a ≤ S5x80x128.size a) (hne : off 0 ≠ off' 0) :
    Disjoint (slotM off h).view.set (slotM off' h').view.set := by
  show Disjoint (((View.whole cc2_scratch1).slice (Rect.unit (s := S5x80x128) off S1x80x128.size h)).reshape S80x128 squeezes_S1x80x128_S80x128.numel_eq).set
    (((View.whole cc2_scratch1).slice (Rect.unit (s := S5x80x128) off' S1x80x128.size h')).reshape S80x128 squeezes_S1x80x128_S80x128.numel_eq).set
  rw [View.set_reshape, View.set_reshape, View.set_slice_whole, View.set_slice_whole]
  refine Rect.unit_disjoint (0 : Fin 3) ?_
  rcases Nat.lt_or_gt_of_ne hne with hlt | hgt
  · left; show off 0 + 1 ≤ off' 0; omega
  · right; show off' 0 + 1 ≤ off 0; omega

theorem slot_read_write_other (off off' : Fin 3 → Nat) (h : ∀ a, off a + S1x80x128.size a ≤ S5x80x128.size a)
    (h' : ∀ a, off' a + S1x80x128.size a ≤ S5x80x128.size a) (hne : off 0 ≠ off' 0)
    (G : Buf (Elt F) ((thrL d L).loc cc2_scratch1)) (P' : S80x128.Idx → Elt F .f32) :
    (slotM off h).view.read (Elt F) (View.write (Elt F) (slotM off' h').view G P' Finset.univ) = (slotM off h).view.read (Elt F) G := by
  funext x
  rw [View.read_apply, View.read_apply, View.write_of_not_mem]
  rw [View.setOn_univ]
  exact Finset.disjoint_left.mp (slot_disjoint off off' h h' hne) (View.emb_mem_set (slotM off h).view x)

theorem z_fin (X : Buf (Elt F) (xLoc d)) (I : Buf (Elt F) (iLoc d)) (t : Fin k2_t1_loop.trips) (r : Fin 5) (fz : Buf (Elt F) (zLoc d))
    (P : S80x128.Idx → Elt F .f32) (hP : ∀ x, gath d X I ((zC L t r).view.emb x) = P x) :
    ((zC L t r).view.loc (thrL d L) ↦[(zC L t r).view.set]{fullShare} (zC L t r).view.writes (Elt F) fz [⟨Rect.whole S80x128, P⟩] : sProp 𝕄)
      = (zLoc d ↦[(zC L t r).view.set]{fullShare} gath d X I) := by
  refine pointsTo_congr fun y hy => ?_
  obtain ⟨x, -, rfl⟩ := Finset.mem_map.mp hy
  have h1 := View.read_writes_cons_emb (v := (zC L t r).view) (f := fz) (Rect.whole S80x128) P [] x
  rw [Rect.emb_whole_apply, View.read_apply] at h1
  exact ((cast_eq _ _).symm.trans h1).trans (hP x).symm

theorem waits_ok {W W' : Waits sig (HIx 5)} (sm : SemLoc sig) (h : ∀ p ∈ W', p ∈ W ∨ p.2 = none) :
    ∀ p ∈ insert (sm, (default : HIx 5)) W', p ∈ W ∨ p.2 = none := by
  intro p hp
  rcases Finset.mem_insert.mp hp with rfl | hp
  · exact .inr rfl
  · exact h p hp
theorem waits_ok₀ {W : Waits sig (HIx 5)} : ∀ p ∈ W, p ∈ W ∨ p.2 = none := fun _ hp => .inl hp

theorem pts_x (q : PosShare TreeShare) (X : Buf (Elt F) (xLoc d)) :
    (xLoc d ↦{q} X : sProp 𝕄) = ((xM).view.loc (thrL d L) ↦[(xM).view.set]{q} X) := by
  simp only [Memref.view_whole, View.set_whole]
theorem pts_s0 (f : Buf (Elt F) ((thrL d L).loc cc2_scratch0)) :
    ((thrL d L).loc cc2_scratch0 ↦{fullShare} f : sProp 𝕄) = ((sI).view.loc (thrL d L) ↦[(sI).view.set]{fullShare} f) := by
  simp only [Memref.view_whole, View.set_whole]
theorem pts_s1 (f : Buf (Elt F) ((thrL d L).loc cc2_scratch1)) :
    ((thrL d L).loc cc2_scratch1 ↦{fullShare} f : sProp 𝕄) = ((sR).view.loc (thrL d L) ↦[(sR).view.set]{fullShare} f) := by
  simp only [Memref.view_whole, View.set_whole]

end Cert.Proof.KW.Sc1

end
-- ==== Proof.WScTile1.lean ====
import proofs.«212107_g53927609368716_cont_9to1_m_409_29_alg».proof.Proof.WScPre1

noncomputable section

namespace Cert.Proof.KW.Sc1

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Cert.Kernel.Facts]

local notation "𝕄" => MT nD τ sig (HIx 5) (Elt F) ℕ UU ℕ

local notation "sI" => (Memref.whole Cert.Kernel.cc2_scratch0 : Memref Cert.Kernel.sig Kind.scVector Space.vmem Cert.Kernel.S25x80 EltTy.i32)
local notation "sR" => (Memref.whole Cert.Kernel.cc2_scratch1 : Memref Cert.Kernel.sig Kind.scVector Space.vmem Cert.Kernel.S5x80x128 EltTy.f32)
local notation "xM" => (Memref.whole Cert.Kernel.main_arg0_scv : Memref Cert.Kernel.sig Kind.scVector Space.hbm Cert.Kernel.S10000x128 EltTy.f32)
local notation "iM" => (Memref.whole Cert.Kernel.main_v11_scv : Memref Cert.Kernel.sig Kind.scVector Space.hbm Cert.Kernel.S32x25x80 EltTy.i32)
local notation "zM" => (Memref.whole Cert.Kernel.main_v12_scv : Memref Cert.Kernel.sig Kind.scVector Space.hbm Cert.Kernel.S64000x128 EltTy.f32)

variable (d : Dev nD) (L : grid2.Coords)

theorem xt_eq (qt : PosShare TreeShare) (X : Buf (Elt F) (xLoc d)) :
    XT d qt X = iprop(((xM).view.loc (thrL d L) ↦[(xM).view.set]{Transfers.shareTok qt 5 0} X) ∗ ((xM).view.loc (thrL d L) ↦[(xM).view.set]{Transfers.shareTok qt 5 1} X) ∗ ((xM).view.loc (thrL d L) ↦[(xM).view.set]{Transfers.shareTok qt 5 2} X) ∗ ((xM).view.loc (thrL d L) ↦[(xM).view.set]{Transfers.shareTok qt 5 3} X) ∗ ((xM).view.loc (thrL d L) ↦[(xM).view.set]{Transfers.shareTok qt 5 4} X)) := by
  simp only [← pts_x d L]; rfl

theorem zt_eq (f : Buf (Elt F) (zLoc d)) :
    ZT d L f = iprop((zLoc d ↦[(zC L T0 0).view.set]{fullShare} f) ∗ (zLoc d ↦[(zC L T0 1).view.set]{fullShare} f) ∗ (zLoc d ↦[(zC L T0 2).view.set]{fullShare} f) ∗ (zLoc d ↦[(zC L T0 3).view.set]{fullShare} f) ∗ (zLoc d ↦[(zC L T0 4).view.set]{fullShare} f) ∗ (zLoc d ↦[(zC L T1 0).view.set]{fullShare} f) ∗ (zLoc d ↦[(zC L T1 1).view.set]{fullShare} f) ∗ (zLoc d ↦[(zC L T1 2).view.set]{fullShare} f) ∗ (zLoc d ↦[(zC L T1 3).view.set]{fullShare} f) ∗ (zLoc d ↦[(zC L T1 4).view.set]{fullShare} f) ∗ (zLoc d ↦[(zC L T2 0).view.set]{fullShare} f) ∗ (zLoc d ↦[(zC L T2 1).view.set]{fullShare} f) ∗ (zLoc d ↦[(zC L T2 2).view.set]{fullShare} f) ∗ (zLoc d ↦[(zC L T2 3).view.set]{fullShare} f) ∗ (zLoc d ↦[(zC L T2 4).view.set]{fullShare} f) ∗ (zLoc d ↦[(zC L T3 0).view.set]{fullShare} f) ∗ (zLoc d ↦[(zC L T3 1).view.set]{fullShare} f) ∗ (zLoc d ↦[(zC L T3 2).view.set]{fullShare} f) ∗ (zLoc d ↦[(zC L T3 3).view.set]{fullShare} f) ∗ (zLoc d ↦[(zC L T3 4).view.set]{fullShare} f) ∗ (zLoc d ↦[(zC L T4 0).view.set]{fullShare} f) ∗ (zLoc d ↦[(zC L T4 1).view.set]{fullShare} f) ∗ (zLoc d ↦[(zC L T4 2).view.set]{fullShare} f) ∗ (zLoc d ↦[(zC L T4 3).view.set]{fullShare} f) ∗ (zLoc d ↦[(zC L T4 4).view.set]{fullShare} f)) := rfl

theorem pts_z (t : Fin k2_t1_loop.trips) (r : Fin 5) (f : Buf (Elt F) (zLoc d)) :
    (zLoc d ↦[(zC L t r).view.set]{fullShare} f : sProp 𝕄) = ((zC L t r).view.loc (thrL d L) ↦[(zC L t r).view.set]{fullShare} f) := rfl

theorem st_eq : (ST d L : sProp 𝕄) = iprop(semVal (thrL d L, SemLoc.dma gS0) 0 ∗ semVal (thrL d L, SemLoc.dma gS1) 0 ∗ semVal (thrL d L, SemLoc.dma gS2) 0 ∗ semVal (thrL d L, SemLoc.dma gS3) 0 ∗ semVal (thrL d L, SemLoc.dma gS4) 0 ∗ semVal (thrL d L, SemLoc.dma wS0) 0 ∗ semVal (thrL d L, SemLoc.dma wS1) 0 ∗ semVal (thrL d L, SemLoc.dma wS2) 0 ∗ semVal (thrL d L, SemLoc.dma wS3) 0 ∗ semVal (thrL d L, SemLoc.dma wS4) 0 ∗ semVal (thrL d L, SemLoc.dma cS) 0) := rfl

set_option maxHeartbeats 16000000 in
theorem tile_run (O : CellTallies nD τ sig (HIx 5)) (W : Waits sig (HIx 5)) (hO : ∀ g, O g none = 0)
    (X : Buf (Elt F) (xLoc d)) (I : Buf (Elt F) (iLoc d)) (hI : IdxOK d I)
    (fs : Buf (Elt F) ((thrL d L).loc cc2_scratch0)) (fr : Buf (Elt F) ((thrL d L).loc cc2_scratch1))
    (fz : Buf (Elt F) (zLoc d)) (qt : PosShare TreeShare) :
    (iprop(levAts (K (F := F)).L (K (F := F)).lev ∗ XT d qt X
        ∗ (iLoc d ↦[(iPl L).view.set]{fullShare} I)
        ∗ ((thrL d L).loc cc2_scratch0 ↦{fullShare} fs) ∗ ((thrL d L).loc cc2_scratch1 ↦{fullShare} fr)
        ∗ ZT d L fz ∗ ST d L ∗ owes (thrL d L) O W) : sProp 𝕄)
      ⊢ wp frame (wpE (defs₀ (F := F)) 𝒱₀ (thrL d L) none) Set.univ
          (cc2_k L xM (Memref.isWhole_whole _) iM (Memref.isWhole_whole _) zM (Memref.isWhole_whole _) sI (Memref.isWhole_whole _) sR (Memref.isWhole_whole _) cc2_scratch2 cc2_scratch3 cc2_scoped0)
          fun _ => iprop(XT d qt X ∗ (iLoc d ↦[(iPl L).view.set]{fullShare} I)
            ∗ (∃ f, (thrL d L).loc cc2_scratch0 ↦{fullShare} f) ∗ (∃ f, (thrL d L).loc cc2_scratch1 ↦{fullShare} f)
            ∗ ZT d L (gath d X I) ∗ ST d L ∗ ∃ W', ⌜∀ p ∈ W', p ∈ W ∨ p.2 = none⌝ ∗ owes (thrL d L) O W') := by
  have hin := hin_ok d L I hI
  simp only [cc2_k_eq_skeleton]; unfold cc2_k_skel
  iintro ⟨#Hlv, HX, Hi, Hs, Hr, HZ, HS, HO⟩
  ihave Hmw := ((K (F := F)).mayWaits_none (thr := thrL d L) hO) $$ Hlv
  ihave ⟨Hz00, Hz01, Hz02, Hz03, Hz04, Hz10, Hz11, Hz12, Hz13, Hz14, Hz20, Hz21, Hz22, Hz23, Hz24, Hz30, Hz31, Hz32, Hz33, Hz34, Hz40, Hz41, Hz42, Hz43, Hz44⟩ := (Entails.of_eq (zt_eq d L fz)) $$ HZ
  ihave ⟨Hg0, Hg1, Hg2, Hg3, Hg4, Hw0, Hw1, Hw2, Hw3, Hw4, Hc⟩ := (Entails.of_eq (st_eq d L)) $$ HS
  ihave ⟨Hx0, Hx1, Hx2, Hx3, Hx4⟩ := (Entails.of_eq (xt_eq d L qt X)) $$ HX
  ihave Hi := (Entails.of_eq (show (iLoc d ↦[(iPl L).view.set]{fullShare} I : sProp 𝕄) = ((iPl L).view.loc (thrL d L) ↦[(iPl L).view.set]{fullShare} I) from rfl)) $$ Hi
  ihave Hs := (Entails.of_eq (pts_s0 d L fs)) $$ Hs
  ihave Hr := (Entails.of_eq (pts_s1 d L fr)) $$ Hr
  ihave Hz00 := (Entails.of_eq (pts_z d L T0 0 fz)) $$ Hz00
  ihave Hz01 := (Entails.of_eq (pts_z d L T0 1 fz)) $$ Hz01
  ihave Hz02 := (Entails.of_eq (pts_z d L T0 2 fz)) $$ Hz02
  ihave Hz03 := (Entails.of_eq (pts_z d L T0 3 fz)) $$ Hz03
  ihave Hz04 := (Entails.of_eq (pts_z d L T0 4 fz)) $$ Hz04
  ihave Hz10 := (Entails.of_eq (pts_z d L T1 0 fz)) $$ Hz10
  ihave Hz11 := (Entails.of_eq (pts_z d L T1 1 fz)) $$ Hz11
  ihave Hz12 := (Entails.of_eq (pts_z d L T1 2 fz)) $$ Hz12
  ihave Hz13 := (Entails.of_eq (pts_z d L T1 3 fz)) $$ Hz13
  ihave Hz14 := (Entails.of_eq (pts_z d L T1 4 fz)) $$ Hz14
  ihave Hz20 := (Entails.of_eq (pts_z d L T2 0 fz)) $$ Hz20
  ihave Hz21 := (Entails.of_eq (pts_z d L T2 1 fz)) $$ Hz21
  ihave Hz22 := (Entails.of_eq (pts_z d L T2 2 fz)) $$ Hz22
  ihave Hz23 := (Entails.of_eq (pts_z d L T2 3 fz)) $$ Hz23
  ihave Hz24 := (Entails.of_eq (pts_z d L T2 4 fz)) $$ Hz24
  ihave Hz30 := (Entails.of_eq (pts_z d L T3 0 fz)) $$ Hz30
  ihave Hz31 := (Entails.of_eq (pts_z d L T3 1 fz)) $$ Hz31
  ihave Hz32 := (Entails.of_eq (pts_z d L T3 2 fz)) $$ Hz32
  ihave Hz33 := (Entails.of_eq (pts_z d L T3 3 fz)) $$ Hz33
  ihave Hz34 := (Entails.of_eq (pts_z d L T3 4 fz)) $$ Hz34
  ihave Hz40 := (Entails.of_eq (pts_z d L T4 0 fz)) $$ Hz40
  ihave Hz41 := (Entails.of_eq (pts_z d L T4 1 fz)) $$ Hz41
  ihave Hz42 := (Entails.of_eq (pts_z d L T4 2 fz)) $$ Hz42
  ihave Hz43 := (Entails.of_eq (pts_z d L T4 3 fz)) $$ Hz43
  ihave Hz44 := (Entails.of_eq (pts_z d L T4 4 fz)) $$ Hz44
  sl_exec
  sl_unroll
  sl_exec
  sl_step
  isplitl [Hx0 Hx1 Hx2 Hx3 Hx4]
  · iapply (Entails.of_eq (xt_eq d L qt X).symm)
    isplitl [Hx0]; · iexact Hx0
    isplitl [Hx1]; · iexact Hx1
    isplitl [Hx2]; · iexact Hx2
    isplitl [Hx3]; · iexact Hx3
    iexact Hx4
  isplitl [Hi]; · iexact Hi
  isplitl [Hs]; · iexists _; iapply (Entails.of_eq (pts_s0 d L _).symm); iexact Hs
  isplitl [Hr]; · iexists _; iapply (Entails.of_eq (pts_s1 d L _).symm); iexact Hr
  isplitr [Hg0 Hg1 Hg2 Hg3 Hg4 Hw0 Hw1 Hw2 Hw3 Hw4 Hc HO]
  · iapply (Entails.of_eq (zt_eq d L (gath d X I)).symm)
    have zf := fun t r P hP => Entails.of_eq (z_fin d L X I t r fz P hP)
    isplitl [Hz00]; iapply (zf T0 0 _ ?_); rotate_left; iexact Hz00
    isplitl [Hz01]; iapply (zf T0 1 _ ?_); rotate_left; iexact Hz01
    isplitl [Hz02]; iapply (zf T0 2 _ ?_); rotate_left; iexact Hz02
    isplitl [Hz03]; iapply (zf T0 3 _ ?_); rotate_left; iexact Hz03
    isplitl [Hz04]; iapply (zf T0 4 _ ?_); rotate_left; iexact Hz04
    isplitl [Hz10]; iapply (zf T1 0 _ ?_); rotate_left; iexact Hz10
    isplitl [Hz11]; iapply (zf T1 1 _ ?_); rotate_left; iexact Hz11
    isplitl [Hz12]; iapply (zf T1 2 _ ?_); rotate_left; iexact Hz12
    isplitl [Hz13]; iapply (zf T1 3 _ ?_); rotate_left; iexact Hz13
    isplitl [Hz14]; iapply (zf T1 4 _ ?_); rotate_left; iexact Hz14
    isplitl [Hz20]; iapply (zf T2 0 _ ?_); rotate_left; iexact Hz20
    isplitl [Hz21]; iapply (zf T2 1 _ ?_); rotate_left; iexact Hz21
    isplitl [Hz22]; iapply (zf T2 2 _ ?_); rotate_left; iexact Hz22
    isplitl [Hz23]; iapply (zf T2 3 _ ?_); rotate_left; iexact Hz23
    isplitl [Hz24]; iapply (zf T2 4 _ ?_); rotate_left; iexact Hz24
    isplitl [Hz30]; iapply (zf T3 0 _ ?_); rotate_left; iexact Hz30
    isplitl [Hz31]; iapply (zf T3 1 _ ?_); rotate_left; iexact Hz31
    isplitl [Hz32]; iapply (zf T3 2 _ ?_); rotate_left; iexact Hz32
    isplitl [Hz33]; iapply (zf T3 3 _ ?_); rotate_left; iexact Hz33
    isplitl [Hz34]; iapply (zf T3 4 _ ?_); rotate_left; iexact Hz34
    isplitl [Hz40]; iapply (zf T4 0 _ ?_); rotate_left; iexact Hz40
    isplitl [Hz41]; iapply (zf T4 1 _ ?_); rotate_left; iexact Hz41
    isplitl [Hz42]; iapply (zf T4 2 _ ?_); rotate_left; iexact Hz42
    isplitl [Hz43]; iapply (zf T4 3 _ ?_); rotate_left; iexact Hz43
    iapply (zf T4 4 _ ?_); rotate_left; iexact Hz44
    all_goals
      intro x
      show _ = View.read (Elt F) (slotM _ _).view _ x
      repeat (first | rw [slot_read_write_same d L] | (rw [slot_read_write_other d L]; on_goal 2 => decide))
      exact chunk_val d L X I hI _ _ _ _ (by first | rfl | (rw [k2_off3_eq]; rfl) | (rw [k2_off7_eq]; rfl) | (rw [k2_off9_eq]; rfl) | (rw [k2_off11_eq]; rfl) | (rw [k2_off13_eq]; rfl) | decide) _ _ _ x
  isplitr [HO]
  · iapply (Entails.of_eq (st_eq d L).symm)
    isplitl [Hg0]; · iexact Hg0
    isplitl [Hg1]; · iexact Hg1
    isplitl [Hg2]; · iexact Hg2
    isplitl [Hg3]; · iexact Hg3
    isplitl [Hg4]; · iexact Hg4
    isplitl [Hw0]; · iexact Hw0
    isplitl [Hw1]; · iexact Hw1
    isplitl [Hw2]; · iexact Hw2
    isplitl [Hw3]; · iexact Hw3
    isplitl [Hw4]; · iexact Hw4
    iexact Hc
  iexists _
  isplitr
  on_goal 2 => iexact HO
  ipureintro
  repeat (first | exact waits_ok₀ | refine waits_ok _ ?_)

end Cert.Proof.KW.Sc1

end
-- ==== Proof.WScBody1.lean ====
import proofs.«212107_g53927609368716_cont_9to1_m_409_29_alg».proof.Proof.WScTile1

noncomputable section

namespace Cert.Proof.KW.Sc1

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Cert.Kernel.Facts]

local notation "𝕄" => MT nD τ sig (HIx 5) (Elt F) ℕ UU ℕ

variable (d : Dev nD) (L : grid2.Coords)

-- The tile's run with the rest framed off: its share of the table as five tokens, its rows of the result by chunks.
theorem tile_body (hF : (K (F := F)).Facts) (q : PosShare TreeShare)
    (X : Buf (Elt F) (xLoc d)) (I : Buf (Elt F) (iLoc d)) (hI : IdxOK d I)
    (O : CellTallies nD τ sig (HIx 5)) (W : Waits sig (HIx 5)) (hO : ∀ g, O g none = 0) :
    iprop(levAts (K (F := F)).L (K (F := F)).lev ∗ go d q X I (cL L) (jL L)
        ∗ scopedBufs (thrL d L) ∗ scopedSems0 (thrL d L) ∗ owes (thrL d L) O W)
      ⊢ wp frame (wpE (defs₀ (F := F)) 𝒱₀ (thrL d L) none) Set.univ
          (cc2_k L (Memref.whole main_arg0_scv) (Memref.isWhole_whole _) (Memref.whole main_v11_scv) (Memref.isWhole_whole _) (Memref.whole main_v12_scv) (Memref.isWhole_whole _)
            (Memref.whole cc2_scratch0) (Memref.isWhole_whole _) (Memref.whole cc2_scratch1) (Memref.isWhole_whole _) cc2_scratch2 cc2_scratch3 cc2_scoped0)
          fun _ => iprop(td d q X I (cL L) (jL L) ∗ scopedBufs (thrL d L) ∗ scopedSems0 (thrL d L)
            ∗ ∃ W', ⌜∀ p ∈ W', p ∈ W ∨ p.2 = none⌝ ∗ owes (thrL d L) O W') := by
  unfold go td
  have h : (xLoc d ↦{qTile q (cL L) (jL L)} X : sProp 𝕄) ⊣⊢ _ := Transfers.pointsTo_toks _ 5
  rw [(K (F := F)).scopedBufs_V hF d _ _, SparseCore.Cfg.scopedSems0_V (Val := Elt F) d _ _, ownSems0_split, ownBufs_split,
    ← set_iPl L, zRows_chunks d L (gath d X I), BI.Entails.antisymm h.1 h.2,
    bigSep_univ_eq_bigSepL [(0 : Fin 5), 1, 2, 3, 4] (by decide) (by decide)]
  iintro ⟨#Hlv, ⟨⟨Hxd, Hxt⟩, Hi, %fz, Hz⟩, ⟨⟨%fs, Hs⟩, ⟨%fr, Hr⟩, Hbufs⟩, ⟨Hsems, Hsrest⟩, HO⟩
  ihave Hz := (Entails.of_eq (zRows_chunks d L fz)) $$ Hz
  iapply (wp_wand_r frame _ _)
  isplitl [Hxt Hi Hs Hr Hz Hsems HO]
  · iapply (tile_run d L O W hO X I hI fs fr fz (qTile q (cL L) (jL L)))
    isplitr; · iexact Hlv
    isplitl [Hxt]; · iexact Hxt
    isplitl [Hi]; · iexact Hi
    isplitl [Hs]; · iexact Hs
    isplitl [Hr]; · iexact Hr
    isplitl [Hz]; · iexact Hz
    isplitl [Hsems]; · iexact Hsems
    iexact HO
  iintro %_ ⟨Hxt, Hi, Hs, Hr, Hz, Hsems, HO⟩
  isplitl [Hxd Hxt Hi Hz]
  · isplitl [Hxd Hxt]
    · isplitl [Hxd]; · iexact Hxd
      iexact Hxt
    isplitl [Hi]; · iexact Hi
    iexact Hz
  isplitl [Hs Hr Hbufs]
  · isplitl [Hs]; · iexact Hs
    isplitl [Hr]; · iexact Hr
    iexact Hbufs
  isplitl [Hsems Hsrest]
  · isplitl [Hsems]; · iexact Hsems
    iexact Hsrest
  iexact HO

end Cert.Proof.KW.Sc1

end
-- ==== Proof.WScVal2.lean ====
import proofs.«212107_g53927609368716_cont_9to1_m_409_29_alg».proof.Proof.WScCall2Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«212107_g53927609368716_cont_9to1_m_409_29_alg».proof.Proof.Gen.Kernel.Skeleton

noncomputable section

namespace Cert.Proof.KW.Sc2

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Cert.Kernel.Facts]

local notation "𝕄" => MT nD τ sig (HIx 5) (Elt F) ℕ UU ℕ

abbrev callIx : Fin 5 := 2
abbrev labIx : Fin 10 := 4

local notation "sI" => (Memref.whole Cert.Kernel.cc4_scratch0 : Memref Cert.Kernel.sig Kind.scVector Space.vmem Cert.Kernel.S25x80 EltTy.i32)
local notation "sR" => (Memref.whole Cert.Kernel.cc4_scratch1 : Memref Cert.Kernel.sig Kind.scVector Space.vmem Cert.Kernel.S5x80x128 EltTy.f32)
local notation "xM" => (Memref.whole Cert.Kernel.main_arg0_scv : Memref Cert.Kernel.sig Kind.scVector Space.hbm Cert.Kernel.S10000x128 EltTy.f32)
local notation "iM" => (Memref.whole Cert.Kernel.main_v16_scv : Memref Cert.Kernel.sig Kind.scVector Space.hbm Cert.Kernel.S32x25x80 EltTy.i32)
local notation "zM" => (Memref.whole Cert.Kernel.main_v17_scv : Memref Cert.Kernel.sig Kind.scVector Space.hbm Cert.Kernel.S64000x128 EltTy.f32)

variable (d : Dev nD) (L : grid4.Coords)

abbrev prL (L : grid4.Coords) : Proc τ := .scVector ((L 0).castLE hcore4) ((L 1).castLE hsub4)
abbrev thrL (L : grid4.Coords) : Thread nD τ := V d ((L 0).castLE hcore4) ((L 1).castLE hsub4)

abbrev iPl (L : grid4.Coords) : Memref sig .scVector .hbm S25x80 .i32 :=
  ((iM).slice (Rect.unit (s := S32x25x80) (k4_off1 L) S1x25x80.size (k4_off1_inb L)) (fun _ => rfl)).squeeze S25x80 squeezes_S1x25x80_S25x80
abbrev sRow (off : Fin 2 → Nat) (h : ∀ a, off a + S1x80.size a ≤ S25x80.size a) : Memref sig .scVector .vmem S80 .i32 :=
  ((sI).slice (Rect.unit (s := S25x80) off S1x80.size h) (fun _ => rfl)).squeeze S80 squeezes_S1x80_S80
abbrev slotM (off : Fin 3 → Nat) (h : ∀ a, off a + S1x80x128.size a ≤ S5x80x128.size a) : Memref sig .scVector .vmem S80x128 .f32 :=
  ((sR).slice (Rect.unit (s := S5x80x128) off S1x80x128.size h) (fun _ => rfl)).squeeze S80x128 squeezes_S1x80x128_S80x128

abbrev semAt (A : DmaSems sig S5) (o : Fin 1 → Nat) (h : ∀ a, o a + S1.size a ≤ S5.size a) : DmaSem sig :=
  SemArray.sem (SemArray.squeeze (SemArray.slice A (Rect.unit (s := S5) o S1.size h)) S_ squeezes_S1_S_)
abbrev gS0 : DmaSem sig := semAt cc4_scratch2 ![0] inb_S5_S1_0
abbrev gS1 : DmaSem sig := semAt cc4_scratch2 ![1] inb_S5_S1_1
abbrev gS2 : DmaSem sig := semAt cc4_scratch2 ![2] inb_S5_S1_2
abbrev gS3 : DmaSem sig := semAt cc4_scratch2 ![3] inb_S5_S1_3
abbrev gS4 : DmaSem sig := semAt cc4_scratch2 ![4] inb_S5_S1_4
abbrev wS0 : DmaSem sig := semAt cc4_scratch3 ![0] inb_S5_S1_0
abbrev wS1 : DmaSem sig := semAt cc4_scratch3 ![1] inb_S5_S1_1
abbrev wS2 : DmaSem sig := semAt cc4_scratch3 ![2] inb_S5_S1_2
abbrev wS3 : DmaSem sig := semAt cc4_scratch3 ![3] inb_S5_S1_3
abbrev wS4 : DmaSem sig := semAt cc4_scratch3 ![4] inb_S5_S1_4
abbrev cS : DmaSem sig := SemArray.sem cc4_scoped0

abbrev zC (L : grid4.Coords) (t : Fin k4_t1_loop.trips) (r : Fin 5) : Memref sig .scVector .hbm S80x128 .f32 :=
  (zM).slice (Rect.unit (s := S64000x128) (k4_off5 L t (BitVec.ofNat 32 r.val)) S80x128.size (k4_off5_inb L t r)) (fun _ => rfl)

abbrev idxPay (L : grid4.Coords) (I : Buf (Elt F) (iLoc d)) : S25x80.Idx → Elt F .i32 :=
  ReadAs.same.apply ((iPl L).view.read (Elt F) I)

theorem bound_zero : grid4.bound 0 = 2 := rfl
theorem bound_one : grid4.bound 1 = 16 := rfl
abbrev cL (L : grid4.Coords) : Fin 2 := Fin.cast bound_zero (L 0)
abbrev jL (L : grid4.Coords) : Fin 16 := Fin.cast bound_one (L 1)
abbrev wL (L : grid4.Coords) : Fin 32 := wid (cL L) (jL L)

theorem trips_eq : k4_t1_loop.trips = 5 := by decide

theorem set_iPl : (iPl L).view.set = iRows (wL L) := by
  have e : Rect.unit (s := S32x25x80) (k4_off1 L) S1x25x80.size (k4_off1_inb L) = iPart (wL L) := by
    unfold iPart Rect.part Rect.block
    congr 1 <;> funext a <;> (try rw [k4_off1_eq]) <;>
      (match a with
       | 0 | 1 | 2 => simp [Shape.partIx, Shape.partSize, wid])
  show (((iM).view.slice (Rect.unit (s := S32x25x80) (k4_off1 L) S1x25x80.size (k4_off1_inb L))).reshape S25x80 squeezes_S1x25x80_S25x80.numel_eq).set
    = ((iM).view.slice (iPart (wL L))).set
  rw [View.set_reshape]
  exact e ▸ rfl

-- A block of whole rows of `z` is the rows from its first on.
theorem mem_rows {off sz : Fin 2 → Nat} {h : ∀ a, off a + sz a ≤ S64000x128.size a} (y : S64000x128.Idx) {o n : Nat}
    (h0 : off 0 = o) (hn : sz 0 = n) (h1 : off 1 = 0) (h2 : sz 1 = 128) :
    y ∈ ((View.whole main_v17_scv).slice (Rect.unit (s := S64000x128) off sz h)).set ↔ o ≤ (y 0).val ∧ (y 0).val < o + n := by
  have : (y 1).val < 128 := (y 1).isLt
  rw [View.set_slice_whole, Rect.mem_set_unit]
  show (∀ a : Fin 2, off a ≤ (y a).val ∧ (y a).val < off a + sz a) ↔ _
  rw [Fin.forall_fin_two, h0, hn, h1, h2]
  omega

theorem mem_zC (t : Fin k4_t1_loop.trips) (r : Fin 5) (y : S64000x128.Idx) :
    y ∈ (zC L t r).view.set ↔ 4000 * (L 1).val + 2000 * (L 0).val + 400 * t.val + 80 * r.val ≤ (y 0).val
      ∧ (y 0).val < 4000 * (L 1).val + 2000 * (L 0).val + 400 * t.val + 80 * r.val + 80 :=
  mem_rows y (by rw [k4_off5_eq]; rfl) (by rfl) (by rw [k4_off5_eq]; rfl) (by rfl)

theorem mem_zRows (w : Fin 32) (y : S64000x128.Idx) : y ∈ zRows w ↔ w.val * 2000 ≤ (y 0).val ∧ (y 0).val < w.val * 2000 + 2000 :=
  mem_rows y (by rfl) (by rfl) (by rfl) (by rfl)

theorem zC_disjoint : ∀ p ∈ (Finset.univ : Finset (Fin k4_t1_loop.trips × Fin 5)), ∀ p' ∈ (Finset.univ : Finset (Fin k4_t1_loop.trips × Fin 5)),
    p ≠ p' → Disjoint (zC L p.1 p.2).view.set (zC L p'.1 p'.2).view.set := by
  intro p _ p' _ hne
  rw [Finset.disjoint_left]
  intro y hy hy'
  rw [mem_zC] at hy hy'
  have := p.2.isLt
  have := p'.2.isLt
  exact hne (Prod.ext (Fin.ext (by omega)) (Fin.ext (by omega)))

-- The twenty-five chunks of eighty rows tile the worker's two thousand.
theorem zC_cover : (Finset.univ : Finset (Fin k4_t1_loop.trips × Fin 5)).biUnion (fun p => (zC L p.1 p.2).view.set) = zRows (wL L) := by
  ext y
  have hw : (wL L).val = 2 * (L 1).val + (L 0).val := rfl
  have h5 := trips_eq
  rw [Finset.mem_biUnion, mem_zRows]
  constructor
  · rintro ⟨p, -, hp⟩
    rw [mem_zC] at hp
    have := p.1.isLt
    have := p.2.isLt
    omega
  · intro hy
    refine ⟨(⟨((y 0).val - 2000 * (wL L).val) / 400, by omega⟩, ⟨((y 0).val - 2000 * (wL L).val) % 400 / 80, by omega⟩), Finset.mem_univ _, ?_⟩
    rw [mem_zC]
    dsimp only
    omega

abbrev semL : List (SemLoc sig) :=
  [.dma gS0, .dma gS1, .dma gS2, .dma gS3, .dma gS4, .dma wS0, .dma wS1, .dma wS2, .dma wS3, .dma wS4, .dma cS]

theorem semL_nodup : semL.Nodup := by decide
theorem semL_scoped : ∀ sm ∈ semL, sm.isScoped .scVector = true := by decide

theorem ownSems0_split :
    (ownSems0 (thrL d L) : sProp 𝕄)
      = iprop(bigSepL (semL.map fun sm => ((thrL d L, sm) : GSem nD τ sig)) (fun g => semVal g 0)
          ∗ bigSep (ownCells (thrL d L) \ (semL.map fun sm => ((thrL d L, sm) : GSem nD τ sig)).toFinset) fun g => semVal g 0) := by
  unfold SparseCore.Cfg.ownSems0
  have hsub : (semL.map fun sm => ((thrL d L, sm) : GSem nD τ sig)).toFinset ⊆ ownCells (thrL d L) := by
    intro g hg
    obtain ⟨sm, hsm, rfl⟩ := List.mem_map.mp (List.mem_toFinset.mp hg)
    exact mem_ownCells.mpr ⟨rfl, semL_scoped sm hsm⟩
  rw [SparseCore.bigSep_sdiff_split' hsub, bigSep_eq_bigSepL _ (List.Nodup.map (fun a b e => (Prod.mk.inj e).2) semL_nodup)]

theorem ownBufs_split :
    (ownBufs (thrL d L) : sProp 𝕄)
      = iprop((∃ f, (thrL d L).loc cc4_scratch0 ↦{fullShare} f) ∗ (∃ f, (thrL d L).loc cc4_scratch1 ↦{fullShare} f)
          ∗ bigSep (((ownRefs (τ := τ) (prL L)).erase ((prL L).devRef cc4_scratch0)).erase ((prL L).devRef cc4_scratch1))
              fun b => iprop(∃ f, ((d, b) : Loc nD τ sig) ↦{fullShare} f)) := by
  unfold SparseCore.Cfg.ownBufs
  refine (SparseCore.bigSep_erase' (SparseCore.Cfg.mem_ownRefs_of_owner (p := prL L) (b := (prL L).devRef cc4_scratch0) rfl)).trans ?_
  rw [SparseCore.bigSep_erase' (Finset.mem_erase.mpr ⟨fun e => absurd (Proc.devRef_injective _ e) (show (cc4_scratch1 : Ref sig .scVector) ≠ cc4_scratch0 by decide),
    SparseCore.Cfg.mem_ownRefs_of_owner (p := prL L) (b := (prL L).devRef cc4_scratch1) rfl⟩)]

abbrev tr (n : Nat) (h : n < k4_t1_loop.trips := by decide) : Fin k4_t1_loop.trips := ⟨n, h⟩
abbrev chunkL : List (Fin k4_t1_loop.trips × Fin 5) :=
  [(tr 0, 0), (tr 0, 1), (tr 0, 2), (tr 0, 3), (tr 0, 4), (tr 1, 0), (tr 1, 1), (tr 1, 2), (tr 1, 3), (tr 1, 4), (tr 2, 0), (tr 2, 1), (tr 2, 2), (tr 2, 3), (tr 2, 4), (tr 3, 0), (tr 3, 1), (tr 3, 2), (tr 3, 3), (tr 3, 4), (tr 4, 0), (tr 4, 1), (tr 4, 2), (tr 4, 3), (tr 4, 4)]

theorem zRows_chunks (f : Buf (Elt F) (zLoc d)) :
    (zLoc d ↦[zRows (wL L)]{fullShare} f : sProp 𝕄)
      = bigSepL chunkL fun p => zLoc d ↦[(zC L p.1 p.2).view.set]{fullShare} f := by
  rw [← zC_cover L, pointsTo_biUnion Finset.univ (ℓ := zLoc d) (fun p : Fin k4_t1_loop.trips × Fin 5 => (zC L p.1 p.2).view.set) (zC_disjoint L),
    bigSep_univ_eq_bigSepL chunkL (by decide) (by decide)]

abbrev sW (g : Buf (Elt F) ((thrL d L).loc cc4_scratch0)) (I : Buf (Elt F) (iLoc d)) :=
  (sI).view.writes (Elt F) g [⟨Rect.whole cc4_scratch0.ty.shape, idxPay d L I⟩]
abbrev sRd (I : Buf (Elt F) (iLoc d)) (off : Fin 2 → Nat) (h : ∀ a, off a + S1x80.size a ≤ S25x80.size a)
    (g : Buf (Elt F) ((thrL d L).loc cc4_scratch0)) :=
  (sRow off h).view.read (Elt F) (sW d L g I)

-- After the index copy a row of the index scratch reads the tile's plane of index words, whatever the scratch held.
theorem sRd_eq (I : Buf (Elt F) (iLoc d)) (off : Fin 2 → Nat) (h : ∀ a, off a + S1x80.size a ≤ S25x80.size a)
    (g : Buf (Elt F) ((thrL d L).loc cc4_scratch0)) (y : S80.Idx) :
    sRd d L I off h g y = I ((iPl L).view.emb ((sRow off h).view.emb y)) := by
  have h1 := View.read_writes_cons_emb (v := (sI).view) (f := g) (Rect.whole cc4_scratch0.ty.shape) (idxPay d L I) [] ((sRow off h).view.emb y)
  rw [Rect.emb_whole_apply] at h1
  show (sRow off h).view.read (Elt F) (sW d L g I) y = _
  rw [View.read_apply, cast_eq]
  refine Eq.trans h1 ?_
  show (iPl L).view.read (Elt F) I _ = _
  rw [View.read_apply, cast_eq]

theorem hin_ok (I : Buf (Elt F) (iLoc d)) (hI : IdxOK d I) (g : Buf (Elt F) ((thrL d L).loc cc4_scratch0)) (off : Fin 2 → Nat)
    (h : ∀ a, off a + S1x80.size a ≤ S25x80.size a) (x : S80.Idx) :
    (((sRow off h).view.read (Elt F) ((sI).view.writes (Elt F) g [⟨Rect.whole cc4_scratch0.ty.shape, idxPay d L I⟩])) x).toNat < 10000 := by
  show (sRd d L I off h g x).toNat < 10000
  rw [sRd_eq]
  exact hI _

-- A squeezed unit slice puts the dropped unit axis back at the slice's offset.
theorem iPl_emb (q : S25x80.Idx) : @Eq S32x25x80.Idx ((iPl L).view.emb q) (ix3 (n0 := 32) (n1 := 25) (n2 := 80) (wL L) (q 0) (q 1)) := by
  funext a
  refine Fin.ext ?_
  show k4_off1 L a + 1 * (Shape.reshapeEquiv (s := S1x25x80) (s' := S25x80) squeezes_S1x25x80_S25x80.numel_eq q a).val = _
  rw [Shape.reshapeEquiv_cons_one (n := 2) (d := ![25, 80]), k4_off1_eq]
  match a with
  | ⟨0, _⟩ => rfl
  | ⟨1, _⟩ | ⟨2, _⟩ => exact (Nat.zero_add _).trans (Nat.one_mul _)

theorem sRow_emb (j : Nat) (hj : j < 25) (h : ∀ a, ![j, 0] a + S1x80.size a ≤ S25x80.size a) (y : S80.Idx) :
    @Eq S25x80.Idx ((sRow ![j, 0] h).view.emb y) (ix2 (n0 := 25) (n1 := 80) ⟨j, hj⟩ (y 0)) := by
  funext a
  refine Fin.ext ?_
  show ![j, 0] a + 1 * (Shape.reshapeEquiv (s := S1x80) (s' := S80) squeezes_S1x80_S80.numel_eq y a).val = _
  rw [Shape.reshapeEquiv_cons_one (n := 1) (d := ![80])]
  match a with
  | ⟨0, _⟩ => rfl
  | ⟨1, _⟩ => exact (Nat.zero_add _).trans (Nat.one_mul _)

variable (X : Buf (Elt F) (xLoc d)) (I : Buf (Elt F) (iLoc d))

abbrev xG : Memref sig .scVector .hbm S10000x128 .f32 :=
  (xM).slice (Rect.unit (s := S10000x128) ![0, 0] S10000x128.size inb_S10000x128_S10000x128_0_0) (fun _ => rfl)

theorem emb_xG (i : S10000x128.Idx) : @Eq S10000x128.Idx ((xG).view.emb i) i := by
  funext a
  refine Fin.ext ?_
  match a with
  | ⟨0, _⟩ | ⟨1, _⟩ => exact (Nat.zero_add _).trans (Nat.one_mul _)

-- Row `80 (25 w + 5 t + r) + x₀` of the gathered array is the row of the table that word `(w, 5 t + r, x₀)` names; the
-- chunk's gather reads that word from row `5 t + r` of the index scratch.
theorem chunk_val (hI : IdxOK d I) (t : Fin k4_t1_loop.trips) (r : Fin 5) (off : Fin 2 → Nat)
    (h : ∀ a, off a + S1x80.size a ≤ S25x80.size a) (hoff : off = ![5 * t.val + r.val, 0])
    (g : Buf (Elt F) ((thrL d L).loc cc4_scratch0)) (hn : S80.numel = S80x128.size gathers_S10000x128_S80x128.axis')
    (hin' : ∀ x, (((sRow off h).view.read (Elt F) ((sI).view.writes (Elt F) g [⟨Rect.whole cc4_scratch0.ty.shape, idxPay d L I⟩])) x).toNat < S10000x128.size gathers_S10000x128_S80x128.axis)
    (x : S80x128.Idx) :
    gath d X I ((zC L t r).view.emb x)
      = SparseCore.gatherPayload gathers_S10000x128_S80x128 ((xG).view.read (Elt F) X) (SparseCore.rows ((sRow off h).view.read (Elt F) ((sI).view.writes (Elt F) g [⟨Rect.whole cc4_scratch0.ty.shape, idxPay d L I⟩])) hn hin') x := by
  show _ = SparseCore.gatherPayload gathers_S10000x128_S80x128 ((xG).view.read (Elt F) X) (SparseCore.rows (sRd d L I off h g) hn hin') x
  have ht : t.val < 5 := lt_of_lt_of_eq t.isLt trips_eq
  have hr := r.isLt
  have hx0 : (x 0).val < 80 := (x 0).isLt
  have hw : (wL L).val = 2 * (L 1).val + (L 0).val := rfl
  have e0 : (((zC L t r).view.emb x : S64000x128.Idx) 0).val = 2000 * (wL L).val + 400 * t.val + 80 * r.val + (x 0).val := by
    show k4_off5 L t (BitVec.ofNat 32 r.val) 0 + 1 * (x 0).val = _
    rw [k4_off5_eq]
    simp only [Matrix.cons_val_zero]
    omega
  obtain ⟨k0, k1, k2⟩ := (fun n hn => by omega : ∀ n, n = 2000 * (wL L).val + 400 * t.val + 80 * r.val + (x 0).val →
    n / 2000 = (wL L).val ∧ n / 80 % 25 = 5 * t.val + r.val ∧ n % 80 = (x 0).val) _ e0
  have e1 : (((zC L t r).view.emb x : S64000x128.Idx) 1).val = (x 1).val := by
    show k4_off5 L t (BitVec.ofNat 32 r.val) 1 + 1 * (x 1).val = _
    rw [k4_off5_eq]
    simp only [Matrix.cons_val_one, Matrix.cons_val_zero]
    omega
  have hk := Shape.rowMajor_val_one (S80.rowMajor.symm ((x gathers_S10000x128_S80x128.axis').cast hn.symm))
  rw [Equiv.apply_symm_apply] at hk
  have hy : (S80.rowMajor.symm ((x gathers_S10000x128_S80x128.axis').cast hn.symm)) 0 = x 0 := Fin.ext hk.symm
  have hrow : (gathers_S10000x128_S80x128.idx (SparseCore.rows (sRd d L I off h g) hn hin') x gathers_S10000x128_S80x128.axis).val
      = (I (ix3 (n0 := 32) (n1 := 25) (n2 := 80) (wL L) ⟨5 * t.val + r.val, by omega⟩ (x 0))).toNat := by
    rw [Shape.Gathers.idx_axis]
    unfold SparseCore.rows
    show BitVec.toNat (sRd d L I off h g (S80.rowMajor.symm ((x gathers_S10000x128_S80x128.axis').cast hn.symm))) = _
    subst hoff
    rw [sRd_eq, sRow_emb (5 * t.val + r.val) (by omega), iPl_emb]
    exact congrArg (fun k : Fin 80 => (I (ix3 (n0 := 32) (n1 := 25) (n2 := 80) (wL L) ⟨5 * t.val + r.val, by omega⟩ k)).toNat) hy
  unfold SparseCore.gatherPayload gath
  rw [View.read_apply, cast_eq]
  refine Eq.trans ?_ (congrArg X (emb_xG _)).symm
  refine congrArg X (?_ : @Eq S10000x128.Idx _ _)
  funext a
  refine Fin.ext ?_
  match a with
  | ⟨0, _⟩ =>
    refine Eq.trans ?_ (hrow.trans (Nat.mod_eq_of_lt (hI _)).symm).symm
    show (I _).toNat % 10000 = _
    refine congrArg (fun q : S32x25x80.Idx => (I q).toNat % 10000) (?_ : @Eq S32x25x80.Idx _ _)
    funext b
    refine Fin.ext ?_
    match b with
    | ⟨0, _⟩ => exact k0
    | ⟨1, _⟩ => exact k1
    | ⟨2, _⟩ => exact k2
  | ⟨1, _⟩ => exact e1.trans (Shape.Gathers.idx_of_ne gathers_S10000x128_S80x128 _ x (1 : Fin 2) (by decide)).symm

end Cert.Proof.KW.Sc2

end
-- ==== Proof.WScPre2.lean ====
import proofs.«212107_g53927609368716_cont_9to1_m_409_29_alg».proof.Proof.WScVal2

noncomputable section

namespace Cert.Proof.KW.Sc2

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Cert.Kernel.Facts]

local notation "𝕄" => MT nD τ sig (HIx 5) (Elt F) ℕ UU ℕ

local notation "sI" => (Memref.whole Cert.Kernel.cc4_scratch0 : Memref Cert.Kernel.sig Kind.scVector Space.vmem Cert.Kernel.S25x80 EltTy.i32)
local notation "sR" => (Memref.whole Cert.Kernel.cc4_scratch1 : Memref Cert.Kernel.sig Kind.scVector Space.vmem Cert.Kernel.S5x80x128 EltTy.f32)
local notation "xM" => (Memref.whole Cert.Kernel.main_arg0_scv : Memref Cert.Kernel.sig Kind.scVector Space.hbm Cert.Kernel.S10000x128 EltTy.f32)
local notation "iM" => (Memref.whole Cert.Kernel.main_v16_scv : Memref Cert.Kernel.sig Kind.scVector Space.hbm Cert.Kernel.S32x25x80 EltTy.i32)
local notation "zM" => (Memref.whole Cert.Kernel.main_v17_scv : Memref Cert.Kernel.sig Kind.scVector Space.hbm Cert.Kernel.S64000x128 EltTy.f32)

variable (d : Dev nD) (L : grid4.Coords)

abbrev T0 : Fin k4_t1_loop.trips := ⟨0, by decide⟩
abbrev T1 : Fin k4_t1_loop.trips := ⟨1, by decide⟩
abbrev T2 : Fin k4_t1_loop.trips := ⟨2, by decide⟩
abbrev T3 : Fin k4_t1_loop.trips := ⟨3, by decide⟩
abbrev T4 : Fin k4_t1_loop.trips := ⟨4, by decide⟩

abbrev XT (qt : PosShare TreeShare) (X : Buf (Elt F) (xLoc d)) : sProp 𝕄 :=
  bigSepL [(0 : Fin 5), 1, 2, 3, 4] fun b => xLoc d ↦{Transfers.shareTok qt 5 b} X

abbrev ZT (f : Buf (Elt F) (zLoc d)) : sProp 𝕄 :=
  bigSepL chunkL fun p => zLoc d ↦[(zC L p.1 p.2).view.set]{fullShare} f

abbrev ST : sProp 𝕄 := bigSepL (semL.map fun sm => ((thrL d L, sm) : GSem nD τ sig)) (fun g => semVal g 0)

theorem slot_read_write_same (off : Fin 3 → Nat) (h : ∀ a, off a + S1x80x128.size a ≤ S5x80x128.size a)
    (G : Buf (Elt F) ((thrL d L).loc cc4_scratch1)) (P : S80x128.Idx → Elt F .f32) :
    (slotM off h).view.read (Elt F) (View.write (Elt F) (slotM off h).view G P Finset.univ) = P := by
  funext x
  rw [View.read_apply, View.write_emb_of_mem _ _ (Finset.mem_univ x), cast_cast, cast_eq]

theorem slot_disjoint (off off' : Fin 3 → Nat) (h : ∀ a, off a + S1x80x128.size a ≤ S5x80x128.size a)
    (h' : ∀ a, off' a + S1x80x128.size a ≤ S5x80x128.size a) (hne : off 0 ≠ off' 0) :
    Disjoint (slotM off h).view.set (slotM off' h').view.set := by
  show Disjoint (((View.whole cc4_scratch1).slice (Rect.unit (s := S5x80x128) off S1x80x128.size h)).reshape S80x128 squeezes_S1x80x128_S80x128.numel_eq).set
    (((View.whole cc4_scratch1).slice (Rect.unit (s := S5x80x128) off' S1x80x128.size h')).reshape S80x128 squeezes_S1x80x128_S80x128.numel_eq).set
  rw [View.set_reshape, View.set_reshape, View.set_slice_whole, View.set_slice_whole]
  refine Rect.unit_disjoint (0 : Fin 3) ?_
  rcases Nat.lt_or_gt_of_ne hne with hlt | hgt
  · left; show off 0 + 1 ≤ off' 0; omega
  · right; show off' 0 + 1 ≤ off 0; omega

theorem slot_read_write_other (off off' : Fin 3 → Nat) (h : ∀ a, off a + S1x80x128.size a ≤ S5x80x128.size a)
    (h' : ∀ a, off' a + S1x80x128.size a ≤ S5x80x128.size a) (hne : off 0 ≠ off' 0)
    (G : Buf (Elt F) ((thrL d L).loc cc4_scratch1)) (P' : S80x128.Idx → Elt F .f32) :
    (slotM off h).view.read (Elt F) (View.write (Elt F) (slotM off' h').view G P' Finset.univ) = (slotM off h).view.read (Elt F) G := by
  funext x
  rw [View.read_apply, View.read_apply, View.write_of_not_mem]
  rw [View.setOn_univ]
  exact Finset.disjoint_left.mp (slot_disjoint off off' h h' hne) (View.emb_mem_set (slotM off h).view x)

theorem z_fin (X : Buf (Elt F) (xLoc d)) (I : Buf (Elt F) (iLoc d)) (t : Fin k4_t1_loop.trips) (r : Fin 5) (fz : Buf (Elt F) (zLoc d))
    (P : S80x128.Idx → Elt F .f32) (hP : ∀ x, gath d X I ((zC L t r).view.emb x) = P x) :
    ((zC L t r).view.loc (thrL d L) ↦[(zC L t r).view.set]{fullShare} (zC L t r).view.writes (Elt F) fz [⟨Rect.whole S80x128, P⟩] : sProp 𝕄)
      = (zLoc d ↦[(zC L t r).view.set]{fullShare} gath d X I) := by
  refine pointsTo_congr fun y hy => ?_
  obtain ⟨x, -, rfl⟩ := Finset.mem_map.mp hy
  have h1 := View.read_writes_cons_emb (v := (zC L t r).view) (f := fz) (Rect.whole S80x128) P [] x
  rw [Rect.emb_whole_apply, View.read_apply] at h1
  exact ((cast_eq _ _).symm.trans h1).trans (hP x).symm

theorem waits_ok {W W' : Waits sig (HIx 5)} (sm : SemLoc sig) (h : ∀ p ∈ W', p ∈ W ∨ p.2 = none) :
    ∀ p ∈ insert (sm, (default : HIx 5)) W', p ∈ W ∨ p.2 = none := by
  intro p hp
  rcases Finset.mem_insert.mp hp with rfl | hp
  · exact .inr rfl
  · exact h p hp
theorem waits_ok₀ {W : Waits sig (HIx 5)} : ∀ p ∈ W, p ∈ W ∨ p.2 = none := fun _ hp => .inl hp

theorem pts_x (q : PosShare TreeShare) (X : Buf (Elt F) (xLoc d)) :
    (xLoc d ↦{q} X : sProp 𝕄) = ((xM).view.loc (thrL d L) ↦[(xM).view.set]{q} X) := by
  simp only [Memref.view_whole, View.set_whole]
theorem pts_s0 (f : Buf (Elt F) ((thrL d L).loc cc4_scratch0)) :
    ((thrL d L).loc cc4_scratch0 ↦{fullShare} f : sProp 𝕄) = ((sI).view.loc (thrL d L) ↦[(sI).view.set]{fullShare} f) := by
  simp only [Memref.view_whole, View.set_whole]
theorem pts_s1 (f : Buf (Elt F) ((thrL d L).loc cc4_scratch1)) :
    ((thrL d L).loc cc4_scratch1 ↦{fullShare} f : sProp 𝕄) = ((sR).view.loc (thrL d L) ↦[(sR).view.set]{fullShare} f) := by
  simp only [Memref.view_whole, View.set_whole]

end Cert.Proof.KW.Sc2

end
-- ==== Proof.WScTile2.lean ====
import proofs.«212107_g53927609368716_cont_9to1_m_409_29_alg».proof.Proof.WScPre2

noncomputable section

namespace Cert.Proof.KW.Sc2

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Cert.Kernel.Facts]

local notation "𝕄" => MT nD τ sig (HIx 5) (Elt F) ℕ UU ℕ

local notation "sI" => (Memref.whole Cert.Kernel.cc4_scratch0 : Memref Cert.Kernel.sig Kind.scVector Space.vmem Cert.Kernel.S25x80 EltTy.i32)
local notation "sR" => (Memref.whole Cert.Kernel.cc4_scratch1 : Memref Cert.Kernel.sig Kind.scVector Space.vmem Cert.Kernel.S5x80x128 EltTy.f32)
local notation "xM" => (Memref.whole Cert.Kernel.main_arg0_scv : Memref Cert.Kernel.sig Kind.scVector Space.hbm Cert.Kernel.S10000x128 EltTy.f32)
local notation "iM" => (Memref.whole Cert.Kernel.main_v16_scv : Memref Cert.Kernel.sig Kind.scVector Space.hbm Cert.Kernel.S32x25x80 EltTy.i32)
local notation "zM" => (Memref.whole Cert.Kernel.main_v17_scv : Memref Cert.Kernel.sig Kind.scVector Space.hbm Cert.Kernel.S64000x128 EltTy.f32)

variable (d : Dev nD) (L : grid4.Coords)

theorem xt_eq (qt : PosShare TreeShare) (X : Buf (Elt F) (xLoc d)) :
    XT d qt X = iprop(((xM).view.loc (thrL d L) ↦[(xM).view.set]{Transfers.shareTok qt 5 0} X) ∗ ((xM).view.loc (thrL d L) ↦[(xM).view.set]{Transfers.shareTok qt 5 1} X) ∗ ((xM).view.loc (thrL d L) ↦[(xM).view.set]{Transfers.shareTok qt 5 2} X) ∗ ((xM).view.loc (thrL d L) ↦[(xM).view.set]{Transfers.shareTok qt 5 3} X) ∗ ((xM).view.loc (thrL d L) ↦[(xM).view.set]{Transfers.shareTok qt 5 4} X)) := by
  simp only [← pts_x d L]; rfl

theorem zt_eq (f : Buf (Elt F) (zLoc d)) :
    ZT d L f = iprop((zLoc d ↦[(zC L T0 0).view.set]{fullShare} f) ∗ (zLoc d ↦[(zC L T0 1).view.set]{fullShare} f) ∗ (zLoc d ↦[(zC L T0 2).view.set]{fullShare} f) ∗ (zLoc d ↦[(zC L T0 3).view.set]{fullShare} f) ∗ (zLoc d ↦[(zC L T0 4).view.set]{fullShare} f) ∗ (zLoc d ↦[(zC L T1 0).view.set]{fullShare} f) ∗ (zLoc d ↦[(zC L T1 1).view.set]{fullShare} f) ∗ (zLoc d ↦[(zC L T1 2).view.set]{fullShare} f) ∗ (zLoc d ↦[(zC L T1 3).view.set]{fullShare} f) ∗ (zLoc d ↦[(zC L T1 4).view.set]{fullShare} f) ∗ (zLoc d ↦[(zC L T2 0).view.set]{fullShare} f) ∗ (zLoc d ↦[(zC L T2 1).view.set]{fullShare} f) ∗ (zLoc d ↦[(zC L T2 2).view.set]{fullShare} f) ∗ (zLoc d ↦[(zC L T2 3).view.set]{fullShare} f) ∗ (zLoc d ↦[(zC L T2 4).view.set]{fullShare} f) ∗ (zLoc d ↦[(zC L T3 0).view.set]{fullShare} f) ∗ (zLoc d ↦[(zC L T3 1).view.set]{fullShare} f) ∗ (zLoc d ↦[(zC L T3 2).view.set]{fullShare} f) ∗ (zLoc d ↦[(zC L T3 3).view.set]{fullShare} f) ∗ (zLoc d ↦[(zC L T3 4).view.set]{fullShare} f) ∗ (zLoc d ↦[(zC L T4 0).view.set]{fullShare} f) ∗ (zLoc d ↦[(zC L T4 1).view.set]{fullShare} f) ∗ (zLoc d ↦[(zC L T4 2).view.set]{fullShare} f) ∗ (zLoc d ↦[(zC L T4 3).view.set]{fullShare} f) ∗ (zLoc d ↦[(zC L T4 4).view.set]{fullShare} f)) := rfl

theorem pts_z (t : Fin k4_t1_loop.trips) (r : Fin 5) (f : Buf (Elt F) (zLoc d)) :
    (zLoc d ↦[(zC L t r).view.set]{fullShare} f : sProp 𝕄) = ((zC L t r).view.loc (thrL d L) ↦[(zC L t r).view.set]{fullShare} f) := rfl

theorem st_eq : (ST d L : sProp 𝕄) = iprop(semVal (thrL d L, SemLoc.dma gS0) 0 ∗ semVal (thrL d L, SemLoc.dma gS1) 0 ∗ semVal (thrL d L, SemLoc.dma gS2) 0 ∗ semVal (thrL d L, SemLoc.dma gS3) 0 ∗ semVal (thrL d L, SemLoc.dma gS4) 0 ∗ semVal (thrL d L, SemLoc.dma wS0) 0 ∗ semVal (thrL d L, SemLoc.dma wS1) 0 ∗ semVal (thrL d L, SemLoc.dma wS2) 0 ∗ semVal (thrL d L, SemLoc.dma wS3) 0 ∗ semVal (thrL d L, SemLoc.dma wS4) 0 ∗ semVal (thrL d L, SemLoc.dma cS) 0) := rfl

set_option maxHeartbeats 16000000 in
theorem tile_run (O : CellTallies nD τ sig (HIx 5)) (W : Waits sig (HIx 5)) (hO : ∀ g, O g none = 0)
    (X : Buf (Elt F) (xLoc d)) (I : Buf (Elt F) (iLoc d)) (hI : IdxOK d I)
    (fs : Buf (Elt F) ((thrL d L).loc cc4_scratch0)) (fr : Buf (Elt F) ((thrL d L).loc cc4_scratch1))
    (fz : Buf (Elt F) (zLoc d)) (qt : PosShare TreeShare) :
    (iprop(levAts (K (F := F)).L (K (F := F)).lev ∗ XT d qt X
        ∗ (iLoc d ↦[(iPl L).view.set]{fullShare} I)
        ∗ ((thrL d L).loc cc4_scratch0 ↦{fullShare} fs) ∗ ((thrL d L).loc cc4_scratch1 ↦{fullShare} fr)
        ∗ ZT d L fz ∗ ST d L ∗ owes (thrL d L) O W) : sProp 𝕄)
      ⊢ wp frame (wpE (defs₀ (F := F)) 𝒱₀ (thrL d L) none) Set.univ
          (cc4_k L xM (Memref.isWhole_whole _) iM (Memref.isWhole_whole _) zM (Memref.isWhole_whole _) sI (Memref.isWhole_whole _) sR (Memref.isWhole_whole _) cc4_scratch2 cc4_scratch3 cc4_scoped0)
          fun _ => iprop(XT d qt X ∗ (iLoc d ↦[(iPl L).view.set]{fullShare} I)
            ∗ (∃ f, (thrL d L).loc cc4_scratch0 ↦{fullShare} f) ∗ (∃ f, (thrL d L).loc cc4_scratch1 ↦{fullShare} f)
            ∗ ZT d L (gath d X I) ∗ ST d L ∗ ∃ W', ⌜∀ p ∈ W', p ∈ W ∨ p.2 = none⌝ ∗ owes (thrL d L) O W') := by
  have hin := hin_ok d L I hI
  simp only [cc4_k_eq_skeleton]; unfold cc4_k_skel
  iintro ⟨#Hlv, HX, Hi, Hs, Hr, HZ, HS, HO⟩
  ihave Hmw := ((K (F := F)).mayWaits_none (thr := thrL d L) hO) $$ Hlv
  ihave ⟨Hz00, Hz01, Hz02, Hz03, Hz04, Hz10, Hz11, Hz12, Hz13, Hz14, Hz20, Hz21, Hz22, Hz23, Hz24, Hz30, Hz31, Hz32, Hz33, Hz34, Hz40, Hz41, Hz42, Hz43, Hz44⟩ := (Entails.of_eq (zt_eq d L fz)) $$ HZ
  ihave ⟨Hg0, Hg1, Hg2, Hg3, Hg4, Hw0, Hw1, Hw2, Hw3, Hw4, Hc⟩ := (Entails.of_eq (st_eq d L)) $$ HS
  ihave ⟨Hx0, Hx1, Hx2, Hx3, Hx4⟩ := (Entails.of_eq (xt_eq d L qt X)) $$ HX
  ihave Hi := (Entails.of_eq (show (iLoc d ↦[(iPl L).view.set]{fullShare} I : sProp 𝕄) = ((iPl L).view.loc (thrL d L) ↦[(iPl L).view.set]{fullShare} I) from rfl)) $$ Hi
  ihave Hs := (Entails.of_eq (pts_s0 d L fs)) $$ Hs
  ihave Hr := (Entails.of_eq (pts_s1 d L fr)) $$ Hr
  ihave Hz00 := (Entails.of_eq (pts_z d L T0 0 fz)) $$ Hz00
  ihave Hz01 := (Entails.of_eq (pts_z d L T0 1 fz)) $$ Hz01
  ihave Hz02 := (Entails.of_eq (pts_z d L T0 2 fz)) $$ Hz02
  ihave Hz03 := (Entails.of_eq (pts_z d L T0 3 fz)) $$ Hz03
  ihave Hz04 := (Entails.of_eq (pts_z d L T0 4 fz)) $$ Hz04
  ihave Hz10 := (Entails.of_eq (pts_z d L T1 0 fz)) $$ Hz10
  ihave Hz11 := (Entails.of_eq (pts_z d L T1 1 fz)) $$ Hz11
  ihave Hz12 := (Entails.of_eq (pts_z d L T1 2 fz)) $$ Hz12
  ihave Hz13 := (Entails.of_eq (pts_z d L T1 3 fz)) $$ Hz13
  ihave Hz14 := (Entails.of_eq (pts_z d L T1 4 fz)) $$ Hz14
  ihave Hz20 := (Entails.of_eq (pts_z d L T2 0 fz)) $$ Hz20
  ihave Hz21 := (Entails.of_eq (pts_z d L T2 1 fz)) $$ Hz21
  ihave Hz22 := (Entails.of_eq (pts_z d L T2 2 fz)) $$ Hz22
  ihave Hz23 := (Entails.of_eq (pts_z d L T2 3 fz)) $$ Hz23
  ihave Hz24 := (Entails.of_eq (pts_z d L T2 4 fz)) $$ Hz24
  ihave Hz30 := (Entails.of_eq (pts_z d L T3 0 fz)) $$ Hz30
  ihave Hz31 := (Entails.of_eq (pts_z d L T3 1 fz)) $$ Hz31
  ihave Hz32 := (Entails.of_eq (pts_z d L T3 2 fz)) $$ Hz32
  ihave Hz33 := (Entails.of_eq (pts_z d L T3 3 fz)) $$ Hz33
  ihave Hz34 := (Entails.of_eq (pts_z d L T3 4 fz)) $$ Hz34
  ihave Hz40 := (Entails.of_eq (pts_z d L T4 0 fz)) $$ Hz40
  ihave Hz41 := (Entails.of_eq (pts_z d L T4 1 fz)) $$ Hz41
  ihave Hz42 := (Entails.of_eq (pts_z d L T4 2 fz)) $$ Hz42
  ihave Hz43 := (Entails.of_eq (pts_z d L T4 3 fz)) $$ Hz43
  ihave Hz44 := (Entails.of_eq (pts_z d L T4 4 fz)) $$ Hz44
  sl_exec
  sl_unroll
  sl_exec
  sl_step
  isplitl [Hx0 Hx1 Hx2 Hx3 Hx4]
  · iapply (Entails.of_eq (xt_eq d L qt X).symm)
    isplitl [Hx0]; · iexact Hx0
    isplitl [Hx1]; · iexact Hx1
    isplitl [Hx2]; · iexact Hx2
    isplitl [Hx3]; · iexact Hx3
    iexact Hx4
  isplitl [Hi]; · iexact Hi
  isplitl [Hs]; · iexists _; iapply (Entails.of_eq (pts_s0 d L _).symm); iexact Hs
  isplitl [Hr]; · iexists _; iapply (Entails.of_eq (pts_s1 d L _).symm); iexact Hr
  isplitr [Hg0 Hg1 Hg2 Hg3 Hg4 Hw0 Hw1 Hw2 Hw3 Hw4 Hc HO]
  · iapply (Entails.of_eq (zt_eq d L (gath d X I)).symm)
    have zf := fun t r P hP => Entails.of_eq (z_fin d L X I t r fz P hP)
    isplitl [Hz00]; iapply (zf T0 0 _ ?_); rotate_left; iexact Hz00
    isplitl [Hz01]; iapply (zf T0 1 _ ?_); rotate_left; iexact Hz01
    isplitl [Hz02]; iapply (zf T0 2 _ ?_); rotate_left; iexact Hz02
    isplitl [Hz03]; iapply (zf T0 3 _ ?_); rotate_left; iexact Hz03
    isplitl [Hz04]; iapply (zf T0 4 _ ?_); rotate_left; iexact Hz04
    isplitl [Hz10]; iapply (zf T1 0 _ ?_); rotate_left; iexact Hz10
    isplitl [Hz11]; iapply (zf T1 1 _ ?_); rotate_left; iexact Hz11
    isplitl [Hz12]; iapply (zf T1 2 _ ?_); rotate_left; iexact Hz12
    isplitl [Hz13]; iapply (zf T1 3 _ ?_); rotate_left; iexact Hz13
    isplitl [Hz14]; iapply (zf T1 4 _ ?_); rotate_left; iexact Hz14
    isplitl [Hz20]; iapply (zf T2 0 _ ?_); rotate_left; iexact Hz20
    isplitl [Hz21]; iapply (zf T2 1 _ ?_); rotate_left; iexact Hz21
    isplitl [Hz22]; iapply (zf T2 2 _ ?_); rotate_left; iexact Hz22
    isplitl [Hz23]; iapply (zf T2 3 _ ?_); rotate_left; iexact Hz23
    isplitl [Hz24]; iapply (zf T2 4 _ ?_); rotate_left; iexact Hz24
    isplitl [Hz30]; iapply (zf T3 0 _ ?_); rotate_left; iexact Hz30
    isplitl [Hz31]; iapply (zf T3 1 _ ?_); rotate_left; iexact Hz31
    isplitl [Hz32]; iapply (zf T3 2 _ ?_); rotate_left; iexact Hz32
    isplitl [Hz33]; iapply (zf T3 3 _ ?_); rotate_left; iexact Hz33
    isplitl [Hz34]; iapply (zf T3 4 _ ?_); rotate_left; iexact Hz34
    isplitl [Hz40]; iapply (zf T4 0 _ ?_); rotate_left; iexact Hz40
    isplitl [Hz41]; iapply (zf T4 1 _ ?_); rotate_left; iexact Hz41
    isplitl [Hz42]; iapply (zf T4 2 _ ?_); rotate_left; iexact Hz42
    isplitl [Hz43]; iapply (zf T4 3 _ ?_); rotate_left; iexact Hz43
    iapply (zf T4 4 _ ?_); rotate_left; iexact Hz44
    all_goals
      intro x
      show _ = View.read (Elt F) (slotM _ _).view _ x
      repeat (first | rw [slot_read_write_same d L] | (rw [slot_read_write_other d L]; on_goal 2 => decide))
      exact chunk_val d L X I hI _ _ _ _ (by first | rfl | (rw [k4_off3_eq]; rfl) | (rw [k4_off7_eq]; rfl) | (rw [k4_off9_eq]; rfl) | (rw [k4_off11_eq]; rfl) | (rw [k4_off13_eq]; rfl) | decide) _ _ _ x
  isplitr [HO]
  · iapply (Entails.of_eq (st_eq d L).symm)
    isplitl [Hg0]; · iexact Hg0
    isplitl [Hg1]; · iexact Hg1
    isplitl [Hg2]; · iexact Hg2
    isplitl [Hg3]; · iexact Hg3
    isplitl [Hg4]; · iexact Hg4
    isplitl [Hw0]; · iexact Hw0
    isplitl [Hw1]; · iexact Hw1
    isplitl [Hw2]; · iexact Hw2
    isplitl [Hw3]; · iexact Hw3
    isplitl [Hw4]; · iexact Hw4
    iexact Hc
  iexists _
  isplitr
  on_goal 2 => iexact HO
  ipureintro
  repeat (first | exact waits_ok₀ | refine waits_ok _ ?_)

end Cert.Proof.KW.Sc2

end
-- ==== Proof.WScBody2.lean ====
import proofs.«212107_g53927609368716_cont_9to1_m_409_29_alg».proof.Proof.WScTile2

noncomputable section

namespace Cert.Proof.KW.Sc2

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Cert.Kernel.Facts]

local notation "𝕄" => MT nD τ sig (HIx 5) (Elt F) ℕ UU ℕ

variable (d : Dev nD) (L : grid4.Coords)

-- The tile's run with the rest framed off: its share of the table as five tokens, its rows of the result by chunks.
theorem tile_body (hF : (K (F := F)).Facts) (q : PosShare TreeShare)
    (X : Buf (Elt F) (xLoc d)) (I : Buf (Elt F) (iLoc d)) (hI : IdxOK d I)
    (O : CellTallies nD τ sig (HIx 5)) (W : Waits sig (HIx 5)) (hO : ∀ g, O g none = 0) :
    iprop(levAts (K (F := F)).L (K (F := F)).lev ∗ go d q X I (cL L) (jL L)
        ∗ scopedBufs (thrL d L) ∗ scopedSems0 (thrL d L) ∗ owes (thrL d L) O W)
      ⊢ wp frame (wpE (defs₀ (F := F)) 𝒱₀ (thrL d L) none) Set.univ
          (cc4_k L (Memref.whole main_arg0_scv) (Memref.isWhole_whole _) (Memref.whole main_v16_scv) (Memref.isWhole_whole _) (Memref.whole main_v17_scv) (Memref.isWhole_whole _)
            (Memref.whole cc4_scratch0) (Memref.isWhole_whole _) (Memref.whole cc4_scratch1) (Memref.isWhole_whole _) cc4_scratch2 cc4_scratch3 cc4_scoped0)
          fun _ => iprop(td d q X I (cL L) (jL L) ∗ scopedBufs (thrL d L) ∗ scopedSems0 (thrL d L)
            ∗ ∃ W', ⌜∀ p ∈ W', p ∈ W ∨ p.2 = none⌝ ∗ owes (thrL d L) O W') := by
  unfold go td
  have h : (xLoc d ↦{qTile q (cL L) (jL L)} X : sProp 𝕄) ⊣⊢ _ := Transfers.pointsTo_toks _ 5
  rw [(K (F := F)).scopedBufs_V hF d _ _, SparseCore.Cfg.scopedSems0_V (Val := Elt F) d _ _, ownSems0_split, ownBufs_split,
    ← set_iPl L, zRows_chunks d L (gath d X I), BI.Entails.antisymm h.1 h.2,
    bigSep_univ_eq_bigSepL [(0 : Fin 5), 1, 2, 3, 4] (by decide) (by decide)]
  iintro ⟨#Hlv, ⟨⟨Hxd, Hxt⟩, Hi, %fz, Hz⟩, ⟨⟨%fs, Hs⟩, ⟨%fr, Hr⟩, Hbufs⟩, ⟨Hsems, Hsrest⟩, HO⟩
  ihave Hz := (Entails.of_eq (zRows_chunks d L fz)) $$ Hz
  iapply (wp_wand_r frame _ _)
  isplitl [Hxt Hi Hs Hr Hz Hsems HO]
  · iapply (tile_run d L O W hO X I hI fs fr fz (qTile q (cL L) (jL L)))
    isplitr; · iexact Hlv
    isplitl [Hxt]; · iexact Hxt
    isplitl [Hi]; · iexact Hi
    isplitl [Hs]; · iexact Hs
    isplitl [Hr]; · iexact Hr
    isplitl [Hz]; · iexact Hz
    isplitl [Hsems]; · iexact Hsems
    iexact HO
  iintro %_ ⟨Hxt, Hi, Hs, Hr, Hz, Hsems, HO⟩
  isplitl [Hxd Hxt Hi Hz]
  · isplitl [Hxd Hxt]
    · isplitl [Hxd]; · iexact Hxd
      iexact Hxt
    isplitl [Hi]; · iexact Hi
    iexact Hz
  isplitl [Hs Hr Hbufs]
  · isplitl [Hs]; · iexact Hs
    isplitl [Hr]; · iexact Hr
    iexact Hbufs
  isplitl [Hsems Hsrest]
  · isplitl [Hsems]; · iexact Hsems
    iexact Hsrest
  iexact HO

end Cert.Proof.KW.Sc2

end
-- ==== Proof.WScVal3.lean ====
import proofs.«212107_g53927609368716_cont_9to1_m_409_29_alg».proof.Proof.WScCall3Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«212107_g53927609368716_cont_9to1_m_409_29_alg».proof.Proof.Gen.Kernel.Skeleton

noncomputable section

namespace Cert.Proof.KW.Sc3

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Cert.Kernel.Facts]

local notation "𝕄" => MT nD τ sig (HIx 5) (Elt F) ℕ UU ℕ

abbrev callIx : Fin 5 := 3
abbrev labIx : Fin 10 := 6

local notation "sI" => (Memref.whole Cert.Kernel.cc6_scratch0 : Memref Cert.Kernel.sig Kind.scVector Space.vmem Cert.Kernel.S25x80 EltTy.i32)
local notation "sR" => (Memref.whole Cert.Kernel.cc6_scratch1 : Memref Cert.Kernel.sig Kind.scVector Space.vmem Cert.Kernel.S5x80x128 EltTy.f32)
local notation "xM" => (Memref.whole Cert.Kernel.main_arg0_scv : Memref Cert.Kernel.sig Kind.scVector Space.hbm Cert.Kernel.S10000x128 EltTy.f32)
local notation "iM" => (Memref.whole Cert.Kernel.main_v21_scv : Memref Cert.Kernel.sig Kind.scVector Space.hbm Cert.Kernel.S32x25x80 EltTy.i32)
local notation "zM" => (Memref.whole Cert.Kernel.main_v22_scv : Memref Cert.Kernel.sig Kind.scVector Space.hbm Cert.Kernel.S64000x128 EltTy.f32)

variable (d : Dev nD) (L : grid6.Coords)

abbrev prL (L : grid6.Coords) : Proc τ := .scVector ((L 0).castLE hcore6) ((L 1).castLE hsub6)
abbrev thrL (L : grid6.Coords) : Thread nD τ := V d ((L 0).castLE hcore6) ((L 1).castLE hsub6)

abbrev iPl (L : grid6.Coords) : Memref sig .scVector .hbm S25x80 .i32 :=
  ((iM).slice (Rect.unit (s := S32x25x80) (k6_off1 L) S1x25x80.size (k6_off1_inb L)) (fun _ => rfl)).squeeze S25x80 squeezes_S1x25x80_S25x80
abbrev sRow (off : Fin 2 → Nat) (h : ∀ a, off a + S1x80.size a ≤ S25x80.size a) : Memref sig .scVector .vmem S80 .i32 :=
  ((sI).slice (Rect.unit (s := S25x80) off S1x80.size h) (fun _ => rfl)).squeeze S80 squeezes_S1x80_S80
abbrev slotM (off : Fin 3 → Nat) (h : ∀ a, off a + S1x80x128.size a ≤ S5x80x128.size a) : Memref sig .scVector .vmem S80x128 .f32 :=
  ((sR).slice (Rect.unit (s := S5x80x128) off S1x80x128.size h) (fun _ => rfl)).squeeze S80x128 squeezes_S1x80x128_S80x128

abbrev semAt (A : DmaSems sig S5) (o : Fin 1 → Nat) (h : ∀ a, o a + S1.size a ≤ S5.size a) : DmaSem sig :=
  SemArray.sem (SemArray.squeeze (SemArray.slice A (Rect.unit (s := S5) o S1.size h)) S_ squeezes_S1_S_)
abbrev gS0 : DmaSem sig := semAt cc6_scratch2 ![0] inb_S5_S1_0
abbrev gS1 : DmaSem sig := semAt cc6_scratch2 ![1] inb_S5_S1_1
abbrev gS2 : DmaSem sig := semAt cc6_scratch2 ![2] inb_S5_S1_2
abbrev gS3 : DmaSem sig := semAt cc6_scratch2 ![3] inb_S5_S1_3
abbrev gS4 : DmaSem sig := semAt cc6_scratch2 ![4] inb_S5_S1_4
abbrev wS0 : DmaSem sig := semAt cc6_scratch3 ![0] inb_S5_S1_0
abbrev wS1 : DmaSem sig := semAt cc6_scratch3 ![1] inb_S5_S1_1
abbrev wS2 : DmaSem sig := semAt cc6_scratch3 ![2] inb_S5_S1_2
abbrev wS3 : DmaSem sig := semAt cc6_scratch3 ![3] inb_S5_S1_3
abbrev wS4 : DmaSem sig := semAt cc6_scratch3 ![4] inb_S5_S1_4
abbrev cS : DmaSem sig := SemArray.sem cc6_scoped0

abbrev zC (L : grid6.Coords) (t : Fin k6_t1_loop.trips) (r : Fin 5) : Memref sig .scVector .hbm S80x128 .f32 :=
  (zM).slice (Rect.unit (s := S64000x128) (k6_off5 L t (BitVec.ofNat 32 r.val)) S80x128.size (k6_off5_inb L t r)) (fun _ => rfl)

abbrev idxPay (L : grid6.Coords) (I : Buf (Elt F) (iLoc d)) : S25x80.Idx → Elt F .i32 :=
  ReadAs.same.apply ((iPl L).view.read (Elt F) I)

theorem bound_zero : grid6.bound 0 = 2 := rfl
theorem bound_one : grid6.bound 1 = 16 := rfl
abbrev cL (L : grid6.Coords) : Fin 2 := Fin.cast bound_zero (L 0)
abbrev jL (L : grid6.Coords) : Fin 16 := Fin.cast bound_one (L 1)
abbrev wL (L : grid6.Coords) : Fin 32 := wid (cL L) (jL L)

theorem trips_eq : k6_t1_loop.trips = 5 := by decide

theorem set_iPl : (iPl L).view.set = iRows (wL L) := by
  have e : Rect.unit (s := S32x25x80) (k6_off1 L) S1x25x80.size (k6_off1_inb L) = iPart (wL L) := by
    unfold iPart Rect.part Rect.block
    congr 1 <;> funext a <;> (try rw [k6_off1_eq]) <;>
      (match a with
       | 0 | 1 | 2 => simp [Shape.partIx, Shape.partSize, wid])
  show (((iM).view.slice (Rect.unit (s := S32x25x80) (k6_off1 L) S1x25x80.size (k6_off1_inb L))).reshape S25x80 squeezes_S1x25x80_S25x80.numel_eq).set
    = ((iM).view.slice (iPart (wL L))).set
  rw [View.set_reshape]
  exact e ▸ rfl

-- A block of whole rows of `z` is the rows from its first on.
theorem mem_rows {off sz : Fin 2 → Nat} {h : ∀ a, off a + sz a ≤ S64000x128.size a} (y : S64000x128.Idx) {o n : Nat}
    (h0 : off 0 = o) (hn : sz 0 = n) (h1 : off 1 = 0) (h2 : sz 1 = 128) :
    y ∈ ((View.whole main_v22_scv).slice (Rect.unit (s := S64000x128) off sz h)).set ↔ o ≤ (y 0).val ∧ (y 0).val < o + n := by
  have : (y 1).val < 128 := (y 1).isLt
  rw [View.set_slice_whole, Rect.mem_set_unit]
  show (∀ a : Fin 2, off a ≤ (y a).val ∧ (y a).val < off a + sz a) ↔ _
  rw [Fin.forall_fin_two, h0, hn, h1, h2]
  omega

theorem mem_zC (t : Fin k6_t1_loop.trips) (r : Fin 5) (y : S64000x128.Idx) :
    y ∈ (zC L t r).view.set ↔ 4000 * (L 1).val + 2000 * (L 0).val + 400 * t.val + 80 * r.val ≤ (y 0).val
      ∧ (y 0).val < 4000 * (L 1).val + 2000 * (L 0).val + 400 * t.val + 80 * r.val + 80 :=
  mem_rows y (by rw [k6_off5_eq]; rfl) (by rfl) (by rw [k6_off5_eq]; rfl) (by rfl)

theorem mem_zRows (w : Fin 32) (y : S64000x128.Idx) : y ∈ zRows w ↔ w.val * 2000 ≤ (y 0).val ∧ (y 0).val < w.val * 2000 + 2000 :=
  mem_rows y (by rfl) (by rfl) (by rfl) (by rfl)

theorem zC_disjoint : ∀ p ∈ (Finset.univ : Finset (Fin k6_t1_loop.trips × Fin 5)), ∀ p' ∈ (Finset.univ : Finset (Fin k6_t1_loop.trips × Fin 5)),
    p ≠ p' → Disjoint (zC L p.1 p.2).view.set (zC L p'.1 p'.2).view.set := by
  intro p _ p' _ hne
  rw [Finset.disjoint_left]
  intro y hy hy'
  rw [mem_zC] at hy hy'
  have := p.2.isLt
  have := p'.2.isLt
  exact hne (Prod.ext (Fin.ext (by omega)) (Fin.ext (by omega)))

-- The twenty-five chunks of eighty rows tile the worker's two thousand.
theorem zC_cover : (Finset.univ : Finset (Fin k6_t1_loop.trips × Fin 5)).biUnion (fun p => (zC L p.1 p.2).view.set) = zRows (wL L) := by
  ext y
  have hw : (wL L).val = 2 * (L 1).val + (L 0).val := rfl
  have h5 := trips_eq
  rw [Finset.mem_biUnion, mem_zRows]
  constructor
  · rintro ⟨p, -, hp⟩
    rw [mem_zC] at hp
    have := p.1.isLt
    have := p.2.isLt
    omega
  · intro hy
    refine ⟨(⟨((y 0).val - 2000 * (wL L).val) / 400, by omega⟩, ⟨((y 0).val - 2000 * (wL L).val) % 400 / 80, by omega⟩), Finset.mem_univ _, ?_⟩
    rw [mem_zC]
    dsimp only
    omega

abbrev semL : List (SemLoc sig) :=
  [.dma gS0, .dma gS1, .dma gS2, .dma gS3, .dma gS4, .dma wS0, .dma wS1, .dma wS2, .dma wS3, .dma wS4, .dma cS]

theorem semL_nodup : semL.Nodup := by decide
theorem semL_scoped : ∀ sm ∈ semL, sm.isScoped .scVector = true := by decide

theorem ownSems0_split :
    (ownSems0 (thrL d L) : sProp 𝕄)
      = iprop(bigSepL (semL.map fun sm => ((thrL d L, sm) : GSem nD τ sig)) (fun g => semVal g 0)
          ∗ bigSep (ownCells (thrL d L) \ (semL.map fun sm => ((thrL d L, sm) : GSem nD τ sig)).toFinset) fun g => semVal g 0) := by
  unfold SparseCore.Cfg.ownSems0
  have hsub : (semL.map fun sm => ((thrL d L, sm) : GSem nD τ sig)).toFinset ⊆ ownCells (thrL d L) := by
    intro g hg
    obtain ⟨sm, hsm, rfl⟩ := List.mem_map.mp (List.mem_toFinset.mp hg)
    exact mem_ownCells.mpr ⟨rfl, semL_scoped sm hsm⟩
  rw [SparseCore.bigSep_sdiff_split' hsub, bigSep_eq_bigSepL _ (List.Nodup.map (fun a b e => (Prod.mk.inj e).2) semL_nodup)]

theorem ownBufs_split :
    (ownBufs (thrL d L) : sProp 𝕄)
      = iprop((∃ f, (thrL d L).loc cc6_scratch0 ↦{fullShare} f) ∗ (∃ f, (thrL d L).loc cc6_scratch1 ↦{fullShare} f)
          ∗ bigSep (((ownRefs (τ := τ) (prL L)).erase ((prL L).devRef cc6_scratch0)).erase ((prL L).devRef cc6_scratch1))
              fun b => iprop(∃ f, ((d, b) : Loc nD τ sig) ↦{fullShare} f)) := by
  unfold SparseCore.Cfg.ownBufs
  refine (SparseCore.bigSep_erase' (SparseCore.Cfg.mem_ownRefs_of_owner (p := prL L) (b := (prL L).devRef cc6_scratch0) rfl)).trans ?_
  rw [SparseCore.bigSep_erase' (Finset.mem_erase.mpr ⟨fun e => absurd (Proc.devRef_injective _ e) (show (cc6_scratch1 : Ref sig .scVector) ≠ cc6_scratch0 by decide),
    SparseCore.Cfg.mem_ownRefs_of_owner (p := prL L) (b := (prL L).devRef cc6_scratch1) rfl⟩)]

abbrev tr (n : Nat) (h : n < k6_t1_loop.trips := by decide) : Fin k6_t1_loop.trips := ⟨n, h⟩
abbrev chunkL : List (Fin k6_t1_loop.trips × Fin 5) :=
  [(tr 0, 0), (tr 0, 1), (tr 0, 2), (tr 0, 3), (tr 0, 4), (tr 1, 0), (tr 1, 1), (tr 1, 2), (tr 1, 3), (tr 1, 4), (tr 2, 0), (tr 2, 1), (tr 2, 2), (tr 2, 3), (tr 2, 4), (tr 3, 0), (tr 3, 1), (tr 3, 2), (tr 3, 3), (tr 3, 4), (tr 4, 0), (tr 4, 1), (tr 4, 2), (tr 4, 3), (tr 4, 4)]

theorem zRows_chunks (f : Buf (Elt F) (zLoc d)) :
    (zLoc d ↦[zRows (wL L)]{fullShare} f : sProp 𝕄)
      = bigSepL chunkL fun p => zLoc d ↦[(zC L p.1 p.2).view.set]{fullShare} f := by
  rw [← zC_cover L, pointsTo_biUnion Finset.univ (ℓ := zLoc d) (fun p : Fin k6_t1_loop.trips × Fin 5 => (zC L p.1 p.2).view.set) (zC_disjoint L),
    bigSep_univ_eq_bigSepL chunkL (by decide) (by decide)]

abbrev sW (g : Buf (Elt F) ((thrL d L).loc cc6_scratch0)) (I : Buf (Elt F) (iLoc d)) :=
  (sI).view.writes (Elt F) g [⟨Rect.whole cc6_scratch0.ty.shape, idxPay d L I⟩]
abbrev sRd (I : Buf (Elt F) (iLoc d)) (off : Fin 2 → Nat) (h : ∀ a, off a + S1x80.size a ≤ S25x80.size a)
    (g : Buf (Elt F) ((thrL d L).loc cc6_scratch0)) :=
  (sRow off h).view.read (Elt F) (sW d L g I)

-- After the index copy a row of the index scratch reads the tile's plane of index words, whatever the scratch held.
theorem sRd_eq (I : Buf (Elt F) (iLoc d)) (off : Fin 2 → Nat) (h : ∀ a, off a + S1x80.size a ≤ S25x80.size a)
    (g : Buf (Elt F) ((thrL d L).loc cc6_scratch0)) (y : S80.Idx) :
    sRd d L I off h g y = I ((iPl L).view.emb ((sRow off h).view.emb y)) := by
  have h1 := View.read_writes_cons_emb (v := (sI).view) (f := g) (Rect.whole cc6_scratch0.ty.shape) (idxPay d L I) [] ((sRow off h).view.emb y)
  rw [Rect.emb_whole_apply] at h1
  show (sRow off h).view.read (Elt F) (sW d L g I) y = _
  rw [View.read_apply, cast_eq]
  refine Eq.trans h1 ?_
  show (iPl L).view.read (Elt F) I _ = _
  rw [View.read_apply, cast_eq]

theorem hin_ok (I : Buf (Elt F) (iLoc d)) (hI : IdxOK d I) (g : Buf (Elt F) ((thrL d L).loc cc6_scratch0)) (off : Fin 2 → Nat)
    (h : ∀ a, off a + S1x80.size a ≤ S25x80.size a) (x : S80.Idx) :
    (((sRow off h).view.read (Elt F) ((sI).view.writes (Elt F) g [⟨Rect.whole cc6_scratch0.ty.shape, idxPay d L I⟩])) x).toNat < 10000 := by
  show (sRd d L I off h g x).toNat < 10000
  rw [sRd_eq]
  exact hI _

-- A squeezed unit slice puts the dropped unit axis back at the slice's offset.
theorem iPl_emb (q : S25x80.Idx) : @Eq S32x25x80.Idx ((iPl L).view.emb q) (ix3 (n0 := 32) (n1 := 25) (n2 := 80) (wL L) (q 0) (q 1)) := by
  funext a
  refine Fin.ext ?_
  show k6_off1 L a + 1 * (Shape.reshapeEquiv (s := S1x25x80) (s' := S25x80) squeezes_S1x25x80_S25x80.numel_eq q a).val = _
  rw [Shape.reshapeEquiv_cons_one (n := 2) (d := ![25, 80]), k6_off1_eq]
  match a with
  | ⟨0, _⟩ => rfl
  | ⟨1, _⟩ | ⟨2, _⟩ => exact (Nat.zero_add _).trans (Nat.one_mul _)

theorem sRow_emb (j : Nat) (hj : j < 25) (h : ∀ a, ![j, 0] a + S1x80.size a ≤ S25x80.size a) (y : S80.Idx) :
    @Eq S25x80.Idx ((sRow ![j, 0] h).view.emb y) (ix2 (n0 := 25) (n1 := 80) ⟨j, hj⟩ (y 0)) := by
  funext a
  refine Fin.ext ?_
  show ![j, 0] a + 1 * (Shape.reshapeEquiv (s := S1x80) (s' := S80) squeezes_S1x80_S80.numel_eq y a).val = _
  rw [Shape.reshapeEquiv_cons_one (n := 1) (d := ![80])]
  match a with
  | ⟨0, _⟩ => rfl
  | ⟨1, _⟩ => exact (Nat.zero_add _).trans (Nat.one_mul _)

variable (X : Buf (Elt F) (xLoc d)) (I : Buf (Elt F) (iLoc d))

abbrev xG : Memref sig .scVector .hbm S10000x128 .f32 :=
  (xM).slice (Rect.unit (s := S10000x128) ![0, 0] S10000x128.size inb_S10000x128_S10000x128_0_0) (fun _ => rfl)

theorem emb_xG (i : S10000x128.Idx) : @Eq S10000x128.Idx ((xG).view.emb i) i := by
  funext a
  refine Fin.ext ?_
  match a with
  | ⟨0, _⟩ | ⟨1, _⟩ => exact (Nat.zero_add _).trans (Nat.one_mul _)

-- Row `80 (25 w + 5 t + r) + x₀` of the gathered array is the row of the table that word `(w, 5 t + r, x₀)` names; the
-- chunk's gather reads that word from row `5 t + r` of the index scratch.
theorem chunk_val (hI : IdxOK d I) (t : Fin k6_t1_loop.trips) (r : Fin 5) (off : Fin 2 → Nat)
    (h : ∀ a, off a + S1x80.size a ≤ S25x80.size a) (hoff : off = ![5 * t.val + r.val, 0])
    (g : Buf (Elt F) ((thrL d L).loc cc6_scratch0)) (hn : S80.numel = S80x128.size gathers_S10000x128_S80x128.axis')
    (hin' : ∀ x, (((sRow off h).view.read (Elt F) ((sI).view.writes (Elt F) g [⟨Rect.whole cc6_scratch0.ty.shape, idxPay d L I⟩])) x).toNat < S10000x128.size gathers_S10000x128_S80x128.axis)
    (x : S80x128.Idx) :
    gath d X I ((zC L t r).view.emb x)
      = SparseCore.gatherPayload gathers_S10000x128_S80x128 ((xG).view.read (Elt F) X) (SparseCore.rows ((sRow off h).view.read (Elt F) ((sI).view.writes (Elt F) g [⟨Rect.whole cc6_scratch0.ty.shape, idxPay d L I⟩])) hn hin') x := by
  show _ = SparseCore.gatherPayload gathers_S10000x128_S80x128 ((xG).view.read (Elt F) X) (SparseCore.rows (sRd d L I off h g) hn hin') x
  have ht : t.val < 5 := lt_of_lt_of_eq t.isLt trips_eq
  have hr := r.isLt
  have hx0 : (x 0).val < 80 := (x 0).isLt
  have hw : (wL L).val = 2 * (L 1).val + (L 0).val := rfl
  have e0 : (((zC L t r).view.emb x : S64000x128.Idx) 0).val = 2000 * (wL L).val + 400 * t.val + 80 * r.val + (x 0).val := by
    show k6_off5 L t (BitVec.ofNat 32 r.val) 0 + 1 * (x 0).val = _
    rw [k6_off5_eq]
    simp only [Matrix.cons_val_zero]
    omega
  obtain ⟨k0, k1, k2⟩ := (fun n hn => by omega : ∀ n, n = 2000 * (wL L).val + 400 * t.val + 80 * r.val + (x 0).val →
    n / 2000 = (wL L).val ∧ n / 80 % 25 = 5 * t.val + r.val ∧ n % 80 = (x 0).val) _ e0
  have e1 : (((zC L t r).view.emb x : S64000x128.Idx) 1).val = (x 1).val := by
    show k6_off5 L t (BitVec.ofNat 32 r.val) 1 + 1 * (x 1).val = _
    rw [k6_off5_eq]
    simp only [Matrix.cons_val_one, Matrix.cons_val_zero]
    omega
  have hk := Shape.rowMajor_val_one (S80.rowMajor.symm ((x gathers_S10000x128_S80x128.axis').cast hn.symm))
  rw [Equiv.apply_symm_apply] at hk
  have hy : (S80.rowMajor.symm ((x gathers_S10000x128_S80x128.axis').cast hn.symm)) 0 = x 0 := Fin.ext hk.symm
  have hrow : (gathers_S10000x128_S80x128.idx (SparseCore.rows (sRd d L I off h g) hn hin') x gathers_S10000x128_S80x128.axis).val
      = (I (ix3 (n0 := 32) (n1 := 25) (n2 := 80) (wL L) ⟨5 * t.val + r.val, by omega⟩ (x 0))).toNat := by
    rw [Shape.Gathers.idx_axis]
    unfold SparseCore.rows
    show BitVec.toNat (sRd d L I off h g (S80.rowMajor.symm ((x gathers_S10000x128_S80x128.axis').cast hn.symm))) = _
    subst hoff
    rw [sRd_eq, sRow_emb (5 * t.val + r.val) (by omega), iPl_emb]
    exact congrArg (fun k : Fin 80 => (I (ix3 (n0 := 32) (n1 := 25) (n2 := 80) (wL L) ⟨5 * t.val + r.val, by omega⟩ k)).toNat) hy
  unfold SparseCore.gatherPayload gath
  rw [View.read_apply, cast_eq]
  refine Eq.trans ?_ (congrArg X (emb_xG _)).symm
  refine congrArg X (?_ : @Eq S10000x128.Idx _ _)
  funext a
  refine Fin.ext ?_
  match a with
  | ⟨0, _⟩ =>
    refine Eq.trans ?_ (hrow.trans (Nat.mod_eq_of_lt (hI _)).symm).symm
    show (I _).toNat % 10000 = _
    refine congrArg (fun q : S32x25x80.Idx => (I q).toNat % 10000) (?_ : @Eq S32x25x80.Idx _ _)
    funext b
    refine Fin.ext ?_
    match b with
    | ⟨0, _⟩ => exact k0
    | ⟨1, _⟩ => exact k1
    | ⟨2, _⟩ => exact k2
  | ⟨1, _⟩ => exact e1.trans (Shape.Gathers.idx_of_ne gathers_S10000x128_S80x128 _ x (1 : Fin 2) (by decide)).symm

end Cert.Proof.KW.Sc3

end
-- ==== Proof.WScPre3.lean ====
import proofs.«212107_g53927609368716_cont_9to1_m_409_29_alg».proof.Proof.WScVal3

noncomputable section

namespace Cert.Proof.KW.Sc3

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Cert.Kernel.Facts]

local notation "𝕄" => MT nD τ sig (HIx 5) (Elt F) ℕ UU ℕ

local notation "sI" => (Memref.whole Cert.Kernel.cc6_scratch0 : Memref Cert.Kernel.sig Kind.scVector Space.vmem Cert.Kernel.S25x80 EltTy.i32)
local notation "sR" => (Memref.whole Cert.Kernel.cc6_scratch1 : Memref Cert.Kernel.sig Kind.scVector Space.vmem Cert.Kernel.S5x80x128 EltTy.f32)
local notation "xM" => (Memref.whole Cert.Kernel.main_arg0_scv : Memref Cert.Kernel.sig Kind.scVector Space.hbm Cert.Kernel.S10000x128 EltTy.f32)
local notation "iM" => (Memref.whole Cert.Kernel.main_v21_scv : Memref Cert.Kernel.sig Kind.scVector Space.hbm Cert.Kernel.S32x25x80 EltTy.i32)
local notation "zM" => (Memref.whole Cert.Kernel.main_v22_scv : Memref Cert.Kernel.sig Kind.scVector Space.hbm Cert.Kernel.S64000x128 EltTy.f32)

variable (d : Dev nD) (L : grid6.Coords)

abbrev T0 : Fin k6_t1_loop.trips := ⟨0, by decide⟩
abbrev T1 : Fin k6_t1_loop.trips := ⟨1, by decide⟩
abbrev T2 : Fin k6_t1_loop.trips := ⟨2, by decide⟩
abbrev T3 : Fin k6_t1_loop.trips := ⟨3, by decide⟩
abbrev T4 : Fin k6_t1_loop.trips := ⟨4, by decide⟩

abbrev XT (qt : PosShare TreeShare) (X : Buf (Elt F) (xLoc d)) : sProp 𝕄 :=
  bigSepL [(0 : Fin 5), 1, 2, 3, 4] fun b => xLoc d ↦{Transfers.shareTok qt 5 b} X

abbrev ZT (f : Buf (Elt F) (zLoc d)) : sProp 𝕄 :=
  bigSepL chunkL fun p => zLoc d ↦[(zC L p.1 p.2).view.set]{fullShare} f

abbrev ST : sProp 𝕄 := bigSepL (semL.map fun sm => ((thrL d L, sm) : GSem nD τ sig)) (fun g => semVal g 0)

theorem slot_read_write_same (off : Fin 3 → Nat) (h : ∀ a, off a + S1x80x128.size a ≤ S5x80x128.size a)
    (G : Buf (Elt F) ((thrL d L).loc cc6_scratch1)) (P : S80x128.Idx → Elt F .f32) :
    (slotM off h).view.read (Elt F) (View.write (Elt F) (slotM off h).view G P Finset.univ) = P := by
  funext x
  rw [View.read_apply, View.write_emb_of_mem _ _ (Finset.mem_univ x), cast_cast, cast_eq]

theorem slot_disjoint (off off' : Fin 3 → Nat) (h : ∀ a, off a + S1x80x128.size a ≤ S5x80x128.size a)
    (h' : ∀ a, off' a + S1x80x128.size a ≤ S5x80x128.size a) (hne : off 0 ≠ off' 0) :
    Disjoint (slotM off h).view.set (slotM off' h').view.set := by
  show Disjoint (((View.whole cc6_scratch1).slice (Rect.unit (s := S5x80x128) off S1x80x128.size h)).reshape S80x128 squeezes_S1x80x128_S80x128.numel_eq).set
    (((View.whole cc6_scratch1).slice (Rect.unit (s := S5x80x128) off' S1x80x128.size h')).reshape S80x128 squeezes_S1x80x128_S80x128.numel_eq).set
  rw [View.set_reshape, View.set_reshape, View.set_slice_whole, View.set_slice_whole]
  refine Rect.unit_disjoint (0 : Fin 3) ?_
  rcases Nat.lt_or_gt_of_ne hne with hlt | hgt
  · left; show off 0 + 1 ≤ off' 0; omega
  · right; show off' 0 + 1 ≤ off 0; omega

theorem slot_read_write_other (off off' : Fin 3 → Nat) (h : ∀ a, off a + S1x80x128.size a ≤ S5x80x128.size a)
    (h' : ∀ a, off' a + S1x80x128.size a ≤ S5x80x128.size a) (hne : off 0 ≠ off' 0)
    (G : Buf (Elt F) ((thrL d L).loc cc6_scratch1)) (P' : S80x128.Idx → Elt F .f32) :
    (slotM off h).view.read (Elt F) (View.write (Elt F) (slotM off' h').view G P' Finset.univ) = (slotM off h).view.read (Elt F) G := by
  funext x
  rw [View.read_apply, View.read_apply, View.write_of_not_mem]
  rw [View.setOn_univ]
  exact Finset.disjoint_left.mp (slot_disjoint off off' h h' hne) (View.emb_mem_set (slotM off h).view x)

theorem z_fin (X : Buf (Elt F) (xLoc d)) (I : Buf (Elt F) (iLoc d)) (t : Fin k6_t1_loop.trips) (r : Fin 5) (fz : Buf (Elt F) (zLoc d))
    (P : S80x128.Idx → Elt F .f32) (hP : ∀ x, gath d X I ((zC L t r).view.emb x) = P x) :
    ((zC L t r).view.loc (thrL d L) ↦[(zC L t r).view.set]{fullShare} (zC L t r).view.writes (Elt F) fz [⟨Rect.whole S80x128, P⟩] : sProp 𝕄)
      = (zLoc d ↦[(zC L t r).view.set]{fullShare} gath d X I) := by
  refine pointsTo_congr fun y hy => ?_
  obtain ⟨x, -, rfl⟩ := Finset.mem_map.mp hy
  have h1 := View.read_writes_cons_emb (v := (zC L t r).view) (f := fz) (Rect.whole S80x128) P [] x
  rw [Rect.emb_whole_apply, View.read_apply] at h1
  exact ((cast_eq _ _).symm.trans h1).trans (hP x).symm

theorem waits_ok {W W' : Waits sig (HIx 5)} (sm : SemLoc sig) (h : ∀ p ∈ W', p ∈ W ∨ p.2 = none) :
    ∀ p ∈ insert (sm, (default : HIx 5)) W', p ∈ W ∨ p.2 = none := by
  intro p hp
  rcases Finset.mem_insert.mp hp with rfl | hp
  · exact .inr rfl
  · exact h p hp
theorem waits_ok₀ {W : Waits sig (HIx 5)} : ∀ p ∈ W, p ∈ W ∨ p.2 = none := fun _ hp => .inl hp

theorem pts_x (q : PosShare TreeShare) (X : Buf (Elt F) (xLoc d)) :
    (xLoc d ↦{q} X : sProp 𝕄) = ((xM).view.loc (thrL d L) ↦[(xM).view.set]{q} X) := by
  simp only [Memref.view_whole, View.set_whole]
theorem pts_s0 (f : Buf (Elt F) ((thrL d L).loc cc6_scratch0)) :
    ((thrL d L).loc cc6_scratch0 ↦{fullShare} f : sProp 𝕄) = ((sI).view.loc (thrL d L) ↦[(sI).view.set]{fullShare} f) := by
  simp only [Memref.view_whole, View.set_whole]
theorem pts_s1 (f : Buf (Elt F) ((thrL d L).loc cc6_scratch1)) :
    ((thrL d L).loc cc6_scratch1 ↦{fullShare} f : sProp 𝕄) = ((sR).view.loc (thrL d L) ↦[(sR).view.set]{fullShare} f) := by
  simp only [Memref.view_whole, View.set_whole]

end Cert.Proof.KW.Sc3

end
-- ==== Proof.WScTile3.lean ====
import proofs.«212107_g53927609368716_cont_9to1_m_409_29_alg».proof.Proof.WScPre3

noncomputable section

namespace Cert.Proof.KW.Sc3

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Cert.Kernel.Facts]

local notation "𝕄" => MT nD τ sig (HIx 5) (Elt F) ℕ UU ℕ

local notation "sI" => (Memref.whole Cert.Kernel.cc6_scratch0 : Memref Cert.Kernel.sig Kind.scVector Space.vmem Cert.Kernel.S25x80 EltTy.i32)
local notation "sR" => (Memref.whole Cert.Kernel.cc6_scratch1 : Memref Cert.Kernel.sig Kind.scVector Space.vmem Cert.Kernel.S5x80x128 EltTy.f32)
local notation "xM" => (Memref.whole Cert.Kernel.main_arg0_scv : Memref Cert.Kernel.sig Kind.scVector Space.hbm Cert.Kernel.S10000x128 EltTy.f32)
local notation "iM" => (Memref.whole Cert.Kernel.main_v21_scv : Memref Cert.Kernel.sig Kind.scVector Space.hbm Cert.Kernel.S32x25x80 EltTy.i32)
local notation "zM" => (Memref.whole Cert.Kernel.main_v22_scv : Memref Cert.Kernel.sig Kind.scVector Space.hbm Cert.Kernel.S64000x128 EltTy.f32)

variable (d : Dev nD) (L : grid6.Coords)

theorem xt_eq (qt : PosShare TreeShare) (X : Buf (Elt F) (xLoc d)) :
    XT d qt X = iprop(((xM).view.loc (thrL d L) ↦[(xM).view.set]{Transfers.shareTok qt 5 0} X) ∗ ((xM).view.loc (thrL d L) ↦[(xM).view.set]{Transfers.shareTok qt 5 1} X) ∗ ((xM).view.loc (thrL d L) ↦[(xM).view.set]{Transfers.shareTok qt 5 2} X) ∗ ((xM).view.loc (thrL d L) ↦[(xM).view.set]{Transfers.shareTok qt 5 3} X) ∗ ((xM).view.loc (thrL d L) ↦[(xM).view.set]{Transfers.shareTok qt 5 4} X)) := by
  simp only [← pts_x d L]; rfl

theorem zt_eq (f : Buf (Elt F) (zLoc d)) :
    ZT d L f = iprop((zLoc d ↦[(zC L T0 0).view.set]{fullShare} f) ∗ (zLoc d ↦[(zC L T0 1).view.set]{fullShare} f) ∗ (zLoc d ↦[(zC L T0 2).view.set]{fullShare} f) ∗ (zLoc d ↦[(zC L T0 3).view.set]{fullShare} f) ∗ (zLoc d ↦[(zC L T0 4).view.set]{fullShare} f) ∗ (zLoc d ↦[(zC L T1 0).view.set]{fullShare} f) ∗ (zLoc d ↦[(zC L T1 1).view.set]{fullShare} f) ∗ (zLoc d ↦[(zC L T1 2).view.set]{fullShare} f) ∗ (zLoc d ↦[(zC L T1 3).view.set]{fullShare} f) ∗ (zLoc d ↦[(zC L T1 4).view.set]{fullShare} f) ∗ (zLoc d ↦[(zC L T2 0).view.set]{fullShare} f) ∗ (zLoc d ↦[(zC L T2 1).view.set]{fullShare} f) ∗ (zLoc d ↦[(zC L T2 2).view.set]{fullShare} f) ∗ (zLoc d ↦[(zC L T2 3).view.set]{fullShare} f) ∗ (zLoc d ↦[(zC L T2 4).view.set]{fullShare} f) ∗ (zLoc d ↦[(zC L T3 0).view.set]{fullShare} f) ∗ (zLoc d ↦[(zC L T3 1).view.set]{fullShare} f) ∗ (zLoc d ↦[(zC L T3 2).view.set]{fullShare} f) ∗ (zLoc d ↦[(zC L T3 3).view.set]{fullShare} f) ∗ (zLoc d ↦[(zC L T3 4).view.set]{fullShare} f) ∗ (zLoc d ↦[(zC L T4 0).view.set]{fullShare} f) ∗ (zLoc d ↦[(zC L T4 1).view.set]{fullShare} f) ∗ (zLoc d ↦[(zC L T4 2).view.set]{fullShare} f) ∗ (zLoc d ↦[(zC L T4 3).view.set]{fullShare} f) ∗ (zLoc d ↦[(zC L T4 4).view.set]{fullShare} f)) := rfl

theorem pts_z (t : Fin k6_t1_loop.trips) (r : Fin 5) (f : Buf (Elt F) (zLoc d)) :
    (zLoc d ↦[(zC L t r).view.set]{fullShare} f : sProp 𝕄) = ((zC L t r).view.loc (thrL d L) ↦[(zC L t r).view.set]{fullShare} f) := rfl

theorem st_eq : (ST d L : sProp 𝕄) = iprop(semVal (thrL d L, SemLoc.dma gS0) 0 ∗ semVal (thrL d L, SemLoc.dma gS1) 0 ∗ semVal (thrL d L, SemLoc.dma gS2) 0 ∗ semVal (thrL d L, SemLoc.dma gS3) 0 ∗ semVal (thrL d L, SemLoc.dma gS4) 0 ∗ semVal (thrL d L, SemLoc.dma wS0) 0 ∗ semVal (thrL d L, SemLoc.dma wS1) 0 ∗ semVal (thrL d L, SemLoc.dma wS2) 0 ∗ semVal (thrL d L, SemLoc.dma wS3) 0 ∗ semVal (thrL d L, SemLoc.dma wS4) 0 ∗ semVal (thrL d L, SemLoc.dma cS) 0) := rfl

set_option maxHeartbeats 16000000 in
theorem tile_run (O : CellTallies nD τ sig (HIx 5)) (W : Waits sig (HIx 5)) (hO : ∀ g, O g none = 0)
    (X : Buf (Elt F) (xLoc d)) (I : Buf (Elt F) (iLoc d)) (hI : IdxOK d I)
    (fs : Buf (Elt F) ((thrL d L).loc cc6_scratch0)) (fr : Buf (Elt F) ((thrL d L).loc cc6_scratch1))
    (fz : Buf (Elt F) (zLoc d)) (qt : PosShare TreeShare) :
    (iprop(levAts (K (F := F)).L (K (F := F)).lev ∗ XT d qt X
        ∗ (iLoc d ↦[(iPl L).view.set]{fullShare} I)
        ∗ ((thrL d L).loc cc6_scratch0 ↦{fullShare} fs) ∗ ((thrL d L).loc cc6_scratch1 ↦{fullShare} fr)
        ∗ ZT d L fz ∗ ST d L ∗ owes (thrL d L) O W) : sProp 𝕄)
      ⊢ wp frame (wpE (defs₀ (F := F)) 𝒱₀ (thrL d L) none) Set.univ
          (cc6_k L xM (Memref.isWhole_whole _) iM (Memref.isWhole_whole _) zM (Memref.isWhole_whole _) sI (Memref.isWhole_whole _) sR (Memref.isWhole_whole _) cc6_scratch2 cc6_scratch3 cc6_scoped0)
          fun _ => iprop(XT d qt X ∗ (iLoc d ↦[(iPl L).view.set]{fullShare} I)
            ∗ (∃ f, (thrL d L).loc cc6_scratch0 ↦{fullShare} f) ∗ (∃ f, (thrL d L).loc cc6_scratch1 ↦{fullShare} f)
            ∗ ZT d L (gath d X I) ∗ ST d L ∗ ∃ W', ⌜∀ p ∈ W', p ∈ W ∨ p.2 = none⌝ ∗ owes (thrL d L) O W') := by
  have hin := hin_ok d L I hI
  simp only [cc6_k_eq_skeleton]; unfold cc6_k_skel
  iintro ⟨#Hlv, HX, Hi, Hs, Hr, HZ, HS, HO⟩
  ihave Hmw := ((K (F := F)).mayWaits_none (thr := thrL d L) hO) $$ Hlv
  ihave ⟨Hz00, Hz01, Hz02, Hz03, Hz04, Hz10, Hz11, Hz12, Hz13, Hz14, Hz20, Hz21, Hz22, Hz23, Hz24, Hz30, Hz31, Hz32, Hz33, Hz34, Hz40, Hz41, Hz42, Hz43, Hz44⟩ := (Entails.of_eq (zt_eq d L fz)) $$ HZ
  ihave ⟨Hg0, Hg1, Hg2, Hg3, Hg4, Hw0, Hw1, Hw2, Hw3, Hw4, Hc⟩ := (Entails.of_eq (st_eq d L)) $$ HS
  ihave ⟨Hx0, Hx1, Hx2, Hx3, Hx4⟩ := (Entails.of_eq (xt_eq d L qt X)) $$ HX
  ihave Hi := (Entails.of_eq (show (iLoc d ↦[(iPl L).view.set]{fullShare} I : sProp 𝕄) = ((iPl L).view.loc (thrL d L) ↦[(iPl L).view.set]{fullShare} I) from rfl)) $$ Hi
  ihave Hs := (Entails.of_eq (pts_s0 d L fs)) $$ Hs
  ihave Hr := (Entails.of_eq (pts_s1 d L fr)) $$ Hr
  ihave Hz00 := (Entails.of_eq (pts_z d L T0 0 fz)) $$ Hz00
  ihave Hz01 := (Entails.of_eq (pts_z d L T0 1 fz)) $$ Hz01
  ihave Hz02 := (Entails.of_eq (pts_z d L T0 2 fz)) $$ Hz02
  ihave Hz03 := (Entails.of_eq (pts_z d L T0 3 fz)) $$ Hz03
  ihave Hz04 := (Entails.of_eq (pts_z d L T0 4 fz)) $$ Hz04
  ihave Hz10 := (Entails.of_eq (pts_z d L T1 0 fz)) $$ Hz10
  ihave Hz11 := (Entails.of_eq (pts_z d L T1 1 fz)) $$ Hz11
  ihave Hz12 := (Entails.of_eq (pts_z d L T1 2 fz)) $$ Hz12
  ihave Hz13 := (Entails.of_eq (pts_z d L T1 3 fz)) $$ Hz13
  ihave Hz14 := (Entails.of_eq (pts_z d L T1 4 fz)) $$ Hz14
  ihave Hz20 := (Entails.of_eq (pts_z d L T2 0 fz)) $$ Hz20
  ihave Hz21 := (Entails.of_eq (pts_z d L T2 1 fz)) $$ Hz21
  ihave Hz22 := (Entails.of_eq (pts_z d L T2 2 fz)) $$ Hz22
  ihave Hz23 := (Entails.of_eq (pts_z d L T2 3 fz)) $$ Hz23
  ihave Hz24 := (Entails.of_eq (pts_z d L T2 4 fz)) $$ Hz24
  ihave Hz30 := (Entails.of_eq (pts_z d L T3 0 fz)) $$ Hz30
  ihave Hz31 := (Entails.of_eq (pts_z d L T3 1 fz)) $$ Hz31
  ihave Hz32 := (Entails.of_eq (pts_z d L T3 2 fz)) $$ Hz32
  ihave Hz33 := (Entails.of_eq (pts_z d L T3 3 fz)) $$ Hz33
  ihave Hz34 := (Entails.of_eq (pts_z d L T3 4 fz)) $$ Hz34
  ihave Hz40 := (Entails.of_eq (pts_z d L T4 0 fz)) $$ Hz40
  ihave Hz41 := (Entails.of_eq (pts_z d L T4 1 fz)) $$ Hz41
  ihave Hz42 := (Entails.of_eq (pts_z d L T4 2 fz)) $$ Hz42
  ihave Hz43 := (Entails.of_eq (pts_z d L T4 3 fz)) $$ Hz43
  ihave Hz44 := (Entails.of_eq (pts_z d L T4 4 fz)) $$ Hz44
  sl_exec
  sl_unroll
  sl_exec
  sl_step
  isplitl [Hx0 Hx1 Hx2 Hx3 Hx4]
  · iapply (Entails.of_eq (xt_eq d L qt X).symm)
    isplitl [Hx0]; · iexact Hx0
    isplitl [Hx1]; · iexact Hx1
    isplitl [Hx2]; · iexact Hx2
    isplitl [Hx3]; · iexact Hx3
    iexact Hx4
  isplitl [Hi]; · iexact Hi
  isplitl [Hs]; · iexists _; iapply (Entails.of_eq (pts_s0 d L _).symm); iexact Hs
  isplitl [Hr]; · iexists _; iapply (Entails.of_eq (pts_s1 d L _).symm); iexact Hr
  isplitr [Hg0 Hg1 Hg2 Hg3 Hg4 Hw0 Hw1 Hw2 Hw3 Hw4 Hc HO]
  · iapply (Entails.of_eq (zt_eq d L (gath d X I)).symm)
    have zf := fun t r P hP => Entails.of_eq (z_fin d L X I t r fz P hP)
    isplitl [Hz00]; iapply (zf T0 0 _ ?_); rotate_left; iexact Hz00
    isplitl [Hz01]; iapply (zf T0 1 _ ?_); rotate_left; iexact Hz01
    isplitl [Hz02]; iapply (zf T0 2 _ ?_); rotate_left; iexact Hz02
    isplitl [Hz03]; iapply (zf T0 3 _ ?_); rotate_left; iexact Hz03
    isplitl [Hz04]; iapply (zf T0 4 _ ?_); rotate_left; iexact Hz04
    isplitl [Hz10]; iapply (zf T1 0 _ ?_); rotate_left; iexact Hz10
    isplitl [Hz11]; iapply (zf T1 1 _ ?_); rotate_left; iexact Hz11
    isplitl [Hz12]; iapply (zf T1 2 _ ?_); rotate_left; iexact Hz12
    isplitl [Hz13]; iapply (zf T1 3 _ ?_); rotate_left; iexact Hz13
    isplitl [Hz14]; iapply (zf T1 4 _ ?_); rotate_left; iexact Hz14
    isplitl [Hz20]; iapply (zf T2 0 _ ?_); rotate_left; iexact Hz20
    isplitl [Hz21]; iapply (zf T2 1 _ ?_); rotate_left; iexact Hz21
    isplitl [Hz22]; iapply (zf T2 2 _ ?_); rotate_left; iexact Hz22
    isplitl [Hz23]; iapply (zf T2 3 _ ?_); rotate_left; iexact Hz23
    isplitl [Hz24]; iapply (zf T2 4 _ ?_); rotate_left; iexact Hz24
    isplitl [Hz30]; iapply (zf T3 0 _ ?_); rotate_left; iexact Hz30
    isplitl [Hz31]; iapply (zf T3 1 _ ?_); rotate_left; iexact Hz31
    isplitl [Hz32]; iapply (zf T3 2 _ ?_); rotate_left; iexact Hz32
    isplitl [Hz33]; iapply (zf T3 3 _ ?_); rotate_left; iexact Hz33
    isplitl [Hz34]; iapply (zf T3 4 _ ?_); rotate_left; iexact Hz34
    isplitl [Hz40]; iapply (zf T4 0 _ ?_); rotate_left; iexact Hz40
    isplitl [Hz41]; iapply (zf T4 1 _ ?_); rotate_left; iexact Hz41
    isplitl [Hz42]; iapply (zf T4 2 _ ?_); rotate_left; iexact Hz42
    isplitl [Hz43]; iapply (zf T4 3 _ ?_); rotate_left; iexact Hz43
    iapply (zf T4 4 _ ?_); rotate_left; iexact Hz44
    all_goals
      intro x
      show _ = View.read (Elt F) (slotM _ _).view _ x
      repeat (first | rw [slot_read_write_same d L] | (rw [slot_read_write_other d L]; on_goal 2 => decide))
      exact chunk_val d L X I hI _ _ _ _ (by first | rfl | (rw [k6_off3_eq]; rfl) | (rw [k6_off7_eq]; rfl) | (rw [k6_off9_eq]; rfl) | (rw [k6_off11_eq]; rfl) | (rw [k6_off13_eq]; rfl) | decide) _ _ _ x
  isplitr [HO]
  · iapply (Entails.of_eq (st_eq d L).symm)
    isplitl [Hg0]; · iexact Hg0
    isplitl [Hg1]; · iexact Hg1
    isplitl [Hg2]; · iexact Hg2
    isplitl [Hg3]; · iexact Hg3
    isplitl [Hg4]; · iexact Hg4
    isplitl [Hw0]; · iexact Hw0
    isplitl [Hw1]; · iexact Hw1
    isplitl [Hw2]; · iexact Hw2
    isplitl [Hw3]; · iexact Hw3
    isplitl [Hw4]; · iexact Hw4
    iexact Hc
  iexists _
  isplitr
  on_goal 2 => iexact HO
  ipureintro
  repeat (first | exact waits_ok₀ | refine waits_ok _ ?_)

end Cert.Proof.KW.Sc3

end
-- ==== Proof.WScBody3.lean ====
import proofs.«212107_g53927609368716_cont_9to1_m_409_29_alg».proof.Proof.WScTile3

noncomputable section

namespace Cert.Proof.KW.Sc3

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Cert.Kernel.Facts]

local notation "𝕄" => MT nD τ sig (HIx 5) (Elt F) ℕ UU ℕ

variable (d : Dev nD) (L : grid6.Coords)

-- The tile's run with the rest framed off: its share of the table as five tokens, its rows of the result by chunks.
theorem tile_body (hF : (K (F := F)).Facts) (q : PosShare TreeShare)
    (X : Buf (Elt F) (xLoc d)) (I : Buf (Elt F) (iLoc d)) (hI : IdxOK d I)
    (O : CellTallies nD τ sig (HIx 5)) (W : Waits sig (HIx 5)) (hO : ∀ g, O g none = 0) :
    iprop(levAts (K (F := F)).L (K (F := F)).lev ∗ go d q X I (cL L) (jL L)
        ∗ scopedBufs (thrL d L) ∗ scopedSems0 (thrL d L) ∗ owes (thrL d L) O W)
      ⊢ wp frame (wpE (defs₀ (F := F)) 𝒱₀ (thrL d L) none) Set.univ
          (cc6_k L (Memref.whole main_arg0_scv) (Memref.isWhole_whole _) (Memref.whole main_v21_scv) (Memref.isWhole_whole _) (Memref.whole main_v22_scv) (Memref.isWhole_whole _)
            (Memref.whole cc6_scratch0) (Memref.isWhole_whole _) (Memref.whole cc6_scratch1) (Memref.isWhole_whole _) cc6_scratch2 cc6_scratch3 cc6_scoped0)
          fun _ => iprop(td d q X I (cL L) (jL L) ∗ scopedBufs (thrL d L) ∗ scopedSems0 (thrL d L)
            ∗ ∃ W', ⌜∀ p ∈ W', p ∈ W ∨ p.2 = none⌝ ∗ owes (thrL d L) O W') := by
  unfold go td
  have h : (xLoc d ↦{qTile q (cL L) (jL L)} X : sProp 𝕄) ⊣⊢ _ := Transfers.pointsTo_toks _ 5
  rw [(K (F := F)).scopedBufs_V hF d _ _, SparseCore.Cfg.scopedSems0_V (Val := Elt F) d _ _, ownSems0_split, ownBufs_split,
    ← set_iPl L, zRows_chunks d L (gath d X I), BI.Entails.antisymm h.1 h.2,
    bigSep_univ_eq_bigSepL [(0 : Fin 5), 1, 2, 3, 4] (by decide) (by decide)]
  iintro ⟨#Hlv, ⟨⟨Hxd, Hxt⟩, Hi, %fz, Hz⟩, ⟨⟨%fs, Hs⟩, ⟨%fr, Hr⟩, Hbufs⟩, ⟨Hsems, Hsrest⟩, HO⟩
  ihave Hz := (Entails.of_eq (zRows_chunks d L fz)) $$ Hz
  iapply (wp_wand_r frame _ _)
  isplitl [Hxt Hi Hs Hr Hz Hsems HO]
  · iapply (tile_run d L O W hO X I hI fs fr fz (qTile q (cL L) (jL L)))
    isplitr; · iexact Hlv
    isplitl [Hxt]; · iexact Hxt
    isplitl [Hi]; · iexact Hi
    isplitl [Hs]; · iexact Hs
    isplitl [Hr]; · iexact Hr
    isplitl [Hz]; · iexact Hz
    isplitl [Hsems]; · iexact Hsems
    iexact HO
  iintro %_ ⟨Hxt, Hi, Hs, Hr, Hz, Hsems, HO⟩
  isplitl [Hxd Hxt Hi Hz]
  · isplitl [Hxd Hxt]
    · isplitl [Hxd]; · iexact Hxd
      iexact Hxt
    isplitl [Hi]; · iexact Hi
    iexact Hz
  isplitl [Hs Hr Hbufs]
  · isplitl [Hs]; · iexact Hs
    isplitl [Hr]; · iexact Hr
    iexact Hbufs
  isplitl [Hsems Hsrest]
  · isplitl [Hsems]; · iexact Hsems
    iexact Hsrest
  iexact HO

end Cert.Proof.KW.Sc3

end
-- ==== Proof.WScVal4.lean ====
import proofs.«212107_g53927609368716_cont_9to1_m_409_29_alg».proof.Proof.WScCall4Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«212107_g53927609368716_cont_9to1_m_409_29_alg».proof.Proof.Gen.Kernel.Skeleton

noncomputable section

namespace Cert.Proof.KW.Sc4

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Cert.Kernel.Facts]

local notation "𝕄" => MT nD τ sig (HIx 5) (Elt F) ℕ UU ℕ

abbrev callIx : Fin 5 := 4
abbrev labIx : Fin 10 := 8

local notation "sI" => (Memref.whole Cert.Kernel.cc8_scratch0 : Memref Cert.Kernel.sig Kind.scVector Space.vmem Cert.Kernel.S25x80 EltTy.i32)
local notation "sR" => (Memref.whole Cert.Kernel.cc8_scratch1 : Memref Cert.Kernel.sig Kind.scVector Space.vmem Cert.Kernel.S5x80x128 EltTy.f32)
local notation "xM" => (Memref.whole Cert.Kernel.main_arg0_scv : Memref Cert.Kernel.sig Kind.scVector Space.hbm Cert.Kernel.S10000x128 EltTy.f32)
local notation "iM" => (Memref.whole Cert.Kernel.main_v26_scv : Memref Cert.Kernel.sig Kind.scVector Space.hbm Cert.Kernel.S32x25x80 EltTy.i32)
local notation "zM" => (Memref.whole Cert.Kernel.main_v27_scv : Memref Cert.Kernel.sig Kind.scVector Space.hbm Cert.Kernel.S64000x128 EltTy.f32)

variable (d : Dev nD) (L : grid8.Coords)

abbrev prL (L : grid8.Coords) : Proc τ := .scVector ((L 0).castLE hcore8) ((L 1).castLE hsub8)
abbrev thrL (L : grid8.Coords) : Thread nD τ := V d ((L 0).castLE hcore8) ((L 1).castLE hsub8)

abbrev iPl (L : grid8.Coords) : Memref sig .scVector .hbm S25x80 .i32 :=
  ((iM).slice (Rect.unit (s := S32x25x80) (k8_off1 L) S1x25x80.size (k8_off1_inb L)) (fun _ => rfl)).squeeze S25x80 squeezes_S1x25x80_S25x80
abbrev sRow (off : Fin 2 → Nat) (h : ∀ a, off a + S1x80.size a ≤ S25x80.size a) : Memref sig .scVector .vmem S80 .i32 :=
  ((sI).slice (Rect.unit (s := S25x80) off S1x80.size h) (fun _ => rfl)).squeeze S80 squeezes_S1x80_S80
abbrev slotM (off : Fin 3 → Nat) (h : ∀ a, off a + S1x80x128.size a ≤ S5x80x128.size a) : Memref sig .scVector .vmem S80x128 .f32 :=
  ((sR).slice (Rect.unit (s := S5x80x128) off S1x80x128.size h) (fun _ => rfl)).squeeze S80x128 squeezes_S1x80x128_S80x128

abbrev semAt (A : DmaSems sig S5) (o : Fin 1 → Nat) (h : ∀ a, o a + S1.size a ≤ S5.size a) : DmaSem sig :=
  SemArray.sem (SemArray.squeeze (SemArray.slice A (Rect.unit (s := S5) o S1.size h)) S_ squeezes_S1_S_)
abbrev gS0 : DmaSem sig := semAt cc8_scratch2 ![0] inb_S5_S1_0
abbrev gS1 : DmaSem sig := semAt cc8_scratch2 ![1] inb_S5_S1_1
abbrev gS2 : DmaSem sig := semAt cc8_scratch2 ![2] inb_S5_S1_2
abbrev gS3 : DmaSem sig := semAt cc8_scratch2 ![3] inb_S5_S1_3
abbrev gS4 : DmaSem sig := semAt cc8_scratch2 ![4] inb_S5_S1_4
abbrev wS0 : DmaSem sig := semAt cc8_scratch3 ![0] inb_S5_S1_0
abbrev wS1 : DmaSem sig := semAt cc8_scratch3 ![1] inb_S5_S1_1
abbrev wS2 : DmaSem sig := semAt cc8_scratch3 ![2] inb_S5_S1_2
abbrev wS3 : DmaSem sig := semAt cc8_scratch3 ![3] inb_S5_S1_3
abbrev wS4 : DmaSem sig := semAt cc8_scratch3 ![4] inb_S5_S1_4
abbrev cS : DmaSem sig := SemArray.sem cc8_scoped0

abbrev zC (L : grid8.Coords) (t : Fin k8_t1_loop.trips) (r : Fin 5) : Memref sig .scVector .hbm S80x128 .f32 :=
  (zM).slice (Rect.unit (s := S64000x128) (k8_off5 L t (BitVec.ofNat 32 r.val)) S80x128.size (k8_off5_inb L t r)) (fun _ => rfl)

abbrev idxPay (L : grid8.Coords) (I : Buf (Elt F) (iLoc d)) : S25x80.Idx → Elt F .i32 :=
  ReadAs.same.apply ((iPl L).view.read (Elt F) I)

theorem bound_zero : grid8.bound 0 = 2 := rfl
theorem bound_one : grid8.bound 1 = 16 := rfl
abbrev cL (L : grid8.Coords) : Fin 2 := Fin.cast bound_zero (L 0)
abbrev jL (L : grid8.Coords) : Fin 16 := Fin.cast bound_one (L 1)
abbrev wL (L : grid8.Coords) : Fin 32 := wid (cL L) (jL L)

theorem trips_eq : k8_t1_loop.trips = 5 := by decide

theorem set_iPl : (iPl L).view.set = iRows (wL L) := by
  have e : Rect.unit (s := S32x25x80) (k8_off1 L) S1x25x80.size (k8_off1_inb L) = iPart (wL L) := by
    unfold iPart Rect.part Rect.block
    congr 1 <;> funext a <;> (try rw [k8_off1_eq]) <;>
      (match a with
       | 0 | 1 | 2 => simp [Shape.partIx, Shape.partSize, wid])
  show (((iM).view.slice (Rect.unit (s := S32x25x80) (k8_off1 L) S1x25x80.size (k8_off1_inb L))).reshape S25x80 squeezes_S1x25x80_S25x80.numel_eq).set
    = ((iM).view.slice (iPart (wL L))).set
  rw [View.set_reshape]
  exact e ▸ rfl

-- A block of whole rows of `z` is the rows from its first on.
theorem mem_rows {off sz : Fin 2 → Nat} {h : ∀ a, off a + sz a ≤ S64000x128.size a} (y : S64000x128.Idx) {o n : Nat}
    (h0 : off 0 = o) (hn : sz 0 = n) (h1 : off 1 = 0) (h2 : sz 1 = 128) :
    y ∈ ((View.whole main_v27_scv).slice (Rect.unit (s := S64000x128) off sz h)).set ↔ o ≤ (y 0).val ∧ (y 0).val < o + n := by
  have : (y 1).val < 128 := (y 1).isLt
  rw [View.set_slice_whole, Rect.mem_set_unit]
  show (∀ a : Fin 2, off a ≤ (y a).val ∧ (y a).val < off a + sz a) ↔ _
  rw [Fin.forall_fin_two, h0, hn, h1, h2]
  omega

theorem mem_zC (t : Fin k8_t1_loop.trips) (r : Fin 5) (y : S64000x128.Idx) :
    y ∈ (zC L t r).view.set ↔ 4000 * (L 1).val + 2000 * (L 0).val + 400 * t.val + 80 * r.val ≤ (y 0).val
      ∧ (y 0).val < 4000 * (L 1).val + 2000 * (L 0).val + 400 * t.val + 80 * r.val + 80 :=
  mem_rows y (by rw [k8_off5_eq]; rfl) (by rfl) (by rw [k8_off5_eq]; rfl) (by rfl)

theorem mem_zRows (w : Fin 32) (y : S64000x128.Idx) : y ∈ zRows w ↔ w.val * 2000 ≤ (y 0).val ∧ (y 0).val < w.val * 2000 + 2000 :=
  mem_rows y (by rfl) (by rfl) (by rfl) (by rfl)

theorem zC_disjoint : ∀ p ∈ (Finset.univ : Finset (Fin k8_t1_loop.trips × Fin 5)), ∀ p' ∈ (Finset.univ : Finset (Fin k8_t1_loop.trips × Fin 5)),
    p ≠ p' → Disjoint (zC L p.1 p.2).view.set (zC L p'.1 p'.2).view.set := by
  intro p _ p' _ hne
  rw [Finset.disjoint_left]
  intro y hy hy'
  rw [mem_zC] at hy hy'
  have := p.2.isLt
  have := p'.2.isLt
  exact hne (Prod.ext (Fin.ext (by omega)) (Fin.ext (by omega)))

-- The twenty-five chunks of eighty rows tile the worker's two thousand.
theorem zC_cover : (Finset.univ : Finset (Fin k8_t1_loop.trips × Fin 5)).biUnion (fun p => (zC L p.1 p.2).view.set) = zRows (wL L) := by
  ext y
  have hw : (wL L).val = 2 * (L 1).val + (L 0).val := rfl
  have h5 := trips_eq
  rw [Finset.mem_biUnion, mem_zRows]
  constructor
  · rintro ⟨p, -, hp⟩
    rw [mem_zC] at hp
    have := p.1.isLt
    have := p.2.isLt
    omega
  · intro hy
    refine ⟨(⟨((y 0).val - 2000 * (wL L).val) / 400, by omega⟩, ⟨((y 0).val - 2000 * (wL L).val) % 400 / 80, by omega⟩), Finset.mem_univ _, ?_⟩
    rw [mem_zC]
    dsimp only
    omega

abbrev semL : List (SemLoc sig) :=
  [.dma gS0, .dma gS1, .dma gS2, .dma gS3, .dma gS4, .dma wS0, .dma wS1, .dma wS2, .dma wS3, .dma wS4, .dma cS]

theorem semL_nodup : semL.Nodup := by decide
theorem semL_scoped : ∀ sm ∈ semL, sm.isScoped .scVector = true := by decide

theorem ownSems0_split :
    (ownSems0 (thrL d L) : sProp 𝕄)
      = iprop(bigSepL (semL.map fun sm => ((thrL d L, sm) : GSem nD τ sig)) (fun g => semVal g 0)
          ∗ bigSep (ownCells (thrL d L) \ (semL.map fun sm => ((thrL d L, sm) : GSem nD τ sig)).toFinset) fun g => semVal g 0) := by
  unfold SparseCore.Cfg.ownSems0
  have hsub : (semL.map fun sm => ((thrL d L, sm) : GSem nD τ sig)).toFinset ⊆ ownCells (thrL d L) := by
    intro g hg
    obtain ⟨sm, hsm, rfl⟩ := List.mem_map.mp (List.mem_toFinset.mp hg)
    exact mem_ownCells.mpr ⟨rfl, semL_scoped sm hsm⟩
  rw [SparseCore.bigSep_sdiff_split' hsub, bigSep_eq_bigSepL _ (List.Nodup.map (fun a b e => (Prod.mk.inj e).2) semL_nodup)]

theorem ownBufs_split :
    (ownBufs (thrL d L) : sProp 𝕄)
      = iprop((∃ f, (thrL d L).loc cc8_scratch0 ↦{fullShare} f) ∗ (∃ f, (thrL d L).loc cc8_scratch1 ↦{fullShare} f)
          ∗ bigSep (((ownRefs (τ := τ) (prL L)).erase ((prL L).devRef cc8_scratch0)).erase ((prL L).devRef cc8_scratch1))
              fun b => iprop(∃ f, ((d, b) : Loc nD τ sig) ↦{fullShare} f)) := by
  unfold SparseCore.Cfg.ownBufs
  refine (SparseCore.bigSep_erase' (SparseCore.Cfg.mem_ownRefs_of_owner (p := prL L) (b := (prL L).devRef cc8_scratch0) rfl)).trans ?_
  rw [SparseCore.bigSep_erase' (Finset.mem_erase.mpr ⟨fun e => absurd (Proc.devRef_injective _ e) (show (cc8_scratch1 : Ref sig .scVector) ≠ cc8_scratch0 by decide),
    SparseCore.Cfg.mem_ownRefs_of_owner (p := prL L) (b := (prL L).devRef cc8_scratch1) rfl⟩)]

abbrev tr (n : Nat) (h : n < k8_t1_loop.trips := by decide) : Fin k8_t1_loop.trips := ⟨n, h⟩
abbrev chunkL : List (Fin k8_t1_loop.trips × Fin 5) :=
  [(tr 0, 0), (tr 0, 1), (tr 0, 2), (tr 0, 3), (tr 0, 4), (tr 1, 0), (tr 1, 1), (tr 1, 2), (tr 1, 3), (tr 1, 4), (tr 2, 0), (tr 2, 1), (tr 2, 2), (tr 2, 3), (tr 2, 4), (tr 3, 0), (tr 3, 1), (tr 3, 2), (tr 3, 3), (tr 3, 4), (tr 4, 0), (tr 4, 1), (tr 4, 2), (tr 4, 3), (tr 4, 4)]

theorem zRows_chunks (f : Buf (Elt F) (zLoc d)) :
    (zLoc d ↦[zRows (wL L)]{fullShare} f : sProp 𝕄)
      = bigSepL chunkL fun p => zLoc d ↦[(zC L p.1 p.2).view.set]{fullShare} f := by
  rw [← zC_cover L, pointsTo_biUnion Finset.univ (ℓ := zLoc d) (fun p : Fin k8_t1_loop.trips × Fin 5 => (zC L p.1 p.2).view.set) (zC_disjoint L),
    bigSep_univ_eq_bigSepL chunkL (by decide) (by decide)]

abbrev sW (g : Buf (Elt F) ((thrL d L).loc cc8_scratch0)) (I : Buf (Elt F) (iLoc d)) :=
  (sI).view.writes (Elt F) g [⟨Rect.whole cc8_scratch0.ty.shape, idxPay d L I⟩]
abbrev sRd (I : Buf (Elt F) (iLoc d)) (off : Fin 2 → Nat) (h : ∀ a, off a + S1x80.size a ≤ S25x80.size a)
    (g : Buf (Elt F) ((thrL d L).loc cc8_scratch0)) :=
  (sRow off h).view.read (Elt F) (sW d L g I)

-- After the index copy a row of the index scratch reads the tile's plane of index words, whatever the scratch held.
theorem sRd_eq (I : Buf (Elt F) (iLoc d)) (off : Fin 2 → Nat) (h : ∀ a, off a + S1x80.size a ≤ S25x80.size a)
    (g : Buf (Elt F) ((thrL d L).loc cc8_scratch0)) (y : S80.Idx) :
    sRd d L I off h g y = I ((iPl L).view.emb ((sRow off h).view.emb y)) := by
  have h1 := View.read_writes_cons_emb (v := (sI).view) (f := g) (Rect.whole cc8_scratch0.ty.shape) (idxPay d L I) [] ((sRow off h).view.emb y)
  rw [Rect.emb_whole_apply] at h1
  show (sRow off h).view.read (Elt F) (sW d L g I) y = _
  rw [View.read_apply, cast_eq]
  refine Eq.trans h1 ?_
  show (iPl L).view.read (Elt F) I _ = _
  rw [View.read_apply, cast_eq]

theorem hin_ok (I : Buf (Elt F) (iLoc d)) (hI : IdxOK d I) (g : Buf (Elt F) ((thrL d L).loc cc8_scratch0)) (off : Fin 2 → Nat)
    (h : ∀ a, off a + S1x80.size a ≤ S25x80.size a) (x : S80.Idx) :
    (((sRow off h).view.read (Elt F) ((sI).view.writes (Elt F) g [⟨Rect.whole cc8_scratch0.ty.shape, idxPay d L I⟩])) x).toNat < 10000 := by
  show (sRd d L I off h g x).toNat < 10000
  rw [sRd_eq]
  exact hI _

-- A squeezed unit slice puts the dropped unit axis back at the slice's offset.
theorem iPl_emb (q : S25x80.Idx) : @Eq S32x25x80.Idx ((iPl L).view.emb q) (ix3 (n0 := 32) (n1 := 25) (n2 := 80) (wL L) (q 0) (q 1)) := by
  funext a
  refine Fin.ext ?_
  show k8_off1 L a + 1 * (Shape.reshapeEquiv (s := S1x25x80) (s' := S25x80) squeezes_S1x25x80_S25x80.numel_eq q a).val = _
  rw [Shape.reshapeEquiv_cons_one (n := 2) (d := ![25, 80]), k8_off1_eq]
  match a with
  | ⟨0, _⟩ => rfl
  | ⟨1, _⟩ | ⟨2, _⟩ => exact (Nat.zero_add _).trans (Nat.one_mul _)

theorem sRow_emb (j : Nat) (hj : j < 25) (h : ∀ a, ![j, 0] a + S1x80.size a ≤ S25x80.size a) (y : S80.Idx) :
    @Eq S25x80.Idx ((sRow ![j, 0] h).view.emb y) (ix2 (n0 := 25) (n1 := 80) ⟨j, hj⟩ (y 0)) := by
  funext a
  refine Fin.ext ?_
  show ![j, 0] a + 1 * (Shape.reshapeEquiv (s := S1x80) (s' := S80) squeezes_S1x80_S80.numel_eq y a).val = _
  rw [Shape.reshapeEquiv_cons_one (n := 1) (d := ![80])]
  match a with
  | ⟨0, _⟩ => rfl
  | ⟨1, _⟩ => exact (Nat.zero_add _).trans (Nat.one_mul _)

variable (X : Buf (Elt F) (xLoc d)) (I : Buf (Elt F) (iLoc d))

abbrev xG : Memref sig .scVector .hbm S10000x128 .f32 :=
  (xM).slice (Rect.unit (s := S10000x128) ![0, 0] S10000x128.size inb_S10000x128_S10000x128_0_0) (fun _ => rfl)

theorem emb_xG (i : S10000x128.Idx) : @Eq S10000x128.Idx ((xG).view.emb i) i := by
  funext a
  refine Fin.ext ?_
  match a with
  | ⟨0, _⟩ | ⟨1, _⟩ => exact (Nat.zero_add _).trans (Nat.one_mul _)

-- Row `80 (25 w + 5 t + r) + x₀` of the gathered array is the row of the table that word `(w, 5 t + r, x₀)` names; the
-- chunk's gather reads that word from row `5 t + r` of the index scratch.
theorem chunk_val (hI : IdxOK d I) (t : Fin k8_t1_loop.trips) (r : Fin 5) (off : Fin 2 → Nat)
    (h : ∀ a, off a + S1x80.size a ≤ S25x80.size a) (hoff : off = ![5 * t.val + r.val, 0])
    (g : Buf (Elt F) ((thrL d L).loc cc8_scratch0)) (hn : S80.numel = S80x128.size gathers_S10000x128_S80x128.axis')
    (hin' : ∀ x, (((sRow off h).view.read (Elt F) ((sI).view.writes (Elt F) g [⟨Rect.whole cc8_scratch0.ty.shape, idxPay d L I⟩])) x).toNat < S10000x128.size gathers_S10000x128_S80x128.axis)
    (x : S80x128.Idx) :
    gath d X I ((zC L t r).view.emb x)
      = SparseCore.gatherPayload gathers_S10000x128_S80x128 ((xG).view.read (Elt F) X) (SparseCore.rows ((sRow off h).view.read (Elt F) ((sI).view.writes (Elt F) g [⟨Rect.whole cc8_scratch0.ty.shape, idxPay d L I⟩])) hn hin') x := by
  show _ = SparseCore.gatherPayload gathers_S10000x128_S80x128 ((xG).view.read (Elt F) X) (SparseCore.rows (sRd d L I off h g) hn hin') x
  have ht : t.val < 5 := lt_of_lt_of_eq t.isLt trips_eq
  have hr := r.isLt
  have hx0 : (x 0).val < 80 := (x 0).isLt
  have hw : (wL L).val = 2 * (L 1).val + (L 0).val := rfl
  have e0 : (((zC L t r).view.emb x : S64000x128.Idx) 0).val = 2000 * (wL L).val + 400 * t.val + 80 * r.val + (x 0).val := by
    show k8_off5 L t (BitVec.ofNat 32 r.val) 0 + 1 * (x 0).val = _
    rw [k8_off5_eq]
    simp only [Matrix.cons_val_zero]
    omega
  obtain ⟨k0, k1, k2⟩ := (fun n hn => by omega : ∀ n, n = 2000 * (wL L).val + 400 * t.val + 80 * r.val + (x 0).val →
    n / 2000 = (wL L).val ∧ n / 80 % 25 = 5 * t.val + r.val ∧ n % 80 = (x 0).val) _ e0
  have e1 : (((zC L t r).view.emb x : S64000x128.Idx) 1).val = (x 1).val := by
    show k8_off5 L t (BitVec.ofNat 32 r.val) 1 + 1 * (x 1).val = _
    rw [k8_off5_eq]
    simp only [Matrix.cons_val_one, Matrix.cons_val_zero]
    omega
  have hk := Shape.rowMajor_val_one (S80.rowMajor.symm ((x gathers_S10000x128_S80x128.axis').cast hn.symm))
  rw [Equiv.apply_symm_apply] at hk
  have hy : (S80.rowMajor.symm ((x gathers_S10000x128_S80x128.axis').cast hn.symm)) 0 = x 0 := Fin.ext hk.symm
  have hrow : (gathers_S10000x128_S80x128.idx (SparseCore.rows (sRd d L I off h g) hn hin') x gathers_S10000x128_S80x128.axis).val
      = (I (ix3 (n0 := 32) (n1 := 25) (n2 := 80) (wL L) ⟨5 * t.val + r.val, by omega⟩ (x 0))).toNat := by
    rw [Shape.Gathers.idx_axis]
    unfold SparseCore.rows
    show BitVec.toNat (sRd d L I off h g (S80.rowMajor.symm ((x gathers_S10000x128_S80x128.axis').cast hn.symm))) = _
    subst hoff
    rw [sRd_eq, sRow_emb (5 * t.val + r.val) (by omega), iPl_emb]
    exact congrArg (fun k : Fin 80 => (I (ix3 (n0 := 32) (n1 := 25) (n2 := 80) (wL L) ⟨5 * t.val + r.val, by omega⟩ k)).toNat) hy
  unfold SparseCore.gatherPayload gath
  rw [View.read_apply, cast_eq]
  refine Eq.trans ?_ (congrArg X (emb_xG _)).symm
  refine congrArg X (?_ : @Eq S10000x128.Idx _ _)
  funext a
  refine Fin.ext ?_
  match a with
  | ⟨0, _⟩ =>
    refine Eq.trans ?_ (hrow.trans (Nat.mod_eq_of_lt (hI _)).symm).symm
    show (I _).toNat % 10000 = _
    refine congrArg (fun q : S32x25x80.Idx => (I q).toNat % 10000) (?_ : @Eq S32x25x80.Idx _ _)
    funext b
    refine Fin.ext ?_
    match b with
    | ⟨0, _⟩ => exact k0
    | ⟨1, _⟩ => exact k1
    | ⟨2, _⟩ => exact k2
  | ⟨1, _⟩ => exact e1.trans (Shape.Gathers.idx_of_ne gathers_S10000x128_S80x128 _ x (1 : Fin 2) (by decide)).symm

end Cert.Proof.KW.Sc4

end
-- ==== Proof.WScPre4.lean ====
import proofs.«212107_g53927609368716_cont_9to1_m_409_29_alg».proof.Proof.WScVal4

noncomputable section

namespace Cert.Proof.KW.Sc4

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Cert.Kernel.Facts]

local notation "𝕄" => MT nD τ sig (HIx 5) (Elt F) ℕ UU ℕ

local notation "sI" => (Memref.whole Cert.Kernel.cc8_scratch0 : Memref Cert.Kernel.sig Kind.scVector Space.vmem Cert.Kernel.S25x80 EltTy.i32)
local notation "sR" => (Memref.whole Cert.Kernel.cc8_scratch1 : Memref Cert.Kernel.sig Kind.scVector Space.vmem Cert.Kernel.S5x80x128 EltTy.f32)
local notation "xM" => (Memref.whole Cert.Kernel.main_arg0_scv : Memref Cert.Kernel.sig Kind.scVector Space.hbm Cert.Kernel.S10000x128 EltTy.f32)
local notation "iM" => (Memref.whole Cert.Kernel.main_v26_scv : Memref Cert.Kernel.sig Kind.scVector Space.hbm Cert.Kernel.S32x25x80 EltTy.i32)
local notation "zM" => (Memref.whole Cert.Kernel.main_v27_scv : Memref Cert.Kernel.sig Kind.scVector Space.hbm Cert.Kernel.S64000x128 EltTy.f32)

variable (d : Dev nD) (L : grid8.Coords)

abbrev T0 : Fin k8_t1_loop.trips := ⟨0, by decide⟩
abbrev T1 : Fin k8_t1_loop.trips := ⟨1, by decide⟩
abbrev T2 : Fin k8_t1_loop.trips := ⟨2, by decide⟩
abbrev T3 : Fin k8_t1_loop.trips := ⟨3, by decide⟩
abbrev T4 : Fin k8_t1_loop.trips := ⟨4, by decide⟩

abbrev XT (qt : PosShare TreeShare) (X : Buf (Elt F) (xLoc d)) : sProp 𝕄 :=
  bigSepL [(0 : Fin 5), 1, 2, 3, 4] fun b => xLoc d ↦{Transfers.shareTok qt 5 b} X

abbrev ZT (f : Buf (Elt F) (zLoc d)) : sProp 𝕄 :=
  bigSepL chunkL fun p => zLoc d ↦[(zC L p.1 p.2).view.set]{fullShare} f

abbrev ST : sProp 𝕄 := bigSepL (semL.map fun sm => ((thrL d L, sm) : GSem nD τ sig)) (fun g => semVal g 0)

theorem slot_read_write_same (off : Fin 3 → Nat) (h : ∀ a, off a + S1x80x128.size a ≤ S5x80x128.size a)
    (G : Buf (Elt F) ((thrL d L).loc cc8_scratch1)) (P : S80x128.Idx → Elt F .f32) :
    (slotM off h).view.read (Elt F) (View.write (Elt F) (slotM off h).view G P Finset.univ) = P := by
  funext x
  rw [View.read_apply, View.write_emb_of_mem _ _ (Finset.mem_univ x), cast_cast, cast_eq]

theorem slot_disjoint (off off' : Fin 3 → Nat) (h : ∀ a, off a + S1x80x128.size a ≤ S5x80x128.size a)
    (h' : ∀ a, off' a + S1x80x128.size a ≤ S5x80x128.size a) (hne : off 0 ≠ off' 0) :
    Disjoint (slotM off h).view.set (slotM off' h').view.set := by
  show Disjoint (((View.whole cc8_scratch1).slice (Rect.unit (s := S5x80x128) off S1x80x128.size h)).reshape S80x128 squeezes_S1x80x128_S80x128.numel_eq).set
    (((View.whole cc8_scratch1).slice (Rect.unit (s := S5x80x128) off' S1x80x128.size h')).reshape S80x128 squeezes_S1x80x128_S80x128.numel_eq).set
  rw [View.set_reshape, View.set_reshape, View.set_slice_whole, View.set_slice_whole]
  refine Rect.unit_disjoint (0 : Fin 3) ?_
  rcases Nat.lt_or_gt_of_ne hne with hlt | hgt
  · left; show off 0 + 1 ≤ off' 0; omega
  · right; show off' 0 + 1 ≤ off 0; omega

theorem slot_read_write_other (off off' : Fin 3 → Nat) (h : ∀ a, off a + S1x80x128.size a ≤ S5x80x128.size a)
    (h' : ∀ a, off' a + S1x80x128.size a ≤ S5x80x128.size a) (hne : off 0 ≠ off' 0)
    (G : Buf (Elt F) ((thrL d L).loc cc8_scratch1)) (P' : S80x128.Idx → Elt F .f32) :
    (slotM off h).view.read (Elt F) (View.write (Elt F) (slotM off' h').view G P' Finset.univ) = (slotM off h).view.read (Elt F) G := by
  funext x
  rw [View.read_apply, View.read_apply, View.write_of_not_mem]
  rw [View.setOn_univ]
  exact Finset.disjoint_left.mp (slot_disjoint off off' h h' hne) (View.emb_mem_set (slotM off h).view x)

theorem z_fin (X : Buf (Elt F) (xLoc d)) (I : Buf (Elt F) (iLoc d)) (t : Fin k8_t1_loop.trips) (r : Fin 5) (fz : Buf (Elt F) (zLoc d))
    (P : S80x128.Idx → Elt F .f32) (hP : ∀ x, gath d X I ((zC L t r).view.emb x) = P x) :
    ((zC L t r).view.loc (thrL d L) ↦[(zC L t r).view.set]{fullShare} (zC L t r).view.writes (Elt F) fz [⟨Rect.whole S80x128, P⟩] : sProp 𝕄)
      = (zLoc d ↦[(zC L t r).view.set]{fullShare} gath d X I) := by
  refine pointsTo_congr fun y hy => ?_
  obtain ⟨x, -, rfl⟩ := Finset.mem_map.mp hy
  have h1 := View.read_writes_cons_emb (v := (zC L t r).view) (f := fz) (Rect.whole S80x128) P [] x
  rw [Rect.emb_whole_apply, View.read_apply] at h1
  exact ((cast_eq _ _).symm.trans h1).trans (hP x).symm

theorem waits_ok {W W' : Waits sig (HIx 5)} (sm : SemLoc sig) (h : ∀ p ∈ W', p ∈ W ∨ p.2 = none) :
    ∀ p ∈ insert (sm, (default : HIx 5)) W', p ∈ W ∨ p.2 = none := by
  intro p hp
  rcases Finset.mem_insert.mp hp with rfl | hp
  · exact .inr rfl
  · exact h p hp
theorem waits_ok₀ {W : Waits sig (HIx 5)} : ∀ p ∈ W, p ∈ W ∨ p.2 = none := fun _ hp => .inl hp

theorem pts_x (q : PosShare TreeShare) (X : Buf (Elt F) (xLoc d)) :
    (xLoc d ↦{q} X : sProp 𝕄) = ((xM).view.loc (thrL d L) ↦[(xM).view.set]{q} X) := by
  simp only [Memref.view_whole, View.set_whole]
theorem pts_s0 (f : Buf (Elt F) ((thrL d L).loc cc8_scratch0)) :
    ((thrL d L).loc cc8_scratch0 ↦{fullShare} f : sProp 𝕄) = ((sI).view.loc (thrL d L) ↦[(sI).view.set]{fullShare} f) := by
  simp only [Memref.view_whole, View.set_whole]
theorem pts_s1 (f : Buf (Elt F) ((thrL d L).loc cc8_scratch1)) :
    ((thrL d L).loc cc8_scratch1 ↦{fullShare} f : sProp 𝕄) = ((sR).view.loc (thrL d L) ↦[(sR).view.set]{fullShare} f) := by
  simp only [Memref.view_whole, View.set_whole]

end Cert.Proof.KW.Sc4

end
-- ==== Proof.WScTile4.lean ====
import proofs.«212107_g53927609368716_cont_9to1_m_409_29_alg».proof.Proof.WScPre4

noncomputable section

namespace Cert.Proof.KW.Sc4

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Cert.Kernel.Facts]

local notation "𝕄" => MT nD τ sig (HIx 5) (Elt F) ℕ UU ℕ

local notation "sI" => (Memref.whole Cert.Kernel.cc8_scratch0 : Memref Cert.Kernel.sig Kind.scVector Space.vmem Cert.Kernel.S25x80 EltTy.i32)
local notation "sR" => (Memref.whole Cert.Kernel.cc8_scratch1 : Memref Cert.Kernel.sig Kind.scVector Space.vmem Cert.Kernel.S5x80x128 EltTy.f32)
local notation "xM" => (Memref.whole Cert.Kernel.main_arg0_scv : Memref Cert.Kernel.sig Kind.scVector Space.hbm Cert.Kernel.S10000x128 EltTy.f32)
local notation "iM" => (Memref.whole Cert.Kernel.main_v26_scv : Memref Cert.Kernel.sig Kind.scVector Space.hbm Cert.Kernel.S32x25x80 EltTy.i32)
local notation "zM" => (Memref.whole Cert.Kernel.main_v27_scv : Memref Cert.Kernel.sig Kind.scVector Space.hbm Cert.Kernel.S64000x128 EltTy.f32)

variable (d : Dev nD) (L : grid8.Coords)

theorem xt_eq (qt : PosShare TreeShare) (X : Buf (Elt F) (xLoc d)) :
    XT d qt X = iprop(((xM).view.loc (thrL d L) ↦[(xM).view.set]{Transfers.shareTok qt 5 0} X) ∗ ((xM).view.loc (thrL d L) ↦[(xM).view.set]{Transfers.shareTok qt 5 1} X) ∗ ((xM).view.loc (thrL d L) ↦[(xM).view.set]{Transfers.shareTok qt 5 2} X) ∗ ((xM).view.loc (thrL d L) ↦[(xM).view.set]{Transfers.shareTok qt 5 3} X) ∗ ((xM).view.loc (thrL d L) ↦[(xM).view.set]{Transfers.shareTok qt 5 4} X)) := by
  simp only [← pts_x d L]; rfl

theorem zt_eq (f : Buf (Elt F) (zLoc d)) :
    ZT d L f = iprop((zLoc d ↦[(zC L T0 0).view.set]{fullShare} f) ∗ (zLoc d ↦[(zC L T0 1).view.set]{fullShare} f) ∗ (zLoc d ↦[(zC L T0 2).view.set]{fullShare} f) ∗ (zLoc d ↦[(zC L T0 3).view.set]{fullShare} f) ∗ (zLoc d ↦[(zC L T0 4).view.set]{fullShare} f) ∗ (zLoc d ↦[(zC L T1 0).view.set]{fullShare} f) ∗ (zLoc d ↦[(zC L T1 1).view.set]{fullShare} f) ∗ (zLoc d ↦[(zC L T1 2).view.set]{fullShare} f) ∗ (zLoc d ↦[(zC L T1 3).view.set]{fullShare} f) ∗ (zLoc d ↦[(zC L T1 4).view.set]{fullShare} f) ∗ (zLoc d ↦[(zC L T2 0).view.set]{fullShare} f) ∗ (zLoc d ↦[(zC L T2 1).view.set]{fullShare} f) ∗ (zLoc d ↦[(zC L T2 2).view.set]{fullShare} f) ∗ (zLoc d ↦[(zC L T2 3).view.set]{fullShare} f) ∗ (zLoc d ↦[(zC L T2 4).view.set]{fullShare} f) ∗ (zLoc d ↦[(zC L T3 0).view.set]{fullShare} f) ∗ (zLoc d ↦[(zC L T3 1).view.set]{fullShare} f) ∗ (zLoc d ↦[(zC L T3 2).view.set]{fullShare} f) ∗ (zLoc d ↦[(zC L T3 3).view.set]{fullShare} f) ∗ (zLoc d ↦[(zC L T3 4).view.set]{fullShare} f) ∗ (zLoc d ↦[(zC L T4 0).view.set]{fullShare} f) ∗ (zLoc d ↦[(zC L T4 1).view.set]{fullShare} f) ∗ (zLoc d ↦[(zC L T4 2).view.set]{fullShare} f) ∗ (zLoc d ↦[(zC L T4 3).view.set]{fullShare} f) ∗ (zLoc d ↦[(zC L T4 4).view.set]{fullShare} f)) := rfl

theorem pts_z (t : Fin k8_t1_loop.trips) (r : Fin 5) (f : Buf (Elt F) (zLoc d)) :
    (zLoc d ↦[(zC L t r).view.set]{fullShare} f : sProp 𝕄) = ((zC L t r).view.loc (thrL d L) ↦[(zC L t r).view.set]{fullShare} f) := rfl

theorem st_eq : (ST d L : sProp 𝕄) = iprop(semVal (thrL d L, SemLoc.dma gS0) 0 ∗ semVal (thrL d L, SemLoc.dma gS1) 0 ∗ semVal (thrL d L, SemLoc.dma gS2) 0 ∗ semVal (thrL d L, SemLoc.dma gS3) 0 ∗ semVal (thrL d L, SemLoc.dma gS4) 0 ∗ semVal (thrL d L, SemLoc.dma wS0) 0 ∗ semVal (thrL d L, SemLoc.dma wS1) 0 ∗ semVal (thrL d L, SemLoc.dma wS2) 0 ∗ semVal (thrL d L, SemLoc.dma wS3) 0 ∗ semVal (thrL d L, SemLoc.dma wS4) 0 ∗ semVal (thrL d L, SemLoc.dma cS) 0) := rfl

set_option maxHeartbeats 16000000 in
theorem tile_run (O : CellTallies nD τ sig (HIx 5)) (W : Waits sig (HIx 5)) (hO : ∀ g, O g none = 0)
    (X : Buf (Elt F) (xLoc d)) (I : Buf (Elt F) (iLoc d)) (hI : IdxOK d I)
    (fs : Buf (Elt F) ((thrL d L).loc cc8_scratch0)) (fr : Buf (Elt F) ((thrL d L).loc cc8_scratch1))
    (fz : Buf (Elt F) (zLoc d)) (qt : PosShare TreeShare) :
    (iprop(levAts (K (F := F)).L (K (F := F)).lev ∗ XT d qt X
        ∗ (iLoc d ↦[(iPl L).view.set]{fullShare} I)
        ∗ ((thrL d L).loc cc8_scratch0 ↦{fullShare} fs) ∗ ((thrL d L).loc cc8_scratch1 ↦{fullShare} fr)
        ∗ ZT d L fz ∗ ST d L ∗ owes (thrL d L) O W) : sProp 𝕄)
      ⊢ wp frame (wpE (defs₀ (F := F)) 𝒱₀ (thrL d L) none) Set.univ
          (cc8_k L xM (Memref.isWhole_whole _) iM (Memref.isWhole_whole _) zM (Memref.isWhole_whole _) sI (Memref.isWhole_whole _) sR (Memref.isWhole_whole _) cc8_scratch2 cc8_scratch3 cc8_scoped0)
          fun _ => iprop(XT d qt X ∗ (iLoc d ↦[(iPl L).view.set]{fullShare} I)
            ∗ (∃ f, (thrL d L).loc cc8_scratch0 ↦{fullShare} f) ∗ (∃ f, (thrL d L).loc cc8_scratch1 ↦{fullShare} f)
            ∗ ZT d L (gath d X I) ∗ ST d L ∗ ∃ W', ⌜∀ p ∈ W', p ∈ W ∨ p.2 = none⌝ ∗ owes (thrL d L) O W') := by
  have hin := hin_ok d L I hI
  simp only [cc8_k_eq_skeleton]; unfold cc8_k_skel
  iintro ⟨#Hlv, HX, Hi, Hs, Hr, HZ, HS, HO⟩
  ihave Hmw := ((K (F := F)).mayWaits_none (thr := thrL d L) hO) $$ Hlv
  ihave ⟨Hz00, Hz01, Hz02, Hz03, Hz04, Hz10, Hz11, Hz12, Hz13, Hz14, Hz20, Hz21, Hz22, Hz23, Hz24, Hz30, Hz31, Hz32, Hz33, Hz34, Hz40, Hz41, Hz42, Hz43, Hz44⟩ := (Entails.of_eq (zt_eq d L fz)) $$ HZ
  ihave ⟨Hg0, Hg1, Hg2, Hg3, Hg4, Hw0, Hw1, Hw2, Hw3, Hw4, Hc⟩ := (Entails.of_eq (st_eq d L)) $$ HS
  ihave ⟨Hx0, Hx1, Hx2, Hx3, Hx4⟩ := (Entails.of_eq (xt_eq d L qt X)) $$ HX
  ihave Hi := (Entails.of_eq (show (iLoc d ↦[(iPl L).view.set]{fullShare} I : sProp 𝕄) = ((iPl L).view.loc (thrL d L) ↦[(iPl L).view.set]{fullShare} I) from rfl)) $$ Hi
  ihave Hs := (Entails.of_eq (pts_s0 d L fs)) $$ Hs
  ihave Hr := (Entails.of_eq (pts_s1 d L fr)) $$ Hr
  ihave Hz00 := (Entails.of_eq (pts_z d L T0 0 fz)) $$ Hz00
  ihave Hz01 := (Entails.of_eq (pts_z d L T0 1 fz)) $$ Hz01
  ihave Hz02 := (Entails.of_eq (pts_z d L T0 2 fz)) $$ Hz02
  ihave Hz03 := (Entails.of_eq (pts_z d L T0 3 fz)) $$ Hz03
  ihave Hz04 := (Entails.of_eq (pts_z d L T0 4 fz)) $$ Hz04
  ihave Hz10 := (Entails.of_eq (pts_z d L T1 0 fz)) $$ Hz10
  ihave Hz11 := (Entails.of_eq (pts_z d L T1 1 fz)) $$ Hz11
  ihave Hz12 := (Entails.of_eq (pts_z d L T1 2 fz)) $$ Hz12
  ihave Hz13 := (Entails.of_eq (pts_z d L T1 3 fz)) $$ Hz13
  ihave Hz14 := (Entails.of_eq (pts_z d L T1 4 fz)) $$ Hz14
  ihave Hz20 := (Entails.of_eq (pts_z d L T2 0 fz)) $$ Hz20
  ihave Hz21 := (Entails.of_eq (pts_z d L T2 1 fz)) $$ Hz21
  ihave Hz22 := (Entails.of_eq (pts_z d L T2 2 fz)) $$ Hz22
  ihave Hz23 := (Entails.of_eq (pts_z d L T2 3 fz)) $$ Hz23
  ihave Hz24 := (Entails.of_eq (pts_z d L T2 4 fz)) $$ Hz24
  ihave Hz30 := (Entails.of_eq (pts_z d L T3 0 fz)) $$ Hz30
  ihave Hz31 := (Entails.of_eq (pts_z d L T3 1 fz)) $$ Hz31
  ihave Hz32 := (Entails.of_eq (pts_z d L T3 2 fz)) $$ Hz32
  ihave Hz33 := (Entails.of_eq (pts_z d L T3 3 fz)) $$ Hz33
  ihave Hz34 := (Entails.of_eq (pts_z d L T3 4 fz)) $$ Hz34
  ihave Hz40 := (Entails.of_eq (pts_z d L T4 0 fz)) $$ Hz40
  ihave Hz41 := (Entails.of_eq (pts_z d L T4 1 fz)) $$ Hz41
  ihave Hz42 := (Entails.of_eq (pts_z d L T4 2 fz)) $$ Hz42
  ihave Hz43 := (Entails.of_eq (pts_z d L T4 3 fz)) $$ Hz43
  ihave Hz44 := (Entails.of_eq (pts_z d L T4 4 fz)) $$ Hz44
  sl_exec
  sl_unroll
  sl_exec
  sl_step
  isplitl [Hx0 Hx1 Hx2 Hx3 Hx4]
  · iapply (Entails.of_eq (xt_eq d L qt X).symm)
    isplitl [Hx0]; · iexact Hx0
    isplitl [Hx1]; · iexact Hx1
    isplitl [Hx2]; · iexact Hx2
    isplitl [Hx3]; · iexact Hx3
    iexact Hx4
  isplitl [Hi]; · iexact Hi
  isplitl [Hs]; · iexists _; iapply (Entails.of_eq (pts_s0 d L _).symm); iexact Hs
  isplitl [Hr]; · iexists _; iapply (Entails.of_eq (pts_s1 d L _).symm); iexact Hr
  isplitr [Hg0 Hg1 Hg2 Hg3 Hg4 Hw0 Hw1 Hw2 Hw3 Hw4 Hc HO]
  · iapply (Entails.of_eq (zt_eq d L (gath d X I)).symm)
    have zf := fun t r P hP => Entails.of_eq (z_fin d L X I t r fz P hP)
    isplitl [Hz00]; iapply (zf T0 0 _ ?_); rotate_left; iexact Hz00
    isplitl [Hz01]; iapply (zf T0 1 _ ?_); rotate_left; iexact Hz01
    isplitl [Hz02]; iapply (zf T0 2 _ ?_); rotate_left; iexact Hz02
    isplitl [Hz03]; iapply (zf T0 3 _ ?_); rotate_left; iexact Hz03
    isplitl [Hz04]; iapply (zf T0 4 _ ?_); rotate_left; iexact Hz04
    isplitl [Hz10]; iapply (zf T1 0 _ ?_); rotate_left; iexact Hz10
    isplitl [Hz11]; iapply (zf T1 1 _ ?_); rotate_left; iexact Hz11
    isplitl [Hz12]; iapply (zf T1 2 _ ?_); rotate_left; iexact Hz12
    isplitl [Hz13]; iapply (zf T1 3 _ ?_); rotate_left; iexact Hz13
    isplitl [Hz14]; iapply (zf T1 4 _ ?_); rotate_left; iexact Hz14
    isplitl [Hz20]; iapply (zf T2 0 _ ?_); rotate_left; iexact Hz20
    isplitl [Hz21]; iapply (zf T2 1 _ ?_); rotate_left; iexact Hz21
    isplitl [Hz22]; iapply (zf T2 2 _ ?_); rotate_left; iexact Hz22
    isplitl [Hz23]; iapply (zf T2 3 _ ?_); rotate_left; iexact Hz23
    isplitl [Hz24]; iapply (zf T2 4 _ ?_); rotate_left; iexact Hz24
    isplitl [Hz30]; iapply (zf T3 0 _ ?_); rotate_left; iexact Hz30
    isplitl [Hz31]; iapply (zf T3 1 _ ?_); rotate_left; iexact Hz31
    isplitl [Hz32]; iapply (zf T3 2 _ ?_); rotate_left; iexact Hz32
    isplitl [Hz33]; iapply (zf T3 3 _ ?_); rotate_left; iexact Hz33
    isplitl [Hz34]; iapply (zf T3 4 _ ?_); rotate_left; iexact Hz34
    isplitl [Hz40]; iapply (zf T4 0 _ ?_); rotate_left; iexact Hz40
    isplitl [Hz41]; iapply (zf T4 1 _ ?_); rotate_left; iexact Hz41
    isplitl [Hz42]; iapply (zf T4 2 _ ?_); rotate_left; iexact Hz42
    isplitl [Hz43]; iapply (zf T4 3 _ ?_); rotate_left; iexact Hz43
    iapply (zf T4 4 _ ?_); rotate_left; iexact Hz44
    all_goals
      intro x
      show _ = View.read (Elt F) (slotM _ _).view _ x
      repeat (first | rw [slot_read_write_same d L] | (rw [slot_read_write_other d L]; on_goal 2 => decide))
      exact chunk_val d L X I hI _ _ _ _ (by first | rfl | (rw [k8_off3_eq]; rfl) | (rw [k8_off7_eq]; rfl) | (rw [k8_off9_eq]; rfl) | (rw [k8_off11_eq]; rfl) | (rw [k8_off13_eq]; rfl) | decide) _ _ _ x
  isplitr [HO]
  · iapply (Entails.of_eq (st_eq d L).symm)
    isplitl [Hg0]; · iexact Hg0
    isplitl [Hg1]; · iexact Hg1
    isplitl [Hg2]; · iexact Hg2
    isplitl [Hg3]; · iexact Hg3
    isplitl [Hg4]; · iexact Hg4
    isplitl [Hw0]; · iexact Hw0
    isplitl [Hw1]; · iexact Hw1
    isplitl [Hw2]; · iexact Hw2
    isplitl [Hw3]; · iexact Hw3
    isplitl [Hw4]; · iexact Hw4
    iexact Hc
  iexists _
  isplitr
  on_goal 2 => iexact HO
  ipureintro
  repeat (first | exact waits_ok₀ | refine waits_ok _ ?_)

end Cert.Proof.KW.Sc4

end
-- ==== Proof.WScBody4.lean ====
import proofs.«212107_g53927609368716_cont_9to1_m_409_29_alg».proof.Proof.WScTile4

noncomputable section

namespace Cert.Proof.KW.Sc4

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Cert.Kernel.Facts]

local notation "𝕄" => MT nD τ sig (HIx 5) (Elt F) ℕ UU ℕ

variable (d : Dev nD) (L : grid8.Coords)

-- The tile's run with the rest framed off: its share of the table as five tokens, its rows of the result by chunks.
theorem tile_body (hF : (K (F := F)).Facts) (q : PosShare TreeShare)
    (X : Buf (Elt F) (xLoc d)) (I : Buf (Elt F) (iLoc d)) (hI : IdxOK d I)
    (O : CellTallies nD τ sig (HIx 5)) (W : Waits sig (HIx 5)) (hO : ∀ g, O g none = 0) :
    iprop(levAts (K (F := F)).L (K (F := F)).lev ∗ go d q X I (cL L) (jL L)
        ∗ scopedBufs (thrL d L) ∗ scopedSems0 (thrL d L) ∗ owes (thrL d L) O W)
      ⊢ wp frame (wpE (defs₀ (F := F)) 𝒱₀ (thrL d L) none) Set.univ
          (cc8_k L (Memref.whole main_arg0_scv) (Memref.isWhole_whole _) (Memref.whole main_v26_scv) (Memref.isWhole_whole _) (Memref.whole main_v27_scv) (Memref.isWhole_whole _)
            (Memref.whole cc8_scratch0) (Memref.isWhole_whole _) (Memref.whole cc8_scratch1) (Memref.isWhole_whole _) cc8_scratch2 cc8_scratch3 cc8_scoped0)
          fun _ => iprop(td d q X I (cL L) (jL L) ∗ scopedBufs (thrL d L) ∗ scopedSems0 (thrL d L)
            ∗ ∃ W', ⌜∀ p ∈ W', p ∈ W ∨ p.2 = none⌝ ∗ owes (thrL d L) O W') := by
  unfold go td
  have h : (xLoc d ↦{qTile q (cL L) (jL L)} X : sProp 𝕄) ⊣⊢ _ := Transfers.pointsTo_toks _ 5
  rw [(K (F := F)).scopedBufs_V hF d _ _, SparseCore.Cfg.scopedSems0_V (Val := Elt F) d _ _, ownSems0_split, ownBufs_split,
    ← set_iPl L, zRows_chunks d L (gath d X I), BI.Entails.antisymm h.1 h.2,
    bigSep_univ_eq_bigSepL [(0 : Fin 5), 1, 2, 3, 4] (by decide) (by decide)]
  iintro ⟨#Hlv, ⟨⟨Hxd, Hxt⟩, Hi, %fz, Hz⟩, ⟨⟨%fs, Hs⟩, ⟨%fr, Hr⟩, Hbufs⟩, ⟨Hsems, Hsrest⟩, HO⟩
  ihave Hz := (Entails.of_eq (zRows_chunks d L fz)) $$ Hz
  iapply (wp_wand_r frame _ _)
  isplitl [Hxt Hi Hs Hr Hz Hsems HO]
  · iapply (tile_run d L O W hO X I hI fs fr fz (qTile q (cL L) (jL L)))
    isplitr; · iexact Hlv
    isplitl [Hxt]; · iexact Hxt
    isplitl [Hi]; · iexact Hi
    isplitl [Hs]; · iexact Hs
    isplitl [Hr]; · iexact Hr
    isplitl [Hz]; · iexact Hz
    isplitl [Hsems]; · iexact Hsems
    iexact HO
  iintro %_ ⟨Hxt, Hi, Hs, Hr, Hz, Hsems, HO⟩
  isplitl [Hxd Hxt Hi Hz]
  · isplitl [Hxd Hxt]
    · isplitl [Hxd]; · iexact Hxd
      iexact Hxt
    isplitl [Hi]; · iexact Hi
    iexact Hz
  isplitl [Hs Hr Hbufs]
  · isplitl [Hs]; · iexact Hs
    isplitl [Hr]; · iexact Hr
    iexact Hbufs
  isplitl [Hsems Hsrest]
  · isplitl [Hsems]; · iexact Hsems
    iexact Hsrest
  iexact HO

end Cert.Proof.KW.Sc4

end
-- ==== Proof.Final.lean ====
import proofs.«212107_g53927609368716_cont_9to1_m_409_29_alg».proof.Proof.Claims
import proofs.«212107_g53927609368716_cont_9to1_m_409_29_alg».proof.Proof.RefValue2
import proofs.«212107_g53927609368716_cont_9to1_m_409_29_alg».proof.Proof.PreFacts
import proofs.«212107_g53927609368716_cont_9to1_m_409_29_alg».proof.Proof.MainClosed
import proofs.«212107_g53927609368716_cont_9to1_m_409_29_alg».proof.Proof.ResFinal
import proofs.«212107_g53927609368716_cont_9to1_m_409_29_alg».proof.Proof.Obl
import proofs.«212107_g53927609368716_cont_9to1_m_409_29_alg».proof.Proof.ScBody0
import proofs.«212107_g53927609368716_cont_9to1_m_409_29_alg».proof.Proof.ScBody1
import proofs.«212107_g53927609368716_cont_9to1_m_409_29_alg».proof.Proof.ScBody2
import proofs.«212107_g53927609368716_cont_9to1_m_409_29_alg».proof.Proof.ScBody3
import proofs.«212107_g53927609368716_cont_9to1_m_409_29_alg».proof.Proof.ScBody4
import proofs.«212107_g53927609368716_cont_9to1_m_409_29_alg».proof.Proof.WPreFacts
import proofs.«212107_g53927609368716_cont_9to1_m_409_29_alg».proof.Proof.WMainClosed
import proofs.«212107_g53927609368716_cont_9to1_m_409_29_alg».proof.Proof.WObl
import proofs.«212107_g53927609368716_cont_9to1_m_409_29_alg».proof.Proof.WScBody0
import proofs.«212107_g53927609368716_cont_9to1_m_409_29_alg».proof.Proof.WScBody1
import proofs.«212107_g53927609368716_cont_9to1_m_409_29_alg».proof.Proof.WScBody2
import proofs.«212107_g53927609368716_cont_9to1_m_409_29_alg».proof.Proof.WScBody3
import proofs.«212107_g53927609368716_cont_9to1_m_409_29_alg».proof.Proof.WScBody4

noncomputable section

namespace Cert.Proof.Final

open Idealize.ShloMosaic Idealize.SL.Sem Idealize.ShloMosaic.ValueIdx
open Cert.Routing

section Ideal

open Cert.KernelIdeal Cert.KernelIdeal.Gen Cert.Proof.KI

theorem nbI (m : (ℓ : Loc nD τ sig) → Buf (Elt Ideal) ℓ) (hpre : Cert.Pre_KernelIdeal m) (d : Dev nD) (i : S10000x32.Idx) :
    ((m (nbLoc d) : IVec S10000x32 32) i).toNat ≤ 9999 :=
  Pre.nb_range (F := Ideal) (m (xLoc d)) (m (nbLoc d)) (hpre d) i

theorem htileI : Claims.TileHypI := fun m hpre q =>
  htile (F := Ideal) m (I0 m) (I1 m) (I2 m) (I3 m) (I4 m)
    (fun hF d L => Sc0.tile_body d L hF) (fun hF d L => Sc1.tile_body d L hF) (fun hF d L => Sc2.tile_body d L hF)
    (fun hF d L => Sc3.tile_body d L hF) (fun hF d L => Sc4.tile_body d L hF) facts
    (fun d => Pre.idxOf_lt' (m (nbLoc d)) (nbI m hpre d) 0) (fun d => Pre.idxOf_lt' (m (nbLoc d)) (nbI m hpre d) 1)
    (fun d => Pre.idxOf_lt' (m (nbLoc d)) (nbI m hpre d) 2) (fun d => Pre.idxOf_lt' (m (nbLoc d)) (nbI m hpre d) 3)
    (fun d => Pre.idxOf_lt' (m (nbLoc d)) (nbI m hpre d) 4) q (kind_vec q)

theorem hmainI : Claims.MainHypI (Main.ResI (F := Ideal)) := fun m ρ _ κ d => Main.hmainI m ρ κ d

theorem refRes_at (m : (ℓ : Loc nD τ sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev nD,
      m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1))
    (c : Dev nD) (n : Fin 10000) (d : Fin 128) :
    (Claims.RefRes m' c : FVec Ideal S10000x128 .f32) (ix2 n d)
      = rRow (fun mm k => (m (xLoc c) : FVec Ideal S10000x128 .f32) (ix2 (nbRow ((m (nbLoc c) : IVec S10000x32 32) (ix2 n mm))) k))
          (fun k => (m (xLoc c) : FVec Ideal S10000x128 .f32) (ix2 n k)) d := by
  have hX := (hagree c).1
  have hN := (hagree c).2
  have hNB : ∀ i, (((fun b => m' (c, b)) (Proc.devRef .tc Cert.ReferenceIdeal.main_arg1) : IVec S10000x32 32) i).toNat ≤ 9999 := by
    intro i
    show ((m' ((c.tc : Thread Cert.ReferenceIdeal.nD Cert.ReferenceIdeal.τ).loc Cert.ReferenceIdeal.main_arg1) : IVec S10000x32 32) i).toNat ≤ 9999
    rw [hN]
    exact nbI m hpre c i
  refine (Cert.ReferenceIdeal.RefValue.value_at (fun b => m' (c, b)) hNB n d).trans ?_
  show rRow (fun mm k => (m' ((c.tc : Thread Cert.ReferenceIdeal.nD Cert.ReferenceIdeal.τ).loc Cert.ReferenceIdeal.main_arg0) : FVec Ideal S10000x128 .f32)
        (ix2 (nbRow ((m' ((c.tc : Thread Cert.ReferenceIdeal.nD Cert.ReferenceIdeal.τ).loc Cert.ReferenceIdeal.main_arg1) : IVec S10000x32 32) (ix2 n mm))) k))
      (fun k => (m' ((c.tc : Thread Cert.ReferenceIdeal.nD Cert.ReferenceIdeal.τ).loc Cert.ReferenceIdeal.main_arg0) : FVec Ideal S10000x128 .f32) (ix2 n k)) d = _
  rw [hX, hN]

theorem hval : Claims.ValHyp (Main.ResI (F := Ideal)) := fun m m' hpre hagree c =>
  (ResFinal.res_final m c (hpre c) (Claims.RefRes m' c) (refRes_at m m' hpre hagree c)).symm

end Ideal

section Word

open Cert.Kernel Cert.Kernel.Gen Cert.Proof.KW

theorem nbW (m : (ℓ : Loc nD τ sig) → Buf (Elt Bits) ℓ) (hpre : Cert.Pre_Kernel m) (d : Dev nD) (i : S10000x32.Idx) :
    ((m (nbLoc d) : IVec S10000x32 32) i).toNat ≤ 9999 :=
  Pre.nb_range (F := Bits) (m (xLoc d)) (m (nbLoc d)) (hpre d) i

theorem htileW : Claims.TileHypW := fun m hpre q =>
  htile (F := Bits) m (I0 m) (I1 m) (I2 m) (I3 m) (I4 m)
    (fun hF d L => Sc0.tile_body d L hF) (fun hF d L => Sc1.tile_body d L hF) (fun hF d L => Sc2.tile_body d L hF)
    (fun hF d L => Sc3.tile_body d L hF) (fun hF d L => Sc4.tile_body d L hF) facts
    (fun d => Pre.idxOf_lt' (m (nbLoc d)) (nbW m hpre d) 0) (fun d => Pre.idxOf_lt' (m (nbLoc d)) (nbW m hpre d) 1)
    (fun d => Pre.idxOf_lt' (m (nbLoc d)) (nbW m hpre d) 2) (fun d => Pre.idxOf_lt' (m (nbLoc d)) (nbW m hpre d) 3)
    (fun d => Pre.idxOf_lt' (m (nbLoc d)) (nbW m hpre d) 4) q (kind_vec q)

theorem hmainW : Claims.MainHypW (Main.ResI (F := Bits)) := fun m ρ _ κ d => Main.hmainI m ρ κ d

end Word

theorem claim : Cert.Claim :=
  Claims.claim_of (Cert.Proof.KW.Main.ResI (F := Bits)) htileW hmainW (Cert.Proof.KI.Main.ResI (F := Ideal)) htileI hmainI hval

end Cert.Proof.Final

end
-- ==== Proof.lean ====
import proofs.«212107_g53927609368716_cont_9to1_m_409_29_alg».proof.Defs
import proofs.«212107_g53927609368716_cont_9to1_m_409_29_alg».proof.Proof.Final

noncomputable section

namespace Cert.Proof

theorem claim : Cert.Claim := Cert.Proof.Final.claim

end Cert.Proof

end
